-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x1 : Shape := ⟨2, ![1600000, 1]⟩
abbrev S100000x1 : Shape := ⟨2, ![100000, 1]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x10 : S_.BroadcastsInDim S128x10 (![] : Fin 0 → Fin S128x10.rank)
  reducesTo_S128x10_S_d0_1 : S128x10.ReducesTo [0, 1] S_

variable [Facts]

def fn_part2 {F : FTy → Type} [FloatOps F] (main_arg10 : FVec F S4x128 .f32) (main_arg11 : FVec F S4x128 .f32) (main_arg12 : FVec F S128x10 .f32) (main_v33 : IVec S_ 1) : IVec S_ 1 :=
  let main_v34 : FVec F S4x128 .f32 := Host.absf main_arg10
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg11
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x10 .f32 := Host.absf main_arg12
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  main_v48

def fn_part1 {F : FTy → Type} [FloatOps F] (main_arg7 : FVec F S128 .f32) (main_arg8 : FVec F S4x128x128 .f32) (main_arg9 : FVec F S4x128 .f32) (main_arg10 : FVec F S4x128 .f32) (main_arg11 : FVec F S4x128 .f32) (main_arg12 : FVec F S128x10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg8
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg9
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : FVec F S1600000x1 .f32) (main_arg2 : FVec F S100000x1 .f32) (main_arg3 : IVec S1600000 32) (main_arg4 : IVec S1600000 32) (main_arg5 : IVec S100000 32) (main_arg6 : FVec F S128x128 .f32) (main_arg7 : FVec F S128 .f32) (main_arg8 : FVec F S4x128x128 .f32) (main_arg9 : FVec F S4x128 .f32) (main_arg10 : FVec F S4x128 .f32) (main_arg11 : FVec F S4x128 .f32) (main_arg12 : FVec F S128x10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S1600000x1 : Shape := ⟨2, ![1600000, 1]⟩
abbrev S100000x1 : Shape := ⟨2, ![100000, 1]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S_ : Shape := ⟨0, ![]⟩
abbrev S1x128 : Shape := ⟨2, ![1, 128]⟩
abbrev S5000x128 : Shape := ⟨2, ![5000, 128]⟩
abbrev S1600000x128 : Shape := ⟨2, ![1600000, 128]⟩
abbrev S1x128x128 : Shape := ⟨3, ![1, 128, 128]⟩
abbrev S5000x1 : Shape := ⟨2, ![5000, 1]⟩
abbrev S512 : Shape := ⟨1, ![512]⟩
abbrev S512x128 : Shape := ⟨2, ![512, 128]⟩
abbrev S512x1 : Shape := ⟨2, ![512, 1]⟩
abbrev S512x10 : Shape := ⟨2, ![512, 10]⟩

abbrev nBuf : Space → Nat
  | .hbm => 236
  | .vmem => 102
  | .smem => 0
  | _ => 0

abbrev hbmTy0_0 (i : Nat) : BufTy := match i % 128 with
  | 0 => ⟨S100000x128, .f32⟩
  | 1 => ⟨S1600000x1, .f32⟩
  | 2 => ⟨S100000x1, .f32⟩
  | 3 => ⟨S1600000, .i32⟩
  | 4 => ⟨S1600000, .i32⟩
  | 5 => ⟨S100000, .i32⟩
  | 6 => ⟨S128x128, .f32⟩
  | 7 => ⟨S128, .f32⟩
  | 8 => ⟨S4x128x128, .f32⟩
  | 9 => ⟨S4x128, .f32⟩
  | 10 => ⟨S4x128, .f32⟩
  | 11 => ⟨S4x128, .f32⟩
  | 12 => ⟨S128x10, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S_, .f32⟩
  | 34 => ⟨S100000, .f32⟩
  | 35 => ⟨S100000, .f32⟩
  | 36 => ⟨S100000x1, .f32⟩
  | 37 => ⟨S1x128, .f32⟩
  | 38 => ⟨S100000x128, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S100000x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S128, .f32⟩
  | 66 => ⟨S_, .f32⟩
  | 67 => ⟨S1x128, .f32⟩
  | 68 => ⟨S1x128, .f32⟩
  | 69 => ⟨S128, .f32⟩
  | 70 => ⟨S128, .f32⟩
  | 71 => ⟨S128, .f32⟩
  | 72 => ⟨S_, .f32⟩
  | 73 => ⟨S128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S1x128, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S100000x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S128, .f32⟩
  | 111 => ⟨S_, .f32⟩
  | 112 => ⟨S1x128, .f32⟩
  | 113 => ⟨S1x128, .f32⟩
  | 114 => ⟨S128, .f32⟩
  | 115 => ⟨S128, .f32⟩
  | 116 => ⟨S128, .f32⟩
  | 117 => ⟨S_, .f32⟩
  | 118 => ⟨S128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x128, .f32⟩
  | 12 => ⟨S_, .f32⟩
  | 13 => ⟨S100000x128, .f32⟩
  | 14 => ⟨S1600000x1, .i32⟩
  | 15 => ⟨S100000x128, .f32⟩
  | 16 => ⟨S1x128x128, .f32⟩
  | 17 => ⟨S128x128, .f32⟩
  | 18 => ⟨S1x128, .f32⟩
  | 19 => ⟨S128, .f32⟩
  | 20 => ⟨S1x128, .f32⟩
  | 21 => ⟨S100000x128, .f32⟩
  | 22 => ⟨S1x128, .f32⟩
  | 23 => ⟨S1x128, .f32⟩
  | 24 => ⟨S_, .f32⟩
  | 25 => ⟨S1x128, .f32⟩
  | 26 => ⟨S1x128, .f32⟩
  | 27 => ⟨S128, .f32⟩
  | 28 => ⟨S_, .f32⟩
  | 29 => ⟨S1x128, .f32⟩
  | 30 => ⟨S1x128, .f32⟩
  | 31 => ⟨S128, .f32⟩
  | 32 => ⟨S128, .f32⟩
  | 33 => ⟨S128, .f32⟩
  | 34 => ⟨S_, .f32⟩
  | 35 => ⟨S128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S1x128, .f32⟩
  | 43 => ⟨S1x128, .f32⟩
  | 44 => ⟨S1x128, .f32⟩
  | 45 => ⟨S100000x128, .f32⟩
  | 46 => ⟨S100000x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S100000x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S128, .f32⟩
  | 73 => ⟨S_, .f32⟩
  | 74 => ⟨S1x128, .f32⟩
  | 75 => ⟨S1x128, .f32⟩
  | 76 => ⟨S128, .f32⟩
  | 77 => ⟨S128, .f32⟩
  | 78 => ⟨S128, .f32⟩
  | 79 => ⟨S_, .f32⟩
  | 80 => ⟨S128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S1x128, .f32⟩
  | 88 => ⟨S1x128, .f32⟩
  | 89 => ⟨S1x128, .f32⟩
  | 90 => ⟨S100000x128, .f32⟩
  | 91 => ⟨S_, .f32⟩
  | 92 => ⟨S100000, .f32⟩
  | 93 => ⟨S_, .f32⟩
  | 94 => ⟨S512, .f32⟩
  | 95 => ⟨S100000x1, .i32⟩
  | 96 => ⟨S512, .f32⟩
  | 97 => ⟨S_, .f32⟩
  | 98 => ⟨S512, .f32⟩
  | 99 => ⟨S512, .f32⟩
  | 100 => ⟨S_, .f32⟩
  | 101 => ⟨S512x128, .f32⟩
  | 102 => ⟨S100000x1, .i32⟩
  | 103 => ⟨S512x128, .f32⟩
  | 104 => ⟨S512x1, .f32⟩
  | 105 => ⟨S512x128, .f32⟩
  | 106 => ⟨S512x128, .f32⟩
  | 107 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x1, .f32⟩
  | .local _ .vmem, ⟨57, _⟩ => ⟨S5000x1, .f32⟩
  | .local _ .vmem, ⟨58, _⟩ => ⟨S5000x1, .f32⟩
  | .local _ .vmem, ⟨59, _⟩ => ⟨S5000x1, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x1, .f32⟩
  | .local _ .vmem, ⟨81, _⟩ => ⟨S5000x1, .f32⟩
  | .local _ .vmem, ⟨82, _⟩ => ⟨S5000x1, .f32⟩
  | .local _ .vmem, ⟨83, _⟩ => ⟨S5000x1, .f32⟩
  | .local _ .vmem, ⟨84, _⟩ => ⟨S128x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S1x128, .f32⟩
  | .local _ .vmem, ⟨89, _⟩ => ⟨S1x128, .f32⟩
  | .local _ .vmem, ⟨90, _⟩ => ⟨S1x128, .f32⟩
  | .local _ .vmem, ⟨91, _⟩ => ⟨S1x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S1x128, .f32⟩
  | .local _ .vmem, ⟨97, _⟩ => ⟨S1x128, .f32⟩
  | .local _ .vmem, ⟨98, _⟩ => ⟨S1x128, .f32⟩
  | .local _ .vmem, ⟨99, _⟩ => ⟨S1x128, .f32⟩
  | .local _ .vmem, ⟨100, _⟩ => ⟨S5000x128, .f32⟩
  | .local _ .vmem, ⟨101, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36_0 : Ref sig .tc := ⟨.hbm, 59, rfl⟩
abbrev main_v36_1 : Ref sig .tc := ⟨.hbm, 60, rfl⟩
abbrev main_v36_2 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73_0 : Ref sig .tc := ⟨.hbm, 104, rfl⟩
abbrev main_v73_1 : Ref sig .tc := ⟨.hbm, 105, rfl⟩
abbrev main_v73_2 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_19 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110_0 : Ref sig .tc := ⟨.hbm, 149, rfl⟩
abbrev main_v110_1 : Ref sig .tc := ⟨.hbm, 150, rfl⟩
abbrev main_v110_2 : Ref sig .tc := ⟨.hbm, 151, rfl⟩
abbrev main_cst_20 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_21 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_22 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_23 : Ref sig .tc := ⟨.hbm, 176, rfl⟩
abbrev main_v132 : Ref sig .tc := ⟨.hbm, 177, rfl⟩
abbrev main_v133 : Ref sig .tc := ⟨.hbm, 178, rfl⟩
abbrev main_c_24 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_25 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147_0 : Ref sig .tc := ⟨.hbm, 194, rfl⟩
abbrev main_v147_1 : Ref sig .tc := ⟨.hbm, 195, rfl⟩
abbrev main_v147_2 : Ref sig .tc := ⟨.hbm, 196, rfl⟩
abbrev main_cst_26 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_27 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_28 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_29 : Ref sig .tc := ⟨.hbm, 219, rfl⟩
abbrev main_v167 : Ref sig .tc := ⟨.hbm, 220, rfl⟩
abbrev main_cst_30 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_31 : Ref sig .tc := ⟨.hbm, 225, rfl⟩
abbrev main_v171 : Ref sig .tc := ⟨.hbm, 226, rfl⟩
abbrev main_v172 : Ref sig .tc := ⟨.hbm, 227, rfl⟩
abbrev main_cst_32 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg7_0 : Ref sig .tc := ⟨.vmem, 41, rfl⟩
abbrev cc3_scratch0 : Ref sig .tc := ⟨.vmem, 42, rfl⟩
abbrev cc3_scratch1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg5_1 : Ref sig .tc := ⟨.vmem, 63, rfl⟩
abbrev cc5_stg6_0 : Ref sig .tc := ⟨.vmem, 64, rfl⟩
abbrev cc5_stg7_0 : Ref sig .tc := ⟨.vmem, 65, rfl⟩
abbrev cc5_scratch0 : Ref sig .tc := ⟨.vmem, 66, rfl⟩
abbrev cc5_scratch1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc6_stg6_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg2_1 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc7_stg6_0 : Ref sig .tc := ⟨.vmem, 88, rfl⟩
abbrev cc7_stg7_0 : Ref sig .tc := ⟨.vmem, 89, rfl⟩
abbrev cc7_scratch0 : Ref sig .tc := ⟨.vmem, 90, rfl⟩
abbrev cc7_scratch1 : Ref sig .tc := ⟨.vmem, 91, rfl⟩
abbrev cc8_stg0_0 : Ref sig .tc := ⟨.vmem, 92, rfl⟩
abbrev cc8_stg0_1 : Ref sig .tc := ⟨.vmem, 93, rfl⟩
abbrev cc8_stg1_0 : Ref sig .tc := ⟨.vmem, 94, rfl⟩
abbrev cc8_stg1_1 : Ref sig .tc := ⟨.vmem, 95, rfl⟩
abbrev cc8_stg2_0 : Ref sig .tc := ⟨.vmem, 96, rfl⟩
abbrev cc8_stg3_0 : Ref sig .tc := ⟨.vmem, 97, rfl⟩
abbrev cc8_stg4_0 : Ref sig .tc := ⟨.vmem, 98, rfl⟩
abbrev cc8_stg5_0 : Ref sig .tc := ⟨.vmem, 99, rfl⟩
abbrev cc8_stg6_0 : Ref sig .tc := ⟨.vmem, 100, rfl⟩
abbrev cc8_stg6_1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem7_0 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem5_1 : DmaSem sig := 59
abbrev cc5_sem6_0 : DmaSem sig := 60
abbrev cc5_sem7_0 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem6_1 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem2_1 : DmaSem sig := 77
abbrev cc7_sem3_0 : DmaSem sig := 78
abbrev cc7_sem4_0 : DmaSem sig := 79
abbrev cc7_sem5_0 : DmaSem sig := 80
abbrev cc7_sem5_1 : DmaSem sig := 81
abbrev cc7_sem6_0 : DmaSem sig := 82
abbrev cc7_sem7_0 : DmaSem sig := 83
abbrev cc8_sem0_0 : DmaSem sig := 84
abbrev cc8_sem0_1 : DmaSem sig := 85
abbrev cc8_sem1_0 : DmaSem sig := 86
abbrev cc8_sem1_1 : DmaSem sig := 87
abbrev cc8_sem2_0 : DmaSem sig := 88
abbrev cc8_sem3_0 : DmaSem sig := 89
abbrev cc8_sem4_0 : DmaSem sig := 90
abbrev cc8_sem5_0 : DmaSem sig := 91
abbrev cc8_sem6_0 : DmaSem sig := 92
abbrev cc8_sem6_1 : DmaSem sig := 93

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S128x128_S128x128 : S128x128.ShapeCasts S128x128
  reduces_S5000x128_S128 : S5000x128.Reduces [0] S128
  bcast_S_S1x128 : S_.BroadcastsInDim S1x128 (![] : Fin 0 → Fin S1x128.rank)
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S100000x128.size a
  hwx8_6 : ∀ i : grid8.Coords, EltTy.bits .f32 = 32 ∨ (Rect.block (s := S100000x128) S5000x128.size (cc8_transform_6 i) (hinb8_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v69) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v73_1) S1x128.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73_2) S1x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v73_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v104) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg2) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v106) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v110_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v110_1) S1x128.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v110_2) S1x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v110_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v125) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v126) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v128) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v129) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v141) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg2) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v143) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v146) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v147_0) S5000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v147_1) S1x128.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v147_2) S1x128.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v147_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v129) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v162) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v163) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v164) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v165) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v166) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x128 : Shape := ⟨2, ![100000, 128]⟩
abbrev S1600000x1 : Shape := ⟨2, ![1600000, 1]⟩
abbrev S100000x1 : Shape := ⟨2, ![100000, 1]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S_ : Shape := ⟨0, ![]⟩
abbrev S1x128 : Shape := ⟨2, ![1, 128]⟩
abbrev S1600000x128 : Shape := ⟨2, ![1600000, 128]⟩
abbrev S1x128x128 : Shape := ⟨3, ![1, 128, 128]⟩
abbrev S512 : Shape := ⟨1, ![512]⟩
abbrev S512x128 : Shape := ⟨2, ![512, 128]⟩
abbrev S512x1 : Shape := ⟨2, ![512, 1]⟩
abbrev S512x10 : Shape := ⟨2, ![512, 10]⟩

abbrev nBuf : Space → Nat
  | .hbm => 318
  | .vmem => 0
  | .smem => 0
  | _ => 0

abbrev hbmTy0_0 (i : Nat) : BufTy := match i % 128 with
  | 0 => ⟨S100000x128, .f32⟩
  | 1 => ⟨S1600000x1, .f32⟩
  | 2 => ⟨S100000x1, .f32⟩
  | 3 => ⟨S1600000, .i32⟩
  | 4 => ⟨S1600000, .i32⟩
  | 5 => ⟨S100000, .i32⟩
  | 6 => ⟨S128x128, .f32⟩
  | 7 => ⟨S128, .f32⟩
  | 8 => ⟨S4x128x128, .f32⟩
  | 9 => ⟨S4x128, .f32⟩
  | 10 => ⟨S4x128, .f32⟩
  | 11 => ⟨S4x128, .f32⟩
  | 12 => ⟨S128x10, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S1x128, .f32⟩
  | 39 => ⟨S100000x128, .f32⟩
  | 40 => ⟨S100000x128, .f32⟩
  | 41 => ⟨S100000x128, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000x128, .f32⟩
  | 57 => ⟨S100000x128, .f32⟩
  | 58 => ⟨S1x128x128, .f32⟩
  | 59 => ⟨S128x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S_, .f32⟩
  | 23 => ⟨S128, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x128, .f32⟩
  | 59 => ⟨S100000x128, .f32⟩
  | 60 => ⟨S1x128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S100000x128, .f32⟩
  | 69 => ⟨S100000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S100000x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000x128, .f32⟩
  | 124 => ⟨S100000x128, .f32⟩
  | 125 => ⟨S1x128x128, .f32⟩
  | 126 => ⟨S128x128, .f32⟩
  | 127 => ⟨S100000x128, .f32⟩
  | _ => ⟨S100000x128, .f32⟩

abbrev hbmTy0_2 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S128, .f32⟩
  | 18 => ⟨S_, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S_, .f32⟩
  | 46 => ⟨S100000, .f32⟩
  | 47 => ⟨S_, .f32⟩
  | 48 => ⟨S512, .f32⟩
  | 49 => ⟨S100000x1, .i32⟩
  | 50 => ⟨S512, .f32⟩
  | 51 => ⟨S_, .f32⟩
  | 52 => ⟨S512, .f32⟩
  | 53 => ⟨S512, .f32⟩
  | 54 => ⟨S_, .f32⟩
  | 55 => ⟨S512x128, .f32⟩
  | 56 => ⟨S100000x1, .i32⟩
  | 57 => ⟨S512x128, .f32⟩
  | 58 => ⟨S512x1, .f32⟩
  | 59 => ⟨S512x128, .f32⟩
  | 60 => ⟨S512x128, .f32⟩
  | 61 => ⟨S512x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call0_cst : Ref sig .tc := ⟨.hbm, 102, rfl⟩
abbrev main_call0_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_13 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_16 : Ref sig .tc := ⟨.hbm, 133, rfl⟩
abbrev main_v100 : Ref sig .tc := ⟨.hbm, 134, rfl⟩
abbrev main_cst_17 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_18 : Ref sig .tc := ⟨.hbm, 142, rfl⟩
abbrev main_v107 : Ref sig .tc := ⟨.hbm, 143, rfl⟩
abbrev main_cst_19 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_20 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_call1_cst : Ref sig .tc := ⟨.hbm, 167, rfl⟩
abbrev main_call1_v0 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_21 : Ref sig .tc := ⟨.hbm, 173, rfl⟩
abbrev main_v133 : Ref sig .tc := ⟨.hbm, 174, rfl⟩
abbrev main_v134 : Ref sig .tc := ⟨.hbm, 175, rfl⟩
abbrev main_c_22 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_23 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_24 : Ref sig .tc := ⟨.hbm, 198, rfl⟩
abbrev main_v155 : Ref sig .tc := ⟨.hbm, 199, rfl⟩
abbrev main_cst_25 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_26 : Ref sig .tc := ⟨.hbm, 207, rfl⟩
abbrev main_v162 : Ref sig .tc := ⟨.hbm, 208, rfl⟩
abbrev main_cst_27 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_28 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_call2_cst : Ref sig .tc := ⟨.hbm, 232, rfl⟩
abbrev main_call2_v0 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_c_29 : Ref sig .tc := ⟨.hbm, 238, rfl⟩
abbrev main_v188 : Ref sig .tc := ⟨.hbm, 239, rfl⟩
abbrev main_v189 : Ref sig .tc := ⟨.hbm, 240, rfl⟩
abbrev main_c_30 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_31 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_cst_32 : Ref sig .tc := ⟨.hbm, 263, rfl⟩
abbrev main_v210 : Ref sig .tc := ⟨.hbm, 264, rfl⟩
abbrev main_cst_33 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_cst_34 : Ref sig .tc := ⟨.hbm, 272, rfl⟩
abbrev main_v217 : Ref sig .tc := ⟨.hbm, 273, rfl⟩
abbrev main_cst_35 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_cst_36 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_call3_cst : Ref sig .tc := ⟨.hbm, 297, rfl⟩
abbrev main_call3_v0 : Ref sig .tc := ⟨.hbm, 298, rfl⟩
abbrev main_v239 : Ref sig .tc := ⟨.hbm, 299, rfl⟩
abbrev main_v240 : Ref sig .tc := ⟨.hbm, 300, rfl⟩
abbrev main_cst_37 : Ref sig .tc := ⟨.hbm, 301, rfl⟩
abbrev main_v241 : Ref sig .tc := ⟨.hbm, 302, rfl⟩
abbrev main_cst_38 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_cst_39 : Ref sig .tc := ⟨.hbm, 307, rfl⟩
abbrev main_v245 : Ref sig .tc := ⟨.hbm, 308, rfl⟩
abbrev main_v246 : Ref sig .tc := ⟨.hbm, 309, rfl⟩
abbrev main_cst_40 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.K.Base.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import proofs.«164939_j7129645711575_2_alg».proof.Proof.Gen.Kernel.Regions
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

end Cert.Kernel.Hand

end
-- ==== Proof.K.R0.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0

abbrev r0_1 : Rect S128x128 := Rect.unit (s := S128x128) ![0, 0] S128x128.size inb_S128x128_S128x128_0_0

abbrev r0_2 : Rect S1x128 := Rect.unit (s := S1x128) ![0, 0] S1x128.size inb_S1x128_S1x128_0_0

def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.LibStep.lean ====
import Idealize.ShloMosaic.Lib.Pipeline.FrameSuffix

namespace Cert.Step

open Idealize.SL.RA Idealize.ShloMosaic Idealize.ShloMosaic.Pipeline

variable {nD : Nat} {τ : Topo} {sig : RefSig} {Val : EltTy → Type}

section Arrays

variable {gr W : Nat} (win : Fin W → WinSpec sig gr) (c : Dev nD) {V : Valuation τ sig Val}
  {A : (w : Fin W) → Buf Val ((win w).arr.view.loc (c.tc : Thread nD τ))}

/-- A buffer that is no window's array leaves the region as it entered. -/
theorem rest (b : Ref sig .tc) (hb : b ∉ Finset.univ.image (arrRef win)) :
    withArrays win c V A (Proc.devRef .tc b) = V (Proc.devRef .tc b) :=
  withArrays_of_ne win c V A b fun w e => hb (Finset.mem_image.mpr ⟨w, Finset.mem_univ _, e⟩)

/-- If every window whose array is `r` ends at what `V` holds there, the exit contents at `r` are `V`'s. -/
theorem keep (hinj : Function.Injective (arrRef win)) (r : Ref sig .tc)
    (h : ∀ w, arrRef win w = r → A w = V (Proc.devRef .tc (arrRef win w))) :
    withArrays win c V A (Proc.devRef .tc r) = V (Proc.devRef .tc r) := by
  by_cases hr : ∃ w, arrRef win w = r
  · obtain ⟨w, rfl⟩ := hr; exact (withArrays_arr win hinj c V A w).trans (h w rfl)
  · exact withArrays_of_ne win c V A r fun w e => hr ⟨w, e⟩

end Arrays

variable {Λ₀ : Idealize.SL.Sem.Labels} {Ix : Type} [DecidableEq Ix] {Name : Type} [DecidableEq Name] {U : Type} [URA U] {Lvl : Type}
  {cfg : Cfg sig Λ₀} {c : Dev nD} {dat : Dat τ Val Ix Name U Lvl cfg c} {V : Valuation τ sig Val}

/-- Off the output windows' arrays a region's exit contents are its entry contents `V`. -/
theorem keepIn (hinj : Function.Injective (arrRef cfg.spec)) (hA : ∀ w, dat.A w = V (Proc.devRef .tc (arrRef cfg.spec w)))
    (r : Ref sig .tc) (h : ∀ w, (cfg.win w).isOut = true → arrRef cfg.spec w ≠ r) :
    withArrays cfg.spec c V (fun w => dat.arrAt w cfg.N) (Proc.devRef .tc r) = V (Proc.devRef .tc r) :=
  keep cfg.spec c hinj r fun w e => (dat.arrAt_in w (Bool.eq_false_iff.mpr fun ho => h w ho e) _).trans (hA w)

end Cert.Step
-- ==== Proof.K.S0.lean ====
import proofs.«164939_j7129645711575_2_alg».proof.Proof.K.Base
import proofs.«164939_j7129645711575_2_alg».proof.Proof.K.R0
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  Step.rest spec0 c

theorem keep0 (c : Dev nD) (r : Ref sig .tc)
    (h : ∀ w : Fin cfg0.W, (cfg0.win w).isOut = true → Pipeline.arrRef spec0 w ≠ r) :
    W2 m ρ c (Proc.devRef .tc r) = W1 m ρ c (Proc.devRef .tc r) :=
  Step.keepIn launch0.win.arr_inj (A_eq0 _ c) r h

theorem thru0 (c : Dev nD) (r : Ref sig .tc) (h1 : r ∉ hostOps0_W)
    (h2 : ∀ w : Fin cfg0.W, (cfg0.win w).isOut = true → Pipeline.arrRef spec0 w ≠ r) :
    W2 m ρ c (Proc.devRef .tc r) = W0 m ρ c (Proc.devRef .tc r) :=
  (keep0 m ρ c r h2).trans (StableHlo.after_of_writes_sub hostOps0 _ hostOps0_writes h1)

end Cert.Kernel.Hand

end
-- ==== Proof.K.R1.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

theorem read_writes_cons_unit1 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readCov_cons_unit1 {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem readAt_unread_unit1 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

def hmidOf1 (x0 : Vec F S5000x128 .f32) (x1 : Vec F S5000x1 .f32) (x2 : Vec F S5000x1 .f32) (x3 : Vec F S128x128 .f32) (x4 : Vec F S1x128 .f32) :
    Vec F S5000x128 .f32 := k1_pay4 x0 x1 x3 x4 x2

def stepOf1 (x0 : Vec F S5000x128 .f32) (x1 : Vec F S5000x1 .f32) (x2 : Vec F S5000x1 .f32) (x3 : Vec F S128x128 .f32) (x4 : Vec F S1x128 .f32)
    (s : Vec F S1x128 .f32 × Vec F S1x128 .f32) : Vec F S1x128 .f32 × Vec F S1x128 .f32 :=
  (k1_pay5 x0 x1 x3 x4 x2 s.1, k1_pay1 s.2 (k1_pay6 x0 x1 x3 x4 x2))

def zero1 : Vec F S1x128 .f32 × Vec F S1x128 .f32 := (k1_pay2, k1_pay3)

set_option maxHeartbeats 1000000 in

theorem sound_kernel1_A (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i)
    (x0 : Vec F S5000x128 .f32) (x1 : Vec F S5000x1 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf1 x0 x1 x2 x3 x4)
            ∗ owns (c : Thread nD τ) arg7 fullShare (stepOf1 x0 x1 x2 x3 x4 (zero1 (F := F))).1 ∗ owns (c : Thread nD τ) arg8 fullShare (stepOf1 x0 x1 x2 x3 x4 (zero1 (F := F))).2
            ∗ owns (c : Thread nD τ) arg9 fullShare (stepOf1 x0 x1 x2 x3 x4 (zero1 (F := F))).1 ∗ owns (c : Thread nD τ) arg10 fullShare (stepOf1 x0 x1 x2 x3 x4 (zero1 (F := F))).2) -∗ K ⟨⟩))
      ⊢ wp frame (wpE (defs₀ (F := F)) Variants.none c none) E (cc1__linear_stats_kernel i arg1 harg1 arg2 harg2 arg3 harg3 arg4 harg4 arg5 harg5 arg6 harg6 arg7 harg7 arg8 harg8 arg9 harg9 arg10 harg10) K := by
  simp only [cc1__linear_stats_kernel_eq_skeleton]; unfold cc1__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit1 (S := S5000x128) _ _ hz1]
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H6]
  · iexists _; isplitr
    swap; · iexact H6
    ipureintro
    rw [read_writes_cons_unit1 (S := S1x128) _ _ hz1]
    sl_unfold_run_names
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H7]
  · iexists _; isplitr
    swap; · iexact H7
    ipureintro
    rw [read_writes_cons_unit1 (S := S1x128) _ _ hz1]
    sl_unfold_run_names
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H8]
  · iexists _; isplitr
    swap; · iexact H8
    ipureintro
    sl_unfold_run_names
    rw [read_writes_cons_unit1 (S := S1x128) _ _ hz1]
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  iexists _; isplitr
  swap; · iexact H9
  ipureintro
  sl_unfold_run_names
  rw [read_writes_cons_unit1 (S := S1x128) _ _ hz1]
  simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
  rfl

set_option maxHeartbeats 1000000 in

theorem sound_kernel1_B (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i)
    (x0 : Vec F S5000x128 .f32) (x1 : Vec F S5000x1 .f32) (x2 : Vec F S5000x1 .f32) (x3 : Vec F S128x128 .f32) (x4 : Vec F S1x128 .f32) (s : Vec F S1x128 .f32 × Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf1 x0 x1 x2 x3 x4)
            ∗ owns (c : Thread nD τ) arg7 fullShare (stepOf1 x0 x1 x2 x3 x4 s).1 ∗ owns (c : Thread nD τ) arg8 fullShare (stepOf1 x0 x1 x2 x3 x4 s).2
            ∗ owns (c : Thread nD τ) arg9 fullShare (stepOf1 x0 x1 x2 x3 x4 s).1 ∗ owns (c : Thread nD τ) arg10 fullShare (stepOf1 x0 x1 x2 x3 x4 s).2) -∗ K ⟨⟩))
      ⊢ wp frame (wpE (defs₀ (F := F)) Variants.none c none) E (cc1__linear_stats_kernel i arg1 harg1 arg2 harg2 arg3 harg3 arg4 harg4 arg5 harg5 arg6 harg6 arg7 harg7 arg8 harg8 arg9 harg9 arg10 harg10) K := by
  simp only [cc1__linear_stats_kernel_eq_skeleton]; unfold cc1__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hf8; obtain rfl := harg10.eq_unread hf9
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit1 (S := S5000x128) _ _ hz1]
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H6]
  · iexists _; isplitr
    swap; · iexact H6
    ipureintro
    rw [read_writes_cons_unit1 (S := S1x128) _ _ hz1]
    sl_unfold_run_names
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H7]
  · iexists _; isplitr
    swap; · iexact H7
    ipureintro
    rw [read_writes_cons_unit1 (S := S1x128) _ _ hz1]
    sl_unfold_run_names
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H8]
  · iexists _; isplitr
    swap; · iexact H8
    ipureintro
    sl_unfold_run_names
    rw [read_writes_cons_unit1 (S := S1x128) _ _ hz1]
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  iexists _; isplitr
  swap; · iexact H9
  ipureintro
  sl_unfold_run_names
  rw [read_writes_cons_unit1 (S := S1x128) _ _ hz1]
  simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
  rfl

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def hmid1 (c : Dev nD) (t : Fin cfg1.N) : Vec F S5000x128 .f32 :=
  hmidOf1 (iblk1 V c 0 t) (iblk1 V c 1 t) (iblk1 V c 2 t) (iblk1 V c 3 t) (iblk1 V c 4 t)

def stepAt1 (c : Dev nD) (n : ℕ) (s : Vec F S1x128 .f32 × Vec F S1x128 .f32) : Vec F S1x128 .f32 × Vec F S1x128 .f32 :=
  if h : n < cfg1.N then
    stepOf1 (iblk1 V c 0 ⟨n, h⟩) (iblk1 V c 1 ⟨n, h⟩) (iblk1 V c 2 ⟨n, h⟩) (iblk1 V c 3 ⟨n, h⟩) (iblk1 V c 4 ⟨n, h⟩) s
  else s

def acc1 (c : Dev nD) : ℕ → Vec F S1x128 .f32 × Vec F S1x128 .f32
  | 0 => stepAt1 V c 0 zero1
  | n + 1 => stepAt1 V c (n + 1) (acc1 c n)

theorem acc1_zero (c : Dev nD) : acc1 V c 0 = stepAt1 V c 0 zero1 := rfl

theorem acc1_succ (c : Dev nD) (n : ℕ) : acc1 V c (n + 1) = stepAt1 V c (n + 1) (acc1 V c n) := rfl

theorem acc1_first (c : Dev nD) (t : Fin cfg1.N) (hz : t.val = 0) :
    acc1 V c t.val = stepOf1 (iblk1 V c 0 t) (iblk1 V c 1 t) (iblk1 V c 2 t) (iblk1 V c 3 t) (iblk1 V c 4 t) zero1 := by
  obtain ⟨n, hn⟩ := t
  cases n with
  | zero => rw [acc1_zero]; unfold stepAt1; rw [dif_pos hn]
  | succ n => exact absurd hz (Nat.succ_ne_zero n)

theorem acc1_later (c : Dev nD) (t : Fin cfg1.N) (hz : t.val ≠ 0) :
    acc1 V c t.val = stepOf1 (iblk1 V c 0 t) (iblk1 V c 1 t) (iblk1 V c 2 t) (iblk1 V c 3 t) (iblk1 V c 4 t) (acc1 V c (t.val - 1)) := by
  obtain ⟨n, hn⟩ := t
  cases n with
  | zero => exact absurd rfl hz
  | succ n => rw [acc1_succ]; unfold stepAt1; rw [dif_pos hn]; rfl

abbrev scM1_0 : Memref sig .tc .vmem S1x128 .f32 := Memref.whole cc1_scratch0

abbrev scM1_1 : Memref sig .tc .vmem S1x128 .f32 := Memref.whole cc1_scratch1

theorem scopedRest1_eq (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

def Phi1 (c : Dev nD) : ℕ → sProp 𝕄
  | 0 => Pipeline.scopedRest (Ix := Unit) (Name := ℕ) (U := UR sig nD τ) (Lvl := ℕ) (Val := Elt F) spec1 c
  | n + 1 => iprop(iprop(owns (c : Thread nD τ) scM1_0 fullShare (acc1 V c n).1 ∗ owns (c : Thread nD τ) scM1_1 fullShare (acc1 V c n).2)
      ∗ Pipeline.scopedRestBut (Ix := Unit) (Name := ℕ) (U := UR sig nD τ) (Lvl := ℕ) (Val := Elt F) spec1 c [cc1_scratch0, cc1_scratch1])

theorem Phi1_zero (c : Dev nD) (n : ℕ) (hz : n = 0) : Phi1 V c n = (Pipeline.scopedRest (Ix := Unit) (Name := ℕ) (U := UR sig nD τ) (Lvl := ℕ) (Val := Elt F) spec1 c : sProp 𝕄) := by
  subst hz; rfl

theorem Phi1_succ (c : Dev nD) (n : ℕ) :
    Phi1 V c (n + 1) = iprop(iprop(owns (c : Thread nD τ) scM1_0 fullShare (acc1 V c n).1 ∗ owns (c : Thread nD τ) scM1_1 fullShare (acc1 V c n).2)
      ∗ Pipeline.scopedRestBut (Ix := Unit) (Name := ℕ) (U := UR sig nD τ) (Lvl := ℕ) (Val := Elt F) spec1 c [cc1_scratch0, cc1_scratch1]) := rfl

theorem Phi1_pos (c : Dev nD) (n : ℕ) (hz : n ≠ 0) :
    Phi1 V c n = iprop(iprop(owns (c : Thread nD τ) scM1_0 fullShare (acc1 V c (n - 1)).1 ∗ owns (c : Thread nD τ) scM1_1 fullShare (acc1 V c (n - 1)).2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => hmid1 V c t
    | ⟨6, _⟩ => (acc1 V c t.val).1
    | ⟨7, _⟩ => (acc1 V c t.val).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = iblk1 V c 3 t := by dsimp only [dat1]

theorem after1_4 (c : Dev nD) (t : Fin cfg1.N) : (dat1 V c).after 4 t = iblk1 V c 4 t := by dsimp only [dat1]

theorem after1_5 (c : Dev nD) (t : Fin cfg1.N) : (dat1 V c).after 5 t = hmid1 V c t := by dsimp only [dat1]

theorem after1_6 (c : Dev nD) (t : Fin cfg1.N) : (dat1 V c).after 6 t = (acc1 V c t.val).1 := by dsimp only [dat1]

theorem after1_7 (c : Dev nD) (t : Fin cfg1.N) : (dat1 V c).after 7 t = (acc1 V c t.val).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5, after1_6, after1_7]
  rw [show (dat1 V c).Φ t.succ = Phi1 V c (t.val + 1) from rfl, Phi1_succ,
    show (dat1 V c).Φ t.castSucc = Phi1 V c t.val from rfl]
  unfold hmid1
  by_cases hz : t.val = 0
  · rw [Phi1_zero V c _ hz, scopedRest1_eq, acc1_first V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) _ _ _ _ _ _ _ _ _ _ _ _ _ _ _ _ _ _ _ _ ((hcond1_0 t).mpr hz)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi1_pos V c _ hz, acc1_later V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ _ _ _ _ (fun h => hz ((hcond1_0 t).mp h))
      (iblk1 V c 0 t) (iblk1 V c 1 t) (iblk1 V c 2 t) (iblk1 V c 3 t) (iblk1 V c 4 t) (acc1 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 from rfl, Phi1_zero V c 0 rfl]
  try exact Idealize.SL.BI.Entails.refl _

theorem hout1 (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val from rfl,
    Phi1_pos V c _ (by rw [Fin.val_last]; have : cfg1.N = 20 := N_1; omega), scopedRest1_eq]
  iintro ⟨⟨HS0, HS1⟩, HR⟩
  isplitl [HS0 HS1]
  · isplitl [HS0]
    · iexists _; iexact HS0
    iexists _; iexact HS1
  iexact HR

end Cert.Kernel.Hand
end
-- ==== Proof.K.S1.lean ====
import proofs.«164939_j7129645711575_2_alg».proof.Proof.K.S0
import proofs.«164939_j7129645711575_2_alg».proof.Proof.K.R1
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm

theorem hrest1 (c : Dev nD) : ∀ b, b ∉ Finset.univ.image (Pipeline.arrRef spec1) → V4 m ρ c b = V3 m ρ c b :=
  Step.rest spec1 c

theorem keep1 (c : Dev nD) (r : Ref sig .tc)
    (h : ∀ w : Fin cfg1.W, (cfg1.win w).isOut = true → Pipeline.arrRef spec1 w ≠ r) :
    W4 m ρ c (Proc.devRef .tc r) = W3 m ρ c (Proc.devRef .tc r) :=
  Step.keepIn launch1.win.arr_inj (A_eq1 _ c) r h

theorem thru1 (c : Dev nD) (r : Ref sig .tc) (h1 : r ∉ hostOps1_W)
    (h2 : ∀ w : Fin cfg1.W, (cfg1.win w).isOut = true → Pipeline.arrRef spec1 w ≠ r) :
    W4 m ρ c (Proc.devRef .tc r) = W2 m ρ c (Proc.devRef .tc r) :=
  (keep1 m ρ c r h2).trans (StableHlo.after_of_writes_sub hostOps1 _ hostOps1_writes h1)

end Cert.Kernel.Hand

end
-- ==== Proof.K.R2.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t := by
  have hkeep : ∀ t, (cfg2.win 5).cut (cfg2.grid.coords t) (dat.after 5 t) = dat.blockOf 5 t := fun t => by
    rw [hafter]; unfold Dat.blockOf iblk2; rw [hA]; try rfl
  rw [dat.before_in_eq_fetched 5 rfl (fun _ => rfl) (fun _ _ _ => rfl) hkeep t d]
  unfold Dat.fetched Dat.blockOf iblk2; rw [hA]; try rfl

abbrev r2_0 : Rect S5000x128 := Rect.unit (s := S5000x128) ![0, 0] S5000x128.size inb_S5000x128_S5000x128_0_0

abbrev r2_1 : Rect S1x128 := Rect.unit (s := S1x128) ![0, 0] S1x128.size inb_S1x128_S1x128_0_0

def out2_6 (x0 : Vec F S5000x128 .f32) (x1 : Vec F S5000x128 .f32) (x2 x3 x4 x5 : Vec F S1x128 .f32) : Vec F S5000x128 .f32 :=
  View.canon [⟨r2_0, k2_pay1 (View.ld x0 r2_0) (View.ld x2 r2_1) (View.ld x3 r2_1) (View.ld x4 r2_1) (View.ld x5 r2_1) (View.ld x1 r2_0)⟩]

theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 400000 in

theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__bn_relu_residual_kernel i arg1 harg1 arg2 harg2 arg3 harg3 arg4 harg4 arg5 harg5 arg6 harg6 arg7 harg7) K := by
  simp only [cc2__bn_relu_residual_kernel_eq_skeleton]; unfold cc2__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) : (dat2 V c).after 3 t = iblk2 V c 3 t := by dsimp only [dat2]

theorem after2_4 (c : Dev nD) (t : Fin cfg2.N) : (dat2 V c).after 4 t = iblk2 V c 4 t := by dsimp only [dat2]

theorem after2_5 (c : Dev nD) (t : Fin cfg2.N) : (dat2 V c).after 5 t = iblk2 V c 5 t := by dsimp only [dat2]

theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem before2_2 (c : Dev nD) (t : Fin cfg2.N) (d) : (dat2 V c).before 2 t d = iblk2 V c 2 t :=
  before2_2_of V (dat2 V c) (A_eq2 V c 2) (after2_2 V c) t d

theorem before2_3 (c : Dev nD) (t : Fin cfg2.N) (d) : (dat2 V c).before 3 t d = iblk2 V c 3 t :=
  before2_3_of V (dat2 V c) (A_eq2 V c 3) (after2_3 V c) t d

theorem before2_4 (c : Dev nD) (t : Fin cfg2.N) (d) : (dat2 V c).before 4 t d = iblk2 V c 4 t :=
  before2_4_of V (dat2 V c) (A_eq2 V c 4) (after2_4 V c) t d

theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.S2.lean ====
import proofs.«164939_j7129645711575_2_alg».proof.Proof.K.S1
import proofs.«164939_j7129645711575_2_alg».proof.Proof.K.R2
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N

theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w

theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm

theorem hrest2 (c : Dev nD) : ∀ b, b ∉ Finset.univ.image (Pipeline.arrRef spec2) → V6 m ρ c b = V5 m ρ c b :=
  Step.rest spec2 c

theorem keep2 (c : Dev nD) (r : Ref sig .tc)
    (h : ∀ w : Fin cfg2.W, (cfg2.win w).isOut = true → Pipeline.arrRef spec2 w ≠ r) :
    W6 m ρ c (Proc.devRef .tc r) = W5 m ρ c (Proc.devRef .tc r) :=
  Step.keepIn launch2.win.arr_inj (A_eq2 _ c) r h

theorem thru2 (c : Dev nD) (r : Ref sig .tc) (h1 : r ∉ hostOps2_W)
    (h2 : ∀ w : Fin cfg2.W, (cfg2.win w).isOut = true → Pipeline.arrRef spec2 w ≠ r) :
    W6 m ρ c (Proc.devRef .tc r) = W4 m ρ c (Proc.devRef .tc r) :=
  (keep2 m ρ c r h2).trans (StableHlo.after_of_writes_sub hostOps2 _ hostOps2_writes h1)

end Cert.Kernel.Hand

end
-- ==== Proof.K.R3.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

theorem read_writes_cons_unit3 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readCov_cons_unit3 {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem readAt_unread_unit3 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

def hmidOf3 (x0 : Vec F S5000x128 .f32) (x1 : Vec F S5000x1 .f32) (x2 : Vec F S5000x1 .f32) (x3 : Vec F S128x128 .f32) (x4 : Vec F S1x128 .f32) :
    Vec F S5000x128 .f32 := k3_pay4 x0 x1 x3 x4 x2

def stepOf3 (x0 : Vec F S5000x128 .f32) (x1 : Vec F S5000x1 .f32) (x2 : Vec F S5000x1 .f32) (x3 : Vec F S128x128 .f32) (x4 : Vec F S1x128 .f32)
    (s : Vec F S1x128 .f32 × Vec F S1x128 .f32) : Vec F S1x128 .f32 × Vec F S1x128 .f32 :=
  (k3_pay5 x0 x1 x3 x4 x2 s.1, k3_pay1 s.2 (k3_pay6 x0 x1 x3 x4 x2))

def zero3 : Vec F S1x128 .f32 × Vec F S1x128 .f32 := (k3_pay2, k3_pay3)

set_option maxHeartbeats 1000000 in

theorem sound_kernel3_A (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond3_0 i)
    (x0 : Vec F S5000x128 .f32) (x1 : Vec F S5000x1 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf3 x0 x1 x2 x3 x4)
            ∗ owns (c : Thread nD τ) arg7 fullShare (stepOf3 x0 x1 x2 x3 x4 (zero3 (F := F))).1 ∗ owns (c : Thread nD τ) arg8 fullShare (stepOf3 x0 x1 x2 x3 x4 (zero3 (F := F))).2
            ∗ owns (c : Thread nD τ) arg9 fullShare (stepOf3 x0 x1 x2 x3 x4 (zero3 (F := F))).1 ∗ owns (c : Thread nD τ) arg10 fullShare (stepOf3 x0 x1 x2 x3 x4 (zero3 (F := F))).2) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9 arg10 harg10) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit3 (S := S5000x128) _ _ hz3]
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H6]
  · iexists _; isplitr
    swap; · iexact H6
    ipureintro
    rw [read_writes_cons_unit3 (S := S1x128) _ _ hz3]
    sl_unfold_run_names
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H7]
  · iexists _; isplitr
    swap; · iexact H7
    ipureintro
    rw [read_writes_cons_unit3 (S := S1x128) _ _ hz3]
    sl_unfold_run_names
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H8]
  · iexists _; isplitr
    swap; · iexact H8
    ipureintro
    sl_unfold_run_names
    rw [read_writes_cons_unit3 (S := S1x128) _ _ hz3]
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  iexists _; isplitr
  swap; · iexact H9
  ipureintro
  sl_unfold_run_names
  rw [read_writes_cons_unit3 (S := S1x128) _ _ hz3]
  simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
  rfl

set_option maxHeartbeats 1000000 in

theorem sound_kernel3_B (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond3_0 i)
    (x0 : Vec F S5000x128 .f32) (x1 : Vec F S5000x1 .f32) (x2 : Vec F S5000x1 .f32) (x3 : Vec F S128x128 .f32) (x4 : Vec F S1x128 .f32) (s : Vec F S1x128 .f32 × Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf3 x0 x1 x2 x3 x4)
            ∗ owns (c : Thread nD τ) arg7 fullShare (stepOf3 x0 x1 x2 x3 x4 s).1 ∗ owns (c : Thread nD τ) arg8 fullShare (stepOf3 x0 x1 x2 x3 x4 s).2
            ∗ owns (c : Thread nD τ) arg9 fullShare (stepOf3 x0 x1 x2 x3 x4 s).1 ∗ owns (c : Thread nD τ) arg10 fullShare (stepOf3 x0 x1 x2 x3 x4 s).2) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9 arg10 harg10) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hf8; obtain rfl := harg10.eq_unread hf9
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit3 (S := S5000x128) _ _ hz3]
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H6]
  · iexists _; isplitr
    swap; · iexact H6
    ipureintro
    rw [read_writes_cons_unit3 (S := S1x128) _ _ hz3]
    sl_unfold_run_names
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H7]
  · iexists _; isplitr
    swap; · iexact H7
    ipureintro
    rw [read_writes_cons_unit3 (S := S1x128) _ _ hz3]
    sl_unfold_run_names
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H8]
  · iexists _; isplitr
    swap; · iexact H8
    ipureintro
    sl_unfold_run_names
    rw [read_writes_cons_unit3 (S := S1x128) _ _ hz3]
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  iexists _; isplitr
  swap; · iexact H9
  ipureintro
  sl_unfold_run_names
  rw [read_writes_cons_unit3 (S := S1x128) _ _ hz3]
  simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
  rfl

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def hmid3 (c : Dev nD) (t : Fin cfg3.N) : Vec F S5000x128 .f32 :=
  hmidOf3 (iblk3 V c 0 t) (iblk3 V c 1 t) (iblk3 V c 2 t) (iblk3 V c 3 t) (iblk3 V c 4 t)

def stepAt3 (c : Dev nD) (n : ℕ) (s : Vec F S1x128 .f32 × Vec F S1x128 .f32) : Vec F S1x128 .f32 × Vec F S1x128 .f32 :=
  if h : n < cfg3.N then
    stepOf3 (iblk3 V c 0 ⟨n, h⟩) (iblk3 V c 1 ⟨n, h⟩) (iblk3 V c 2 ⟨n, h⟩) (iblk3 V c 3 ⟨n, h⟩) (iblk3 V c 4 ⟨n, h⟩) s
  else s

def acc3 (c : Dev nD) : ℕ → Vec F S1x128 .f32 × Vec F S1x128 .f32
  | 0 => stepAt3 V c 0 zero3
  | n + 1 => stepAt3 V c (n + 1) (acc3 c n)

theorem acc3_zero (c : Dev nD) : acc3 V c 0 = stepAt3 V c 0 zero3 := rfl

theorem acc3_succ (c : Dev nD) (n : ℕ) : acc3 V c (n + 1) = stepAt3 V c (n + 1) (acc3 V c n) := rfl

theorem acc3_first (c : Dev nD) (t : Fin cfg3.N) (hz : t.val = 0) :
    acc3 V c t.val = stepOf3 (iblk3 V c 0 t) (iblk3 V c 1 t) (iblk3 V c 2 t) (iblk3 V c 3 t) (iblk3 V c 4 t) zero3 := by
  obtain ⟨n, hn⟩ := t
  cases n with
  | zero => rw [acc3_zero]; unfold stepAt3; rw [dif_pos hn]
  | succ n => exact absurd hz (Nat.succ_ne_zero n)

theorem acc3_later (c : Dev nD) (t : Fin cfg3.N) (hz : t.val ≠ 0) :
    acc3 V c t.val = stepOf3 (iblk3 V c 0 t) (iblk3 V c 1 t) (iblk3 V c 2 t) (iblk3 V c 3 t) (iblk3 V c 4 t) (acc3 V c (t.val - 1)) := by
  obtain ⟨n, hn⟩ := t
  cases n with
  | zero => exact absurd rfl hz
  | succ n => rw [acc3_succ]; unfold stepAt3; rw [dif_pos hn]; rfl

abbrev scM3_0 : Memref sig .tc .vmem S1x128 .f32 := Memref.whole cc3_scratch0

abbrev scM3_1 : Memref sig .tc .vmem S1x128 .f32 := Memref.whole cc3_scratch1

theorem scopedRest3_eq (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) := by
  rw [scopedRest3_split]; simp only [scM3_0, scM3_1, owns_whole]; try rfl

def Phi3 (c : Dev nD) : ℕ → sProp 𝕄
  | 0 => Pipeline.scopedRest (Ix := Unit) (Name := ℕ) (U := UR sig nD τ) (Lvl := ℕ) (Val := Elt F) spec3 c
  | n + 1 => iprop(iprop(owns (c : Thread nD τ) scM3_0 fullShare (acc3 V c n).1 ∗ owns (c : Thread nD τ) scM3_1 fullShare (acc3 V c n).2)
      ∗ Pipeline.scopedRestBut (Ix := Unit) (Name := ℕ) (U := UR sig nD τ) (Lvl := ℕ) (Val := Elt F) spec3 c [cc3_scratch0, cc3_scratch1])

theorem Phi3_zero (c : Dev nD) (n : ℕ) (hz : n = 0) : Phi3 V c n = (Pipeline.scopedRest (Ix := Unit) (Name := ℕ) (U := UR sig nD τ) (Lvl := ℕ) (Val := Elt F) spec3 c : sProp 𝕄) := by
  subst hz; rfl

theorem Phi3_succ (c : Dev nD) (n : ℕ) :
    Phi3 V c (n + 1) = iprop(iprop(owns (c : Thread nD τ) scM3_0 fullShare (acc3 V c n).1 ∗ owns (c : Thread nD τ) scM3_1 fullShare (acc3 V c n).2)
      ∗ Pipeline.scopedRestBut (Ix := Unit) (Name := ℕ) (U := UR sig nD τ) (Lvl := ℕ) (Val := Elt F) spec3 c [cc3_scratch0, cc3_scratch1]) := rfl

theorem Phi3_pos (c : Dev nD) (n : ℕ) (hz : n ≠ 0) :
    Phi3 V c n = iprop(iprop(owns (c : Thread nD τ) scM3_0 fullShare (acc3 V c (n - 1)).1 ∗ owns (c : Thread nD τ) scM3_1 fullShare (acc3 V c (n - 1)).2)
      ∗ Pipeline.scopedRestBut (Ix := Unit) (Name := ℕ) (U := UR sig nD τ) (Lvl := ℕ) (Val := Elt F) spec3 c [cc3_scratch0, cc3_scratch1]) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => hmid3 V c t
    | ⟨6, _⟩ => (acc3 V c t.val).1
    | ⟨7, _⟩ => (acc3 V c t.val).2
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = iblk3 V c 3 t := by dsimp only [dat3]

theorem after3_4 (c : Dev nD) (t : Fin cfg3.N) : (dat3 V c).after 4 t = iblk3 V c 4 t := by dsimp only [dat3]

theorem after3_5 (c : Dev nD) (t : Fin cfg3.N) : (dat3 V c).after 5 t = hmid3 V c t := by dsimp only [dat3]

theorem after3_6 (c : Dev nD) (t : Fin cfg3.N) : (dat3 V c).after 6 t = (acc3 V c t.val).1 := by dsimp only [dat3]

theorem after3_7 (c : Dev nD) (t : Fin cfg3.N) : (dat3 V c).after 7 t = (acc3 V c t.val).2 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1600000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    after3_0, after3_1, after3_2, after3_3, after3_4, after3_5, after3_6, after3_7]
  rw [show (dat3 V c).Φ t.succ = Phi3 V c (t.val + 1) from rfl, Phi3_succ,
    show (dat3 V c).Φ t.castSucc = Phi3 V c t.val from rfl]
  unfold hmid3
  by_cases hz : t.val = 0
  · rw [Phi3_zero V c _ hz, scopedRest3_eq, acc3_first V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_A c Set.univ (grid3.coords t) _ _ _ _ _ _ _ _ _ _ _ _ _ _ _ _ _ _ _ _ ((hcond3_0 t).mpr hz)
      (iblk3 V c 0 t) (iblk3 V c 1 t) (iblk3 V c 2 t) (iblk3 V c 3 t) (iblk3 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi3_pos V c _ hz, acc3_later V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_B c Set.univ (grid3.coords t) _ _ _ _ _ _ _ _ _ _ _ _ _ _ _ _ _ _ _ _ (fun h => hz ((hcond3_0 t).mp h))
      (iblk3 V c 0 t) (iblk3 V c 1 t) (iblk3 V c 2 t) (iblk3 V c 3 t) (iblk3 V c 4 t) (acc3 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.scopedRest (Ix := Unit) (Name := ℕ) (U := UR sig nD τ) (Lvl := ℕ) (Val := Elt F) spec3 c : sProp 𝕄) ⊢ (dat3 V c).Φ 0 := by
  rw [show (dat3 V c).Φ 0 = Phi3 V c 0 from rfl, Phi3_zero V c 0 rfl]
  try exact Idealize.SL.BI.Entails.refl _

theorem hout3 (c : Dev nD) : (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = Phi3 V c (Fin.last cfg3.N).val from rfl,
    Phi3_pos V c _ (by rw [Fin.val_last]; have : cfg3.N = 20 := N_3; omega), scopedRest3_eq]
  iintro ⟨⟨HS0, HS1⟩, HR⟩
  isplitl [HS0 HS1]
  · isplitl [HS0]
    · iexists _; iexact HS0
    iexists _; iexact HS1
  iexact HR

end Cert.Kernel.Hand
end
-- ==== Proof.K.S3.lean ====
import proofs.«164939_j7129645711575_2_alg».proof.Proof.K.S2
import proofs.«164939_j7129645711575_2_alg».proof.Proof.K.R3
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N

theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w

theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm

theorem hrest3 (c : Dev nD) : ∀ b, b ∉ Finset.univ.image (Pipeline.arrRef spec3) → V8 m ρ c b = V7 m ρ c b :=
  Step.rest spec3 c

theorem keep3 (c : Dev nD) (r : Ref sig .tc)
    (h : ∀ w : Fin cfg3.W, (cfg3.win w).isOut = true → Pipeline.arrRef spec3 w ≠ r) :
    W8 m ρ c (Proc.devRef .tc r) = W7 m ρ c (Proc.devRef .tc r) :=
  Step.keepIn launch3.win.arr_inj (A_eq3 _ c) r h

theorem thru3 (c : Dev nD) (r : Ref sig .tc) (h1 : r ∉ hostOps3_W)
    (h2 : ∀ w : Fin cfg3.W, (cfg3.win w).isOut = true → Pipeline.arrRef spec3 w ≠ r) :
    W8 m ρ c (Proc.devRef .tc r) = W6 m ρ c (Proc.devRef .tc r) :=
  (keep3 m ρ c r h2).trans (StableHlo.after_of_writes_sub hostOps3 _ hostOps3_writes h1)

end Cert.Kernel.Hand

end
-- ==== Proof.K.R4.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t := by
  have hkeep : ∀ t, (cfg4.win 0).cut (cfg4.grid.coords t) (dat.after 0 t) = dat.blockOf 0 t := fun t => by
    rw [hafter]; unfold Dat.blockOf iblk4; rw [hA]; try rfl
  rw [dat.before_in_eq_fetched 0 rfl (fun _ => rfl) (fun _ _ _ => rfl) hkeep t d]
  unfold Dat.fetched Dat.blockOf iblk4; rw [hA]; try rfl

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t := by
  have hkeep : ∀ t, (cfg4.win 1).cut (cfg4.grid.coords t) (dat.after 1 t) = dat.blockOf 1 t := fun t => by
    rw [hafter]; unfold Dat.blockOf iblk4; rw [hA]; try rfl
  rw [dat.before_in_eq_fetched 1 rfl (fun _ => rfl) (fun _ _ _ => rfl) hkeep t d]
  unfold Dat.fetched Dat.blockOf iblk4; rw [hA]; try rfl

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t := by
  have hkeep : ∀ t, (cfg4.win 2).cut (cfg4.grid.coords t) (dat.after 2 t) = dat.blockOf 2 t := fun t => by
    rw [hafter]; unfold Dat.blockOf iblk4; rw [hA]; try rfl
  rw [dat.before_in_eq_fetched 2 rfl (fun _ => rfl) (fun _ _ _ => rfl) hkeep t d]
  unfold Dat.fetched Dat.blockOf iblk4; rw [hA]; try rfl

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t := by
  have hkeep : ∀ t, (cfg4.win 3).cut (cfg4.grid.coords t) (dat.after 3 t) = dat.blockOf 3 t := fun t => by
    rw [hafter]; unfold Dat.blockOf iblk4; rw [hA]; try rfl
  rw [dat.before_in_eq_fetched 3 rfl (fun _ => rfl) (fun _ _ _ => rfl) hkeep t d]
  unfold Dat.fetched Dat.blockOf iblk4; rw [hA]; try rfl

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t := by
  have hkeep : ∀ t, (cfg4.win 4).cut (cfg4.grid.coords t) (dat.after 4 t) = dat.blockOf 4 t := fun t => by
    rw [hafter]; unfold Dat.blockOf iblk4; rw [hA]; try rfl
  rw [dat.before_in_eq_fetched 4 rfl (fun _ => rfl) (fun _ _ _ => rfl) hkeep t d]
  unfold Dat.fetched Dat.blockOf iblk4; rw [hA]; try rfl

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t := by
  have hkeep : ∀ t, (cfg4.win 5).cut (cfg4.grid.coords t) (dat.after 5 t) = dat.blockOf 5 t := fun t => by
    rw [hafter]; unfold Dat.blockOf iblk4; rw [hA]; try rfl
  rw [dat.before_in_eq_fetched 5 rfl (fun _ => rfl) (fun _ _ _ => rfl) hkeep t d]
  unfold Dat.fetched Dat.blockOf iblk4; rw [hA]; try rfl

abbrev r4_0 : Rect S5000x128 := Rect.unit (s := S5000x128) ![0, 0] S5000x128.size inb_S5000x128_S5000x128_0_0

abbrev r4_1 : Rect S1x128 := Rect.unit (s := S1x128) ![0, 0] S1x128.size inb_S1x128_S1x128_0_0

def out4_6 (x0 : Vec F S5000x128 .f32) (x1 : Vec F S5000x128 .f32) (x2 x3 x4 x5 : Vec F S1x128 .f32) : Vec F S5000x128 .f32 :=
  View.canon [⟨r4_0, k4_pay1 (View.ld x0 r4_0) (View.ld x2 r4_1) (View.ld x3 r4_1) (View.ld x4 r4_1) (View.ld x5 r4_1) (View.ld x1 r4_0)⟩]

theorem cover4_6 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

set_option maxHeartbeats 400000 in

theorem sound_kernel4 (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__bn_relu_residual_kernel i arg1 harg1 arg2 harg2 arg3 harg3 arg4 harg4 arg5 harg5 arg6 harg6 arg7 harg7) K := by
  simp only [cc4__bn_relu_residual_kernel_eq_skeleton]; unfold cc4__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = iblk4 V c 2 t := by dsimp only [dat4]

theorem after4_3 (c : Dev nD) (t : Fin cfg4.N) : (dat4 V c).after 3 t = iblk4 V c 3 t := by dsimp only [dat4]

theorem after4_4 (c : Dev nD) (t : Fin cfg4.N) : (dat4 V c).after 4 t = iblk4 V c 4 t := by dsimp only [dat4]

theorem after4_5 (c : Dev nD) (t : Fin cfg4.N) : (dat4 V c).after 5 t = iblk4 V c 5 t := by dsimp only [dat4]

theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

theorem before4_2 (c : Dev nD) (t : Fin cfg4.N) (d) : (dat4 V c).before 2 t d = iblk4 V c 2 t :=
  before4_2_of V (dat4 V c) (A_eq4 V c 2) (after4_2 V c) t d

theorem before4_3 (c : Dev nD) (t : Fin cfg4.N) (d) : (dat4 V c).before 3 t d = iblk4 V c 3 t :=
  before4_3_of V (dat4 V c) (A_eq4 V c 3) (after4_3 V c) t d

theorem before4_4 (c : Dev nD) (t : Fin cfg4.N) (d) : (dat4 V c).before 4 t d = iblk4 V c 4 t :=
  before4_4_of V (dat4 V c) (A_eq4 V c 4) (after4_4 V c) t d

theorem before4_5 (c : Dev nD) (t : Fin cfg4.N) (d) : (dat4 V c).before 5 t d = iblk4 V c 5 t :=
  before4_5_of V (dat4 V c) (A_eq4 V c 5) (after4_5 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.S4.lean ====
import proofs.«164939_j7129645711575_2_alg».proof.Proof.K.S3
import proofs.«164939_j7129645711575_2_alg».proof.Proof.K.R4
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N

theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w

theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm

theorem hrest4 (c : Dev nD) : ∀ b, b ∉ Finset.univ.image (Pipeline.arrRef spec4) → V10 m ρ c b = V9 m ρ c b :=
  Step.rest spec4 c

theorem keep4 (c : Dev nD) (r : Ref sig .tc)
    (h : ∀ w : Fin cfg4.W, (cfg4.win w).isOut = true → Pipeline.arrRef spec4 w ≠ r) :
    W10 m ρ c (Proc.devRef .tc r) = W9 m ρ c (Proc.devRef .tc r) :=
  Step.keepIn launch4.win.arr_inj (A_eq4 _ c) r h

theorem thru4 (c : Dev nD) (r : Ref sig .tc) (h1 : r ∉ hostOps4_W)
    (h2 : ∀ w : Fin cfg4.W, (cfg4.win w).isOut = true → Pipeline.arrRef spec4 w ≠ r) :
    W10 m ρ c (Proc.devRef .tc r) = W8 m ρ c (Proc.devRef .tc r) :=
  (keep4 m ρ c r h2).trans (StableHlo.after_of_writes_sub hostOps4 _ hostOps4_writes h1)

end Cert.Kernel.Hand

end
-- ==== Proof.K.R5.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

theorem read_writes_cons_unit5 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readCov_cons_unit5 {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem readAt_unread_unit5 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

def hmidOf5 (x0 : Vec F S5000x128 .f32) (x1 : Vec F S5000x1 .f32) (x2 : Vec F S5000x1 .f32) (x3 : Vec F S128x128 .f32) (x4 : Vec F S1x128 .f32) :
    Vec F S5000x128 .f32 := k5_pay4 x0 x1 x3 x4 x2

def stepOf5 (x0 : Vec F S5000x128 .f32) (x1 : Vec F S5000x1 .f32) (x2 : Vec F S5000x1 .f32) (x3 : Vec F S128x128 .f32) (x4 : Vec F S1x128 .f32)
    (s : Vec F S1x128 .f32 × Vec F S1x128 .f32) : Vec F S1x128 .f32 × Vec F S1x128 .f32 :=
  (k5_pay5 x0 x1 x3 x4 x2 s.1, k5_pay1 s.2 (k5_pay6 x0 x1 x3 x4 x2))

def zero5 : Vec F S1x128 .f32 × Vec F S1x128 .f32 := (k5_pay2, k5_pay3)

set_option maxHeartbeats 1000000 in

theorem sound_kernel5_A (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S5000x128 .f32) (x1 : Vec F S5000x1 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf5 x0 x1 x2 x3 x4)
            ∗ owns (c : Thread nD τ) arg7 fullShare (stepOf5 x0 x1 x2 x3 x4 (zero5 (F := F))).1 ∗ owns (c : Thread nD τ) arg8 fullShare (stepOf5 x0 x1 x2 x3 x4 (zero5 (F := F))).2
            ∗ owns (c : Thread nD τ) arg9 fullShare (stepOf5 x0 x1 x2 x3 x4 (zero5 (F := F))).1 ∗ owns (c : Thread nD τ) arg10 fullShare (stepOf5 x0 x1 x2 x3 x4 (zero5 (F := F))).2) -∗ K ⟨⟩))
      ⊢ wp frame (wpE (defs₀ (F := F)) Variants.none c none) E (cc5__linear_stats_kernel i arg1 harg1 arg2 harg2 arg3 harg3 arg4 harg4 arg5 harg5 arg6 harg6 arg7 harg7 arg8 harg8 arg9 harg9 arg10 harg10) K := by
  simp only [cc5__linear_stats_kernel_eq_skeleton]; unfold cc5__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit5 (S := S5000x128) _ _ hz5]
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H6]
  · iexists _; isplitr
    swap; · iexact H6
    ipureintro
    rw [read_writes_cons_unit5 (S := S1x128) _ _ hz5]
    sl_unfold_run_names
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H7]
  · iexists _; isplitr
    swap; · iexact H7
    ipureintro
    rw [read_writes_cons_unit5 (S := S1x128) _ _ hz5]
    sl_unfold_run_names
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H8]
  · iexists _; isplitr
    swap; · iexact H8
    ipureintro
    sl_unfold_run_names
    rw [read_writes_cons_unit5 (S := S1x128) _ _ hz5]
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  iexists _; isplitr
  swap; · iexact H9
  ipureintro
  sl_unfold_run_names
  rw [read_writes_cons_unit5 (S := S1x128) _ _ hz5]
  simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
  rfl

set_option maxHeartbeats 1000000 in

theorem sound_kernel5_B (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S5000x128 .f32) (x1 : Vec F S5000x1 .f32) (x2 : Vec F S5000x1 .f32) (x3 : Vec F S128x128 .f32) (x4 : Vec F S1x128 .f32) (s : Vec F S1x128 .f32 × Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf5 x0 x1 x2 x3 x4)
            ∗ owns (c : Thread nD τ) arg7 fullShare (stepOf5 x0 x1 x2 x3 x4 s).1 ∗ owns (c : Thread nD τ) arg8 fullShare (stepOf5 x0 x1 x2 x3 x4 s).2
            ∗ owns (c : Thread nD τ) arg9 fullShare (stepOf5 x0 x1 x2 x3 x4 s).1 ∗ owns (c : Thread nD τ) arg10 fullShare (stepOf5 x0 x1 x2 x3 x4 s).2) -∗ K ⟨⟩))
      ⊢ wp frame (wpE (defs₀ (F := F)) Variants.none c none) E (cc5__linear_stats_kernel i arg1 harg1 arg2 harg2 arg3 harg3 arg4 harg4 arg5 harg5 arg6 harg6 arg7 harg7 arg8 harg8 arg9 harg9 arg10 harg10) K := by
  simp only [cc5__linear_stats_kernel_eq_skeleton]; unfold cc5__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hf8; obtain rfl := harg10.eq_unread hf9
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit5 (S := S5000x128) _ _ hz5]
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H6]
  · iexists _; isplitr
    swap; · iexact H6
    ipureintro
    rw [read_writes_cons_unit5 (S := S1x128) _ _ hz5]
    sl_unfold_run_names
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H7]
  · iexists _; isplitr
    swap; · iexact H7
    ipureintro
    rw [read_writes_cons_unit5 (S := S1x128) _ _ hz5]
    sl_unfold_run_names
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H8]
  · iexists _; isplitr
    swap; · iexact H8
    ipureintro
    sl_unfold_run_names
    rw [read_writes_cons_unit5 (S := S1x128) _ _ hz5]
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  iexists _; isplitr
  swap; · iexact H9
  ipureintro
  sl_unfold_run_names
  rw [read_writes_cons_unit5 (S := S1x128) _ _ hz5]
  simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
  rfl

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def hmid5 (c : Dev nD) (t : Fin cfg5.N) : Vec F S5000x128 .f32 :=
  hmidOf5 (iblk5 V c 0 t) (iblk5 V c 1 t) (iblk5 V c 2 t) (iblk5 V c 3 t) (iblk5 V c 4 t)

def stepAt5 (c : Dev nD) (n : ℕ) (s : Vec F S1x128 .f32 × Vec F S1x128 .f32) : Vec F S1x128 .f32 × Vec F S1x128 .f32 :=
  if h : n < cfg5.N then
    stepOf5 (iblk5 V c 0 ⟨n, h⟩) (iblk5 V c 1 ⟨n, h⟩) (iblk5 V c 2 ⟨n, h⟩) (iblk5 V c 3 ⟨n, h⟩) (iblk5 V c 4 ⟨n, h⟩) s
  else s

def acc5 (c : Dev nD) : ℕ → Vec F S1x128 .f32 × Vec F S1x128 .f32
  | 0 => stepAt5 V c 0 zero5
  | n + 1 => stepAt5 V c (n + 1) (acc5 c n)

theorem acc5_zero (c : Dev nD) : acc5 V c 0 = stepAt5 V c 0 zero5 := rfl

theorem acc5_succ (c : Dev nD) (n : ℕ) : acc5 V c (n + 1) = stepAt5 V c (n + 1) (acc5 V c n) := rfl

theorem acc5_first (c : Dev nD) (t : Fin cfg5.N) (hz : t.val = 0) :
    acc5 V c t.val = stepOf5 (iblk5 V c 0 t) (iblk5 V c 1 t) (iblk5 V c 2 t) (iblk5 V c 3 t) (iblk5 V c 4 t) zero5 := by
  obtain ⟨n, hn⟩ := t
  cases n with
  | zero => rw [acc5_zero]; unfold stepAt5; rw [dif_pos hn]
  | succ n => exact absurd hz (Nat.succ_ne_zero n)

theorem acc5_later (c : Dev nD) (t : Fin cfg5.N) (hz : t.val ≠ 0) :
    acc5 V c t.val = stepOf5 (iblk5 V c 0 t) (iblk5 V c 1 t) (iblk5 V c 2 t) (iblk5 V c 3 t) (iblk5 V c 4 t) (acc5 V c (t.val - 1)) := by
  obtain ⟨n, hn⟩ := t
  cases n with
  | zero => exact absurd rfl hz
  | succ n => rw [acc5_succ]; unfold stepAt5; rw [dif_pos hn]; rfl

abbrev scM5_0 : Memref sig .tc .vmem S1x128 .f32 := Memref.whole cc5_scratch0

abbrev scM5_1 : Memref sig .tc .vmem S1x128 .f32 := Memref.whole cc5_scratch1

theorem scopedRest5_eq (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) := by
  rw [scopedRest5_split]; simp only [scM5_0, scM5_1, owns_whole]; try rfl

def Phi5 (c : Dev nD) : ℕ → sProp 𝕄
  | 0 => Pipeline.scopedRest (Ix := Unit) (Name := ℕ) (U := UR sig nD τ) (Lvl := ℕ) (Val := Elt F) spec5 c
  | n + 1 => iprop(iprop(owns (c : Thread nD τ) scM5_0 fullShare (acc5 V c n).1 ∗ owns (c : Thread nD τ) scM5_1 fullShare (acc5 V c n).2)
      ∗ Pipeline.scopedRestBut (Ix := Unit) (Name := ℕ) (U := UR sig nD τ) (Lvl := ℕ) (Val := Elt F) spec5 c [cc5_scratch0, cc5_scratch1])

theorem Phi5_zero (c : Dev nD) (n : ℕ) (hz : n = 0) : Phi5 V c n = (Pipeline.scopedRest (Ix := Unit) (Name := ℕ) (U := UR sig nD τ) (Lvl := ℕ) (Val := Elt F) spec5 c : sProp 𝕄) := by
  subst hz; rfl

theorem Phi5_succ (c : Dev nD) (n : ℕ) :
    Phi5 V c (n + 1) = iprop(iprop(owns (c : Thread nD τ) scM5_0 fullShare (acc5 V c n).1 ∗ owns (c : Thread nD τ) scM5_1 fullShare (acc5 V c n).2)
      ∗ Pipeline.scopedRestBut (Ix := Unit) (Name := ℕ) (U := UR sig nD τ) (Lvl := ℕ) (Val := Elt F) spec5 c [cc5_scratch0, cc5_scratch1]) := rfl

theorem Phi5_pos (c : Dev nD) (n : ℕ) (hz : n ≠ 0) :
    Phi5 V c n = iprop(iprop(owns (c : Thread nD τ) scM5_0 fullShare (acc5 V c (n - 1)).1 ∗ owns (c : Thread nD τ) scM5_1 fullShare (acc5 V c (n - 1)).2)
      ∗ Pipeline.scopedRestBut (Ix := Unit) (Name := ℕ) (U := UR sig nD τ) (Lvl := ℕ) (Val := Elt F) spec5 c [cc5_scratch0, cc5_scratch1]) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => hmid5 V c t
    | ⟨6, _⟩ => (acc5 V c t.val).1
    | ⟨7, _⟩ => (acc5 V c t.val).2
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]

theorem after5_1 (c : Dev nD) (t : Fin cfg5.N) : (dat5 V c).after 1 t = iblk5 V c 1 t := by dsimp only [dat5]

theorem after5_2 (c : Dev nD) (t : Fin cfg5.N) : (dat5 V c).after 2 t = iblk5 V c 2 t := by dsimp only [dat5]

theorem after5_3 (c : Dev nD) (t : Fin cfg5.N) : (dat5 V c).after 3 t = iblk5 V c 3 t := by dsimp only [dat5]

theorem after5_4 (c : Dev nD) (t : Fin cfg5.N) : (dat5 V c).after 4 t = iblk5 V c 4 t := by dsimp only [dat5]

theorem after5_5 (c : Dev nD) (t : Fin cfg5.N) : (dat5 V c).after 5 t = hmid5 V c t := by dsimp only [dat5]

theorem after5_6 (c : Dev nD) (t : Fin cfg5.N) : (dat5 V c).after 6 t = (acc5 V c t.val).1 := by dsimp only [dat5]

theorem after5_7 (c : Dev nD) (t : Fin cfg5.N) : (dat5 V c).after 7 t = (acc5 V c t.val).2 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)

theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1600000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl,
    after5_0, after5_1, after5_2, after5_3, after5_4, after5_5, after5_6, after5_7]
  rw [show (dat5 V c).Φ t.succ = Phi5 V c (t.val + 1) from rfl, Phi5_succ,
    show (dat5 V c).Φ t.castSucc = Phi5 V c t.val from rfl]
  unfold hmid5
  by_cases hz : t.val = 0
  · rw [Phi5_zero V c _ hz, scopedRest5_eq, acc5_first V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel5_A c Set.univ (grid5.coords t) _ _ _ _ _ _ _ _ _ _ _ _ _ _ _ _ _ _ _ _ ((hcond5_0 t).mpr hz)
      (iblk5 V c 0 t) (iblk5 V c 1 t) (iblk5 V c 2 t) (iblk5 V c 3 t) (iblk5 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi5_pos V c _ hz, acc5_later V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel5_B c Set.univ (grid5.coords t) _ _ _ _ _ _ _ _ _ _ _ _ _ _ _ _ _ _ _ _ (fun h => hz ((hcond5_0 t).mp h))
      (iblk5 V c 0 t) (iblk5 V c 1 t) (iblk5 V c 2 t) (iblk5 V c 3 t) (iblk5 V c 4 t) (acc5 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.scopedRest (Ix := Unit) (Name := ℕ) (U := UR sig nD τ) (Lvl := ℕ) (Val := Elt F) spec5 c : sProp 𝕄) ⊢ (dat5 V c).Φ 0 := by
  rw [show (dat5 V c).Φ 0 = Phi5 V c 0 from rfl, Phi5_zero V c 0 rfl]
  try exact Idealize.SL.BI.Entails.refl _

theorem hout5 (c : Dev nD) : (dat5 V c).Φ (Fin.last cfg5.N) ⊢ (Pipeline.scopedRest (Ix := Unit) (Name := ℕ) (U := UR sig nD τ) (Lvl := ℕ) (Val := Elt F) spec5 c : sProp 𝕄) := by
  rw [show (dat5 V c).Φ (Fin.last cfg5.N) = Phi5 V c (Fin.last cfg5.N).val from rfl,
    Phi5_pos V c _ (by rw [Fin.val_last]; have : cfg5.N = 20 := N_5; omega), scopedRest5_eq]
  iintro ⟨⟨HS0, HS1⟩, HR⟩
  isplitl [HS0 HS1]
  · isplitl [HS0]
    · iexists _; iexact HS0
    iexists _; iexact HS1
  iexact HR

end Cert.Kernel.Hand
end
-- ==== Proof.K.S5.lean ====
import proofs.«164939_j7129645711575_2_alg».proof.Proof.K.S4
import proofs.«164939_j7129645711575_2_alg».proof.Proof.K.R5
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N

theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w

theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm

theorem hrest5 (c : Dev nD) : ∀ b, b ∉ Finset.univ.image (Pipeline.arrRef spec5) → V12 m ρ c b = V11 m ρ c b :=
  Step.rest spec5 c

theorem keep5 (c : Dev nD) (r : Ref sig .tc)
    (h : ∀ w : Fin cfg5.W, (cfg5.win w).isOut = true → Pipeline.arrRef spec5 w ≠ r) :
    W12 m ρ c (Proc.devRef .tc r) = W11 m ρ c (Proc.devRef .tc r) :=
  Step.keepIn launch5.win.arr_inj (A_eq5 _ c) r h

theorem thru5 (c : Dev nD) (r : Ref sig .tc) (h1 : r ∉ hostOps5_W)
    (h2 : ∀ w : Fin cfg5.W, (cfg5.win w).isOut = true → Pipeline.arrRef spec5 w ≠ r) :
    W12 m ρ c (Proc.devRef .tc r) = W10 m ρ c (Proc.devRef .tc r) :=
  (keep5 m ρ c r h2).trans (StableHlo.after_of_writes_sub hostOps5 _ hostOps5_writes h1)

end Cert.Kernel.Hand

end
-- ==== Proof.K.R6.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t := by
  have hkeep : ∀ t, (cfg6.win 0).cut (cfg6.grid.coords t) (dat.after 0 t) = dat.blockOf 0 t := fun t => by
    rw [hafter]; unfold Dat.blockOf iblk6; rw [hA]; try rfl
  rw [dat.before_in_eq_fetched 0 rfl (fun _ => rfl) (fun _ _ _ => rfl) hkeep t d]
  unfold Dat.fetched Dat.blockOf iblk6; rw [hA]; try rfl

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t := by
  have hkeep : ∀ t, (cfg6.win 1).cut (cfg6.grid.coords t) (dat.after 1 t) = dat.blockOf 1 t := fun t => by
    rw [hafter]; unfold Dat.blockOf iblk6; rw [hA]; try rfl
  rw [dat.before_in_eq_fetched 1 rfl (fun _ => rfl) (fun _ _ _ => rfl) hkeep t d]
  unfold Dat.fetched Dat.blockOf iblk6; rw [hA]; try rfl

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t := by
  have hkeep : ∀ t, (cfg6.win 2).cut (cfg6.grid.coords t) (dat.after 2 t) = dat.blockOf 2 t := fun t => by
    rw [hafter]; unfold Dat.blockOf iblk6; rw [hA]; try rfl
  rw [dat.before_in_eq_fetched 2 rfl (fun _ => rfl) (fun _ _ _ => rfl) hkeep t d]
  unfold Dat.fetched Dat.blockOf iblk6; rw [hA]; try rfl

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t := by
  have hkeep : ∀ t, (cfg6.win 3).cut (cfg6.grid.coords t) (dat.after 3 t) = dat.blockOf 3 t := fun t => by
    rw [hafter]; unfold Dat.blockOf iblk6; rw [hA]; try rfl
  rw [dat.before_in_eq_fetched 3 rfl (fun _ => rfl) (fun _ _ _ => rfl) hkeep t d]
  unfold Dat.fetched Dat.blockOf iblk6; rw [hA]; try rfl

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t := by
  have hkeep : ∀ t, (cfg6.win 4).cut (cfg6.grid.coords t) (dat.after 4 t) = dat.blockOf 4 t := fun t => by
    rw [hafter]; unfold Dat.blockOf iblk6; rw [hA]; try rfl
  rw [dat.before_in_eq_fetched 4 rfl (fun _ => rfl) (fun _ _ _ => rfl) hkeep t d]
  unfold Dat.fetched Dat.blockOf iblk6; rw [hA]; try rfl

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t := by
  have hkeep : ∀ t, (cfg6.win 5).cut (cfg6.grid.coords t) (dat.after 5 t) = dat.blockOf 5 t := fun t => by
    rw [hafter]; unfold Dat.blockOf iblk6; rw [hA]; try rfl
  rw [dat.before_in_eq_fetched 5 rfl (fun _ => rfl) (fun _ _ _ => rfl) hkeep t d]
  unfold Dat.fetched Dat.blockOf iblk6; rw [hA]; try rfl

abbrev r6_0 : Rect S5000x128 := Rect.unit (s := S5000x128) ![0, 0] S5000x128.size inb_S5000x128_S5000x128_0_0

abbrev r6_1 : Rect S1x128 := Rect.unit (s := S1x128) ![0, 0] S1x128.size inb_S1x128_S1x128_0_0

def out6_6 (x0 : Vec F S5000x128 .f32) (x1 : Vec F S5000x128 .f32) (x2 x3 x4 x5 : Vec F S1x128 .f32) : Vec F S5000x128 .f32 :=
  View.canon [⟨r6_0, k6_pay1 (View.ld x0 r6_0) (View.ld x2 r6_1) (View.ld x3 r6_1) (View.ld x4 r6_1) (View.ld x5 r6_1) (View.ld x1 r6_0)⟩]

theorem cover6_6 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

set_option maxHeartbeats 400000 in

theorem sound_kernel6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E
          (cc6__bn_relu_residual_kernel i arg1 harg1 arg2 harg2 arg3 harg3 arg4 harg4 arg5 harg5 arg6 harg6 arg7 harg7) K := by
  simp only [cc6__bn_relu_residual_kernel_eq_skeleton]; unfold cc6__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = iblk6 V c 2 t := by dsimp only [dat6]

theorem after6_3 (c : Dev nD) (t : Fin cfg6.N) : (dat6 V c).after 3 t = iblk6 V c 3 t := by dsimp only [dat6]

theorem after6_4 (c : Dev nD) (t : Fin cfg6.N) : (dat6 V c).after 4 t = iblk6 V c 4 t := by dsimp only [dat6]

theorem after6_5 (c : Dev nD) (t : Fin cfg6.N) : (dat6 V c).after 5 t = iblk6 V c 5 t := by dsimp only [dat6]

theorem after6_6 (c : Dev nD) (t : Fin cfg6.N) :
    (dat6 V c).after 6 t = out6_6 (iblk6 V c 0 t) (iblk6 V c 1 t) (iblk6 V c 2 t) (iblk6 V c 3 t) (iblk6 V c 4 t) (iblk6 V c 5 t) := by
  dsimp only [dat6]

theorem before6_0 (c : Dev nD) (t : Fin cfg6.N) (d) : (dat6 V c).before 0 t d = iblk6 V c 0 t :=
  before6_0_of V (dat6 V c) (A_eq6 V c 0) (after6_0 V c) t d

theorem before6_1 (c : Dev nD) (t : Fin cfg6.N) (d) : (dat6 V c).before 1 t d = iblk6 V c 1 t :=
  before6_1_of V (dat6 V c) (A_eq6 V c 1) (after6_1 V c) t d

theorem before6_2 (c : Dev nD) (t : Fin cfg6.N) (d) : (dat6 V c).before 2 t d = iblk6 V c 2 t :=
  before6_2_of V (dat6 V c) (A_eq6 V c 2) (after6_2 V c) t d

theorem before6_3 (c : Dev nD) (t : Fin cfg6.N) (d) : (dat6 V c).before 3 t d = iblk6 V c 3 t :=
  before6_3_of V (dat6 V c) (A_eq6 V c 3) (after6_3 V c) t d

theorem before6_4 (c : Dev nD) (t : Fin cfg6.N) (d) : (dat6 V c).before 4 t d = iblk6 V c 4 t :=
  before6_4_of V (dat6 V c) (A_eq6 V c 4) (after6_4 V c) t d

theorem before6_5 (c : Dev nD) (t : Fin cfg6.N) (d) : (dat6 V c).before 5 t d = iblk6 V c 5 t :=
  before6_5_of V (dat6 V c) (A_eq6 V c 5) (after6_5 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _
    (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.S6.lean ====
import proofs.«164939_j7129645711575_2_alg».proof.Proof.K.S5
import proofs.«164939_j7129645711575_2_alg».proof.Proof.K.R6
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b

def W14 (c : Dev nD) : Valuation τ sig (Elt F) :=
  Pipeline.withArrays spec6 c (W13 m ρ c) fun w => (dat6 (V13 m ρ) c).arrAt w cfg6.N

theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w

theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb

abbrev V14 : (c : Dev nD) → (b : Ref sig .tc) → Buf (Elt F) ((c : Thread nD τ).loc b) := fun c b => W14 m ρ c b

theorem hF6 (c : Dev nD) (w : Fin cfg6.W) : (dat6 (V13 m ρ) c).arrAt w cfg6.N = V14 m ρ c (Pipeline.arrRef spec6 w) :=
  (W14_arr m ρ c w).symm

theorem hrest6 (c : Dev nD) : ∀ b, b ∉ Finset.univ.image (Pipeline.arrRef spec6) → V14 m ρ c b = V13 m ρ c b :=
  Step.rest spec6 c

theorem keep6 (c : Dev nD) (r : Ref sig .tc)
    (h : ∀ w : Fin cfg6.W, (cfg6.win w).isOut = true → Pipeline.arrRef spec6 w ≠ r) :
    W14 m ρ c (Proc.devRef .tc r) = W13 m ρ c (Proc.devRef .tc r) :=
  Step.keepIn launch6.win.arr_inj (A_eq6 _ c) r h

theorem thru6 (c : Dev nD) (r : Ref sig .tc) (h1 : r ∉ hostOps6_W)
    (h2 : ∀ w : Fin cfg6.W, (cfg6.win w).isOut = true → Pipeline.arrRef spec6 w ≠ r) :
    W14 m ρ c (Proc.devRef .tc r) = W12 m ρ c (Proc.devRef .tc r) :=
  (keep6 m ρ c r h2).trans (StableHlo.after_of_writes_sub hostOps6 _ hostOps6_writes h1)

end Cert.Kernel.Hand

end
-- ==== Proof.K.R7.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz7 : (![0, 0] : Fin 2 → Nat) = fun _ => 0 := funext fun a => by fin_cases a <;> rfl

theorem read_writes_cons_unit7 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readCov_cons_unit7 {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem readAt_unread_unit7 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val = 0 :=
  (by decide +kernel : ∀ t : Fin grid7.N, cond7_0 (grid7.coords t) ↔ t.val = 0)

def hmidOf7 (x0 : Vec F S5000x128 .f32) (x1 : Vec F S5000x1 .f32) (x2 : Vec F S5000x1 .f32) (x3 : Vec F S128x128 .f32) (x4 : Vec F S1x128 .f32) :
    Vec F S5000x128 .f32 := k7_pay4 x0 x1 x3 x4 x2

def stepOf7 (x0 : Vec F S5000x128 .f32) (x1 : Vec F S5000x1 .f32) (x2 : Vec F S5000x1 .f32) (x3 : Vec F S128x128 .f32) (x4 : Vec F S1x128 .f32)
    (s : Vec F S1x128 .f32 × Vec F S1x128 .f32) : Vec F S1x128 .f32 × Vec F S1x128 .f32 :=
  (k7_pay5 x0 x1 x3 x4 x2 s.1, k7_pay1 s.2 (k7_pay6 x0 x1 x3 x4 x2))

def zero7 : Vec F S1x128 .f32 × Vec F S1x128 .f32 := (k7_pay2, k7_pay3)

set_option maxHeartbeats 1000000 in

theorem sound_kernel7_A (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond7_0 i)
    (x0 : Vec F S5000x128 .f32) (x1 : Vec F S5000x1 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf7 x0 x1 x2 x3 x4)
            ∗ owns (c : Thread nD τ) arg7 fullShare (stepOf7 x0 x1 x2 x3 x4 (zero7 (F := F))).1 ∗ owns (c : Thread nD τ) arg8 fullShare (stepOf7 x0 x1 x2 x3 x4 (zero7 (F := F))).2
            ∗ owns (c : Thread nD τ) arg9 fullShare (stepOf7 x0 x1 x2 x3 x4 (zero7 (F := F))).1 ∗ owns (c : Thread nD τ) arg10 fullShare (stepOf7 x0 x1 x2 x3 x4 (zero7 (F := F))).2) -∗ K ⟨⟩))
      ⊢ wp frame (wpE (defs₀ (F := F)) Variants.none c none) E (cc7__linear_stats_kernel i arg1 harg1 arg2 harg2 arg3 harg3 arg4 harg4 arg5 harg5 arg6 harg6 arg7 harg7 arg8 harg8 arg9 harg9 arg10 harg10) K := by
  simp only [cc7__linear_stats_kernel_eq_skeleton]; unfold cc7__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit7 (S := S5000x128) _ _ hz7]
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H6]
  · iexists _; isplitr
    swap; · iexact H6
    ipureintro
    rw [read_writes_cons_unit7 (S := S1x128) _ _ hz7]
    sl_unfold_run_names
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H7]
  · iexists _; isplitr
    swap; · iexact H7
    ipureintro
    rw [read_writes_cons_unit7 (S := S1x128) _ _ hz7]
    sl_unfold_run_names
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H8]
  · iexists _; isplitr
    swap; · iexact H8
    ipureintro
    sl_unfold_run_names
    rw [read_writes_cons_unit7 (S := S1x128) _ _ hz7]
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  iexists _; isplitr
  swap; · iexact H9
  ipureintro
  sl_unfold_run_names
  rw [read_writes_cons_unit7 (S := S1x128) _ _ hz7]
  simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
  rfl

set_option maxHeartbeats 1000000 in

theorem sound_kernel7_B (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond7_0 i)
    (x0 : Vec F S5000x128 .f32) (x1 : Vec F S5000x1 .f32) (x2 : Vec F S5000x1 .f32) (x3 : Vec F S128x128 .f32) (x4 : Vec F S1x128 .f32) (s : Vec F S1x128 .f32 × Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf7 x0 x1 x2 x3 x4)
            ∗ owns (c : Thread nD τ) arg7 fullShare (stepOf7 x0 x1 x2 x3 x4 s).1 ∗ owns (c : Thread nD τ) arg8 fullShare (stepOf7 x0 x1 x2 x3 x4 s).2
            ∗ owns (c : Thread nD τ) arg9 fullShare (stepOf7 x0 x1 x2 x3 x4 s).1 ∗ owns (c : Thread nD τ) arg10 fullShare (stepOf7 x0 x1 x2 x3 x4 s).2) -∗ K ⟨⟩))
      ⊢ wp frame (wpE (defs₀ (F := F)) Variants.none c none) E (cc7__linear_stats_kernel i arg1 harg1 arg2 harg2 arg3 harg3 arg4 harg4 arg5 harg5 arg6 harg6 arg7 harg7 arg8 harg8 arg9 harg9 arg10 harg10) K := by
  simp only [cc7__linear_stats_kernel_eq_skeleton]; unfold cc7__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hf8; obtain rfl := harg10.eq_unread hf9
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit7 (S := S5000x128) _ _ hz7]
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H6]
  · iexists _; isplitr
    swap; · iexact H6
    ipureintro
    rw [read_writes_cons_unit7 (S := S1x128) _ _ hz7]
    sl_unfold_run_names
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H7]
  · iexists _; isplitr
    swap; · iexact H7
    ipureintro
    rw [read_writes_cons_unit7 (S := S1x128) _ _ hz7]
    sl_unfold_run_names
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H8]
  · iexists _; isplitr
    swap; · iexact H8
    ipureintro
    sl_unfold_run_names
    rw [read_writes_cons_unit7 (S := S1x128) _ _ hz7]
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  iexists _; isplitr
  swap; · iexact H9
  ipureintro
  sl_unfold_run_names
  rw [read_writes_cons_unit7 (S := S1x128) _ _ hz7]
  simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
  rfl

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def hmid7 (c : Dev nD) (t : Fin cfg7.N) : Vec F S5000x128 .f32 :=
  hmidOf7 (iblk7 V c 0 t) (iblk7 V c 1 t) (iblk7 V c 2 t) (iblk7 V c 3 t) (iblk7 V c 4 t)

def stepAt7 (c : Dev nD) (n : ℕ) (s : Vec F S1x128 .f32 × Vec F S1x128 .f32) : Vec F S1x128 .f32 × Vec F S1x128 .f32 :=
  if h : n < cfg7.N then
    stepOf7 (iblk7 V c 0 ⟨n, h⟩) (iblk7 V c 1 ⟨n, h⟩) (iblk7 V c 2 ⟨n, h⟩) (iblk7 V c 3 ⟨n, h⟩) (iblk7 V c 4 ⟨n, h⟩) s
  else s

def acc7 (c : Dev nD) : ℕ → Vec F S1x128 .f32 × Vec F S1x128 .f32
  | 0 => stepAt7 V c 0 zero7
  | n + 1 => stepAt7 V c (n + 1) (acc7 c n)

theorem acc7_zero (c : Dev nD) : acc7 V c 0 = stepAt7 V c 0 zero7 := rfl

theorem acc7_succ (c : Dev nD) (n : ℕ) : acc7 V c (n + 1) = stepAt7 V c (n + 1) (acc7 V c n) := rfl

theorem acc7_first (c : Dev nD) (t : Fin cfg7.N) (hz : t.val = 0) :
    acc7 V c t.val = stepOf7 (iblk7 V c 0 t) (iblk7 V c 1 t) (iblk7 V c 2 t) (iblk7 V c 3 t) (iblk7 V c 4 t) zero7 := by
  obtain ⟨n, hn⟩ := t
  cases n with
  | zero => rw [acc7_zero]; unfold stepAt7; rw [dif_pos hn]
  | succ n => exact absurd hz (Nat.succ_ne_zero n)

theorem acc7_later (c : Dev nD) (t : Fin cfg7.N) (hz : t.val ≠ 0) :
    acc7 V c t.val = stepOf7 (iblk7 V c 0 t) (iblk7 V c 1 t) (iblk7 V c 2 t) (iblk7 V c 3 t) (iblk7 V c 4 t) (acc7 V c (t.val - 1)) := by
  obtain ⟨n, hn⟩ := t
  cases n with
  | zero => exact absurd rfl hz
  | succ n => rw [acc7_succ]; unfold stepAt7; rw [dif_pos hn]; rfl

abbrev scM7_0 : Memref sig .tc .vmem S1x128 .f32 := Memref.whole cc7_scratch0

abbrev scM7_1 : Memref sig .tc .vmem S1x128 .f32 := Memref.whole cc7_scratch1

theorem scopedRest7_eq (c : Dev nD) :
    (Pipeline.scopedRest (Ix := Unit) (Name := ℕ) (U := UR sig nD τ) (Lvl := ℕ) (Val := Elt F) spec7 c : sProp 𝕄)
      = iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) := by
  rw [scopedRest7_split]; simp only [scM7_0, scM7_1, owns_whole]; try rfl

def Phi7 (c : Dev nD) : ℕ → sProp 𝕄
  | 0 => Pipeline.scopedRest (Ix := Unit) (Name := ℕ) (U := UR sig nD τ) (Lvl := ℕ) (Val := Elt F) spec7 c
  | n + 1 => iprop(iprop(owns (c : Thread nD τ) scM7_0 fullShare (acc7 V c n).1 ∗ owns (c : Thread nD τ) scM7_1 fullShare (acc7 V c n).2)
      ∗ Pipeline.scopedRestBut (Ix := Unit) (Name := ℕ) (U := UR sig nD τ) (Lvl := ℕ) (Val := Elt F) spec7 c [cc7_scratch0, cc7_scratch1])

theorem Phi7_zero (c : Dev nD) (n : ℕ) (hz : n = 0) : Phi7 V c n = (Pipeline.scopedRest (Ix := Unit) (Name := ℕ) (U := UR sig nD τ) (Lvl := ℕ) (Val := Elt F) spec7 c : sProp 𝕄) := by
  subst hz; rfl

theorem Phi7_succ (c : Dev nD) (n : ℕ) :
    Phi7 V c (n + 1) = iprop(iprop(owns (c : Thread nD τ) scM7_0 fullShare (acc7 V c n).1 ∗ owns (c : Thread nD τ) scM7_1 fullShare (acc7 V c n).2)
      ∗ Pipeline.scopedRestBut (Ix := Unit) (Name := ℕ) (U := UR sig nD τ) (Lvl := ℕ) (Val := Elt F) spec7 c [cc7_scratch0, cc7_scratch1]) := rfl

theorem Phi7_pos (c : Dev nD) (n : ℕ) (hz : n ≠ 0) :
    Phi7 V c n = iprop(iprop(owns (c : Thread nD τ) scM7_0 fullShare (acc7 V c (n - 1)).1 ∗ owns (c : Thread nD τ) scM7_1 fullShare (acc7 V c (n - 1)).2)
      ∗ Pipeline.scopedRestBut (Ix := Unit) (Name := ℕ) (U := UR sig nD τ) (Lvl := ℕ) (Val := Elt F) spec7 c [cc7_scratch0, cc7_scratch1]) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => hmid7 V c t
    | ⟨6, _⟩ => (acc7 V c t.val).1
    | ⟨7, _⟩ => (acc7 V c t.val).2
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]

theorem after7_1 (c : Dev nD) (t : Fin cfg7.N) : (dat7 V c).after 1 t = iblk7 V c 1 t := by dsimp only [dat7]

theorem after7_2 (c : Dev nD) (t : Fin cfg7.N) : (dat7 V c).after 2 t = iblk7 V c 2 t := by dsimp only [dat7]

theorem after7_3 (c : Dev nD) (t : Fin cfg7.N) : (dat7 V c).after 3 t = iblk7 V c 3 t := by dsimp only [dat7]

theorem after7_4 (c : Dev nD) (t : Fin cfg7.N) : (dat7 V c).after 4 t = iblk7 V c 4 t := by dsimp only [dat7]

theorem after7_5 (c : Dev nD) (t : Fin cfg7.N) : (dat7 V c).after 5 t = hmid7 V c t := by dsimp only [dat7]

theorem after7_6 (c : Dev nD) (t : Fin cfg7.N) : (dat7 V c).after 6 t = (acc7 V c t.val).1 := by dsimp only [dat7]

theorem after7_7 (c : Dev nD) (t : Fin cfg7.N) : (dat7 V c).after 7 t = (acc7 V c t.val).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)

theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)

theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

set_option maxHeartbeats 1600000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl,
    after7_0, after7_1, after7_2, after7_3, after7_4, after7_5, after7_6, after7_7]
  rw [show (dat7 V c).Φ t.succ = Phi7 V c (t.val + 1) from rfl, Phi7_succ,
    show (dat7 V c).Φ t.castSucc = Phi7 V c t.val from rfl]
  unfold hmid7
  by_cases hz : t.val = 0
  · rw [Phi7_zero V c _ hz, scopedRest7_eq, acc7_first V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel7_A c Set.univ (grid7.coords t) _ _ _ _ _ _ _ _ _ _ _ _ _ _ _ _ _ _ _ _ ((hcond7_0 t).mpr hz)
      (iblk7 V c 0 t) (iblk7 V c 1 t) (iblk7 V c 2 t) (iblk7 V c 3 t) (iblk7 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi7_pos V c _ hz, acc7_later V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel7_B c Set.univ (grid7.coords t) _ _ _ _ _ _ _ _ _ _ _ _ _ _ _ _ _ _ _ _ (fun h => hz ((hcond7_0 t).mp h))
      (iblk7 V c 0 t) (iblk7 V c 1 t) (iblk7 V c 2 t) (iblk7 V c 3 t) (iblk7 V c 4 t) (acc7 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.scopedRest (Ix := Unit) (Name := ℕ) (U := UR sig nD τ) (Lvl := ℕ) (Val := Elt F) spec7 c : sProp 𝕄) ⊢ (dat7 V c).Φ 0 := by
  rw [show (dat7 V c).Φ 0 = Phi7 V c 0 from rfl, Phi7_zero V c 0 rfl]
  try exact Idealize.SL.BI.Entails.refl _

theorem hout7 (c : Dev nD) : (dat7 V c).Φ (Fin.last cfg7.N) ⊢ (Pipeline.scopedRest (Ix := Unit) (Name := ℕ) (U := UR sig nD τ) (Lvl := ℕ) (Val := Elt F) spec7 c : sProp 𝕄) := by
  rw [show (dat7 V c).Φ (Fin.last cfg7.N) = Phi7 V c (Fin.last cfg7.N).val from rfl,
    Phi7_pos V c _ (by rw [Fin.val_last]; have : cfg7.N = 20 := N_7; omega), scopedRest7_eq]
  iintro ⟨⟨HS0, HS1⟩, HR⟩
  isplitl [HS0 HS1]
  · isplitl [HS0]
    · iexists _; iexact HS0
    iexists _; iexact HS1
  iexact HR

end Cert.Kernel.Hand
end
-- ==== Proof.K.S7.lean ====
import proofs.«164939_j7129645711575_2_alg».proof.Proof.K.S6
import proofs.«164939_j7129645711575_2_alg».proof.Proof.K.R7
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b

def W16 (c : Dev nD) : Valuation τ sig (Elt F) :=
  Pipeline.withArrays spec7 c (W15 m ρ c) fun w => (dat7 (V15 m ρ) c).arrAt w cfg7.N

theorem W16_arr (c : Dev nD) (w : Fin cfg7.W) :
    W16 m ρ c (Proc.devRef .tc (Pipeline.arrRef spec7 w)) = (dat7 (V15 m ρ) c).arrAt w cfg7.N :=
  Pipeline.withArrays_arr spec7 launch7.win.arr_inj c _ _ w

theorem W16_of_ne (c : Dev nD) (b : Ref sig .tc) (hb : ∀ w, Pipeline.arrRef spec7 w ≠ b) :
    W16 m ρ c (Proc.devRef .tc b) = W15 m ρ c (Proc.devRef .tc b) :=
  Pipeline.withArrays_of_ne spec7 c _ _ b hb

abbrev V16 : (c : Dev nD) → (b : Ref sig .tc) → Buf (Elt F) ((c : Thread nD τ).loc b) := fun c b => W16 m ρ c b

theorem hF7 (c : Dev nD) (w : Fin cfg7.W) : (dat7 (V15 m ρ) c).arrAt w cfg7.N = V16 m ρ c (Pipeline.arrRef spec7 w) :=
  (W16_arr m ρ c w).symm

theorem hrest7 (c : Dev nD) : ∀ b, b ∉ Finset.univ.image (Pipeline.arrRef spec7) → V16 m ρ c b = V15 m ρ c b :=
  Step.rest spec7 c

theorem keep7 (c : Dev nD) (r : Ref sig .tc)
    (h : ∀ w : Fin cfg7.W, (cfg7.win w).isOut = true → Pipeline.arrRef spec7 w ≠ r) :
    W16 m ρ c (Proc.devRef .tc r) = W15 m ρ c (Proc.devRef .tc r) :=
  Step.keepIn launch7.win.arr_inj (A_eq7 _ c) r h

theorem thru7 (c : Dev nD) (r : Ref sig .tc) (h1 : r ∉ hostOps7_W)
    (h2 : ∀ w : Fin cfg7.W, (cfg7.win w).isOut = true → Pipeline.arrRef spec7 w ≠ r) :
    W16 m ρ c (Proc.devRef .tc r) = W14 m ρ c (Proc.devRef .tc r) :=
  (keep7 m ρ c r h2).trans (StableHlo.after_of_writes_sub hostOps7 _ hostOps7_writes h1)

end Cert.Kernel.Hand

end
-- ==== Proof.K.R8.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t := by
  have hkeep : ∀ t, (cfg8.win 0).cut (cfg8.grid.coords t) (dat.after 0 t) = dat.blockOf 0 t := fun t => by
    rw [hafter]; unfold Dat.blockOf iblk8; rw [hA]; try rfl
  rw [dat.before_in_eq_fetched 0 rfl (fun _ => rfl) (fun _ _ _ => rfl) hkeep t d]
  unfold Dat.fetched Dat.blockOf iblk8; rw [hA]; try rfl

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t := by
  have hkeep : ∀ t, (cfg8.win 1).cut (cfg8.grid.coords t) (dat.after 1 t) = dat.blockOf 1 t := fun t => by
    rw [hafter]; unfold Dat.blockOf iblk8; rw [hA]; try rfl
  rw [dat.before_in_eq_fetched 1 rfl (fun _ => rfl) (fun _ _ _ => rfl) hkeep t d]
  unfold Dat.fetched Dat.blockOf iblk8; rw [hA]; try rfl

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t := by
  have hkeep : ∀ t, (cfg8.win 2).cut (cfg8.grid.coords t) (dat.after 2 t) = dat.blockOf 2 t := fun t => by
    rw [hafter]; unfold Dat.blockOf iblk8; rw [hA]; try rfl
  rw [dat.before_in_eq_fetched 2 rfl (fun _ => rfl) (fun _ _ _ => rfl) hkeep t d]
  unfold Dat.fetched Dat.blockOf iblk8; rw [hA]; try rfl

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t := by
  have hkeep : ∀ t, (cfg8.win 3).cut (cfg8.grid.coords t) (dat.after 3 t) = dat.blockOf 3 t := fun t => by
    rw [hafter]; unfold Dat.blockOf iblk8; rw [hA]; try rfl
  rw [dat.before_in_eq_fetched 3 rfl (fun _ => rfl) (fun _ _ _ => rfl) hkeep t d]
  unfold Dat.fetched Dat.blockOf iblk8; rw [hA]; try rfl

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t := by
  have hkeep : ∀ t, (cfg8.win 4).cut (cfg8.grid.coords t) (dat.after 4 t) = dat.blockOf 4 t := fun t => by
    rw [hafter]; unfold Dat.blockOf iblk8; rw [hA]; try rfl
  rw [dat.before_in_eq_fetched 4 rfl (fun _ => rfl) (fun _ _ _ => rfl) hkeep t d]
  unfold Dat.fetched Dat.blockOf iblk8; rw [hA]; try rfl

theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t := by
  have hkeep : ∀ t, (cfg8.win 5).cut (cfg8.grid.coords t) (dat.after 5 t) = dat.blockOf 5 t := fun t => by
    rw [hafter]; unfold Dat.blockOf iblk8; rw [hA]; try rfl
  rw [dat.before_in_eq_fetched 5 rfl (fun _ => rfl) (fun _ _ _ => rfl) hkeep t d]
  unfold Dat.fetched Dat.blockOf iblk8; rw [hA]; try rfl

abbrev r8_0 : Rect S5000x128 := Rect.unit (s := S5000x128) ![0, 0] S5000x128.size inb_S5000x128_S5000x128_0_0

abbrev r8_1 : Rect S1x128 := Rect.unit (s := S1x128) ![0, 0] S1x128.size inb_S1x128_S1x128_0_0

def out8_6 (x0 : Vec F S5000x128 .f32) (x1 : Vec F S5000x128 .f32) (x2 x3 x4 x5 : Vec F S1x128 .f32) : Vec F S5000x128 .f32 :=
  View.canon [⟨r8_0, k8_pay1 (View.ld x0 r8_0) (View.ld x2 r8_1) (View.ld x3 r8_1) (View.ld x4 r8_1) (View.ld x5 r8_1) (View.ld x1 r8_0)⟩]

theorem cover8_6 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

set_option maxHeartbeats 400000 in

theorem sound_kernel8 (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E
          (cc8__bn_relu_residual_kernel i arg1 harg1 arg2 harg2 arg3 harg3 arg4 harg4 arg5 harg5 arg6 harg6 arg7 harg7) K := by
  simp only [cc8__bn_relu_residual_kernel_eq_skeleton]; unfold cc8__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]

theorem after8_1 (c : Dev nD) (t : Fin cfg8.N) : (dat8 V c).after 1 t = iblk8 V c 1 t := by dsimp only [dat8]

theorem after8_2 (c : Dev nD) (t : Fin cfg8.N) : (dat8 V c).after 2 t = iblk8 V c 2 t := by dsimp only [dat8]

theorem after8_3 (c : Dev nD) (t : Fin cfg8.N) : (dat8 V c).after 3 t = iblk8 V c 3 t := by dsimp only [dat8]

theorem after8_4 (c : Dev nD) (t : Fin cfg8.N) : (dat8 V c).after 4 t = iblk8 V c 4 t := by dsimp only [dat8]

theorem after8_5 (c : Dev nD) (t : Fin cfg8.N) : (dat8 V c).after 5 t = iblk8 V c 5 t := by dsimp only [dat8]

theorem after8_6 (c : Dev nD) (t : Fin cfg8.N) :
    (dat8 V c).after 6 t = out8_6 (iblk8 V c 0 t) (iblk8 V c 1 t) (iblk8 V c 2 t) (iblk8 V c 3 t) (iblk8 V c 4 t) (iblk8 V c 5 t) := by
  dsimp only [dat8]

theorem before8_0 (c : Dev nD) (t : Fin cfg8.N) (d) : (dat8 V c).before 0 t d = iblk8 V c 0 t :=
  before8_0_of V (dat8 V c) (A_eq8 V c 0) (after8_0 V c) t d

theorem before8_1 (c : Dev nD) (t : Fin cfg8.N) (d) : (dat8 V c).before 1 t d = iblk8 V c 1 t :=
  before8_1_of V (dat8 V c) (A_eq8 V c 1) (after8_1 V c) t d

theorem before8_2 (c : Dev nD) (t : Fin cfg8.N) (d) : (dat8 V c).before 2 t d = iblk8 V c 2 t :=
  before8_2_of V (dat8 V c) (A_eq8 V c 2) (after8_2 V c) t d

theorem before8_3 (c : Dev nD) (t : Fin cfg8.N) (d) : (dat8 V c).before 3 t d = iblk8 V c 3 t :=
  before8_3_of V (dat8 V c) (A_eq8 V c 3) (after8_3 V c) t d

theorem before8_4 (c : Dev nD) (t : Fin cfg8.N) (d) : (dat8 V c).before 4 t d = iblk8 V c 4 t :=
  before8_4_of V (dat8 V c) (A_eq8 V c 4) (after8_4 V c) t d

theorem before8_5 (c : Dev nD) (t : Fin cfg8.N) (d) : (dat8 V c).before 5 t d = iblk8 V c 5 t :=
  before8_5_of V (dat8 V c) (A_eq8 V c 5) (after8_5 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _
    (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.S8.lean ====
import proofs.«164939_j7129645711575_2_alg».proof.Proof.K.S7
import proofs.«164939_j7129645711575_2_alg».proof.Proof.K.R8
import proofs.«164939_j7129645711575_2_alg».proof.Proof.LibStep

noncomputable section

namespace Cert.Kernel.Hand

open Cert.Kernel.Gen Idealize.ShloMosaic Idealize.ShloMosaic.TcCoe

variable {F : FTy → Type} [FloatOps F]
variable (m : (ℓ : Loc nD τ sig) → Buf (Elt F) ℓ) (ρ : Dev nD → PrngReg)

abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b

def W18 (c : Dev nD) : Valuation τ sig (Elt F) :=
  Pipeline.withArrays spec8 c (W17 m ρ c) fun w => (dat8 (V17 m ρ) c).arrAt w cfg8.N

theorem W18_arr (c : Dev nD) (w : Fin cfg8.W) :
    W18 m ρ c (Proc.devRef .tc (Pipeline.arrRef spec8 w)) = (dat8 (V17 m ρ) c).arrAt w cfg8.N :=
  Pipeline.withArrays_arr spec8 launch8.win.arr_inj c _ _ w

theorem W18_of_ne (c : Dev nD) (b : Ref sig .tc) (hb : ∀ w, Pipeline.arrRef spec8 w ≠ b) :
    W18 m ρ c (Proc.devRef .tc b) = W17 m ρ c (Proc.devRef .tc b) :=
  Pipeline.withArrays_of_ne spec8 c _ _ b hb

abbrev V18 : (c : Dev nD) → (b : Ref sig .tc) → Buf (Elt F) ((c : Thread nD τ).loc b) := fun c b => W18 m ρ c b

theorem hF8 (c : Dev nD) (w : Fin cfg8.W) : (dat8 (V17 m ρ) c).arrAt w cfg8.N = V18 m ρ c (Pipeline.arrRef spec8 w) :=
  (W18_arr m ρ c w).symm

theorem hrest8 (c : Dev nD) : ∀ b, b ∉ Finset.univ.image (Pipeline.arrRef spec8) → V18 m ρ c b = V17 m ρ c b :=
  Step.rest spec8 c

theorem keep8 (c : Dev nD) (r : Ref sig .tc)
    (h : ∀ w : Fin cfg8.W, (cfg8.win w).isOut = true → Pipeline.arrRef spec8 w ≠ r) :
    W18 m ρ c (Proc.devRef .tc r) = W17 m ρ c (Proc.devRef .tc r) :=
  Step.keepIn launch8.win.arr_inj (A_eq8 _ c) r h

theorem thru8 (c : Dev nD) (r : Ref sig .tc) (h1 : r ∉ hostOps8_W)
    (h2 : ∀ w : Fin cfg8.W, (cfg8.win w).isOut = true → Pipeline.arrRef spec8 w ≠ r) :
    W18 m ρ c (Proc.devRef .tc r) = W16 m ρ c (Proc.devRef .tc r) :=
  (keep8 m ρ c r h2).trans (StableHlo.after_of_writes_sub hostOps8 _ hostOps8_writes h1)

end Cert.Kernel.Hand

end
-- ==== Proof.K.Fam.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import proofs.«164939_j7129645711575_2_alg».proof.Proof.Gen.Kernel.Regions
import proofs.«164939_j7129645711575_2_alg».proof.Proof.K.S8
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W19 : Dev nD → Valuation τ sig (Elt F) := fun c => StableHlo.after hostOps9 (W18 m ρ c)

theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W19 m ρ c) ∗ ∃ r, prngReg c r)

end Cert.Kernel.Hand

end
-- ==== Proof.K.Reg.lean ====
import proofs.«164939_j7129645711575_2_alg».proof.Proof.K.Fam
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every region's proof data holds its input arrays whole, owes nothing, and bounds no recorded pair before the first point. -/
theorem pdats_fact (p : Fin 9) (c : Dev nD) : (∀ w, (pdats m ρ p c).q w = fullShare) ∧ (∀ t, (pdats m ρ p c).owed t = 0)
    ∧ (pdats m ρ p c).recorded 0 = Set.univ := by
  fin_cases p <;> exact ⟨fun _ => rfl, fun _ => rfl, rfl⟩

section
variable (p : Fin 9) (la : Pipeline.LaunchFacts (nD := nD) (τ := τ) cfgs p) (Wi Wo : Dev nD → Valuation τ sig (Elt F))
  (hb : ∀ c, BodyObligation (pdats m ρ p c) (defs₀ (F := F)) Variants.none () Set.univ)
  (hA : ∀ c w, (pdats m ρ p c).A w = Wi c (Pipeline.arrRef (cfgs p).spec w))
  (hF : ∀ c w, (pdats m ρ p c).arrAt w (cfgs p).N = Wo c (Pipeline.arrRef (cfgs p).spec w))
  (hrest : ∀ c, ∀ b, b ∉ Finset.univ.image (Pipeline.arrRef (cfgs p).spec) → Wo c b = Wi c b)

/-- Region `p`'s arrays leave the held buffers at `Wi` and return at `Wo`; the register is dealt to `X` (through the invariant) and `Z` (around it). -/
def regOf (X Z : Dev nD → sProp 𝕄) (hXZ : ∀ c, iprop(∃ r, prngReg c r) ⊢ iprop(X c ∗ Z c))
    (hZX : ∀ c, iprop(X c ∗ Z c) ⊢ iprop(∃ r, prngReg c r))
    (hin : ∀ c, iprop(X c ∗ Pipeline.scopedRest (cfgs p).spec c) ⊢ (pdats m ρ p c).Φ 0)
    (hout : ∀ c, (pdats m ρ p c).Φ (Fin.last _) ⊢ iprop(X c ∗ Pipeline.scopedRest (cfgs p).spec c)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c => (pdats_fact m ρ p c).2.1
  pre c := iprop(StableHlo.held (c : Thread nD τ) (Pipeline.ucRefs τ sig) (Wi c) ∗ R c)
  post c := iprop(StableHlo.held (c : Thread nD τ) (Pipeline.ucRefs τ sig) (Wo c) ∗ R c)
  X := X
  Y := X
  Z c := iprop(Pipeline.unscopedRest (Ix := Unit) (Name := ℕ) (U := UR sig nD τ) (Lvl := ℕ) (cfgs p).spec c (fun b => Wi c b) ∗ Z c)
  hentry c := by
    rw [Pipeline.ownSems0_none]
    have hsplit := Pipeline.arrays_of_unscopedBufs (p := p) (pcfgs (F := F)) adm (pdats m ρ) la.win la.arr_whole c
      ((pdats m ρ p c).share_full (pdats_fact m ρ p c).1) (fun b => Wi c b) (hA c)
    rw [Pipeline.unscopedBufs_held] at hsplit
    iintro ⟨⟨Hub, Hp, HO⟩, -, -⟩
    ihave H := hsplit $$ Hub
    icases H with ⟨Ha, Hrest⟩
    ihave Hp := hXZ c $$ Hp
    icases Hp with ⟨HX, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(pdats_fact m ρ p c).2.1]
      icases HO with ⟨%W, HO⟩; iexists W; isplitr; · ipureintro; exact fun _ _ => Or.inl ((pdats_fact m ρ p c).2.2 ▸ trivial)
      iexact HO
    isplitl [HX]; · iexact HX
    isplitl [Hrest]; · iexact Hrest
    iexact HZ
  hin c := by
    iintro ⟨HX, -, Hr⟩
    iapply hin c
    isplitl [HX] <;> iassumption
  hout c := by
    rw [Pipeline.ownSems0_none]
    iintro H
    ihave H := hout c $$ H
    icases H with ⟨HX, Hr⟩
    isplitl [HX]; · iexact HX
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (pdats_fact m ρ p c).1)
      (fun b => Wi c b) (fun b => Wo c b) ((pdats m ρ p c).arrAt · (cfgs p).N) (hF c) (hrest c)
    rw [Pipeline.unscopedBufs_held] at hjoin
    iintro ⟨Ha, HO, HX, Hrest, HZ⟩
    imodintro
    isplitl [Ha Hrest]
    · iapply hjoin; isplitl [Ha] <;> iassumption
    isplitl [HX HZ]
    · iapply hZX c; isplitl [HX] <;> iassumption
    unfold Pipeline.Dat.owesAt Pipeline.owesWithin; rw [(pdats_fact m ρ p c).2.1]
    icases HO with ⟨%W, -, HO⟩; iexists W; iexact HO

/-- A region whose invariant is the scoped rest beside the generator register: the register goes through it. -/
def regA (hΦ : ∀ c t, (pdats m ρ p c).Φ t = Pipeline.ΦA (cfgs p).spec c) :
    Pipeline.RegionSeg (pcfgs (F := F)) adm (pdats m ρ) () defs₀ 𝒱₀ L lv p :=
  regOf m ρ p la Wi Wo hb hA hF hrest (fun c => iprop(∃ r, prngReg c r)) (fun _ => BI.emp)
    (fun _ => sep_emp_intro) (fun _ => sep_emp_elim)
    (fun c => by rw [hΦ, Pipeline.ΦA]; exact sep_comm) (fun c => by rw [hΦ, Pipeline.ΦA]; exact sep_comm)

/-- A region with an invariant of its own, made from the scoped rest and returned to it: the register goes around. -/
def regS (hi : ∀ c, Pipeline.scopedRest (Ix := Unit) (Name := ℕ) (U := UR sig nD τ) (Lvl := ℕ) (Val := Elt F) (cfgs p).spec c ⊢ (pdats m ρ p c).Φ 0)
    (hl : ∀ c, (pdats m ρ p c).Φ (Fin.last _) ⊢ (Pipeline.scopedRest (Ix := Unit) (Name := ℕ) (U := UR sig nD τ) (Lvl := ℕ) (Val := Elt F) (cfgs p).spec c : sProp 𝕄)) :
    Pipeline.RegionSeg (pcfgs (F := F)) adm (pdats m ρ) () defs₀ 𝒱₀ L lv p :=
  regOf m ρ p la Wi Wo hb hA hF hrest (fun _ => BI.emp) (fun c => iprop(∃ r, prngReg c r))
    (fun _ => emp_sep_intro) (fun _ => emp_sep_elim)
    (fun c => emp_sep_elim.trans (hi c)) (fun c => (hl c).trans emp_sep_intro)

end

end Cert.Kernel.Hand

end
-- ==== Proof.K.G0.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg0 : Pipeline.RegionSeg (pcfgs (F := F)) adm (pdats m ρ) () defs₀ 𝒱₀ L lv 0 :=
  regA m ρ 0 launch0 (W1 m ρ) (W2 m ρ) (body_obligation0 (V1 m ρ)) (fun _ _ => rfl) (hF0 m ρ) (hrest0 m ρ) fun _ _ => rfl

end Cert.Kernel.Hand

end
-- ==== Proof.K.G1.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg1 : Pipeline.RegionSeg (pcfgs (F := F)) adm (pdats m ρ) () defs₀ 𝒱₀ L lv 1 :=
  regS m ρ 1 launch1 (W3 m ρ) (W4 m ρ) (body_obligation1 (V3 m ρ)) (fun _ _ => rfl) (hF1 m ρ) (hrest1 m ρ) (hin1 (V3 m ρ)) (hout1 (V3 m ρ))

end Cert.Kernel.Hand

end
-- ==== Proof.K.G2.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg2 : Pipeline.RegionSeg (pcfgs (F := F)) adm (pdats m ρ) () defs₀ 𝒱₀ L lv 2 :=
  regA m ρ 2 launch2 (W5 m ρ) (W6 m ρ) (body_obligation2 (V5 m ρ)) (fun _ _ => rfl) (hF2 m ρ) (hrest2 m ρ) fun _ _ => rfl

end Cert.Kernel.Hand

end
-- ==== Proof.K.G3.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg3 : Pipeline.RegionSeg (pcfgs (F := F)) adm (pdats m ρ) () defs₀ 𝒱₀ L lv 3 :=
  regS m ρ 3 launch3 (W7 m ρ) (W8 m ρ) (body_obligation3 (V7 m ρ)) (fun _ _ => rfl) (hF3 m ρ) (hrest3 m ρ) (hin3 (V7 m ρ)) (hout3 (V7 m ρ))

end Cert.Kernel.Hand

end
-- ==== Proof.K.G4.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg4 : Pipeline.RegionSeg (pcfgs (F := F)) adm (pdats m ρ) () defs₀ 𝒱₀ L lv 4 :=
  regA m ρ 4 launch4 (W9 m ρ) (W10 m ρ) (body_obligation4 (V9 m ρ)) (fun _ _ => rfl) (hF4 m ρ) (hrest4 m ρ) fun _ _ => rfl

end Cert.Kernel.Hand

end
-- ==== Proof.K.G5.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg5 : Pipeline.RegionSeg (pcfgs (F := F)) adm (pdats m ρ) () defs₀ 𝒱₀ L lv 5 :=
  regS m ρ 5 launch5 (W11 m ρ) (W12 m ρ) (body_obligation5 (V11 m ρ)) (fun _ _ => rfl) (hF5 m ρ) (hrest5 m ρ) (hin5 (V11 m ρ)) (hout5 (V11 m ρ))

end Cert.Kernel.Hand

end
-- ==== Proof.K.G6.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg6 : Pipeline.RegionSeg (pcfgs (F := F)) adm (pdats m ρ) () defs₀ 𝒱₀ L lv 6 :=
  regA m ρ 6 launch6 (W13 m ρ) (W14 m ρ) (body_obligation6 (V13 m ρ)) (fun _ _ => rfl) (hF6 m ρ) (hrest6 m ρ) fun _ _ => rfl

end Cert.Kernel.Hand

end
-- ==== Proof.K.G7.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg7 : Pipeline.RegionSeg (pcfgs (F := F)) adm (pdats m ρ) () defs₀ 𝒱₀ L lv 7 :=
  regS m ρ 7 launch7 (W15 m ρ) (W16 m ρ) (body_obligation7 (V15 m ρ)) (fun _ _ => rfl) (hF7 m ρ) (hrest7 m ρ) (hin7 (V15 m ρ)) (hout7 (V15 m ρ))

end Cert.Kernel.Hand

end
-- ==== Proof.K.G8.lean ====
import proofs.«164939_j7129645711575_2_alg».proof.Proof.K.Reg

noncomputable section

namespace Cert.Kernel.Hand

open Cert.Kernel Cert.Kernel.Gen Idealize.ShloMosaic

variable {F : FTy → Type} [FloatOps F] (m : (ℓ : Loc nD τ sig) → Buf (Elt F) ℓ) (ρ : Dev nD → PrngReg)

def reg8 : Pipeline.RegionSeg (pcfgs (F := F)) adm (pdats m ρ) () defs₀ 𝒱₀ L lv 8 :=
  regA m ρ 8 launch8 (W17 m ρ) (W18 m ρ) (body_obligation8 (V17 m ρ)) (fun _ _ => rfl) (hF8 m ρ) (hrest8 m ρ) fun _ _ => rfl

end Cert.Kernel.Hand

end
-- ==== Proof.K.Run.lean ====
import proofs.«164939_j7129645711575_2_alg».proof.Proof.Gen.Kernel.Launch
import proofs.«164939_j7129645711575_2_alg».proof.Proof.Gen.Kernel.Points
import proofs.«164939_j7129645711575_2_alg».proof.Proof.Gen.Kernel.Skeleton
import proofs.«164939_j7129645711575_2_alg».proof.Proof.K.G0
import proofs.«164939_j7129645711575_2_alg».proof.Proof.K.G1
import proofs.«164939_j7129645711575_2_alg».proof.Proof.K.G2
import proofs.«164939_j7129645711575_2_alg».proof.Proof.K.G3
import proofs.«164939_j7129645711575_2_alg».proof.Proof.K.G4
import proofs.«164939_j7129645711575_2_alg».proof.Proof.K.G5
import proofs.«164939_j7129645711575_2_alg».proof.Proof.K.G6
import proofs.«164939_j7129645711575_2_alg».proof.Proof.K.G7
import proofs.«164939_j7129645711575_2_alg».proof.Proof.K.G8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]

theorem main_run (c : Dev nD) : main (F := F) c = Pipeline.Seg.run (segs m ρ) := (main_chain c).trans (by chain_rfl)

theorem lastLink (c : Dev nD) :
    iprop(StableHlo.held (c : Thread nD τ) (Pipeline.ucRefs τ sig) (W19 m ρ c)
        ∗ ((∃ r, prngReg c r) ∗ ∃ W, owes (c : Thread nD τ) (0 : CellTallies nD τ sig Unit) W))
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]
    · iexact Hh
    iexact Hp
  iexact HO

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,

      fun c => lastLink m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

theorem W19_keep (c : Dev nD) (r : Ref sig .tc)
    (h0a : r ∉ hostOps0_W) (h0b : ∀ w : Fin cfg0.W, (cfg0.win w).isOut = true → Pipeline.arrRef spec0 w ≠ r)
    (h1a : r ∉ hostOps1_W) (h1b : ∀ w : Fin cfg1.W, (cfg1.win w).isOut = true → Pipeline.arrRef spec1 w ≠ r)
    (h2a : r ∉ hostOps2_W) (h2b : ∀ w : Fin cfg2.W, (cfg2.win w).isOut = true → Pipeline.arrRef spec2 w ≠ r)
    (h3a : r ∉ hostOps3_W) (h3b : ∀ w : Fin cfg3.W, (cfg3.win w).isOut = true → Pipeline.arrRef spec3 w ≠ r)
    (h4a : r ∉ hostOps4_W) (h4b : ∀ w : Fin cfg4.W, (cfg4.win w).isOut = true → Pipeline.arrRef spec4 w ≠ r)
    (h5a : r ∉ hostOps5_W) (h5b : ∀ w : Fin cfg5.W, (cfg5.win w).isOut = true → Pipeline.arrRef spec5 w ≠ r)
    (h6a : r ∉ hostOps6_W) (h6b : ∀ w : Fin cfg6.W, (cfg6.win w).isOut = true → Pipeline.arrRef spec6 w ≠ r)
    (h7a : r ∉ hostOps7_W) (h7b : ∀ w : Fin cfg7.W, (cfg7.win w).isOut = true → Pipeline.arrRef spec7 w ≠ r)
    (h8a : r ∉ hostOps8_W) (h8b : ∀ w : Fin cfg8.W, (cfg8.win w).isOut = true → Pipeline.arrRef spec8 w ≠ r)
    (h9a : r ∉ hostOps9_W) :
    W19 m ρ c (Proc.devRef .tc r) = m ((c : Thread nD τ).loc r) :=
  (W19_of m ρ c r h9a).trans <| (thru8 m ρ c r h8a h8b).trans <| (thru7 m ρ c r h7a h7b).trans <| (thru6 m ρ c r h6a h6b).trans <|
    (thru5 m ρ c r h5a h5b).trans <| (thru4 m ρ c r h4a h4b).trans <| (thru3 m ρ c r h3a h3b).trans <| (thru2 m ρ c r h2a h2b).trans <|
    (thru1 m ρ c r h1a h1b).trans <| (thru0 m ρ c r h0a h0b).trans rfl

macro "arg_kept" : tactic => `(tactic| (apply W19_keep <;> decide))

theorem arg0_kept (c : Dev nD) : W19 m ρ c (Proc.devRef .tc main_arg0) = m ((c : Thread nD τ).loc main_arg0) := by arg_kept

theorem arg1_kept (c : Dev nD) : W19 m ρ c (Proc.devRef .tc main_arg1) = m ((c : Thread nD τ).loc main_arg1) := by arg_kept

theorem arg2_kept (c : Dev nD) : W19 m ρ c (Proc.devRef .tc main_arg2) = m ((c : Thread nD τ).loc main_arg2) := by arg_kept

theorem arg3_kept (c : Dev nD) : W19 m ρ c (Proc.devRef .tc main_arg3) = m ((c : Thread nD τ).loc main_arg3) := by arg_kept

theorem arg4_kept (c : Dev nD) : W19 m ρ c (Proc.devRef .tc main_arg4) = m ((c : Thread nD τ).loc main_arg4) := by arg_kept

theorem arg5_kept (c : Dev nD) : W19 m ρ c (Proc.devRef .tc main_arg5) = m ((c : Thread nD τ).loc main_arg5) := by arg_kept

theorem arg6_kept (c : Dev nD) : W19 m ρ c (Proc.devRef .tc main_arg6) = m ((c : Thread nD τ).loc main_arg6) := by arg_kept

theorem arg7_kept (c : Dev nD) : W19 m ρ c (Proc.devRef .tc main_arg7) = m ((c : Thread nD τ).loc main_arg7) := by arg_kept

theorem arg8_kept (c : Dev nD) : W19 m ρ c (Proc.devRef .tc main_arg8) = m ((c : Thread nD τ).loc main_arg8) := by arg_kept

theorem arg9_kept (c : Dev nD) : W19 m ρ c (Proc.devRef .tc main_arg9) = m ((c : Thread nD τ).loc main_arg9) := by arg_kept

theorem arg10_kept (c : Dev nD) : W19 m ρ c (Proc.devRef .tc main_arg10) = m ((c : Thread nD τ).loc main_arg10) := by arg_kept

theorem arg11_kept (c : Dev nD) : W19 m ρ c (Proc.devRef .tc main_arg11) = m ((c : Thread nD τ).loc main_arg11) := by arg_kept

theorem arg12_kept (c : Dev nD) : W19 m ρ c (Proc.devRef .tc main_arg12) = m ((c : Thread nD τ).loc main_arg12) := by arg_kept

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (arg0_kept m ρ c),
     (h c _ (mem_uc main_arg1 (by decide))).trans (arg1_kept m ρ c),
     (h c _ (mem_uc main_arg2 (by decide))).trans (arg2_kept m ρ c),
     (h c _ (mem_uc main_arg3 (by decide))).trans (arg3_kept m ρ c),
     (h c _ (mem_uc main_arg4 (by decide))).trans (arg4_kept m ρ c),
     (h c _ (mem_uc main_arg5 (by decide))).trans (arg5_kept m ρ c),
     (h c _ (mem_uc main_arg6 (by decide))).trans (arg6_kept m ρ c),
     (h c _ (mem_uc main_arg7 (by decide))).trans (arg7_kept m ρ c),
     (h c _ (mem_uc main_arg8 (by decide))).trans (arg8_kept m ρ c),
     (h c _ (mem_uc main_arg9 (by decide))).trans (arg9_kept m ρ c),
     (h c _ (mem_uc main_arg10 (by decide))).trans (arg10_kept m ρ c),
     (h c _ (mem_uc main_arg11 (by decide))).trans (arg11_kept m ρ c),
     (h c _ (mem_uc main_arg12 (by decide))).trans (arg12_kept m ρ c)⟩)
    (run m ρ)

theorem run_result : θ_run defs (onTc (τ := τ) (main (F := F))) ⟨m, fun _ => 0, ρ⟩ (fun r => ∀ c : Dev nD,
      r.2.mem ((c.tc : Thread nD τ).loc main_v179) = W19 m ρ c (Proc.devRef .tc main_v179)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v179 (by decide)),
     (h c _ (mem_uc main_arg0 (by decide))).trans (arg0_kept m ρ c),
     (h c _ (mem_uc main_arg1 (by decide))).trans (arg1_kept m ρ c),
     (h c _ (mem_uc main_arg2 (by decide))).trans (arg2_kept m ρ c),
     (h c _ (mem_uc main_arg3 (by decide))).trans (arg3_kept m ρ c),
     (h c _ (mem_uc main_arg4 (by decide))).trans (arg4_kept m ρ c),
     (h c _ (mem_uc main_arg5 (by decide))).trans (arg5_kept m ρ c),
     (h c _ (mem_uc main_arg6 (by decide))).trans (arg6_kept m ρ c),
     (h c _ (mem_uc main_arg7 (by decide))).trans (arg7_kept m ρ c),
     (h c _ (mem_uc main_arg8 (by decide))).trans (arg8_kept m ρ c),
     (h c _ (mem_uc main_arg9 (by decide))).trans (arg9_kept m ρ c),
     (h c _ (mem_uc main_arg10 (by decide))).trans (arg10_kept m ρ c),
     (h c _ (mem_uc main_arg11 (by decide))).trans (arg11_kept m ρ c),
     (h c _ (mem_uc main_arg12 (by decide))).trans (arg12_kept m ρ c)⟩)
    (run m ρ)

end Cert.Kernel.Hand

end
-- ==== Proof.KI.Base.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import proofs.«164939_j7129645711575_2_alg».proof.Proof.Gen.KernelIdeal.Regions
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

end Cert.KernelIdeal.Hand

end
-- ==== Proof.KI.R0.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0

abbrev r0_1 : Rect S128x128 := Rect.unit (s := S128x128) ![0, 0] S128x128.size inb_S128x128_S128x128_0_0

abbrev r0_2 : Rect S1x128 := Rect.unit (s := S1x128) ![0, 0] S1x128.size inb_S1x128_S1x128_0_0

def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = iblk0 V c 2 t := by dsimp only [dat0]

theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.S0.lean ====
import proofs.«164939_j7129645711575_2_alg».proof.Proof.KI.Base
import proofs.«164939_j7129645711575_2_alg».proof.Proof.KI.R0
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  Step.rest spec0 c

theorem keep0 (c : Dev nD) (r : Ref sig .tc)
    (h : ∀ w : Fin cfg0.W, (cfg0.win w).isOut = true → Pipeline.arrRef spec0 w ≠ r) :
    W2 m ρ c (Proc.devRef .tc r) = W1 m ρ c (Proc.devRef .tc r) :=
  Step.keepIn launch0.win.arr_inj (A_eq0 _ c) r h

theorem thru0 (c : Dev nD) (r : Ref sig .tc) (h1 : r ∉ hostOps0_W)
    (h2 : ∀ w : Fin cfg0.W, (cfg0.win w).isOut = true → Pipeline.arrRef spec0 w ≠ r) :
    W2 m ρ c (Proc.devRef .tc r) = W0 m ρ c (Proc.devRef .tc r) :=
  (keep0 m ρ c r h2).trans (StableHlo.after_of_writes_sub hostOps0 _ hostOps0_writes h1)

end Cert.KernelIdeal.Hand

end
-- ==== Proof.KI.R1.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

theorem read_writes_cons_unit1 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readCov_cons_unit1 {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem readAt_unread_unit1 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

def hmidOf1 (x0 : Vec F S5000x128 .f32) (x1 : Vec F S5000x1 .f32) (x2 : Vec F S5000x1 .f32) (x3 : Vec F S128x128 .f32) (x4 : Vec F S1x128 .f32) :
    Vec F S5000x128 .f32 := k1_pay4 x0 x1 x3 x4 x2

def stepOf1 (x0 : Vec F S5000x128 .f32) (x1 : Vec F S5000x1 .f32) (x2 : Vec F S5000x1 .f32) (x3 : Vec F S128x128 .f32) (x4 : Vec F S1x128 .f32)
    (s : Vec F S1x128 .f32 × Vec F S1x128 .f32) : Vec F S1x128 .f32 × Vec F S1x128 .f32 :=
  (k1_pay5 x0 x1 x3 x4 x2 s.1, k1_pay1 s.2 (k1_pay6 x0 x1 x3 x4 x2))

def zero1 : Vec F S1x128 .f32 × Vec F S1x128 .f32 := (k1_pay2, k1_pay3)

set_option maxHeartbeats 1000000 in

theorem sound_kernel1_A (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond1_0 i)
    (x0 : Vec F S5000x128 .f32) (x1 : Vec F S5000x1 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf1 x0 x1 x2 x3 x4)
            ∗ owns (c : Thread nD τ) arg7 fullShare (stepOf1 x0 x1 x2 x3 x4 (zero1 (F := F))).1 ∗ owns (c : Thread nD τ) arg8 fullShare (stepOf1 x0 x1 x2 x3 x4 (zero1 (F := F))).2
            ∗ owns (c : Thread nD τ) arg9 fullShare (stepOf1 x0 x1 x2 x3 x4 (zero1 (F := F))).1 ∗ owns (c : Thread nD τ) arg10 fullShare (stepOf1 x0 x1 x2 x3 x4 (zero1 (F := F))).2) -∗ K ⟨⟩))
      ⊢ wp frame (wpE (defs₀ (F := F)) Variants.none c none) E (cc1__linear_stats_kernel i arg1 harg1 arg2 harg2 arg3 harg3 arg4 harg4 arg5 harg5 arg6 harg6 arg7 harg7 arg8 harg8 arg9 harg9 arg10 harg10) K := by
  simp only [cc1__linear_stats_kernel_eq_skeleton]; unfold cc1__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit1 (S := S5000x128) _ _ hz1]
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H6]
  · iexists _; isplitr
    swap; · iexact H6
    ipureintro
    rw [read_writes_cons_unit1 (S := S1x128) _ _ hz1]
    sl_unfold_run_names
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H7]
  · iexists _; isplitr
    swap; · iexact H7
    ipureintro
    rw [read_writes_cons_unit1 (S := S1x128) _ _ hz1]
    sl_unfold_run_names
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H8]
  · iexists _; isplitr
    swap; · iexact H8
    ipureintro
    sl_unfold_run_names
    rw [read_writes_cons_unit1 (S := S1x128) _ _ hz1]
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  iexists _; isplitr
  swap; · iexact H9
  ipureintro
  sl_unfold_run_names
  rw [read_writes_cons_unit1 (S := S1x128) _ _ hz1]
  simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
  rfl

set_option maxHeartbeats 1000000 in

theorem sound_kernel1_B (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i)
    (x0 : Vec F S5000x128 .f32) (x1 : Vec F S5000x1 .f32) (x2 : Vec F S5000x1 .f32) (x3 : Vec F S128x128 .f32) (x4 : Vec F S1x128 .f32) (s : Vec F S1x128 .f32 × Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf1 x0 x1 x2 x3 x4)
            ∗ owns (c : Thread nD τ) arg7 fullShare (stepOf1 x0 x1 x2 x3 x4 s).1 ∗ owns (c : Thread nD τ) arg8 fullShare (stepOf1 x0 x1 x2 x3 x4 s).2
            ∗ owns (c : Thread nD τ) arg9 fullShare (stepOf1 x0 x1 x2 x3 x4 s).1 ∗ owns (c : Thread nD τ) arg10 fullShare (stepOf1 x0 x1 x2 x3 x4 s).2) -∗ K ⟨⟩))
      ⊢ wp frame (wpE (defs₀ (F := F)) Variants.none c none) E (cc1__linear_stats_kernel i arg1 harg1 arg2 harg2 arg3 harg3 arg4 harg4 arg5 harg5 arg6 harg6 arg7 harg7 arg8 harg8 arg9 harg9 arg10 harg10) K := by
  simp only [cc1__linear_stats_kernel_eq_skeleton]; unfold cc1__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hf8; obtain rfl := harg10.eq_unread hf9
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit1 (S := S5000x128) _ _ hz1]
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H6]
  · iexists _; isplitr
    swap; · iexact H6
    ipureintro
    rw [read_writes_cons_unit1 (S := S1x128) _ _ hz1]
    sl_unfold_run_names
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H7]
  · iexists _; isplitr
    swap; · iexact H7
    ipureintro
    rw [read_writes_cons_unit1 (S := S1x128) _ _ hz1]
    sl_unfold_run_names
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  isplitl [H8]
  · iexists _; isplitr
    swap; · iexact H8
    ipureintro
    sl_unfold_run_names
    rw [read_writes_cons_unit1 (S := S1x128) _ _ hz1]
    simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
    rfl
  iexists _; isplitr
  swap; · iexact H9
  ipureintro
  sl_unfold_run_names
  rw [read_writes_cons_unit1 (S := S1x128) _ _ hz1]
  simp only [readCov_cons_unit1 (S := S1x128) _ hz1, readAt_unread_unit1 (S := S5000x128) _ _ hz1, readAt_unread_unit1 (S := S5000x1) _ _ hz1, readAt_unread_unit1 (S := S128x128) _ _ hz1, readAt_unread_unit1 (S := S1x128) _ _ hz1]
  rfl

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def hmid1 (c : Dev nD) (t : Fin cfg1.N) : Vec F S5000x128 .f32 :=
  hmidOf1 (iblk1 V c 0 t) (iblk1 V c 1 t) (iblk1 V c 2 t) (iblk1 V c 3 t) (iblk1 V c 4 t)

def stepAt1 (c : Dev nD) (n : ℕ) (s : Vec F S1x128 .f32 × Vec F S1x128 .f32) : Vec F S1x128 .f32 × Vec F S1x128 .f32 :=
  if h : n < cfg1.N then
    stepOf1 (iblk1 V c 0 ⟨n, h⟩) (iblk1 V c 1 ⟨n, h⟩) (iblk1 V c 2 ⟨n, h⟩) (iblk1 V c 3 ⟨n, h⟩) (iblk1 V c 4 ⟨n, h⟩) s
  else s

def acc1 (c : Dev nD) : ℕ → Vec F S1x128 .f32 × Vec F S1x128 .f32
  | 0 => stepAt1 V c 0 zero1
  | n + 1 => stepAt1 V c (n + 1) (acc1 c n)

theorem acc1_zero (c : Dev nD) : acc1 V c 0 = stepAt1 V c 0 zero1 := rfl

theorem acc1_succ (c : Dev nD) (n : ℕ) : acc1 V c (n + 1) = stepAt1 V c (n + 1) (acc1 V c n) := rfl

theorem acc1_first (c : Dev nD) (t : Fin cfg1.N) (hz : t.val = 0) :
    acc1 V c t.val = stepOf1 (iblk1 V c 0 t) (iblk1 V c 1 t) (iblk1 V c 2 t) (iblk1 V c 3 t) (iblk1 V c 4 t) zero1 := by
  obtain ⟨n, hn⟩ := t
  cases n with
  | zero => rw [acc1_zero]; unfold stepAt1; rw [dif_pos hn]
  | succ n => exact absurd hz (Nat.succ_ne_zero n)

theorem acc1_later (c : Dev nD) (t : Fin cfg1.N) (hz : t.val ≠ 0) :
    acc1 V c t.val = stepOf1 (iblk1 V c 0 t) (iblk1 V c 1 t) (iblk1 V c 2 t) (iblk1 V c 3 t) (iblk1 V c 4 t) (acc1 V c (t.val - 1)) := by
  obtain ⟨n, hn⟩ := t
  cases n with
  | zero => exact absurd rfl hz
  | succ n => rw [acc1_succ]; unfold stepAt1; rw [dif_pos hn]; rfl

abbrev scM1_0 : Memref sig .tc .vmem S1x128 .f32 := Memref.whole cc1_scratch0

abbrev scM1_1 : Memref sig .tc .vmem S1x128 .f32 := Memref.whole cc1_scratch1

theorem scopedRest1_eq (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

def Phi1 (c : Dev nD) : ℕ → sProp 𝕄
  | 0 => Pipeline.scopedRest (Ix := Unit) (Name := ℕ) (U := UR sig nD τ) (Lvl := ℕ) (Val := Elt F) spec1 c
  | n + 1 => iprop(iprop(owns (c : Thread nD τ) scM1_0 fullShare (acc1 V c n).1 ∗ owns (c : Thread nD τ) scM1_1 fullShare (acc1 V c n).2)
      ∗ Pipeline.scopedRestBut (Ix := Unit) (Name := ℕ) (U := UR sig nD τ) (Lvl := ℕ) (Val := Elt F) spec1 c [cc1_scratch0, cc1_scratch1])

theorem Phi1_zero (c : Dev nD) (n : ℕ) (hz : n = 0) : Phi1 V c n = (Pipeline.scopedRest (Ix := Unit) (Name := ℕ) (U := UR sig nD τ) (Lvl := ℕ) (Val := Elt F) spec1 c : sProp 𝕄) := by
  subst hz; rfl

theorem Phi1_succ (c : Dev nD) (n : ℕ) :
    Phi1 V c (n + 1) = iprop(iprop(owns (c : Thread nD τ) scM1_0 fullShare (acc1 V c n).1 ∗ owns (c : Thread nD τ) scM1_1 fullShare (acc1 V c n).2)
      ∗ Pipeline.scopedRestBut (Ix := Unit) (Name := ℕ) (U := UR sig nD τ) (Lvl := ℕ) (Val := Elt F) spec1 c [cc1_scratch0, cc1_scratch1]) := rfl

theorem Phi1_pos (c : Dev nD) (n : ℕ) (hz : n ≠ 0) :
    Phi1 V c n = iprop(iprop(owns (c : Thread nD τ) scM1_0 fullShare (acc1 V c (n - 1)).1 ∗ owns (c : Thread nD τ) scM1_1 fullShare (acc1 V c (n - 1)).2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => hmid1 V c t
    | ⟨6, _⟩ => (acc1 V c t.val).1
    | ⟨7, _⟩ => (acc1 V c t.val).2
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = iblk1 V c 2 t := by dsimp only [dat1]

theorem after1_3 (c : Dev nD) (t : Fin cfg1.N) : (dat1 V c).after 3 t = iblk1 V c 3 t := by dsimp only [dat1]

theorem after1_4 (c : Dev nD) (t : Fin cfg1.N) : (dat1 V c).after 4 t = iblk1 V c 4 t := by dsimp only [dat1]

theorem after1_5 (c : Dev nD) (t : Fin cfg1.N) : (dat1 V c).after 5 t = hmid1 V c t := by dsimp only [dat1]

theorem after1_6 (c : Dev nD) (t : Fin cfg1.N) : (dat1 V c).after 6 t = (acc1 V c t.val).1 := by dsimp only [dat1]

theorem after1_7 (c : Dev nD) (t : Fin cfg1.N) : (dat1 V c).after 7 t = (acc1 V c t.val).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5, after1_6, after1_7]
  rw [show (dat1 V c).Φ t.succ = Phi1 V c (t.val + 1) from rfl, Phi1_succ,
    show (dat1 V c).Φ t.castSucc = Phi1 V c t.val from rfl]
  unfold hmid1
  by_cases hz : t.val = 0
  · rw [Phi1_zero V c _ hz, scopedRest1_eq, acc1_first V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) _ _ _ _ _ _ _ _ _ _ _ _ _ _ _ _ _ _ _ _ ((hcond1_0 t).mpr hz)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi1_pos V c _ hz, acc1_later V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ _ _ _ _ (fun h => hz ((hcond1_0 t).mp h))
      (iblk1 V c 0 t) (iblk1 V c 1 t) (iblk1 V c 2 t) (iblk1 V c 3 t) (iblk1 V c 4 t) (acc1 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 from rfl, Phi1_zero V c 0 rfl]
  try exact Idealize.SL.BI.Entails.refl _

theorem hout1 (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val from rfl,
    Phi1_pos V c _ (by rw [Fin.val_last]; have : cfg1.N = 20 := N_1; omega), scopedRest1_eq]
  iintro ⟨⟨HS0, HS1⟩, HR⟩
  isplitl [HS0 HS1]
  · isplitl [HS0]
    · iexists _; iexact HS0
    iexists _; iexact HS1
  iexact HR

end Cert.KernelIdeal.Hand
end
-- ==== Proof.KI.S1.lean ====
import proofs.«164939_j7129645711575_2_alg».proof.Proof.KI.S0
import proofs.«164939_j7129645711575_2_alg».proof.Proof.KI.R1
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm

theorem hrest1 (c : Dev nD) : ∀ b, b ∉ Finset.univ.image (Pipeline.arrRef spec1) → V4 m ρ c b = V3 m ρ c b :=
  Step.rest spec1 c

theorem keep1 (c : Dev nD) (r : Ref sig .tc)
    (h : ∀ w : Fin cfg1.W, (cfg1.win w).isOut = true → Pipeline.arrRef spec1 w ≠ r) :
    W4 m ρ c (Proc.devRef .tc r) = W3 m ρ c (Proc.devRef .tc r) :=
  Step.keepIn launch1.win.arr_inj (A_eq1 _ c) r h

theorem thru1 (c : Dev nD) (r : Ref sig .tc) (h1 : r ∉ hostOps1_W)
    (h2 : ∀ w : Fin cfg1.W, (cfg1.win w).isOut = true → Pipeline.arrRef spec1 w ≠ r) :
    W4 m ρ c (Proc.devRef .tc r) = W2 m ρ c (Proc.devRef .tc r) :=
  (keep1 m ρ c r h2).trans (StableHlo.after_of_writes_sub hostOps1 _ hostOps1_writes h1)

end Cert.KernelIdeal.Hand

end
-- ==== Proof.KI.R2.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t := by
  have hkeep : ∀ t, (cfg2.win 5).cut (cfg2.grid.coords t) (dat.after 5 t) = dat.blockOf 5 t := fun t => by
    rw [hafter]; unfold Dat.blockOf iblk2; rw [hA]; try rfl
  rw [dat.before_in_eq_fetched 5 rfl (fun _ => rfl) (fun _ _ _ => rfl) hkeep t d]
  unfold Dat.fetched Dat.blockOf iblk2; rw [hA]; try rfl

abbrev r2_0 : Rect S5000x128 := Rect.unit (s := S5000x128) ![0, 0] S5000x128.size inb_S5000x128_S5000x128_0_0

abbrev r2_1 : Rect S1x128 := Rect.unit (s := S1x128) ![0, 0] S1x128.size inb_S1x128_S1x128_0_0

def out2_6 (x0 : Vec F S5000x128 .f32) (x1 : Vec F S5000x128 .f32) (x2 x3 x4 x5 : Vec F S1x128 .f32) : Vec F S5000x128 .f32 :=
  View.canon [⟨r2_0, k2_pay1 (View.ld x0 r2_0) (View.ld x2 r2_1) (View.ld x3 r2_1) (View.ld x4 r2_1) (View.ld x5 r2_1) (View.ld x1 r2_0)⟩]

theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 400000 in

theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__bn_relu_residual_kernel i arg1 harg1 arg2 harg2 arg3 harg3 arg4 harg4 arg5 harg5 arg6 harg6 arg7 harg7) K := by
  simp only [cc2__bn_relu_residual_kernel_eq_skeleton]; unfold cc2__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) : (dat2 V c).after 3 t = iblk2 V c 3 t := by dsimp only [dat2]

theorem after2_4 (c : Dev nD) (t : Fin cfg2.N) : (dat2 V c).after 4 t = iblk2 V c 4 t := by dsimp only [dat2]

theorem after2_5 (c : Dev nD) (t : Fin cfg2.N) : (dat2 V c).after 5 t = iblk2 V c 5 t := by dsimp only [dat2]

theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem before2_2 (c : Dev nD) (t : Fin cfg2.N) (d) : (dat2 V c).before 2 t d = iblk2 V c 2 t :=
  before2_2_of V (dat2 V c) (A_eq2 V c 2) (after2_2 V c) t d

theorem before2_3 (c : Dev nD) (t : Fin cfg2.N) (d) : (dat2 V c).before 3 t d = iblk2 V c 3 t :=
  before2_3_of V (dat2 V c) (A_eq2 V c 3) (after2_3 V c) t d

theorem before2_4 (c : Dev nD) (t : Fin cfg2.N) (d) : (dat2 V c).before 4 t d = iblk2 V c 4 t :=
  before2_4_of V (dat2 V c) (A_eq2 V c 4) (after2_4 V c) t d

theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.S2.lean ====
import proofs.«164939_j7129645711575_2_alg».proof.Proof.KI.S1
import proofs.«164939_j7129645711575_2_alg».proof.Proof.KI.R2
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N

theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w

theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm

theorem hrest2 (c : Dev nD) : ∀ b, b ∉ Finset.univ.image (Pipeline.arrRef spec2) → V6 m ρ c b = V5 m ρ c b :=
  Step.rest spec2 c

theorem keep2 (c : Dev nD) (r : Ref sig .tc)
    (h : ∀ w : Fin cfg2.W, (cfg2.win w).isOut = true → Pipeline.arrRef spec2 w ≠ r) :
    W6 m ρ c (Proc.devRef .tc r) = W5 m ρ c (Proc.devRef .tc r) :=
  Step.keepIn launch2.win.arr_inj (A_eq2 _ c) r h

theorem thru2 (c : Dev nD) (r : Ref sig .tc) (h1 : r ∉ hostOps2_W)
    (h2 : ∀ w : Fin cfg2.W, (cfg2.win w).isOut = true → Pipeline.arrRef spec2 w ≠ r) :
    W6 m ρ c (Proc.devRef .tc r) = W4 m ρ c (Proc.devRef .tc r) :=
  (keep2 m ρ c r h2).trans (StableHlo.after_of_writes_sub hostOps2 _ hostOps2_writes h1)

end Cert.KernelIdeal.Hand

end
-- ==== Proof.KI.R3.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

theorem read_writes_cons_unit3 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readCov_cons_unit3 {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem readAt_unread_unit3 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val = 0 :=
  (by decide +kernel : ∀ t : Fin grid3.N, cond3_0 (grid3.coords t) ↔ t.val = 0)

def hmidOf3 (x0 : Vec F S5000x128 .f32) (x1 : Vec F S5000x1 .f32) (x2 : Vec F S5000x1 .f32) (x3 : Vec F S128x128 .f32) (x4 : Vec F S1x128 .f32) :
    Vec F S5000x128 .f32 := k3_pay4 x0 x1 x3 x4 x2

def stepOf3 (x0 : Vec F S5000x128 .f32) (x1 : Vec F S5000x1 .f32) (x2 : Vec F S5000x1 .f32) (x3 : Vec F S128x128 .f32) (x4 : Vec F S1x128 .f32)
    (s : Vec F S1x128 .f32 × Vec F S1x128 .f32) : Vec F S1x128 .f32 × Vec F S1x128 .f32 :=
  (k3_pay5 x0 x1 x3 x4 x2 s.1, k3_pay1 s.2 (k3_pay6 x0 x1 x3 x4 x2))

def zero3 : Vec F S1x128 .f32 × Vec F S1x128 .f32 := (k3_pay2, k3_pay3)

set_option maxHeartbeats 1000000 in

theorem sound_kernel3_A (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond3_0 i)
    (x0 : Vec F S5000x128 .f32) (x1 : Vec F S5000x1 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf3 x0 x1 x2 x3 x4)
            ∗ owns (c : Thread nD τ) arg7 fullShare (stepOf3 x0 x1 x2 x3 x4 (zero3 (F := F))).1 ∗ owns (c : Thread nD τ) arg8 fullShare (stepOf3 x0 x1 x2 x3 x4 (zero3 (F := F))).2
            ∗ owns (c : Thread nD τ) arg9 fullShare (stepOf3 x0 x1 x2 x3 x4 (zero3 (F := F))).1 ∗ owns (c : Thread nD τ) arg10 fullShare (stepOf3 x0 x1 x2 x3 x4 (zero3 (F := F))).2) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9 arg10 harg10) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit3 (S := S5000x128) _ _ hz3]
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H6]
  · iexists _; isplitr
    swap; · iexact H6
    ipureintro
    rw [read_writes_cons_unit3 (S := S1x128) _ _ hz3]
    sl_unfold_run_names
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H7]
  · iexists _; isplitr
    swap; · iexact H7
    ipureintro
    rw [read_writes_cons_unit3 (S := S1x128) _ _ hz3]
    sl_unfold_run_names
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H8]
  · iexists _; isplitr
    swap; · iexact H8
    ipureintro
    sl_unfold_run_names
    rw [read_writes_cons_unit3 (S := S1x128) _ _ hz3]
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  iexists _; isplitr
  swap; · iexact H9
  ipureintro
  sl_unfold_run_names
  rw [read_writes_cons_unit3 (S := S1x128) _ _ hz3]
  simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
  rfl

set_option maxHeartbeats 1000000 in

theorem sound_kernel3_B (c : Dev nD) (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond3_0 i)
    (x0 : Vec F S5000x128 .f32) (x1 : Vec F S5000x1 .f32) (x2 : Vec F S5000x1 .f32) (x3 : Vec F S128x128 .f32) (x4 : Vec F S1x128 .f32) (s : Vec F S1x128 .f32 × Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf3 x0 x1 x2 x3 x4)
            ∗ owns (c : Thread nD τ) arg7 fullShare (stepOf3 x0 x1 x2 x3 x4 s).1 ∗ owns (c : Thread nD τ) arg8 fullShare (stepOf3 x0 x1 x2 x3 x4 s).2
            ∗ owns (c : Thread nD τ) arg9 fullShare (stepOf3 x0 x1 x2 x3 x4 s).1 ∗ owns (c : Thread nD τ) arg10 fullShare (stepOf3 x0 x1 x2 x3 x4 s).2) -∗ K ⟨⟩))
      ⊢ wp frame (wpE (defs₀ (F := F)) Variants.none c none) E (cc3__linear_stats_kernel i arg1 harg1 arg2 harg2 arg3 harg3 arg4 harg4 arg5 harg5 arg6 harg6 arg7 harg7 arg8 harg8 arg9 harg9 arg10 harg10) K := by
  simp only [cc3__linear_stats_kernel_eq_skeleton]; unfold cc3__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hf8; obtain rfl := harg10.eq_unread hf9
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit3 (S := S5000x128) _ _ hz3]
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H6]
  · iexists _; isplitr
    swap; · iexact H6
    ipureintro
    rw [read_writes_cons_unit3 (S := S1x128) _ _ hz3]
    sl_unfold_run_names
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H7]
  · iexists _; isplitr
    swap; · iexact H7
    ipureintro
    rw [read_writes_cons_unit3 (S := S1x128) _ _ hz3]
    sl_unfold_run_names
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  isplitl [H8]
  · iexists _; isplitr
    swap; · iexact H8
    ipureintro
    sl_unfold_run_names
    rw [read_writes_cons_unit3 (S := S1x128) _ _ hz3]
    simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
    rfl
  iexists _; isplitr
  swap; · iexact H9
  ipureintro
  sl_unfold_run_names
  rw [read_writes_cons_unit3 (S := S1x128) _ _ hz3]
  simp only [readCov_cons_unit3 (S := S1x128) _ hz3, readAt_unread_unit3 (S := S5000x128) _ _ hz3, readAt_unread_unit3 (S := S5000x1) _ _ hz3, readAt_unread_unit3 (S := S128x128) _ _ hz3, readAt_unread_unit3 (S := S1x128) _ _ hz3]
  rfl

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def hmid3 (c : Dev nD) (t : Fin cfg3.N) : Vec F S5000x128 .f32 :=
  hmidOf3 (iblk3 V c 0 t) (iblk3 V c 1 t) (iblk3 V c 2 t) (iblk3 V c 3 t) (iblk3 V c 4 t)

def stepAt3 (c : Dev nD) (n : ℕ) (s : Vec F S1x128 .f32 × Vec F S1x128 .f32) : Vec F S1x128 .f32 × Vec F S1x128 .f32 :=
  if h : n < cfg3.N then
    stepOf3 (iblk3 V c 0 ⟨n, h⟩) (iblk3 V c 1 ⟨n, h⟩) (iblk3 V c 2 ⟨n, h⟩) (iblk3 V c 3 ⟨n, h⟩) (iblk3 V c 4 ⟨n, h⟩) s
  else s

def acc3 (c : Dev nD) : ℕ → Vec F S1x128 .f32 × Vec F S1x128 .f32
  | 0 => stepAt3 V c 0 zero3
  | n + 1 => stepAt3 V c (n + 1) (acc3 c n)

theorem acc3_zero (c : Dev nD) : acc3 V c 0 = stepAt3 V c 0 zero3 := rfl

theorem acc3_succ (c : Dev nD) (n : ℕ) : acc3 V c (n + 1) = stepAt3 V c (n + 1) (acc3 V c n) := rfl

theorem acc3_first (c : Dev nD) (t : Fin cfg3.N) (hz : t.val = 0) :
    acc3 V c t.val = stepOf3 (iblk3 V c 0 t) (iblk3 V c 1 t) (iblk3 V c 2 t) (iblk3 V c 3 t) (iblk3 V c 4 t) zero3 := by
  obtain ⟨n, hn⟩ := t
  cases n with
  | zero => rw [acc3_zero]; unfold stepAt3; rw [dif_pos hn]
  | succ n => exact absurd hz (Nat.succ_ne_zero n)

theorem acc3_later (c : Dev nD) (t : Fin cfg3.N) (hz : t.val ≠ 0) :
    acc3 V c t.val = stepOf3 (iblk3 V c 0 t) (iblk3 V c 1 t) (iblk3 V c 2 t) (iblk3 V c 3 t) (iblk3 V c 4 t) (acc3 V c (t.val - 1)) := by
  obtain ⟨n, hn⟩ := t
  cases n with
  | zero => exact absurd rfl hz
  | succ n => rw [acc3_succ]; unfold stepAt3; rw [dif_pos hn]; rfl

abbrev scM3_0 : Memref sig .tc .vmem S1x128 .f32 := Memref.whole cc3_scratch0

abbrev scM3_1 : Memref sig .tc .vmem S1x128 .f32 := Memref.whole cc3_scratch1

theorem scopedRest3_eq (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) := by
  rw [scopedRest3_split]; simp only [scM3_0, scM3_1, owns_whole]; try rfl

def Phi3 (c : Dev nD) : ℕ → sProp 𝕄
  | 0 => Pipeline.scopedRest (Ix := Unit) (Name := ℕ) (U := UR sig nD τ) (Lvl := ℕ) (Val := Elt F) spec3 c
  | n + 1 => iprop(iprop(owns (c : Thread nD τ) scM3_0 fullShare (acc3 V c n).1 ∗ owns (c : Thread nD τ) scM3_1 fullShare (acc3 V c n).2)
      ∗ Pipeline.scopedRestBut (Ix := Unit) (Name := ℕ) (U := UR sig nD τ) (Lvl := ℕ) (Val := Elt F) spec3 c [cc3_scratch0, cc3_scratch1])

theorem Phi3_zero (c : Dev nD) (n : ℕ) (hz : n = 0) : Phi3 V c n = (Pipeline.scopedRest (Ix := Unit) (Name := ℕ) (U := UR sig nD τ) (Lvl := ℕ) (Val := Elt F) spec3 c : sProp 𝕄) := by
  subst hz; rfl

theorem Phi3_succ (c : Dev nD) (n : ℕ) :
    Phi3 V c (n + 1) = iprop(iprop(owns (c : Thread nD τ) scM3_0 fullShare (acc3 V c n).1 ∗ owns (c : Thread nD τ) scM3_1 fullShare (acc3 V c n).2)
      ∗ Pipeline.scopedRestBut (Ix := Unit) (Name := ℕ) (U := UR sig nD τ) (Lvl := ℕ) (Val := Elt F) spec3 c [cc3_scratch0, cc3_scratch1]) := rfl

theorem Phi3_pos (c : Dev nD) (n : ℕ) (hz : n ≠ 0) :
    Phi3 V c n = iprop(iprop(owns (c : Thread nD τ) scM3_0 fullShare (acc3 V c (n - 1)).1 ∗ owns (c : Thread nD τ) scM3_1 fullShare (acc3 V c (n - 1)).2)
      ∗ Pipeline.scopedRestBut (Ix := Unit) (Name := ℕ) (U := UR sig nD τ) (Lvl := ℕ) (Val := Elt F) spec3 c [cc3_scratch0, cc3_scratch1]) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => hmid3 V c t
    | ⟨6, _⟩ => (acc3 V c t.val).1
    | ⟨7, _⟩ => (acc3 V c t.val).2
  Φ t := Phi3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = iblk3 V c 3 t := by dsimp only [dat3]

theorem after3_4 (c : Dev nD) (t : Fin cfg3.N) : (dat3 V c).after 4 t = iblk3 V c 4 t := by dsimp only [dat3]

theorem after3_5 (c : Dev nD) (t : Fin cfg3.N) : (dat3 V c).after 5 t = hmid3 V c t := by dsimp only [dat3]

theorem after3_6 (c : Dev nD) (t : Fin cfg3.N) : (dat3 V c).after 6 t = (acc3 V c t.val).1 := by dsimp only [dat3]

theorem after3_7 (c : Dev nD) (t : Fin cfg3.N) : (dat3 V c).after 7 t = (acc3 V c t.val).2 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1600000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    after3_0, after3_1, after3_2, after3_3, after3_4, after3_5, after3_6, after3_7]
  rw [show (dat3 V c).Φ t.succ = Phi3 V c (t.val + 1) from rfl, Phi3_succ,
    show (dat3 V c).Φ t.castSucc = Phi3 V c t.val from rfl]
  unfold hmid3
  by_cases hz : t.val = 0
  · rw [Phi3_zero V c _ hz, scopedRest3_eq, acc3_first V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_A c Set.univ (grid3.coords t) _ _ _ _ _ _ _ _ _ _ _ _ _ _ _ _ _ _ _ _ ((hcond3_0 t).mpr hz)
      (iblk3 V c 0 t) (iblk3 V c 1 t) (iblk3 V c 2 t) (iblk3 V c 3 t) (iblk3 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi3_pos V c _ hz, acc3_later V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel3_B c Set.univ (grid3.coords t) _ _ _ _ _ _ _ _ _ _ _ _ _ _ _ _ _ _ _ _ (fun h => hz ((hcond3_0 t).mp h))
      (iblk3 V c 0 t) (iblk3 V c 1 t) (iblk3 V c 2 t) (iblk3 V c 3 t) (iblk3 V c 4 t) (acc3 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.scopedRest (Ix := Unit) (Name := ℕ) (U := UR sig nD τ) (Lvl := ℕ) (Val := Elt F) spec3 c : sProp 𝕄) ⊢ (dat3 V c).Φ 0 := by
  rw [show (dat3 V c).Φ 0 = Phi3 V c 0 from rfl, Phi3_zero V c 0 rfl]
  try exact Idealize.SL.BI.Entails.refl _

theorem hout3 (c : Dev nD) : (dat3 V c).Φ (Fin.last cfg3.N) ⊢ (Pipeline.scopedRest (Ix := Unit) (Name := ℕ) (U := UR sig nD τ) (Lvl := ℕ) (Val := Elt F) spec3 c : sProp 𝕄) := by
  rw [show (dat3 V c).Φ (Fin.last cfg3.N) = Phi3 V c (Fin.last cfg3.N).val from rfl,
    Phi3_pos V c _ (by rw [Fin.val_last]; have : cfg3.N = 20 := N_3; omega), scopedRest3_eq]
  iintro ⟨⟨HS0, HS1⟩, HR⟩
  isplitl [HS0 HS1]
  · isplitl [HS0]
    · iexists _; iexact HS0
    iexists _; iexact HS1
  iexact HR

end Cert.KernelIdeal.Hand
end
-- ==== Proof.KI.S3.lean ====
import proofs.«164939_j7129645711575_2_alg».proof.Proof.KI.S2
import proofs.«164939_j7129645711575_2_alg».proof.Proof.KI.R3
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N

theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w

theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm

theorem hrest3 (c : Dev nD) : ∀ b, b ∉ Finset.univ.image (Pipeline.arrRef spec3) → V8 m ρ c b = V7 m ρ c b :=
  Step.rest spec3 c

theorem keep3 (c : Dev nD) (r : Ref sig .tc)
    (h : ∀ w : Fin cfg3.W, (cfg3.win w).isOut = true → Pipeline.arrRef spec3 w ≠ r) :
    W8 m ρ c (Proc.devRef .tc r) = W7 m ρ c (Proc.devRef .tc r) :=
  Step.keepIn launch3.win.arr_inj (A_eq3 _ c) r h

theorem thru3 (c : Dev nD) (r : Ref sig .tc) (h1 : r ∉ hostOps3_W)
    (h2 : ∀ w : Fin cfg3.W, (cfg3.win w).isOut = true → Pipeline.arrRef spec3 w ≠ r) :
    W8 m ρ c (Proc.devRef .tc r) = W6 m ρ c (Proc.devRef .tc r) :=
  (keep3 m ρ c r h2).trans (StableHlo.after_of_writes_sub hostOps3 _ hostOps3_writes h1)

end Cert.KernelIdeal.Hand

end
-- ==== Proof.KI.R4.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t := by
  have hkeep : ∀ t, (cfg4.win 0).cut (cfg4.grid.coords t) (dat.after 0 t) = dat.blockOf 0 t := fun t => by
    rw [hafter]; unfold Dat.blockOf iblk4; rw [hA]; try rfl
  rw [dat.before_in_eq_fetched 0 rfl (fun _ => rfl) (fun _ _ _ => rfl) hkeep t d]
  unfold Dat.fetched Dat.blockOf iblk4; rw [hA]; try rfl

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t := by
  have hkeep : ∀ t, (cfg4.win 1).cut (cfg4.grid.coords t) (dat.after 1 t) = dat.blockOf 1 t := fun t => by
    rw [hafter]; unfold Dat.blockOf iblk4; rw [hA]; try rfl
  rw [dat.before_in_eq_fetched 1 rfl (fun _ => rfl) (fun _ _ _ => rfl) hkeep t d]
  unfold Dat.fetched Dat.blockOf iblk4; rw [hA]; try rfl

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t := by
  have hkeep : ∀ t, (cfg4.win 2).cut (cfg4.grid.coords t) (dat.after 2 t) = dat.blockOf 2 t := fun t => by
    rw [hafter]; unfold Dat.blockOf iblk4; rw [hA]; try rfl
  rw [dat.before_in_eq_fetched 2 rfl (fun _ => rfl) (fun _ _ _ => rfl) hkeep t d]
  unfold Dat.fetched Dat.blockOf iblk4; rw [hA]; try rfl

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t := by
  have hkeep : ∀ t, (cfg4.win 3).cut (cfg4.grid.coords t) (dat.after 3 t) = dat.blockOf 3 t := fun t => by
    rw [hafter]; unfold Dat.blockOf iblk4; rw [hA]; try rfl
  rw [dat.before_in_eq_fetched 3 rfl (fun _ => rfl) (fun _ _ _ => rfl) hkeep t d]
  unfold Dat.fetched Dat.blockOf iblk4; rw [hA]; try rfl

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t := by
  have hkeep : ∀ t, (cfg4.win 4).cut (cfg4.grid.coords t) (dat.after 4 t) = dat.blockOf 4 t := fun t => by
    rw [hafter]; unfold Dat.blockOf iblk4; rw [hA]; try rfl
  rw [dat.before_in_eq_fetched 4 rfl (fun _ => rfl) (fun _ _ _ => rfl) hkeep t d]
  unfold Dat.fetched Dat.blockOf iblk4; rw [hA]; try rfl

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t := by
  have hkeep : ∀ t, (cfg4.win 5).cut (cfg4.grid.coords t) (dat.after 5 t) = dat.blockOf 5 t := fun t => by
    rw [hafter]; unfold Dat.blockOf iblk4; rw [hA]; try rfl
  rw [dat.before_in_eq_fetched 5 rfl (fun _ => rfl) (fun _ _ _ => rfl) hkeep t d]
  unfold Dat.fetched Dat.blockOf iblk4; rw [hA]; try rfl

abbrev r4_0 : Rect S5000x128 := Rect.unit (s := S5000x128) ![0, 0] S5000x128.size inb_S5000x128_S5000x128_0_0

abbrev r4_1 : Rect S1x128 := Rect.unit (s := S1x128) ![0, 0] S1x128.size inb_S1x128_S1x128_0_0

def out4_6 (x0 : Vec F S5000x128 .f32) (x1 : Vec F S5000x128 .f32) (x2 x3 x4 x5 : Vec F S1x128 .f32) : Vec F S5000x128 .f32 :=
  View.canon [⟨r4_0, k4_pay1 (View.ld x0 r4_0) (View.ld x2 r4_1) (View.ld x3 r4_1) (View.ld x4 r4_1) (View.ld x5 r4_1) (View.ld x1 r4_0)⟩]

theorem cover4_6 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

set_option maxHeartbeats 400000 in

theorem sound_kernel4 (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__bn_relu_residual_kernel i arg1 harg1 arg2 harg2 arg3 harg3 arg4 harg4 arg5 harg5 arg6 harg6 arg7 harg7) K := by
  simp only [cc4__bn_relu_residual_kernel_eq_skeleton]; unfold cc4__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = iblk4 V c 2 t := by dsimp only [dat4]

theorem after4_3 (c : Dev nD) (t : Fin cfg4.N) : (dat4 V c).after 3 t = iblk4 V c 3 t := by dsimp only [dat4]

theorem after4_4 (c : Dev nD) (t : Fin cfg4.N) : (dat4 V c).after 4 t = iblk4 V c 4 t := by dsimp only [dat4]

theorem after4_5 (c : Dev nD) (t : Fin cfg4.N) : (dat4 V c).after 5 t = iblk4 V c 5 t := by dsimp only [dat4]

theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

theorem before4_2 (c : Dev nD) (t : Fin cfg4.N) (d) : (dat4 V c).before 2 t d = iblk4 V c 2 t :=
  before4_2_of V (dat4 V c) (A_eq4 V c 2) (after4_2 V c) t d

theorem before4_3 (c : Dev nD) (t : Fin cfg4.N) (d) : (dat4 V c).before 3 t d = iblk4 V c 3 t :=
  before4_3_of V (dat4 V c) (A_eq4 V c 3) (after4_3 V c) t d

theorem before4_4 (c : Dev nD) (t : Fin cfg4.N) (d) : (dat4 V c).before 4 t d = iblk4 V c 4 t :=
  before4_4_of V (dat4 V c) (A_eq4 V c 4) (after4_4 V c) t d

theorem before4_5 (c : Dev nD) (t : Fin cfg4.N) (d) : (dat4 V c).before 5 t d = iblk4 V c 5 t :=
  before4_5_of V (dat4 V c) (A_eq4 V c 5) (after4_5 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.S4.lean ====
import proofs.«164939_j7129645711575_2_alg».proof.Proof.KI.S3
import proofs.«164939_j7129645711575_2_alg».proof.Proof.KI.R4
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N

theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w

theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm

theorem hrest4 (c : Dev nD) : ∀ b, b ∉ Finset.univ.image (Pipeline.arrRef spec4) → V10 m ρ c b = V9 m ρ c b :=
  Step.rest spec4 c

theorem keep4 (c : Dev nD) (r : Ref sig .tc)
    (h : ∀ w : Fin cfg4.W, (cfg4.win w).isOut = true → Pipeline.arrRef spec4 w ≠ r) :
    W10 m ρ c (Proc.devRef .tc r) = W9 m ρ c (Proc.devRef .tc r) :=
  Step.keepIn launch4.win.arr_inj (A_eq4 _ c) r h

theorem thru4 (c : Dev nD) (r : Ref sig .tc) (h1 : r ∉ hostOps4_W)
    (h2 : ∀ w : Fin cfg4.W, (cfg4.win w).isOut = true → Pipeline.arrRef spec4 w ≠ r) :
    W10 m ρ c (Proc.devRef .tc r) = W8 m ρ c (Proc.devRef .tc r) :=
  (keep4 m ρ c r h2).trans (StableHlo.after_of_writes_sub hostOps4 _ hostOps4_writes h1)

end Cert.KernelIdeal.Hand

end
-- ==== Proof.KI.R5.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

theorem read_writes_cons_unit5 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readCov_cons_unit5 {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem readAt_unread_unit5 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

def hmidOf5 (x0 : Vec F S5000x128 .f32) (x1 : Vec F S5000x1 .f32) (x2 : Vec F S5000x1 .f32) (x3 : Vec F S128x128 .f32) (x4 : Vec F S1x128 .f32) :
    Vec F S5000x128 .f32 := k5_pay4 x0 x1 x3 x4 x2

def stepOf5 (x0 : Vec F S5000x128 .f32) (x1 : Vec F S5000x1 .f32) (x2 : Vec F S5000x1 .f32) (x3 : Vec F S128x128 .f32) (x4 : Vec F S1x128 .f32)
    (s : Vec F S1x128 .f32 × Vec F S1x128 .f32) : Vec F S1x128 .f32 × Vec F S1x128 .f32 :=
  (k5_pay5 x0 x1 x3 x4 x2 s.1, k5_pay1 s.2 (k5_pay6 x0 x1 x3 x4 x2))

def zero5 : Vec F S1x128 .f32 × Vec F S1x128 .f32 := (k5_pay2, k5_pay3)

set_option maxHeartbeats 1000000 in

theorem sound_kernel5_A (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S5000x128 .f32) (x1 : Vec F S5000x1 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf5 x0 x1 x2 x3 x4)
            ∗ owns (c : Thread nD τ) arg7 fullShare (stepOf5 x0 x1 x2 x3 x4 (zero5 (F := F))).1 ∗ owns (c : Thread nD τ) arg8 fullShare (stepOf5 x0 x1 x2 x3 x4 (zero5 (F := F))).2
            ∗ owns (c : Thread nD τ) arg9 fullShare (stepOf5 x0 x1 x2 x3 x4 (zero5 (F := F))).1 ∗ owns (c : Thread nD τ) arg10 fullShare (stepOf5 x0 x1 x2 x3 x4 (zero5 (F := F))).2) -∗ K ⟨⟩))
      ⊢ wp frame (wpE (defs₀ (F := F)) Variants.none c none) E (cc5__linear_stats_kernel i arg1 harg1 arg2 harg2 arg3 harg3 arg4 harg4 arg5 harg5 arg6 harg6 arg7 harg7 arg8 harg8 arg9 harg9 arg10 harg10) K := by
  simp only [cc5__linear_stats_kernel_eq_skeleton]; unfold cc5__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit5 (S := S5000x128) _ _ hz5]
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H6]
  · iexists _; isplitr
    swap; · iexact H6
    ipureintro
    rw [read_writes_cons_unit5 (S := S1x128) _ _ hz5]
    sl_unfold_run_names
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H7]
  · iexists _; isplitr
    swap; · iexact H7
    ipureintro
    rw [read_writes_cons_unit5 (S := S1x128) _ _ hz5]
    sl_unfold_run_names
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H8]
  · iexists _; isplitr
    swap; · iexact H8
    ipureintro
    sl_unfold_run_names
    rw [read_writes_cons_unit5 (S := S1x128) _ _ hz5]
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  iexists _; isplitr
  swap; · iexact H9
  ipureintro
  sl_unfold_run_names
  rw [read_writes_cons_unit5 (S := S1x128) _ _ hz5]
  simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
  rfl

set_option maxHeartbeats 1000000 in

theorem sound_kernel5_B (c : Dev nD) (E : Set ℕ) (i : grid5.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S5000x128 .f32) (x1 : Vec F S5000x1 .f32) (x2 : Vec F S5000x1 .f32) (x3 : Vec F S128x128 .f32) (x4 : Vec F S1x128 .f32) (s : Vec F S1x128 .f32 × Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf5 x0 x1 x2 x3 x4)
            ∗ owns (c : Thread nD τ) arg7 fullShare (stepOf5 x0 x1 x2 x3 x4 s).1 ∗ owns (c : Thread nD τ) arg8 fullShare (stepOf5 x0 x1 x2 x3 x4 s).2
            ∗ owns (c : Thread nD τ) arg9 fullShare (stepOf5 x0 x1 x2 x3 x4 s).1 ∗ owns (c : Thread nD τ) arg10 fullShare (stepOf5 x0 x1 x2 x3 x4 s).2) -∗ K ⟨⟩))
      ⊢ wp frame (wpE (defs₀ (F := F)) Variants.none c none) E (cc5__linear_stats_kernel i arg1 harg1 arg2 harg2 arg3 harg3 arg4 harg4 arg5 harg5 arg6 harg6 arg7 harg7 arg8 harg8 arg9 harg9 arg10 harg10) K := by
  simp only [cc5__linear_stats_kernel_eq_skeleton]; unfold cc5__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hf8; obtain rfl := harg10.eq_unread hf9
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit5 (S := S5000x128) _ _ hz5]
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H6]
  · iexists _; isplitr
    swap; · iexact H6
    ipureintro
    rw [read_writes_cons_unit5 (S := S1x128) _ _ hz5]
    sl_unfold_run_names
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H7]
  · iexists _; isplitr
    swap; · iexact H7
    ipureintro
    rw [read_writes_cons_unit5 (S := S1x128) _ _ hz5]
    sl_unfold_run_names
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  isplitl [H8]
  · iexists _; isplitr
    swap; · iexact H8
    ipureintro
    sl_unfold_run_names
    rw [read_writes_cons_unit5 (S := S1x128) _ _ hz5]
    simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
    rfl
  iexists _; isplitr
  swap; · iexact H9
  ipureintro
  sl_unfold_run_names
  rw [read_writes_cons_unit5 (S := S1x128) _ _ hz5]
  simp only [readCov_cons_unit5 (S := S1x128) _ hz5, readAt_unread_unit5 (S := S5000x128) _ _ hz5, readAt_unread_unit5 (S := S5000x1) _ _ hz5, readAt_unread_unit5 (S := S128x128) _ _ hz5, readAt_unread_unit5 (S := S1x128) _ _ hz5]
  rfl

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def hmid5 (c : Dev nD) (t : Fin cfg5.N) : Vec F S5000x128 .f32 :=
  hmidOf5 (iblk5 V c 0 t) (iblk5 V c 1 t) (iblk5 V c 2 t) (iblk5 V c 3 t) (iblk5 V c 4 t)

def stepAt5 (c : Dev nD) (n : ℕ) (s : Vec F S1x128 .f32 × Vec F S1x128 .f32) : Vec F S1x128 .f32 × Vec F S1x128 .f32 :=
  if h : n < cfg5.N then
    stepOf5 (iblk5 V c 0 ⟨n, h⟩) (iblk5 V c 1 ⟨n, h⟩) (iblk5 V c 2 ⟨n, h⟩) (iblk5 V c 3 ⟨n, h⟩) (iblk5 V c 4 ⟨n, h⟩) s
  else s

def acc5 (c : Dev nD) : ℕ → Vec F S1x128 .f32 × Vec F S1x128 .f32
  | 0 => stepAt5 V c 0 zero5
  | n + 1 => stepAt5 V c (n + 1) (acc5 c n)

theorem acc5_zero (c : Dev nD) : acc5 V c 0 = stepAt5 V c 0 zero5 := rfl

theorem acc5_succ (c : Dev nD) (n : ℕ) : acc5 V c (n + 1) = stepAt5 V c (n + 1) (acc5 V c n) := rfl

theorem acc5_first (c : Dev nD) (t : Fin cfg5.N) (hz : t.val = 0) :
    acc5 V c t.val = stepOf5 (iblk5 V c 0 t) (iblk5 V c 1 t) (iblk5 V c 2 t) (iblk5 V c 3 t) (iblk5 V c 4 t) zero5 := by
  obtain ⟨n, hn⟩ := t
  cases n with
  | zero => rw [acc5_zero]; unfold stepAt5; rw [dif_pos hn]
  | succ n => exact absurd hz (Nat.succ_ne_zero n)

theorem acc5_later (c : Dev nD) (t : Fin cfg5.N) (hz : t.val ≠ 0) :
    acc5 V c t.val = stepOf5 (iblk5 V c 0 t) (iblk5 V c 1 t) (iblk5 V c 2 t) (iblk5 V c 3 t) (iblk5 V c 4 t) (acc5 V c (t.val - 1)) := by
  obtain ⟨n, hn⟩ := t
  cases n with
  | zero => exact absurd rfl hz
  | succ n => rw [acc5_succ]; unfold stepAt5; rw [dif_pos hn]; rfl

abbrev scM5_0 : Memref sig .tc .vmem S1x128 .f32 := Memref.whole cc5_scratch0

abbrev scM5_1 : Memref sig .tc .vmem S1x128 .f32 := Memref.whole cc5_scratch1

theorem scopedRest5_eq (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) := by
  rw [scopedRest5_split]; simp only [scM5_0, scM5_1, owns_whole]; try rfl

def Phi5 (c : Dev nD) : ℕ → sProp 𝕄
  | 0 => Pipeline.scopedRest (Ix := Unit) (Name := ℕ) (U := UR sig nD τ) (Lvl := ℕ) (Val := Elt F) spec5 c
  | n + 1 => iprop(iprop(owns (c : Thread nD τ) scM5_0 fullShare (acc5 V c n).1 ∗ owns (c : Thread nD τ) scM5_1 fullShare (acc5 V c n).2)
      ∗ Pipeline.scopedRestBut (Ix := Unit) (Name := ℕ) (U := UR sig nD τ) (Lvl := ℕ) (Val := Elt F) spec5 c [cc5_scratch0, cc5_scratch1])

theorem Phi5_zero (c : Dev nD) (n : ℕ) (hz : n = 0) : Phi5 V c n = (Pipeline.scopedRest (Ix := Unit) (Name := ℕ) (U := UR sig nD τ) (Lvl := ℕ) (Val := Elt F) spec5 c : sProp 𝕄) := by
  subst hz; rfl

theorem Phi5_succ (c : Dev nD) (n : ℕ) :
    Phi5 V c (n + 1) = iprop(iprop(owns (c : Thread nD τ) scM5_0 fullShare (acc5 V c n).1 ∗ owns (c : Thread nD τ) scM5_1 fullShare (acc5 V c n).2)
      ∗ Pipeline.scopedRestBut (Ix := Unit) (Name := ℕ) (U := UR sig nD τ) (Lvl := ℕ) (Val := Elt F) spec5 c [cc5_scratch0, cc5_scratch1]) := rfl

theorem Phi5_pos (c : Dev nD) (n : ℕ) (hz : n ≠ 0) :
    Phi5 V c n = iprop(iprop(owns (c : Thread nD τ) scM5_0 fullShare (acc5 V c (n - 1)).1 ∗ owns (c : Thread nD τ) scM5_1 fullShare (acc5 V c (n - 1)).2)
      ∗ Pipeline.scopedRestBut (Ix := Unit) (Name := ℕ) (U := UR sig nD τ) (Lvl := ℕ) (Val := Elt F) spec5 c [cc5_scratch0, cc5_scratch1]) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => hmid5 V c t
    | ⟨6, _⟩ => (acc5 V c t.val).1
    | ⟨7, _⟩ => (acc5 V c t.val).2
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]

theorem after5_1 (c : Dev nD) (t : Fin cfg5.N) : (dat5 V c).after 1 t = iblk5 V c 1 t := by dsimp only [dat5]

theorem after5_2 (c : Dev nD) (t : Fin cfg5.N) : (dat5 V c).after 2 t = iblk5 V c 2 t := by dsimp only [dat5]

theorem after5_3 (c : Dev nD) (t : Fin cfg5.N) : (dat5 V c).after 3 t = iblk5 V c 3 t := by dsimp only [dat5]

theorem after5_4 (c : Dev nD) (t : Fin cfg5.N) : (dat5 V c).after 4 t = iblk5 V c 4 t := by dsimp only [dat5]

theorem after5_5 (c : Dev nD) (t : Fin cfg5.N) : (dat5 V c).after 5 t = hmid5 V c t := by dsimp only [dat5]

theorem after5_6 (c : Dev nD) (t : Fin cfg5.N) : (dat5 V c).after 6 t = (acc5 V c t.val).1 := by dsimp only [dat5]

theorem after5_7 (c : Dev nD) (t : Fin cfg5.N) : (dat5 V c).after 7 t = (acc5 V c t.val).2 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)

theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 1600000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl,
    after5_0, after5_1, after5_2, after5_3, after5_4, after5_5, after5_6, after5_7]
  rw [show (dat5 V c).Φ t.succ = Phi5 V c (t.val + 1) from rfl, Phi5_succ,
    show (dat5 V c).Φ t.castSucc = Phi5 V c t.val from rfl]
  unfold hmid5
  by_cases hz : t.val = 0
  · rw [Phi5_zero V c _ hz, scopedRest5_eq, acc5_first V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel5_A c Set.univ (grid5.coords t) _ _ _ _ _ _ _ _ _ _ _ _ _ _ _ _ _ _ _ _ ((hcond5_0 t).mpr hz)
      (iblk5 V c 0 t) (iblk5 V c 1 t) (iblk5 V c 2 t) (iblk5 V c 3 t) (iblk5 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi5_pos V c _ hz, acc5_later V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel5_B c Set.univ (grid5.coords t) _ _ _ _ _ _ _ _ _ _ _ _ _ _ _ _ _ _ _ _ (fun h => hz ((hcond5_0 t).mp h))
      (iblk5 V c 0 t) (iblk5 V c 1 t) (iblk5 V c 2 t) (iblk5 V c 3 t) (iblk5 V c 4 t) (acc5 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.scopedRest (Ix := Unit) (Name := ℕ) (U := UR sig nD τ) (Lvl := ℕ) (Val := Elt F) spec5 c : sProp 𝕄) ⊢ (dat5 V c).Φ 0 := by
  rw [show (dat5 V c).Φ 0 = Phi5 V c 0 from rfl, Phi5_zero V c 0 rfl]
  try exact Idealize.SL.BI.Entails.refl _

theorem hout5 (c : Dev nD) : (dat5 V c).Φ (Fin.last cfg5.N) ⊢ (Pipeline.scopedRest (Ix := Unit) (Name := ℕ) (U := UR sig nD τ) (Lvl := ℕ) (Val := Elt F) spec5 c : sProp 𝕄) := by
  rw [show (dat5 V c).Φ (Fin.last cfg5.N) = Phi5 V c (Fin.last cfg5.N).val from rfl,
    Phi5_pos V c _ (by rw [Fin.val_last]; have : cfg5.N = 20 := N_5; omega), scopedRest5_eq]
  iintro ⟨⟨HS0, HS1⟩, HR⟩
  isplitl [HS0 HS1]
  · isplitl [HS0]
    · iexists _; iexact HS0
    iexists _; iexact HS1
  iexact HR

end Cert.KernelIdeal.Hand
end
-- ==== Proof.KI.S5.lean ====
import proofs.«164939_j7129645711575_2_alg».proof.Proof.KI.S4
import proofs.«164939_j7129645711575_2_alg».proof.Proof.KI.R5
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N

theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w

theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm

theorem hrest5 (c : Dev nD) : ∀ b, b ∉ Finset.univ.image (Pipeline.arrRef spec5) → V12 m ρ c b = V11 m ρ c b :=
  Step.rest spec5 c

theorem keep5 (c : Dev nD) (r : Ref sig .tc)
    (h : ∀ w : Fin cfg5.W, (cfg5.win w).isOut = true → Pipeline.arrRef spec5 w ≠ r) :
    W12 m ρ c (Proc.devRef .tc r) = W11 m ρ c (Proc.devRef .tc r) :=
  Step.keepIn launch5.win.arr_inj (A_eq5 _ c) r h

theorem thru5 (c : Dev nD) (r : Ref sig .tc) (h1 : r ∉ hostOps5_W)
    (h2 : ∀ w : Fin cfg5.W, (cfg5.win w).isOut = true → Pipeline.arrRef spec5 w ≠ r) :
    W12 m ρ c (Proc.devRef .tc r) = W10 m ρ c (Proc.devRef .tc r) :=
  (keep5 m ρ c r h2).trans (StableHlo.after_of_writes_sub hostOps5 _ hostOps5_writes h1)

end Cert.KernelIdeal.Hand

end
-- ==== Proof.KI.R6.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t := by
  have hkeep : ∀ t, (cfg6.win 0).cut (cfg6.grid.coords t) (dat.after 0 t) = dat.blockOf 0 t := fun t => by
    rw [hafter]; unfold Dat.blockOf iblk6; rw [hA]; try rfl
  rw [dat.before_in_eq_fetched 0 rfl (fun _ => rfl) (fun _ _ _ => rfl) hkeep t d]
  unfold Dat.fetched Dat.blockOf iblk6; rw [hA]; try rfl

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t := by
  have hkeep : ∀ t, (cfg6.win 1).cut (cfg6.grid.coords t) (dat.after 1 t) = dat.blockOf 1 t := fun t => by
    rw [hafter]; unfold Dat.blockOf iblk6; rw [hA]; try rfl
  rw [dat.before_in_eq_fetched 1 rfl (fun _ => rfl) (fun _ _ _ => rfl) hkeep t d]
  unfold Dat.fetched Dat.blockOf iblk6; rw [hA]; try rfl

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t := by
  have hkeep : ∀ t, (cfg6.win 2).cut (cfg6.grid.coords t) (dat.after 2 t) = dat.blockOf 2 t := fun t => by
    rw [hafter]; unfold Dat.blockOf iblk6; rw [hA]; try rfl
  rw [dat.before_in_eq_fetched 2 rfl (fun _ => rfl) (fun _ _ _ => rfl) hkeep t d]
  unfold Dat.fetched Dat.blockOf iblk6; rw [hA]; try rfl

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t := by
  have hkeep : ∀ t, (cfg6.win 3).cut (cfg6.grid.coords t) (dat.after 3 t) = dat.blockOf 3 t := fun t => by
    rw [hafter]; unfold Dat.blockOf iblk6; rw [hA]; try rfl
  rw [dat.before_in_eq_fetched 3 rfl (fun _ => rfl) (fun _ _ _ => rfl) hkeep t d]
  unfold Dat.fetched Dat.blockOf iblk6; rw [hA]; try rfl

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t := by
  have hkeep : ∀ t, (cfg6.win 4).cut (cfg6.grid.coords t) (dat.after 4 t) = dat.blockOf 4 t := fun t => by
    rw [hafter]; unfold Dat.blockOf iblk6; rw [hA]; try rfl
  rw [dat.before_in_eq_fetched 4 rfl (fun _ => rfl) (fun _ _ _ => rfl) hkeep t d]
  unfold Dat.fetched Dat.blockOf iblk6; rw [hA]; try rfl

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t := by
  have hkeep : ∀ t, (cfg6.win 5).cut (cfg6.grid.coords t) (dat.after 5 t) = dat.blockOf 5 t := fun t => by
    rw [hafter]; unfold Dat.blockOf iblk6; rw [hA]; try rfl
  rw [dat.before_in_eq_fetched 5 rfl (fun _ => rfl) (fun _ _ _ => rfl) hkeep t d]
  unfold Dat.fetched Dat.blockOf iblk6; rw [hA]; try rfl

abbrev r6_0 : Rect S5000x128 := Rect.unit (s := S5000x128) ![0, 0] S5000x128.size inb_S5000x128_S5000x128_0_0

abbrev r6_1 : Rect S1x128 := Rect.unit (s := S1x128) ![0, 0] S1x128.size inb_S1x128_S1x128_0_0

def out6_6 (x0 : Vec F S5000x128 .f32) (x1 : Vec F S5000x128 .f32) (x2 x3 x4 x5 : Vec F S1x128 .f32) : Vec F S5000x128 .f32 :=
  View.canon [⟨r6_0, k6_pay1 (View.ld x0 r6_0) (View.ld x2 r6_1) (View.ld x3 r6_1) (View.ld x4 r6_1) (View.ld x5 r6_1) (View.ld x1 r6_0)⟩]

theorem cover6_6 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

set_option maxHeartbeats 400000 in

theorem sound_kernel6 (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E
          (cc6__bn_relu_residual_kernel i arg1 harg1 arg2 harg2 arg3 harg3 arg4 harg4 arg5 harg5 arg6 harg6 arg7 harg7) K := by
  simp only [cc6__bn_relu_residual_kernel_eq_skeleton]; unfold cc6__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = iblk6 V c 2 t := by dsimp only [dat6]

theorem after6_3 (c : Dev nD) (t : Fin cfg6.N) : (dat6 V c).after 3 t = iblk6 V c 3 t := by dsimp only [dat6]

theorem after6_4 (c : Dev nD) (t : Fin cfg6.N) : (dat6 V c).after 4 t = iblk6 V c 4 t := by dsimp only [dat6]

theorem after6_5 (c : Dev nD) (t : Fin cfg6.N) : (dat6 V c).after 5 t = iblk6 V c 5 t := by dsimp only [dat6]

theorem after6_6 (c : Dev nD) (t : Fin cfg6.N) :
    (dat6 V c).after 6 t = out6_6 (iblk6 V c 0 t) (iblk6 V c 1 t) (iblk6 V c 2 t) (iblk6 V c 3 t) (iblk6 V c 4 t) (iblk6 V c 5 t) := by
  dsimp only [dat6]

theorem before6_0 (c : Dev nD) (t : Fin cfg6.N) (d) : (dat6 V c).before 0 t d = iblk6 V c 0 t :=
  before6_0_of V (dat6 V c) (A_eq6 V c 0) (after6_0 V c) t d

theorem before6_1 (c : Dev nD) (t : Fin cfg6.N) (d) : (dat6 V c).before 1 t d = iblk6 V c 1 t :=
  before6_1_of V (dat6 V c) (A_eq6 V c 1) (after6_1 V c) t d

theorem before6_2 (c : Dev nD) (t : Fin cfg6.N) (d) : (dat6 V c).before 2 t d = iblk6 V c 2 t :=
  before6_2_of V (dat6 V c) (A_eq6 V c 2) (after6_2 V c) t d

theorem before6_3 (c : Dev nD) (t : Fin cfg6.N) (d) : (dat6 V c).before 3 t d = iblk6 V c 3 t :=
  before6_3_of V (dat6 V c) (A_eq6 V c 3) (after6_3 V c) t d

theorem before6_4 (c : Dev nD) (t : Fin cfg6.N) (d) : (dat6 V c).before 4 t d = iblk6 V c 4 t :=
  before6_4_of V (dat6 V c) (A_eq6 V c 4) (after6_4 V c) t d

theorem before6_5 (c : Dev nD) (t : Fin cfg6.N) (d) : (dat6 V c).before 5 t d = iblk6 V c 5 t :=
  before6_5_of V (dat6 V c) (A_eq6 V c 5) (after6_5 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _
    (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.S6.lean ====
import proofs.«164939_j7129645711575_2_alg».proof.Proof.KI.S5
import proofs.«164939_j7129645711575_2_alg».proof.Proof.KI.R6
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b

def W14 (c : Dev nD) : Valuation τ sig (Elt F) :=
  Pipeline.withArrays spec6 c (W13 m ρ c) fun w => (dat6 (V13 m ρ) c).arrAt w cfg6.N

theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w

theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb

abbrev V14 : (c : Dev nD) → (b : Ref sig .tc) → Buf (Elt F) ((c : Thread nD τ).loc b) := fun c b => W14 m ρ c b

theorem hF6 (c : Dev nD) (w : Fin cfg6.W) : (dat6 (V13 m ρ) c).arrAt w cfg6.N = V14 m ρ c (Pipeline.arrRef spec6 w) :=
  (W14_arr m ρ c w).symm

theorem hrest6 (c : Dev nD) : ∀ b, b ∉ Finset.univ.image (Pipeline.arrRef spec6) → V14 m ρ c b = V13 m ρ c b :=
  Step.rest spec6 c

theorem keep6 (c : Dev nD) (r : Ref sig .tc)
    (h : ∀ w : Fin cfg6.W, (cfg6.win w).isOut = true → Pipeline.arrRef spec6 w ≠ r) :
    W14 m ρ c (Proc.devRef .tc r) = W13 m ρ c (Proc.devRef .tc r) :=
  Step.keepIn launch6.win.arr_inj (A_eq6 _ c) r h

theorem thru6 (c : Dev nD) (r : Ref sig .tc) (h1 : r ∉ hostOps6_W)
    (h2 : ∀ w : Fin cfg6.W, (cfg6.win w).isOut = true → Pipeline.arrRef spec6 w ≠ r) :
    W14 m ρ c (Proc.devRef .tc r) = W12 m ρ c (Proc.devRef .tc r) :=
  (keep6 m ρ c r h2).trans (StableHlo.after_of_writes_sub hostOps6 _ hostOps6_writes h1)

end Cert.KernelIdeal.Hand

end
-- ==== Proof.KI.R7.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz7 : (![0, 0] : Fin 2 → Nat) = fun _ => 0 := funext fun a => by fin_cases a <;> rfl

theorem read_writes_cons_unit7 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readCov_cons_unit7 {sg : RefSig} {κ : Kind} {sp : Space} {S : Shape} {e : EltTy} (v : View sg κ sp S e)
    {off : Fin S.rank → Nat} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem readAt_unread_unit7 {sp : Space} {S : Shape} {e : EltTy} (m : Memref sig .tc sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val = 0 :=
  (by decide +kernel : ∀ t : Fin grid7.N, cond7_0 (grid7.coords t) ↔ t.val = 0)

def hmidOf7 (x0 : Vec F S5000x128 .f32) (x1 : Vec F S5000x1 .f32) (x2 : Vec F S5000x1 .f32) (x3 : Vec F S128x128 .f32) (x4 : Vec F S1x128 .f32) :
    Vec F S5000x128 .f32 := k7_pay4 x0 x1 x3 x4 x2

def stepOf7 (x0 : Vec F S5000x128 .f32) (x1 : Vec F S5000x1 .f32) (x2 : Vec F S5000x1 .f32) (x3 : Vec F S128x128 .f32) (x4 : Vec F S1x128 .f32)
    (s : Vec F S1x128 .f32 × Vec F S1x128 .f32) : Vec F S1x128 .f32 × Vec F S1x128 .f32 :=
  (k7_pay5 x0 x1 x3 x4 x2 s.1, k7_pay1 s.2 (k7_pay6 x0 x1 x3 x4 x2))

def zero7 : Vec F S1x128 .f32 × Vec F S1x128 .f32 := (k7_pay2, k7_pay3)

set_option maxHeartbeats 1000000 in

theorem sound_kernel7_A (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond7_0 i)
    (x0 : Vec F S5000x128 .f32) (x1 : Vec F S5000x1 .f32) (x2 : Vec F S5000x1 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf7 x0 x1 x2 x3 x4)
            ∗ owns (c : Thread nD τ) arg7 fullShare (stepOf7 x0 x1 x2 x3 x4 (zero7 (F := F))).1 ∗ owns (c : Thread nD τ) arg8 fullShare (stepOf7 x0 x1 x2 x3 x4 (zero7 (F := F))).2
            ∗ owns (c : Thread nD τ) arg9 fullShare (stepOf7 x0 x1 x2 x3 x4 (zero7 (F := F))).1 ∗ owns (c : Thread nD τ) arg10 fullShare (stepOf7 x0 x1 x2 x3 x4 (zero7 (F := F))).2) -∗ K ⟨⟩))
      ⊢ wp frame (wpE (defs₀ (F := F)) Variants.none c none) E (cc7__linear_stats_kernel i arg1 harg1 arg2 harg2 arg3 harg3 arg4 harg4 arg5 harg5 arg6 harg6 arg7 harg7 arg8 harg8 arg9 harg9 arg10 harg10) K := by
  simp only [cc7__linear_stats_kernel_eq_skeleton]; unfold cc7__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit7 (S := S5000x128) _ _ hz7]
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H6]
  · iexists _; isplitr
    swap; · iexact H6
    ipureintro
    rw [read_writes_cons_unit7 (S := S1x128) _ _ hz7]
    sl_unfold_run_names
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H7]
  · iexists _; isplitr
    swap; · iexact H7
    ipureintro
    rw [read_writes_cons_unit7 (S := S1x128) _ _ hz7]
    sl_unfold_run_names
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H8]
  · iexists _; isplitr
    swap; · iexact H8
    ipureintro
    sl_unfold_run_names
    rw [read_writes_cons_unit7 (S := S1x128) _ _ hz7]
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  iexists _; isplitr
  swap; · iexact H9
  ipureintro
  sl_unfold_run_names
  rw [read_writes_cons_unit7 (S := S1x128) _ _ hz7]
  simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
  rfl

set_option maxHeartbeats 1000000 in

theorem sound_kernel7_B (c : Dev nD) (E : Set ℕ) (i : grid7.Coords) (arg1 : Memref sig .tc .vmem S5000x128 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond7_0 i)
    (x0 : Vec F S5000x128 .f32) (x1 : Vec F S5000x1 .f32) (x2 : Vec F S5000x1 .f32) (x3 : Vec F S128x128 .f32) (x4 : Vec F S1x128 .f32) (s : Vec F S1x128 .f32 × Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hmidOf7 x0 x1 x2 x3 x4)
            ∗ owns (c : Thread nD τ) arg7 fullShare (stepOf7 x0 x1 x2 x3 x4 s).1 ∗ owns (c : Thread nD τ) arg8 fullShare (stepOf7 x0 x1 x2 x3 x4 s).2
            ∗ owns (c : Thread nD τ) arg9 fullShare (stepOf7 x0 x1 x2 x3 x4 s).1 ∗ owns (c : Thread nD τ) arg10 fullShare (stepOf7 x0 x1 x2 x3 x4 s).2) -∗ K ⟨⟩))
      ⊢ wp frame (wpE (defs₀ (F := F)) Variants.none c none) E (cc7__linear_stats_kernel i arg1 harg1 arg2 harg2 arg3 harg3 arg4 harg4 arg5 harg5 arg6 harg6 arg7 harg7 arg8 harg8 arg9 harg9 arg10 harg10) K := by
  simp only [cc7__linear_stats_kernel_eq_skeleton]; unfold cc7__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4
  obtain rfl := harg9.eq_unread hf8; obtain rfl := harg10.eq_unread hf9
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [read_writes_cons_unit7 (S := S5000x128) _ _ hz7]
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H6]
  · iexists _; isplitr
    swap; · iexact H6
    ipureintro
    rw [read_writes_cons_unit7 (S := S1x128) _ _ hz7]
    sl_unfold_run_names
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H7]
  · iexists _; isplitr
    swap; · iexact H7
    ipureintro
    rw [read_writes_cons_unit7 (S := S1x128) _ _ hz7]
    sl_unfold_run_names
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  isplitl [H8]
  · iexists _; isplitr
    swap; · iexact H8
    ipureintro
    sl_unfold_run_names
    rw [read_writes_cons_unit7 (S := S1x128) _ _ hz7]
    simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
    rfl
  iexists _; isplitr
  swap; · iexact H9
  ipureintro
  sl_unfold_run_names
  rw [read_writes_cons_unit7 (S := S1x128) _ _ hz7]
  simp only [readCov_cons_unit7 (S := S1x128) _ hz7, readAt_unread_unit7 (S := S5000x128) _ _ hz7, readAt_unread_unit7 (S := S5000x1) _ _ hz7, readAt_unread_unit7 (S := S128x128) _ _ hz7, readAt_unread_unit7 (S := S1x128) _ _ hz7]
  rfl

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def hmid7 (c : Dev nD) (t : Fin cfg7.N) : Vec F S5000x128 .f32 :=
  hmidOf7 (iblk7 V c 0 t) (iblk7 V c 1 t) (iblk7 V c 2 t) (iblk7 V c 3 t) (iblk7 V c 4 t)

def stepAt7 (c : Dev nD) (n : ℕ) (s : Vec F S1x128 .f32 × Vec F S1x128 .f32) : Vec F S1x128 .f32 × Vec F S1x128 .f32 :=
  if h : n < cfg7.N then
    stepOf7 (iblk7 V c 0 ⟨n, h⟩) (iblk7 V c 1 ⟨n, h⟩) (iblk7 V c 2 ⟨n, h⟩) (iblk7 V c 3 ⟨n, h⟩) (iblk7 V c 4 ⟨n, h⟩) s
  else s

def acc7 (c : Dev nD) : ℕ → Vec F S1x128 .f32 × Vec F S1x128 .f32
  | 0 => stepAt7 V c 0 zero7
  | n + 1 => stepAt7 V c (n + 1) (acc7 c n)

theorem acc7_zero (c : Dev nD) : acc7 V c 0 = stepAt7 V c 0 zero7 := rfl

theorem acc7_succ (c : Dev nD) (n : ℕ) : acc7 V c (n + 1) = stepAt7 V c (n + 1) (acc7 V c n) := rfl

theorem acc7_first (c : Dev nD) (t : Fin cfg7.N) (hz : t.val = 0) :
    acc7 V c t.val = stepOf7 (iblk7 V c 0 t) (iblk7 V c 1 t) (iblk7 V c 2 t) (iblk7 V c 3 t) (iblk7 V c 4 t) zero7 := by
  obtain ⟨n, hn⟩ := t
  cases n with
  | zero => rw [acc7_zero]; unfold stepAt7; rw [dif_pos hn]
  | succ n => exact absurd hz (Nat.succ_ne_zero n)

theorem acc7_later (c : Dev nD) (t : Fin cfg7.N) (hz : t.val ≠ 0) :
    acc7 V c t.val = stepOf7 (iblk7 V c 0 t) (iblk7 V c 1 t) (iblk7 V c 2 t) (iblk7 V c 3 t) (iblk7 V c 4 t) (acc7 V c (t.val - 1)) := by
  obtain ⟨n, hn⟩ := t
  cases n with
  | zero => exact absurd rfl hz
  | succ n => rw [acc7_succ]; unfold stepAt7; rw [dif_pos hn]; rfl

abbrev scM7_0 : Memref sig .tc .vmem S1x128 .f32 := Memref.whole cc7_scratch0

abbrev scM7_1 : Memref sig .tc .vmem S1x128 .f32 := Memref.whole cc7_scratch1

theorem scopedRest7_eq (c : Dev nD) :
    (Pipeline.scopedRest (Ix := Unit) (Name := ℕ) (U := UR sig nD τ) (Lvl := ℕ) (Val := Elt F) spec7 c : sProp 𝕄)
      = iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) := by
  rw [scopedRest7_split]; simp only [scM7_0, scM7_1, owns_whole]; try rfl

def Phi7 (c : Dev nD) : ℕ → sProp 𝕄
  | 0 => Pipeline.scopedRest (Ix := Unit) (Name := ℕ) (U := UR sig nD τ) (Lvl := ℕ) (Val := Elt F) spec7 c
  | n + 1 => iprop(iprop(owns (c : Thread nD τ) scM7_0 fullShare (acc7 V c n).1 ∗ owns (c : Thread nD τ) scM7_1 fullShare (acc7 V c n).2)
      ∗ Pipeline.scopedRestBut (Ix := Unit) (Name := ℕ) (U := UR sig nD τ) (Lvl := ℕ) (Val := Elt F) spec7 c [cc7_scratch0, cc7_scratch1])

theorem Phi7_zero (c : Dev nD) (n : ℕ) (hz : n = 0) : Phi7 V c n = (Pipeline.scopedRest (Ix := Unit) (Name := ℕ) (U := UR sig nD τ) (Lvl := ℕ) (Val := Elt F) spec7 c : sProp 𝕄) := by
  subst hz; rfl

theorem Phi7_succ (c : Dev nD) (n : ℕ) :
    Phi7 V c (n + 1) = iprop(iprop(owns (c : Thread nD τ) scM7_0 fullShare (acc7 V c n).1 ∗ owns (c : Thread nD τ) scM7_1 fullShare (acc7 V c n).2)
      ∗ Pipeline.scopedRestBut (Ix := Unit) (Name := ℕ) (U := UR sig nD τ) (Lvl := ℕ) (Val := Elt F) spec7 c [cc7_scratch0, cc7_scratch1]) := rfl

theorem Phi7_pos (c : Dev nD) (n : ℕ) (hz : n ≠ 0) :
    Phi7 V c n = iprop(iprop(owns (c : Thread nD τ) scM7_0 fullShare (acc7 V c (n - 1)).1 ∗ owns (c : Thread nD τ) scM7_1 fullShare (acc7 V c (n - 1)).2)
      ∗ Pipeline.scopedRestBut (Ix := Unit) (Name := ℕ) (U := UR sig nD τ) (Lvl := ℕ) (Val := Elt F) spec7 c [cc7_scratch0, cc7_scratch1]) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => hmid7 V c t
    | ⟨6, _⟩ => (acc7 V c t.val).1
    | ⟨7, _⟩ => (acc7 V c t.val).2
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]

theorem after7_1 (c : Dev nD) (t : Fin cfg7.N) : (dat7 V c).after 1 t = iblk7 V c 1 t := by dsimp only [dat7]

theorem after7_2 (c : Dev nD) (t : Fin cfg7.N) : (dat7 V c).after 2 t = iblk7 V c 2 t := by dsimp only [dat7]

theorem after7_3 (c : Dev nD) (t : Fin cfg7.N) : (dat7 V c).after 3 t = iblk7 V c 3 t := by dsimp only [dat7]

theorem after7_4 (c : Dev nD) (t : Fin cfg7.N) : (dat7 V c).after 4 t = iblk7 V c 4 t := by dsimp only [dat7]

theorem after7_5 (c : Dev nD) (t : Fin cfg7.N) : (dat7 V c).after 5 t = hmid7 V c t := by dsimp only [dat7]

theorem after7_6 (c : Dev nD) (t : Fin cfg7.N) : (dat7 V c).after 6 t = (acc7 V c t.val).1 := by dsimp only [dat7]

theorem after7_7 (c : Dev nD) (t : Fin cfg7.N) : (dat7 V c).after 7 t = (acc7 V c t.val).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)

theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A_eq7]; try rfl) t d).trans
    (by unfold Dat.fetched Dat.blockOf iblk7; rw [A_eq7]; try rfl)

theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

set_option maxHeartbeats 1600000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl,
    after7_0, after7_1, after7_2, after7_3, after7_4, after7_5, after7_6, after7_7]
  rw [show (dat7 V c).Φ t.succ = Phi7 V c (t.val + 1) from rfl, Phi7_succ,
    show (dat7 V c).Φ t.castSucc = Phi7 V c t.val from rfl]
  unfold hmid7
  by_cases hz : t.val = 0
  · rw [Phi7_zero V c _ hz, scopedRest7_eq, acc7_first V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel7_A c Set.univ (grid7.coords t) _ _ _ _ _ _ _ _ _ _ _ _ _ _ _ _ _ _ _ _ ((hcond7_0 t).mpr hz)
      (iblk7 V c 0 t) (iblk7 V c 1 t) (iblk7 V c 2 t) (iblk7 V c 3 t) (iblk7 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi7_pos V c _ hz, acc7_later V c t hz]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel7_B c Set.univ (grid7.coords t) _ _ _ _ _ _ _ _ _ _ _ _ _ _ _ _ _ _ _ _ (fun h => hz ((hcond7_0 t).mp h))
      (iblk7 V c 0 t) (iblk7 V c 1 t) (iblk7 V c 2 t) (iblk7 V c 3 t) (iblk7 V c 4 t) (acc7 V c (t.val - 1)) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.scopedRest (Ix := Unit) (Name := ℕ) (U := UR sig nD τ) (Lvl := ℕ) (Val := Elt F) spec7 c : sProp 𝕄) ⊢ (dat7 V c).Φ 0 := by
  rw [show (dat7 V c).Φ 0 = Phi7 V c 0 from rfl, Phi7_zero V c 0 rfl]
  try exact Idealize.SL.BI.Entails.refl _

theorem hout7 (c : Dev nD) : (dat7 V c).Φ (Fin.last cfg7.N) ⊢ (Pipeline.scopedRest (Ix := Unit) (Name := ℕ) (U := UR sig nD τ) (Lvl := ℕ) (Val := Elt F) spec7 c : sProp 𝕄) := by
  rw [show (dat7 V c).Φ (Fin.last cfg7.N) = Phi7 V c (Fin.last cfg7.N).val from rfl,
    Phi7_pos V c _ (by rw [Fin.val_last]; have : cfg7.N = 20 := N_7; omega), scopedRest7_eq]
  iintro ⟨⟨HS0, HS1⟩, HR⟩
  isplitl [HS0 HS1]
  · isplitl [HS0]
    · iexists _; iexact HS0
    iexists _; iexact HS1
  iexact HR

end Cert.KernelIdeal.Hand
end
-- ==== Proof.KI.S7.lean ====
import proofs.«164939_j7129645711575_2_alg».proof.Proof.KI.S6
import proofs.«164939_j7129645711575_2_alg».proof.Proof.KI.R7
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b

def W16 (c : Dev nD) : Valuation τ sig (Elt F) :=
  Pipeline.withArrays spec7 c (W15 m ρ c) fun w => (dat7 (V15 m ρ) c).arrAt w cfg7.N

theorem W16_arr (c : Dev nD) (w : Fin cfg7.W) :
    W16 m ρ c (Proc.devRef .tc (Pipeline.arrRef spec7 w)) = (dat7 (V15 m ρ) c).arrAt w cfg7.N :=
  Pipeline.withArrays_arr spec7 launch7.win.arr_inj c _ _ w

theorem W16_of_ne (c : Dev nD) (b : Ref sig .tc) (hb : ∀ w, Pipeline.arrRef spec7 w ≠ b) :
    W16 m ρ c (Proc.devRef .tc b) = W15 m ρ c (Proc.devRef .tc b) :=
  Pipeline.withArrays_of_ne spec7 c _ _ b hb

abbrev V16 : (c : Dev nD) → (b : Ref sig .tc) → Buf (Elt F) ((c : Thread nD τ).loc b) := fun c b => W16 m ρ c b

theorem hF7 (c : Dev nD) (w : Fin cfg7.W) : (dat7 (V15 m ρ) c).arrAt w cfg7.N = V16 m ρ c (Pipeline.arrRef spec7 w) :=
  (W16_arr m ρ c w).symm

theorem hrest7 (c : Dev nD) : ∀ b, b ∉ Finset.univ.image (Pipeline.arrRef spec7) → V16 m ρ c b = V15 m ρ c b :=
  Step.rest spec7 c

theorem keep7 (c : Dev nD) (r : Ref sig .tc)
    (h : ∀ w : Fin cfg7.W, (cfg7.win w).isOut = true → Pipeline.arrRef spec7 w ≠ r) :
    W16 m ρ c (Proc.devRef .tc r) = W15 m ρ c (Proc.devRef .tc r) :=
  Step.keepIn launch7.win.arr_inj (A_eq7 _ c) r h

theorem thru7 (c : Dev nD) (r : Ref sig .tc) (h1 : r ∉ hostOps7_W)
    (h2 : ∀ w : Fin cfg7.W, (cfg7.win w).isOut = true → Pipeline.arrRef spec7 w ≠ r) :
    W16 m ρ c (Proc.devRef .tc r) = W14 m ρ c (Proc.devRef .tc r) :=
  (keep7 m ρ c r h2).trans (StableHlo.after_of_writes_sub hostOps7 _ hostOps7_writes h1)

end Cert.KernelIdeal.Hand

end
-- ==== Proof.KI.R8.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t := by
  have hkeep : ∀ t, (cfg8.win 0).cut (cfg8.grid.coords t) (dat.after 0 t) = dat.blockOf 0 t := fun t => by
    rw [hafter]; unfold Dat.blockOf iblk8; rw [hA]; try rfl
  rw [dat.before_in_eq_fetched 0 rfl (fun _ => rfl) (fun _ _ _ => rfl) hkeep t d]
  unfold Dat.fetched Dat.blockOf iblk8; rw [hA]; try rfl

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t := by
  have hkeep : ∀ t, (cfg8.win 1).cut (cfg8.grid.coords t) (dat.after 1 t) = dat.blockOf 1 t := fun t => by
    rw [hafter]; unfold Dat.blockOf iblk8; rw [hA]; try rfl
  rw [dat.before_in_eq_fetched 1 rfl (fun _ => rfl) (fun _ _ _ => rfl) hkeep t d]
  unfold Dat.fetched Dat.blockOf iblk8; rw [hA]; try rfl

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t := by
  have hkeep : ∀ t, (cfg8.win 2).cut (cfg8.grid.coords t) (dat.after 2 t) = dat.blockOf 2 t := fun t => by
    rw [hafter]; unfold Dat.blockOf iblk8; rw [hA]; try rfl
  rw [dat.before_in_eq_fetched 2 rfl (fun _ => rfl) (fun _ _ _ => rfl) hkeep t d]
  unfold Dat.fetched Dat.blockOf iblk8; rw [hA]; try rfl

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t := by
  have hkeep : ∀ t, (cfg8.win 3).cut (cfg8.grid.coords t) (dat.after 3 t) = dat.blockOf 3 t := fun t => by
    rw [hafter]; unfold Dat.blockOf iblk8; rw [hA]; try rfl
  rw [dat.before_in_eq_fetched 3 rfl (fun _ => rfl) (fun _ _ _ => rfl) hkeep t d]
  unfold Dat.fetched Dat.blockOf iblk8; rw [hA]; try rfl

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t := by
  have hkeep : ∀ t, (cfg8.win 4).cut (cfg8.grid.coords t) (dat.after 4 t) = dat.blockOf 4 t := fun t => by
    rw [hafter]; unfold Dat.blockOf iblk8; rw [hA]; try rfl
  rw [dat.before_in_eq_fetched 4 rfl (fun _ => rfl) (fun _ _ _ => rfl) hkeep t d]
  unfold Dat.fetched Dat.blockOf iblk8; rw [hA]; try rfl

theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t := by
  have hkeep : ∀ t, (cfg8.win 5).cut (cfg8.grid.coords t) (dat.after 5 t) = dat.blockOf 5 t := fun t => by
    rw [hafter]; unfold Dat.blockOf iblk8; rw [hA]; try rfl
  rw [dat.before_in_eq_fetched 5 rfl (fun _ => rfl) (fun _ _ _ => rfl) hkeep t d]
  unfold Dat.fetched Dat.blockOf iblk8; rw [hA]; try rfl

abbrev r8_0 : Rect S5000x128 := Rect.unit (s := S5000x128) ![0, 0] S5000x128.size inb_S5000x128_S5000x128_0_0

abbrev r8_1 : Rect S1x128 := Rect.unit (s := S1x128) ![0, 0] S1x128.size inb_S1x128_S1x128_0_0

def out8_6 (x0 : Vec F S5000x128 .f32) (x1 : Vec F S5000x128 .f32) (x2 x3 x4 x5 : Vec F S1x128 .f32) : Vec F S5000x128 .f32 :=
  View.canon [⟨r8_0, k8_pay1 (View.ld x0 r8_0) (View.ld x2 r8_1) (View.ld x3 r8_1) (View.ld x4 r8_1) (View.ld x5 r8_1) (View.ld x1 r8_0)⟩]

theorem cover8_6 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

set_option maxHeartbeats 400000 in

theorem sound_kernel8 (c : Dev nD) (E : Set ℕ) (i : grid8.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E
          (cc8__bn_relu_residual_kernel i arg1 harg1 arg2 harg2 arg3 harg3 arg4 harg4 arg5 harg5 arg6 harg6 arg7 harg7) K := by
  simp only [cc8__bn_relu_residual_kernel_eq_skeleton]; unfold cc8__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]

theorem after8_1 (c : Dev nD) (t : Fin cfg8.N) : (dat8 V c).after 1 t = iblk8 V c 1 t := by dsimp only [dat8]

theorem after8_2 (c : Dev nD) (t : Fin cfg8.N) : (dat8 V c).after 2 t = iblk8 V c 2 t := by dsimp only [dat8]

theorem after8_3 (c : Dev nD) (t : Fin cfg8.N) : (dat8 V c).after 3 t = iblk8 V c 3 t := by dsimp only [dat8]

theorem after8_4 (c : Dev nD) (t : Fin cfg8.N) : (dat8 V c).after 4 t = iblk8 V c 4 t := by dsimp only [dat8]

theorem after8_5 (c : Dev nD) (t : Fin cfg8.N) : (dat8 V c).after 5 t = iblk8 V c 5 t := by dsimp only [dat8]

theorem after8_6 (c : Dev nD) (t : Fin cfg8.N) :
    (dat8 V c).after 6 t = out8_6 (iblk8 V c 0 t) (iblk8 V c 1 t) (iblk8 V c 2 t) (iblk8 V c 3 t) (iblk8 V c 4 t) (iblk8 V c 5 t) := by
  dsimp only [dat8]

theorem before8_0 (c : Dev nD) (t : Fin cfg8.N) (d) : (dat8 V c).before 0 t d = iblk8 V c 0 t :=
  before8_0_of V (dat8 V c) (A_eq8 V c 0) (after8_0 V c) t d

theorem before8_1 (c : Dev nD) (t : Fin cfg8.N) (d) : (dat8 V c).before 1 t d = iblk8 V c 1 t :=
  before8_1_of V (dat8 V c) (A_eq8 V c 1) (after8_1 V c) t d

theorem before8_2 (c : Dev nD) (t : Fin cfg8.N) (d) : (dat8 V c).before 2 t d = iblk8 V c 2 t :=
  before8_2_of V (dat8 V c) (A_eq8 V c 2) (after8_2 V c) t d

theorem before8_3 (c : Dev nD) (t : Fin cfg8.N) (d) : (dat8 V c).before 3 t d = iblk8 V c 3 t :=
  before8_3_of V (dat8 V c) (A_eq8 V c 3) (after8_3 V c) t d

theorem before8_4 (c : Dev nD) (t : Fin cfg8.N) (d) : (dat8 V c).before 4 t d = iblk8 V c 4 t :=
  before8_4_of V (dat8 V c) (A_eq8 V c 4) (after8_4 V c) t d

theorem before8_5 (c : Dev nD) (t : Fin cfg8.N) (d) : (dat8 V c).before 5 t d = iblk8 V c 5 t :=
  before8_5_of V (dat8 V c) (A_eq8 V c 5) (after8_5 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _
    (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.S8.lean ====
import proofs.«164939_j7129645711575_2_alg».proof.Proof.KI.S7
import proofs.«164939_j7129645711575_2_alg».proof.Proof.KI.R8
import proofs.«164939_j7129645711575_2_alg».proof.Proof.LibStep

noncomputable section

namespace Cert.KernelIdeal.Hand

open Cert.KernelIdeal.Gen Idealize.ShloMosaic Idealize.ShloMosaic.TcCoe

variable {F : FTy → Type} [FloatOps F]
variable (m : (ℓ : Loc nD τ sig) → Buf (Elt F) ℓ) (ρ : Dev nD → PrngReg)

abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b

def W18 (c : Dev nD) : Valuation τ sig (Elt F) :=
  Pipeline.withArrays spec8 c (W17 m ρ c) fun w => (dat8 (V17 m ρ) c).arrAt w cfg8.N

theorem W18_arr (c : Dev nD) (w : Fin cfg8.W) :
    W18 m ρ c (Proc.devRef .tc (Pipeline.arrRef spec8 w)) = (dat8 (V17 m ρ) c).arrAt w cfg8.N :=
  Pipeline.withArrays_arr spec8 launch8.win.arr_inj c _ _ w

theorem W18_of_ne (c : Dev nD) (b : Ref sig .tc) (hb : ∀ w, Pipeline.arrRef spec8 w ≠ b) :
    W18 m ρ c (Proc.devRef .tc b) = W17 m ρ c (Proc.devRef .tc b) :=
  Pipeline.withArrays_of_ne spec8 c _ _ b hb

abbrev V18 : (c : Dev nD) → (b : Ref sig .tc) → Buf (Elt F) ((c : Thread nD τ).loc b) := fun c b => W18 m ρ c b

theorem hF8 (c : Dev nD) (w : Fin cfg8.W) : (dat8 (V17 m ρ) c).arrAt w cfg8.N = V18 m ρ c (Pipeline.arrRef spec8 w) :=
  (W18_arr m ρ c w).symm

theorem hrest8 (c : Dev nD) : ∀ b, b ∉ Finset.univ.image (Pipeline.arrRef spec8) → V18 m ρ c b = V17 m ρ c b :=
  Step.rest spec8 c

theorem keep8 (c : Dev nD) (r : Ref sig .tc)
    (h : ∀ w : Fin cfg8.W, (cfg8.win w).isOut = true → Pipeline.arrRef spec8 w ≠ r) :
    W18 m ρ c (Proc.devRef .tc r) = W17 m ρ c (Proc.devRef .tc r) :=
  Step.keepIn launch8.win.arr_inj (A_eq8 _ c) r h

theorem thru8 (c : Dev nD) (r : Ref sig .tc) (h1 : r ∉ hostOps8_W)
    (h2 : ∀ w : Fin cfg8.W, (cfg8.win w).isOut = true → Pipeline.arrRef spec8 w ≠ r) :
    W18 m ρ c (Proc.devRef .tc r) = W16 m ρ c (Proc.devRef .tc r) :=
  (keep8 m ρ c r h2).trans (StableHlo.after_of_writes_sub hostOps8 _ hostOps8_writes h1)

end Cert.KernelIdeal.Hand

end
-- ==== Proof.KI.Fam.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import proofs.«164939_j7129645711575_2_alg».proof.Proof.Gen.KernelIdeal.Regions
import proofs.«164939_j7129645711575_2_alg».proof.Proof.KI.S8
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W19 : Dev nD → Valuation τ sig (Elt F) := fun c => StableHlo.after hostOps9 (W18 m ρ c)

theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h

def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W19 m ρ c) ∗ ∃ r, prngReg c r)

end Cert.KernelIdeal.Hand

end
-- ==== Proof.KI.Reg.lean ====
import proofs.«164939_j7129645711575_2_alg».proof.Proof.KI.Fam
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every region's proof data holds its input arrays whole, owes nothing, and bounds no recorded pair before the first point. -/
theorem pdats_fact (p : Fin 9) (c : Dev nD) : (∀ w, (pdats m ρ p c).q w = fullShare) ∧ (∀ t, (pdats m ρ p c).owed t = 0)
    ∧ (pdats m ρ p c).recorded 0 = Set.univ := by
  fin_cases p <;> exact ⟨fun _ => rfl, fun _ => rfl, rfl⟩

section
variable (p : Fin 9) (la : Pipeline.LaunchFacts (nD := nD) (τ := τ) cfgs p) (Wi Wo : Dev nD → Valuation τ sig (Elt F))
  (hb : ∀ c, BodyObligation (pdats m ρ p c) (defs₀ (F := F)) Variants.none () Set.univ)
  (hA : ∀ c w, (pdats m ρ p c).A w = Wi c (Pipeline.arrRef (cfgs p).spec w))
  (hF : ∀ c w, (pdats m ρ p c).arrAt w (cfgs p).N = Wo c (Pipeline.arrRef (cfgs p).spec w))
  (hrest : ∀ c, ∀ b, b ∉ Finset.univ.image (Pipeline.arrRef (cfgs p).spec) → Wo c b = Wi c b)

/-- Region `p`'s arrays leave the held buffers at `Wi` and return at `Wo`; the register is dealt to `X` (through the invariant) and `Z` (around it). -/
def regOf (X Z : Dev nD → sProp 𝕄) (hXZ : ∀ c, iprop(∃ r, prngReg c r) ⊢ iprop(X c ∗ Z c))
    (hZX : ∀ c, iprop(X c ∗ Z c) ⊢ iprop(∃ r, prngReg c r))
    (hin : ∀ c, iprop(X c ∗ Pipeline.scopedRest (cfgs p).spec c) ⊢ (pdats m ρ p c).Φ 0)
    (hout : ∀ c, (pdats m ρ p c).Φ (Fin.last _) ⊢ iprop(X c ∗ Pipeline.scopedRest (cfgs p).spec c)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p fun c => (pdats_fact m ρ p c).2.1
  pre c := iprop(StableHlo.held (c : Thread nD τ) (Pipeline.ucRefs τ sig) (Wi c) ∗ R c)
  post c := iprop(StableHlo.held (c : Thread nD τ) (Pipeline.ucRefs τ sig) (Wo c) ∗ R c)
  X := X
  Y := X
  Z c := iprop(Pipeline.unscopedRest (Ix := Unit) (Name := ℕ) (U := UR sig nD τ) (Lvl := ℕ) (cfgs p).spec c (fun b => Wi c b) ∗ Z c)
  hentry c := by
    rw [Pipeline.ownSems0_none]
    have hsplit := Pipeline.arrays_of_unscopedBufs (p := p) (pcfgs (F := F)) adm (pdats m ρ) la.win la.arr_whole c
      ((pdats m ρ p c).share_full (pdats_fact m ρ p c).1) (fun b => Wi c b) (hA c)
    rw [Pipeline.unscopedBufs_held] at hsplit
    iintro ⟨⟨Hub, Hp, HO⟩, -, -⟩
    ihave H := hsplit $$ Hub
    icases H with ⟨Ha, Hrest⟩
    ihave Hp := hXZ c $$ Hp
    icases Hp with ⟨HX, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(pdats_fact m ρ p c).2.1]
      icases HO with ⟨%W, HO⟩; iexists W; isplitr; · ipureintro; exact fun _ _ => Or.inl ((pdats_fact m ρ p c).2.2 ▸ trivial)
      iexact HO
    isplitl [HX]; · iexact HX
    isplitl [Hrest]; · iexact Hrest
    iexact HZ
  hin c := by
    iintro ⟨HX, -, Hr⟩
    iapply hin c
    isplitl [HX] <;> iassumption
  hout c := by
    rw [Pipeline.ownSems0_none]
    iintro H
    ihave H := hout c $$ H
    icases H with ⟨HX, Hr⟩
    isplitl [HX]; · iexact HX
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (pdats_fact m ρ p c).1)
      (fun b => Wi c b) (fun b => Wo c b) ((pdats m ρ p c).arrAt · (cfgs p).N) (hF c) (hrest c)
    rw [Pipeline.unscopedBufs_held] at hjoin
    iintro ⟨Ha, HO, HX, Hrest, HZ⟩
    imodintro
    isplitl [Ha Hrest]
    · iapply hjoin; isplitl [Ha] <;> iassumption
    isplitl [HX HZ]
    · iapply hZX c; isplitl [HX] <;> iassumption
    unfold Pipeline.Dat.owesAt Pipeline.owesWithin; rw [(pdats_fact m ρ p c).2.1]
    icases HO with ⟨%W, -, HO⟩; iexists W; iexact HO

/-- A region whose invariant is the scoped rest beside the generator register: the register goes through it. -/
def regA (hΦ : ∀ c t, (pdats m ρ p c).Φ t = Pipeline.ΦA (cfgs p).spec c) :
    Pipeline.RegionSeg (pcfgs (F := F)) adm (pdats m ρ) () defs₀ 𝒱₀ L lv p :=
  regOf m ρ p la Wi Wo hb hA hF hrest (fun c => iprop(∃ r, prngReg c r)) (fun _ => BI.emp)
    (fun _ => sep_emp_intro) (fun _ => sep_emp_elim)
    (fun c => by rw [hΦ, Pipeline.ΦA]; exact sep_comm) (fun c => by rw [hΦ, Pipeline.ΦA]; exact sep_comm)

/-- A region with an invariant of its own, made from the scoped rest and returned to it: the register goes around. -/
def regS (hi : ∀ c, Pipeline.scopedRest (Ix := Unit) (Name := ℕ) (U := UR sig nD τ) (Lvl := ℕ) (Val := Elt F) (cfgs p).spec c ⊢ (pdats m ρ p c).Φ 0)
    (hl : ∀ c, (pdats m ρ p c).Φ (Fin.last _) ⊢ (Pipeline.scopedRest (Ix := Unit) (Name := ℕ) (U := UR sig nD τ) (Lvl := ℕ) (Val := Elt F) (cfgs p).spec c : sProp 𝕄)) :
    Pipeline.RegionSeg (pcfgs (F := F)) adm (pdats m ρ) () defs₀ 𝒱₀ L lv p :=
  regOf m ρ p la Wi Wo hb hA hF hrest (fun _ => BI.emp) (fun c => iprop(∃ r, prngReg c r))
    (fun _ => emp_sep_intro) (fun _ => emp_sep_elim)
    (fun c => emp_sep_elim.trans (hi c)) (fun c => (hl c).trans emp_sep_intro)

end

end Cert.KernelIdeal.Hand

end
-- ==== Proof.KI.G0.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg0 : Pipeline.RegionSeg (pcfgs (F := F)) adm (pdats m ρ) () defs₀ 𝒱₀ L lv 0 :=
  regA m ρ 0 launch0 (W1 m ρ) (W2 m ρ) (body_obligation0 (V1 m ρ)) (fun _ _ => rfl) (hF0 m ρ) (hrest0 m ρ) fun _ _ => rfl

end Cert.KernelIdeal.Hand

end
-- ==== Proof.KI.G1.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg1 : Pipeline.RegionSeg (pcfgs (F := F)) adm (pdats m ρ) () defs₀ 𝒱₀ L lv 1 :=
  regS m ρ 1 launch1 (W3 m ρ) (W4 m ρ) (body_obligation1 (V3 m ρ)) (fun _ _ => rfl) (hF1 m ρ) (hrest1 m ρ) (hin1 (V3 m ρ)) (hout1 (V3 m ρ))

end Cert.KernelIdeal.Hand

end
-- ==== Proof.KI.G2.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg2 : Pipeline.RegionSeg (pcfgs (F := F)) adm (pdats m ρ) () defs₀ 𝒱₀ L lv 2 :=
  regA m ρ 2 launch2 (W5 m ρ) (W6 m ρ) (body_obligation2 (V5 m ρ)) (fun _ _ => rfl) (hF2 m ρ) (hrest2 m ρ) fun _ _ => rfl

end Cert.KernelIdeal.Hand

end
-- ==== Proof.KI.G3.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg3 : Pipeline.RegionSeg (pcfgs (F := F)) adm (pdats m ρ) () defs₀ 𝒱₀ L lv 3 :=
  regS m ρ 3 launch3 (W7 m ρ) (W8 m ρ) (body_obligation3 (V7 m ρ)) (fun _ _ => rfl) (hF3 m ρ) (hrest3 m ρ) (hin3 (V7 m ρ)) (hout3 (V7 m ρ))

end Cert.KernelIdeal.Hand

end
-- ==== Proof.KI.G4.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg4 : Pipeline.RegionSeg (pcfgs (F := F)) adm (pdats m ρ) () defs₀ 𝒱₀ L lv 4 :=
  regA m ρ 4 launch4 (W9 m ρ) (W10 m ρ) (body_obligation4 (V9 m ρ)) (fun _ _ => rfl) (hF4 m ρ) (hrest4 m ρ) fun _ _ => rfl

end Cert.KernelIdeal.Hand

end
-- ==== Proof.KI.G5.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg5 : Pipeline.RegionSeg (pcfgs (F := F)) adm (pdats m ρ) () defs₀ 𝒱₀ L lv 5 :=
  regS m ρ 5 launch5 (W11 m ρ) (W12 m ρ) (body_obligation5 (V11 m ρ)) (fun _ _ => rfl) (hF5 m ρ) (hrest5 m ρ) (hin5 (V11 m ρ)) (hout5 (V11 m ρ))

end Cert.KernelIdeal.Hand

end
-- ==== Proof.KI.G6.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg6 : Pipeline.RegionSeg (pcfgs (F := F)) adm (pdats m ρ) () defs₀ 𝒱₀ L lv 6 :=
  regA m ρ 6 launch6 (W13 m ρ) (W14 m ρ) (body_obligation6 (V13 m ρ)) (fun _ _ => rfl) (hF6 m ρ) (hrest6 m ρ) fun _ _ => rfl

end Cert.KernelIdeal.Hand

end
-- ==== Proof.KI.G7.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg7 : Pipeline.RegionSeg (pcfgs (F := F)) adm (pdats m ρ) () defs₀ 𝒱₀ L lv 7 :=
  regS m ρ 7 launch7 (W15 m ρ) (W16 m ρ) (body_obligation7 (V15 m ρ)) (fun _ _ => rfl) (hF7 m ρ) (hrest7 m ρ) (hin7 (V15 m ρ)) (hout7 (V15 m ρ))

end Cert.KernelIdeal.Hand

end
-- ==== Proof.KI.G8.lean ====
import proofs.«164939_j7129645711575_2_alg».proof.Proof.KI.Reg

noncomputable section

namespace Cert.KernelIdeal.Hand

open Cert.KernelIdeal Cert.KernelIdeal.Gen Idealize.ShloMosaic

variable {F : FTy → Type} [FloatOps F] (m : (ℓ : Loc nD τ sig) → Buf (Elt F) ℓ) (ρ : Dev nD → PrngReg)

def reg8 : Pipeline.RegionSeg (pcfgs (F := F)) adm (pdats m ρ) () defs₀ 𝒱₀ L lv 8 :=
  regA m ρ 8 launch8 (W17 m ρ) (W18 m ρ) (body_obligation8 (V17 m ρ)) (fun _ _ => rfl) (hF8 m ρ) (hrest8 m ρ) fun _ _ => rfl

end Cert.KernelIdeal.Hand

end
-- ==== Proof.KI.Run.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import proofs.«164939_j7129645711575_2_alg».proof.Proof.KI.G0
import proofs.«164939_j7129645711575_2_alg».proof.Proof.KI.G1
import proofs.«164939_j7129645711575_2_alg».proof.Proof.KI.G2
import proofs.«164939_j7129645711575_2_alg».proof.Proof.KI.G3
import proofs.«164939_j7129645711575_2_alg».proof.Proof.KI.G4
import proofs.«164939_j7129645711575_2_alg».proof.Proof.KI.G5
import proofs.«164939_j7129645711575_2_alg».proof.Proof.KI.G6
import proofs.«164939_j7129645711575_2_alg».proof.Proof.KI.G7
import proofs.«164939_j7129645711575_2_alg».proof.Proof.KI.G8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]

theorem main_run (c : Dev nD) : main (F := F) c = Pipeline.Seg.run (segs m ρ) := (main_chain c).trans (by chain_rfl)

theorem lastLink (c : Dev nD) :
    iprop(StableHlo.held (c : Thread nD τ) (Pipeline.ucRefs τ sig) (W19 m ρ c)
        ∗ ((∃ r, prngReg c r) ∗ ∃ W, owes (c : Thread nD τ) (0 : CellTallies nD τ sig Unit) W))
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]
    · iexact Hh
    iexact Hp
  iexact HO

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,

      fun c => lastLink m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

theorem W19_keep (c : Dev nD) (r : Ref sig .tc)
    (h0a : r ∉ hostOps0_W) (h0b : ∀ w : Fin cfg0.W, (cfg0.win w).isOut = true → Pipeline.arrRef spec0 w ≠ r)
    (h1a : r ∉ hostOps1_W) (h1b : ∀ w : Fin cfg1.W, (cfg1.win w).isOut = true → Pipeline.arrRef spec1 w ≠ r)
    (h2a : r ∉ hostOps2_W) (h2b : ∀ w : Fin cfg2.W, (cfg2.win w).isOut = true → Pipeline.arrRef spec2 w ≠ r)
    (h3a : r ∉ hostOps3_W) (h3b : ∀ w : Fin cfg3.W, (cfg3.win w).isOut = true → Pipeline.arrRef spec3 w ≠ r)
    (h4a : r ∉ hostOps4_W) (h4b : ∀ w : Fin cfg4.W, (cfg4.win w).isOut = true → Pipeline.arrRef spec4 w ≠ r)
    (h5a : r ∉ hostOps5_W) (h5b : ∀ w : Fin cfg5.W, (cfg5.win w).isOut = true → Pipeline.arrRef spec5 w ≠ r)
    (h6a : r ∉ hostOps6_W) (h6b : ∀ w : Fin cfg6.W, (cfg6.win w).isOut = true → Pipeline.arrRef spec6 w ≠ r)
    (h7a : r ∉ hostOps7_W) (h7b : ∀ w : Fin cfg7.W, (cfg7.win w).isOut = true → Pipeline.arrRef spec7 w ≠ r)
    (h8a : r ∉ hostOps8_W) (h8b : ∀ w : Fin cfg8.W, (cfg8.win w).isOut = true → Pipeline.arrRef spec8 w ≠ r)
    (h9a : r ∉ hostOps9_W) :
    W19 m ρ c (Proc.devRef .tc r) = m ((c : Thread nD τ).loc r) :=
  (W19_of m ρ c r h9a).trans <| (thru8 m ρ c r h8a h8b).trans <| (thru7 m ρ c r h7a h7b).trans <| (thru6 m ρ c r h6a h6b).trans <|
    (thru5 m ρ c r h5a h5b).trans <| (thru4 m ρ c r h4a h4b).trans <| (thru3 m ρ c r h3a h3b).trans <| (thru2 m ρ c r h2a h2b).trans <|
    (thru1 m ρ c r h1a h1b).trans <| (thru0 m ρ c r h0a h0b).trans rfl

macro "arg_kept" : tactic => `(tactic| (apply W19_keep <;> decide))

theorem arg0_kept (c : Dev nD) : W19 m ρ c (Proc.devRef .tc main_arg0) = m ((c : Thread nD τ).loc main_arg0) := by arg_kept

theorem arg1_kept (c : Dev nD) : W19 m ρ c (Proc.devRef .tc main_arg1) = m ((c : Thread nD τ).loc main_arg1) := by arg_kept

theorem arg2_kept (c : Dev nD) : W19 m ρ c (Proc.devRef .tc main_arg2) = m ((c : Thread nD τ).loc main_arg2) := by arg_kept

theorem arg3_kept (c : Dev nD) : W19 m ρ c (Proc.devRef .tc main_arg3) = m ((c : Thread nD τ).loc main_arg3) := by arg_kept

theorem arg4_kept (c : Dev nD) : W19 m ρ c (Proc.devRef .tc main_arg4) = m ((c : Thread nD τ).loc main_arg4) := by arg_kept

theorem arg5_kept (c : Dev nD) : W19 m ρ c (Proc.devRef .tc main_arg5) = m ((c : Thread nD τ).loc main_arg5) := by arg_kept

theorem arg6_kept (c : Dev nD) : W19 m ρ c (Proc.devRef .tc main_arg6) = m ((c : Thread nD τ).loc main_arg6) := by arg_kept

theorem arg7_kept (c : Dev nD) : W19 m ρ c (Proc.devRef .tc main_arg7) = m ((c : Thread nD τ).loc main_arg7) := by arg_kept

theorem arg8_kept (c : Dev nD) : W19 m ρ c (Proc.devRef .tc main_arg8) = m ((c : Thread nD τ).loc main_arg8) := by arg_kept

theorem arg9_kept (c : Dev nD) : W19 m ρ c (Proc.devRef .tc main_arg9) = m ((c : Thread nD τ).loc main_arg9) := by arg_kept

theorem arg10_kept (c : Dev nD) : W19 m ρ c (Proc.devRef .tc main_arg10) = m ((c : Thread nD τ).loc main_arg10) := by arg_kept

theorem arg11_kept (c : Dev nD) : W19 m ρ c (Proc.devRef .tc main_arg11) = m ((c : Thread nD τ).loc main_arg11) := by arg_kept

theorem arg12_kept (c : Dev nD) : W19 m ρ c (Proc.devRef .tc main_arg12) = m ((c : Thread nD τ).loc main_arg12) := by arg_kept

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (arg0_kept m ρ c),
     (h c _ (mem_uc main_arg1 (by decide))).trans (arg1_kept m ρ c),
     (h c _ (mem_uc main_arg2 (by decide))).trans (arg2_kept m ρ c),
     (h c _ (mem_uc main_arg3 (by decide))).trans (arg3_kept m ρ c),
     (h c _ (mem_uc main_arg4 (by decide))).trans (arg4_kept m ρ c),
     (h c _ (mem_uc main_arg5 (by decide))).trans (arg5_kept m ρ c),
     (h c _ (mem_uc main_arg6 (by decide))).trans (arg6_kept m ρ c),
     (h c _ (mem_uc main_arg7 (by decide))).trans (arg7_kept m ρ c),
     (h c _ (mem_uc main_arg8 (by decide))).trans (arg8_kept m ρ c),
     (h c _ (mem_uc main_arg9 (by decide))).trans (arg9_kept m ρ c),
     (h c _ (mem_uc main_arg10 (by decide))).trans (arg10_kept m ρ c),
     (h c _ (mem_uc main_arg11 (by decide))).trans (arg11_kept m ρ c),
     (h c _ (mem_uc main_arg12 (by decide))).trans (arg12_kept m ρ c)⟩)
    (run m ρ)

theorem run_result : θ_run defs (onTc (τ := τ) (main (F := F))) ⟨m, fun _ => 0, ρ⟩ (fun r => ∀ c : Dev nD,
      r.2.mem ((c.tc : Thread nD τ).loc main_v179) = W19 m ρ c (Proc.devRef .tc main_v179)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v179 (by decide)),
     (h c _ (mem_uc main_arg0 (by decide))).trans (arg0_kept m ρ c),
     (h c _ (mem_uc main_arg1 (by decide))).trans (arg1_kept m ρ c),
     (h c _ (mem_uc main_arg2 (by decide))).trans (arg2_kept m ρ c),
     (h c _ (mem_uc main_arg3 (by decide))).trans (arg3_kept m ρ c),
     (h c _ (mem_uc main_arg4 (by decide))).trans (arg4_kept m ρ c),
     (h c _ (mem_uc main_arg5 (by decide))).trans (arg5_kept m ρ c),
     (h c _ (mem_uc main_arg6 (by decide))).trans (arg6_kept m ρ c),
     (h c _ (mem_uc main_arg7 (by decide))).trans (arg7_kept m ρ c),
     (h c _ (mem_uc main_arg8 (by decide))).trans (arg8_kept m ρ c),
     (h c _ (mem_uc main_arg9 (by decide))).trans (arg9_kept m ρ c),
     (h c _ (mem_uc main_arg10 (by decide))).trans (arg10_kept m ρ c),
     (h c _ (mem_uc main_arg11 (by decide))).trans (arg11_kept m ρ c),
     (h c _ (mem_uc main_arg12 (by decide))).trans (arg12_kept m ρ c)⟩)
    (run m ρ)

end Cert.KernelIdeal.Hand

end
-- ==== Proof.Spec.lean ====
import Idealize.ShloMosaic.PureOps
import Idealize.ShloMosaic.PureOps.Ideal.Laws
import Idealize.ShloMosaic.Lib.ValueIdx
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Field
import Mathlib.Algebra.Order.BigOperators.Ring.Finset
import Mathlib.Analysis.SpecialFunctions.Pow.Real
import Mathlib.Tactic.Ring
import Mathlib.Tactic.FieldSimp
import Mathlib.Tactic.Positivity
import Mathlib.Tactic.NormNum

noncomputable section

namespace Cert.Spec

open Idealize.ShloMosaic
open scoped BigOperators

def IsFin (x : EReal) : Prop := ∃ r : ℝ, x = (r : EReal)

theorem isFin_zero : IsFin (0 : EReal) := ⟨0, rfl⟩

theorem isFin_one : IsFin (1 : EReal) := ⟨1, rfl⟩

theorem isFin_add {x y : EReal} (hx : IsFin x) (hy : IsFin y) : IsFin (x + y) := by
  obtain ⟨a, rfl⟩ := hx; obtain ⟨b, rfl⟩ := hy
  exact ⟨a + b, (EReal.coe_add a b).symm⟩

theorem isFin_mul {x y : EReal} (hx : IsFin x) (hy : IsFin y) : IsFin (x * y) := by
  obtain ⟨a, rfl⟩ := hx; obtain ⟨b, rfl⟩ := hy
  exact ⟨a * b, (EReal.coe_mul a b).symm⟩

theorem isFin_sub {x y : EReal} (hx : IsFin x) (hy : IsFin y) : IsFin (x - y) := by
  obtain ⟨a, rfl⟩ := hx; obtain ⟨b, rfl⟩ := hy
  exact ⟨a - b, (EReal.coe_sub a b).symm⟩

theorem coe_max (a b : ℝ) : ((max a b : ℝ) : EReal) = max (a : EReal) (b : EReal) :=
  EReal.coe_strictMono.monotone.map_max

theorem isFin_max {x y : EReal} (hx : IsFin x) (hy : IsFin y) : IsFin (max x y) := by
  obtain ⟨a, rfl⟩ := hx; obtain ⟨b, rfl⟩ := hy
  exact ⟨max a b, (coe_max a b).symm⟩

theorem coe_sum {ι : Type} (s : Finset ι) (a : ι → ℝ) :
    ∑ i ∈ s, (a i : EReal) = ((∑ i ∈ s, a i : ℝ) : EReal) := by
  classical
  induction s using Finset.induction_on with
  | empty => simp
  | insert i s hi ih => rw [Finset.sum_insert hi, Finset.sum_insert hi, ih, EReal.coe_add]

theorem isFin_sum {ι : Type} (s : Finset ι) (f : ι → EReal) (h : ∀ i ∈ s, IsFin (f i)) :
    IsFin (∑ i ∈ s, f i) := by
  classical
  induction s using Finset.induction_on with
  | empty => simpa using isFin_zero
  | insert i s hi ih =>
    rw [Finset.sum_insert hi]
    exact isFin_add (h i (Finset.mem_insert_self i s))
      (ih fun j hj => h j (Finset.mem_insert_of_mem hj))

theorem div_coe_coe (a : ℝ) {b : ℝ} (hb : b ≠ 0) :
    Ideal.div (a : EReal) (b : EReal) = ((a / b : ℝ) : EReal) := by
  rw [Ideal.div_coe hb, ← EReal.coe_mul, mul_one_div]

theorem isFin_div {x : EReal} (hx : IsFin x) {b : ℝ} (hb : b ≠ 0) : IsFin (Ideal.div x (b : EReal)) := by
  obtain ⟨a, rfl⟩ := hx
  exact ⟨a / b, div_coe_coe a hb⟩

theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

theorem isFin_pow (a b : ℝ) : IsFin (Ideal.pow (a : EReal) (b : EReal)) :=
  ⟨Real.rpow a b, rfl⟩

def eps : ℝ := 10995116 * (2 : ℝ) ^ (-40 : ℤ)

theorem eps_pos : 0 < eps := by unfold eps; positivity

theorem ofBits_eps : Ideal.ofBits .f32 0x3727C5AC#32 = (eps : EReal) := by
  simp [Ideal.ofBits, Ideal.ieee, eps]

theorem ofBits_one : Ideal.ofBits .f32 0x3F800000#32 = 1 := by
  simp [Ideal.ofBits, Ideal.ieee]
  rw [← EReal.coe_mul, ← EReal.coe_one]
  congr 1
  norm_num

theorem ofBits_zero : Ideal.ofBits .f32 0x00000000#32 = 0 := Ideal.ofBits_zero_f32

theorem ofBits_neg_half : Ideal.ofBits .f32 0xBF000000#32 = ((-(1 / 2) : ℝ) : EReal) := by
  simp [Ideal.ofBits, Ideal.ieee]
  rw [← EReal.coe_mul]
  congr 1
  norm_num

theorem ofBits_1e5 : Ideal.ofBits .f32 0x47C35000#32 = ((100000 : ℝ) : EReal) := by
  simp [Ideal.ofBits, Ideal.ieee]
  rw [← EReal.coe_mul]
  congr 1
  norm_num

theorem isFin_ofBits_one : IsFin (Ideal.ofBits .f32 0x3F800000#32) := by
  rw [ofBits_one]; exact isFin_one

theorem isFin_ofBits_zero : IsFin (Ideal.ofBits .f32 0x00000000#32) := by
  rw [ofBits_zero]; exact isFin_zero

theorem isFin_ofBits_neg_half : IsFin (Ideal.ofBits .f32 0xBF000000#32) := ⟨_, ofBits_neg_half⟩

theorem real_var {ι : Type} [Fintype ι] (a : ι → ℝ) (n : ℝ) (hn : n = (Fintype.card ι : ℝ)) (hpos : 0 < n) :
    (∑ i, a i * a i) / n - (∑ i, a i) / n * ((∑ i, a i) / n)
      = (∑ i, (a i - (∑ i, a i) / n) * (a i - (∑ i, a i) / n)) / n := by
  have hne : n ≠ 0 := hpos.ne'
  set S : ℝ := ∑ i, a i with hS
  set m : ℝ := S / n with hm
  have h1 : ∑ i, (a i - m) * (a i - m) = (∑ i, a i * a i) - 2 * m * S + n * (m * m) := by
    have : ∀ i, (a i - m) * (a i - m) = a i * a i - 2 * m * a i + m * m := fun i => by ring
    rw [Finset.sum_congr rfl fun i _ => this i, Finset.sum_add_distrib, Finset.sum_sub_distrib,
      ← Finset.mul_sum, Finset.sum_const, Finset.card_univ, nsmul_eq_mul, ← hn]
  rw [h1, hm]
  field_simp
  ring

theorem real_var_nonneg {ι : Type} [Fintype ι] (a : ι → ℝ) (n : ℝ) (hpos : 0 < n) (m : ℝ) :
    0 ≤ (∑ i, (a i - m) * (a i - m)) / n :=
  div_nonneg (Finset.sum_nonneg fun i _ => mul_self_nonneg _) hpos.le

theorem var_bridge {ι : Type} [Fintype ι] (x : ι → EReal) (hx : ∀ i, IsFin (x i)) (n : ℝ)
    (hn : n = (Fintype.card ι : ℝ)) (hpos : 0 < n) :
    max (Ideal.div (∑ i, x i * x i) (n : EReal)
          - Ideal.div (∑ i, x i) (n : EReal) * Ideal.div (∑ i, x i) (n : EReal)) 0
      = Ideal.div (∑ i, (x i - Ideal.div (∑ i, x i) (n : EReal)) * (x i - Ideal.div (∑ i, x i) (n : EReal)))
          (n : EReal) := by
  have hne : n ≠ 0 := hpos.ne'
  choose a ha using hx
  have hxa : x = fun i => (a i : EReal) := funext ha
  subst hxa
  simp only [← EReal.coe_mul, coe_sum, div_coe_coe _ hne, ← EReal.coe_sub]
  rw [← EReal.coe_zero, ← coe_max, real_var a n hn hpos,
    max_eq_left (real_var_nonneg a n hpos _)]

def AllFin {ι : Type} (v : ι → EReal) : Prop := ∀ i, IsFin (v i)

def AllPos {ι : Type} (v : ι → EReal) : Prop := ∀ i, ∃ r : ℝ, 0 < r ∧ v i = (r : EReal)

def AllNonneg {ι : Type} (v : ι → EReal) : Prop := ∀ i, ∃ r : ℝ, 0 ≤ r ∧ v i = (r : EReal)

theorem AllPos.allFin {ι : Type} {v : ι → EReal} (h : AllPos v) : AllFin v :=
  fun i => let ⟨r, _, hr⟩ := h i; ⟨r, hr⟩

theorem AllNonneg.allFin {ι : Type} {v : ι → EReal} (h : AllNonneg v) : AllFin v :=
  fun i => let ⟨r, _, hr⟩ := h i; ⟨r, hr⟩

theorem pos_of_nonneg_add_pos {x y : EReal} (hx : ∃ r : ℝ, 0 ≤ r ∧ x = (r : EReal))
    (hy : ∃ r : ℝ, 0 < r ∧ y = (r : EReal)) : ∃ r : ℝ, 0 < r ∧ x + y = (r : EReal) := by
  obtain ⟨a, ha, rfl⟩ := hx; obtain ⟨b, hb, rfl⟩ := hy
  exact ⟨a + b, by positivity, (EReal.coe_add a b).symm⟩

section Arrays
variable {s t : Shape} {φ : FTy}

theorem allFin_constant (s : Shape) (φ : FTy) (b : BitVec φ.bits) (hb : IsFin (Ideal.ofBits φ b)) :
    AllFin (constant (F := Ideal) s φ b) := fun _ => hb

theorem allFin_addf {x y : FVec Ideal s φ} (hx : AllFin x) (hy : AllFin y) : AllFin (addf x y) :=
  fun i => isFin_add (hx i) (hy i)

theorem allFin_subf {x y : FVec Ideal s φ} (hx : AllFin x) (hy : AllFin y) : AllFin (subf x y) :=
  fun i => isFin_sub (hx i) (hy i)

theorem allFin_mulf {x y : FVec Ideal s φ} (hx : AllFin x) (hy : AllFin y) : AllFin (mulf x y) :=
  fun i => isFin_mul (hx i) (hy i)

theorem allFin_maximumf {x y : FVec Ideal s φ} (hx : AllFin x) (hy : AllFin y) : AllFin (maximumf x y) :=
  fun i => isFin_max (hx i) (hy i)

theorem allPos_addf {x y : FVec Ideal s φ} (hx : AllNonneg x) (hy : AllPos y) : AllPos (addf x y) :=
  fun i => pos_of_nonneg_add_pos (hx i) (hy i)

theorem allFin_hostDivf {x y : FVec Ideal s φ} (hx : AllFin x) (hy : ∀ i, ∃ r : ℝ, r ≠ 0 ∧ y i = (r : EReal)) :
    AllFin (Host.divf x y) := fun i => by
  obtain ⟨r, hr, hyi⟩ := hy i
  show IsFin (Ideal.div (x i) (y i))
  rw [hyi]; exact isFin_div (hx i) hr

theorem allFin_hostDivf_const {x y : FVec Ideal s φ} (hx : AllFin x) (r : ℝ) (hr : r ≠ 0)
    (hy : ∀ i, y i = (r : EReal)) : AllFin (Host.divf x y) :=
  allFin_hostDivf hx fun i => ⟨r, hr, hy i⟩

theorem allFin_hostPowf {x y : FVec Ideal s φ} (hx : AllFin x) (hy : AllFin y) : AllFin (Host.powf x y) := fun i => by
  obtain ⟨a, ha⟩ := hx i; obtain ⟨b, hb⟩ := hy i
  show IsFin (Ideal.pow (x i) (y i))
  rw [ha, hb]; exact isFin_pow a b

theorem allPos_hostRsqrt {x : FVec Ideal s φ} (hx : AllPos x) : AllPos (Host.rsqrt x) := fun i => by
  obtain ⟨r, hr, hxi⟩ := hx i
  refine ⟨(Real.sqrt r)⁻¹, inv_pos.mpr (Real.sqrt_pos.mpr hr), ?_⟩
  show Ideal.rsqrt (x i) = _
  rw [hxi]; exact rsqrt_coe_pos hr

theorem allFin_broadcastInDim (t : Shape) (dims : Fin s.rank → Fin t.rank) (h : s.BroadcastsInDim t dims)
    {x : s.Idx → EReal} (hx : AllFin x) : AllFin (broadcastInDim t dims h x) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_gather {si : Shape} {w : Nat} (d : GatherDims s si t) {x : s.Idx → EReal} (idx : IVec si w)
    (hx : AllFin x) : AllFin (Host.gather d x idx) := fun _ => hx _

theorem allPos_broadcastInDim (t : Shape) (dims : Fin s.rank → Fin t.rank) (h : s.BroadcastsInDim t dims)
    {x : s.Idx → EReal} (hx : AllPos x) : AllPos (broadcastInDim t dims h x) := fun _ => hx _

theorem allPos_constant (s : Shape) (φ : FTy) (b : BitVec φ.bits) (r : ℝ) (hr : 0 < r)
    (hb : Ideal.ofBits φ b = (r : EReal)) : AllPos (constant (F := Ideal) s φ b) := fun _ => ⟨r, hr, hb⟩

theorem allFin_scatterAdd {si u : Shape} {w : Nat} (d : ScatterDims s si u) {x : FVec Ideal s φ} (idx : IVec si w)
    {upd : FVec Ideal u φ} (hx : AllFin x) (hu : AllFin upd) : AllFin (Host.scatterAdd d x idx upd) := fun i => by
  show IsFin (x i + ∑ j ∈ Finset.univ.filter (fun j => d.resultIdx? j idx = some i), upd j)
  exact isFin_add (hx i) (isFin_sum _ _ fun j _ => hu j)

theorem allFin_dotGeneral {sl sr so : Shape} {φ₁ φ₂ : FTy} (d : DotDims sl sr so) (prec : Option ContractPrecision)
    {lhs : FVec Ideal sl φ₁} {rhs : FVec Ideal sr φ₂} (hl : AllFin lhs) (hr : AllFin rhs) :
    AllFin (Host.dotGeneral d prec lhs rhs) := fun j => by
  show IsFin (FloatOps.dotGeneral d prec .single lhs rhs j)
  rw [Ideal.dotGeneral_apply]
  exact isFin_sum _ _ fun k _ => isFin_mul (hl _) (hr _)

theorem allFin_hostReduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) := fun j => by
  show IsFin (init (Shape.Idx.first hu) + ∑ i ∈ Finset.univ.filter (fun i => h.drop i = j), x i)
  exact isFin_add (hi _) (isFin_sum _ _ fun i _ => hx i)

end Arrays

end Cert.Spec
-- ==== Proof.Fn.lean ====
import proofs.«164939_j7129645711575_2_alg».proof.Proof.Spec
import Idealize.ShloMosaic.Lib.ValueIdx

noncomputable section

namespace Cert.Fn

open Idealize.ShloMosaic Idealize.ShloMosaic.ValueIdx Cert.Spec
open scoped BigOperators

abbrev SND : Shape := ⟨2, ![100000, 128]⟩

abbrev SDD : Shape := ⟨2, ![128, 128]⟩

abbrev S1D : Shape := ⟨2, ![1, 128]⟩

abbrev SN1 : Shape := ⟨2, ![100000, 1]⟩

abbrev ND : Type := FVec Ideal SND .f32

abbrev DD : Type := FVec Ideal SDD .f32

abbrev OD : Type := FVec Ideal S1D .f32

abbrev NO : Type := FVec Ideal SN1 .f32

def embedG (x : ND) (w : DD) (b : OD) : ND :=
  fun i => (∑ k : Fin 128, x (ix2 (i 0) k) * w (ix2 k (i 1))) + b (ix2 0 (i 1))

theorem embedG_apply (x : ND) (w : DD) (b : OD) (r : Fin 100000) (c : Fin 128) :
    embedG x w b (ix2 r c) = (∑ k : Fin 128, x (ix2 r k) * w (ix2 k c)) + b (ix2 0 c) := rfl

def linG (agg : ND) (invin gn : NO) (w : DD) (b : OD) : ND :=
  fun i => ((∑ k : Fin 128, (agg (ix2 (i 0) k) * invin (ix2 (i 0) 0)) * w (ix2 k (i 1))) + b (ix2 0 (i 1)))
    * gn (ix2 (i 0) 0)

theorem linG_apply (agg : ND) (invin gn : NO) (w : DD) (b : OD) (r : Fin 100000) (c : Fin 128) :
    linG agg invin gn w b (ix2 r c)
      = ((∑ k : Fin 128, (agg (ix2 r k) * invin (ix2 r 0)) * w (ix2 k c)) + b (ix2 0 c)) * gn (ix2 r 0) := rfl

def colsum (y : ND) : OD := fun j => ∑ r : Fin 100000, y (ix2 r (j 1))

def colsumsq (y : ND) : OD := fun j => ∑ r : Fin 100000, y (ix2 r (j 1)) * y (ix2 r (j 1))

theorem colsum_apply (y : ND) (c : Fin 128) : colsum y (ix2 0 c) = ∑ r : Fin 100000, y (ix2 r c) := rfl

theorem colsumsq_apply (y : ND) (c : Fin 128) :
    colsumsq y (ix2 0 c) = ∑ r : Fin 100000, y (ix2 r c) * y (ix2 r c) := rfl

def bnG (hmid hin : ND) (mu var gamma beta : OD) : ND :=
  fun i => hin i + max (((hmid i - mu (ix2 0 (i 1)))
      * Ideal.rsqrt (var (ix2 0 (i 1)) + Ideal.ofBits .f32 0x3727C5AC#32)) * gamma (ix2 0 (i 1))
    + beta (ix2 0 (i 1))) 0

theorem bnG_apply (hmid hin : ND) (mu var gamma beta : OD) (r : Fin 100000) (c : Fin 128) :
    bnG hmid hin mu var gamma beta (ix2 r c)
      = hin (ix2 r c) + max (((hmid (ix2 r c) - mu (ix2 0 c))
          * Ideal.rsqrt (var (ix2 0 c) + Ideal.ofBits .f32 0x3727C5AC#32)) * gamma (ix2 0 c)
        + beta (ix2 0 c)) 0 := rfl

end Cert.Fn
-- ==== Proof.Layer.lean ====
import proofs.«164939_j7129645711575_2_alg».proof.Proof.Spec
import proofs.«164939_j7129645711575_2_alg».proof.Proof.Fn
import Idealize.ShloMosaic.Lib.ValueIdx

noncomputable section

namespace Cert.Layer

open Idealize.ShloMosaic Idealize.ShloMosaic.ValueIdx Cert.Spec Cert.Fn
open scoped BigOperators

abbrev nW : EReal := Ideal.ofBits .f32 0x47C35000#32

def muK (y : ND) : OD := fun j => Ideal.div (colsum y j) nW

def varK (y : ND) : OD := fun j => max (Ideal.div (colsumsq y j) nW - muK y j * muK y j) 0

def muR (y : ND) : OD := fun j => Ideal.div (∑ r : Fin 100000, y (ix2 r (j 1))) nW

def varR (y : ND) : OD :=
  fun j => Ideal.div (∑ r : Fin 100000, (y (ix2 r (j 1)) - muR y j) * (y (ix2 r (j 1)) - muR y j)) nW

theorem card_nodes : (100000 : ℝ) = (Fintype.card (Fin 100000) : ℝ) := by
  rw [Fintype.card_fin]; norm_num

theorem muK_eq_muR (y : ND) : muK y = muR y := rfl

theorem varK_eq_varR {y : ND} (hy : AllFin y) : varK y = varR y := by
  funext j
  show max (Ideal.div (∑ r : Fin 100000, y (ix2 r (j 1)) * y (ix2 r (j 1))) nW
      - Ideal.div (∑ r : Fin 100000, y (ix2 r (j 1))) nW * Ideal.div (∑ r : Fin 100000, y (ix2 r (j 1))) nW) 0
    = Ideal.div (∑ r : Fin 100000, (y (ix2 r (j 1)) - Ideal.div (∑ r : Fin 100000, y (ix2 r (j 1))) nW)
        * (y (ix2 r (j 1)) - Ideal.div (∑ r : Fin 100000, y (ix2 r (j 1))) nW)) nW
  rw [show nW = ((100000 : ℝ) : EReal) from ofBits_1e5]
  exact var_bridge (fun r : Fin 100000 => y (ix2 r (j 1))) (fun r => hy _) 100000 card_nodes (by norm_num)

theorem bnG_K_eq_R {y : ND} (hy : AllFin y) (hin : ND) (gamma beta : OD) :
    bnG y hin (muK y) (varK y) gamma beta = bnG y hin (muR y) (varR y) gamma beta := by
  rw [varK_eq_varR hy, muK_eq_muR]

end Cert.Layer
-- ==== Proof.Ops.lean ====
import proofs.«164939_j7129645711575_2_alg».proof.Proof.Gen.ReferenceIdeal

noncomputable section

namespace Cert.Ops

open Cert.ReferenceIdeal Cert.ReferenceIdeal.Gen Idealize.ShloMosaic

variable {F : FTy → Type} [FloatOps F]

def degOps (x : (⟨S1600000, .i32⟩ : BufTy).Contents (Elt F)) : (⟨S100000x1, .f32⟩ : BufTy).Contents (Elt F) :=
  broadcastInDim S100000x1 ![0] bcast_S100000_S100000x1_0
    (Host.powf
      (maximumf
        (Host.scatterAdd scatter_S100000_S1600000x1_S1600000_n_0_0_1
          (broadcastInDim S100000 ![] bcast_S_S100000 (constant (F := F) S_ .f32 0x00000000#32))
          (broadcastInDim S1600000x1 ![0] bcast_S1600000_S1600000x1_0 x)
          (broadcastInDim S1600000 ![] bcast_S_S1600000 (constant (F := F) S_ .f32 0x3F800000#32)))
        (broadcastInDim S100000 ![] bcast_S_S100000 (constant (F := F) S_ .f32 0x3F800000#32)))
      (broadcastInDim S100000 ![] bcast_S_S100000 (constant (F := F) S_ .f32 0xBF000000#32)))

def biasRow (x7 : (⟨S128, .f32⟩ : BufTy).Contents (Elt F)) : (⟨S1x128, .f32⟩ : BufTy).Contents (Elt F) :=
  broadcastInDim S1x128 ![1] bcast_S128_S1x128_1 x7

def wSliceAt (o : Nat) (hs : S4x128x128.Slices ![o, 0, 0] S1x128x128)
    (x8 : (⟨S4x128x128, .f32⟩ : BufTy).Contents (Elt F)) : (⟨S128x128, .f32⟩ : BufTy).Contents (Elt F) :=
  shapeCast _ (extractStridedSlice S1x128x128 ![o, 0, 0] x8 hs) shapeCasts_S1x128x128_S128x128

def rowSliceAt (o : Nat) (hs : S4x128.Slices ![o, 0] S1x128)
    (x : (⟨S4x128, .f32⟩ : BufTy).Contents (Elt F)) : (⟨S1x128, .f32⟩ : BufTy).Contents (Elt F) :=
  broadcastInDim S1x128 ![1] bcast_S128_S1x128_1
    (shapeCast _ (extractStridedSlice S1x128 ![o, 0] x hs) shapeCasts_S1x128_S128)

def aggOps (h : (⟨S100000x128, .f32⟩ : BufTy).Contents (Elt F)) (io : (⟨S100000x1, .f32⟩ : BufTy).Contents (Elt F))
    (x3 x4 : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 x4)
    (Host.gather gather_S100000x128_S1600000x1_S1600000x128_1_0_n_n_0_1_1128
      (mulf h (broadcastInDim S100000x128 ![0, 1] bcast_S100000x1_S100000x128_0_1 io))
      (broadcastInDim S1600000x1 ![0] bcast_S1600000_S1600000x1_0
        (select (cmpi .slt x3 (broadcastInDim S1600000 ![] bcast_S_S1600000 (constantI S_ 32 0#32)))
          (addi x3 (broadcastInDim S1600000 ![] bcast_S_S1600000 (constantI S_ 32 100000#32))) x3)))

def readoutOps (h : (⟨S100000x128, .f32⟩ : BufTy).Contents (Elt F)) (x5 : (⟨S100000, .i32⟩ : BufTy).Contents (Elt F))
    (x12 : (⟨S128x10, .f32⟩ : BufTy).Contents (Elt F)) : (⟨S512x10, .f32⟩ : BufTy).Contents (Elt F) :=
  Host.dotGeneral dot_S512x128_S128x10_S512x10_1_0_0_1_n_n none
    (Host.divf
      (Host.scatterAdd scatter_S512x128_S100000x1_S100000x128_1_0_0_1
        (broadcastInDim S512x128 ![] bcast_S_S512x128 (constant (F := F) S_ .f32 0x00000000#32))
        (broadcastInDim S100000x1 ![0] bcast_S100000_S100000x1_0 x5)
        h)
      (broadcastInDim S512x128 ![0, 1] bcast_S512x1_S512x128_0_1
        (broadcastInDim S512x1 ![0] bcast_S512_S512x1_0
          (maximumf
            (Host.scatterAdd scatter_S512_S100000x1_S100000_n_0_0_1
              (broadcastInDim S512 ![] bcast_S_S512 (constant (F := F) S_ .f32 0x00000000#32))
              (broadcastInDim S100000x1 ![0] bcast_S100000_S100000x1_0 x5)
              (broadcastInDim S100000 ![] bcast_S_S100000 (constant (F := F) S_ .f32 0x3F800000#32)))
            (broadcastInDim S512 ![] bcast_S_S512 (constant (F := F) S_ .f32 0x3F800000#32))))))
    x12

end Cert.Ops
-- ==== Proof.KI.Glue.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import proofs.«164939_j7129645711575_2_alg».proof.Proof.KI.Fam
import proofs.«164939_j7129645711575_2_alg».proof.Proof.Fn
import proofs.«164939_j7129645711575_2_alg».proof.Proof.Layer
import proofs.«164939_j7129645711575_2_alg».proof.Proof.Ops
import Idealize.ShloMosaic.Lib.Pipeline.FrameSuffix
import Idealize.ShloMosaic.Lib.Ring
import Idealize.ShloMosaic.Lib.Tactic
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

set_option maxRecDepth 16384

noncomputable section

namespace Cert.KernelIdeal.Hand.Glue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)
open Idealize.ShloMosaic.ValueIdx

abbrev asRow (v : FVec Ideal S128 .f32) : FVec Ideal S1x128 .f32 :=
  shapeCast S1x128 v shapeCasts_S128_S1x128

theorem asRow_apply (v : FVec Ideal S128 .f32) (u : Fin 1) (j : Fin 128) : asRow v (ix2 u j) = v (ix1 j) :=
  shapeCast_a_1a_apply _ _ u j

abbrev rowVec (l : Nat) (X : FVec Ideal S4x128 .f32) (h : S4x128.Slices ![l, 0] S1x128) : FVec Ideal S128 .f32 :=
  shapeCast S128 (extractStridedSlice S1x128 ![l, 0] X h) shapeCasts_S1x128_S128

theorem rowVec_apply (l : Nat) (X : FVec Ideal S4x128 .f32) (h : S4x128.Slices ![l, 0] S1x128)
    (k : Fin 4) (hk : k.val = l) (j : Fin 128) : rowVec l X h (ix1 j) = X (ix2 k j) := by
  show shapeCast S128 _ shapeCasts_S1x128_S128 (ix1 j) = _
  rw [shapeCast_1a_a_apply]
  exact slice2_axis0_apply l X h 0 j k (by rw [hk]; rfl)

theorem bcastRow_apply (h : S128.BroadcastsInDim S1x128 ![1]) (x : FVec Ideal S128 .f32) (u : Fin 1) (j : Fin 128) :
    broadcastInDim S1x128 ![1] h x (ix2 u j) = x (ix1 j) :=
  broadcastInDim_apply _ _ _ _ _ fun a => by
    match a with
    | ⟨0, _⟩ => rfl

theorem biasRow_apply (x : FVec Ideal S128 .f32) (u : Fin 1) (j : Fin 128) :
    Cert.Ops.biasRow (F := Ideal) x (ix2 u j) = x (ix1 j) := by
  unfold Cert.Ops.biasRow; exact bcastRow_apply _ _ u j

theorem rowSliceAt_apply (o : Nat) (hs : S4x128.Slices ![o, 0] S1x128) (x : FVec Ideal S4x128 .f32)
    (k : Fin 4) (hk : k.val = o) (u : Fin 1) (j : Fin 128) :
    Cert.Ops.rowSliceAt (F := Ideal) o hs x (ix2 u j) = x (ix2 k j) := by
  unfold Cert.Ops.rowSliceAt
  rw [bcastRow_apply]
  exact rowVec_apply o x hs k hk j

theorem asRow_rowVec (o : Nat) (hs : S4x128.Slices ![o, 0] S1x128) (x : FVec Ideal S4x128 .f32) (k : Fin 4) (hk : k.val = o) :
    asRow (rowVec o x hs) = Cert.Ops.rowSliceAt (F := Ideal) o hs x := by
  funext i
  obtain ⟨u, j, rfl⟩ : ∃ u j, i = ix2 u j := ⟨i 0, i 1, eq_ix2 i⟩
  rw [asRow_apply, rowVec_apply o x hs k hk, rowSliceAt_apply o hs x k hk]

abbrev meanVec (s : FVec Ideal S1x128 .f32) : FVec Ideal S128 .f32 :=
  shapeCast S128
    (Host.divf s (broadcastInDim S1x128 ![] bcast_S_S1x128 (constant (F := Ideal) S_ .f32 0x47C35000#32)))
    shapeCasts_S1x128_S128

abbrev varVec (s q : FVec Ideal S1x128 .f32) : FVec Ideal S128 .f32 :=
  maximumf (subf (meanVec q) (mulf (meanVec s) (meanVec s)))
    (broadcastInDim S128 ![] bcast_S_S128 (constant (F := Ideal) S_ .f32 0x00000000#32))

theorem meanVec_apply (s : FVec Ideal S1x128 .f32) (j : Fin 128) :
    meanVec s (ix1 j) = Ideal.div (s (ix2 0 j)) (Ideal.ofBits .f32 0x47C35000#32) := by
  show shapeCast S128 _ shapeCasts_S1x128_S128 (ix1 j) = _
  rw [shapeCast_1a_a_apply, hostDivf_apply, broadcastInDim_scalar_apply, constant_apply]

theorem varVec_apply (s q : FVec Ideal S1x128 .f32) (j : Fin 128) :
    varVec s q (ix1 j)
      = max (Ideal.div (q (ix2 0 j)) (Ideal.ofBits .f32 0x47C35000#32)
          - Ideal.div (s (ix2 0 j)) (Ideal.ofBits .f32 0x47C35000#32)
            * Ideal.div (s (ix2 0 j)) (Ideal.ofBits .f32 0x47C35000#32)) 0 := by
  show maximumf (subf (meanVec q) (mulf (meanVec s) (meanVec s))) _ (ix1 j) = _
  rw [maximumf_apply, subf_apply, mulf_apply, meanVec_apply, meanVec_apply,
    broadcastInDim_scalar_apply, constant_apply, Ideal.ofBits_zero_f32]

theorem asRow_meanVec (s : FVec Ideal S1x128 .f32) :
    asRow (meanVec s) = fun j => Ideal.div (s j) (Ideal.ofBits .f32 0x47C35000#32) := by
  funext i
  obtain ⟨u, j, rfl⟩ : ∃ u j, i = ix2 u j := ⟨i 0, i 1, eq_ix2 i⟩
  obtain rfl : u = 0 := Subsingleton.elim _ _
  rw [asRow_apply, meanVec_apply]

theorem asRow_varVec (s q : FVec Ideal S1x128 .f32) :
    asRow (varVec s q) = fun j => max (Ideal.div (q j) (Ideal.ofBits .f32 0x47C35000#32)
      - Ideal.div (s j) (Ideal.ofBits .f32 0x47C35000#32) * Ideal.div (s j) (Ideal.ofBits .f32 0x47C35000#32)) 0 := by
  funext i
  obtain ⟨u, j, rfl⟩ : ∃ u j, i = ix2 u j := ⟨i 0, i 1, eq_ix2 i⟩
  obtain rfl : u = 0 := Subsingleton.elim _ _
  rw [asRow_apply, varVec_apply]

section Generic

variable (V : Valuation τ sig (Elt Ideal))

theorem after0_v13 : (after hostOps0 V main_v13 : FVec Ideal S100000x1 .f32) = Cert.Ops.degOps (V main_arg3) := by
  after_results_simp <;> rfl

theorem after0_v16 : (after hostOps0 V main_v16 : FVec Ideal S100000x1 .f32) = Cert.Ops.degOps (V main_arg4) := by
  after_results_simp <;> rfl

theorem after0_v17 : (after hostOps0 V main_v17 : FVec Ideal S1x128 .f32) = Cert.Ops.biasRow (V main_arg7) := by
  have e : (after hostOps0 V main_v17 : FVec Ideal S1x128 .f32) = asRow (V main_arg7) := by
    after_results_simp <;> rfl
  rw [e]
  funext i
  obtain ⟨u, j, rfl⟩ : ∃ u j, i = ix2 u j := ⟨i 0, i 1, eq_ix2 i⟩
  rw [asRow_apply, biasRow_apply]

theorem after1_v30 :
    (after hostOps1 V main_v30 : FVec Ideal S100000x128 .f32)
      = Cert.Ops.aggOps (V main_v18) (V main_v13) (V main_arg3) (V main_arg4) := by
  after_results_simp <;> rfl

theorem after1_v32 :
    (after hostOps1 V main_v32 : FVec Ideal S128x128 .f32) = Cert.Ops.wSliceAt 0 Cert.ReferenceIdeal.Gen.slices_S4x128x128_S1x128x128_0_0_0 (V main_arg8) := by
  after_results_simp <;> rfl

theorem after1_v35 :
    (after hostOps1 V main_v35 : FVec Ideal S1x128 .f32) = Cert.Ops.rowSliceAt 0 Cert.ReferenceIdeal.Gen.slices_S4x128_S1x128_0_0 (V main_arg9) := by
  have e : (after hostOps1 V main_v35 : FVec Ideal S1x128 .f32) = asRow (rowVec 0 (V main_arg9) slices_S4x128_S1x128_0_0) := by
    after_results_simp <;> rfl
  rw [e]; exact asRow_rowVec 0 _ _ ⟨0, by decide⟩ rfl

theorem after2_v51_raw :
    (after hostOps2 V main_v51 : FVec Ideal S1x128 .f32)
      = fun j => Ideal.div ((V main_v36_1 : FVec Ideal S1x128 .f32) j) (Ideal.ofBits .f32 0x47C35000#32) := by
  have e : (after hostOps2 V main_v51 : FVec Ideal S1x128 .f32) = asRow (meanVec (V main_v36_1)) := by
    after_results_simp <;> rfl
  rw [e]; exact asRow_meanVec _

theorem after2_v52_raw :
    (after hostOps2 V main_v52 : FVec Ideal S1x128 .f32)
      = fun j => max (Ideal.div ((V main_v36_2 : FVec Ideal S1x128 .f32) j) (Ideal.ofBits .f32 0x47C35000#32)
          - Ideal.div ((V main_v36_1 : FVec Ideal S1x128 .f32) j) (Ideal.ofBits .f32 0x47C35000#32)
            * Ideal.div ((V main_v36_1 : FVec Ideal S1x128 .f32) j) (Ideal.ofBits .f32 0x47C35000#32)) 0 := by
  have e : (after hostOps2 V main_v52 : FVec Ideal S1x128 .f32) = asRow (varVec (V main_v36_1) (V main_v36_2)) := by
    after_results_simp <;> rfl
  rw [e]; exact asRow_varVec _ _

theorem after2_v51 (y : Cert.Fn.ND) (h1 : (V main_v36_1 : FVec Ideal S1x128 .f32) = Cert.Fn.colsum y) :
    (after hostOps2 V main_v51 : FVec Ideal S1x128 .f32) = Cert.Layer.muK y := by
  rw [after2_v51_raw, h1]; rfl

theorem after2_v52 (y : Cert.Fn.ND) (h1 : (V main_v36_1 : FVec Ideal S1x128 .f32) = Cert.Fn.colsum y)
    (h2 : (V main_v36_2 : FVec Ideal S1x128 .f32) = Cert.Fn.colsumsq y) :
    (after hostOps2 V main_v52 : FVec Ideal S1x128 .f32) = Cert.Layer.varK y := by
  rw [after2_v52_raw, h1, h2]; rfl

theorem after2_v53 :
    (after hostOps2 V main_v53 : FVec Ideal S1x128 .f32) = Cert.Ops.rowSliceAt 0 Cert.ReferenceIdeal.Gen.slices_S4x128_S1x128_0_0 (V main_arg10) := by
  have e : (after hostOps2 V main_v53 : FVec Ideal S1x128 .f32) = asRow (rowVec 0 (V main_arg10) slices_S4x128_S1x128_0_0) := by
    after_results_simp <;> rfl
  rw [e]; exact asRow_rowVec 0 _ _ ⟨0, by decide⟩ rfl

theorem after2_v54 :
    (after hostOps2 V main_v54 : FVec Ideal S1x128 .f32) = Cert.Ops.rowSliceAt 0 Cert.ReferenceIdeal.Gen.slices_S4x128_S1x128_0_0 (V main_arg11) := by
  have e : (after hostOps2 V main_v54 : FVec Ideal S1x128 .f32) = asRow (rowVec 0 (V main_arg11) slices_S4x128_S1x128_0_0) := by
    after_results_simp <;> rfl
  rw [e]; exact asRow_rowVec 0 _ _ ⟨0, by decide⟩ rfl

theorem after3_v67 :
    (after hostOps3 V main_v67 : FVec Ideal S100000x128 .f32)
      = Cert.Ops.aggOps (V main_v55) (V main_v13) (V main_arg3) (V main_arg4) := by
  after_results_simp <;> rfl

theorem after3_v69 :
    (after hostOps3 V main_v69 : FVec Ideal S128x128 .f32) = Cert.Ops.wSliceAt 1 Cert.ReferenceIdeal.Gen.slices_S4x128x128_S1x128x128_1_0_0 (V main_arg8) := by
  after_results_simp <;> rfl

theorem after3_v72 :
    (after hostOps3 V main_v72 : FVec Ideal S1x128 .f32) = Cert.Ops.rowSliceAt 1 Cert.ReferenceIdeal.Gen.slices_S4x128_S1x128_1_0 (V main_arg9) := by
  have e : (after hostOps3 V main_v72 : FVec Ideal S1x128 .f32) = asRow (rowVec 1 (V main_arg9) slices_S4x128_S1x128_1_0) := by
    after_results_simp <;> rfl
  rw [e]; exact asRow_rowVec 1 _ _ ⟨1, by decide⟩ rfl

theorem after4_v88_raw :
    (after hostOps4 V main_v88 : FVec Ideal S1x128 .f32)
      = fun j => Ideal.div ((V main_v73_1 : FVec Ideal S1x128 .f32) j) (Ideal.ofBits .f32 0x47C35000#32) := by
  have e : (after hostOps4 V main_v88 : FVec Ideal S1x128 .f32) = asRow (meanVec (V main_v73_1)) := by
    after_results_simp <;> rfl
  rw [e]; exact asRow_meanVec _

theorem after4_v89_raw :
    (after hostOps4 V main_v89 : FVec Ideal S1x128 .f32)
      = fun j => max (Ideal.div ((V main_v73_2 : FVec Ideal S1x128 .f32) j) (Ideal.ofBits .f32 0x47C35000#32)
          - Ideal.div ((V main_v73_1 : FVec Ideal S1x128 .f32) j) (Ideal.ofBits .f32 0x47C35000#32)
            * Ideal.div ((V main_v73_1 : FVec Ideal S1x128 .f32) j) (Ideal.ofBits .f32 0x47C35000#32)) 0 := by
  have e : (after hostOps4 V main_v89 : FVec Ideal S1x128 .f32) = asRow (varVec (V main_v73_1) (V main_v73_2)) := by
    after_results_simp <;> rfl
  rw [e]; exact asRow_varVec _ _

theorem after4_v88 (y : Cert.Fn.ND) (h1 : (V main_v73_1 : FVec Ideal S1x128 .f32) = Cert.Fn.colsum y) :
    (after hostOps4 V main_v88 : FVec Ideal S1x128 .f32) = Cert.Layer.muK y := by
  rw [after4_v88_raw, h1]; rfl

theorem after4_v89 (y : Cert.Fn.ND) (h1 : (V main_v73_1 : FVec Ideal S1x128 .f32) = Cert.Fn.colsum y)
    (h2 : (V main_v73_2 : FVec Ideal S1x128 .f32) = Cert.Fn.colsumsq y) :
    (after hostOps4 V main_v89 : FVec Ideal S1x128 .f32) = Cert.Layer.varK y := by
  rw [after4_v89_raw, h1, h2]; rfl

theorem after4_v90 :
    (after hostOps4 V main_v90 : FVec Ideal S1x128 .f32) = Cert.Ops.rowSliceAt 1 Cert.ReferenceIdeal.Gen.slices_S4x128_S1x128_1_0 (V main_arg10) := by
  have e : (after hostOps4 V main_v90 : FVec Ideal S1x128 .f32) = asRow (rowVec 1 (V main_arg10) slices_S4x128_S1x128_1_0) := by
    after_results_simp <;> rfl
  rw [e]; exact asRow_rowVec 1 _ _ ⟨1, by decide⟩ rfl

theorem after4_v91 :
    (after hostOps4 V main_v91 : FVec Ideal S1x128 .f32) = Cert.Ops.rowSliceAt 1 Cert.ReferenceIdeal.Gen.slices_S4x128_S1x128_1_0 (V main_arg11) := by
  have e : (after hostOps4 V main_v91 : FVec Ideal S1x128 .f32) = asRow (rowVec 1 (V main_arg11) slices_S4x128_S1x128_1_0) := by
    after_results_simp <;> rfl
  rw [e]; exact asRow_rowVec 1 _ _ ⟨1, by decide⟩ rfl

theorem after5_v104 :
    (after hostOps5 V main_v104 : FVec Ideal S100000x128 .f32)
      = Cert.Ops.aggOps (V main_v92) (V main_v13) (V main_arg3) (V main_arg4) := by
  after_results_simp <;> rfl

theorem after5_v106 :
    (after hostOps5 V main_v106 : FVec Ideal S128x128 .f32) = Cert.Ops.wSliceAt 2 Cert.ReferenceIdeal.Gen.slices_S4x128x128_S1x128x128_2_0_0 (V main_arg8) := by
  after_results_simp <;> rfl

theorem after5_v109 :
    (after hostOps5 V main_v109 : FVec Ideal S1x128 .f32) = Cert.Ops.rowSliceAt 2 Cert.ReferenceIdeal.Gen.slices_S4x128_S1x128_2_0 (V main_arg9) := by
  have e : (after hostOps5 V main_v109 : FVec Ideal S1x128 .f32) = asRow (rowVec 2 (V main_arg9) slices_S4x128_S1x128_2_0) := by
    after_results_simp <;> rfl
  rw [e]; exact asRow_rowVec 2 _ _ ⟨2, by decide⟩ rfl

theorem after6_v125_raw :
    (after hostOps6 V main_v125 : FVec Ideal S1x128 .f32)
      = fun j => Ideal.div ((V main_v110_1 : FVec Ideal S1x128 .f32) j) (Ideal.ofBits .f32 0x47C35000#32) := by
  have e : (after hostOps6 V main_v125 : FVec Ideal S1x128 .f32) = asRow (meanVec (V main_v110_1)) := by
    after_results_simp <;> rfl
  rw [e]; exact asRow_meanVec _

theorem after6_v126_raw :
    (after hostOps6 V main_v126 : FVec Ideal S1x128 .f32)
      = fun j => max (Ideal.div ((V main_v110_2 : FVec Ideal S1x128 .f32) j) (Ideal.ofBits .f32 0x47C35000#32)
          - Ideal.div ((V main_v110_1 : FVec Ideal S1x128 .f32) j) (Ideal.ofBits .f32 0x47C35000#32)
            * Ideal.div ((V main_v110_1 : FVec Ideal S1x128 .f32) j) (Ideal.ofBits .f32 0x47C35000#32)) 0 := by
  have e : (after hostOps6 V main_v126 : FVec Ideal S1x128 .f32) = asRow (varVec (V main_v110_1) (V main_v110_2)) := by
    after_results_simp <;> rfl
  rw [e]; exact asRow_varVec _ _

theorem after6_v125 (y : Cert.Fn.ND) (h1 : (V main_v110_1 : FVec Ideal S1x128 .f32) = Cert.Fn.colsum y) :
    (after hostOps6 V main_v125 : FVec Ideal S1x128 .f32) = Cert.Layer.muK y := by
  rw [after6_v125_raw, h1]; rfl

theorem after6_v126 (y : Cert.Fn.ND) (h1 : (V main_v110_1 : FVec Ideal S1x128 .f32) = Cert.Fn.colsum y)
    (h2 : (V main_v110_2 : FVec Ideal S1x128 .f32) = Cert.Fn.colsumsq y) :
    (after hostOps6 V main_v126 : FVec Ideal S1x128 .f32) = Cert.Layer.varK y := by
  rw [after6_v126_raw, h1, h2]; rfl

theorem after6_v127 :
    (after hostOps6 V main_v127 : FVec Ideal S1x128 .f32) = Cert.Ops.rowSliceAt 2 Cert.ReferenceIdeal.Gen.slices_S4x128_S1x128_2_0 (V main_arg10) := by
  have e : (after hostOps6 V main_v127 : FVec Ideal S1x128 .f32) = asRow (rowVec 2 (V main_arg10) slices_S4x128_S1x128_2_0) := by
    after_results_simp <;> rfl
  rw [e]; exact asRow_rowVec 2 _ _ ⟨2, by decide⟩ rfl

theorem after6_v128 :
    (after hostOps6 V main_v128 : FVec Ideal S1x128 .f32) = Cert.Ops.rowSliceAt 2 Cert.ReferenceIdeal.Gen.slices_S4x128_S1x128_2_0 (V main_arg11) := by
  have e : (after hostOps6 V main_v128 : FVec Ideal S1x128 .f32) = asRow (rowVec 2 (V main_arg11) slices_S4x128_S1x128_2_0) := by
    after_results_simp <;> rfl
  rw [e]; exact asRow_rowVec 2 _ _ ⟨2, by decide⟩ rfl

theorem after7_v141 :
    (after hostOps7 V main_v141 : FVec Ideal S100000x128 .f32)
      = Cert.Ops.aggOps (V main_v129) (V main_v13) (V main_arg3) (V main_arg4) := by
  after_results_simp <;> rfl

theorem after7_v143 :
    (after hostOps7 V main_v143 : FVec Ideal S128x128 .f32) = Cert.Ops.wSliceAt 3 Cert.ReferenceIdeal.Gen.slices_S4x128x128_S1x128x128_3_0_0 (V main_arg8) := by
  after_results_simp <;> rfl

theorem after7_v146 :
    (after hostOps7 V main_v146 : FVec Ideal S1x128 .f32) = Cert.Ops.rowSliceAt 3 Cert.ReferenceIdeal.Gen.slices_S4x128_S1x128_3_0 (V main_arg9) := by
  have e : (after hostOps7 V main_v146 : FVec Ideal S1x128 .f32) = asRow (rowVec 3 (V main_arg9) slices_S4x128_S1x128_3_0) := by
    after_results_simp <;> rfl
  rw [e]; exact asRow_rowVec 3 _ _ ⟨3, by decide⟩ rfl

theorem after8_v162_raw :
    (after hostOps8 V main_v162 : FVec Ideal S1x128 .f32)
      = fun j => Ideal.div ((V main_v147_1 : FVec Ideal S1x128 .f32) j) (Ideal.ofBits .f32 0x47C35000#32) := by
  have e : (after hostOps8 V main_v162 : FVec Ideal S1x128 .f32) = asRow (meanVec (V main_v147_1)) := by
    after_results_simp <;> rfl
  rw [e]; exact asRow_meanVec _

theorem after8_v163_raw :
    (after hostOps8 V main_v163 : FVec Ideal S1x128 .f32)
      = fun j => max (Ideal.div ((V main_v147_2 : FVec Ideal S1x128 .f32) j) (Ideal.ofBits .f32 0x47C35000#32)
          - Ideal.div ((V main_v147_1 : FVec Ideal S1x128 .f32) j) (Ideal.ofBits .f32 0x47C35000#32)
            * Ideal.div ((V main_v147_1 : FVec Ideal S1x128 .f32) j) (Ideal.ofBits .f32 0x47C35000#32)) 0 := by
  have e : (after hostOps8 V main_v163 : FVec Ideal S1x128 .f32) = asRow (varVec (V main_v147_1) (V main_v147_2)) := by
    after_results_simp <;> rfl
  rw [e]; exact asRow_varVec _ _

theorem after8_v162 (y : Cert.Fn.ND) (h1 : (V main_v147_1 : FVec Ideal S1x128 .f32) = Cert.Fn.colsum y) :
    (after hostOps8 V main_v162 : FVec Ideal S1x128 .f32) = Cert.Layer.muK y := by
  rw [after8_v162_raw, h1]; rfl

theorem after8_v163 (y : Cert.Fn.ND) (h1 : (V main_v147_1 : FVec Ideal S1x128 .f32) = Cert.Fn.colsum y)
    (h2 : (V main_v147_2 : FVec Ideal S1x128 .f32) = Cert.Fn.colsumsq y) :
    (after hostOps8 V main_v163 : FVec Ideal S1x128 .f32) = Cert.Layer.varK y := by
  rw [after8_v163_raw, h1, h2]; rfl

theorem after8_v164 :
    (after hostOps8 V main_v164 : FVec Ideal S1x128 .f32) = Cert.Ops.rowSliceAt 3 Cert.ReferenceIdeal.Gen.slices_S4x128_S1x128_3_0 (V main_arg10) := by
  have e : (after hostOps8 V main_v164 : FVec Ideal S1x128 .f32) = asRow (rowVec 3 (V main_arg10) slices_S4x128_S1x128_3_0) := by
    after_results_simp <;> rfl
  rw [e]; exact asRow_rowVec 3 _ _ ⟨3, by decide⟩ rfl

theorem after8_v165 :
    (after hostOps8 V main_v165 : FVec Ideal S1x128 .f32) = Cert.Ops.rowSliceAt 3 Cert.ReferenceIdeal.Gen.slices_S4x128_S1x128_3_0 (V main_arg11) := by
  have e : (after hostOps8 V main_v165 : FVec Ideal S1x128 .f32) = asRow (rowVec 3 (V main_arg11) slices_S4x128_S1x128_3_0) := by
    after_results_simp <;> rfl
  rw [e]; exact asRow_rowVec 3 _ _ ⟨3, by decide⟩ rfl

theorem after9_v179 :
    (after hostOps9 V main_v179 : FVec Ideal S512x10 .f32)
      = Cert.Ops.readoutOps (V main_v166) (V main_arg5) (V main_arg12) := by
  after_results_simp <;> rfl

end Generic

section Chain

variable (m : (ℓ : Loc nD τ sig) → Buf (Elt Ideal) ℓ) (ρ : Dev nD → PrngReg)

end Chain

end Cert.KernelIdeal.Hand.Glue

end
-- ==== Proof.KI.Val0.lean ====
import proofs.«164939_j7129645711575_2_alg».proof.Proof.KI.R0
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem lhs_embed_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_embed_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_embed_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_embed_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul_embed_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_embed_0 _ _
    | ⟨1, _⟩ => exact (lhs_embed_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_embed_0 _ _).trans hk
    | ⟨1, _⟩ => exact rhs_embed_1 _ _)
  rw [el, er]

theorem bias_embed_apply (b : FVec Ideal S1x128 .f32) (p : Fin 5000) (q : Fin 128) :
    broadcastTo S5000x128 (shapeCast S1x128 b shapeCasts_S1x128_S1x128) broadcasts_S1x128_S5000x128 (ix2 p q) = b (ix2 (0 : Fin 1) q) :=
  (broadcastTo_1b_ab_apply _ broadcasts_S1x128_S5000x128 p q).trans (congrFun (shapeCast_self b shapeCasts_S1x128_S1x128) _)

theorem pay0_apply (x0 : FVec Ideal S5000x128 .f32) (x1 : FVec Ideal S128x128 .f32) (x2 : FVec Ideal S1x128 .f32)
    (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ _).trans ?_
  refine congrArg₂ (· + ·) ?_ ?_
  · exact matmul_embed_apply (truncf .bf16 x0 bitsLt_bf16_f32) (truncf .bf16 x1 bitsLt_bf16_f32) p q
  · exact bias_embed_apply x2 p q

variable (V : (c : Dev nD) → (b : Ref sig .tc) → Buf (Elt Ideal) ((c : Thread nD τ).loc b))

theorem hz0 : (![0, 0] : Fin 2 → Nat) = fun _ => 0 := funext fun a => by fin_cases a <;> rfl

abbrev xarr0 (c : Dev nD) : Vec Ideal S100000x128 .f32 := V c (Pipeline.arrRef spec0 0)

abbrev warr0 (c : Dev nD) : Vec Ideal S128x128 .f32 := V c (Pipeline.arrRef spec0 1)

abbrev barr0 (c : Dev nD) : Vec Ideal S1x128 .f32 := V c (Pipeline.arrRef spec0 2)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem xblk_apply (c : Dev nD) (t : Fin cfg0.N) (p : Fin 5000) (k : Fin 128) (r : Fin 100000) (hr : r.val = 5000 * t.val + p.val) :
    (iblk0 V c 0 t : Vec Ideal S5000x128 .f32) (ix2 p k) = xarr0 V c (ix2 r k) := by
  obtain ⟨e0, e1, -⟩ := idx_facts0 t
  show xarr0 V c (((cfg0.win 0).blk t).view.emb (ix2 p k)) = xarr0 V c (ix2 r k)
  refine congrArg (xarr0 V c) ?_
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

theorem wblk_apply (c : Dev nD) (t : Fin cfg0.N) (k : Fin 128) (q : Fin 128) :
    (iblk0 V c 1 t : Vec Ideal S128x128 .f32) (ix2 k q) = warr0 V c (ix2 k q) := by
  obtain ⟨-, -, e2, e3, -⟩ := idx_facts0 t
  show warr0 V c (((cfg0.win 1).blk t).view.emb (ix2 k q)) = warr0 V c (ix2 k q)
  refine congrArg (warr0 V c) ?_
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

theorem bblk_apply (c : Dev nD) (t : Fin cfg0.N) (q : Fin 128) :
    (iblk0 V c 2 t : Vec Ideal S1x128 .f32) (ix2 (0 : Fin 1) q) = barr0 V c (ix2 (0 : Fin 1) q) := by
  obtain ⟨-, -, -, -, e4, e5, -⟩ := idx_facts0 t
  show barr0 V c (((cfg0.win 2).blk t).view.emb (ix2 (0 : Fin 1) q)) = barr0 V c (ix2 (0 : Fin 1) q)
  refine congrArg (barr0 V c) ?_
  funext a; apply Fin.ext
  match a with
  | ⟨0, _⟩ => show win0_2.index t (0 : Fin 2) * 1 + 1 * (0 : Fin 1).val = (0 : Fin 1).val; rw [e4]; rfl
  | ⟨1, _⟩ => show win0_2.index t (1 : Fin 2) * 128 + 1 * q.val = q.val; rw [e5]; omega

theorem flushed0_eq (c : Dev nD) (t : Fin cfg0.N) :
    (dat0 (F := Ideal) V c).flushed 3 t
      = ((cfg0.win 3).blk t).view.read (Elt Ideal) (Cert.Fn.embedG (xarr0 V c) (warr0 V c) (barr0 V c)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S1x128) hz0]
  obtain ⟨-, -, -, -, -, -, e6, e7⟩ := idx_facts0 t
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.Fn.embedG (xarr0 V c) (warr0 V c) (barr0 V c) (((cfg0.win 3).blk t).view.emb (ix2 p q))
  have hN : cfg0.N = 20 := N_0
  have hr : 5000 * t.val + p.val < 100000 := by have := t.isLt; have := p.isLt; omega
  have hemb : ((cfg0.win 3).blk t).view.emb (ix2 p q) = ix2 (⟨5000 * t.val + p.val, hr⟩ : Fin 100000) q := by
    funext a; apply Fin.ext
    match a with
    | ⟨0, _⟩ => show win0_3.index t (0 : Fin 2) * 5000 + 1 * p.val = 5000 * t.val + p.val; rw [e6]; omega
    | ⟨1, _⟩ => show win0_3.index t (1 : Fin 2) * 128 + 1 * q.val = q.val; rw [e7]; omega
  refine (pay0_apply _ _ _ p q).trans ?_
  refine Eq.trans ?_ ((congrArg (Cert.Fn.embedG (xarr0 V c) (warr0 V c) (barr0 V c)) hemb).trans (Cert.Fn.embedG_apply _ _ _ _ _)).symm
  refine congrArg₂ (· + ·) (Finset.sum_congr rfl fun k _ => congrArg₂ (· * ·) ?_ ?_) ?_
  · exact xblk_apply V c t p k _ rfl
  · exact wblk_apply V c t k q
  · exact bblk_apply V c t q

theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

theorem rows_covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e6, e7⟩ := idx_facts0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

theorem val0 (c : Dev nD) :
    (dat0 (F := Ideal) V c).arrAt 3 cfg0.N
      = Cert.Fn.embedG (V c (Pipeline.arrRef spec0 0)) (V c (Pipeline.arrRef spec0 1)) (V c (Pipeline.arrRef spec0 2)) :=
  (dat0 V c).arrAt_eq_of_cover 3 (Cert.Fn.embedG (xarr0 V c) (warr0 V c) (barr0 V c)) (fun t _ => flushed0_eq V c t) rows_covered0

end Cert.KernelIdeal.Hand

end
-- ==== Proof.KI.VLib.lean ====
import proofs.«164939_j7129645711575_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open scoped BigOperators

section Layout
variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem tile_colsum_apply (src : FVec Ideal S5000x128 .f32) (hφ : FKind.Formats .f32)
    (hacc : (0x00000000#32 : BitVec 32) = FKind.add.neutral .f32 hφ) (q : Fin 128) :
    multiReduction .add [0] S128 src 0x00000000#32 reduces_S5000x128_S128 hφ hacc (ix1 q) = ∑ p : Fin 5000, src (ix2 p q) := by
  refine (Ideal.multiReduction_add_single src 0x00000000#32 reduces_S5000x128_S128 hφ hacc (ix1 q)).trans ?_
  refine Finset.sum_congr rfl fun p _ => congrArg src ?_
  funext a; apply Fin.ext
  match a with
  | ⟨0, _⟩ => rfl
  | ⟨1, _⟩ => rfl

theorem tile_colsum_row_apply (src : FVec Ideal S5000x128 .f32) (hφ : FKind.Formats .f32)
    (hacc : (0x00000000#32 : BitVec 32) = FKind.add.neutral .f32 hφ) (q : Fin 128) :
    shapeCast S1x128 (multiReduction .add [0] S128 src 0x00000000#32 reduces_S5000x128_S128 hφ hacc) shapeCasts_S128_S1x128 (ix2 (0 : Fin 1) q)
      = ∑ p : Fin 5000, src (ix2 p q) :=
  (shapeCast_a_1a_apply _ shapeCasts_S128_S1x128 (0 : Fin 1) q).trans (tile_colsum_apply src hφ hacc q)

theorem sum_rows_tiles {M : Type} [AddCommMonoid M] (f : Fin 100000 → M) :
    ∑ r : Fin 100000, f r
      = ∑ t : Fin 20, ∑ p : Fin 5000, f ⟨5000 * t.val + p.val, by have := t.isLt; have := p.isLt; omega⟩ := by
  rw [← Fintype.sum_prod_type']
  refine (Fintype.sum_equiv (finProdFinEquiv (m := 20) (n := 5000)) _ _ fun x => ?_).symm
  refine congrArg f (Fin.ext ?_)
  show 5000 * x.1.val + x.2.val = x.2.val + 5000 * x.1.val
  omega

end Cert.KernelIdeal.Hand

end
-- ==== Proof.KI.Val1.lean ====
import proofs.«164939_j7129645711575_2_alg».proof.Proof.KI.R1
import proofs.«164939_j7129645711575_2_alg».proof.Proof.KI.Val0
import proofs.«164939_j7129645711575_2_alg».proof.Proof.KI.VLib
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem pay1_hmid_apply (x0 : FVec Ideal S5000x128 .f32) (x1 : FVec Ideal S5000x1 .f32) (x3 : FVec Ideal S128x128 .f32)
    (x4 : FVec Ideal S1x128 .f32) (x2 : FVec Ideal S5000x1 .f32) (p : Fin 5000) (q : Fin 128) :
    k1_pay4 (F := Ideal) x0 x1 x3 x4 x2 (ix2 p q)
      = ((∑ k : Fin 128, (x0 (ix2 p k) * x1 (ix2 p (0 : Fin 1))) * x3 (ix2 k q)) + x4 (ix2 (0 : Fin 1) q)) * x2 (ix2 p (0 : Fin 1)) := by
  unfold k1_pay4
  refine (mulf_apply _ _ _).trans ?_
  refine congrArg₂ (· * ·) ?_ ?_
  · refine (addf_apply _ _ _).trans ?_
    refine congrArg₂ (· + ·) ?_ ?_
    · refine (matmul_embed_apply _ _ p q).trans ?_
      refine Finset.sum_congr rfl fun k _ => ?_
      refine congrArg₂ (· * ·) ?_ ?_
      · show (shapeCast S5000x128 x0 shapeCasts_S5000x128_S5000x128) (ix2 p k)
            * (broadcastTo S5000x128 (shapeCast S5000x1 x1 shapeCasts_S5000x1_S5000x1) broadcasts_S5000x1_S5000x128) (ix2 p k) = _
        refine congrArg₂ (· * ·) (congrFun (shapeCast_self x0 shapeCasts_S5000x128_S5000x128) _) ?_
        exact (broadcastTo_a1_ab_apply _ broadcasts_S5000x1_S5000x128 p k).trans (congrFun (shapeCast_self x1 shapeCasts_S5000x1_S5000x1) _)
      · show (shapeCast S128x128 x3 shapeCasts_S128x128_S128x128) (ix2 k q) = _
        exact congrFun (shapeCast_self x3 shapeCasts_S128x128_S128x128) _
    · exact bias_embed_apply x4 p q
  · exact broadcastTo_a1_ab_apply x2 broadcasts_S5000x1_S5000x128 p q

theorem pay1_sum_apply (x0 : FVec Ideal S5000x128 .f32) (x1 : FVec Ideal S5000x1 .f32) (x3 : FVec Ideal S128x128 .f32)
    (x4 : FVec Ideal S1x128 .f32) (x2 : FVec Ideal S5000x1 .f32) (s : FVec Ideal S1x128 .f32) (q : Fin 128) :
    k1_pay5 (F := Ideal) x0 x1 x3 x4 x2 s (ix2 (0 : Fin 1) q)
      = s (ix2 (0 : Fin 1) q) + ∑ p : Fin 5000, k1_pay4 (F := Ideal) x0 x1 x3 x4 x2 (ix2 p q) := by
  unfold k1_pay5
  refine (congrFun (shapeCast_self _ shapeCasts_S1x128_S1x128) _).trans ?_
  refine (addf_apply _ _ _).trans ?_
  exact congrArg (s (ix2 (0 : Fin 1) q) + ·) (tile_colsum_row_apply _ _ _ q)

theorem pay1_sumsq_apply (x0 : FVec Ideal S5000x128 .f32) (x1 : FVec Ideal S5000x1 .f32) (x3 : FVec Ideal S128x128 .f32)
    (x4 : FVec Ideal S1x128 .f32) (x2 : FVec Ideal S5000x1 .f32) (s : FVec Ideal S1x128 .f32) (q : Fin 128) :
    k1_pay1 (F := Ideal) s (k1_pay6 (F := Ideal) x0 x1 x3 x4 x2) (ix2 (0 : Fin 1) q)
      = s (ix2 (0 : Fin 1) q) + ∑ p : Fin 5000, k1_pay4 (F := Ideal) x0 x1 x3 x4 x2 (ix2 p q) * k1_pay4 (F := Ideal) x0 x1 x3 x4 x2 (ix2 p q) := by
  unfold k1_pay1 k1_pay6
  refine (congrFun (shapeCast_self _ shapeCasts_S1x128_S1x128) _).trans ?_
  refine (addf_apply _ _ _).trans ?_
  exact congrArg (s (ix2 (0 : Fin 1) q) + ·) (tile_colsum_row_apply _ _ _ q)

theorem pay1_zero_sum_apply (j : S1x128.Idx) : k1_pay2 (F := Ideal) j = 0 := by
  unfold k1_pay2
  refine (congrFun (shapeCast_self _ shapeCasts_S1x128_S1x128) _).trans ?_
  exact Ideal.ofBits_zero_f32

theorem pay1_zero_sumsq_apply (j : S1x128.Idx) : k1_pay3 (F := Ideal) j = 0 := by
  unfold k1_pay3
  refine (congrFun (shapeCast_self _ shapeCasts_S1x128_S1x128) _).trans ?_
  exact Ideal.ofBits_zero_f32

variable (V : (c : Dev nD) → (b : Ref sig .tc) → Buf (Elt Ideal) ((c : Thread nD τ).loc b))

abbrev aarr1 (c : Dev nD) : Vec Ideal S100000x128 .f32 := V c (Pipeline.arrRef spec1 0)

abbrev iarr1 (c : Dev nD) : Vec Ideal S100000x1 .f32 := V c (Pipeline.arrRef spec1 1)

abbrev garr1 (c : Dev nD) : Vec Ideal S100000x1 .f32 := V c (Pipeline.arrRef spec1 2)

abbrev warr1 (c : Dev nD) : Vec Ideal S128x128 .f32 := V c (Pipeline.arrRef spec1 3)

abbrev barr1 (c : Dev nD) : Vec Ideal S1x128 .f32 := V c (Pipeline.arrRef spec1 4)

abbrev yarr1 (c : Dev nD) : Cert.Fn.ND := Cert.Fn.linG (aarr1 V c) (iarr1 V c) (garr1 V c) (warr1 V c) (barr1 V c)

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem ablk1_apply (c : Dev nD) (t : Fin cfg1.N) (p : Fin 5000) (k : Fin 128) (r : Fin 100000) (hr : r.val = 5000 * t.val + p.val) :
    (iblk1 V c 0 t : Vec Ideal S5000x128 .f32) (ix2 p k) = aarr1 V c (ix2 r k) := by
  obtain ⟨e0, e1, -⟩ := idx_facts1 t
  show aarr1 V c (((cfg1.win 0).blk t).view.emb (ix2 p k)) = aarr1 V c (ix2 r k)
  refine congrArg (aarr1 V c) ?_
  funext a; apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

theorem iblk1_1_apply (c : Dev nD) (t : Fin cfg1.N) (p : Fin 5000) (r : Fin 100000) (hr : r.val = 5000 * t.val + p.val) :
    (iblk1 V c 1 t : Vec Ideal S5000x1 .f32) (ix2 p (0 : Fin 1)) = iarr1 V c (ix2 r (0 : Fin 1)) := by
  obtain ⟨-, -, e2, e3, -⟩ := idx_facts1 t
  show iarr1 V c (((cfg1.win 1).blk t).view.emb (ix2 p (0 : Fin 1))) = iarr1 V c (ix2 r (0 : Fin 1))
  refine congrArg (iarr1 V c) ?_
  funext a; apply Fin.ext
  match a with
  | ⟨0, _⟩ => show win1_1.index t (0 : Fin 2) * 5000 + 1 * p.val = r.val; rw [e2, hr]; omega
  | ⟨1, _⟩ => show win1_1.index t (1 : Fin 2) * 1 + 1 * (0 : Fin 1).val = (0 : Fin 1).val; rw [e3]; rfl

theorem iblk1_2_apply (c : Dev nD) (t : Fin cfg1.N) (p : Fin 5000) (r : Fin 100000) (hr : r.val = 5000 * t.val + p.val) :
    (iblk1 V c 2 t : Vec Ideal S5000x1 .f32) (ix2 p (0 : Fin 1)) = garr1 V c (ix2 r (0 : Fin 1)) := by
  obtain ⟨-, -, -, -, e4, e5, -⟩ := idx_facts1 t
  show garr1 V c (((cfg1.win 2).blk t).view.emb (ix2 p (0 : Fin 1))) = garr1 V c (ix2 r (0 : Fin 1))
  refine congrArg (garr1 V c) ?_
  funext a; apply Fin.ext
  match a with
  | ⟨0, _⟩ => show win1_2.index t (0 : Fin 2) * 5000 + 1 * p.val = r.val; rw [e4, hr]; omega
  | ⟨1, _⟩ => show win1_2.index t (1 : Fin 2) * 1 + 1 * (0 : Fin 1).val = (0 : Fin 1).val; rw [e5]; rfl

theorem iblk1_3_apply (c : Dev nD) (t : Fin cfg1.N) (k : Fin 128) (q : Fin 128) :
    (iblk1 V c 3 t : Vec Ideal S128x128 .f32) (ix2 k q) = warr1 V c (ix2 k q) := by
  obtain ⟨-, -, -, -, -, -, e6, e7, -⟩ := idx_facts1 t
  show warr1 V c (((cfg1.win 3).blk t).view.emb (ix2 k q)) = warr1 V c (ix2 k q)
  refine congrArg (warr1 V c) ?_
  funext a; apply Fin.ext
  match a with
  | ⟨0, _⟩ => show win1_3.index t (0 : Fin 2) * 128 + 1 * k.val = k.val; rw [e6]; omega
  | ⟨1, _⟩ => show win1_3.index t (1 : Fin 2) * 128 + 1 * q.val = q.val; rw [e7]; omega

theorem iblk1_4_apply (c : Dev nD) (t : Fin cfg1.N) (q : Fin 128) :
    (iblk1 V c 4 t : Vec Ideal S1x128 .f32) (ix2 (0 : Fin 1) q) = barr1 V c (ix2 (0 : Fin 1) q) := by
  obtain ⟨-, -, -, -, -, -, -, -, e8, e9, -⟩ := idx_facts1 t
  show barr1 V c (((cfg1.win 4).blk t).view.emb (ix2 (0 : Fin 1) q)) = barr1 V c (ix2 (0 : Fin 1) q)
  refine congrArg (barr1 V c) ?_
  funext a; apply Fin.ext
  match a with
  | ⟨0, _⟩ => show win1_4.index t (0 : Fin 2) * 1 + 1 * (0 : Fin 1).val = (0 : Fin 1).val; rw [e8]; rfl
  | ⟨1, _⟩ => show win1_4.index t (1 : Fin 2) * 128 + 1 * q.val = q.val; rw [e9]; omega

theorem hmid1_apply (c : Dev nD) (t : Fin cfg1.N) (p : Fin 5000) (q : Fin 128) (r : Fin 100000) (hr : r.val = 5000 * t.val + p.val) :
    hmid1 (F := Ideal) V c t (ix2 p q) = yarr1 V c (ix2 r q) := by
  unfold hmid1 hmidOf1
  refine (pay1_hmid_apply _ _ _ _ _ p q).trans ?_
  refine Eq.trans ?_ (Cert.Fn.linG_apply _ _ _ _ _ r q).symm
  refine congrArg₂ (· * ·) (congrArg₂ (· + ·) (Finset.sum_congr rfl fun k _ => congrArg₂ (· * ·) (congrArg₂ (· * ·) ?_ ?_) ?_) ?_) ?_
  · exact ablk1_apply V c t p k r hr
  · exact iblk1_1_apply V c t p r hr
  · exact iblk1_3_apply V c t k q
  · exact iblk1_4_apply V c t q
  · exact iblk1_2_apply V c t p r hr

theorem flushed1_5_eq (c : Dev nD) (t : Fin cfg1.N) :
    (dat1 (F := Ideal) V c).flushed 5 t = ((cfg1.win 5).blk t).view.read (Elt Ideal) (yarr1 V c) := by
  show (cfg1.win 5).cut (grid1.coords t) ((dat1 V c).after 5 t) = _
  rw [after1_5]
  obtain ⟨-, -, -, -, -, -, -, -, -, -, e10, e11, -⟩ := idx_facts1 t
  refine funext fun (j : S5000x128.Idx) => ?_
  obtain ⟨p, q, rfl⟩ : ∃ (p : Fin 5000) (q : Fin 128), j = ix2 p q := ⟨j 0, j 1, eq_ix2 j⟩
  show hmid1 (F := Ideal) V c t (ix2 p q) = yarr1 V c (((cfg1.win 5).blk t).view.emb (ix2 p q))
  have hN : cfg1.N = 20 := N_1
  have hr : 5000 * t.val + p.val < 100000 := by have := t.isLt; have := p.isLt; omega
  have hemb : ((cfg1.win 5).blk t).view.emb (ix2 p q) = ix2 (⟨5000 * t.val + p.val, hr⟩ : Fin 100000) q := by
    funext a; apply Fin.ext
    match a with
    | ⟨0, _⟩ => show win1_5.index t (0 : Fin 2) * 5000 + 1 * p.val = 5000 * t.val + p.val; rw [e10]; omega
    | ⟨1, _⟩ => show win1_5.index t (1 : Fin 2) * 128 + 1 * q.val = q.val; rw [e11]; omega
  exact (hmid1_apply V c t p q ⟨5000 * t.val + p.val, hr⟩ rfl).trans (congrArg (yarr1 V c) hemb).symm

theorem rows_covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, -, -, e10, e11, -⟩ := idx_facts1 t
  refine ⟨t, flush1_5 t, ?_⟩
  have hy : (i 0).val % 5000 < 5000 := Nat.mod_lt _ (by decide)
  have hi : i = ((cfg1.win 5).blk t).view.emb (ix2 (⟨(i 0).val % 5000, hy⟩ : Fin 5000) (⟨(i 1).val, hi1⟩ : Fin 128)) := by
    funext a; apply Fin.ext
    match a with
    | ⟨0, _⟩ => show (i 0).val = win1_5.index t (0 : Fin 2) * 5000 + 1 * ((i 0).val % 5000); rw [e10, ht]; omega
    | ⟨1, _⟩ => show (i 1).val = win1_5.index t (1 : Fin 2) * 128 + 1 * (i 1).val; rw [e11]; omega
  rw [hi]; exact View.emb_mem_set _ _

theorem val1_hmid (c : Dev nD) :
    (dat1 (F := Ideal) V c).arrAt 5 cfg1.N
      = Cert.Fn.linG (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 (yarr1 V c) (fun t _ => flushed1_5_eq V c t) rows_covered1

theorem acc1_sum_apply (c : Dev nD) (q : Fin 128) : ∀ (n : ℕ) (hn : n < 20),
    (acc1 (F := Ideal) V c n).1 (ix2 (0 : Fin 1) q)
      = ∑ t' : Fin (n + 1), ∑ p : Fin 5000, yarr1 V c (ix2 (⟨5000 * t'.val + p.val, by have := t'.isLt; have := p.isLt; omega⟩ : Fin 100000) q) := by
  have hN : cfg1.N = 20 := N_1
  intro n
  induction n with
  | zero =>
    intro hn
    have h0 : 0 < cfg1.N := by omega
    rw [acc1_zero]; unfold stepAt1; rw [dif_pos h0]
    show k1_pay5 (F := Ideal) (iblk1 V c 0 ⟨0, h0⟩) (iblk1 V c 1 ⟨0, h0⟩) (iblk1 V c 3 ⟨0, h0⟩) (iblk1 V c 4 ⟨0, h0⟩) (iblk1 V c 2 ⟨0, h0⟩) (k1_pay2 (F := Ideal)) (ix2 (0 : Fin 1) q) = _
    refine (pay1_sum_apply _ _ _ _ _ _ q).trans ?_
    rw [pay1_zero_sum_apply, zero_add, Fin.sum_univ_one]
    exact Finset.sum_congr rfl fun p _ => hmid1_apply V c ⟨0, h0⟩ p q _ rfl
  | succ n ih =>
    intro hn
    have h1 : n + 1 < cfg1.N := by omega
    rw [acc1_succ]; unfold stepAt1; rw [dif_pos h1]
    show k1_pay5 (F := Ideal) (iblk1 V c 0 ⟨n + 1, h1⟩) (iblk1 V c 1 ⟨n + 1, h1⟩) (iblk1 V c 3 ⟨n + 1, h1⟩) (iblk1 V c 4 ⟨n + 1, h1⟩) (iblk1 V c 2 ⟨n + 1, h1⟩) (acc1 (F := Ideal) V c n).1 (ix2 (0 : Fin 1) q) = _
    refine (pay1_sum_apply _ _ _ _ _ _ q).trans ?_
    rw [ih (by omega), Fin.sum_univ_castSucc (n := n + 1)]
    refine congrArg₂ (· + ·) rfl ?_
    exact Finset.sum_congr rfl fun p _ => hmid1_apply V c ⟨n + 1, h1⟩ p q _ rfl

theorem acc1_sumsq_apply (c : Dev nD) (q : Fin 128) : ∀ (n : ℕ) (hn : n < 20),
    (acc1 (F := Ideal) V c n).2 (ix2 (0 : Fin 1) q)
      = ∑ t' : Fin (n + 1), ∑ p : Fin 5000,
          yarr1 V c (ix2 (⟨5000 * t'.val + p.val, by have := t'.isLt; have := p.isLt; omega⟩ : Fin 100000) q)
            * yarr1 V c (ix2 (⟨5000 * t'.val + p.val, by have := t'.isLt; have := p.isLt; omega⟩ : Fin 100000) q) := by
  have hN : cfg1.N = 20 := N_1
  intro n
  induction n with
  | zero =>
    intro hn
    have h0 : 0 < cfg1.N := by omega
    rw [acc1_zero]; unfold stepAt1; rw [dif_pos h0]
    show k1_pay1 (F := Ideal) (k1_pay3 (F := Ideal)) (k1_pay6 (F := Ideal) (iblk1 V c 0 ⟨0, h0⟩) (iblk1 V c 1 ⟨0, h0⟩) (iblk1 V c 3 ⟨0, h0⟩) (iblk1 V c 4 ⟨0, h0⟩) (iblk1 V c 2 ⟨0, h0⟩)) (ix2 (0 : Fin 1) q) = _
    refine (pay1_sumsq_apply _ _ _ _ _ _ q).trans ?_
    rw [pay1_zero_sumsq_apply, zero_add, Fin.sum_univ_one]
    exact Finset.sum_congr rfl fun p _ => congrArg₂ (· * ·) (hmid1_apply V c ⟨0, h0⟩ p q _ rfl) (hmid1_apply V c ⟨0, h0⟩ p q _ rfl)
  | succ n ih =>
    intro hn
    have h1 : n + 1 < cfg1.N := by omega
    rw [acc1_succ]; unfold stepAt1; rw [dif_pos h1]
    show k1_pay1 (F := Ideal) (acc1 (F := Ideal) V c n).2 (k1_pay6 (F := Ideal) (iblk1 V c 0 ⟨n + 1, h1⟩) (iblk1 V c 1 ⟨n + 1, h1⟩) (iblk1 V c 3 ⟨n + 1, h1⟩) (iblk1 V c 4 ⟨n + 1, h1⟩) (iblk1 V c 2 ⟨n + 1, h1⟩)) (ix2 (0 : Fin 1) q) = _
    refine (pay1_sumsq_apply _ _ _ _ _ _ q).trans ?_
    rw [ih (by omega), Fin.sum_univ_castSucc (n := n + 1)]
    refine congrArg₂ (· + ·) rfl ?_
    exact Finset.sum_congr rfl fun p _ => congrArg₂ (· * ·) (hmid1_apply V c ⟨n + 1, h1⟩ p q _ rfl) (hmid1_apply V c ⟨n + 1, h1⟩ p q _ rfl)

theorem acc1_last_sum (c : Dev nD) (q : Fin 128) :
    (acc1 (F := Ideal) V c 19).1 (ix2 (0 : Fin 1) q) = Cert.Fn.colsum (yarr1 V c) (ix2 (0 : Fin 1) q) :=
  (acc1_sum_apply V c q 19 (by decide)).trans ((sum_rows_tiles fun r => yarr1 V c (ix2 r q)).symm.trans (Cert.Fn.colsum_apply _ q).symm)

theorem acc1_last_sumsq (c : Dev nD) (q : Fin 128) :
    (acc1 (F := Ideal) V c 19).2 (ix2 (0 : Fin 1) q) = Cert.Fn.colsumsq (yarr1 V c) (ix2 (0 : Fin 1) q) :=
  (acc1_sumsq_apply V c q 19 (by decide)).trans ((sum_rows_tiles fun r => yarr1 V c (ix2 r q) * yarr1 V c (ix2 r q)).symm.trans (Cert.Fn.colsumsq_apply _ q).symm)

theorem emb1_6 (t : Fin cfg1.N) (j : S1x128.Idx) : ((cfg1.win 6).blk t).view.emb j = j := by
  obtain ⟨-, -, -, -, -, -, -, -, -, -, -, -, e12, e13, -⟩ := idx_facts1 t
  funext a; apply Fin.ext
  match a with
  | ⟨0, _⟩ => show win1_6.index t (0 : Fin 2) * 1 + 1 * (j 0).val = (j 0).val; rw [e12]; omega
  | ⟨1, _⟩ => show win1_6.index t (1 : Fin 2) * 128 + 1 * (j 1).val = (j 1).val; rw [e13]; omega

theorem emb1_7 (t : Fin cfg1.N) (j : S1x128.Idx) : ((cfg1.win 7).blk t).view.emb j = j := by
  obtain ⟨-, -, -, -, -, -, -, -, -, -, -, -, -, -, e14, e15⟩ := idx_facts1 t
  funext a; apply Fin.ext
  match a with
  | ⟨0, _⟩ => show win1_7.index t (0 : Fin 2) * 1 + 1 * (j 0).val = (j 0).val; rw [e14]; omega
  | ⟨1, _⟩ => show win1_7.index t (1 : Fin 2) * 128 + 1 * (j 1).val = (j 1).val; rw [e15]; omega

theorem flushed1_6_of (c : Dev nD) (t : Fin cfg1.N) (G : Cert.Fn.OD)
    (h : ∀ q : Fin 128, (acc1 (F := Ideal) V c t.val).1 (ix2 (0 : Fin 1) q) = G (ix2 (0 : Fin 1) q)) :
    (dat1 (F := Ideal) V c).flushed 6 t = ((cfg1.win 6).blk t).view.read (Elt Ideal) G := by
  show (cfg1.win 6).cut (grid1.coords t) ((dat1 V c).after 6 t) = _
  rw [after1_6]
  refine funext fun (j : S1x128.Idx) => ?_
  show (acc1 (F := Ideal) V c t.val).1 j = G (((cfg1.win 6).blk t).view.emb j)
  rw [emb1_6 t j]
  obtain ⟨u, q, rfl⟩ : ∃ (u : Fin 1) (q : Fin 128), j = ix2 u q := ⟨j 0, j 1, eq_ix2 j⟩
  obtain rfl : u = 0 := Subsingleton.elim _ _
  exact h q

theorem flushed1_6_eq (c : Dev nD) (t : Fin cfg1.N) (hf : (cfg1.win 6).flush t = true) :
    (dat1 (F := Ideal) V c).flushed 6 t = ((cfg1.win 6).blk t).view.read (Elt Ideal) (Cert.Fn.colsum (yarr1 V c)) := by
  have hN : cfg1.N = 20 := N_1
  have h19 : t.val = 19 := by have := (flush1_6 t).mp hf; have := t.isLt; omega
  refine flushed1_6_of V c t _ fun q => ?_
  rw [h19]; exact acc1_last_sum V c q

theorem flushed1_7_of (c : Dev nD) (t : Fin cfg1.N) (G : Cert.Fn.OD)
    (h : ∀ q : Fin 128, (acc1 (F := Ideal) V c t.val).2 (ix2 (0 : Fin 1) q) = G (ix2 (0 : Fin 1) q)) :
    (dat1 (F := Ideal) V c).flushed 7 t = ((cfg1.win 7).blk t).view.read (Elt Ideal) G := by
  show (cfg1.win 7).cut (grid1.coords t) ((dat1 V c).after 7 t) = _
  rw [after1_7]
  refine funext fun (j : S1x128.Idx) => ?_
  show (acc1 (F := Ideal) V c t.val).2 j = G (((cfg1.win 7).blk t).view.emb j)
  rw [emb1_7 t j]
  obtain ⟨u, q, rfl⟩ : ∃ (u : Fin 1) (q : Fin 128), j = ix2 u q := ⟨j 0, j 1, eq_ix2 j⟩
  obtain rfl : u = 0 := Subsingleton.elim _ _
  exact h q

theorem flushed1_7_eq (c : Dev nD) (t : Fin cfg1.N) (hf : (cfg1.win 7).flush t = true) :
    (dat1 (F := Ideal) V c).flushed 7 t = ((cfg1.win 7).blk t).view.read (Elt Ideal) (Cert.Fn.colsumsq (yarr1 V c)) := by
  have hN : cfg1.N = 20 := N_1
  have h19 : t.val = 19 := by have := (flush1_7 t).mp hf; have := t.isLt; omega
  refine flushed1_7_of V c t _ fun q => ?_
  rw [h19]; exact acc1_last_sumsq V c q

theorem row_covered1_6 (i : S1x128.Idx) : ∃ t : Fin cfg1.N, (cfg1.win 6).flush t = true ∧ i ∈ ((cfg1.win 6).blk t).view.set := by
  have hN : cfg1.N = 20 := N_1
  obtain ⟨t, ht⟩ : ∃ t : Fin cfg1.N, t.val = 19 := ⟨⟨19, by omega⟩, rfl⟩
  refine ⟨t, (flush1_6 t).mpr (by rw [ht]), ?_⟩
  have : i = ((cfg1.win 6).blk t).view.emb i := (emb1_6 t i).symm
  rw [this]; exact View.emb_mem_set _ _

theorem row_covered1_7 (i : S1x128.Idx) : ∃ t : Fin cfg1.N, (cfg1.win 7).flush t = true ∧ i ∈ ((cfg1.win 7).blk t).view.set := by
  have hN : cfg1.N = 20 := N_1
  obtain ⟨t, ht⟩ : ∃ t : Fin cfg1.N, t.val = 19 := ⟨⟨19, by omega⟩, rfl⟩
  refine ⟨t, (flush1_7 t).mpr (by rw [ht]), ?_⟩
  have : i = ((cfg1.win 7).blk t).view.emb i := (emb1_7 t i).symm
  rw [this]; exact View.emb_mem_set _ _

theorem val1_sum (c : Dev nD) :
    (dat1 (F := Ideal) V c).arrAt 6 cfg1.N
      = Cert.Fn.colsum (Cert.Fn.linG (V c (Pipeline.arrRef spec1 0)) (V c (Pipeline.arrRef spec1 1)) (V c (Pipeline.arrRef spec1 2)) (V c (Pipeline.arrRef spec1 3)) (V c (Pipeline.arrRef spec1 4))) :=
  (dat1 V c).arrAt_eq_of_cover 6 (Cert.Fn.colsum (yarr1 V c)) (flushed1_6_eq V c) row_covered1_6

theorem val1_sumsq (c : Dev nD) :
    (dat1 (F := Ideal) V c).arrAt 7 cfg1.N
      = Cert.Fn.colsumsq (Cert.Fn.linG (V c (Pipeline.arrRef spec1 0)) (V c (Pipeline.arrRef spec1 1)) (V c (Pipeline.arrRef spec1 2)) (V c (Pipeline.arrRef spec1 3)) (V c (Pipeline.arrRef spec1 4))) :=
  (dat1 V c).arrAt_eq_of_cover 7 (Cert.Fn.colsumsq (yarr1 V c)) (flushed1_7_eq V c) row_covered1_7

end Cert.KernelIdeal.Hand

end
-- ==== Proof.KI.Val2.lean ====
import proofs.«164939_j7129645711575_2_alg».proof.Proof.KI.R2
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem val2_hz : (![0, 0] : Fin 2 → Nat) = fun _ => 0 := funext fun a => by fin_cases a <;> rfl

theorem val2_pay (x0 x1 : Vec Ideal S5000x128 .f32) (x2 x3 x4 x5 : Vec Ideal S1x128 .f32) (p : Fin 5000) (q : Fin 128) :
    k2_pay1 x0 x2 x3 x4 x5 x1 (ix2 p q)
      = x1 (ix2 p q) + max (((x0 (ix2 p q) - x2 (ix2 0 q))
          * Ideal.rsqrt (x3 (ix2 0 q) + Ideal.ofBits .f32 0x3727C5AC#32)) * x4 (ix2 0 q) + x5 (ix2 0 q)) 0 := by
  unfold k2_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply]
  show x1 (ix2 p q) + max (((x0 (ix2 p q) - x2 (ix2 0 q))
      * Ideal.rsqrt (x3 (ix2 0 q) + Ideal.ofBits .f32 0x3727C5AC#32)) * x4 (ix2 0 q) + x5 (ix2 0 q))
        (Ideal.ofBits .f32 0x00000000#32) = _
  rw [Ideal.ofBits_zero_f32]

theorem val2_point (x0 x1 : Vec Ideal S5000x128 .f32) (x2 x3 x4 x5 : Vec Ideal S1x128 .f32)
    (a0 a1 : Cert.Fn.ND) (a2 a3 a4 a5 : Cert.Fn.OD) (p : Fin 5000) (q : Fin 128) (r : Fin 100000)
    (h0 : x0 (ix2 p q) = a0 (ix2 r q)) (h1 : x1 (ix2 p q) = a1 (ix2 r q))
    (h2 : x2 (ix2 0 q) = a2 (ix2 0 q)) (h3 : x3 (ix2 0 q) = a3 (ix2 0 q))
    (h4 : x4 (ix2 0 q) = a4 (ix2 0 q)) (h5 : x5 (ix2 0 q) = a5 (ix2 0 q)) :
    k2_pay1 x0 x2 x3 x4 x5 x1 (ix2 p q) = Cert.Fn.bnG a0 a1 a2 a3 a4 a5 (ix2 r q) := by
  rw [val2_pay, Cert.Fn.bnG_apply, h0, h1, h2, h3, h4, h5]

theorem val2_npts : ∀ t : Fin cfg2.N, t.val < 20 := (by decide +kernel : ∀ t : Fin grid2.N, _)

theorem val2_idx0 : ∀ t : Fin cfg2.N, (cfg2.win 0).index t (0 : Fin 2) = t.val ∧ (cfg2.win 0).index t (1 : Fin 2) = 0 :=
  (by decide +kernel : ∀ t : Fin grid2.N, _)

theorem val2_idx1 : ∀ t : Fin cfg2.N, (cfg2.win 1).index t (0 : Fin 2) = t.val ∧ (cfg2.win 1).index t (1 : Fin 2) = 0 :=
  (by decide +kernel : ∀ t : Fin grid2.N, _)

theorem val2_idx2 : ∀ t : Fin cfg2.N, (cfg2.win 2).index t (0 : Fin 2) = 0 ∧ (cfg2.win 2).index t (1 : Fin 2) = 0 :=
  (by decide +kernel : ∀ t : Fin grid2.N, _)

theorem val2_idx3 : ∀ t : Fin cfg2.N, (cfg2.win 3).index t (0 : Fin 2) = 0 ∧ (cfg2.win 3).index t (1 : Fin 2) = 0 :=
  (by decide +kernel : ∀ t : Fin grid2.N, _)

theorem val2_idx4 : ∀ t : Fin cfg2.N, (cfg2.win 4).index t (0 : Fin 2) = 0 ∧ (cfg2.win 4).index t (1 : Fin 2) = 0 :=
  (by decide +kernel : ∀ t : Fin grid2.N, _)

theorem val2_idx5 : ∀ t : Fin cfg2.N, (cfg2.win 5).index t (0 : Fin 2) = 0 ∧ (cfg2.win 5).index t (1 : Fin 2) = 0 :=
  (by decide +kernel : ∀ t : Fin grid2.N, _)

theorem val2_idx6 : ∀ t : Fin cfg2.N, (cfg2.win 6).index t (0 : Fin 2) = t.val ∧ (cfg2.win 6).index t (1 : Fin 2) = 0 :=
  (by decide +kernel : ∀ t : Fin grid2.N, _)

theorem val2_in0 (c : Dev nD) (t : Fin cfg2.N) (p : Fin 5000) (q : Fin 128) (h : t.val * 5000 + p.val < 100000) :
    iblk2 V c 0 t (ix2 p q) = V c (Pipeline.arrRef spec2 0) (ix2 (⟨t.val * 5000 + p.val, h⟩ : Fin 100000) q) := by
  obtain ⟨e0, e1⟩ := val2_idx0 t
  show V c (Pipeline.arrRef spec2 0) (((cfg2.win 0).blk t).view.emb (ix2 p q)) = _
  refine congrArg (V c (Pipeline.arrRef spec2 0)) (funext fun a => Fin.ext ?_)
  match a with
  | ⟨0, _⟩ => show (cfg2.win 0).index t (0 : Fin 2) * 5000 + 1 * p.val = t.val * 5000 + p.val; rw [e0]; omega
  | ⟨1, _⟩ => show (cfg2.win 0).index t (1 : Fin 2) * 128 + 1 * q.val = q.val; rw [e1]; omega

theorem val2_in1 (c : Dev nD) (t : Fin cfg2.N) (p : Fin 5000) (q : Fin 128) (h : t.val * 5000 + p.val < 100000) :
    iblk2 V c 1 t (ix2 p q) = V c (Pipeline.arrRef spec2 1) (ix2 (⟨t.val * 5000 + p.val, h⟩ : Fin 100000) q) := by
  obtain ⟨e0, e1⟩ := val2_idx1 t
  show V c (Pipeline.arrRef spec2 1) (((cfg2.win 1).blk t).view.emb (ix2 p q)) = _
  refine congrArg (V c (Pipeline.arrRef spec2 1)) (funext fun a => Fin.ext ?_)
  match a with
  | ⟨0, _⟩ => show (cfg2.win 1).index t (0 : Fin 2) * 5000 + 1 * p.val = t.val * 5000 + p.val; rw [e0]; omega
  | ⟨1, _⟩ => show (cfg2.win 1).index t (1 : Fin 2) * 128 + 1 * q.val = q.val; rw [e1]; omega

theorem val2_in2 (c : Dev nD) (t : Fin cfg2.N) (q : Fin 128) :
    iblk2 V c 2 t (ix2 (0 : Fin 1) q) = V c (Pipeline.arrRef spec2 2) (ix2 (0 : Fin 1) q) := by
  obtain ⟨e0, e1⟩ := val2_idx2 t
  show V c (Pipeline.arrRef spec2 2) (((cfg2.win 2).blk t).view.emb (ix2 (0 : Fin 1) q)) = _
  refine congrArg (V c (Pipeline.arrRef spec2 2)) (funext fun a => Fin.ext ?_)
  match a with
  | ⟨0, _⟩ => show (cfg2.win 2).index t (0 : Fin 2) * 1 + 1 * 0 = 0; rw [e0]
  | ⟨1, _⟩ => show (cfg2.win 2).index t (1 : Fin 2) * 128 + 1 * q.val = q.val; rw [e1]; omega

theorem val2_in3 (c : Dev nD) (t : Fin cfg2.N) (q : Fin 128) :
    iblk2 V c 3 t (ix2 (0 : Fin 1) q) = V c (Pipeline.arrRef spec2 3) (ix2 (0 : Fin 1) q) := by
  obtain ⟨e0, e1⟩ := val2_idx3 t
  show V c (Pipeline.arrRef spec2 3) (((cfg2.win 3).blk t).view.emb (ix2 (0 : Fin 1) q)) = _
  refine congrArg (V c (Pipeline.arrRef spec2 3)) (funext fun a => Fin.ext ?_)
  match a with
  | ⟨0, _⟩ => show (cfg2.win 3).index t (0 : Fin 2) * 1 + 1 * 0 = 0; rw [e0]
  | ⟨1, _⟩ => show (cfg2.win 3).index t (1 : Fin 2) * 128 + 1 * q.val = q.val; rw [e1]; omega

theorem val2_in4 (c : Dev nD) (t : Fin cfg2.N) (q : Fin 128) :
    iblk2 V c 4 t (ix2 (0 : Fin 1) q) = V c (Pipeline.arrRef spec2 4) (ix2 (0 : Fin 1) q) := by
  obtain ⟨e0, e1⟩ := val2_idx4 t
  show V c (Pipeline.arrRef spec2 4) (((cfg2.win 4).blk t).view.emb (ix2 (0 : Fin 1) q)) = _
  refine congrArg (V c (Pipeline.arrRef spec2 4)) (funext fun a => Fin.ext ?_)
  match a with
  | ⟨0, _⟩ => show (cfg2.win 4).index t (0 : Fin 2) * 1 + 1 * 0 = 0; rw [e0]
  | ⟨1, _⟩ => show (cfg2.win 4).index t (1 : Fin 2) * 128 + 1 * q.val = q.val; rw [e1]; omega

theorem val2_in5 (c : Dev nD) (t : Fin cfg2.N) (q : Fin 128) :
    iblk2 V c 5 t (ix2 (0 : Fin 1) q) = V c (Pipeline.arrRef spec2 5) (ix2 (0 : Fin 1) q) := by
  obtain ⟨e0, e1⟩ := val2_idx5 t
  show V c (Pipeline.arrRef spec2 5) (((cfg2.win 5).blk t).view.emb (ix2 (0 : Fin 1) q)) = _
  refine congrArg (V c (Pipeline.arrRef spec2 5)) (funext fun a => Fin.ext ?_)
  match a with
  | ⟨0, _⟩ => show (cfg2.win 5).index t (0 : Fin 2) * 1 + 1 * 0 = 0; rw [e0]
  | ⟨1, _⟩ => show (cfg2.win 5).index t (1 : Fin 2) * 128 + 1 * q.val = q.val; rw [e1]; omega

theorem val2_out (t : Fin cfg2.N) (p : Fin 5000) (q : Fin 128) (h : t.val * 5000 + p.val < 100000) :
    ((cfg2.win 6).blk t).view.emb (ix2 p q) = ix2 (⟨t.val * 5000 + p.val, h⟩ : Fin 100000) q := by
  obtain ⟨e0, e1⟩ := val2_idx6 t
  funext a; apply Fin.ext
  match a with
  | ⟨0, _⟩ => show (cfg2.win 6).index t (0 : Fin 2) * 5000 + 1 * p.val = t.val * 5000 + p.val; rw [e0]; omega
  | ⟨1, _⟩ => show (cfg2.win 6).index t (1 : Fin 2) * 128 + 1 * q.val = q.val; rw [e1]; omega

theorem val2_stored (c : Dev nD) (t : Fin cfg2.N) :
    (dat2 V c).flushed 6 t
      = k2_pay1 (iblk2 V c 0 t) (iblk2 V c 2 t) (iblk2 V c 3 t) (iblk2 V c 4 t) (iblk2 V c 5 t) (iblk2 V c 1 t) := by
  show (cfg2.win 6).cut (grid2.coords t) ((dat2 V c).after 6 t) = _
  rw [after2_6]
  unfold out2_6
  rw [View.canon_unit_zero val2_hz]
  simp only [View.ld_unit_zero (S := S5000x128) val2_hz, View.ld_unit_zero (S := S1x128) val2_hz]
  rfl

theorem val2_flushed (c : Dev nD) (t : Fin cfg2.N) :
    (dat2 V c).flushed 6 t = ((cfg2.win 6).blk t).view.read (Elt Ideal)
      (Cert.Fn.bnG (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  rw [val2_stored]
  funext j
  obtain ⟨p, q, rfl⟩ : ∃ (p : Fin 5000) (q : Fin 128), j = ix2 p q := ⟨j 0, j 1, eq_ix2 j⟩
  have h : t.val * 5000 + p.val < 100000 := by have := val2_npts t; have := p.isLt; omega
  refine (val2_point _ _ _ _ _ _ _ _ _ _ _ _ p q ⟨t.val * 5000 + p.val, h⟩ (val2_in0 V c t p q h) (val2_in1 V c t p q h)
    (val2_in2 V c t q) (val2_in3 V c t q) (val2_in4 V c t q) (val2_in5 V c t q)).trans ?_
  exact congrArg (Cert.Fn.bnG _ _ _ _ _ _) (val2_out t p q h).symm

theorem val2_mem_blk (t : Fin cfg2.N) (i : S100000x128.Idx) :
    i ∈ ((cfg2.win 6).blk t).view.set ↔ ∀ a : Fin 2, (cfg2.win 6).index t a * S5000x128.size a ≤ (i a).val
      ∧ (i a).val < (cfg2.win 6).index t a * S5000x128.size a + S5000x128.size a := by
  show i ∈ ((View.whole (Pipeline.arrRef spec2 6)).slice ((cfg2.win 6).rect t)).set ↔ _
  rw [View.set_slice_whole, Rect.mem_set_unit]
  exact Iff.rfl

theorem val2_cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e60, e61⟩ := val2_idx6 t
  refine ⟨t, flush2_6 t, ?_⟩
  rw [val2_mem_blk]
  intro a
  match a with
  | ⟨0, _⟩ =>
    show (cfg2.win 6).index t (0 : Fin 2) * 5000 ≤ (i 0).val ∧ (i 0).val < (cfg2.win 6).index t (0 : Fin 2) * 5000 + 5000
    rw [e60, ht]; omega
  | ⟨1, _⟩ =>
    show (cfg2.win 6).index t (1 : Fin 2) * 128 ≤ (i 1).val ∧ (i 1).val < (cfg2.win 6).index t (1 : Fin 2) * 128 + 128
    rw [e61]; omega

theorem val2 (c : Dev nD) :
    (dat2 (F := Ideal) V c).arrAt 6 cfg2.N
      = Cert.Fn.bnG (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 V c).arrAt_eq_of_cover 6 _ (fun t _ => val2_flushed V c t) val2_cover

end Cert.KernelIdeal.Hand

end
-- ==== Proof.KI.Val3.lean ====
import proofs.«164939_j7129645711575_2_alg».proof.Proof.KI.R3
import proofs.«164939_j7129645711575_2_alg».proof.Proof.KI.Val0
import proofs.«164939_j7129645711575_2_alg».proof.Proof.KI.VLib
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem pay3_hmid_apply (x0 : FVec Ideal S5000x128 .f32) (x1 : FVec Ideal S5000x1 .f32) (x3 : FVec Ideal S128x128 .f32)
    (x4 : FVec Ideal S1x128 .f32) (x2 : FVec Ideal S5000x1 .f32) (p : Fin 5000) (q : Fin 128) :
    k3_pay4 (F := Ideal) x0 x1 x3 x4 x2 (ix2 p q)
      = ((∑ k : Fin 128, (x0 (ix2 p k) * x1 (ix2 p (0 : Fin 1))) * x3 (ix2 k q)) + x4 (ix2 (0 : Fin 1) q)) * x2 (ix2 p (0 : Fin 1)) := by
  unfold k3_pay4
  refine (mulf_apply _ _ _).trans ?_
  refine congrArg₂ (· * ·) ?_ ?_
  · refine (addf_apply _ _ _).trans ?_
    refine congrArg₂ (· + ·) ?_ ?_
    · refine (matmul_embed_apply _ _ p q).trans ?_
      refine Finset.sum_congr rfl fun k _ => ?_
      refine congrArg₂ (· * ·) ?_ ?_
      · show (shapeCast S5000x128 x0 shapeCasts_S5000x128_S5000x128) (ix2 p k)
            * (broadcastTo S5000x128 (shapeCast S5000x1 x1 shapeCasts_S5000x1_S5000x1) broadcasts_S5000x1_S5000x128) (ix2 p k) = _
        refine congrArg₂ (· * ·) (congrFun (shapeCast_self x0 shapeCasts_S5000x128_S5000x128) _) ?_
        exact (broadcastTo_a1_ab_apply _ broadcasts_S5000x1_S5000x128 p k).trans (congrFun (shapeCast_self x1 shapeCasts_S5000x1_S5000x1) _)
      · show (shapeCast S128x128 x3 shapeCasts_S128x128_S128x128) (ix2 k q) = _
        exact congrFun (shapeCast_self x3 shapeCasts_S128x128_S128x128) _
    · exact bias_embed_apply x4 p q
  · exact broadcastTo_a1_ab_apply x2 broadcasts_S5000x1_S5000x128 p q

theorem pay3_sum_apply (x0 : FVec Ideal S5000x128 .f32) (x1 : FVec Ideal S5000x1 .f32) (x3 : FVec Ideal S128x128 .f32)
    (x4 : FVec Ideal S1x128 .f32) (x2 : FVec Ideal S5000x1 .f32) (s : FVec Ideal S1x128 .f32) (q : Fin 128) :
    k3_pay5 (F := Ideal) x0 x1 x3 x4 x2 s (ix2 (0 : Fin 1) q)
      = s (ix2 (0 : Fin 1) q) + ∑ p : Fin 5000, k3_pay4 (F := Ideal) x0 x1 x3 x4 x2 (ix2 p q) := by
  unfold k3_pay5
  refine (congrFun (shapeCast_self _ shapeCasts_S1x128_S1x128) _).trans ?_
  refine (addf_apply _ _ _).trans ?_
  exact congrArg (s (ix2 (0 : Fin 1) q) + ·) (tile_colsum_row_apply _ _ _ q)

theorem pay3_sumsq_apply (x0 : FVec Ideal S5000x128 .f32) (x1 : FVec Ideal S5000x1 .f32) (x3 : FVec Ideal S128x128 .f32)
    (x4 : FVec Ideal S1x128 .f32) (x2 : FVec Ideal S5000x1 .f32) (s : FVec Ideal S1x128 .f32) (q : Fin 128) :
    k3_pay1 (F := Ideal) s (k3_pay6 (F := Ideal) x0 x1 x3 x4 x2) (ix2 (0 : Fin 1) q)
      = s (ix2 (0 : Fin 1) q) + ∑ p : Fin 5000, k3_pay4 (F := Ideal) x0 x1 x3 x4 x2 (ix2 p q) * k3_pay4 (F := Ideal) x0 x1 x3 x4 x2 (ix2 p q) := by
  unfold k3_pay1 k3_pay6
  refine (congrFun (shapeCast_self _ shapeCasts_S1x128_S1x128) _).trans ?_
  refine (addf_apply _ _ _).trans ?_
  exact congrArg (s (ix2 (0 : Fin 1) q) + ·) (tile_colsum_row_apply _ _ _ q)

theorem pay3_zero_sum_apply (j : S1x128.Idx) : k3_pay2 (F := Ideal) j = 0 := by
  unfold k3_pay2
  refine (congrFun (shapeCast_self _ shapeCasts_S1x128_S1x128) _).trans ?_
  exact Ideal.ofBits_zero_f32

theorem pay3_zero_sumsq_apply (j : S1x128.Idx) : k3_pay3 (F := Ideal) j = 0 := by
  unfold k3_pay3
  refine (congrFun (shapeCast_self _ shapeCasts_S1x128_S1x128) _).trans ?_
  exact Ideal.ofBits_zero_f32

variable (V : (c : Dev nD) → (b : Ref sig .tc) → Buf (Elt Ideal) ((c : Thread nD τ).loc b))

abbrev aarr3 (c : Dev nD) : Vec Ideal S100000x128 .f32 := V c (Pipeline.arrRef spec3 0)

abbrev iarr3 (c : Dev nD) : Vec Ideal S100000x1 .f32 := V c (Pipeline.arrRef spec3 1)

abbrev garr3 (c : Dev nD) : Vec Ideal S100000x1 .f32 := V c (Pipeline.arrRef spec3 2)

abbrev warr3 (c : Dev nD) : Vec Ideal S128x128 .f32 := V c (Pipeline.arrRef spec3 3)

abbrev barr3 (c : Dev nD) : Vec Ideal S1x128 .f32 := V c (Pipeline.arrRef spec3 4)

abbrev yarr3 (c : Dev nD) : Cert.Fn.ND := Cert.Fn.linG (aarr3 V c) (iarr3 V c) (garr3 V c) (warr3 V c) (barr3 V c)

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

theorem ablk3_apply (c : Dev nD) (t : Fin cfg3.N) (p : Fin 5000) (k : Fin 128) (r : Fin 100000) (hr : r.val = 5000 * t.val + p.val) :
    (iblk3 V c 0 t : Vec Ideal S5000x128 .f32) (ix2 p k) = aarr3 V c (ix2 r k) := by
  obtain ⟨e0, e1, -⟩ := idx_facts3 t
  show aarr3 V c (((cfg3.win 0).blk t).view.emb (ix2 p k)) = aarr3 V c (ix2 r k)
  refine congrArg (aarr3 V c) ?_
  funext a; apply Fin.ext
  match a with
  | ⟨0, _⟩ => show win3_0.index t (0 : Fin 2) * 5000 + 1 * p.val = r.val; rw [e0, hr]; omega
  | ⟨1, _⟩ => show win3_0.index t (1 : Fin 2) * 128 + 1 * k.val = k.val; rw [e1]; omega

theorem iblk3_1_apply (c : Dev nD) (t : Fin cfg3.N) (p : Fin 5000) (r : Fin 100000) (hr : r.val = 5000 * t.val + p.val) :
    (iblk3 V c 1 t : Vec Ideal S5000x1 .f32) (ix2 p (0 : Fin 1)) = iarr3 V c (ix2 r (0 : Fin 1)) := by
  obtain ⟨-, -, e2, e3, -⟩ := idx_facts3 t
  show iarr3 V c (((cfg3.win 1).blk t).view.emb (ix2 p (0 : Fin 1))) = iarr3 V c (ix2 r (0 : Fin 1))
  refine congrArg (iarr3 V c) ?_
  funext a; apply Fin.ext
  match a with
  | ⟨0, _⟩ => show win3_1.index t (0 : Fin 2) * 5000 + 1 * p.val = r.val; rw [e2, hr]; omega
  | ⟨1, _⟩ => show win3_1.index t (1 : Fin 2) * 1 + 1 * (0 : Fin 1).val = (0 : Fin 1).val; rw [e3]; rfl

theorem iblk3_2_apply (c : Dev nD) (t : Fin cfg3.N) (p : Fin 5000) (r : Fin 100000) (hr : r.val = 5000 * t.val + p.val) :
    (iblk3 V c 2 t : Vec Ideal S5000x1 .f32) (ix2 p (0 : Fin 1)) = garr3 V c (ix2 r (0 : Fin 1)) := by
  obtain ⟨-, -, -, -, e4, e5, -⟩ := idx_facts3 t
  show garr3 V c (((cfg3.win 2).blk t).view.emb (ix2 p (0 : Fin 1))) = garr3 V c (ix2 r (0 : Fin 1))
  refine congrArg (garr3 V c) ?_
  funext a; apply Fin.ext
  match a with
  | ⟨0, _⟩ => show win3_2.index t (0 : Fin 2) * 5000 + 1 * p.val = r.val; rw [e4, hr]; omega
  | ⟨1, _⟩ => show win3_2.index t (1 : Fin 2) * 1 + 1 * (0 : Fin 1).val = (0 : Fin 1).val; rw [e5]; rfl

theorem iblk3_3_apply (c : Dev nD) (t : Fin cfg3.N) (k : Fin 128) (q : Fin 128) :
    (iblk3 V c 3 t : Vec Ideal S128x128 .f32) (ix2 k q) = warr3 V c (ix2 k q) := by
  obtain ⟨-, -, -, -, -, -, e6, e7, -⟩ := idx_facts3 t
  show warr3 V c (((cfg3.win 3).blk t).view.emb (ix2 k q)) = warr3 V c (ix2 k q)
  refine congrArg (warr3 V c) ?_
  funext a; apply Fin.ext
  match a with
  | ⟨0, _⟩ => show win3_3.index t (0 : Fin 2) * 128 + 1 * k.val = k.val; rw [e6]; omega
  | ⟨1, _⟩ => show win3_3.index t (1 : Fin 2) * 128 + 1 * q.val = q.val; rw [e7]; omega

theorem iblk3_4_apply (c : Dev nD) (t : Fin cfg3.N) (q : Fin 128) :
    (iblk3 V c 4 t : Vec Ideal S1x128 .f32) (ix2 (0 : Fin 1) q) = barr3 V c (ix2 (0 : Fin 1) q) := by
  obtain ⟨-, -, -, -, -, -, -, -, e8, e9, -⟩ := idx_facts3 t
  show barr3 V c (((cfg3.win 4).blk t).view.emb (ix2 (0 : Fin 1) q)) = barr3 V c (ix2 (0 : Fin 1) q)
  refine congrArg (barr3 V c) ?_
  funext a; apply Fin.ext
  match a with
  | ⟨0, _⟩ => show win3_4.index t (0 : Fin 2) * 1 + 1 * (0 : Fin 1).val = (0 : Fin 1).val; rw [e8]; rfl
  | ⟨1, _⟩ => show win3_4.index t (1 : Fin 2) * 128 + 1 * q.val = q.val; rw [e9]; omega

theorem hmid3_apply (c : Dev nD) (t : Fin cfg3.N) (p : Fin 5000) (q : Fin 128) (r : Fin 100000) (hr : r.val = 5000 * t.val + p.val) :
    hmid3 (F := Ideal) V c t (ix2 p q) = yarr3 V c (ix2 r q) := by
  unfold hmid3 hmidOf3
  refine (pay3_hmid_apply _ _ _ _ _ p q).trans ?_
  refine Eq.trans ?_ (Cert.Fn.linG_apply _ _ _ _ _ r q).symm
  refine congrArg₂ (· * ·) (congrArg₂ (· + ·) (Finset.sum_congr rfl fun k _ => congrArg₂ (· * ·) (congrArg₂ (· * ·) ?_ ?_) ?_) ?_) ?_
  · exact ablk3_apply V c t p k r hr
  · exact iblk3_1_apply V c t p r hr
  · exact iblk3_3_apply V c t k q
  · exact iblk3_4_apply V c t q
  · exact iblk3_2_apply V c t p r hr

theorem flushed3_5_eq (c : Dev nD) (t : Fin cfg3.N) :
    (dat3 (F := Ideal) V c).flushed 5 t = ((cfg3.win 5).blk t).view.read (Elt Ideal) (yarr3 V c) := by
  show (cfg3.win 5).cut (grid3.coords t) ((dat3 V c).after 5 t) = _
  rw [after3_5]
  obtain ⟨-, -, -, -, -, -, -, -, -, -, e10, e11, -⟩ := idx_facts3 t
  refine funext fun (j : S5000x128.Idx) => ?_
  obtain ⟨p, q, rfl⟩ : ∃ (p : Fin 5000) (q : Fin 128), j = ix2 p q := ⟨j 0, j 1, eq_ix2 j⟩
  show hmid3 (F := Ideal) V c t (ix2 p q) = yarr3 V c (((cfg3.win 5).blk t).view.emb (ix2 p q))
  have hN : cfg3.N = 20 := N_3
  have hr : 5000 * t.val + p.val < 100000 := by have := t.isLt; have := p.isLt; omega
  have hemb : ((cfg3.win 5).blk t).view.emb (ix2 p q) = ix2 (⟨5000 * t.val + p.val, hr⟩ : Fin 100000) q := by
    funext a; apply Fin.ext
    match a with
    | ⟨0, _⟩ => show win3_5.index t (0 : Fin 2) * 5000 + 1 * p.val = 5000 * t.val + p.val; rw [e10]; omega
    | ⟨1, _⟩ => show win3_5.index t (1 : Fin 2) * 128 + 1 * q.val = q.val; rw [e11]; omega
  exact (hmid3_apply V c t p q ⟨5000 * t.val + p.val, hr⟩ rfl).trans (congrArg (yarr3 V c) hemb).symm

theorem rows_covered3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, -, -, -, -, -, -, e10, e11, -⟩ := idx_facts3 t
  refine ⟨t, flush3_5 t, ?_⟩
  have hy : (i 0).val % 5000 < 5000 := Nat.mod_lt _ (by decide)
  have hi : i = ((cfg3.win 5).blk t).view.emb (ix2 (⟨(i 0).val % 5000, hy⟩ : Fin 5000) (⟨(i 1).val, hi1⟩ : Fin 128)) := by
    funext a; apply Fin.ext
    match a with
    | ⟨0, _⟩ => show (i 0).val = win3_5.index t (0 : Fin 2) * 5000 + 1 * ((i 0).val % 5000); rw [e10, ht]; omega
    | ⟨1, _⟩ => show (i 1).val = win3_5.index t (1 : Fin 2) * 128 + 1 * (i 1).val; rw [e11]; omega
  rw [hi]; exact View.emb_mem_set _ _

theorem val3_hmid (c : Dev nD) :
    (dat3 (F := Ideal) V c).arrAt 5 cfg3.N
      = Cert.Fn.linG (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 (yarr3 V c) (fun t _ => flushed3_5_eq V c t) rows_covered3

theorem acc3_sum_apply (c : Dev nD) (q : Fin 128) : ∀ (n : ℕ) (hn : n < 20),
    (acc3 (F := Ideal) V c n).1 (ix2 (0 : Fin 1) q)
      = ∑ t' : Fin (n + 1), ∑ p : Fin 5000, yarr3 V c (ix2 (⟨5000 * t'.val + p.val, by have := t'.isLt; have := p.isLt; omega⟩ : Fin 100000) q) := by
  have hN : cfg3.N = 20 := N_3
  intro n
  induction n with
  | zero =>
    intro hn
    have h0 : 0 < cfg3.N := by omega
    rw [acc3_zero]; unfold stepAt3; rw [dif_pos h0]
    show k3_pay5 (F := Ideal) (iblk3 V c 0 ⟨0, h0⟩) (iblk3 V c 1 ⟨0, h0⟩) (iblk3 V c 3 ⟨0, h0⟩) (iblk3 V c 4 ⟨0, h0⟩) (iblk3 V c 2 ⟨0, h0⟩) (k3_pay2 (F := Ideal)) (ix2 (0 : Fin 1) q) = _
    refine (pay3_sum_apply _ _ _ _ _ _ q).trans ?_
    rw [pay3_zero_sum_apply, zero_add, Fin.sum_univ_one]
    exact Finset.sum_congr rfl fun p _ => hmid3_apply V c ⟨0, h0⟩ p q _ rfl
  | succ n ih =>
    intro hn
    have h1 : n + 1 < cfg3.N := by omega
    rw [acc3_succ]; unfold stepAt3; rw [dif_pos h1]
    show k3_pay5 (F := Ideal) (iblk3 V c 0 ⟨n + 1, h1⟩) (iblk3 V c 1 ⟨n + 1, h1⟩) (iblk3 V c 3 ⟨n + 1, h1⟩) (iblk3 V c 4 ⟨n + 1, h1⟩) (iblk3 V c 2 ⟨n + 1, h1⟩) (acc3 (F := Ideal) V c n).1 (ix2 (0 : Fin 1) q) = _
    refine (pay3_sum_apply _ _ _ _ _ _ q).trans ?_
    rw [ih (by omega), Fin.sum_univ_castSucc (n := n + 1)]
    refine congrArg₂ (· + ·) rfl ?_
    exact Finset.sum_congr rfl fun p _ => hmid3_apply V c ⟨n + 1, h1⟩ p q _ rfl

theorem acc3_sumsq_apply (c : Dev nD) (q : Fin 128) : ∀ (n : ℕ) (hn : n < 20),
    (acc3 (F := Ideal) V c n).2 (ix2 (0 : Fin 1) q)
      = ∑ t' : Fin (n + 1), ∑ p : Fin 5000,
          yarr3 V c (ix2 (⟨5000 * t'.val + p.val, by have := t'.isLt; have := p.isLt; omega⟩ : Fin 100000) q)
            * yarr3 V c (ix2 (⟨5000 * t'.val + p.val, by have := t'.isLt; have := p.isLt; omega⟩ : Fin 100000) q) := by
  have hN : cfg3.N = 20 := N_3
  intro n
  induction n with
  | zero =>
    intro hn
    have h0 : 0 < cfg3.N := by omega
    rw [acc3_zero]; unfold stepAt3; rw [dif_pos h0]
    show k3_pay1 (F := Ideal) (k3_pay3 (F := Ideal)) (k3_pay6 (F := Ideal) (iblk3 V c 0 ⟨0, h0⟩) (iblk3 V c 1 ⟨0, h0⟩) (iblk3 V c 3 ⟨0, h0⟩) (iblk3 V c 4 ⟨0, h0⟩) (iblk3 V c 2 ⟨0, h0⟩)) (ix2 (0 : Fin 1) q) = _
    refine (pay3_sumsq_apply _ _ _ _ _ _ q).trans ?_
    rw [pay3_zero_sumsq_apply, zero_add, Fin.sum_univ_one]
    exact Finset.sum_congr rfl fun p _ => congrArg₂ (· * ·) (hmid3_apply V c ⟨0, h0⟩ p q _ rfl) (hmid3_apply V c ⟨0, h0⟩ p q _ rfl)
  | succ n ih =>
    intro hn
    have h1 : n + 1 < cfg3.N := by omega
    rw [acc3_succ]; unfold stepAt3; rw [dif_pos h1]
    show k3_pay1 (F := Ideal) (acc3 (F := Ideal) V c n).2 (k3_pay6 (F := Ideal) (iblk3 V c 0 ⟨n + 1, h1⟩) (iblk3 V c 1 ⟨n + 1, h1⟩) (iblk3 V c 3 ⟨n + 1, h1⟩) (iblk3 V c 4 ⟨n + 1, h1⟩) (iblk3 V c 2 ⟨n + 1, h1⟩)) (ix2 (0 : Fin 1) q) = _
    refine (pay3_sumsq_apply _ _ _ _ _ _ q).trans ?_
    rw [ih (by omega), Fin.sum_univ_castSucc (n := n + 1)]
    refine congrArg₂ (· + ·) rfl ?_
    exact Finset.sum_congr rfl fun p _ => congrArg₂ (· * ·) (hmid3_apply V c ⟨n + 1, h1⟩ p q _ rfl) (hmid3_apply V c ⟨n + 1, h1⟩ p q _ rfl)

theorem acc3_last_sum (c : Dev nD) (q : Fin 128) :
    (acc3 (F := Ideal) V c 19).1 (ix2 (0 : Fin 1) q) = Cert.Fn.colsum (yarr3 V c) (ix2 (0 : Fin 1) q) :=
  (acc3_sum_apply V c q 19 (by decide)).trans ((sum_rows_tiles fun r => yarr3 V c (ix2 r q)).symm.trans (Cert.Fn.colsum_apply _ q).symm)

theorem acc3_last_sumsq (c : Dev nD) (q : Fin 128) :
    (acc3 (F := Ideal) V c 19).2 (ix2 (0 : Fin 1) q) = Cert.Fn.colsumsq (yarr3 V c) (ix2 (0 : Fin 1) q) :=
  (acc3_sumsq_apply V c q 19 (by decide)).trans ((sum_rows_tiles fun r => yarr3 V c (ix2 r q) * yarr3 V c (ix2 r q)).symm.trans (Cert.Fn.colsumsq_apply _ q).symm)

theorem emb3_6 (t : Fin cfg3.N) (j : S1x128.Idx) : ((cfg3.win 6).blk t).view.emb j = j := by
  obtain ⟨-, -, -, -, -, -, -, -, -, -, -, -, e12, e13, -⟩ := idx_facts3 t
  funext a; apply Fin.ext
  match a with
  | ⟨0, _⟩ => show win3_6.index t (0 : Fin 2) * 1 + 1 * (j 0).val = (j 0).val; rw [e12]; omega
  | ⟨1, _⟩ => show win3_6.index t (1 : Fin 2) * 128 + 1 * (j 1).val = (j 1).val; rw [e13]; omega

theorem emb3_7 (t : Fin cfg3.N) (j : S1x128.Idx) : ((cfg3.win 7).blk t).view.emb j = j := by
  obtain ⟨-, -, -, -, -, -, -, -, -, -, -, -, -, -, e14, e15⟩ := idx_facts3 t
  funext a; apply Fin.ext
  match a with
  | ⟨0, _⟩ => show win3_7.index t (0 : Fin 2) * 1 + 1 * (j 0).val = (j 0).val; rw [e14]; omega
  | ⟨1, _⟩ => show win3_7.index t (1 : Fin 2) * 128 + 1 * (j 1).val = (j 1).val; rw [e15]; omega

theorem flushed3_6_of (c : Dev nD) (t : Fin cfg3.N) (G : Cert.Fn.OD)
    (h : ∀ q : Fin 128, (acc3 (F := Ideal) V c t.val).1 (ix2 (0 : Fin 1) q) = G (ix2 (0 : Fin 1) q)) :
    (dat3 (F := Ideal) V c).flushed 6 t = ((cfg3.win 6).blk t).view.read (Elt Ideal) G := by
  show (cfg3.win 6).cut (grid3.coords t) ((dat3 V c).after 6 t) = _
  rw [after3_6]
  refine funext fun (j : S1x128.Idx) => ?_
  show (acc3 (F := Ideal) V c t.val).1 j = G (((cfg3.win 6).blk t).view.emb j)
  rw [emb3_6 t j]
  obtain ⟨u, q, rfl⟩ : ∃ (u : Fin 1) (q : Fin 128), j = ix2 u q := ⟨j 0, j 1, eq_ix2 j⟩
  obtain rfl : u = 0 := Subsingleton.elim _ _
  exact h q

theorem flushed3_6_eq (c : Dev nD) (t : Fin cfg3.N) (hf : (cfg3.win 6).flush t = true) :
    (dat3 (F := Ideal) V c).flushed 6 t = ((cfg3.win 6).blk t).view.read (Elt Ideal) (Cert.Fn.colsum (yarr3 V c)) := by
  have hN : cfg3.N = 20 := N_3
  have h19 : t.val = 19 := by have := (flush3_6 t).mp hf; have := t.isLt; omega
  refine flushed3_6_of V c t _ fun q => ?_
  rw [h19]; exact acc3_last_sum V c q

theorem flushed3_7_of (c : Dev nD) (t : Fin cfg3.N) (G : Cert.Fn.OD)
    (h : ∀ q : Fin 128, (acc3 (F := Ideal) V c t.val).2 (ix2 (0 : Fin 1) q) = G (ix2 (0 : Fin 1) q)) :
    (dat3 (F := Ideal) V c).flushed 7 t = ((cfg3.win 7).blk t).view.read (Elt Ideal) G := by
  show (cfg3.win 7).cut (grid3.coords t) ((dat3 V c).after 7 t) = _
  rw [after3_7]
  refine funext fun (j : S1x128.Idx) => ?_
  show (acc3 (F := Ideal) V c t.val).2 j = G (((cfg3.win 7).blk t).view.emb j)
  rw [emb3_7 t j]
  obtain ⟨u, q, rfl⟩ : ∃ (u : Fin 1) (q : Fin 128), j = ix2 u q := ⟨j 0, j 1, eq_ix2 j⟩
  obtain rfl : u = 0 := Subsingleton.elim _ _
  exact h q

theorem flushed3_7_eq (c : Dev nD) (t : Fin cfg3.N) (hf : (cfg3.win 7).flush t = true) :
    (dat3 (F := Ideal) V c).flushed 7 t = ((cfg3.win 7).blk t).view.read (Elt Ideal) (Cert.Fn.colsumsq (yarr3 V c)) := by
  have hN : cfg3.N = 20 := N_3
  have h19 : t.val = 19 := by have := (flush3_7 t).mp hf; have := t.isLt; omega
  refine flushed3_7_of V c t _ fun q => ?_
  rw [h19]; exact acc3_last_sumsq V c q

theorem row_covered3_6 (i : S1x128.Idx) : ∃ t : Fin cfg3.N, (cfg3.win 6).flush t = true ∧ i ∈ ((cfg3.win 6).blk t).view.set := by
  have hN : cfg3.N = 20 := N_3
  obtain ⟨t, ht⟩ : ∃ t : Fin cfg3.N, t.val = 19 := ⟨⟨19, by omega⟩, rfl⟩
  refine ⟨t, (flush3_6 t).mpr (by rw [ht]), ?_⟩
  have : i = ((cfg3.win 6).blk t).view.emb i := (emb3_6 t i).symm
  rw [this]; exact View.emb_mem_set _ _

theorem row_covered3_7 (i : S1x128.Idx) : ∃ t : Fin cfg3.N, (cfg3.win 7).flush t = true ∧ i ∈ ((cfg3.win 7).blk t).view.set := by
  have hN : cfg3.N = 20 := N_3
  obtain ⟨t, ht⟩ : ∃ t : Fin cfg3.N, t.val = 19 := ⟨⟨19, by omega⟩, rfl⟩
  refine ⟨t, (flush3_7 t).mpr (by rw [ht]), ?_⟩
  have : i = ((cfg3.win 7).blk t).view.emb i := (emb3_7 t i).symm
  rw [this]; exact View.emb_mem_set _ _

theorem val3_sum (c : Dev nD) :
    (dat3 (F := Ideal) V c).arrAt 6 cfg3.N
      = Cert.Fn.colsum (Cert.Fn.linG (V c (Pipeline.arrRef spec3 0)) (V c (Pipeline.arrRef spec3 1)) (V c (Pipeline.arrRef spec3 2)) (V c (Pipeline.arrRef spec3 3)) (V c (Pipeline.arrRef spec3 4))) :=
  (dat3 V c).arrAt_eq_of_cover 6 (Cert.Fn.colsum (yarr3 V c)) (flushed3_6_eq V c) row_covered3_6

theorem val3_sumsq (c : Dev nD) :
    (dat3 (F := Ideal) V c).arrAt 7 cfg3.N
      = Cert.Fn.colsumsq (Cert.Fn.linG (V c (Pipeline.arrRef spec3 0)) (V c (Pipeline.arrRef spec3 1)) (V c (Pipeline.arrRef spec3 2)) (V c (Pipeline.arrRef spec3 3)) (V c (Pipeline.arrRef spec3 4))) :=
  (dat3 V c).arrAt_eq_of_cover 7 (Cert.Fn.colsumsq (yarr3 V c)) (flushed3_7_eq V c) row_covered3_7

end Cert.KernelIdeal.Hand

end
-- ==== Proof.KI.Val4.lean ====
import proofs.«164939_j7129645711575_2_alg».proof.Proof.KI.R4
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem val4_hz : (![0, 0] : Fin 2 → Nat) = fun _ => 0 := funext fun a => by fin_cases a <;> rfl

theorem val4_pay (x0 x1 : Vec Ideal S5000x128 .f32) (x2 x3 x4 x5 : Vec Ideal S1x128 .f32) (p : Fin 5000) (q : Fin 128) :
    k4_pay1 x0 x2 x3 x4 x5 x1 (ix2 p q)
      = x1 (ix2 p q) + max (((x0 (ix2 p q) - x2 (ix2 0 q))
          * Ideal.rsqrt (x3 (ix2 0 q) + Ideal.ofBits .f32 0x3727C5AC#32)) * x4 (ix2 0 q) + x5 (ix2 0 q)) 0 := by
  unfold k4_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply]
  show x1 (ix2 p q) + max (((x0 (ix2 p q) - x2 (ix2 0 q))
      * Ideal.rsqrt (x3 (ix2 0 q) + Ideal.ofBits .f32 0x3727C5AC#32)) * x4 (ix2 0 q) + x5 (ix2 0 q))
        (Ideal.ofBits .f32 0x00000000#32) = _
  rw [Ideal.ofBits_zero_f32]

theorem val4_point (x0 x1 : Vec Ideal S5000x128 .f32) (x2 x3 x4 x5 : Vec Ideal S1x128 .f32)
    (a0 a1 : Cert.Fn.ND) (a2 a3 a4 a5 : Cert.Fn.OD) (p : Fin 5000) (q : Fin 128) (r : Fin 100000)
    (h0 : x0 (ix2 p q) = a0 (ix2 r q)) (h1 : x1 (ix2 p q) = a1 (ix2 r q))
    (h2 : x2 (ix2 0 q) = a2 (ix2 0 q)) (h3 : x3 (ix2 0 q) = a3 (ix2 0 q))
    (h4 : x4 (ix2 0 q) = a4 (ix2 0 q)) (h5 : x5 (ix2 0 q) = a5 (ix2 0 q)) :
    k4_pay1 x0 x2 x3 x4 x5 x1 (ix2 p q) = Cert.Fn.bnG a0 a1 a2 a3 a4 a5 (ix2 r q) := by
  rw [val4_pay, Cert.Fn.bnG_apply, h0, h1, h2, h3, h4, h5]

theorem val4_npts : ∀ t : Fin cfg4.N, t.val < 20 := (by decide +kernel : ∀ t : Fin grid4.N, _)

theorem val4_idx0 : ∀ t : Fin cfg4.N, (cfg4.win 0).index t (0 : Fin 2) = t.val ∧ (cfg4.win 0).index t (1 : Fin 2) = 0 :=
  (by decide +kernel : ∀ t : Fin grid4.N, _)

theorem val4_idx1 : ∀ t : Fin cfg4.N, (cfg4.win 1).index t (0 : Fin 2) = t.val ∧ (cfg4.win 1).index t (1 : Fin 2) = 0 :=
  (by decide +kernel : ∀ t : Fin grid4.N, _)

theorem val4_idx2 : ∀ t : Fin cfg4.N, (cfg4.win 2).index t (0 : Fin 2) = 0 ∧ (cfg4.win 2).index t (1 : Fin 2) = 0 :=
  (by decide +kernel : ∀ t : Fin grid4.N, _)

theorem val4_idx3 : ∀ t : Fin cfg4.N, (cfg4.win 3).index t (0 : Fin 2) = 0 ∧ (cfg4.win 3).index t (1 : Fin 2) = 0 :=
  (by decide +kernel : ∀ t : Fin grid4.N, _)

theorem val4_idx4 : ∀ t : Fin cfg4.N, (cfg4.win 4).index t (0 : Fin 2) = 0 ∧ (cfg4.win 4).index t (1 : Fin 2) = 0 :=
  (by decide +kernel : ∀ t : Fin grid4.N, _)

theorem val4_idx5 : ∀ t : Fin cfg4.N, (cfg4.win 5).index t (0 : Fin 2) = 0 ∧ (cfg4.win 5).index t (1 : Fin 2) = 0 :=
  (by decide +kernel : ∀ t : Fin grid4.N, _)

theorem val4_idx6 : ∀ t : Fin cfg4.N, (cfg4.win 6).index t (0 : Fin 2) = t.val ∧ (cfg4.win 6).index t (1 : Fin 2) = 0 :=
  (by decide +kernel : ∀ t : Fin grid4.N, _)

theorem val4_in0 (c : Dev nD) (t : Fin cfg4.N) (p : Fin 5000) (q : Fin 128) (h : t.val * 5000 + p.val < 100000) :
    iblk4 V c 0 t (ix2 p q) = V c (Pipeline.arrRef spec4 0) (ix2 (⟨t.val * 5000 + p.val, h⟩ : Fin 100000) q) := by
  obtain ⟨e0, e1⟩ := val4_idx0 t
  show V c (Pipeline.arrRef spec4 0) (((cfg4.win 0).blk t).view.emb (ix2 p q)) = _
  refine congrArg (V c (Pipeline.arrRef spec4 0)) (funext fun a => Fin.ext ?_)
  match a with
  | ⟨0, _⟩ => show (cfg4.win 0).index t (0 : Fin 2) * 5000 + 1 * p.val = t.val * 5000 + p.val; rw [e0]; omega
  | ⟨1, _⟩ => show (cfg4.win 0).index t (1 : Fin 2) * 128 + 1 * q.val = q.val; rw [e1]; omega

theorem val4_in1 (c : Dev nD) (t : Fin cfg4.N) (p : Fin 5000) (q : Fin 128) (h : t.val * 5000 + p.val < 100000) :
    iblk4 V c 1 t (ix2 p q) = V c (Pipeline.arrRef spec4 1) (ix2 (⟨t.val * 5000 + p.val, h⟩ : Fin 100000) q) := by
  obtain ⟨e0, e1⟩ := val4_idx1 t
  show V c (Pipeline.arrRef spec4 1) (((cfg4.win 1).blk t).view.emb (ix2 p q)) = _
  refine congrArg (V c (Pipeline.arrRef spec4 1)) (funext fun a => Fin.ext ?_)
  match a with
  | ⟨0, _⟩ => show (cfg4.win 1).index t (0 : Fin 2) * 5000 + 1 * p.val = t.val * 5000 + p.val; rw [e0]; omega
  | ⟨1, _⟩ => show (cfg4.win 1).index t (1 : Fin 2) * 128 + 1 * q.val = q.val; rw [e1]; omega

theorem val4_in2 (c : Dev nD) (t : Fin cfg4.N) (q : Fin 128) :
    iblk4 V c 2 t (ix2 (0 : Fin 1) q) = V c (Pipeline.arrRef spec4 2) (ix2 (0 : Fin 1) q) := by
  obtain ⟨e0, e1⟩ := val4_idx2 t
  show V c (Pipeline.arrRef spec4 2) (((cfg4.win 2).blk t).view.emb (ix2 (0 : Fin 1) q)) = _
  refine congrArg (V c (Pipeline.arrRef spec4 2)) (funext fun a => Fin.ext ?_)
  match a with
  | ⟨0, _⟩ => show (cfg4.win 2).index t (0 : Fin 2) * 1 + 1 * 0 = 0; rw [e0]
  | ⟨1, _⟩ => show (cfg4.win 2).index t (1 : Fin 2) * 128 + 1 * q.val = q.val; rw [e1]; omega

theorem val4_in3 (c : Dev nD) (t : Fin cfg4.N) (q : Fin 128) :
    iblk4 V c 3 t (ix2 (0 : Fin 1) q) = V c (Pipeline.arrRef spec4 3) (ix2 (0 : Fin 1) q) := by
  obtain ⟨e0, e1⟩ := val4_idx3 t
  show V c (Pipeline.arrRef spec4 3) (((cfg4.win 3).blk t).view.emb (ix2 (0 : Fin 1) q)) = _
  refine congrArg (V c (Pipeline.arrRef spec4 3)) (funext fun a => Fin.ext ?_)
  match a with
  | ⟨0, _⟩ => show (cfg4.win 3).index t (0 : Fin 2) * 1 + 1 * 0 = 0; rw [e0]
  | ⟨1, _⟩ => show (cfg4.win 3).index t (1 : Fin 2) * 128 + 1 * q.val = q.val; rw [e1]; omega

theorem val4_in4 (c : Dev nD) (t : Fin cfg4.N) (q : Fin 128) :
    iblk4 V c 4 t (ix2 (0 : Fin 1) q) = V c (Pipeline.arrRef spec4 4) (ix2 (0 : Fin 1) q) := by
  obtain ⟨e0, e1⟩ := val4_idx4 t
  show V c (Pipeline.arrRef spec4 4) (((cfg4.win 4).blk t).view.emb (ix2 (0 : Fin 1) q)) = _
  refine congrArg (V c (Pipeline.arrRef spec4 4)) (funext fun a => Fin.ext ?_)
  match a with
  | ⟨0, _⟩ => show (cfg4.win 4).index t (0 : Fin 2) * 1 + 1 * 0 = 0; rw [e0]
  | ⟨1, _⟩ => show (cfg4.win 4).index t (1 : Fin 2) * 128 + 1 * q.val = q.val; rw [e1]; omega

theorem val4_in5 (c : Dev nD) (t : Fin cfg4.N) (q : Fin 128) :
    iblk4 V c 5 t (ix2 (0 : Fin 1) q) = V c (Pipeline.arrRef spec4 5) (ix2 (0 : Fin 1) q) := by
  obtain ⟨e0, e1⟩ := val4_idx5 t
  show V c (Pipeline.arrRef spec4 5) (((cfg4.win 5).blk t).view.emb (ix2 (0 : Fin 1) q)) = _
  refine congrArg (V c (Pipeline.arrRef spec4 5)) (funext fun a => Fin.ext ?_)
  match a with
  | ⟨0, _⟩ => show (cfg4.win 5).index t (0 : Fin 2) * 1 + 1 * 0 = 0; rw [e0]
  | ⟨1, _⟩ => show (cfg4.win 5).index t (1 : Fin 2) * 128 + 1 * q.val = q.val; rw [e1]; omega

theorem val4_out (t : Fin cfg4.N) (p : Fin 5000) (q : Fin 128) (h : t.val * 5000 + p.val < 100000) :
    ((cfg4.win 6).blk t).view.emb (ix2 p q) = ix2 (⟨t.val * 5000 + p.val, h⟩ : Fin 100000) q := by
  obtain ⟨e0, e1⟩ := val4_idx6 t
  funext a; apply Fin.ext
  match a with
  | ⟨0, _⟩ => show (cfg4.win 6).index t (0 : Fin 2) * 5000 + 1 * p.val = t.val * 5000 + p.val; rw [e0]; omega
  | ⟨1, _⟩ => show (cfg4.win 6).index t (1 : Fin 2) * 128 + 1 * q.val = q.val; rw [e1]; omega

theorem val4_stored (c : Dev nD) (t : Fin cfg4.N) :
    (dat4 V c).flushed 6 t
      = k4_pay1 (iblk4 V c 0 t) (iblk4 V c 2 t) (iblk4 V c 3 t) (iblk4 V c 4 t) (iblk4 V c 5 t) (iblk4 V c 1 t) := by
  show (cfg4.win 6).cut (grid4.coords t) ((dat4 V c).after 6 t) = _
  rw [after4_6]
  unfold out4_6
  rw [View.canon_unit_zero val4_hz]
  simp only [View.ld_unit_zero (S := S5000x128) val4_hz, View.ld_unit_zero (S := S1x128) val4_hz]
  rfl

theorem val4_flushed (c : Dev nD) (t : Fin cfg4.N) :
    (dat4 V c).flushed 6 t = ((cfg4.win 6).blk t).view.read (Elt Ideal)
      (Cert.Fn.bnG (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  rw [val4_stored]
  funext j
  obtain ⟨p, q, rfl⟩ : ∃ (p : Fin 5000) (q : Fin 128), j = ix2 p q := ⟨j 0, j 1, eq_ix2 j⟩
  have h : t.val * 5000 + p.val < 100000 := by have := val4_npts t; have := p.isLt; omega
  refine (val4_point _ _ _ _ _ _ _ _ _ _ _ _ p q ⟨t.val * 5000 + p.val, h⟩ (val4_in0 V c t p q h) (val4_in1 V c t p q h)
    (val4_in2 V c t q) (val4_in3 V c t q) (val4_in4 V c t q) (val4_in5 V c t q)).trans ?_
  exact congrArg (Cert.Fn.bnG _ _ _ _ _ _) (val4_out t p q h).symm

theorem val4_mem_blk (t : Fin cfg4.N) (i : S100000x128.Idx) :
    i ∈ ((cfg4.win 6).blk t).view.set ↔ ∀ a : Fin 2, (cfg4.win 6).index t a * S5000x128.size a ≤ (i a).val
      ∧ (i a).val < (cfg4.win 6).index t a * S5000x128.size a + S5000x128.size a := by
  show i ∈ ((View.whole (Pipeline.arrRef spec4 6)).slice ((cfg4.win 6).rect t)).set ↔ _
  rw [View.set_slice_whole, Rect.mem_set_unit]
  exact Iff.rfl

theorem val4_cover (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega : (i 0).val / 5000 < 20) N_4.symm⟩, rfl⟩
  obtain ⟨e60, e61⟩ := val4_idx6 t
  refine ⟨t, flush4_6 t, ?_⟩
  rw [val4_mem_blk]
  intro a
  match a with
  | ⟨0, _⟩ =>
    show (cfg4.win 6).index t (0 : Fin 2) * 5000 ≤ (i 0).val ∧ (i 0).val < (cfg4.win 6).index t (0 : Fin 2) * 5000 + 5000
    rw [e60, ht]; omega
  | ⟨1, _⟩ =>
    show (cfg4.win 6).index t (1 : Fin 2) * 128 ≤ (i 1).val ∧ (i 1).val < (cfg4.win 6).index t (1 : Fin 2) * 128 + 128
    rw [e61]; omega

theorem val4 (c : Dev nD) :
    (dat4 (F := Ideal) V c).arrAt 6 cfg4.N
      = Cert.Fn.bnG (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (dat4 V c).arrAt_eq_of_cover 6 _ (fun t _ => val4_flushed V c t) val4_cover

end Cert.KernelIdeal.Hand

end
-- ==== Proof.KI.Val5.lean ====
import proofs.«164939_j7129645711575_2_alg».proof.Proof.KI.R5
import proofs.«164939_j7129645711575_2_alg».proof.Proof.KI.Val0
import proofs.«164939_j7129645711575_2_alg».proof.Proof.KI.VLib
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem pay5_hmid_apply (x0 : FVec Ideal S5000x128 .f32) (x1 : FVec Ideal S5000x1 .f32) (x3 : FVec Ideal S128x128 .f32)
    (x4 : FVec Ideal S1x128 .f32) (x2 : FVec Ideal S5000x1 .f32) (p : Fin 5000) (q : Fin 128) :
    k5_pay4 (F := Ideal) x0 x1 x3 x4 x2 (ix2 p q)
      = ((∑ k : Fin 128, (x0 (ix2 p k) * x1 (ix2 p (0 : Fin 1))) * x3 (ix2 k q)) + x4 (ix2 (0 : Fin 1) q)) * x2 (ix2 p (0 : Fin 1)) := by
  unfold k5_pay4
  refine (mulf_apply _ _ _).trans ?_
  refine congrArg₂ (· * ·) ?_ ?_
  · refine (addf_apply _ _ _).trans ?_
    refine congrArg₂ (· + ·) ?_ ?_
    · refine (matmul_embed_apply _ _ p q).trans ?_
      refine Finset.sum_congr rfl fun k _ => ?_
      refine congrArg₂ (· * ·) ?_ ?_
      · show (shapeCast S5000x128 x0 shapeCasts_S5000x128_S5000x128) (ix2 p k)
            * (broadcastTo S5000x128 (shapeCast S5000x1 x1 shapeCasts_S5000x1_S5000x1) broadcasts_S5000x1_S5000x128) (ix2 p k) = _
        refine congrArg₂ (· * ·) (congrFun (shapeCast_self x0 shapeCasts_S5000x128_S5000x128) _) ?_
        exact (broadcastTo_a1_ab_apply _ broadcasts_S5000x1_S5000x128 p k).trans (congrFun (shapeCast_self x1 shapeCasts_S5000x1_S5000x1) _)
      · show (shapeCast S128x128 x3 shapeCasts_S128x128_S128x128) (ix2 k q) = _
        exact congrFun (shapeCast_self x3 shapeCasts_S128x128_S128x128) _
    · exact bias_embed_apply x4 p q
  · exact broadcastTo_a1_ab_apply x2 broadcasts_S5000x1_S5000x128 p q

theorem pay5_sum_apply (x0 : FVec Ideal S5000x128 .f32) (x1 : FVec Ideal S5000x1 .f32) (x3 : FVec Ideal S128x128 .f32)
    (x4 : FVec Ideal S1x128 .f32) (x2 : FVec Ideal S5000x1 .f32) (s : FVec Ideal S1x128 .f32) (q : Fin 128) :
    k5_pay5 (F := Ideal) x0 x1 x3 x4 x2 s (ix2 (0 : Fin 1) q)
      = s (ix2 (0 : Fin 1) q) + ∑ p : Fin 5000, k5_pay4 (F := Ideal) x0 x1 x3 x4 x2 (ix2 p q) := by
  unfold k5_pay5
  refine (congrFun (shapeCast_self _ shapeCasts_S1x128_S1x128) _).trans ?_
  refine (addf_apply _ _ _).trans ?_
  exact congrArg (s (ix2 (0 : Fin 1) q) + ·) (tile_colsum_row_apply _ _ _ q)

theorem pay5_sumsq_apply (x0 : FVec Ideal S5000x128 .f32) (x1 : FVec Ideal S5000x1 .f32) (x3 : FVec Ideal S128x128 .f32)
    (x4 : FVec Ideal S1x128 .f32) (x2 : FVec Ideal S5000x1 .f32) (s : FVec Ideal S1x128 .f32) (q : Fin 128) :
    k5_pay1 (F := Ideal) s (k5_pay6 (F := Ideal) x0 x1 x3 x4 x2) (ix2 (0 : Fin 1) q)
      = s (ix2 (0 : Fin 1) q) + ∑ p : Fin 5000, k5_pay4 (F := Ideal) x0 x1 x3 x4 x2 (ix2 p q) * k5_pay4 (F := Ideal) x0 x1 x3 x4 x2 (ix2 p q) := by
  unfold k5_pay1 k5_pay6
  refine (congrFun (shapeCast_self _ shapeCasts_S1x128_S1x128) _).trans ?_
  refine (addf_apply _ _ _).trans ?_
  exact congrArg (s (ix2 (0 : Fin 1) q) + ·) (tile_colsum_row_apply _ _ _ q)

theorem pay5_zero_sum_apply (j : S1x128.Idx) : k5_pay2 (F := Ideal) j = 0 := by
  unfold k5_pay2
  refine (congrFun (shapeCast_self _ shapeCasts_S1x128_S1x128) _).trans ?_
  exact Ideal.ofBits_zero_f32

theorem pay5_zero_sumsq_apply (j : S1x128.Idx) : k5_pay3 (F := Ideal) j = 0 := by
  unfold k5_pay3
  refine (congrFun (shapeCast_self _ shapeCasts_S1x128_S1x128) _).trans ?_
  exact Ideal.ofBits_zero_f32

variable (V : (c : Dev nD) → (b : Ref sig .tc) → Buf (Elt Ideal) ((c : Thread nD τ).loc b))

abbrev aarr5 (c : Dev nD) : Vec Ideal S100000x128 .f32 := V c (Pipeline.arrRef spec5 0)

abbrev iarr5 (c : Dev nD) : Vec Ideal S100000x1 .f32 := V c (Pipeline.arrRef spec5 1)

abbrev garr5 (c : Dev nD) : Vec Ideal S100000x1 .f32 := V c (Pipeline.arrRef spec5 2)

abbrev warr5 (c : Dev nD) : Vec Ideal S128x128 .f32 := V c (Pipeline.arrRef spec5 3)

abbrev barr5 (c : Dev nD) : Vec Ideal S1x128 .f32 := V c (Pipeline.arrRef spec5 4)

abbrev yarr5 (c : Dev nD) : Cert.Fn.ND := Cert.Fn.linG (aarr5 V c) (iarr5 V c) (garr5 V c) (warr5 V c) (barr5 V c)

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

theorem ablk5_apply (c : Dev nD) (t : Fin cfg5.N) (p : Fin 5000) (k : Fin 128) (r : Fin 100000) (hr : r.val = 5000 * t.val + p.val) :
    (iblk5 V c 0 t : Vec Ideal S5000x128 .f32) (ix2 p k) = aarr5 V c (ix2 r k) := by
  obtain ⟨e0, e1, -⟩ := idx_facts5 t
  show aarr5 V c (((cfg5.win 0).blk t).view.emb (ix2 p k)) = aarr5 V c (ix2 r k)
  refine congrArg (aarr5 V c) ?_
  funext a; apply Fin.ext
  match a with
  | ⟨0, _⟩ => show win5_0.index t (0 : Fin 2) * 5000 + 1 * p.val = r.val; rw [e0, hr]; omega
  | ⟨1, _⟩ => show win5_0.index t (1 : Fin 2) * 128 + 1 * k.val = k.val; rw [e1]; omega

theorem iblk5_1_apply (c : Dev nD) (t : Fin cfg5.N) (p : Fin 5000) (r : Fin 100000) (hr : r.val = 5000 * t.val + p.val) :
    (iblk5 V c 1 t : Vec Ideal S5000x1 .f32) (ix2 p (0 : Fin 1)) = iarr5 V c (ix2 r (0 : Fin 1)) := by
  obtain ⟨-, -, e2, e3, -⟩ := idx_facts5 t
  show iarr5 V c (((cfg5.win 1).blk t).view.emb (ix2 p (0 : Fin 1))) = iarr5 V c (ix2 r (0 : Fin 1))
  refine congrArg (iarr5 V c) ?_
  funext a; apply Fin.ext
  match a with
  | ⟨0, _⟩ => show win5_1.index t (0 : Fin 2) * 5000 + 1 * p.val = r.val; rw [e2, hr]; omega
  | ⟨1, _⟩ => show win5_1.index t (1 : Fin 2) * 1 + 1 * (0 : Fin 1).val = (0 : Fin 1).val; rw [e3]; rfl

theorem iblk5_2_apply (c : Dev nD) (t : Fin cfg5.N) (p : Fin 5000) (r : Fin 100000) (hr : r.val = 5000 * t.val + p.val) :
    (iblk5 V c 2 t : Vec Ideal S5000x1 .f32) (ix2 p (0 : Fin 1)) = garr5 V c (ix2 r (0 : Fin 1)) := by
  obtain ⟨-, -, -, -, e4, e5, -⟩ := idx_facts5 t
  show garr5 V c (((cfg5.win 2).blk t).view.emb (ix2 p (0 : Fin 1))) = garr5 V c (ix2 r (0 : Fin 1))
  refine congrArg (garr5 V c) ?_
  funext a; apply Fin.ext
  match a with
  | ⟨0, _⟩ => show win5_2.index t (0 : Fin 2) * 5000 + 1 * p.val = r.val; rw [e4, hr]; omega
  | ⟨1, _⟩ => show win5_2.index t (1 : Fin 2) * 1 + 1 * (0 : Fin 1).val = (0 : Fin 1).val; rw [e5]; rfl

theorem iblk5_3_apply (c : Dev nD) (t : Fin cfg5.N) (k : Fin 128) (q : Fin 128) :
    (iblk5 V c 3 t : Vec Ideal S128x128 .f32) (ix2 k q) = warr5 V c (ix2 k q) := by
  obtain ⟨-, -, -, -, -, -, e6, e7, -⟩ := idx_facts5 t
  show warr5 V c (((cfg5.win 3).blk t).view.emb (ix2 k q)) = warr5 V c (ix2 k q)
  refine congrArg (warr5 V c) ?_
  funext a; apply Fin.ext
  match a with
  | ⟨0, _⟩ => show win5_3.index t (0 : Fin 2) * 128 + 1 * k.val = k.val; rw [e6]; omega
  | ⟨1, _⟩ => show win5_3.index t (1 : Fin 2) * 128 + 1 * q.val = q.val; rw [e7]; omega

theorem iblk5_4_apply (c : Dev nD) (t : Fin cfg5.N) (q : Fin 128) :
    (iblk5 V c 4 t : Vec Ideal S1x128 .f32) (ix2 (0 : Fin 1) q) = barr5 V c (ix2 (0 : Fin 1) q) := by
  obtain ⟨-, -, -, -, -, -, -, -, e8, e9, -⟩ := idx_facts5 t
  show barr5 V c (((cfg5.win 4).blk t).view.emb (ix2 (0 : Fin 1) q)) = barr5 V c (ix2 (0 : Fin 1) q)
  refine congrArg (barr5 V c) ?_
  funext a; apply Fin.ext
  match a with
  | ⟨0, _⟩ => show win5_4.index t (0 : Fin 2) * 1 + 1 * (0 : Fin 1).val = (0 : Fin 1).val; rw [e8]; rfl
  | ⟨1, _⟩ => show win5_4.index t (1 : Fin 2) * 128 + 1 * q.val = q.val; rw [e9]; omega

theorem hmid5_apply (c : Dev nD) (t : Fin cfg5.N) (p : Fin 5000) (q : Fin 128) (r : Fin 100000) (hr : r.val = 5000 * t.val + p.val) :
    hmid5 (F := Ideal) V c t (ix2 p q) = yarr5 V c (ix2 r q) := by
  unfold hmid5 hmidOf5
  refine (pay5_hmid_apply _ _ _ _ _ p q).trans ?_
  refine Eq.trans ?_ (Cert.Fn.linG_apply _ _ _ _ _ r q).symm
  refine congrArg₂ (· * ·) (congrArg₂ (· + ·) (Finset.sum_congr rfl fun k _ => congrArg₂ (· * ·) (congrArg₂ (· * ·) ?_ ?_) ?_) ?_) ?_
  · exact ablk5_apply V c t p k r hr
  · exact iblk5_1_apply V c t p r hr
  · exact iblk5_3_apply V c t k q
  · exact iblk5_4_apply V c t q
  · exact iblk5_2_apply V c t p r hr

theorem flushed5_5_eq (c : Dev nD) (t : Fin cfg5.N) :
    (dat5 (F := Ideal) V c).flushed 5 t = ((cfg5.win 5).blk t).view.read (Elt Ideal) (yarr5 V c) := by
  show (cfg5.win 5).cut (grid5.coords t) ((dat5 V c).after 5 t) = _
  rw [after5_5]
  obtain ⟨-, -, -, -, -, -, -, -, -, -, e10, e11, -⟩ := idx_facts5 t
  refine funext fun (j : S5000x128.Idx) => ?_
  obtain ⟨p, q, rfl⟩ : ∃ (p : Fin 5000) (q : Fin 128), j = ix2 p q := ⟨j 0, j 1, eq_ix2 j⟩
  show hmid5 (F := Ideal) V c t (ix2 p q) = yarr5 V c (((cfg5.win 5).blk t).view.emb (ix2 p q))
  have hN : cfg5.N = 20 := N_5
  have hr : 5000 * t.val + p.val < 100000 := by have := t.isLt; have := p.isLt; omega
  have hemb : ((cfg5.win 5).blk t).view.emb (ix2 p q) = ix2 (⟨5000 * t.val + p.val, hr⟩ : Fin 100000) q := by
    funext a; apply Fin.ext
    match a with
    | ⟨0, _⟩ => show win5_5.index t (0 : Fin 2) * 5000 + 1 * p.val = 5000 * t.val + p.val; rw [e10]; omega
    | ⟨1, _⟩ => show win5_5.index t (1 : Fin 2) * 128 + 1 * q.val = q.val; rw [e11]; omega
  exact (hmid5_apply V c t p q ⟨5000 * t.val + p.val, hr⟩ rfl).trans (congrArg (yarr5 V c) hemb).symm

theorem rows_covered5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by omega⟩, rfl⟩
  obtain ⟨-, -, -, -, -, -, -, -, -, -, e10, e11, -⟩ := idx_facts5 t
  refine ⟨t, flush5_5 t, ?_⟩
  have hy : (i 0).val % 5000 < 5000 := Nat.mod_lt _ (by decide)
  have hi : i = ((cfg5.win 5).blk t).view.emb (ix2 (⟨(i 0).val % 5000, hy⟩ : Fin 5000) (⟨(i 1).val, hi1⟩ : Fin 128)) := by
    funext a; apply Fin.ext
    match a with
    | ⟨0, _⟩ => show (i 0).val = win5_5.index t (0 : Fin 2) * 5000 + 1 * ((i 0).val % 5000); rw [e10, ht]; omega
    | ⟨1, _⟩ => show (i 1).val = win5_5.index t (1 : Fin 2) * 128 + 1 * (i 1).val; rw [e11]; omega
  rw [hi]; exact View.emb_mem_set _ _

theorem val5_hmid (c : Dev nD) :
    (dat5 (F := Ideal) V c).arrAt 5 cfg5.N
      = Cert.Fn.linG (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 (yarr5 V c) (fun t _ => flushed5_5_eq V c t) rows_covered5

theorem acc5_sum_apply (c : Dev nD) (q : Fin 128) : ∀ (n : ℕ) (hn : n < 20),
    (acc5 (F := Ideal) V c n).1 (ix2 (0 : Fin 1) q)
      = ∑ t' : Fin (n + 1), ∑ p : Fin 5000, yarr5 V c (ix2 (⟨5000 * t'.val + p.val, by have := t'.isLt; have := p.isLt; omega⟩ : Fin 100000) q) := by
  have hN : cfg5.N = 20 := N_5
  intro n
  induction n with
  | zero =>
    intro hn
    have h0 : 0 < cfg5.N := by omega
    rw [acc5_zero]; unfold stepAt5; rw [dif_pos h0]
    show k5_pay5 (F := Ideal) (iblk5 V c 0 ⟨0, h0⟩) (iblk5 V c 1 ⟨0, h0⟩) (iblk5 V c 3 ⟨0, h0⟩) (iblk5 V c 4 ⟨0, h0⟩) (iblk5 V c 2 ⟨0, h0⟩) (k5_pay2 (F := Ideal)) (ix2 (0 : Fin 1) q) = _
    refine (pay5_sum_apply _ _ _ _ _ _ q).trans ?_
    rw [pay5_zero_sum_apply, zero_add, Fin.sum_univ_one]
    exact Finset.sum_congr rfl fun p _ => hmid5_apply V c ⟨0, h0⟩ p q _ rfl
  | succ n ih =>
    intro hn
    have h1 : n + 1 < cfg5.N := by omega
    rw [acc5_succ]; unfold stepAt5; rw [dif_pos h1]
    show k5_pay5 (F := Ideal) (iblk5 V c 0 ⟨n + 1, h1⟩) (iblk5 V c 1 ⟨n + 1, h1⟩) (iblk5 V c 3 ⟨n + 1, h1⟩) (iblk5 V c 4 ⟨n + 1, h1⟩) (iblk5 V c 2 ⟨n + 1, h1⟩) (acc5 (F := Ideal) V c n).1 (ix2 (0 : Fin 1) q) = _
    refine (pay5_sum_apply _ _ _ _ _ _ q).trans ?_
    rw [ih (by omega), Fin.sum_univ_castSucc (n := n + 1)]
    refine congrArg₂ (· + ·) rfl ?_
    exact Finset.sum_congr rfl fun p _ => hmid5_apply V c ⟨n + 1, h1⟩ p q _ rfl

theorem acc5_sumsq_apply (c : Dev nD) (q : Fin 128) : ∀ (n : ℕ) (hn : n < 20),
    (acc5 (F := Ideal) V c n).2 (ix2 (0 : Fin 1) q)
      = ∑ t' : Fin (n + 1), ∑ p : Fin 5000,
          yarr5 V c (ix2 (⟨5000 * t'.val + p.val, by have := t'.isLt; have := p.isLt; omega⟩ : Fin 100000) q)
            * yarr5 V c (ix2 (⟨5000 * t'.val + p.val, by have := t'.isLt; have := p.isLt; omega⟩ : Fin 100000) q) := by
  have hN : cfg5.N = 20 := N_5
  intro n
  induction n with
  | zero =>
    intro hn
    have h0 : 0 < cfg5.N := by omega
    rw [acc5_zero]; unfold stepAt5; rw [dif_pos h0]
    show k5_pay1 (F := Ideal) (k5_pay3 (F := Ideal)) (k5_pay6 (F := Ideal) (iblk5 V c 0 ⟨0, h0⟩) (iblk5 V c 1 ⟨0, h0⟩) (iblk5 V c 3 ⟨0, h0⟩) (iblk5 V c 4 ⟨0, h0⟩) (iblk5 V c 2 ⟨0, h0⟩)) (ix2 (0 : Fin 1) q) = _
    refine (pay5_sumsq_apply _ _ _ _ _ _ q).trans ?_
    rw [pay5_zero_sumsq_apply, zero_add, Fin.sum_univ_one]
    exact Finset.sum_congr rfl fun p _ => congrArg₂ (· * ·) (hmid5_apply V c ⟨0, h0⟩ p q _ rfl) (hmid5_apply V c ⟨0, h0⟩ p q _ rfl)
  | succ n ih =>
    intro hn
    have h1 : n + 1 < cfg5.N := by omega
    rw [acc5_succ]; unfold stepAt5; rw [dif_pos h1]
    show k5_pay1 (F := Ideal) (acc5 (F := Ideal) V c n).2 (k5_pay6 (F := Ideal) (iblk5 V c 0 ⟨n + 1, h1⟩) (iblk5 V c 1 ⟨n + 1, h1⟩) (iblk5 V c 3 ⟨n + 1, h1⟩) (iblk5 V c 4 ⟨n + 1, h1⟩) (iblk5 V c 2 ⟨n + 1, h1⟩)) (ix2 (0 : Fin 1) q) = _
    refine (pay5_sumsq_apply _ _ _ _ _ _ q).trans ?_
    rw [ih (by omega), Fin.sum_univ_castSucc (n := n + 1)]
    refine congrArg₂ (· + ·) rfl ?_
    exact Finset.sum_congr rfl fun p _ => congrArg₂ (· * ·) (hmid5_apply V c ⟨n + 1, h1⟩ p q _ rfl) (hmid5_apply V c ⟨n + 1, h1⟩ p q _ rfl)

theorem acc5_last_sum (c : Dev nD) (q : Fin 128) :
    (acc5 (F := Ideal) V c 19).1 (ix2 (0 : Fin 1) q) = Cert.Fn.colsum (yarr5 V c) (ix2 (0 : Fin 1) q) :=
  (acc5_sum_apply V c q 19 (by decide)).trans ((sum_rows_tiles fun r => yarr5 V c (ix2 r q)).symm.trans (Cert.Fn.colsum_apply _ q).symm)

theorem acc5_last_sumsq (c : Dev nD) (q : Fin 128) :
    (acc5 (F := Ideal) V c 19).2 (ix2 (0 : Fin 1) q) = Cert.Fn.colsumsq (yarr5 V c) (ix2 (0 : Fin 1) q) :=
  (acc5_sumsq_apply V c q 19 (by decide)).trans ((sum_rows_tiles fun r => yarr5 V c (ix2 r q) * yarr5 V c (ix2 r q)).symm.trans (Cert.Fn.colsumsq_apply _ q).symm)

theorem emb5_6 (t : Fin cfg5.N) (j : S1x128.Idx) : ((cfg5.win 6).blk t).view.emb j = j := by
  obtain ⟨-, -, -, -, -, -, -, -, -, -, -, -, e12, e13, -⟩ := idx_facts5 t
  funext a; apply Fin.ext
  match a with
  | ⟨0, _⟩ => show win5_6.index t (0 : Fin 2) * 1 + 1 * (j 0).val = (j 0).val; rw [e12]; omega
  | ⟨1, _⟩ => show win5_6.index t (1 : Fin 2) * 128 + 1 * (j 1).val = (j 1).val; rw [e13]; omega

theorem emb5_7 (t : Fin cfg5.N) (j : S1x128.Idx) : ((cfg5.win 7).blk t).view.emb j = j := by
  obtain ⟨-, -, -, -, -, -, -, -, -, -, -, -, -, -, e14, e15⟩ := idx_facts5 t
  funext a; apply Fin.ext
  match a with
  | ⟨0, _⟩ => show win5_7.index t (0 : Fin 2) * 1 + 1 * (j 0).val = (j 0).val; rw [e14]; omega
  | ⟨1, _⟩ => show win5_7.index t (1 : Fin 2) * 128 + 1 * (j 1).val = (j 1).val; rw [e15]; omega

theorem flushed5_6_of (c : Dev nD) (t : Fin cfg5.N) (G : Cert.Fn.OD)
    (h : ∀ q : Fin 128, (acc5 (F := Ideal) V c t.val).1 (ix2 (0 : Fin 1) q) = G (ix2 (0 : Fin 1) q)) :
    (dat5 (F := Ideal) V c).flushed 6 t = ((cfg5.win 6).blk t).view.read (Elt Ideal) G := by
  show (cfg5.win 6).cut (grid5.coords t) ((dat5 V c).after 6 t) = _
  rw [after5_6]
  refine funext fun (j : S1x128.Idx) => ?_
  show (acc5 (F := Ideal) V c t.val).1 j = G (((cfg5.win 6).blk t).view.emb j)
  rw [emb5_6 t j]
  obtain ⟨u, q, rfl⟩ : ∃ (u : Fin 1) (q : Fin 128), j = ix2 u q := ⟨j 0, j 1, eq_ix2 j⟩
  obtain rfl : u = 0 := Subsingleton.elim _ _
  exact h q

theorem flushed5_6_eq (c : Dev nD) (t : Fin cfg5.N) (hf : (cfg5.win 6).flush t = true) :
    (dat5 (F := Ideal) V c).flushed 6 t = ((cfg5.win 6).blk t).view.read (Elt Ideal) (Cert.Fn.colsum (yarr5 V c)) := by
  have hN : cfg5.N = 20 := N_5
  have h19 : t.val = 19 := by have := (flush5_6 t).mp hf; have := t.isLt; omega
  refine flushed5_6_of V c t _ fun q => ?_
  rw [h19]; exact acc5_last_sum V c q

theorem flushed5_7_of (c : Dev nD) (t : Fin cfg5.N) (G : Cert.Fn.OD)
    (h : ∀ q : Fin 128, (acc5 (F := Ideal) V c t.val).2 (ix2 (0 : Fin 1) q) = G (ix2 (0 : Fin 1) q)) :
    (dat5 (F := Ideal) V c).flushed 7 t = ((cfg5.win 7).blk t).view.read (Elt Ideal) G := by
  show (cfg5.win 7).cut (grid5.coords t) ((dat5 V c).after 7 t) = _
  rw [after5_7]
  refine funext fun (j : S1x128.Idx) => ?_
  show (acc5 (F := Ideal) V c t.val).2 j = G (((cfg5.win 7).blk t).view.emb j)
  rw [emb5_7 t j]
  obtain ⟨u, q, rfl⟩ : ∃ (u : Fin 1) (q : Fin 128), j = ix2 u q := ⟨j 0, j 1, eq_ix2 j⟩
  obtain rfl : u = 0 := Subsingleton.elim _ _
  exact h q

theorem flushed5_7_eq (c : Dev nD) (t : Fin cfg5.N) (hf : (cfg5.win 7).flush t = true) :
    (dat5 (F := Ideal) V c).flushed 7 t = ((cfg5.win 7).blk t).view.read (Elt Ideal) (Cert.Fn.colsumsq (yarr5 V c)) := by
  have hN : cfg5.N = 20 := N_5
  have h19 : t.val = 19 := by have := (flush5_7 t).mp hf; have := t.isLt; omega
  refine flushed5_7_of V c t _ fun q => ?_
  rw [h19]; exact acc5_last_sumsq V c q

theorem row_covered5_6 (i : S1x128.Idx) : ∃ t : Fin cfg5.N, (cfg5.win 6).flush t = true ∧ i ∈ ((cfg5.win 6).blk t).view.set := by
  have hN : cfg5.N = 20 := N_5
  obtain ⟨t, ht⟩ : ∃ t : Fin cfg5.N, t.val = 19 := ⟨⟨19, by omega⟩, rfl⟩
  refine ⟨t, (flush5_6 t).mpr (by rw [ht]), ?_⟩
  have : i = ((cfg5.win 6).blk t).view.emb i := (emb5_6 t i).symm
  rw [this]; exact View.emb_mem_set _ _

theorem row_covered5_7 (i : S1x128.Idx) : ∃ t : Fin cfg5.N, (cfg5.win 7).flush t = true ∧ i ∈ ((cfg5.win 7).blk t).view.set := by
  have hN : cfg5.N = 20 := N_5
  obtain ⟨t, ht⟩ : ∃ t : Fin cfg5.N, t.val = 19 := ⟨⟨19, by omega⟩, rfl⟩
  refine ⟨t, (flush5_7 t).mpr (by rw [ht]), ?_⟩
  have : i = ((cfg5.win 7).blk t).view.emb i := (emb5_7 t i).symm
  rw [this]; exact View.emb_mem_set _ _

theorem val5_sum (c : Dev nD) :
    (dat5 (F := Ideal) V c).arrAt 6 cfg5.N
      = Cert.Fn.colsum (Cert.Fn.linG (V c (Pipeline.arrRef spec5 0)) (V c (Pipeline.arrRef spec5 1)) (V c (Pipeline.arrRef spec5 2)) (V c (Pipeline.arrRef spec5 3)) (V c (Pipeline.arrRef spec5 4))) :=
  (dat5 V c).arrAt_eq_of_cover 6 (Cert.Fn.colsum (yarr5 V c)) (flushed5_6_eq V c) row_covered5_6

theorem val5_sumsq (c : Dev nD) :
    (dat5 (F := Ideal) V c).arrAt 7 cfg5.N
      = Cert.Fn.colsumsq (Cert.Fn.linG (V c (Pipeline.arrRef spec5 0)) (V c (Pipeline.arrRef spec5 1)) (V c (Pipeline.arrRef spec5 2)) (V c (Pipeline.arrRef spec5 3)) (V c (Pipeline.arrRef spec5 4))) :=
  (dat5 V c).arrAt_eq_of_cover 7 (Cert.Fn.colsumsq (yarr5 V c)) (flushed5_7_eq V c) row_covered5_7

end Cert.KernelIdeal.Hand

end
-- ==== Proof.KI.Val6.lean ====
import proofs.«164939_j7129645711575_2_alg».proof.Proof.KI.R6
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem val6_hz : (![0, 0] : Fin 2 → Nat) = fun _ => 0 := funext fun a => by fin_cases a <;> rfl

theorem val6_pay (x0 x1 : Vec Ideal S5000x128 .f32) (x2 x3 x4 x5 : Vec Ideal S1x128 .f32) (p : Fin 5000) (q : Fin 128) :
    k6_pay1 x0 x2 x3 x4 x5 x1 (ix2 p q)
      = x1 (ix2 p q) + max (((x0 (ix2 p q) - x2 (ix2 0 q))
          * Ideal.rsqrt (x3 (ix2 0 q) + Ideal.ofBits .f32 0x3727C5AC#32)) * x4 (ix2 0 q) + x5 (ix2 0 q)) 0 := by
  unfold k6_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply]
  show x1 (ix2 p q) + max (((x0 (ix2 p q) - x2 (ix2 0 q))
      * Ideal.rsqrt (x3 (ix2 0 q) + Ideal.ofBits .f32 0x3727C5AC#32)) * x4 (ix2 0 q) + x5 (ix2 0 q))
        (Ideal.ofBits .f32 0x00000000#32) = _
  rw [Ideal.ofBits_zero_f32]

theorem val6_point (x0 x1 : Vec Ideal S5000x128 .f32) (x2 x3 x4 x5 : Vec Ideal S1x128 .f32)
    (a0 a1 : Cert.Fn.ND) (a2 a3 a4 a5 : Cert.Fn.OD) (p : Fin 5000) (q : Fin 128) (r : Fin 100000)
    (h0 : x0 (ix2 p q) = a0 (ix2 r q)) (h1 : x1 (ix2 p q) = a1 (ix2 r q))
    (h2 : x2 (ix2 0 q) = a2 (ix2 0 q)) (h3 : x3 (ix2 0 q) = a3 (ix2 0 q))
    (h4 : x4 (ix2 0 q) = a4 (ix2 0 q)) (h5 : x5 (ix2 0 q) = a5 (ix2 0 q)) :
    k6_pay1 x0 x2 x3 x4 x5 x1 (ix2 p q) = Cert.Fn.bnG a0 a1 a2 a3 a4 a5 (ix2 r q) := by
  rw [val6_pay, Cert.Fn.bnG_apply, h0, h1, h2, h3, h4, h5]

theorem val6_npts : ∀ t : Fin cfg6.N, t.val < 20 := (by decide +kernel : ∀ t : Fin grid6.N, _)

theorem val6_idx0 : ∀ t : Fin cfg6.N, (cfg6.win 0).index t (0 : Fin 2) = t.val ∧ (cfg6.win 0).index t (1 : Fin 2) = 0 :=
  (by decide +kernel : ∀ t : Fin grid6.N, _)

theorem val6_idx1 : ∀ t : Fin cfg6.N, (cfg6.win 1).index t (0 : Fin 2) = t.val ∧ (cfg6.win 1).index t (1 : Fin 2) = 0 :=
  (by decide +kernel : ∀ t : Fin grid6.N, _)

theorem val6_idx2 : ∀ t : Fin cfg6.N, (cfg6.win 2).index t (0 : Fin 2) = 0 ∧ (cfg6.win 2).index t (1 : Fin 2) = 0 :=
  (by decide +kernel : ∀ t : Fin grid6.N, _)

theorem val6_idx3 : ∀ t : Fin cfg6.N, (cfg6.win 3).index t (0 : Fin 2) = 0 ∧ (cfg6.win 3).index t (1 : Fin 2) = 0 :=
  (by decide +kernel : ∀ t : Fin grid6.N, _)

theorem val6_idx4 : ∀ t : Fin cfg6.N, (cfg6.win 4).index t (0 : Fin 2) = 0 ∧ (cfg6.win 4).index t (1 : Fin 2) = 0 :=
  (by decide +kernel : ∀ t : Fin grid6.N, _)

theorem val6_idx5 : ∀ t : Fin cfg6.N, (cfg6.win 5).index t (0 : Fin 2) = 0 ∧ (cfg6.win 5).index t (1 : Fin 2) = 0 :=
  (by decide +kernel : ∀ t : Fin grid6.N, _)

theorem val6_idx6 : ∀ t : Fin cfg6.N, (cfg6.win 6).index t (0 : Fin 2) = t.val ∧ (cfg6.win 6).index t (1 : Fin 2) = 0 :=
  (by decide +kernel : ∀ t : Fin grid6.N, _)

theorem val6_in0 (c : Dev nD) (t : Fin cfg6.N) (p : Fin 5000) (q : Fin 128) (h : t.val * 5000 + p.val < 100000) :
    iblk6 V c 0 t (ix2 p q) = V c (Pipeline.arrRef spec6 0) (ix2 (⟨t.val * 5000 + p.val, h⟩ : Fin 100000) q) := by
  obtain ⟨e0, e1⟩ := val6_idx0 t
  show V c (Pipeline.arrRef spec6 0) (((cfg6.win 0).blk t).view.emb (ix2 p q)) = _
  refine congrArg (V c (Pipeline.arrRef spec6 0)) (funext fun a => Fin.ext ?_)
  match a with
  | ⟨0, _⟩ => show (cfg6.win 0).index t (0 : Fin 2) * 5000 + 1 * p.val = t.val * 5000 + p.val; rw [e0]; omega
  | ⟨1, _⟩ => show (cfg6.win 0).index t (1 : Fin 2) * 128 + 1 * q.val = q.val; rw [e1]; omega

theorem val6_in1 (c : Dev nD) (t : Fin cfg6.N) (p : Fin 5000) (q : Fin 128) (h : t.val * 5000 + p.val < 100000) :
    iblk6 V c 1 t (ix2 p q) = V c (Pipeline.arrRef spec6 1) (ix2 (⟨t.val * 5000 + p.val, h⟩ : Fin 100000) q) := by
  obtain ⟨e0, e1⟩ := val6_idx1 t
  show V c (Pipeline.arrRef spec6 1) (((cfg6.win 1).blk t).view.emb (ix2 p q)) = _
  refine congrArg (V c (Pipeline.arrRef spec6 1)) (funext fun a => Fin.ext ?_)
  match a with
  | ⟨0, _⟩ => show (cfg6.win 1).index t (0 : Fin 2) * 5000 + 1 * p.val = t.val * 5000 + p.val; rw [e0]; omega
  | ⟨1, _⟩ => show (cfg6.win 1).index t (1 : Fin 2) * 128 + 1 * q.val = q.val; rw [e1]; omega

theorem val6_in2 (c : Dev nD) (t : Fin cfg6.N) (q : Fin 128) :
    iblk6 V c 2 t (ix2 (0 : Fin 1) q) = V c (Pipeline.arrRef spec6 2) (ix2 (0 : Fin 1) q) := by
  obtain ⟨e0, e1⟩ := val6_idx2 t
  show V c (Pipeline.arrRef spec6 2) (((cfg6.win 2).blk t).view.emb (ix2 (0 : Fin 1) q)) = _
  refine congrArg (V c (Pipeline.arrRef spec6 2)) (funext fun a => Fin.ext ?_)
  match a with
  | ⟨0, _⟩ => show (cfg6.win 2).index t (0 : Fin 2) * 1 + 1 * 0 = 0; rw [e0]
  | ⟨1, _⟩ => show (cfg6.win 2).index t (1 : Fin 2) * 128 + 1 * q.val = q.val; rw [e1]; omega

theorem val6_in3 (c : Dev nD) (t : Fin cfg6.N) (q : Fin 128) :
    iblk6 V c 3 t (ix2 (0 : Fin 1) q) = V c (Pipeline.arrRef spec6 3) (ix2 (0 : Fin 1) q) := by
  obtain ⟨e0, e1⟩ := val6_idx3 t
  show V c (Pipeline.arrRef spec6 3) (((cfg6.win 3).blk t).view.emb (ix2 (0 : Fin 1) q)) = _
  refine congrArg (V c (Pipeline.arrRef spec6 3)) (funext fun a => Fin.ext ?_)
  match a with
  | ⟨0, _⟩ => show (cfg6.win 3).index t (0 : Fin 2) * 1 + 1 * 0 = 0; rw [e0]
  | ⟨1, _⟩ => show (cfg6.win 3).index t (1 : Fin 2) * 128 + 1 * q.val = q.val; rw [e1]; omega

theorem val6_in4 (c : Dev nD) (t : Fin cfg6.N) (q : Fin 128) :
    iblk6 V c 4 t (ix2 (0 : Fin 1) q) = V c (Pipeline.arrRef spec6 4) (ix2 (0 : Fin 1) q) := by
  obtain ⟨e0, e1⟩ := val6_idx4 t
  show V c (Pipeline.arrRef spec6 4) (((cfg6.win 4).blk t).view.emb (ix2 (0 : Fin 1) q)) = _
  refine congrArg (V c (Pipeline.arrRef spec6 4)) (funext fun a => Fin.ext ?_)
  match a with
  | ⟨0, _⟩ => show (cfg6.win 4).index t (0 : Fin 2) * 1 + 1 * 0 = 0; rw [e0]
  | ⟨1, _⟩ => show (cfg6.win 4).index t (1 : Fin 2) * 128 + 1 * q.val = q.val; rw [e1]; omega

theorem val6_in5 (c : Dev nD) (t : Fin cfg6.N) (q : Fin 128) :
    iblk6 V c 5 t (ix2 (0 : Fin 1) q) = V c (Pipeline.arrRef spec6 5) (ix2 (0 : Fin 1) q) := by
  obtain ⟨e0, e1⟩ := val6_idx5 t
  show V c (Pipeline.arrRef spec6 5) (((cfg6.win 5).blk t).view.emb (ix2 (0 : Fin 1) q)) = _
  refine congrArg (V c (Pipeline.arrRef spec6 5)) (funext fun a => Fin.ext ?_)
  match a with
  | ⟨0, _⟩ => show (cfg6.win 5).index t (0 : Fin 2) * 1 + 1 * 0 = 0; rw [e0]
  | ⟨1, _⟩ => show (cfg6.win 5).index t (1 : Fin 2) * 128 + 1 * q.val = q.val; rw [e1]; omega

theorem val6_out (t : Fin cfg6.N) (p : Fin 5000) (q : Fin 128) (h : t.val * 5000 + p.val < 100000) :
    ((cfg6.win 6).blk t).view.emb (ix2 p q) = ix2 (⟨t.val * 5000 + p.val, h⟩ : Fin 100000) q := by
  obtain ⟨e0, e1⟩ := val6_idx6 t
  funext a; apply Fin.ext
  match a with
  | ⟨0, _⟩ => show (cfg6.win 6).index t (0 : Fin 2) * 5000 + 1 * p.val = t.val * 5000 + p.val; rw [e0]; omega
  | ⟨1, _⟩ => show (cfg6.win 6).index t (1 : Fin 2) * 128 + 1 * q.val = q.val; rw [e1]; omega

theorem val6_stored (c : Dev nD) (t : Fin cfg6.N) :
    (dat6 V c).flushed 6 t
      = k6_pay1 (iblk6 V c 0 t) (iblk6 V c 2 t) (iblk6 V c 3 t) (iblk6 V c 4 t) (iblk6 V c 5 t) (iblk6 V c 1 t) := by
  show (cfg6.win 6).cut (grid6.coords t) ((dat6 V c).after 6 t) = _
  rw [after6_6]
  unfold out6_6
  rw [View.canon_unit_zero val6_hz]
  simp only [View.ld_unit_zero (S := S5000x128) val6_hz, View.ld_unit_zero (S := S1x128) val6_hz]
  rfl

theorem val6_flushed (c : Dev nD) (t : Fin cfg6.N) :
    (dat6 V c).flushed 6 t = ((cfg6.win 6).blk t).view.read (Elt Ideal)
      (Cert.Fn.bnG (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  rw [val6_stored]
  funext j
  obtain ⟨p, q, rfl⟩ : ∃ (p : Fin 5000) (q : Fin 128), j = ix2 p q := ⟨j 0, j 1, eq_ix2 j⟩
  have h : t.val * 5000 + p.val < 100000 := by have := val6_npts t; have := p.isLt; omega
  refine (val6_point _ _ _ _ _ _ _ _ _ _ _ _ p q ⟨t.val * 5000 + p.val, h⟩ (val6_in0 V c t p q h) (val6_in1 V c t p q h)
    (val6_in2 V c t q) (val6_in3 V c t q) (val6_in4 V c t q) (val6_in5 V c t q)).trans ?_
  exact congrArg (Cert.Fn.bnG _ _ _ _ _ _) (val6_out t p q h).symm

theorem val6_mem_blk (t : Fin cfg6.N) (i : S100000x128.Idx) :
    i ∈ ((cfg6.win 6).blk t).view.set ↔ ∀ a : Fin 2, (cfg6.win 6).index t a * S5000x128.size a ≤ (i a).val
      ∧ (i a).val < (cfg6.win 6).index t a * S5000x128.size a + S5000x128.size a := by
  show i ∈ ((View.whole (Pipeline.arrRef spec6 6)).slice ((cfg6.win 6).rect t)).set ↔ _
  rw [View.set_slice_whole, Rect.mem_set_unit]
  exact Iff.rfl

theorem val6_cover (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  obtain ⟨t, ht⟩ : ∃ t : Fin cfg6.N, t.val = (i 0).val / 5000 :=
    ⟨⟨(i 0).val / 5000, lt_of_lt_of_eq (by omega : (i 0).val / 5000 < 20) N_6.symm⟩, rfl⟩
  obtain ⟨e60, e61⟩ := val6_idx6 t
  refine ⟨t, flush6_6 t, ?_⟩
  rw [val6_mem_blk]
  intro a
  match a with
  | ⟨0, _⟩ =>
    show (cfg6.win 6).index t (0 : Fin 2) * 5000 ≤ (i 0).val ∧ (i 0).val < (cfg6.win 6).index t (0 : Fin 2) * 5000 + 5000
    rw [e60, ht]; omega
  | ⟨1, _⟩ =>
    show (cfg6.win 6).index t (1 : Fin 2) * 128 ≤ (i 1).val ∧ (i 1).val < (cfg6.win 6).index t (1 : Fin 2) * 128 + 128
    rw [e61]; omega

theorem val6 (c : Dev nD) :
    (dat6 (F := Ideal) V c).arrAt 6 cfg6.N
      = Cert.Fn.bnG (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5)) :=
  (dat6 V c).arrAt_eq_of_cover 6 _ (fun t _ => val6_flushed V c t) val6_cover

end Cert.KernelIdeal.Hand

end
-- ==== Proof.KI.Val7.lean ====
import proofs.«164939_j7129645711575_2_alg».proof.Proof.KI.R7
import proofs.«164939_j7129645711575_2_alg».proof.Proof.KI.Val0
import proofs.«164939_j7129645711575_2_alg».proof.Proof.KI.VLib
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem pay7_hmid_apply (x0 : FVec Ideal S5000x128 .f32) (x1 : FVec Ideal S5000x1 .f32) (x3 : FVec Ideal S128x128 .f32)
    (x4 : FVec Ideal S1x128 .f32) (x2 : FVec Ideal S5000x1 .f32) (p : Fin 5000) (q : Fin 128) :
    k7_pay4 (F := Ideal) x0 x1 x3 x4 x2 (ix2 p q)
      = ((∑ k : Fin 128, (x0 (ix2 p k) * x1 (ix2 p (0 : Fin 1))) * x3 (ix2 k q)) + x4 (ix2 (0 : Fin 1) q)) * x2 (ix2 p (0 : Fin 1)) := by
  unfold k7_pay4
  refine (mulf_apply _ _ _).trans ?_
  refine congrArg₂ (· * ·) ?_ ?_
  · refine (addf_apply _ _ _).trans ?_
    refine congrArg₂ (· + ·) ?_ ?_
    · refine (matmul_embed_apply _ _ p q).trans ?_
      refine Finset.sum_congr rfl fun k _ => ?_
      refine congrArg₂ (· * ·) ?_ ?_
      · show (shapeCast S5000x128 x0 shapeCasts_S5000x128_S5000x128) (ix2 p k)
            * (broadcastTo S5000x128 (shapeCast S5000x1 x1 shapeCasts_S5000x1_S5000x1) broadcasts_S5000x1_S5000x128) (ix2 p k) = _
        refine congrArg₂ (· * ·) (congrFun (shapeCast_self x0 shapeCasts_S5000x128_S5000x128) _) ?_
        exact (broadcastTo_a1_ab_apply _ broadcasts_S5000x1_S5000x128 p k).trans (congrFun (shapeCast_self x1 shapeCasts_S5000x1_S5000x1) _)
      · show (shapeCast S128x128 x3 shapeCasts_S128x128_S128x128) (ix2 k q) = _
        exact congrFun (shapeCast_self x3 shapeCasts_S128x128_S128x128) _
    · exact bias_embed_apply x4 p q
  · exact broadcastTo_a1_ab_apply x2 broadcasts_S5000x1_S5000x128 p q

theorem pay7_sum_apply (x0 : FVec Ideal S5000x128 .f32) (x1 : FVec Ideal S5000x1 .f32) (x3 : FVec Ideal S128x128 .f32)
    (x4 : FVec Ideal S1x128 .f32) (x2 : FVec Ideal S5000x1 .f32) (s : FVec Ideal S1x128 .f32) (q : Fin 128) :
    k7_pay5 (F := Ideal) x0 x1 x3 x4 x2 s (ix2 (0 : Fin 1) q)
      = s (ix2 (0 : Fin 1) q) + ∑ p : Fin 5000, k7_pay4 (F := Ideal) x0 x1 x3 x4 x2 (ix2 p q) := by
  unfold k7_pay5
  refine (congrFun (shapeCast_self _ shapeCasts_S1x128_S1x128) _).trans ?_
  refine (addf_apply _ _ _).trans ?_
  exact congrArg (s (ix2 (0 : Fin 1) q) + ·) (tile_colsum_row_apply _ _ _ q)

theorem pay7_sumsq_apply (x0 : FVec Ideal S5000x128 .f32) (x1 : FVec Ideal S5000x1 .f32) (x3 : FVec Ideal S128x128 .f32)
    (x4 : FVec Ideal S1x128 .f32) (x2 : FVec Ideal S5000x1 .f32) (s : FVec Ideal S1x128 .f32) (q : Fin 128) :
    k7_pay1 (F := Ideal) s (k7_pay6 (F := Ideal) x0 x1 x3 x4 x2) (ix2 (0 : Fin 1) q)
      = s (ix2 (0 : Fin 1) q) + ∑ p : Fin 5000, k7_pay4 (F := Ideal) x0 x1 x3 x4 x2 (ix2 p q) * k7_pay4 (F := Ideal) x0 x1 x3 x4 x2 (ix2 p q) := by
  unfold k7_pay1 k7_pay6
  refine (congrFun (shapeCast_self _ shapeCasts_S1x128_S1x128) _).trans ?_
  refine (addf_apply _ _ _).trans ?_
  exact congrArg (s (ix2 (0 : Fin 1) q) + ·) (tile_colsum_row_apply _ _ _ q)

theorem pay7_zero_sum_apply (j : S1x128.Idx) : k7_pay2 (F := Ideal) j = 0 := by
  unfold k7_pay2
  refine (congrFun (shapeCast_self _ shapeCasts_S1x128_S1x128) _).trans ?_
  exact Ideal.ofBits_zero_f32

theorem pay7_zero_sumsq_apply (j : S1x128.Idx) : k7_pay3 (F := Ideal) j = 0 := by
  unfold k7_pay3
  refine (congrFun (shapeCast_self _ shapeCasts_S1x128_S1x128) _).trans ?_
  exact Ideal.ofBits_zero_f32

variable (V : (c : Dev nD) → (b : Ref sig .tc) → Buf (Elt Ideal) ((c : Thread nD τ).loc b))

abbrev aarr7 (c : Dev nD) : Vec Ideal S100000x128 .f32 := V c (Pipeline.arrRef spec7 0)

abbrev iarr7 (c : Dev nD) : Vec Ideal S100000x1 .f32 := V c (Pipeline.arrRef spec7 1)

abbrev garr7 (c : Dev nD) : Vec Ideal S100000x1 .f32 := V c (Pipeline.arrRef spec7 2)

abbrev warr7 (c : Dev nD) : Vec Ideal S128x128 .f32 := V c (Pipeline.arrRef spec7 3)

abbrev barr7 (c : Dev nD) : Vec Ideal S1x128 .f32 := V c (Pipeline.arrRef spec7 4)

abbrev yarr7 (c : Dev nD) : Cert.Fn.ND := Cert.Fn.linG (aarr7 V c) (iarr7 V c) (garr7 V c) (warr7 V c) (barr7 V c)

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0 :=
  (by decide +kernel : ∀ t : Fin grid7.N, _)

theorem ablk7_apply (c : Dev nD) (t : Fin cfg7.N) (p : Fin 5000) (k : Fin 128) (r : Fin 100000) (hr : r.val = 5000 * t.val + p.val) :
    (iblk7 V c 0 t : Vec Ideal S5000x128 .f32) (ix2 p k) = aarr7 V c (ix2 r k) := by
  obtain ⟨e0, e1, -⟩ := idx_facts7 t
  show aarr7 V c (((cfg7.win 0).blk t).view.emb (ix2 p k)) = aarr7 V c (ix2 r k)
  refine congrArg (aarr7 V c) ?_
  funext a; apply Fin.ext
  match a with
  | ⟨0, _⟩ => show win7_0.index t (0 : Fin 2) * 5000 + 1 * p.val = r.val; rw [e0, hr]; omega
  | ⟨1, _⟩ => show win7_0.index t (1 : Fin 2) * 128 + 1 * k.val = k.val; rw [e1]; omega

theorem iblk7_1_apply (c : Dev nD) (t : Fin cfg7.N) (p : Fin 5000) (r : Fin 100000) (hr : r.val = 5000 * t.val + p.val) :
    (iblk7 V c 1 t : Vec Ideal S5000x1 .f32) (ix2 p (0 : Fin 1)) = iarr7 V c (ix2 r (0 : Fin 1)) := by
  obtain ⟨-, -, e2, e3, -⟩ := idx_facts7 t
  show iarr7 V c (((cfg7.win 1).blk t).view.emb (ix2 p (0 : Fin 1))) = iarr7 V c (ix2 r (0 : Fin 1))
  refine congrArg (iarr7 V c) ?_
  funext a; apply Fin.ext
  match a with
  | ⟨0, _⟩ => show win7_1.index t (0 : Fin 2) * 5000 + 1 * p.val = r.val; rw [e2, hr]; omega
  | ⟨1, _⟩ => show win7_1.index t (1 : Fin 2) * 1 + 1 * (0 : Fin 1).val = (0 : Fin 1).val; rw [e3]; rfl

theorem iblk7_2_apply (c : Dev nD) (t : Fin cfg7.N) (p : Fin 5000) (r : Fin 100000) (hr : r.val = 5000 * t.val + p.val) :
    (iblk7 V c 2 t : Vec Ideal S5000x1 .f32) (ix2 p (0 : Fin 1)) = garr7 V c (ix2 r (0 : Fin 1)) := by
  obtain ⟨-, -, -, -, e4, e5, -⟩ := idx_facts7 t
  show garr7 V c (((cfg7.win 2).blk t).view.emb (ix2 p (0 : Fin 1))) = garr7 V c (ix2 r (0 : Fin 1))
  refine congrArg (garr7 V c) ?_
  funext a; apply Fin.ext
  match a with
  | ⟨0, _⟩ => show win7_2.index t (0 : Fin 2) * 5000 + 1 * p.val = r.val; rw [e4, hr]; omega
  | ⟨1, _⟩ => show win7_2.index t (1 : Fin 2) * 1 + 1 * (0 : Fin 1).val = (0 : Fin 1).val; rw [e5]; rfl

theorem iblk7_3_apply (c : Dev nD) (t : Fin cfg7.N) (k : Fin 128) (q : Fin 128) :
    (iblk7 V c 3 t : Vec Ideal S128x128 .f32) (ix2 k q) = warr7 V c (ix2 k q) := by
  obtain ⟨-, -, -, -, -, -, e6, e7, -⟩ := idx_facts7 t
  show warr7 V c (((cfg7.win 3).blk t).view.emb (ix2 k q)) = warr7 V c (ix2 k q)
  refine congrArg (warr7 V c) ?_
  funext a; apply Fin.ext
  match a with
  | ⟨0, _⟩ => show win7_3.index t (0 : Fin 2) * 128 + 1 * k.val = k.val; rw [e6]; omega
  | ⟨1, _⟩ => show win7_3.index t (1 : Fin 2) * 128 + 1 * q.val = q.val; rw [e7]; omega

theorem iblk7_4_apply (c : Dev nD) (t : Fin cfg7.N) (q : Fin 128) :
    (iblk7 V c 4 t : Vec Ideal S1x128 .f32) (ix2 (0 : Fin 1) q) = barr7 V c (ix2 (0 : Fin 1) q) := by
  obtain ⟨-, -, -, -, -, -, -, -, e8, e9, -⟩ := idx_facts7 t
  show barr7 V c (((cfg7.win 4).blk t).view.emb (ix2 (0 : Fin 1) q)) = barr7 V c (ix2 (0 : Fin 1) q)
  refine congrArg (barr7 V c) ?_
  funext a; apply Fin.ext
  match a with
  | ⟨0, _⟩ => show win7_4.index t (0 : Fin 2) * 1 + 1 * (0 : Fin 1).val = (0 : Fin 1).val; rw [e8]; rfl
  | ⟨1, _⟩ => show win7_4.index t (1 : Fin 2) * 128 + 1 * q.val = q.val; rw [e9]; omega

theorem hmid7_apply (c : Dev nD) (t : Fin cfg7.N) (p : Fin 5000) (q : Fin 128) (r : Fin 100000) (hr : r.val = 5000 * t.val + p.val) :
    hmid7 (F := Ideal) V c t (ix2 p q) = yarr7 V c (ix2 r q) := by
  unfold hmid7 hmidOf7
  refine (pay7_hmid_apply _ _ _ _ _ p q).trans ?_
  refine Eq.trans ?_ (Cert.Fn.linG_apply _ _ _ _ _ r q).symm
  refine congrArg₂ (· * ·) (congrArg₂ (· + ·) (Finset.sum_congr rfl fun k _ => congrArg₂ (· * ·) (congrArg₂ (· * ·) ?_ ?_) ?_) ?_) ?_
  · exact ablk7_apply V c t p k r hr
  · exact iblk7_1_apply V c t p r hr
  · exact iblk7_3_apply V c t k q
  · exact iblk7_4_apply V c t q
  · exact iblk7_2_apply V c t p r hr

theorem flushed7_5_eq (c : Dev nD) (t : Fin cfg7.N) :
    (dat7 (F := Ideal) V c).flushed 5 t = ((cfg7.win 5).blk t).view.read (Elt Ideal) (yarr7 V c) := by
  show (cfg7.win 5).cut (grid7.coords t) ((dat7 V c).after 5 t) = _
  rw [after7_5]
  obtain ⟨-, -, -, -, -, -, -, -, -, -, e10, e11, -⟩ := idx_facts7 t
  refine funext fun (j : S5000x128.Idx) => ?_
  obtain ⟨p, q, rfl⟩ : ∃ (p : Fin 5000) (q : Fin 128), j = ix2 p q := ⟨j 0, j 1, eq_ix2 j⟩
  show hmid7 (F := Ideal) V c t (ix2 p q) = yarr7 V c (((cfg7.win 5).blk t).view.emb (ix2 p q))
  have hN : cfg7.N = 20 := N_7
  have hr : 5000 * t.val + p.val < 100000 := by have := t.isLt; have := p.isLt; omega
  have hemb : ((cfg7.win 5).blk t).view.emb (ix2 p q) = ix2 (⟨5000 * t.val + p.val, hr⟩ : Fin 100000) q := by
    funext a; apply Fin.ext
    match a with
    | ⟨0, _⟩ => show win7_5.index t (0 : Fin 2) * 5000 + 1 * p.val = 5000 * t.val + p.val; rw [e10]; omega
    | ⟨1, _⟩ => show win7_5.index t (1 : Fin 2) * 128 + 1 * q.val = q.val; rw [e11]; omega
  exact (hmid7_apply V c t p q ⟨5000 * t.val + p.val, hr⟩ rfl).trans (congrArg (yarr7 V c) hemb).symm

theorem rows_covered7 (i : S100000x128.Idx) :
    ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  obtain ⟨t, ht⟩ : ∃ t : Fin cfg7.N, t.val = (i 0).val / 5000 := ⟨⟨(i 0).val / 5000, by omega⟩, rfl⟩
  obtain ⟨-, -, -, -, -, -, -, -, -, -, e10, e11, -⟩ := idx_facts7 t
  refine ⟨t, flush7_5 t, ?_⟩
  have hy : (i 0).val % 5000 < 5000 := Nat.mod_lt _ (by decide)
  have hi : i = ((cfg7.win 5).blk t).view.emb (ix2 (⟨(i 0).val % 5000, hy⟩ : Fin 5000) (⟨(i 1).val, hi1⟩ : Fin 128)) := by
    funext a; apply Fin.ext
    match a with
    | ⟨0, _⟩ => show (i 0).val = win7_5.index t (0 : Fin 2) * 5000 + 1 * ((i 0).val % 5000); rw [e10, ht]; omega
    | ⟨1, _⟩ => show (i 1).val = win7_5.index t (1 : Fin 2) * 128 + 1 * (i 1).val; rw [e11]; omega
  rw [hi]; exact View.emb_mem_set _ _

theorem val7_hmid (c : Dev nD) :
    (dat7 (F := Ideal) V c).arrAt 5 cfg7.N
      = Cert.Fn.linG (V c (Pipeline.arrRef spec7 0)) (V c (Pipeline.arrRef spec7 1)) (V c (Pipeline.arrRef spec7 2)) (V c (Pipeline.arrRef spec7 3)) (V c (Pipeline.arrRef spec7 4)) :=
  (dat7 V c).arrAt_eq_of_cover 5 (yarr7 V c) (fun t _ => flushed7_5_eq V c t) rows_covered7

theorem acc7_sum_apply (c : Dev nD) (q : Fin 128) : ∀ (n : ℕ) (hn : n < 20),
    (acc7 (F := Ideal) V c n).1 (ix2 (0 : Fin 1) q)
      = ∑ t' : Fin (n + 1), ∑ p : Fin 5000, yarr7 V c (ix2 (⟨5000 * t'.val + p.val, by have := t'.isLt; have := p.isLt; omega⟩ : Fin 100000) q) := by
  have hN : cfg7.N = 20 := N_7
  intro n
  induction n with
  | zero =>
    intro hn
    have h0 : 0 < cfg7.N := by omega
    rw [acc7_zero]; unfold stepAt7; rw [dif_pos h0]
    show k7_pay5 (F := Ideal) (iblk7 V c 0 ⟨0, h0⟩) (iblk7 V c 1 ⟨0, h0⟩) (iblk7 V c 3 ⟨0, h0⟩) (iblk7 V c 4 ⟨0, h0⟩) (iblk7 V c 2 ⟨0, h0⟩) (k7_pay2 (F := Ideal)) (ix2 (0 : Fin 1) q) = _
    refine (pay7_sum_apply _ _ _ _ _ _ q).trans ?_
    rw [pay7_zero_sum_apply, zero_add, Fin.sum_univ_one]
    exact Finset.sum_congr rfl fun p _ => hmid7_apply V c ⟨0, h0⟩ p q _ rfl
  | succ n ih =>
    intro hn
    have h1 : n + 1 < cfg7.N := by omega
    rw [acc7_succ]; unfold stepAt7; rw [dif_pos h1]
    show k7_pay5 (F := Ideal) (iblk7 V c 0 ⟨n + 1, h1⟩) (iblk7 V c 1 ⟨n + 1, h1⟩) (iblk7 V c 3 ⟨n + 1, h1⟩) (iblk7 V c 4 ⟨n + 1, h1⟩) (iblk7 V c 2 ⟨n + 1, h1⟩) (acc7 (F := Ideal) V c n).1 (ix2 (0 : Fin 1) q) = _
    refine (pay7_sum_apply _ _ _ _ _ _ q).trans ?_
    rw [ih (by omega), Fin.sum_univ_castSucc (n := n + 1)]
    refine congrArg₂ (· + ·) rfl ?_
    exact Finset.sum_congr rfl fun p _ => hmid7_apply V c ⟨n + 1, h1⟩ p q _ rfl

theorem acc7_sumsq_apply (c : Dev nD) (q : Fin 128) : ∀ (n : ℕ) (hn : n < 20),
    (acc7 (F := Ideal) V c n).2 (ix2 (0 : Fin 1) q)
      = ∑ t' : Fin (n + 1), ∑ p : Fin 5000,
          yarr7 V c (ix2 (⟨5000 * t'.val + p.val, by have := t'.isLt; have := p.isLt; omega⟩ : Fin 100000) q)
            * yarr7 V c (ix2 (⟨5000 * t'.val + p.val, by have := t'.isLt; have := p.isLt; omega⟩ : Fin 100000) q) := by
  have hN : cfg7.N = 20 := N_7
  intro n
  induction n with
  | zero =>
    intro hn
    have h0 : 0 < cfg7.N := by omega
    rw [acc7_zero]; unfold stepAt7; rw [dif_pos h0]
    show k7_pay1 (F := Ideal) (k7_pay3 (F := Ideal)) (k7_pay6 (F := Ideal) (iblk7 V c 0 ⟨0, h0⟩) (iblk7 V c 1 ⟨0, h0⟩) (iblk7 V c 3 ⟨0, h0⟩) (iblk7 V c 4 ⟨0, h0⟩) (iblk7 V c 2 ⟨0, h0⟩)) (ix2 (0 : Fin 1) q) = _
    refine (pay7_sumsq_apply _ _ _ _ _ _ q).trans ?_
    rw [pay7_zero_sumsq_apply, zero_add, Fin.sum_univ_one]
    exact Finset.sum_congr rfl fun p _ => congrArg₂ (· * ·) (hmid7_apply V c ⟨0, h0⟩ p q _ rfl) (hmid7_apply V c ⟨0, h0⟩ p q _ rfl)
  | succ n ih =>
    intro hn
    have h1 : n + 1 < cfg7.N := by omega
    rw [acc7_succ]; unfold stepAt7; rw [dif_pos h1]
    show k7_pay1 (F := Ideal) (acc7 (F := Ideal) V c n).2 (k7_pay6 (F := Ideal) (iblk7 V c 0 ⟨n + 1, h1⟩) (iblk7 V c 1 ⟨n + 1, h1⟩) (iblk7 V c 3 ⟨n + 1, h1⟩) (iblk7 V c 4 ⟨n + 1, h1⟩) (iblk7 V c 2 ⟨n + 1, h1⟩)) (ix2 (0 : Fin 1) q) = _
    refine (pay7_sumsq_apply _ _ _ _ _ _ q).trans ?_
    rw [ih (by omega), Fin.sum_univ_castSucc (n := n + 1)]
    refine congrArg₂ (· + ·) rfl ?_
    exact Finset.sum_congr rfl fun p _ => congrArg₂ (· * ·) (hmid7_apply V c ⟨n + 1, h1⟩ p q _ rfl) (hmid7_apply V c ⟨n + 1, h1⟩ p q _ rfl)

theorem acc7_last_sum (c : Dev nD) (q : Fin 128) :
    (acc7 (F := Ideal) V c 19).1 (ix2 (0 : Fin 1) q) = Cert.Fn.colsum (yarr7 V c) (ix2 (0 : Fin 1) q) :=
  (acc7_sum_apply V c q 19 (by decide)).trans ((sum_rows_tiles fun r => yarr7 V c (ix2 r q)).symm.trans (Cert.Fn.colsum_apply _ q).symm)

theorem acc7_last_sumsq (c : Dev nD) (q : Fin 128) :
    (acc7 (F := Ideal) V c 19).2 (ix2 (0 : Fin 1) q) = Cert.Fn.colsumsq (yarr7 V c) (ix2 (0 : Fin 1) q) :=
  (acc7_sumsq_apply V c q 19 (by decide)).trans ((sum_rows_tiles fun r => yarr7 V c (ix2 r q) * yarr7 V c (ix2 r q)).symm.trans (Cert.Fn.colsumsq_apply _ q).symm)

theorem emb7_6 (t : Fin cfg7.N) (j : S1x128.Idx) : ((cfg7.win 6).blk t).view.emb j = j := by
  obtain ⟨-, -, -, -, -, -, -, -, -, -, -, -, e12, e13, -⟩ := idx_facts7 t
  funext a; apply Fin.ext
  match a with
  | ⟨0, _⟩ => show win7_6.index t (0 : Fin 2) * 1 + 1 * (j 0).val = (j 0).val; rw [e12]; omega
  | ⟨1, _⟩ => show win7_6.index t (1 : Fin 2) * 128 + 1 * (j 1).val = (j 1).val; rw [e13]; omega

theorem emb7_7 (t : Fin cfg7.N) (j : S1x128.Idx) : ((cfg7.win 7).blk t).view.emb j = j := by
  obtain ⟨-, -, -, -, -, -, -, -, -, -, -, -, -, -, e14, e15⟩ := idx_facts7 t
  funext a; apply Fin.ext
  match a with
  | ⟨0, _⟩ => show win7_7.index t (0 : Fin 2) * 1 + 1 * (j 0).val = (j 0).val; rw [e14]; omega
  | ⟨1, _⟩ => show win7_7.index t (1 : Fin 2) * 128 + 1 * (j 1).val = (j 1).val; rw [e15]; omega

theorem flushed7_6_of (c : Dev nD) (t : Fin cfg7.N) (G : Cert.Fn.OD)
    (h : ∀ q : Fin 128, (acc7 (F := Ideal) V c t.val).1 (ix2 (0 : Fin 1) q) = G (ix2 (0 : Fin 1) q)) :
    (dat7 (F := Ideal) V c).flushed 6 t = ((cfg7.win 6).blk t).view.read (Elt Ideal) G := by
  show (cfg7.win 6).cut (grid7.coords t) ((dat7 V c).after 6 t) = _
  rw [after7_6]
  refine funext fun (j : S1x128.Idx) => ?_
  show (acc7 (F := Ideal) V c t.val).1 j = G (((cfg7.win 6).blk t).view.emb j)
  rw [emb7_6 t j]
  obtain ⟨u, q, rfl⟩ : ∃ (u : Fin 1) (q : Fin 128), j = ix2 u q := ⟨j 0, j 1, eq_ix2 j⟩
  obtain rfl : u = 0 := Subsingleton.elim _ _
  exact h q

theorem flushed7_6_eq (c : Dev nD) (t : Fin cfg7.N) (hf : (cfg7.win 6).flush t = true) :
    (dat7 (F := Ideal) V c).flushed 6 t = ((cfg7.win 6).blk t).view.read (Elt Ideal) (Cert.Fn.colsum (yarr7 V c)) := by
  have hN : cfg7.N = 20 := N_7
  have h19 : t.val = 19 := by have := (flush7_6 t).mp hf; have := t.isLt; omega
  refine flushed7_6_of V c t _ fun q => ?_
  rw [h19]; exact acc7_last_sum V c q

theorem flushed7_7_of (c : Dev nD) (t : Fin cfg7.N) (G : Cert.Fn.OD)
    (h : ∀ q : Fin 128, (acc7 (F := Ideal) V c t.val).2 (ix2 (0 : Fin 1) q) = G (ix2 (0 : Fin 1) q)) :
    (dat7 (F := Ideal) V c).flushed 7 t = ((cfg7.win 7).blk t).view.read (Elt Ideal) G := by
  show (cfg7.win 7).cut (grid7.coords t) ((dat7 V c).after 7 t) = _
  rw [after7_7]
  refine funext fun (j : S1x128.Idx) => ?_
  show (acc7 (F := Ideal) V c t.val).2 j = G (((cfg7.win 7).blk t).view.emb j)
  rw [emb7_7 t j]
  obtain ⟨u, q, rfl⟩ : ∃ (u : Fin 1) (q : Fin 128), j = ix2 u q := ⟨j 0, j 1, eq_ix2 j⟩
  obtain rfl : u = 0 := Subsingleton.elim _ _
  exact h q

theorem flushed7_7_eq (c : Dev nD) (t : Fin cfg7.N) (hf : (cfg7.win 7).flush t = true) :
    (dat7 (F := Ideal) V c).flushed 7 t = ((cfg7.win 7).blk t).view.read (Elt Ideal) (Cert.Fn.colsumsq (yarr7 V c)) := by
  have hN : cfg7.N = 20 := N_7
  have h19 : t.val = 19 := by have := (flush7_7 t).mp hf; have := t.isLt; omega
  refine flushed7_7_of V c t _ fun q => ?_
  rw [h19]; exact acc7_last_sumsq V c q

theorem row_covered7_6 (i : S1x128.Idx) : ∃ t : Fin cfg7.N, (cfg7.win 6).flush t = true ∧ i ∈ ((cfg7.win 6).blk t).view.set := by
  have hN : cfg7.N = 20 := N_7
  obtain ⟨t, ht⟩ : ∃ t : Fin cfg7.N, t.val = 19 := ⟨⟨19, by omega⟩, rfl⟩
  refine ⟨t, (flush7_6 t).mpr (by rw [ht]), ?_⟩
  have : i = ((cfg7.win 6).blk t).view.emb i := (emb7_6 t i).symm
  rw [this]; exact View.emb_mem_set _ _

theorem row_covered7_7 (i : S1x128.Idx) : ∃ t : Fin cfg7.N, (cfg7.win 7).flush t = true ∧ i ∈ ((cfg7.win 7).blk t).view.set := by
  have hN : cfg7.N = 20 := N_7
  obtain ⟨t, ht⟩ : ∃ t : Fin cfg7.N, t.val = 19 := ⟨⟨19, by omega⟩, rfl⟩
  refine ⟨t, (flush7_7 t).mpr (by rw [ht]), ?_⟩
  have : i = ((cfg7.win 7).blk t).view.emb i := (emb7_7 t i).symm
  rw [this]; exact View.emb_mem_set _ _

theorem val7_sum (c : Dev nD) :
    (dat7 (F := Ideal) V c).arrAt 6 cfg7.N
      = Cert.Fn.colsum (Cert.Fn.linG (V c (Pipeline.arrRef spec7 0)) (V c (Pipeline.arrRef spec7 1)) (V c (Pipeline.arrRef spec7 2)) (V c (Pipeline.arrRef spec7 3)) (V c (Pipeline.arrRef spec7 4))) :=
  (dat7 V c).arrAt_eq_of_cover 6 (Cert.Fn.colsum (yarr7 V c)) (flushed7_6_eq V c) row_covered7_6

theorem val7_sumsq (c : Dev nD) :
    (dat7 (F := Ideal) V c).arrAt 7 cfg7.N
      = Cert.Fn.colsumsq (Cert.Fn.linG (V c (Pipeline.arrRef spec7 0)) (V c (Pipeline.arrRef spec7 1)) (V c (Pipeline.arrRef spec7 2)) (V c (Pipeline.arrRef spec7 3)) (V c (Pipeline.arrRef spec7 4))) :=
  (dat7 V c).arrAt_eq_of_cover 7 (Cert.Fn.colsumsq (yarr7 V c)) (flushed7_7_eq V c) row_covered7_7

end Cert.KernelIdeal.Hand

end
-- ==== Proof.KI.Val8.lean ====
import proofs.«164939_j7129645711575_2_alg».proof.Proof.KI.R8
import proofs.«164939_j7129645711575_2_alg».proof.Proof.Fn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem val8_hz : (![0, 0] : Fin 2 → Nat) = fun _ => 0 := funext fun a => by fin_cases a <;> rfl

theorem val8_pay (x0 x1 : Vec Ideal S5000x128 .f32) (x2 x3 x4 x5 : Vec Ideal S1x128 .f32) (p : Fin 5000) (q : Fin 128) :
    k8_pay1 x0 x2 x3 x4 x5 x1 (ix2 p q)
      = x1 (ix2 p q) + max (((x0 (ix2 p q) - x2 (ix2 0 q))
          * Ideal.rsqrt (x3 (ix2 0 q) + Ideal.ofBits .f32 0x3727C5AC#32)) * x4 (ix2 0 q) + x5 (ix2 0 q)) 0 := by
  unfold k8_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply]
  show x1 (ix2 p q) + max (((x0 (ix2 p q) - x2 (ix2 0 q))
      * Ideal.rsqrt (x3 (ix2 0 q) + Ideal.ofBits .f32 0x3727C5AC#32)) * x4 (ix2 0 q) + x5 (ix2 0 q))
        (Ideal.ofBits .f32 0x00000000#32) = _
  rw [Ideal.ofBits_zero_f32]

theorem val8_point (x0 x1 : Vec Ideal S5000x128 .f32) (x2 x3 x4 x5 : Vec Ideal S1x128 .f32)
    (a0 a1 : Cert.Fn.ND) (a2 a3 a4 a5 : Cert.Fn.OD) (p : Fin 5000) (q : Fin 128) (r : Fin 100000)
    (h0 : x0 (ix2 p q) = a0 (ix2 r q)) (h1 : x1 (ix2 p q) = a1 (ix2 r q))
    (h2 : x2 (ix2 0 q) = a2 (ix2 0 q)) (h3 : x3 (ix2 0 q) = a3 (ix2 0 q))
    (h4 : x4 (ix2 0 q) = a4 (ix2 0 q)) (h5 : x5 (ix2 0 q) = a5 (ix2 0 q)) :
    k8_pay1 x0 x2 x3 x4 x5 x1 (ix2 p q) = Cert.Fn.bnG a0 a1 a2 a3 a4 a5 (ix2 r q) := by
  rw [val8_pay, Cert.Fn.bnG_apply, h0, h1, h2, h3, h4, h5]

theorem val8_npts : ∀ t : Fin cfg8.N, t.val < 20 := (by decide +kernel : ∀ t : Fin grid8.N, _)

theorem val8_idx0 : ∀ t : Fin cfg8.N, (cfg8.win 0).index t (0 : Fin 2) = t.val ∧ (cfg8.win 0).index t (1 : Fin 2) = 0 :=
  (by decide +kernel : ∀ t : Fin grid8.N, _)

theorem val8_idx1 : ∀ t : Fin cfg8.N, (cfg8.win 1).index t (0 : Fin 2) = t.val ∧ (cfg8.win 1).index t (1 : Fin 2) = 0 :=
  (by decide +kernel : ∀ t : Fin grid8.N, _)

theorem val8_idx2 : ∀ t : Fin cfg8.N, (cfg8.win 2).index t (0 : Fin 2) = 0 ∧ (cfg8.win 2).index t (1 : Fin 2) = 0 :=
  (by decide +kernel : ∀ t : Fin grid8.N, _)

theorem val8_idx3 : ∀ t : Fin cfg8.N, (cfg8.win 3).index t (0 : Fin 2) = 0 ∧ (cfg8.win 3).index t (1 : Fin 2) = 0 :=
  (by decide +kernel : ∀ t : Fin grid8.N, _)

theorem val8_idx4 : ∀ t : Fin cfg8.N, (cfg8.win 4).index t (0 : Fin 2) = 0 ∧ (cfg8.win 4).index t (1 : Fin 2) = 0 :=
  (by decide +kernel : ∀ t : Fin grid8.N, _)

theorem val8_idx5 : ∀ t : Fin cfg8.N, (cfg8.win 5).index t (0 : Fin 2) = 0 ∧ (cfg8.win 5).index t (1 : Fin 2) = 0 :=
  (by decide +kernel : ∀ t : Fin grid8.N, _)

theorem val8_idx6 : ∀ t : Fin cfg8.N, (cfg8.win 6).index t (0 : Fin 2) = t.val ∧ (cfg8.win 6).index t (1 : Fin 2) = 0 :=
  (by decide +kernel : ∀ t : Fin grid8.N, _)

theorem val8_in0 (c : Dev nD) (t : Fin cfg8.N) (p : Fin 5000) (q : Fin 128) (h : t.val * 5000 + p.val < 100000) :
    iblk8 V c 0 t (ix2 p q) = V c (Pipeline.arrRef spec8 0) (ix2 (⟨t.val * 5000 + p.val, h⟩ : Fin 100000) q) := by
  obtain ⟨e0, e1⟩ := val8_idx0 t
  show V c (Pipeline.arrRef spec8 0) (((cfg8.win 0).blk t).view.emb (ix2 p q)) = _
  refine congrArg (V c (Pipeline.arrRef spec8 0)) (funext fun a => Fin.ext ?_)
  match a with
  | ⟨0, _⟩ => show (cfg8.win 0).index t (0 : Fin 2) * 5000 + 1 * p.val = t.val * 5000 + p.val; rw [e0]; omega
  | ⟨1, _⟩ => show (cfg8.win 0).index t (1 : Fin 2) * 128 + 1 * q.val = q.val; rw [e1]; omega

theorem val8_in1 (c : Dev nD) (t : Fin cfg8.N) (p : Fin 5000) (q : Fin 128) (h : t.val * 5000 + p.val < 100000) :
    iblk8 V c 1 t (ix2 p q) = V c (Pipeline.arrRef spec8 1) (ix2 (⟨t.val * 5000 + p.val, h⟩ : Fin 100000) q) := by
  obtain ⟨e0, e1⟩ := val8_idx1 t
  show V c (Pipeline.arrRef spec8 1) (((cfg8.win 1).blk t).view.emb (ix2 p q)) = _
  refine congrArg (V c (Pipeline.arrRef spec8 1)) (funext fun a => Fin.ext ?_)
  match a with
  | ⟨0, _⟩ => show (cfg8.win 1).index t (0 : Fin 2) * 5000 + 1 * p.val = t.val * 5000 + p.val; rw [e0]; omega
  | ⟨1, _⟩ => show (cfg8.win 1).index t (1 : Fin 2) * 128 + 1 * q.val = q.val; rw [e1]; omega

theorem val8_in2 (c : Dev nD) (t : Fin cfg8.N) (q : Fin 128) :
    iblk8 V c 2 t (ix2 (0 : Fin 1) q) = V c (Pipeline.arrRef spec8 2) (ix2 (0 : Fin 1) q) := by
  obtain ⟨e0, e1⟩ := val8_idx2 t
  show V c (Pipeline.arrRef spec8 2) (((cfg8.win 2).blk t).view.emb (ix2 (0 : Fin 1) q)) = _
  refine congrArg (V c (Pipeline.arrRef spec8 2)) (funext fun a => Fin.ext ?_)
  match a with
  | ⟨0, _⟩ => show (cfg8.win 2).index t (0 : Fin 2) * 1 + 1 * 0 = 0; rw [e0]
  | ⟨1, _⟩ => show (cfg8.win 2).index t (1 : Fin 2) * 128 + 1 * q.val = q.val; rw [e1]; omega

theorem val8_in3 (c : Dev nD) (t : Fin cfg8.N) (q : Fin 128) :
    iblk8 V c 3 t (ix2 (0 : Fin 1) q) = V c (Pipeline.arrRef spec8 3) (ix2 (0 : Fin 1) q) := by
  obtain ⟨e0, e1⟩ := val8_idx3 t
  show V c (Pipeline.arrRef spec8 3) (((cfg8.win 3).blk t).view.emb (ix2 (0 : Fin 1) q)) = _
  refine congrArg (V c (Pipeline.arrRef spec8 3)) (funext fun a => Fin.ext ?_)
  match a with
  | ⟨0, _⟩ => show (cfg8.win 3).index t (0 : Fin 2) * 1 + 1 * 0 = 0; rw [e0]
  | ⟨1, _⟩ => show (cfg8.win 3).index t (1 : Fin 2) * 128 + 1 * q.val = q.val; rw [e1]; omega

theorem val8_in4 (c : Dev nD) (t : Fin cfg8.N) (q : Fin 128) :
    iblk8 V c 4 t (ix2 (0 : Fin 1) q) = V c (Pipeline.arrRef spec8 4) (ix2 (0 : Fin 1) q) := by
  obtain ⟨e0, e1⟩ := val8_idx4 t
  show V c (Pipeline.arrRef spec8 4) (((cfg8.win 4).blk t).view.emb (ix2 (0 : Fin 1) q)) = _
  refine congrArg (V c (Pipeline.arrRef spec8 4)) (funext fun a => Fin.ext ?_)
  match a with
  | ⟨0, _⟩ => show (cfg8.win 4).index t (0 : Fin 2) * 1 + 1 * 0 = 0; rw [e0]
  | ⟨1, _⟩ => show (cfg8.win 4).index t (1 : Fin 2) * 128 + 1 * q.val = q.val; rw [e1]; omega

theorem val8_in5 (c : Dev nD) (t : Fin cfg8.N) (q : Fin 128) :
    iblk8 V c 5 t (ix2 (0 : Fin 1) q) = V c (Pipeline.arrRef spec8 5) (ix2 (0 : Fin 1) q) := by
  obtain ⟨e0, e1⟩ := val8_idx5 t
  show V c (Pipeline.arrRef spec8 5) (((cfg8.win 5).blk t).view.emb (ix2 (0 : Fin 1) q)) = _
  refine congrArg (V c (Pipeline.arrRef spec8 5)) (funext fun a => Fin.ext ?_)
  match a with
  | ⟨0, _⟩ => show (cfg8.win 5).index t (0 : Fin 2) * 1 + 1 * 0 = 0; rw [e0]
  | ⟨1, _⟩ => show (cfg8.win 5).index t (1 : Fin 2) * 128 + 1 * q.val = q.val; rw [e1]; omega

theorem val8_out (t : Fin cfg8.N) (p : Fin 5000) (q : Fin 128) (h : t.val * 5000 + p.val < 100000) :
    ((cfg8.win 6).blk t).view.emb (ix2 p q) = ix2 (⟨t.val * 5000 + p.val, h⟩ : Fin 100000) q := by
  obtain ⟨e0, e1⟩ := val8_idx6 t
  funext a; apply Fin.ext
  match a with
  | ⟨0, _⟩ => show (cfg8.win 6).index t (0 : Fin 2) * 5000 + 1 * p.val = t.val * 5000 + p.val; rw [e0]; omega
  | ⟨1, _⟩ => show (cfg8.win 6).index t (1 : Fin 2) * 128 + 1 * q.val = q.val; rw [e1]; omega

theorem val8_stored (c : Dev nD) (t : Fin cfg8.N) :
    (dat8 V c).flushed 6 t
      = k8_pay1 (iblk8 V c 0 t) (iblk8 V c 2 t) (iblk8 V c 3 t) (iblk8 V c 4 t) (iblk8 V c 5 t) (iblk8 V c 1 t) := by
  show (cfg8.win 6).cut (grid8.coords t) ((dat8 V c).after 6 t) = _
  rw [after8_6]
  unfold out8_6
  rw [View.canon_unit_zero val8_hz]
  simp only [View.ld_unit_zero (S := S5000x128) val8_hz, View.ld_unit_zero (S := S1x128) val8_hz]
  rfl

theorem val8_flushed (c : Dev nD) (t : Fin cfg8.N) :
    (dat8 V c).flushed 6 t = ((cfg8.win 6).blk t).view.read (Elt Ideal)
      (Cert.Fn.bnG (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  rw [val8_stored]
  funext j
  obtain ⟨p, q, rfl⟩ : ∃ (p : Fin 5000) (q : Fin 128), j = ix2 p q := ⟨j 0, j 1, eq_ix2 j⟩
  have h : t.val * 5000 + p.val < 100000 := by have := val8_npts t; have := p.isLt; omega
  refine (val8_point _ _ _ _ _ _ _ _ _ _ _ _ p q ⟨t.val * 5000 + p.val, h⟩ (val8_in0 V c t p q h) (val8_in1 V c t p q h)
    (val8_in2 V c t q) (val8_in3 V c t q) (val8_in4 V c t q) (val8_in5 V c t q)).trans ?_
  exact congrArg (Cert.Fn.bnG _ _ _ _ _ _) (val8_out t p q h).symm

theorem val8_mem_blk (t : Fin cfg8.N) (i : S100000x128.Idx) :
    i ∈ ((cfg8.win 6).blk t).view.set ↔ ∀ a : Fin 2, (cfg8.win 6).index t a * S5000x128.size a ≤ (i a).val
      ∧ (i a).val < (cfg8.win 6).index t a * S5000x128.size a + S5000x128.size a := by
  show i ∈ ((View.whole (Pipeline.arrRef spec8 6)).slice ((cfg8.win 6).rect t)).set ↔ _
  rw [View.set_slice_whole, Rect.mem_set_unit]
  exact Iff.rfl

theorem val8_cover (i : S100000x128.Idx) :
    ∃ t : Fin cfg8.N, (cfg8.win 6).flush t = true ∧ i ∈ ((cfg8.win 6).blk t).view.set := by
  have hi0 : (i 0).val < 100000 := (i 0).isLt
  have hi1 : (i 1).val < 128 := (i 1).isLt
  obtain ⟨t, ht⟩ : ∃ t : Fin cfg8.N, t.val = (i 0).val / 5000 :=
    ⟨⟨(i 0).val / 5000, lt_of_lt_of_eq (by omega : (i 0).val / 5000 < 20) N_8.symm⟩, rfl⟩
  obtain ⟨e60, e61⟩ := val8_idx6 t
  refine ⟨t, flush8_6 t, ?_⟩
  rw [val8_mem_blk]
  intro a
  match a with
  | ⟨0, _⟩ =>
    show (cfg8.win 6).index t (0 : Fin 2) * 5000 ≤ (i 0).val ∧ (i 0).val < (cfg8.win 6).index t (0 : Fin 2) * 5000 + 5000
    rw [e60, ht]; omega
  | ⟨1, _⟩ =>
    show (cfg8.win 6).index t (1 : Fin 2) * 128 ≤ (i 1).val ∧ (i 1).val < (cfg8.win 6).index t (1 : Fin 2) * 128 + 128
    rw [e61]; omega

theorem val8 (c : Dev nD) :
    (dat8 (F := Ideal) V c).arrAt 6 cfg8.N
      = Cert.Fn.bnG (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5)) :=
  (dat8 V c).arrAt_eq_of_cover 6 _ (fun t _ => val8_flushed V c t) val8_cover

end Cert.KernelIdeal.Hand

end
-- ==== Proof.NetFn.lean ====
import proofs.«164939_j7129645711575_2_alg».proof.Proof.Gen.ReferenceIdeal
import proofs.«164939_j7129645711575_2_alg».proof.Proof.Spec
import proofs.«164939_j7129645711575_2_alg».proof.Proof.Fn
import proofs.«164939_j7129645711575_2_alg».proof.Proof.Layer
import proofs.«164939_j7129645711575_2_alg».proof.Proof.Ops

set_option maxRecDepth 16384

noncomputable section

namespace Cert.Bridge

open Cert.ReferenceIdeal Cert.ReferenceIdeal.Gen
open Idealize.ShloMosaic Idealize.ShloMosaic.ValueIdx
open Cert.Spec Cert.Fn Cert.Layer Cert.Ops
open scoped BigOperators

def layerK (h : ND) (x2 : NO) (x3 x4 : (⟨S1600000, .i32⟩ : BufTy).Contents (Elt Ideal)) (w : DD) (b g bt : OD) : ND :=
  bnG (linG (aggOps h (degOps x3) x3 x4) (degOps x4) x2 w b) h
    (muK (linG (aggOps h (degOps x3) x3 x4) (degOps x4) x2 w b))
    (varK (linG (aggOps h (degOps x3) x3 x4) (degOps x4) x2 w b)) g bt

def layerR (h : ND) (x2 : NO) (x3 x4 : (⟨S1600000, .i32⟩ : BufTy).Contents (Elt Ideal)) (w : DD) (b g bt : OD) : ND :=
  bnG (linG (aggOps h (degOps x3) x3 x4) (degOps x4) x2 w b) h
    (muR (linG (aggOps h (degOps x3) x3 x4) (degOps x4) x2 w b))
    (varR (linG (aggOps h (degOps x3) x3 x4) (degOps x4) x2 w b)) g bt

theorem layerK_eq_layerR (h : ND) (x2 : NO) (x3 x4 : (⟨S1600000, .i32⟩ : BufTy).Contents (Elt Ideal)) (w : DD)
    (b g bt : OD) (fin : AllFin (linG (aggOps h (degOps x3) x3 x4) (degOps x4) x2 w b)) :
    layerK h x2 x3 x4 w b g bt = layerR h x2 x3 x4 w b g bt :=
  bnG_K_eq_R fin h g bt

def netK (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x5 : (⟨S100000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) (x12 : (⟨S128x10, .f32⟩ : BufTy).Contents (Elt Ideal)) : (⟨S512x10, .f32⟩ : BufTy).Contents (Elt Ideal) :=
  readoutOps
    (layerK
      (layerK
        (layerK
          (layerK (embedG x0 x6 (biasRow x7)) x2 x3 x4
            (wSliceAt 0 slices_S4x128x128_S1x128x128_0_0_0 x8) (rowSliceAt 0 slices_S4x128_S1x128_0_0 x9)
            (rowSliceAt 0 slices_S4x128_S1x128_0_0 x10) (rowSliceAt 0 slices_S4x128_S1x128_0_0 x11))
          x2 x3 x4
          (wSliceAt 1 slices_S4x128x128_S1x128x128_1_0_0 x8) (rowSliceAt 1 slices_S4x128_S1x128_1_0 x9)
          (rowSliceAt 1 slices_S4x128_S1x128_1_0 x10) (rowSliceAt 1 slices_S4x128_S1x128_1_0 x11))
        x2 x3 x4
        (wSliceAt 2 slices_S4x128x128_S1x128x128_2_0_0 x8) (rowSliceAt 2 slices_S4x128_S1x128_2_0 x9)
        (rowSliceAt 2 slices_S4x128_S1x128_2_0 x10) (rowSliceAt 2 slices_S4x128_S1x128_2_0 x11))
      x2 x3 x4
      (wSliceAt 3 slices_S4x128x128_S1x128x128_3_0_0 x8) (rowSliceAt 3 slices_S4x128_S1x128_3_0 x9)
      (rowSliceAt 3 slices_S4x128_S1x128_3_0 x10) (rowSliceAt 3 slices_S4x128_S1x128_3_0 x11))
    x5 x12

end Cert.Bridge
-- ==== Proof.KI.Net.lean ====
import proofs.«164939_j7129645711575_2_alg».proof.Proof.Gen.KernelIdeal.Launch
import proofs.«164939_j7129645711575_2_alg».proof.Proof.Gen.KernelIdeal.Points
import proofs.«164939_j7129645711575_2_alg».proof.Proof.Gen.KernelIdeal.Skeleton
import proofs.«164939_j7129645711575_2_alg».proof.Proof.Gen.KernelIdeal.Regions
import proofs.«164939_j7129645711575_2_alg».proof.Proof.KI.Fam
import proofs.«164939_j7129645711575_2_alg».proof.Proof.KI.Glue
import proofs.«164939_j7129645711575_2_alg».proof.Proof.KI.Val0
import proofs.«164939_j7129645711575_2_alg».proof.Proof.KI.Val1
import proofs.«164939_j7129645711575_2_alg».proof.Proof.KI.Val2
import proofs.«164939_j7129645711575_2_alg».proof.Proof.KI.Val3
import proofs.«164939_j7129645711575_2_alg».proof.Proof.KI.Val4
import proofs.«164939_j7129645711575_2_alg».proof.Proof.KI.Val5
import proofs.«164939_j7129645711575_2_alg».proof.Proof.KI.Val6
import proofs.«164939_j7129645711575_2_alg».proof.Proof.KI.Val7
import proofs.«164939_j7129645711575_2_alg».proof.Proof.KI.Val8
import proofs.«164939_j7129645711575_2_alg».proof.Proof.NetFn
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

abbrev A0 (c : Dev nD) : Cert.Fn.ND := m ((c : Thread nD τ).loc main_arg0)

abbrev A2 (c : Dev nD) : Cert.Fn.NO := m ((c : Thread nD τ).loc main_arg2)

abbrev A3 (c : Dev nD) : (⟨Cert.ReferenceIdeal.S1600000, .i32⟩ : BufTy).Contents (Elt Ideal) := m ((c : Thread nD τ).loc main_arg3)

abbrev A4 (c : Dev nD) : (⟨Cert.ReferenceIdeal.S1600000, .i32⟩ : BufTy).Contents (Elt Ideal) := m ((c : Thread nD τ).loc main_arg4)

abbrev A5 (c : Dev nD) : (⟨Cert.ReferenceIdeal.S100000, .i32⟩ : BufTy).Contents (Elt Ideal) := m ((c : Thread nD τ).loc main_arg5)

abbrev A6 (c : Dev nD) : Cert.Fn.DD := m ((c : Thread nD τ).loc main_arg6)

abbrev A7 (c : Dev nD) : (⟨Cert.ReferenceIdeal.S128, .f32⟩ : BufTy).Contents (Elt Ideal) := m ((c : Thread nD τ).loc main_arg7)

abbrev A8 (c : Dev nD) : (⟨Cert.ReferenceIdeal.S4x128x128, .f32⟩ : BufTy).Contents (Elt Ideal) := m ((c : Thread nD τ).loc main_arg8)

abbrev A9 (c : Dev nD) : (⟨Cert.ReferenceIdeal.S4x128, .f32⟩ : BufTy).Contents (Elt Ideal) := m ((c : Thread nD τ).loc main_arg9)

abbrev A10 (c : Dev nD) : (⟨Cert.ReferenceIdeal.S4x128, .f32⟩ : BufTy).Contents (Elt Ideal) := m ((c : Thread nD τ).loc main_arg10)

abbrev A11 (c : Dev nD) : (⟨Cert.ReferenceIdeal.S4x128, .f32⟩ : BufTy).Contents (Elt Ideal) := m ((c : Thread nD τ).loc main_arg11)

abbrev A12 (c : Dev nD) : (⟨Cert.ReferenceIdeal.S128x10, .f32⟩ : BufTy).Contents (Elt Ideal) := m ((c : Thread nD τ).loc main_arg12)

def hK0 (c : Dev nD) : Cert.Fn.ND := Cert.Fn.embedG (A0 m c) (A6 m c) (Cert.Ops.biasRow (A7 m c))

def yK1 (c : Dev nD) : Cert.Fn.ND :=
  Cert.Fn.linG (Cert.Ops.aggOps (hK0 m c) (Cert.Ops.degOps (A3 m c)) (A3 m c) (A4 m c)) (Cert.Ops.degOps (A4 m c)) (A2 m c)
    (Cert.Ops.wSliceAt 0 Cert.ReferenceIdeal.Gen.slices_S4x128x128_S1x128x128_0_0_0 (A8 m c)) (Cert.Ops.rowSliceAt 0 Cert.ReferenceIdeal.Gen.slices_S4x128_S1x128_0_0 (A9 m c))

def hK1 (c : Dev nD) : Cert.Fn.ND :=
  Cert.Fn.bnG (yK1 m c) (hK0 m c) (Cert.Layer.muK (yK1 m c)) (Cert.Layer.varK (yK1 m c))
    (Cert.Ops.rowSliceAt 0 Cert.ReferenceIdeal.Gen.slices_S4x128_S1x128_0_0 (A10 m c)) (Cert.Ops.rowSliceAt 0 Cert.ReferenceIdeal.Gen.slices_S4x128_S1x128_0_0 (A11 m c))

theorem hK1_eq (c : Dev nD) :
    hK1 m c = Cert.Bridge.layerK (hK0 m c) (A2 m c) (A3 m c) (A4 m c) (Cert.Ops.wSliceAt 0 Cert.ReferenceIdeal.Gen.slices_S4x128x128_S1x128x128_0_0_0 (A8 m c)) (Cert.Ops.rowSliceAt 0 Cert.ReferenceIdeal.Gen.slices_S4x128_S1x128_0_0 (A9 m c))
      (Cert.Ops.rowSliceAt 0 Cert.ReferenceIdeal.Gen.slices_S4x128_S1x128_0_0 (A10 m c)) (Cert.Ops.rowSliceAt 0 Cert.ReferenceIdeal.Gen.slices_S4x128_S1x128_0_0 (A11 m c)) := rfl

def yK2 (c : Dev nD) : Cert.Fn.ND :=
  Cert.Fn.linG (Cert.Ops.aggOps (hK1 m c) (Cert.Ops.degOps (A3 m c)) (A3 m c) (A4 m c)) (Cert.Ops.degOps (A4 m c)) (A2 m c)
    (Cert.Ops.wSliceAt 1 Cert.ReferenceIdeal.Gen.slices_S4x128x128_S1x128x128_1_0_0 (A8 m c)) (Cert.Ops.rowSliceAt 1 Cert.ReferenceIdeal.Gen.slices_S4x128_S1x128_1_0 (A9 m c))

def hK2 (c : Dev nD) : Cert.Fn.ND :=
  Cert.Fn.bnG (yK2 m c) (hK1 m c) (Cert.Layer.muK (yK2 m c)) (Cert.Layer.varK (yK2 m c))
    (Cert.Ops.rowSliceAt 1 Cert.ReferenceIdeal.Gen.slices_S4x128_S1x128_1_0 (A10 m c)) (Cert.Ops.rowSliceAt 1 Cert.ReferenceIdeal.Gen.slices_S4x128_S1x128_1_0 (A11 m c))

theorem hK2_eq (c : Dev nD) :
    hK2 m c = Cert.Bridge.layerK (hK1 m c) (A2 m c) (A3 m c) (A4 m c) (Cert.Ops.wSliceAt 1 Cert.ReferenceIdeal.Gen.slices_S4x128x128_S1x128x128_1_0_0 (A8 m c)) (Cert.Ops.rowSliceAt 1 Cert.ReferenceIdeal.Gen.slices_S4x128_S1x128_1_0 (A9 m c))
      (Cert.Ops.rowSliceAt 1 Cert.ReferenceIdeal.Gen.slices_S4x128_S1x128_1_0 (A10 m c)) (Cert.Ops.rowSliceAt 1 Cert.ReferenceIdeal.Gen.slices_S4x128_S1x128_1_0 (A11 m c)) := rfl

def yK3 (c : Dev nD) : Cert.Fn.ND :=
  Cert.Fn.linG (Cert.Ops.aggOps (hK2 m c) (Cert.Ops.degOps (A3 m c)) (A3 m c) (A4 m c)) (Cert.Ops.degOps (A4 m c)) (A2 m c)
    (Cert.Ops.wSliceAt 2 Cert.ReferenceIdeal.Gen.slices_S4x128x128_S1x128x128_2_0_0 (A8 m c)) (Cert.Ops.rowSliceAt 2 Cert.ReferenceIdeal.Gen.slices_S4x128_S1x128_2_0 (A9 m c))

def hK3 (c : Dev nD) : Cert.Fn.ND :=
  Cert.Fn.bnG (yK3 m c) (hK2 m c) (Cert.Layer.muK (yK3 m c)) (Cert.Layer.varK (yK3 m c))
    (Cert.Ops.rowSliceAt 2 Cert.ReferenceIdeal.Gen.slices_S4x128_S1x128_2_0 (A10 m c)) (Cert.Ops.rowSliceAt 2 Cert.ReferenceIdeal.Gen.slices_S4x128_S1x128_2_0 (A11 m c))

theorem hK3_eq (c : Dev nD) :
    hK3 m c = Cert.Bridge.layerK (hK2 m c) (A2 m c) (A3 m c) (A4 m c) (Cert.Ops.wSliceAt 2 Cert.ReferenceIdeal.Gen.slices_S4x128x128_S1x128x128_2_0_0 (A8 m c)) (Cert.Ops.rowSliceAt 2 Cert.ReferenceIdeal.Gen.slices_S4x128_S1x128_2_0 (A9 m c))
      (Cert.Ops.rowSliceAt 2 Cert.ReferenceIdeal.Gen.slices_S4x128_S1x128_2_0 (A10 m c)) (Cert.Ops.rowSliceAt 2 Cert.ReferenceIdeal.Gen.slices_S4x128_S1x128_2_0 (A11 m c)) := rfl

def yK4 (c : Dev nD) : Cert.Fn.ND :=
  Cert.Fn.linG (Cert.Ops.aggOps (hK3 m c) (Cert.Ops.degOps (A3 m c)) (A3 m c) (A4 m c)) (Cert.Ops.degOps (A4 m c)) (A2 m c)
    (Cert.Ops.wSliceAt 3 Cert.ReferenceIdeal.Gen.slices_S4x128x128_S1x128x128_3_0_0 (A8 m c)) (Cert.Ops.rowSliceAt 3 Cert.ReferenceIdeal.Gen.slices_S4x128_S1x128_3_0 (A9 m c))

def hK4 (c : Dev nD) : Cert.Fn.ND :=
  Cert.Fn.bnG (yK4 m c) (hK3 m c) (Cert.Layer.muK (yK4 m c)) (Cert.Layer.varK (yK4 m c))
    (Cert.Ops.rowSliceAt 3 Cert.ReferenceIdeal.Gen.slices_S4x128_S1x128_3_0 (A10 m c)) (Cert.Ops.rowSliceAt 3 Cert.ReferenceIdeal.Gen.slices_S4x128_S1x128_3_0 (A11 m c))

theorem hK4_eq (c : Dev nD) :
    hK4 m c = Cert.Bridge.layerK (hK3 m c) (A2 m c) (A3 m c) (A4 m c) (Cert.Ops.wSliceAt 3 Cert.ReferenceIdeal.Gen.slices_S4x128x128_S1x128x128_3_0_0 (A8 m c)) (Cert.Ops.rowSliceAt 3 Cert.ReferenceIdeal.Gen.slices_S4x128_S1x128_3_0 (A9 m c))
      (Cert.Ops.rowSliceAt 3 Cert.ReferenceIdeal.Gen.slices_S4x128_S1x128_3_0 (A10 m c)) (Cert.Ops.rowSliceAt 3 Cert.ReferenceIdeal.Gen.slices_S4x128_S1x128_3_0 (A11 m c)) := rfl

theorem netK_unfold (c : Dev nD) :
    Cert.Bridge.netK (A0 m c) (A2 m c) (A3 m c) (A4 m c) (A5 m c) (A6 m c) (A7 m c) (A8 m c) (A9 m c) (A10 m c) (A11 m c) (A12 m c)
      = Cert.Ops.readoutOps (hK4 m c) (A5 m c) (A12 m c) := by
  rw [hK4_eq, hK3_eq, hK2_eq, hK1_eq]
  rfl

theorem embedG_congr {x x' : Cert.Fn.ND} {w w' : Cert.Fn.DD} {b b' : Cert.Fn.OD} (h0 : x = x') (h1 : w = w') (h2 : b = b') :
    Cert.Fn.embedG x w b = Cert.Fn.embedG x' w' b' := by
  subst h0 h1 h2; rfl

theorem aggOps_congr {h h' : (⟨Cert.ReferenceIdeal.S100000x128, .f32⟩ : BufTy).Contents (Elt Ideal)} {io io' : (⟨Cert.ReferenceIdeal.S100000x1, .f32⟩ : BufTy).Contents (Elt Ideal)}
    {x3 x3' x4 x4' : (⟨Cert.ReferenceIdeal.S1600000, .i32⟩ : BufTy).Contents (Elt Ideal)} (h0 : h = h') (h1 : io = io') (h2 : x3 = x3') (h3 : x4 = x4') :
    Cert.Ops.aggOps h io x3 x4 = Cert.Ops.aggOps h' io' x3' x4' := by
  subst h0 h1 h2 h3; rfl

theorem linG_congr {a a' : Cert.Fn.ND} {i i' g g' : Cert.Fn.NO} {w w' : Cert.Fn.DD} {b b' : Cert.Fn.OD}
    (h0 : a = a') (h1 : i = i') (h2 : g = g') (h3 : w = w') (h4 : b = b') :
    Cert.Fn.linG a i g w b = Cert.Fn.linG a' i' g' w' b' := by
  subst h0 h1 h2 h3 h4; rfl

theorem bnG_congr {y y' h h' : Cert.Fn.ND} {mu mu' var var' g g' b b' : Cert.Fn.OD}
    (h0 : y = y') (h1 : h = h') (h2 : mu = mu') (h3 : var = var') (h4 : g = g') (h5 : b = b') :
    Cert.Fn.bnG y h mu var g b = Cert.Fn.bnG y' h' mu' var' g' b' := by
  subst h0 h1 h2 h3 h4 h5; rfl

theorem readoutOps_congr {h h' : (⟨Cert.ReferenceIdeal.S100000x128, .f32⟩ : BufTy).Contents (Elt Ideal)} {x5 x5' : (⟨Cert.ReferenceIdeal.S100000, .i32⟩ : BufTy).Contents (Elt Ideal)}
    {x12 x12' : (⟨Cert.ReferenceIdeal.S128x10, .f32⟩ : BufTy).Contents (Elt Ideal)} (h0 : h = h') (h1 : x5 = x5') (h2 : x12 = x12') :
    Cert.Ops.readoutOps h x5 x12 = Cert.Ops.readoutOps h' x5' x12' := by
  subst h0 h1 h2; rfl

theorem s1 (c : Dev nD) (r : Ref sig .tc) (h : r ∉ hostOps0_W) :
    W1 m ρ c (Proc.devRef .tc r) = W0 m ρ c (Proc.devRef .tc r) :=
  StableHlo.after_of_writes_sub hostOps0 _ hostOps0_writes h

theorem s3 (c : Dev nD) (r : Ref sig .tc) (h : r ∉ hostOps1_W) :
    W3 m ρ c (Proc.devRef .tc r) = W2 m ρ c (Proc.devRef .tc r) :=
  StableHlo.after_of_writes_sub hostOps1 _ hostOps1_writes h

theorem s5 (c : Dev nD) (r : Ref sig .tc) (h : r ∉ hostOps2_W) :
    W5 m ρ c (Proc.devRef .tc r) = W4 m ρ c (Proc.devRef .tc r) :=
  StableHlo.after_of_writes_sub hostOps2 _ hostOps2_writes h

theorem s7 (c : Dev nD) (r : Ref sig .tc) (h : r ∉ hostOps3_W) :
    W7 m ρ c (Proc.devRef .tc r) = W6 m ρ c (Proc.devRef .tc r) :=
  StableHlo.after_of_writes_sub hostOps3 _ hostOps3_writes h

theorem s9 (c : Dev nD) (r : Ref sig .tc) (h : r ∉ hostOps4_W) :
    W9 m ρ c (Proc.devRef .tc r) = W8 m ρ c (Proc.devRef .tc r) :=
  StableHlo.after_of_writes_sub hostOps4 _ hostOps4_writes h

theorem s11 (c : Dev nD) (r : Ref sig .tc) (h : r ∉ hostOps5_W) :
    W11 m ρ c (Proc.devRef .tc r) = W10 m ρ c (Proc.devRef .tc r) :=
  StableHlo.after_of_writes_sub hostOps5 _ hostOps5_writes h

theorem s13 (c : Dev nD) (r : Ref sig .tc) (h : r ∉ hostOps6_W) :
    W13 m ρ c (Proc.devRef .tc r) = W12 m ρ c (Proc.devRef .tc r) :=
  StableHlo.after_of_writes_sub hostOps6 _ hostOps6_writes h

theorem s15 (c : Dev nD) (r : Ref sig .tc) (h : r ∉ hostOps7_W) :
    W15 m ρ c (Proc.devRef .tc r) = W14 m ρ c (Proc.devRef .tc r) :=
  StableHlo.after_of_writes_sub hostOps7 _ hostOps7_writes h

theorem s17 (c : Dev nD) (r : Ref sig .tc) (h : r ∉ hostOps8_W) :
    W17 m ρ c (Proc.devRef .tc r) = W16 m ρ c (Proc.devRef .tc r) :=
  StableHlo.after_of_writes_sub hostOps8 _ hostOps8_writes h

theorem v13_at1 (c : Dev nD) : W1 m ρ c (Proc.devRef .tc main_v13) = Cert.Ops.degOps (A3 m c) :=
  Glue.after0_v13 (W0 m ρ c)

theorem v16_at1 (c : Dev nD) : W1 m ρ c (Proc.devRef .tc main_v16) = Cert.Ops.degOps (A4 m c) :=
  Glue.after0_v16 (W0 m ρ c)

theorem in0_0 (c : Dev nD) : V1 m ρ c (Pipeline.arrRef spec0 0) = A0 m c := (s1 m ρ c main_arg0 (by decide))

theorem in0_1 (c : Dev nD) : V1 m ρ c (Pipeline.arrRef spec0 1) = A6 m c := (s1 m ρ c main_arg6 (by decide))

theorem in0_2 (c : Dev nD) : V1 m ρ c (Pipeline.arrRef spec0 2) = Cert.Ops.biasRow (A7 m c) := Glue.after0_v17 (W0 m ρ c)

theorem net_h0 (c : Dev nD) : W2 m ρ c (Proc.devRef .tc main_v18) = hK0 m c :=
  (W2_arr m ρ c 3).trans ((val0 (V1 m ρ) c).trans (embedG_congr (in0_0 m ρ c) (in0_1 m ρ c) (in0_2 m ρ c)))

theorem agg1_h (c : Dev nD) : W2 m ρ c (Proc.devRef .tc main_v18) = hK0 m c := net_h0 m ρ c

theorem agg1_io (c : Dev nD) : W2 m ρ c (Proc.devRef .tc main_v13) = Cert.Ops.degOps (A3 m c) :=
  (keep0 m ρ c main_v13 (by decide)).trans (v13_at1 m ρ c)

theorem agg1_x3 (c : Dev nD) : W2 m ρ c (Proc.devRef .tc main_arg3) = A3 m c := ((keep0 m ρ c main_arg3 (by decide)).trans (s1 m ρ c main_arg3 (by decide)))

theorem agg1_x4 (c : Dev nD) : W2 m ρ c (Proc.devRef .tc main_arg4) = A4 m c := ((keep0 m ρ c main_arg4 (by decide)).trans (s1 m ρ c main_arg4 (by decide)))

theorem in1_0 (c : Dev nD) : V3 m ρ c (Pipeline.arrRef spec1 0)
    = Cert.Ops.aggOps (hK0 m c) (Cert.Ops.degOps (A3 m c)) (A3 m c) (A4 m c) :=
  (Glue.after1_v30 (W2 m ρ c)).trans
    (aggOps_congr (agg1_h m ρ c) (agg1_io m ρ c) (agg1_x3 m ρ c) (agg1_x4 m ρ c))

theorem in1_1 (c : Dev nD) : V3 m ρ c (Pipeline.arrRef spec1 1) = Cert.Ops.degOps (A4 m c) :=
  ((s3 m ρ c main_v16 (by decide)).trans (keep0 m ρ c main_v16 (by decide))).trans (v16_at1 m ρ c)

theorem in1_2 (c : Dev nD) : V3 m ρ c (Pipeline.arrRef spec1 2) = A2 m c := ((s3 m ρ c main_arg2 (by decide)).trans ((keep0 m ρ c main_arg2 (by decide)).trans (s1 m ρ c main_arg2 (by decide))))

theorem in1_3 (c : Dev nD) : V3 m ρ c (Pipeline.arrRef spec1 3) = (Cert.Ops.wSliceAt 0 Cert.ReferenceIdeal.Gen.slices_S4x128x128_S1x128x128_0_0_0 (A8 m c)) :=
  (Glue.after1_v32 (W2 m ρ c)).trans
    (congrArg (Cert.Ops.wSliceAt 0 Cert.ReferenceIdeal.Gen.slices_S4x128x128_S1x128x128_0_0_0) ((keep0 m ρ c main_arg8 (by decide)).trans (s1 m ρ c main_arg8 (by decide))))

theorem in1_4 (c : Dev nD) : V3 m ρ c (Pipeline.arrRef spec1 4) = (Cert.Ops.rowSliceAt 0 Cert.ReferenceIdeal.Gen.slices_S4x128_S1x128_0_0 (A9 m c)) :=
  (Glue.after1_v35 (W2 m ρ c)).trans
    (congrArg (Cert.Ops.rowSliceAt 0 Cert.ReferenceIdeal.Gen.slices_S4x128_S1x128_0_0) ((keep0 m ρ c main_arg9 (by decide)).trans (s1 m ρ c main_arg9 (by decide))))

theorem net_lin1 (c : Dev nD) :
    Cert.Fn.linG (V3 m ρ c (Pipeline.arrRef spec1 0)) (V3 m ρ c (Pipeline.arrRef spec1 1))
      (V3 m ρ c (Pipeline.arrRef spec1 2)) (V3 m ρ c (Pipeline.arrRef spec1 3))
      (V3 m ρ c (Pipeline.arrRef spec1 4)) = yK1 m c :=
  linG_congr (in1_0 m ρ c) (in1_1 m ρ c) (in1_2 m ρ c) (in1_3 m ρ c) (in1_4 m ρ c)

theorem net_y1 (c : Dev nD) : W4 m ρ c (Proc.devRef .tc main_v36_0) = yK1 m c :=
  (W4_arr m ρ c 5).trans ((val1_hmid (V3 m ρ) c).trans (net_lin1 m ρ c))

theorem net_sum1 (c : Dev nD) : W4 m ρ c (Proc.devRef .tc main_v36_1) = Cert.Fn.colsum (yK1 m c) :=
  (W4_arr m ρ c 6).trans ((val1_sum (V3 m ρ) c).trans (congrArg Cert.Fn.colsum (net_lin1 m ρ c)))

theorem net_sumsq1 (c : Dev nD) : W4 m ρ c (Proc.devRef .tc main_v36_2) = Cert.Fn.colsumsq (yK1 m c) :=
  (W4_arr m ρ c 7).trans ((val1_sumsq (V3 m ρ) c).trans (congrArg Cert.Fn.colsumsq (net_lin1 m ρ c)))

theorem in2_0 (c : Dev nD) : V5 m ρ c (Pipeline.arrRef spec2 0) = yK1 m c :=
  (s5 m ρ c main_v36_0 (by decide)).trans (net_y1 m ρ c)

theorem in2_1 (c : Dev nD) : V5 m ρ c (Pipeline.arrRef spec2 1) = hK0 m c :=
  ((s5 m ρ c main_v18 (by decide)).trans ((keep1 m ρ c main_v18 (by decide)).trans (s3 m ρ c main_v18 (by decide)))).trans (net_h0 m ρ c)

theorem in2_2 (c : Dev nD) : V5 m ρ c (Pipeline.arrRef spec2 2) = Cert.Layer.muK (yK1 m c) :=
  Glue.after2_v51 (W4 m ρ c) (yK1 m c) (net_sum1 m ρ c)

theorem in2_3 (c : Dev nD) : V5 m ρ c (Pipeline.arrRef spec2 3) = Cert.Layer.varK (yK1 m c) :=
  Glue.after2_v52 (W4 m ρ c) (yK1 m c) (net_sum1 m ρ c) (net_sumsq1 m ρ c)

theorem in2_4 (c : Dev nD) : V5 m ρ c (Pipeline.arrRef spec2 4) = (Cert.Ops.rowSliceAt 0 Cert.ReferenceIdeal.Gen.slices_S4x128_S1x128_0_0 (A10 m c)) :=
  (Glue.after2_v53 (W4 m ρ c)).trans
    (congrArg (Cert.Ops.rowSliceAt 0 Cert.ReferenceIdeal.Gen.slices_S4x128_S1x128_0_0) ((keep1 m ρ c main_arg10 (by decide)).trans ((s3 m ρ c main_arg10 (by decide)).trans ((keep0 m ρ c main_arg10 (by decide)).trans (s1 m ρ c main_arg10 (by decide))))))

theorem in2_5 (c : Dev nD) : V5 m ρ c (Pipeline.arrRef spec2 5) = (Cert.Ops.rowSliceAt 0 Cert.ReferenceIdeal.Gen.slices_S4x128_S1x128_0_0 (A11 m c)) :=
  (Glue.after2_v54 (W4 m ρ c)).trans
    (congrArg (Cert.Ops.rowSliceAt 0 Cert.ReferenceIdeal.Gen.slices_S4x128_S1x128_0_0) ((keep1 m ρ c main_arg11 (by decide)).trans ((s3 m ρ c main_arg11 (by decide)).trans ((keep0 m ρ c main_arg11 (by decide)).trans (s1 m ρ c main_arg11 (by decide))))))

theorem net_h1 (c : Dev nD) : W6 m ρ c (Proc.devRef .tc main_v55) = hK1 m c :=
  (W6_arr m ρ c 6).trans ((val2 (V5 m ρ) c).trans
    (bnG_congr (in2_0 m ρ c) (in2_1 m ρ c) (in2_2 m ρ c) (in2_3 m ρ c) (in2_4 m ρ c) (in2_5 m ρ c)))

theorem agg2_h (c : Dev nD) : W6 m ρ c (Proc.devRef .tc main_v55) = hK1 m c := net_h1 m ρ c

theorem agg2_io (c : Dev nD) : W6 m ρ c (Proc.devRef .tc main_v13) = Cert.Ops.degOps (A3 m c) :=
  ((keep2 m ρ c main_v13 (by decide)).trans ((s5 m ρ c main_v13 (by decide)).trans ((keep1 m ρ c main_v13 (by decide)).trans ((s3 m ρ c main_v13 (by decide)).trans (keep0 m ρ c main_v13 (by decide)))))).trans (v13_at1 m ρ c)

theorem agg2_x3 (c : Dev nD) : W6 m ρ c (Proc.devRef .tc main_arg3) = A3 m c := ((keep2 m ρ c main_arg3 (by decide)).trans ((s5 m ρ c main_arg3 (by decide)).trans ((keep1 m ρ c main_arg3 (by decide)).trans ((s3 m ρ c main_arg3 (by decide)).trans ((keep0 m ρ c main_arg3 (by decide)).trans (s1 m ρ c main_arg3 (by decide)))))))

theorem agg2_x4 (c : Dev nD) : W6 m ρ c (Proc.devRef .tc main_arg4) = A4 m c := ((keep2 m ρ c main_arg4 (by decide)).trans ((s5 m ρ c main_arg4 (by decide)).trans ((keep1 m ρ c main_arg4 (by decide)).trans ((s3 m ρ c main_arg4 (by decide)).trans ((keep0 m ρ c main_arg4 (by decide)).trans (s1 m ρ c main_arg4 (by decide)))))))

theorem in3_0 (c : Dev nD) : V7 m ρ c (Pipeline.arrRef spec3 0)
    = Cert.Ops.aggOps (hK1 m c) (Cert.Ops.degOps (A3 m c)) (A3 m c) (A4 m c) :=
  (Glue.after3_v67 (W6 m ρ c)).trans
    (aggOps_congr (agg2_h m ρ c) (agg2_io m ρ c) (agg2_x3 m ρ c) (agg2_x4 m ρ c))

theorem in3_1 (c : Dev nD) : V7 m ρ c (Pipeline.arrRef spec3 1) = Cert.Ops.degOps (A4 m c) :=
  ((s7 m ρ c main_v16 (by decide)).trans ((keep2 m ρ c main_v16 (by decide)).trans ((s5 m ρ c main_v16 (by decide)).trans ((keep1 m ρ c main_v16 (by decide)).trans ((s3 m ρ c main_v16 (by decide)).trans (keep0 m ρ c main_v16 (by decide))))))).trans (v16_at1 m ρ c)

theorem in3_2 (c : Dev nD) : V7 m ρ c (Pipeline.arrRef spec3 2) = A2 m c := ((s7 m ρ c main_arg2 (by decide)).trans ((keep2 m ρ c main_arg2 (by decide)).trans ((s5 m ρ c main_arg2 (by decide)).trans ((keep1 m ρ c main_arg2 (by decide)).trans ((s3 m ρ c main_arg2 (by decide)).trans ((keep0 m ρ c main_arg2 (by decide)).trans (s1 m ρ c main_arg2 (by decide))))))))

theorem in3_3 (c : Dev nD) : V7 m ρ c (Pipeline.arrRef spec3 3) = (Cert.Ops.wSliceAt 1 Cert.ReferenceIdeal.Gen.slices_S4x128x128_S1x128x128_1_0_0 (A8 m c)) :=
  (Glue.after3_v69 (W6 m ρ c)).trans
    (congrArg (Cert.Ops.wSliceAt 1 Cert.ReferenceIdeal.Gen.slices_S4x128x128_S1x128x128_1_0_0) ((keep2 m ρ c main_arg8 (by decide)).trans ((s5 m ρ c main_arg8 (by decide)).trans ((keep1 m ρ c main_arg8 (by decide)).trans ((s3 m ρ c main_arg8 (by decide)).trans ((keep0 m ρ c main_arg8 (by decide)).trans (s1 m ρ c main_arg8 (by decide))))))))

theorem in3_4 (c : Dev nD) : V7 m ρ c (Pipeline.arrRef spec3 4) = (Cert.Ops.rowSliceAt 1 Cert.ReferenceIdeal.Gen.slices_S4x128_S1x128_1_0 (A9 m c)) :=
  (Glue.after3_v72 (W6 m ρ c)).trans
    (congrArg (Cert.Ops.rowSliceAt 1 Cert.ReferenceIdeal.Gen.slices_S4x128_S1x128_1_0) ((keep2 m ρ c main_arg9 (by decide)).trans ((s5 m ρ c main_arg9 (by decide)).trans ((keep1 m ρ c main_arg9 (by decide)).trans ((s3 m ρ c main_arg9 (by decide)).trans ((keep0 m ρ c main_arg9 (by decide)).trans (s1 m ρ c main_arg9 (by decide))))))))

theorem net_lin2 (c : Dev nD) :
    Cert.Fn.linG (V7 m ρ c (Pipeline.arrRef spec3 0)) (V7 m ρ c (Pipeline.arrRef spec3 1))
      (V7 m ρ c (Pipeline.arrRef spec3 2)) (V7 m ρ c (Pipeline.arrRef spec3 3))
      (V7 m ρ c (Pipeline.arrRef spec3 4)) = yK2 m c :=
  linG_congr (in3_0 m ρ c) (in3_1 m ρ c) (in3_2 m ρ c) (in3_3 m ρ c) (in3_4 m ρ c)

theorem net_y2 (c : Dev nD) : W8 m ρ c (Proc.devRef .tc main_v73_0) = yK2 m c :=
  (W8_arr m ρ c 5).trans ((val3_hmid (V7 m ρ) c).trans (net_lin2 m ρ c))

theorem net_sum2 (c : Dev nD) : W8 m ρ c (Proc.devRef .tc main_v73_1) = Cert.Fn.colsum (yK2 m c) :=
  (W8_arr m ρ c 6).trans ((val3_sum (V7 m ρ) c).trans (congrArg Cert.Fn.colsum (net_lin2 m ρ c)))

theorem net_sumsq2 (c : Dev nD) : W8 m ρ c (Proc.devRef .tc main_v73_2) = Cert.Fn.colsumsq (yK2 m c) :=
  (W8_arr m ρ c 7).trans ((val3_sumsq (V7 m ρ) c).trans (congrArg Cert.Fn.colsumsq (net_lin2 m ρ c)))

theorem in4_0 (c : Dev nD) : V9 m ρ c (Pipeline.arrRef spec4 0) = yK2 m c :=
  (s9 m ρ c main_v73_0 (by decide)).trans (net_y2 m ρ c)

theorem in4_1 (c : Dev nD) : V9 m ρ c (Pipeline.arrRef spec4 1) = hK1 m c :=
  ((s9 m ρ c main_v55 (by decide)).trans ((keep3 m ρ c main_v55 (by decide)).trans (s7 m ρ c main_v55 (by decide)))).trans (net_h1 m ρ c)

theorem in4_2 (c : Dev nD) : V9 m ρ c (Pipeline.arrRef spec4 2) = Cert.Layer.muK (yK2 m c) :=
  Glue.after4_v88 (W8 m ρ c) (yK2 m c) (net_sum2 m ρ c)

theorem in4_3 (c : Dev nD) : V9 m ρ c (Pipeline.arrRef spec4 3) = Cert.Layer.varK (yK2 m c) :=
  Glue.after4_v89 (W8 m ρ c) (yK2 m c) (net_sum2 m ρ c) (net_sumsq2 m ρ c)

theorem in4_4 (c : Dev nD) : V9 m ρ c (Pipeline.arrRef spec4 4) = (Cert.Ops.rowSliceAt 1 Cert.ReferenceIdeal.Gen.slices_S4x128_S1x128_1_0 (A10 m c)) :=
  (Glue.after4_v90 (W8 m ρ c)).trans
    (congrArg (Cert.Ops.rowSliceAt 1 Cert.ReferenceIdeal.Gen.slices_S4x128_S1x128_1_0) ((keep3 m ρ c main_arg10 (by decide)).trans ((s7 m ρ c main_arg10 (by decide)).trans ((keep2 m ρ c main_arg10 (by decide)).trans ((s5 m ρ c main_arg10 (by decide)).trans ((keep1 m ρ c main_arg10 (by decide)).trans ((s3 m ρ c main_arg10 (by decide)).trans ((keep0 m ρ c main_arg10 (by decide)).trans (s1 m ρ c main_arg10 (by decide))))))))))

theorem in4_5 (c : Dev nD) : V9 m ρ c (Pipeline.arrRef spec4 5) = (Cert.Ops.rowSliceAt 1 Cert.ReferenceIdeal.Gen.slices_S4x128_S1x128_1_0 (A11 m c)) :=
  (Glue.after4_v91 (W8 m ρ c)).trans
    (congrArg (Cert.Ops.rowSliceAt 1 Cert.ReferenceIdeal.Gen.slices_S4x128_S1x128_1_0) ((keep3 m ρ c main_arg11 (by decide)).trans ((s7 m ρ c main_arg11 (by decide)).trans ((keep2 m ρ c main_arg11 (by decide)).trans ((s5 m ρ c main_arg11 (by decide)).trans ((keep1 m ρ c main_arg11 (by decide)).trans ((s3 m ρ c main_arg11 (by decide)).trans ((keep0 m ρ c main_arg11 (by decide)).trans (s1 m ρ c main_arg11 (by decide))))))))))

theorem net_h2 (c : Dev nD) : W10 m ρ c (Proc.devRef .tc main_v92) = hK2 m c :=
  (W10_arr m ρ c 6).trans ((val4 (V9 m ρ) c).trans
    (bnG_congr (in4_0 m ρ c) (in4_1 m ρ c) (in4_2 m ρ c) (in4_3 m ρ c) (in4_4 m ρ c) (in4_5 m ρ c)))

theorem agg3_h (c : Dev nD) : W10 m ρ c (Proc.devRef .tc main_v92) = hK2 m c := net_h2 m ρ c

theorem agg3_io (c : Dev nD) : W10 m ρ c (Proc.devRef .tc main_v13) = Cert.Ops.degOps (A3 m c) :=
  ((keep4 m ρ c main_v13 (by decide)).trans ((s9 m ρ c main_v13 (by decide)).trans ((keep3 m ρ c main_v13 (by decide)).trans ((s7 m ρ c main_v13 (by decide)).trans ((keep2 m ρ c main_v13 (by decide)).trans ((s5 m ρ c main_v13 (by decide)).trans ((keep1 m ρ c main_v13 (by decide)).trans ((s3 m ρ c main_v13 (by decide)).trans (keep0 m ρ c main_v13 (by decide)))))))))).trans (v13_at1 m ρ c)

theorem agg3_x3 (c : Dev nD) : W10 m ρ c (Proc.devRef .tc main_arg3) = A3 m c := ((keep4 m ρ c main_arg3 (by decide)).trans ((s9 m ρ c main_arg3 (by decide)).trans ((keep3 m ρ c main_arg3 (by decide)).trans ((s7 m ρ c main_arg3 (by decide)).trans ((keep2 m ρ c main_arg3 (by decide)).trans ((s5 m ρ c main_arg3 (by decide)).trans ((keep1 m ρ c main_arg3 (by decide)).trans ((s3 m ρ c main_arg3 (by decide)).trans ((keep0 m ρ c main_arg3 (by decide)).trans (s1 m ρ c main_arg3 (by decide)))))))))))

theorem agg3_x4 (c : Dev nD) : W10 m ρ c (Proc.devRef .tc main_arg4) = A4 m c := ((keep4 m ρ c main_arg4 (by decide)).trans ((s9 m ρ c main_arg4 (by decide)).trans ((keep3 m ρ c main_arg4 (by decide)).trans ((s7 m ρ c main_arg4 (by decide)).trans ((keep2 m ρ c main_arg4 (by decide)).trans ((s5 m ρ c main_arg4 (by decide)).trans ((keep1 m ρ c main_arg4 (by decide)).trans ((s3 m ρ c main_arg4 (by decide)).trans ((keep0 m ρ c main_arg4 (by decide)).trans (s1 m ρ c main_arg4 (by decide)))))))))))

theorem in5_0 (c : Dev nD) : V11 m ρ c (Pipeline.arrRef spec5 0)
    = Cert.Ops.aggOps (hK2 m c) (Cert.Ops.degOps (A3 m c)) (A3 m c) (A4 m c) :=
  (Glue.after5_v104 (W10 m ρ c)).trans
    (aggOps_congr (agg3_h m ρ c) (agg3_io m ρ c) (agg3_x3 m ρ c) (agg3_x4 m ρ c))

theorem in5_1 (c : Dev nD) : V11 m ρ c (Pipeline.arrRef spec5 1) = Cert.Ops.degOps (A4 m c) :=
  ((s11 m ρ c main_v16 (by decide)).trans ((keep4 m ρ c main_v16 (by decide)).trans ((s9 m ρ c main_v16 (by decide)).trans ((keep3 m ρ c main_v16 (by decide)).trans ((s7 m ρ c main_v16 (by decide)).trans ((keep2 m ρ c main_v16 (by decide)).trans ((s5 m ρ c main_v16 (by decide)).trans ((keep1 m ρ c main_v16 (by decide)).trans ((s3 m ρ c main_v16 (by decide)).trans (keep0 m ρ c main_v16 (by decide))))))))))).trans (v16_at1 m ρ c)

theorem in5_2 (c : Dev nD) : V11 m ρ c (Pipeline.arrRef spec5 2) = A2 m c := ((s11 m ρ c main_arg2 (by decide)).trans ((keep4 m ρ c main_arg2 (by decide)).trans ((s9 m ρ c main_arg2 (by decide)).trans ((keep3 m ρ c main_arg2 (by decide)).trans ((s7 m ρ c main_arg2 (by decide)).trans ((keep2 m ρ c main_arg2 (by decide)).trans ((s5 m ρ c main_arg2 (by decide)).trans ((keep1 m ρ c main_arg2 (by decide)).trans ((s3 m ρ c main_arg2 (by decide)).trans ((keep0 m ρ c main_arg2 (by decide)).trans (s1 m ρ c main_arg2 (by decide))))))))))))

theorem in5_3 (c : Dev nD) : V11 m ρ c (Pipeline.arrRef spec5 3) = (Cert.Ops.wSliceAt 2 Cert.ReferenceIdeal.Gen.slices_S4x128x128_S1x128x128_2_0_0 (A8 m c)) :=
  (Glue.after5_v106 (W10 m ρ c)).trans
    (congrArg (Cert.Ops.wSliceAt 2 Cert.ReferenceIdeal.Gen.slices_S4x128x128_S1x128x128_2_0_0) ((keep4 m ρ c main_arg8 (by decide)).trans ((s9 m ρ c main_arg8 (by decide)).trans ((keep3 m ρ c main_arg8 (by decide)).trans ((s7 m ρ c main_arg8 (by decide)).trans ((keep2 m ρ c main_arg8 (by decide)).trans ((s5 m ρ c main_arg8 (by decide)).trans ((keep1 m ρ c main_arg8 (by decide)).trans ((s3 m ρ c main_arg8 (by decide)).trans ((keep0 m ρ c main_arg8 (by decide)).trans (s1 m ρ c main_arg8 (by decide))))))))))))

theorem in5_4 (c : Dev nD) : V11 m ρ c (Pipeline.arrRef spec5 4) = (Cert.Ops.rowSliceAt 2 Cert.ReferenceIdeal.Gen.slices_S4x128_S1x128_2_0 (A9 m c)) :=
  (Glue.after5_v109 (W10 m ρ c)).trans
    (congrArg (Cert.Ops.rowSliceAt 2 Cert.ReferenceIdeal.Gen.slices_S4x128_S1x128_2_0) ((keep4 m ρ c main_arg9 (by decide)).trans ((s9 m ρ c main_arg9 (by decide)).trans ((keep3 m ρ c main_arg9 (by decide)).trans ((s7 m ρ c main_arg9 (by decide)).trans ((keep2 m ρ c main_arg9 (by decide)).trans ((s5 m ρ c main_arg9 (by decide)).trans ((keep1 m ρ c main_arg9 (by decide)).trans ((s3 m ρ c main_arg9 (by decide)).trans ((keep0 m ρ c main_arg9 (by decide)).trans (s1 m ρ c main_arg9 (by decide))))))))))))

theorem net_lin3 (c : Dev nD) :
    Cert.Fn.linG (V11 m ρ c (Pipeline.arrRef spec5 0)) (V11 m ρ c (Pipeline.arrRef spec5 1))
      (V11 m ρ c (Pipeline.arrRef spec5 2)) (V11 m ρ c (Pipeline.arrRef spec5 3))
      (V11 m ρ c (Pipeline.arrRef spec5 4)) = yK3 m c :=
  linG_congr (in5_0 m ρ c) (in5_1 m ρ c) (in5_2 m ρ c) (in5_3 m ρ c) (in5_4 m ρ c)

theorem net_y3 (c : Dev nD) : W12 m ρ c (Proc.devRef .tc main_v110_0) = yK3 m c :=
  (W12_arr m ρ c 5).trans ((val5_hmid (V11 m ρ) c).trans (net_lin3 m ρ c))

theorem net_sum3 (c : Dev nD) : W12 m ρ c (Proc.devRef .tc main_v110_1) = Cert.Fn.colsum (yK3 m c) :=
  (W12_arr m ρ c 6).trans ((val5_sum (V11 m ρ) c).trans (congrArg Cert.Fn.colsum (net_lin3 m ρ c)))

theorem net_sumsq3 (c : Dev nD) : W12 m ρ c (Proc.devRef .tc main_v110_2) = Cert.Fn.colsumsq (yK3 m c) :=
  (W12_arr m ρ c 7).trans ((val5_sumsq (V11 m ρ) c).trans (congrArg Cert.Fn.colsumsq (net_lin3 m ρ c)))

theorem in6_0 (c : Dev nD) : V13 m ρ c (Pipeline.arrRef spec6 0) = yK3 m c :=
  (s13 m ρ c main_v110_0 (by decide)).trans (net_y3 m ρ c)

theorem in6_1 (c : Dev nD) : V13 m ρ c (Pipeline.arrRef spec6 1) = hK2 m c :=
  ((s13 m ρ c main_v92 (by decide)).trans ((keep5 m ρ c main_v92 (by decide)).trans (s11 m ρ c main_v92 (by decide)))).trans (net_h2 m ρ c)

theorem in6_2 (c : Dev nD) : V13 m ρ c (Pipeline.arrRef spec6 2) = Cert.Layer.muK (yK3 m c) :=
  Glue.after6_v125 (W12 m ρ c) (yK3 m c) (net_sum3 m ρ c)

theorem in6_3 (c : Dev nD) : V13 m ρ c (Pipeline.arrRef spec6 3) = Cert.Layer.varK (yK3 m c) :=
  Glue.after6_v126 (W12 m ρ c) (yK3 m c) (net_sum3 m ρ c) (net_sumsq3 m ρ c)

theorem in6_4 (c : Dev nD) : V13 m ρ c (Pipeline.arrRef spec6 4) = (Cert.Ops.rowSliceAt 2 Cert.ReferenceIdeal.Gen.slices_S4x128_S1x128_2_0 (A10 m c)) :=
  (Glue.after6_v127 (W12 m ρ c)).trans
    (congrArg (Cert.Ops.rowSliceAt 2 Cert.ReferenceIdeal.Gen.slices_S4x128_S1x128_2_0) ((keep5 m ρ c main_arg10 (by decide)).trans ((s11 m ρ c main_arg10 (by decide)).trans ((keep4 m ρ c main_arg10 (by decide)).trans ((s9 m ρ c main_arg10 (by decide)).trans ((keep3 m ρ c main_arg10 (by decide)).trans ((s7 m ρ c main_arg10 (by decide)).trans ((keep2 m ρ c main_arg10 (by decide)).trans ((s5 m ρ c main_arg10 (by decide)).trans ((keep1 m ρ c main_arg10 (by decide)).trans ((s3 m ρ c main_arg10 (by decide)).trans ((keep0 m ρ c main_arg10 (by decide)).trans (s1 m ρ c main_arg10 (by decide))))))))))))))

theorem in6_5 (c : Dev nD) : V13 m ρ c (Pipeline.arrRef spec6 5) = (Cert.Ops.rowSliceAt 2 Cert.ReferenceIdeal.Gen.slices_S4x128_S1x128_2_0 (A11 m c)) :=
  (Glue.after6_v128 (W12 m ρ c)).trans
    (congrArg (Cert.Ops.rowSliceAt 2 Cert.ReferenceIdeal.Gen.slices_S4x128_S1x128_2_0) ((keep5 m ρ c main_arg11 (by decide)).trans ((s11 m ρ c main_arg11 (by decide)).trans ((keep4 m ρ c main_arg11 (by decide)).trans ((s9 m ρ c main_arg11 (by decide)).trans ((keep3 m ρ c main_arg11 (by decide)).trans ((s7 m ρ c main_arg11 (by decide)).trans ((keep2 m ρ c main_arg11 (by decide)).trans ((s5 m ρ c main_arg11 (by decide)).trans ((keep1 m ρ c main_arg11 (by decide)).trans ((s3 m ρ c main_arg11 (by decide)).trans ((keep0 m ρ c main_arg11 (by decide)).trans (s1 m ρ c main_arg11 (by decide))))))))))))))

theorem net_h3 (c : Dev nD) : W14 m ρ c (Proc.devRef .tc main_v129) = hK3 m c :=
  (W14_arr m ρ c 6).trans ((val6 (V13 m ρ) c).trans
    (bnG_congr (in6_0 m ρ c) (in6_1 m ρ c) (in6_2 m ρ c) (in6_3 m ρ c) (in6_4 m ρ c) (in6_5 m ρ c)))

theorem agg4_h (c : Dev nD) : W14 m ρ c (Proc.devRef .tc main_v129) = hK3 m c := net_h3 m ρ c

theorem agg4_io (c : Dev nD) : W14 m ρ c (Proc.devRef .tc main_v13) = Cert.Ops.degOps (A3 m c) :=
  ((keep6 m ρ c main_v13 (by decide)).trans ((s13 m ρ c main_v13 (by decide)).trans ((keep5 m ρ c main_v13 (by decide)).trans ((s11 m ρ c main_v13 (by decide)).trans ((keep4 m ρ c main_v13 (by decide)).trans ((s9 m ρ c main_v13 (by decide)).trans ((keep3 m ρ c main_v13 (by decide)).trans ((s7 m ρ c main_v13 (by decide)).trans ((keep2 m ρ c main_v13 (by decide)).trans ((s5 m ρ c main_v13 (by decide)).trans ((keep1 m ρ c main_v13 (by decide)).trans ((s3 m ρ c main_v13 (by decide)).trans (keep0 m ρ c main_v13 (by decide)))))))))))))).trans (v13_at1 m ρ c)

theorem agg4_x3 (c : Dev nD) : W14 m ρ c (Proc.devRef .tc main_arg3) = A3 m c := ((keep6 m ρ c main_arg3 (by decide)).trans ((s13 m ρ c main_arg3 (by decide)).trans ((keep5 m ρ c main_arg3 (by decide)).trans ((s11 m ρ c main_arg3 (by decide)).trans ((keep4 m ρ c main_arg3 (by decide)).trans ((s9 m ρ c main_arg3 (by decide)).trans ((keep3 m ρ c main_arg3 (by decide)).trans ((s7 m ρ c main_arg3 (by decide)).trans ((keep2 m ρ c main_arg3 (by decide)).trans ((s5 m ρ c main_arg3 (by decide)).trans ((keep1 m ρ c main_arg3 (by decide)).trans ((s3 m ρ c main_arg3 (by decide)).trans ((keep0 m ρ c main_arg3 (by decide)).trans (s1 m ρ c main_arg3 (by decide)))))))))))))))

theorem agg4_x4 (c : Dev nD) : W14 m ρ c (Proc.devRef .tc main_arg4) = A4 m c := ((keep6 m ρ c main_arg4 (by decide)).trans ((s13 m ρ c main_arg4 (by decide)).trans ((keep5 m ρ c main_arg4 (by decide)).trans ((s11 m ρ c main_arg4 (by decide)).trans ((keep4 m ρ c main_arg4 (by decide)).trans ((s9 m ρ c main_arg4 (by decide)).trans ((keep3 m ρ c main_arg4 (by decide)).trans ((s7 m ρ c main_arg4 (by decide)).trans ((keep2 m ρ c main_arg4 (by decide)).trans ((s5 m ρ c main_arg4 (by decide)).trans ((keep1 m ρ c main_arg4 (by decide)).trans ((s3 m ρ c main_arg4 (by decide)).trans ((keep0 m ρ c main_arg4 (by decide)).trans (s1 m ρ c main_arg4 (by decide)))))))))))))))

theorem in7_0 (c : Dev nD) : V15 m ρ c (Pipeline.arrRef spec7 0)
    = Cert.Ops.aggOps (hK3 m c) (Cert.Ops.degOps (A3 m c)) (A3 m c) (A4 m c) :=
  (Glue.after7_v141 (W14 m ρ c)).trans
    (aggOps_congr (agg4_h m ρ c) (agg4_io m ρ c) (agg4_x3 m ρ c) (agg4_x4 m ρ c))

theorem in7_1 (c : Dev nD) : V15 m ρ c (Pipeline.arrRef spec7 1) = Cert.Ops.degOps (A4 m c) :=
  ((s15 m ρ c main_v16 (by decide)).trans ((keep6 m ρ c main_v16 (by decide)).trans ((s13 m ρ c main_v16 (by decide)).trans ((keep5 m ρ c main_v16 (by decide)).trans ((s11 m ρ c main_v16 (by decide)).trans ((keep4 m ρ c main_v16 (by decide)).trans ((s9 m ρ c main_v16 (by decide)).trans ((keep3 m ρ c main_v16 (by decide)).trans ((s7 m ρ c main_v16 (by decide)).trans ((keep2 m ρ c main_v16 (by decide)).trans ((s5 m ρ c main_v16 (by decide)).trans ((keep1 m ρ c main_v16 (by decide)).trans ((s3 m ρ c main_v16 (by decide)).trans (keep0 m ρ c main_v16 (by decide))))))))))))))).trans (v16_at1 m ρ c)

theorem in7_2 (c : Dev nD) : V15 m ρ c (Pipeline.arrRef spec7 2) = A2 m c := ((s15 m ρ c main_arg2 (by decide)).trans ((keep6 m ρ c main_arg2 (by decide)).trans ((s13 m ρ c main_arg2 (by decide)).trans ((keep5 m ρ c main_arg2 (by decide)).trans ((s11 m ρ c main_arg2 (by decide)).trans ((keep4 m ρ c main_arg2 (by decide)).trans ((s9 m ρ c main_arg2 (by decide)).trans ((keep3 m ρ c main_arg2 (by decide)).trans ((s7 m ρ c main_arg2 (by decide)).trans ((keep2 m ρ c main_arg2 (by decide)).trans ((s5 m ρ c main_arg2 (by decide)).trans ((keep1 m ρ c main_arg2 (by decide)).trans ((s3 m ρ c main_arg2 (by decide)).trans ((keep0 m ρ c main_arg2 (by decide)).trans (s1 m ρ c main_arg2 (by decide))))))))))))))))

theorem in7_3 (c : Dev nD) : V15 m ρ c (Pipeline.arrRef spec7 3) = (Cert.Ops.wSliceAt 3 Cert.ReferenceIdeal.Gen.slices_S4x128x128_S1x128x128_3_0_0 (A8 m c)) :=
  (Glue.after7_v143 (W14 m ρ c)).trans
    (congrArg (Cert.Ops.wSliceAt 3 Cert.ReferenceIdeal.Gen.slices_S4x128x128_S1x128x128_3_0_0) ((keep6 m ρ c main_arg8 (by decide)).trans ((s13 m ρ c main_arg8 (by decide)).trans ((keep5 m ρ c main_arg8 (by decide)).trans ((s11 m ρ c main_arg8 (by decide)).trans ((keep4 m ρ c main_arg8 (by decide)).trans ((s9 m ρ c main_arg8 (by decide)).trans ((keep3 m ρ c main_arg8 (by decide)).trans ((s7 m ρ c main_arg8 (by decide)).trans ((keep2 m ρ c main_arg8 (by decide)).trans ((s5 m ρ c main_arg8 (by decide)).trans ((keep1 m ρ c main_arg8 (by decide)).trans ((s3 m ρ c main_arg8 (by decide)).trans ((keep0 m ρ c main_arg8 (by decide)).trans (s1 m ρ c main_arg8 (by decide))))))))))))))))

theorem in7_4 (c : Dev nD) : V15 m ρ c (Pipeline.arrRef spec7 4) = (Cert.Ops.rowSliceAt 3 Cert.ReferenceIdeal.Gen.slices_S4x128_S1x128_3_0 (A9 m c)) :=
  (Glue.after7_v146 (W14 m ρ c)).trans
    (congrArg (Cert.Ops.rowSliceAt 3 Cert.ReferenceIdeal.Gen.slices_S4x128_S1x128_3_0) ((keep6 m ρ c main_arg9 (by decide)).trans ((s13 m ρ c main_arg9 (by decide)).trans ((keep5 m ρ c main_arg9 (by decide)).trans ((s11 m ρ c main_arg9 (by decide)).trans ((keep4 m ρ c main_arg9 (by decide)).trans ((s9 m ρ c main_arg9 (by decide)).trans ((keep3 m ρ c main_arg9 (by decide)).trans ((s7 m ρ c main_arg9 (by decide)).trans ((keep2 m ρ c main_arg9 (by decide)).trans ((s5 m ρ c main_arg9 (by decide)).trans ((keep1 m ρ c main_arg9 (by decide)).trans ((s3 m ρ c main_arg9 (by decide)).trans ((keep0 m ρ c main_arg9 (by decide)).trans (s1 m ρ c main_arg9 (by decide))))))))))))))))

theorem net_lin4 (c : Dev nD) :
    Cert.Fn.linG (V15 m ρ c (Pipeline.arrRef spec7 0)) (V15 m ρ c (Pipeline.arrRef spec7 1))
      (V15 m ρ c (Pipeline.arrRef spec7 2)) (V15 m ρ c (Pipeline.arrRef spec7 3))
      (V15 m ρ c (Pipeline.arrRef spec7 4)) = yK4 m c :=
  linG_congr (in7_0 m ρ c) (in7_1 m ρ c) (in7_2 m ρ c) (in7_3 m ρ c) (in7_4 m ρ c)

theorem net_y4 (c : Dev nD) : W16 m ρ c (Proc.devRef .tc main_v147_0) = yK4 m c :=
  (W16_arr m ρ c 5).trans ((val7_hmid (V15 m ρ) c).trans (net_lin4 m ρ c))

theorem net_sum4 (c : Dev nD) : W16 m ρ c (Proc.devRef .tc main_v147_1) = Cert.Fn.colsum (yK4 m c) :=
  (W16_arr m ρ c 6).trans ((val7_sum (V15 m ρ) c).trans (congrArg Cert.Fn.colsum (net_lin4 m ρ c)))

theorem net_sumsq4 (c : Dev nD) : W16 m ρ c (Proc.devRef .tc main_v147_2) = Cert.Fn.colsumsq (yK4 m c) :=
  (W16_arr m ρ c 7).trans ((val7_sumsq (V15 m ρ) c).trans (congrArg Cert.Fn.colsumsq (net_lin4 m ρ c)))

theorem in8_0 (c : Dev nD) : V17 m ρ c (Pipeline.arrRef spec8 0) = yK4 m c :=
  (s17 m ρ c main_v147_0 (by decide)).trans (net_y4 m ρ c)

theorem in8_1 (c : Dev nD) : V17 m ρ c (Pipeline.arrRef spec8 1) = hK3 m c :=
  ((s17 m ρ c main_v129 (by decide)).trans ((keep7 m ρ c main_v129 (by decide)).trans (s15 m ρ c main_v129 (by decide)))).trans (net_h3 m ρ c)

theorem in8_2 (c : Dev nD) : V17 m ρ c (Pipeline.arrRef spec8 2) = Cert.Layer.muK (yK4 m c) :=
  Glue.after8_v162 (W16 m ρ c) (yK4 m c) (net_sum4 m ρ c)

theorem in8_3 (c : Dev nD) : V17 m ρ c (Pipeline.arrRef spec8 3) = Cert.Layer.varK (yK4 m c) :=
  Glue.after8_v163 (W16 m ρ c) (yK4 m c) (net_sum4 m ρ c) (net_sumsq4 m ρ c)

theorem in8_4 (c : Dev nD) : V17 m ρ c (Pipeline.arrRef spec8 4) = (Cert.Ops.rowSliceAt 3 Cert.ReferenceIdeal.Gen.slices_S4x128_S1x128_3_0 (A10 m c)) :=
  (Glue.after8_v164 (W16 m ρ c)).trans
    (congrArg (Cert.Ops.rowSliceAt 3 Cert.ReferenceIdeal.Gen.slices_S4x128_S1x128_3_0) ((keep7 m ρ c main_arg10 (by decide)).trans ((s15 m ρ c main_arg10 (by decide)).trans ((keep6 m ρ c main_arg10 (by decide)).trans ((s13 m ρ c main_arg10 (by decide)).trans ((keep5 m ρ c main_arg10 (by decide)).trans ((s11 m ρ c main_arg10 (by decide)).trans ((keep4 m ρ c main_arg10 (by decide)).trans ((s9 m ρ c main_arg10 (by decide)).trans ((keep3 m ρ c main_arg10 (by decide)).trans ((s7 m ρ c main_arg10 (by decide)).trans ((keep2 m ρ c main_arg10 (by decide)).trans ((s5 m ρ c main_arg10 (by decide)).trans ((keep1 m ρ c main_arg10 (by decide)).trans ((s3 m ρ c main_arg10 (by decide)).trans ((keep0 m ρ c main_arg10 (by decide)).trans (s1 m ρ c main_arg10 (by decide))))))))))))))))))

theorem in8_5 (c : Dev nD) : V17 m ρ c (Pipeline.arrRef spec8 5) = (Cert.Ops.rowSliceAt 3 Cert.ReferenceIdeal.Gen.slices_S4x128_S1x128_3_0 (A11 m c)) :=
  (Glue.after8_v165 (W16 m ρ c)).trans
    (congrArg (Cert.Ops.rowSliceAt 3 Cert.ReferenceIdeal.Gen.slices_S4x128_S1x128_3_0) ((keep7 m ρ c main_arg11 (by decide)).trans ((s15 m ρ c main_arg11 (by decide)).trans ((keep6 m ρ c main_arg11 (by decide)).trans ((s13 m ρ c main_arg11 (by decide)).trans ((keep5 m ρ c main_arg11 (by decide)).trans ((s11 m ρ c main_arg11 (by decide)).trans ((keep4 m ρ c main_arg11 (by decide)).trans ((s9 m ρ c main_arg11 (by decide)).trans ((keep3 m ρ c main_arg11 (by decide)).trans ((s7 m ρ c main_arg11 (by decide)).trans ((keep2 m ρ c main_arg11 (by decide)).trans ((s5 m ρ c main_arg11 (by decide)).trans ((keep1 m ρ c main_arg11 (by decide)).trans ((s3 m ρ c main_arg11 (by decide)).trans ((keep0 m ρ c main_arg11 (by decide)).trans (s1 m ρ c main_arg11 (by decide))))))))))))))))))

theorem net_h4 (c : Dev nD) : W18 m ρ c (Proc.devRef .tc main_v166) = hK4 m c :=
  (W18_arr m ρ c 6).trans ((val8 (V17 m ρ) c).trans
    (bnG_congr (in8_0 m ρ c) (in8_1 m ρ c) (in8_2 m ρ c) (in8_3 m ρ c) (in8_4 m ρ c) (in8_5 m ρ c)))

theorem out_h (c : Dev nD) : W18 m ρ c (Proc.devRef .tc main_v166) = hK4 m c := net_h4 m ρ c

theorem out_x5 (c : Dev nD) : W18 m ρ c (Proc.devRef .tc main_arg5) = A5 m c := ((keep8 m ρ c main_arg5 (by decide)).trans ((s17 m ρ c main_arg5 (by decide)).trans ((keep7 m ρ c main_arg5 (by decide)).trans ((s15 m ρ c main_arg5 (by decide)).trans ((keep6 m ρ c main_arg5 (by decide)).trans ((s13 m ρ c main_arg5 (by decide)).trans ((keep5 m ρ c main_arg5 (by decide)).trans ((s11 m ρ c main_arg5 (by decide)).trans ((keep4 m ρ c main_arg5 (by decide)).trans ((s9 m ρ c main_arg5 (by decide)).trans ((keep3 m ρ c main_arg5 (by decide)).trans ((s7 m ρ c main_arg5 (by decide)).trans ((keep2 m ρ c main_arg5 (by decide)).trans ((s5 m ρ c main_arg5 (by decide)).trans ((keep1 m ρ c main_arg5 (by decide)).trans ((s3 m ρ c main_arg5 (by decide)).trans ((keep0 m ρ c main_arg5 (by decide)).trans (s1 m ρ c main_arg5 (by decide)))))))))))))))))))

theorem out_x12 (c : Dev nD) : W18 m ρ c (Proc.devRef .tc main_arg12) = A12 m c := ((keep8 m ρ c main_arg12 (by decide)).trans ((s17 m ρ c main_arg12 (by decide)).trans ((keep7 m ρ c main_arg12 (by decide)).trans ((s15 m ρ c main_arg12 (by decide)).trans ((keep6 m ρ c main_arg12 (by decide)).trans ((s13 m ρ c main_arg12 (by decide)).trans ((keep5 m ρ c main_arg12 (by decide)).trans ((s11 m ρ c main_arg12 (by decide)).trans ((keep4 m ρ c main_arg12 (by decide)).trans ((s9 m ρ c main_arg12 (by decide)).trans ((keep3 m ρ c main_arg12 (by decide)).trans ((s7 m ρ c main_arg12 (by decide)).trans ((keep2 m ρ c main_arg12 (by decide)).trans ((s5 m ρ c main_arg12 (by decide)).trans ((keep1 m ρ c main_arg12 (by decide)).trans ((s3 m ρ c main_arg12 (by decide)).trans ((keep0 m ρ c main_arg12 (by decide)).trans (s1 m ρ c main_arg12 (by decide)))))))))))))))))))

theorem net_eq (c : Dev nD) :
    W19 m ρ c (Proc.devRef .tc main_v179)
      = Cert.Bridge.netK (A0 m c) (A2 m c) (A3 m c) (A4 m c) (A5 m c) (A6 m c) (A7 m c) (A8 m c) (A9 m c) (A10 m c)
          (A11 m c) (A12 m c) :=
  (Glue.after9_v179 (W18 m ρ c)).trans
    ((readoutOps_congr (out_h m ρ c) (out_x5 m ρ c) (out_x12 m ρ c)).trans (netK_unfold m c).symm)

end Cert.KernelIdeal.Hand

end
-- ==== Proof.ReadP.lean ====
import proofs.«164939_j7129645711575_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_cst : (⟨S_, .f32⟩ : BufTy).Contents (Elt F) :=
  constant S_ .f32 0x3F800000#32

def val_main_v0 : (⟨S1600000, .f32⟩ : BufTy).Contents (Elt F) :=
  broadcastInDim S1600000 ![] bcast_S_S1600000 (val_main_cst (F := F))

def val_main_cst_0 : (⟨S_, .f32⟩ : BufTy).Contents (Elt F) :=
  constant S_ .f32 0x00000000#32

def val_main_v1 : (⟨S100000, .f32⟩ : BufTy).Contents (Elt F) :=
  broadcastInDim S100000 ![] bcast_S_S100000 (val_main_cst_0 (F := F))

def val_main_v2 (x3 : (⟨S1600000, .i32⟩ : BufTy).Contents (Elt F)) : (⟨S1600000x1, .i32⟩ : BufTy).Contents (Elt F) :=
  broadcastInDim S1600000x1 ![0] bcast_S1600000_S1600000x1_0 (x3)

def val_main_v3 (x3 : (⟨S1600000, .i32⟩ : BufTy).Contents (Elt F)) : (⟨S100000, .f32⟩ : BufTy).Contents (Elt F) :=
  Host.scatterAdd scatter_S100000_S1600000x1_S1600000_n_0_0_1 (val_main_v1 (F := F)) (val_main_v2 (F := F) x3) (val_main_v0 (F := F))

def val_main_cst_1 : (⟨S_, .f32⟩ : BufTy).Contents (Elt F) :=
  constant S_ .f32 0x3F800000#32

def val_main_v4 : (⟨S100000, .f32⟩ : BufTy).Contents (Elt F) :=
  broadcastInDim S100000 ![] bcast_S_S100000 (val_main_cst_1 (F := F))

def val_main_v5 (x3 : (⟨S1600000, .i32⟩ : BufTy).Contents (Elt F)) : (⟨S100000, .f32⟩ : BufTy).Contents (Elt F) :=
  maximumf (val_main_v3 (F := F) x3) (val_main_v4 (F := F))

def val_main_cst_2 : (⟨S_, .f32⟩ : BufTy).Contents (Elt F) :=
  constant S_ .f32 0x00000000#32

def val_main_v6 : (⟨S100000, .f32⟩ : BufTy).Contents (Elt F) :=
  broadcastInDim S100000 ![] bcast_S_S100000 (val_main_cst_2 (F := F))

def val_main_v7 (x4 : (⟨S1600000, .i32⟩ : BufTy).Contents (Elt F)) : (⟨S1600000x1, .i32⟩ : BufTy).Contents (Elt F) :=
  broadcastInDim S1600000x1 ![0] bcast_S1600000_S1600000x1_0 (x4)

def val_main_v8 (x4 : (⟨S1600000, .i32⟩ : BufTy).Contents (Elt F)) : (⟨S100000, .f32⟩ : BufTy).Contents (Elt F) :=
  Host.scatterAdd scatter_S100000_S1600000x1_S1600000_n_0_0_1 (val_main_v6 (F := F)) (val_main_v7 (F := F) x4) (val_main_v0 (F := F))

def val_main_cst_3 : (⟨S_, .f32⟩ : BufTy).Contents (Elt F) :=
  constant S_ .f32 0x3F800000#32

def val_main_v9 : (⟨S100000, .f32⟩ : BufTy).Contents (Elt F) :=
  broadcastInDim S100000 ![] bcast_S_S100000 (val_main_cst_3 (F := F))

def val_main_v10 (x4 : (⟨S1600000, .i32⟩ : BufTy).Contents (Elt F)) : (⟨S100000, .f32⟩ : BufTy).Contents (Elt F) :=
  maximumf (val_main_v8 (F := F) x4) (val_main_v9 (F := F))

def val_main_cst_4 : (⟨S_, .f32⟩ : BufTy).Contents (Elt F) :=
  constant S_ .f32 0xBF000000#32

def val_main_v11 : (⟨S100000, .f32⟩ : BufTy).Contents (Elt F) :=
  broadcastInDim S100000 ![] bcast_S_S100000 (val_main_cst_4 (F := F))

def val_main_v12 (x3 : (⟨S1600000, .i32⟩ : BufTy).Contents (Elt F)) : (⟨S100000, .f32⟩ : BufTy).Contents (Elt F) :=
  Host.powf (val_main_v5 (F := F) x3) (val_main_v11 (F := F))

def val_main_v13 (x3 : (⟨S1600000, .i32⟩ : BufTy).Contents (Elt F)) : (⟨S100000x1, .f32⟩ : BufTy).Contents (Elt F) :=
  broadcastInDim S100000x1 ![0] bcast_S100000_S100000x1_0 (val_main_v12 (F := F) x3)

def val_main_cst_5 : (⟨S_, .f32⟩ : BufTy).Contents (Elt F) :=
  constant S_ .f32 0xBF000000#32

def val_main_v14 : (⟨S100000, .f32⟩ : BufTy).Contents (Elt F) :=
  broadcastInDim S100000 ![] bcast_S_S100000 (val_main_cst_5 (F := F))

def val_main_v15 (x4 : (⟨S1600000, .i32⟩ : BufTy).Contents (Elt F)) : (⟨S100000, .f32⟩ : BufTy).Contents (Elt F) :=
  Host.powf (val_main_v10 (F := F) x4) (val_main_v14 (F := F))

def val_main_v16 (x4 : (⟨S1600000, .i32⟩ : BufTy).Contents (Elt F)) : (⟨S100000x1, .f32⟩ : BufTy).Contents (Elt F) :=
  broadcastInDim S100000x1 ![0] bcast_S100000_S100000x1_0 (val_main_v15 (F := F) x4)

def val_main_v17 (x0 : (⟨S100000x128, .f32⟩ : BufTy).Contents (Elt F)) (x6 : (⟨S128x128, .f32⟩ : BufTy).Contents (Elt F)) : (⟨S100000x128, .f32⟩ : BufTy).Contents (Elt F) :=
  Host.dotGeneral dot_S100000x128_S128x128_S100000x128_1_0_0_1_n_n none (x0) (x6)

theorem lhs_main_v17_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

theorem lhs_main_v17_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem rhs_main_v17_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem rhs_main_v17_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

abbrev lidx_main_v17 (i : S100000x128.Idx) (k : Fin 128) : S100000x128.Idx := fun a => match a with
  | ⟨0, _⟩ => ⟨(i 0).val, (i 0).isLt⟩
  | ⟨1, _⟩ => ⟨k.val, k.isLt⟩

abbrev ridx_main_v17 (i : S100000x128.Idx) (k : Fin 128) : S128x128.Idx := fun a => match a with
  | ⟨0, _⟩ => ⟨k.val, k.isLt⟩
  | ⟨1, _⟩ => ⟨(i 1).val, (i 1).isLt⟩

theorem val_main_v17_apply (x0 : (⟨S100000x128, .f32⟩ : BufTy).Contents (Elt Ideal)) (x6 : (⟨S128x128, .f32⟩ : BufTy).Contents (Elt Ideal)) (i : S100000x128.Idx) :
    val_main_v17 (F := Ideal) x0 x6 i = ∑ k : Fin 128, x0 (lidx_main_v17 i k) * x6 (ridx_main_v17 i k) := by
  unfold val_main_v17
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v17 i k := funext fun a => Fin.ext (by
    match a with
    | ⟨0, _⟩ => exact lhs_main_v17_0 _ _
    | ⟨1, _⟩ => exact (lhs_main_v17_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v17 i k := funext fun a => Fin.ext (by
    match a with
    | ⟨0, _⟩ => exact (rhs_main_v17_0 _ _).trans hk
    | ⟨1, _⟩ => exact rhs_main_v17_1 _ _)
  rw [el, er]

def val_main_v18 (x7 : (⟨S128, .f32⟩ : BufTy).Contents (Elt F)) : (⟨S1x128, .f32⟩ : BufTy).Contents (Elt F) :=
  broadcastInDim S1x128 ![1] bcast_S128_S1x128_1 (x7)

def val_main_v19 (x7 : (⟨S128, .f32⟩ : BufTy).Contents (Elt F)) : (⟨S100000x128, .f32⟩ : BufTy).Contents (Elt F) :=
  broadcastInDim S100000x128 ![0, 1] bcast_S1x128_S100000x128_0_1 (val_main_v18 (F := F) x7)

def val_main_v20 (x0 : (⟨S100000x128, .f32⟩ : BufTy).Contents (Elt F)) (x6 : (⟨S128x128, .f32⟩ : BufTy).Contents (Elt F)) (x7 : (⟨S128, .f32⟩ : BufTy).Contents (Elt F)) : (⟨S100000x128, .f32⟩ : BufTy).Contents (Elt F) :=
  addf (val_main_v17 (F := F) x0 x6) (val_main_v19 (F := F) x7)

def val_main_v21 (x3 : (⟨S1600000, .i32⟩ : BufTy).Contents (Elt F)) : (⟨S100000x128, .f32⟩ : BufTy).Contents (Elt F) :=
  broadcastInDim S100000x128 ![0, 1] bcast_S100000x1_S100000x128_0_1 (val_main_v13 (F := F) x3)

def val_main_v22 (x0 : (⟨S100000x128, .f32⟩ : BufTy).Contents (Elt F)) (x3 : (⟨S1600000, .i32⟩ : BufTy).Contents (Elt F)) (x6 : (⟨S128x128, .f32⟩ : BufTy).Contents (Elt F)) (x7 : (⟨S128, .f32⟩ : BufTy).Contents (Elt F)) : (⟨S100000x128, .f32⟩ : BufTy).Contents (Elt F) :=
  mulf (val_main_v20 (F := F) x0 x6 x7) (val_main_v21 (F := F) x3)

def val_main_c : (⟨S_, .i32⟩ : BufTy).Contents (Elt F) :=
  constantI S_ 32 0#32

def val_main_v23 : (⟨S1600000, .i32⟩ : BufTy).Contents (Elt F) :=
  broadcastInDim S1600000 ![] bcast_S_S1600000 (val_main_c (F := F))

def val_main_v24 (x3 : (⟨S1600000, .i32⟩ : BufTy).Contents (Elt F)) : (⟨S1600000, .i1⟩ : BufTy).Contents (Elt F) :=
  cmpi .slt (x3) (val_main_v23 (F := F))

def val_main_c_6 : (⟨S_, .i32⟩ : BufTy).Contents (Elt F) :=
  constantI S_ 32 100000#32

def val_main_v25 : (⟨S1600000, .i32⟩ : BufTy).Contents (Elt F) :=
  broadcastInDim S1600000 ![] bcast_S_S1600000 (val_main_c_6 (F := F))

def val_main_v26 (x3 : (⟨S1600000, .i32⟩ : BufTy).Contents (Elt F)) : (⟨S1600000, .i32⟩ : BufTy).Contents (Elt F) :=
  addi (x3) (val_main_v25 (F := F))

def val_main_v27 (x3 : (⟨S1600000, .i32⟩ : BufTy).Contents (Elt F)) : (⟨S1600000, .i32⟩ : BufTy).Contents (Elt F) :=
  select (val_main_v24 (F := F) x3) (val_main_v26 (F := F) x3) (x3)

def val_main_v28 (x3 : (⟨S1600000, .i32⟩ : BufTy).Contents (Elt F)) : (⟨S1600000x1, .i32⟩ : BufTy).Contents (Elt F) :=
  broadcastInDim S1600000x1 ![0] bcast_S1600000_S1600000x1_0 (val_main_v27 (F := F) x3)

def val_main_v29 (x0 : (⟨S100000x128, .f32⟩ : BufTy).Contents (Elt F)) (x3 : (⟨S1600000, .i32⟩ : BufTy).Contents (Elt F)) (x6 : (⟨S128x128, .f32⟩ : BufTy).Contents (Elt F)) (x7 : (⟨S128, .f32⟩ : BufTy).Contents (Elt F)) : (⟨S1600000x128, .f32⟩ : BufTy).Contents (Elt F) :=
  Host.gather gather_S100000x128_S1600000x1_S1600000x128_1_0_n_n_0_1_1128 (val_main_v22 (F := F) x0 x3 x6 x7) (val_main_v28 (F := F) x3)

def val_main_cst_7 : (⟨S_, .f32⟩ : BufTy).Contents (Elt F) :=
  constant S_ .f32 0x00000000#32

def val_main_v30 : (⟨S100000x128, .f32⟩ : BufTy).Contents (Elt F) :=
  broadcastInDim S100000x128 ![] bcast_S_S100000x128 (val_main_cst_7 (F := F))

def val_main_v31 (x4 : (⟨S1600000, .i32⟩ : BufTy).Contents (Elt F)) : (⟨S1600000x1, .i32⟩ : BufTy).Contents (Elt F) :=
  broadcastInDim S1600000x1 ![0] bcast_S1600000_S1600000x1_0 (x4)

def val_main_v32 (x0 : (⟨S100000x128, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) : (⟨S100000x128, .f32⟩ : BufTy).Contents (Elt F) :=
  Host.scatterAdd scatter_S100000x128_S1600000x1_S1600000x128_1_0_0_1 (val_main_v30 (F := F)) (val_main_v31 (F := F) x4) (val_main_v29 (F := F) x0 x3 x6 x7)

def val_main_v33 (x4 : (⟨S1600000, .i32⟩ : BufTy).Contents (Elt F)) : (⟨S100000x128, .f32⟩ : BufTy).Contents (Elt F) :=
  broadcastInDim S100000x128 ![0, 1] bcast_S100000x1_S100000x128_0_1 (val_main_v16 (F := F) x4)

def val_main_v34 (x0 : (⟨S100000x128, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) : (⟨S100000x128, .f32⟩ : BufTy).Contents (Elt F) :=
  mulf (val_main_v32 (F := F) x0 x3 x4 x6 x7) (val_main_v33 (F := F) x4)

def val_main_v35 (x8 : (⟨S4x128x128, .f32⟩ : BufTy).Contents (Elt F)) : (⟨S1x128x128, .f32⟩ : BufTy).Contents (Elt F) :=
  extractStridedSlice S1x128x128 ![0, 0, 0] (x8) slices_S4x128x128_S1x128x128_0_0_0

def val_main_v36 (x8 : (⟨S4x128x128, .f32⟩ : BufTy).Contents (Elt F)) : (⟨S128x128, .f32⟩ : BufTy).Contents (Elt F) :=
  shapeCast _ (val_main_v35 (F := F) x8) shapeCasts_S1x128x128_S128x128

def val_main_v37 (x0 : (⟨S100000x128, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) : (⟨S100000x128, .f32⟩ : BufTy).Contents (Elt F) :=
  Host.dotGeneral dot_S100000x128_S128x128_S100000x128_1_0_0_1_n_n none (val_main_v34 (F := F) x0 x3 x4 x6 x7) (val_main_v36 (F := F) x8)

def val_main_v38 (x9 : (⟨S4x128, .f32⟩ : BufTy).Contents (Elt F)) : (⟨S1x128, .f32⟩ : BufTy).Contents (Elt F) :=
  extractStridedSlice S1x128 ![0, 0] (x9) slices_S4x128_S1x128_0_0

def val_main_v39 (x9 : (⟨S4x128, .f32⟩ : BufTy).Contents (Elt F)) : (⟨S128, .f32⟩ : BufTy).Contents (Elt F) :=
  shapeCast _ (val_main_v38 (F := F) x9) shapeCasts_S1x128_S128

def val_main_v40 (x9 : (⟨S4x128, .f32⟩ : BufTy).Contents (Elt F)) : (⟨S1x128, .f32⟩ : BufTy).Contents (Elt F) :=
  broadcastInDim S1x128 ![1] bcast_S128_S1x128_1 (val_main_v39 (F := F) x9)

def val_main_v41 (x9 : (⟨S4x128, .f32⟩ : BufTy).Contents (Elt F)) : (⟨S100000x128, .f32⟩ : BufTy).Contents (Elt F) :=
  broadcastInDim S100000x128 ![0, 1] bcast_S1x128_S100000x128_0_1 (val_main_v40 (F := F) x9)

def val_main_v42 (x0 : (⟨S100000x128, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  addf (val_main_v37 (F := F) x0 x3 x4 x6 x7 x8) (val_main_v41 (F := F) x9)

def val_main_v43 (x2 : (⟨S100000x1, .f32⟩ : BufTy).Contents (Elt F)) : (⟨S100000x128, .f32⟩ : BufTy).Contents (Elt F) :=
  broadcastInDim S100000x128 ![0, 1] bcast_S100000x1_S100000x128_0_1 (x2)

def val_main_v44 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  mulf (val_main_v42 (F := F) x0 x3 x4 x6 x7 x8 x9) (val_main_v43 (F := F) x2)

def val_main_cst_8 : (⟨S_, .f32⟩ : BufTy).Contents (Elt F) :=
  constant S_ .f32 0x00000000#32

def val_main_v45 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S128, .f32⟩ : BufTy).Contents (Elt F) :=
  Host.reduceAdd (val_main_v44 (F := F) x0 x2 x3 x4 x6 x7 x8 x9) (val_main_cst_8 (F := F)) reducesTo_S100000x128_S128_d0 h_S_

def val_main_cst_9 : (⟨S_, .f32⟩ : BufTy).Contents (Elt F) :=
  constant S_ .f32 0x47C35000#32

def val_main_v46 : (⟨S128, .f32⟩ : BufTy).Contents (Elt F) :=
  broadcastInDim S128 ![] bcast_S_S128 (val_main_cst_9 (F := F))

def val_main_v47 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S128, .f32⟩ : BufTy).Contents (Elt F) :=
  Host.divf (val_main_v45 (F := F) x0 x2 x3 x4 x6 x7 x8 x9) (val_main_v46 (F := F))

def val_main_v48 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S1x128, .f32⟩ : BufTy).Contents (Elt F) :=
  broadcastInDim S1x128 ![1] bcast_S128_S1x128_1 (val_main_v47 (F := F) x0 x2 x3 x4 x6 x7 x8 x9)

def val_main_v49 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  broadcastInDim S100000x128 ![0, 1] bcast_S1x128_S100000x128_0_1 (val_main_v48 (F := F) x0 x2 x3 x4 x6 x7 x8 x9)

def val_main_v50 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  subf (val_main_v44 (F := F) x0 x2 x3 x4 x6 x7 x8 x9) (val_main_v49 (F := F) x0 x2 x3 x4 x6 x7 x8 x9)

def val_main_v51 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  mulf (val_main_v50 (F := F) x0 x2 x3 x4 x6 x7 x8 x9) (val_main_v50 (F := F) x0 x2 x3 x4 x6 x7 x8 x9)

def val_main_cst_10 : (⟨S_, .f32⟩ : BufTy).Contents (Elt F) :=
  constant S_ .f32 0x00000000#32

def val_main_v52 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S128, .f32⟩ : BufTy).Contents (Elt F) :=
  Host.reduceAdd (val_main_v51 (F := F) x0 x2 x3 x4 x6 x7 x8 x9) (val_main_cst_10 (F := F)) reducesTo_S100000x128_S128_d0 h_S_

def val_main_cst_11 : (⟨S_, .f32⟩ : BufTy).Contents (Elt F) :=
  constant S_ .f32 0x47C35000#32

def val_main_v53 : (⟨S128, .f32⟩ : BufTy).Contents (Elt F) :=
  broadcastInDim S128 ![] bcast_S_S128 (val_main_cst_11 (F := F))

def val_main_v54 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S128, .f32⟩ : BufTy).Contents (Elt F) :=
  Host.divf (val_main_v52 (F := F) x0 x2 x3 x4 x6 x7 x8 x9) (val_main_v53 (F := F))

def val_main_v55 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S1x128, .f32⟩ : BufTy).Contents (Elt F) :=
  broadcastInDim S1x128 ![1] bcast_S128_S1x128_1 (val_main_v47 (F := F) x0 x2 x3 x4 x6 x7 x8 x9)

def val_main_v56 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  broadcastInDim S100000x128 ![0, 1] bcast_S1x128_S100000x128_0_1 (val_main_v55 (F := F) x0 x2 x3 x4 x6 x7 x8 x9)

def val_main_v57 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  subf (val_main_v44 (F := F) x0 x2 x3 x4 x6 x7 x8 x9) (val_main_v56 (F := F) x0 x2 x3 x4 x6 x7 x8 x9)

def val_main_cst_12 : (⟨S_, .f32⟩ : BufTy).Contents (Elt F) :=
  constant S_ .f32 0x3727C5AC#32

def val_main_v58 : (⟨S128, .f32⟩ : BufTy).Contents (Elt F) :=
  broadcastInDim S128 ![] bcast_S_S128 (val_main_cst_12 (F := F))

def val_main_v59 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S128, .f32⟩ : BufTy).Contents (Elt F) :=
  addf (val_main_v54 (F := F) x0 x2 x3 x4 x6 x7 x8 x9) (val_main_v58 (F := F))

def val_main_v60 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S128, .f32⟩ : BufTy).Contents (Elt F) :=
  Host.rsqrt (val_main_v59 (F := F) x0 x2 x3 x4 x6 x7 x8 x9)

def val_main_v61 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S1x128, .f32⟩ : BufTy).Contents (Elt F) :=
  broadcastInDim S1x128 ![1] bcast_S128_S1x128_1 (val_main_v60 (F := F) x0 x2 x3 x4 x6 x7 x8 x9)

def val_main_v62 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  broadcastInDim S100000x128 ![0, 1] bcast_S1x128_S100000x128_0_1 (val_main_v61 (F := F) x0 x2 x3 x4 x6 x7 x8 x9)

def val_main_v63 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 : (⟨S4x128, .f32⟩ : BufTy).Contents (Elt F)) : (⟨S100000x128, .f32⟩ : BufTy).Contents (Elt F) :=
  mulf (val_main_v57 (F := F) x0 x2 x3 x4 x6 x7 x8 x9) (val_main_v62 (F := F) x0 x2 x3 x4 x6 x7 x8 x9)

def val_main_v64 (x10 : (⟨S4x128, .f32⟩ : BufTy).Contents (Elt F)) : (⟨S1x128, .f32⟩ : BufTy).Contents (Elt F) :=
  extractStridedSlice S1x128 ![0, 0] (x10) slices_S4x128_S1x128_0_0

def val_main_v65 (x10 : (⟨S4x128, .f32⟩ : BufTy).Contents (Elt F)) : (⟨S128, .f32⟩ : BufTy).Contents (Elt F) :=
  shapeCast _ (val_main_v64 (F := F) x10) shapeCasts_S1x128_S128

def val_main_v66 (x10 : (⟨S4x128, .f32⟩ : BufTy).Contents (Elt F)) : (⟨S1x128, .f32⟩ : BufTy).Contents (Elt F) :=
  broadcastInDim S1x128 ![1] bcast_S128_S1x128_1 (val_main_v65 (F := F) x10)

def val_main_v67 (x10 : (⟨S4x128, .f32⟩ : BufTy).Contents (Elt F)) : (⟨S100000x128, .f32⟩ : BufTy).Contents (Elt F) :=
  broadcastInDim S100000x128 ![0, 1] bcast_S1x128_S100000x128_0_1 (val_main_v66 (F := F) x10)

def val_main_v68 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 : (⟨S4x128, .f32⟩ : BufTy).Contents (Elt F)) : (⟨S100000x128, .f32⟩ : BufTy).Contents (Elt F) :=
  mulf (val_main_v63 (F := F) x0 x2 x3 x4 x6 x7 x8 x9) (val_main_v67 (F := F) x10)

def val_main_v69 (x11 : (⟨S4x128, .f32⟩ : BufTy).Contents (Elt F)) : (⟨S1x128, .f32⟩ : BufTy).Contents (Elt F) :=
  extractStridedSlice S1x128 ![0, 0] (x11) slices_S4x128_S1x128_0_0

def val_main_v70 (x11 : (⟨S4x128, .f32⟩ : BufTy).Contents (Elt F)) : (⟨S128, .f32⟩ : BufTy).Contents (Elt F) :=
  shapeCast _ (val_main_v69 (F := F) x11) shapeCasts_S1x128_S128

def val_main_v71 (x11 : (⟨S4x128, .f32⟩ : BufTy).Contents (Elt F)) : (⟨S1x128, .f32⟩ : BufTy).Contents (Elt F) :=
  broadcastInDim S1x128 ![1] bcast_S128_S1x128_1 (val_main_v70 (F := F) x11)

def val_main_v72 (x11 : (⟨S4x128, .f32⟩ : BufTy).Contents (Elt F)) : (⟨S100000x128, .f32⟩ : BufTy).Contents (Elt F) :=
  broadcastInDim S100000x128 ![0, 1] bcast_S1x128_S100000x128_0_1 (val_main_v71 (F := F) x11)

def val_main_v73 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v68 (F := F) x0 x2 x3 x4 x6 x7 x8 x9 x10) (val_main_v72 (F := F) x11)

def val_main_call0_cst : (⟨S_, .f32⟩ : BufTy).Contents (Elt F) :=
  constant S_ .f32 0x00000000#32

def val_main_call0_v0 : (⟨S100000x128, .f32⟩ : BufTy).Contents (Elt F) :=
  broadcastInDim S100000x128 ![] bcast_S_S100000x128 (val_main_call0_cst (F := F))

def val_main_v74 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  maximumf (val_main_v73 (F := F) x0 x2 x3 x4 x6 x7 x8 x9 x10 x11) (val_main_call0_v0 (F := F))

def val_main_v75 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v20 (F := F) x0 x6 x7) (val_main_v74 (F := F) x0 x2 x3 x4 x6 x7 x8 x9 x10 x11)

def val_main_v76 (x3 : (⟨S1600000, .i32⟩ : BufTy).Contents (Elt F)) : (⟨S100000x128, .f32⟩ : BufTy).Contents (Elt F) :=
  broadcastInDim S100000x128 ![0, 1] bcast_S100000x1_S100000x128_0_1 (val_main_v13 (F := F) x3)

def val_main_v77 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v75 (F := F) x0 x2 x3 x4 x6 x7 x8 x9 x10 x11) (val_main_v76 (F := F) x3)

def val_main_c_13 : (⟨S_, .i32⟩ : BufTy).Contents (Elt F) :=
  constantI S_ 32 0#32

def val_main_v78 : (⟨S1600000, .i32⟩ : BufTy).Contents (Elt F) :=
  broadcastInDim S1600000 ![] bcast_S_S1600000 (val_main_c_13 (F := F))

def val_main_v79 (x3 : (⟨S1600000, .i32⟩ : BufTy).Contents (Elt F)) : (⟨S1600000, .i1⟩ : BufTy).Contents (Elt F) :=
  cmpi .slt (x3) (val_main_v78 (F := F))

def val_main_c_14 : (⟨S_, .i32⟩ : BufTy).Contents (Elt F) :=
  constantI S_ 32 100000#32

def val_main_v80 : (⟨S1600000, .i32⟩ : BufTy).Contents (Elt F) :=
  broadcastInDim S1600000 ![] bcast_S_S1600000 (val_main_c_14 (F := F))

def val_main_v81 (x3 : (⟨S1600000, .i32⟩ : BufTy).Contents (Elt F)) : (⟨S1600000, .i32⟩ : BufTy).Contents (Elt F) :=
  addi (x3) (val_main_v80 (F := F))

def val_main_v82 (x3 : (⟨S1600000, .i32⟩ : BufTy).Contents (Elt F)) : (⟨S1600000, .i32⟩ : BufTy).Contents (Elt F) :=
  select (val_main_v79 (F := F) x3) (val_main_v81 (F := F) x3) (x3)

def val_main_v83 (x3 : (⟨S1600000, .i32⟩ : BufTy).Contents (Elt F)) : (⟨S1600000x1, .i32⟩ : BufTy).Contents (Elt F) :=
  broadcastInDim S1600000x1 ![0] bcast_S1600000_S1600000x1_0 (val_main_v82 (F := F) x3)

def val_main_v84 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1600000x128, .f32⟩ : BufTy).Contents (Elt F) :=
  Host.gather gather_S100000x128_S1600000x1_S1600000x128_1_0_n_n_0_1_1128 (val_main_v77 (F := F) x0 x2 x3 x4 x6 x7 x8 x9 x10 x11) (val_main_v83 (F := F) x3)

def val_main_cst_15 : (⟨S_, .f32⟩ : BufTy).Contents (Elt F) :=
  constant S_ .f32 0x00000000#32

def val_main_v85 : (⟨S100000x128, .f32⟩ : BufTy).Contents (Elt F) :=
  broadcastInDim S100000x128 ![] bcast_S_S100000x128 (val_main_cst_15 (F := F))

def val_main_v86 (x4 : (⟨S1600000, .i32⟩ : BufTy).Contents (Elt F)) : (⟨S1600000x1, .i32⟩ : BufTy).Contents (Elt F) :=
  broadcastInDim S1600000x1 ![0] bcast_S1600000_S1600000x1_0 (x4)

def val_main_v87 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  Host.scatterAdd scatter_S100000x128_S1600000x1_S1600000x128_1_0_0_1 (val_main_v85 (F := F)) (val_main_v86 (F := F) x4) (val_main_v84 (F := F) x0 x2 x3 x4 x6 x7 x8 x9 x10 x11)

def val_main_v88 (x4 : (⟨S1600000, .i32⟩ : BufTy).Contents (Elt F)) : (⟨S100000x128, .f32⟩ : BufTy).Contents (Elt F) :=
  broadcastInDim S100000x128 ![0, 1] bcast_S100000x1_S100000x128_0_1 (val_main_v16 (F := F) x4)

def val_main_v89 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v87 (F := F) x0 x2 x3 x4 x6 x7 x8 x9 x10 x11) (val_main_v88 (F := F) x4)

def val_main_v90 (x8 : (⟨S4x128x128, .f32⟩ : BufTy).Contents (Elt F)) : (⟨S1x128x128, .f32⟩ : BufTy).Contents (Elt F) :=
  extractStridedSlice S1x128x128 ![1, 0, 0] (x8) slices_S4x128x128_S1x128x128_1_0_0

def val_main_v91 (x8 : (⟨S4x128x128, .f32⟩ : BufTy).Contents (Elt F)) : (⟨S128x128, .f32⟩ : BufTy).Contents (Elt F) :=
  shapeCast _ (val_main_v90 (F := F) x8) shapeCasts_S1x128x128_S128x128

def val_main_v92 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  Host.dotGeneral dot_S100000x128_S128x128_S100000x128_1_0_0_1_n_n none (val_main_v89 (F := F) x0 x2 x3 x4 x6 x7 x8 x9 x10 x11) (val_main_v91 (F := F) x8)

def val_main_v93 (x9 : (⟨S4x128, .f32⟩ : BufTy).Contents (Elt F)) : (⟨S1x128, .f32⟩ : BufTy).Contents (Elt F) :=
  extractStridedSlice S1x128 ![1, 0] (x9) slices_S4x128_S1x128_1_0

def val_main_v94 (x9 : (⟨S4x128, .f32⟩ : BufTy).Contents (Elt F)) : (⟨S128, .f32⟩ : BufTy).Contents (Elt F) :=
  shapeCast _ (val_main_v93 (F := F) x9) shapeCasts_S1x128_S128

def val_main_v95 (x9 : (⟨S4x128, .f32⟩ : BufTy).Contents (Elt F)) : (⟨S1x128, .f32⟩ : BufTy).Contents (Elt F) :=
  broadcastInDim S1x128 ![1] bcast_S128_S1x128_1 (val_main_v94 (F := F) x9)

def val_main_v96 (x9 : (⟨S4x128, .f32⟩ : BufTy).Contents (Elt F)) : (⟨S100000x128, .f32⟩ : BufTy).Contents (Elt F) :=
  broadcastInDim S100000x128 ![0, 1] bcast_S1x128_S100000x128_0_1 (val_main_v95 (F := F) x9)

def val_main_v97 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v92 (F := F) x0 x2 x3 x4 x6 x7 x8 x9 x10 x11) (val_main_v96 (F := F) x9)

def val_main_v98 (x2 : (⟨S100000x1, .f32⟩ : BufTy).Contents (Elt F)) : (⟨S100000x128, .f32⟩ : BufTy).Contents (Elt F) :=
  broadcastInDim S100000x128 ![0, 1] bcast_S100000x1_S100000x128_0_1 (x2)

def val_main_v99 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v97 (F := F) x0 x2 x3 x4 x6 x7 x8 x9 x10 x11) (val_main_v98 (F := F) x2)

def val_main_cst_16 : (⟨S_, .f32⟩ : BufTy).Contents (Elt F) :=
  constant S_ .f32 0x00000000#32

def val_main_v100 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.reduceAdd (val_main_v99 (F := F) x0 x2 x3 x4 x6 x7 x8 x9 x10 x11) (val_main_cst_16 (F := F)) reducesTo_S100000x128_S128_d0 h_S_

def val_main_cst_17 : (⟨S_, .f32⟩ : BufTy).Contents (Elt F) :=
  constant S_ .f32 0x47C35000#32

def val_main_v101 : (⟨S128, .f32⟩ : BufTy).Contents (Elt F) :=
  broadcastInDim S128 ![] bcast_S_S128 (val_main_cst_17 (F := F))

def val_main_v102 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.divf (val_main_v100 (F := F) x0 x2 x3 x4 x6 x7 x8 x9 x10 x11) (val_main_v101 (F := F))

def val_main_v103 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v102 (F := F) x0 x2 x3 x4 x6 x7 x8 x9 x10 x11)

def val_main_v104 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v103 (F := F) x0 x2 x3 x4 x6 x7 x8 x9 x10 x11)

def val_main_v105 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  subf (val_main_v99 (F := F) x0 x2 x3 x4 x6 x7 x8 x9 x10 x11) (val_main_v104 (F := F) x0 x2 x3 x4 x6 x7 x8 x9 x10 x11)

def val_main_v106 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v105 (F := F) x0 x2 x3 x4 x6 x7 x8 x9 x10 x11) (val_main_v105 (F := F) x0 x2 x3 x4 x6 x7 x8 x9 x10 x11)

def val_main_cst_18 : (⟨S_, .f32⟩ : BufTy).Contents (Elt F) :=
  constant S_ .f32 0x00000000#32

def val_main_v107 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.reduceAdd (val_main_v106 (F := F) x0 x2 x3 x4 x6 x7 x8 x9 x10 x11) (val_main_cst_18 (F := F)) reducesTo_S100000x128_S128_d0 h_S_

def val_main_cst_19 : (⟨S_, .f32⟩ : BufTy).Contents (Elt F) :=
  constant S_ .f32 0x47C35000#32

def val_main_v108 : (⟨S128, .f32⟩ : BufTy).Contents (Elt F) :=
  broadcastInDim S128 ![] bcast_S_S128 (val_main_cst_19 (F := F))

def val_main_v109 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.divf (val_main_v107 (F := F) x0 x2 x3 x4 x6 x7 x8 x9 x10 x11) (val_main_v108 (F := F))

def val_main_v110 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v102 (F := F) x0 x2 x3 x4 x6 x7 x8 x9 x10 x11)

def val_main_v111 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v110 (F := F) x0 x2 x3 x4 x6 x7 x8 x9 x10 x11)

def val_main_v112 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  subf (val_main_v99 (F := F) x0 x2 x3 x4 x6 x7 x8 x9 x10 x11) (val_main_v111 (F := F) x0 x2 x3 x4 x6 x7 x8 x9 x10 x11)

def val_main_cst_20 : (⟨S_, .f32⟩ : BufTy).Contents (Elt F) :=
  constant S_ .f32 0x3727C5AC#32

def val_main_v113 : (⟨S128, .f32⟩ : BufTy).Contents (Elt F) :=
  broadcastInDim S128 ![] bcast_S_S128 (val_main_cst_20 (F := F))

def val_main_v114 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  addf (val_main_v109 (F := F) x0 x2 x3 x4 x6 x7 x8 x9 x10 x11) (val_main_v113 (F := F))

def val_main_v115 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.rsqrt (val_main_v114 (F := F) x0 x2 x3 x4 x6 x7 x8 x9 x10 x11)

def val_main_v116 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v115 (F := F) x0 x2 x3 x4 x6 x7 x8 x9 x10 x11)

def val_main_v117 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v116 (F := F) x0 x2 x3 x4 x6 x7 x8 x9 x10 x11)

def val_main_v118 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v112 (F := F) x0 x2 x3 x4 x6 x7 x8 x9 x10 x11) (val_main_v117 (F := F) x0 x2 x3 x4 x6 x7 x8 x9 x10 x11)

def val_main_v119 (x10 : (⟨S4x128, .f32⟩ : BufTy).Contents (Elt F)) : (⟨S1x128, .f32⟩ : BufTy).Contents (Elt F) :=
  extractStridedSlice S1x128 ![1, 0] (x10) slices_S4x128_S1x128_1_0

def val_main_v120 (x10 : (⟨S4x128, .f32⟩ : BufTy).Contents (Elt F)) : (⟨S128, .f32⟩ : BufTy).Contents (Elt F) :=
  shapeCast _ (val_main_v119 (F := F) x10) shapeCasts_S1x128_S128

def val_main_v121 (x10 : (⟨S4x128, .f32⟩ : BufTy).Contents (Elt F)) : (⟨S1x128, .f32⟩ : BufTy).Contents (Elt F) :=
  broadcastInDim S1x128 ![1] bcast_S128_S1x128_1 (val_main_v120 (F := F) x10)

def val_main_v122 (x10 : (⟨S4x128, .f32⟩ : BufTy).Contents (Elt F)) : (⟨S100000x128, .f32⟩ : BufTy).Contents (Elt F) :=
  broadcastInDim S100000x128 ![0, 1] bcast_S1x128_S100000x128_0_1 (val_main_v121 (F := F) x10)

def val_main_v123 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v118 (F := F) x0 x2 x3 x4 x6 x7 x8 x9 x10 x11) (val_main_v122 (F := F) x10)

def val_main_v124 (x11 : (⟨S4x128, .f32⟩ : BufTy).Contents (Elt F)) : (⟨S1x128, .f32⟩ : BufTy).Contents (Elt F) :=
  extractStridedSlice S1x128 ![1, 0] (x11) slices_S4x128_S1x128_1_0

def val_main_v125 (x11 : (⟨S4x128, .f32⟩ : BufTy).Contents (Elt F)) : (⟨S128, .f32⟩ : BufTy).Contents (Elt F) :=
  shapeCast _ (val_main_v124 (F := F) x11) shapeCasts_S1x128_S128

def val_main_v126 (x11 : (⟨S4x128, .f32⟩ : BufTy).Contents (Elt F)) : (⟨S1x128, .f32⟩ : BufTy).Contents (Elt F) :=
  broadcastInDim S1x128 ![1] bcast_S128_S1x128_1 (val_main_v125 (F := F) x11)

def val_main_v127 (x11 : (⟨S4x128, .f32⟩ : BufTy).Contents (Elt F)) : (⟨S100000x128, .f32⟩ : BufTy).Contents (Elt F) :=
  broadcastInDim S100000x128 ![0, 1] bcast_S1x128_S100000x128_0_1 (val_main_v126 (F := F) x11)

def val_main_v128 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v123 (F := F) x0 x2 x3 x4 x6 x7 x8 x9 x10 x11) (val_main_v127 (F := F) x11)

def val_main_call1_cst : (⟨S_, .f32⟩ : BufTy).Contents (Elt F) :=
  constant S_ .f32 0x00000000#32

def val_main_call1_v0 : (⟨S100000x128, .f32⟩ : BufTy).Contents (Elt F) :=
  broadcastInDim S100000x128 ![] bcast_S_S100000x128 (val_main_call1_cst (F := F))

def val_main_v129 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  maximumf (val_main_v128 (F := F) x0 x2 x3 x4 x6 x7 x8 x9 x10 x11) (val_main_call1_v0 (F := F))

def val_main_v130 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v75 (F := F) x0 x2 x3 x4 x6 x7 x8 x9 x10 x11) (val_main_v129 (F := F) x0 x2 x3 x4 x6 x7 x8 x9 x10 x11)

def val_main_v131 (x3 : (⟨S1600000, .i32⟩ : BufTy).Contents (Elt F)) : (⟨S100000x128, .f32⟩ : BufTy).Contents (Elt F) :=
  broadcastInDim S100000x128 ![0, 1] bcast_S100000x1_S100000x128_0_1 (val_main_v13 (F := F) x3)

def val_main_v132 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v130 (F := F) x0 x2 x3 x4 x6 x7 x8 x9 x10 x11) (val_main_v131 (F := F) x3)

def val_main_c_21 : (⟨S_, .i32⟩ : BufTy).Contents (Elt F) :=
  constantI S_ 32 0#32

def val_main_v133 : (⟨S1600000, .i32⟩ : BufTy).Contents (Elt F) :=
  broadcastInDim S1600000 ![] bcast_S_S1600000 (val_main_c_21 (F := F))

def val_main_v134 (x3 : (⟨S1600000, .i32⟩ : BufTy).Contents (Elt F)) : (⟨S1600000, .i1⟩ : BufTy).Contents (Elt F) :=
  cmpi .slt (x3) (val_main_v133 (F := F))

def val_main_c_22 : (⟨S_, .i32⟩ : BufTy).Contents (Elt F) :=
  constantI S_ 32 100000#32

def val_main_v135 : (⟨S1600000, .i32⟩ : BufTy).Contents (Elt F) :=
  broadcastInDim S1600000 ![] bcast_S_S1600000 (val_main_c_22 (F := F))

def val_main_v136 (x3 : (⟨S1600000, .i32⟩ : BufTy).Contents (Elt F)) : (⟨S1600000, .i32⟩ : BufTy).Contents (Elt F) :=
  addi (x3) (val_main_v135 (F := F))

def val_main_v137 (x3 : (⟨S1600000, .i32⟩ : BufTy).Contents (Elt F)) : (⟨S1600000, .i32⟩ : BufTy).Contents (Elt F) :=
  select (val_main_v134 (F := F) x3) (val_main_v136 (F := F) x3) (x3)

def val_main_v138 (x3 : (⟨S1600000, .i32⟩ : BufTy).Contents (Elt F)) : (⟨S1600000x1, .i32⟩ : BufTy).Contents (Elt F) :=
  broadcastInDim S1600000x1 ![0] bcast_S1600000_S1600000x1_0 (val_main_v137 (F := F) x3)

def val_main_v139 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1600000x128, .f32⟩ : BufTy).Contents (Elt F) :=
  Host.gather gather_S100000x128_S1600000x1_S1600000x128_1_0_n_n_0_1_1128 (val_main_v132 (F := F) x0 x2 x3 x4 x6 x7 x8 x9 x10 x11) (val_main_v138 (F := F) x3)

def val_main_cst_23 : (⟨S_, .f32⟩ : BufTy).Contents (Elt F) :=
  constant S_ .f32 0x00000000#32

def val_main_v140 : (⟨S100000x128, .f32⟩ : BufTy).Contents (Elt F) :=
  broadcastInDim S100000x128 ![] bcast_S_S100000x128 (val_main_cst_23 (F := F))

def val_main_v141 (x4 : (⟨S1600000, .i32⟩ : BufTy).Contents (Elt F)) : (⟨S1600000x1, .i32⟩ : BufTy).Contents (Elt F) :=
  broadcastInDim S1600000x1 ![0] bcast_S1600000_S1600000x1_0 (x4)

def val_main_v142 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  Host.scatterAdd scatter_S100000x128_S1600000x1_S1600000x128_1_0_0_1 (val_main_v140 (F := F)) (val_main_v141 (F := F) x4) (val_main_v139 (F := F) x0 x2 x3 x4 x6 x7 x8 x9 x10 x11)

def val_main_v143 (x4 : (⟨S1600000, .i32⟩ : BufTy).Contents (Elt F)) : (⟨S100000x128, .f32⟩ : BufTy).Contents (Elt F) :=
  broadcastInDim S100000x128 ![0, 1] bcast_S100000x1_S100000x128_0_1 (val_main_v16 (F := F) x4)

def val_main_v144 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v142 (F := F) x0 x2 x3 x4 x6 x7 x8 x9 x10 x11) (val_main_v143 (F := F) x4)

def val_main_v145 (x8 : (⟨S4x128x128, .f32⟩ : BufTy).Contents (Elt F)) : (⟨S1x128x128, .f32⟩ : BufTy).Contents (Elt F) :=
  extractStridedSlice S1x128x128 ![2, 0, 0] (x8) slices_S4x128x128_S1x128x128_2_0_0

def val_main_v146 (x8 : (⟨S4x128x128, .f32⟩ : BufTy).Contents (Elt F)) : (⟨S128x128, .f32⟩ : BufTy).Contents (Elt F) :=
  shapeCast _ (val_main_v145 (F := F) x8) shapeCasts_S1x128x128_S128x128

def val_main_v147 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  Host.dotGeneral dot_S100000x128_S128x128_S100000x128_1_0_0_1_n_n none (val_main_v144 (F := F) x0 x2 x3 x4 x6 x7 x8 x9 x10 x11) (val_main_v146 (F := F) x8)

def val_main_v148 (x9 : (⟨S4x128, .f32⟩ : BufTy).Contents (Elt F)) : (⟨S1x128, .f32⟩ : BufTy).Contents (Elt F) :=
  extractStridedSlice S1x128 ![2, 0] (x9) slices_S4x128_S1x128_2_0

def val_main_v149 (x9 : (⟨S4x128, .f32⟩ : BufTy).Contents (Elt F)) : (⟨S128, .f32⟩ : BufTy).Contents (Elt F) :=
  shapeCast _ (val_main_v148 (F := F) x9) shapeCasts_S1x128_S128

def val_main_v150 (x9 : (⟨S4x128, .f32⟩ : BufTy).Contents (Elt F)) : (⟨S1x128, .f32⟩ : BufTy).Contents (Elt F) :=
  broadcastInDim S1x128 ![1] bcast_S128_S1x128_1 (val_main_v149 (F := F) x9)

def val_main_v151 (x9 : (⟨S4x128, .f32⟩ : BufTy).Contents (Elt F)) : (⟨S100000x128, .f32⟩ : BufTy).Contents (Elt F) :=
  broadcastInDim S100000x128 ![0, 1] bcast_S1x128_S100000x128_0_1 (val_main_v150 (F := F) x9)

def val_main_v152 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v147 (F := F) x0 x2 x3 x4 x6 x7 x8 x9 x10 x11) (val_main_v151 (F := F) x9)

def val_main_v153 (x2 : (⟨S100000x1, .f32⟩ : BufTy).Contents (Elt F)) : (⟨S100000x128, .f32⟩ : BufTy).Contents (Elt F) :=
  broadcastInDim S100000x128 ![0, 1] bcast_S100000x1_S100000x128_0_1 (x2)

def val_main_v154 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v152 (F := F) x0 x2 x3 x4 x6 x7 x8 x9 x10 x11) (val_main_v153 (F := F) x2)

def val_main_cst_24 : (⟨S_, .f32⟩ : BufTy).Contents (Elt F) :=
  constant S_ .f32 0x00000000#32

def val_main_v155 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.reduceAdd (val_main_v154 (F := F) x0 x2 x3 x4 x6 x7 x8 x9 x10 x11) (val_main_cst_24 (F := F)) reducesTo_S100000x128_S128_d0 h_S_

def val_main_cst_25 : (⟨S_, .f32⟩ : BufTy).Contents (Elt F) :=
  constant S_ .f32 0x47C35000#32

def val_main_v156 : (⟨S128, .f32⟩ : BufTy).Contents (Elt F) :=
  broadcastInDim S128 ![] bcast_S_S128 (val_main_cst_25 (F := F))

def val_main_v157 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.divf (val_main_v155 (F := F) x0 x2 x3 x4 x6 x7 x8 x9 x10 x11) (val_main_v156 (F := F))

def val_main_v158 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v157 (F := F) x0 x2 x3 x4 x6 x7 x8 x9 x10 x11)

def val_main_v159 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v158 (F := F) x0 x2 x3 x4 x6 x7 x8 x9 x10 x11)

def val_main_v160 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  subf (val_main_v154 (F := F) x0 x2 x3 x4 x6 x7 x8 x9 x10 x11) (val_main_v159 (F := F) x0 x2 x3 x4 x6 x7 x8 x9 x10 x11)

def val_main_v161 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v160 (F := F) x0 x2 x3 x4 x6 x7 x8 x9 x10 x11) (val_main_v160 (F := F) x0 x2 x3 x4 x6 x7 x8 x9 x10 x11)

def val_main_cst_26 : (⟨S_, .f32⟩ : BufTy).Contents (Elt F) :=
  constant S_ .f32 0x00000000#32

def val_main_v162 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.reduceAdd (val_main_v161 (F := F) x0 x2 x3 x4 x6 x7 x8 x9 x10 x11) (val_main_cst_26 (F := F)) reducesTo_S100000x128_S128_d0 h_S_

def val_main_cst_27 : (⟨S_, .f32⟩ : BufTy).Contents (Elt F) :=
  constant S_ .f32 0x47C35000#32

def val_main_v163 : (⟨S128, .f32⟩ : BufTy).Contents (Elt F) :=
  broadcastInDim S128 ![] bcast_S_S128 (val_main_cst_27 (F := F))

def val_main_v164 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.divf (val_main_v162 (F := F) x0 x2 x3 x4 x6 x7 x8 x9 x10 x11) (val_main_v163 (F := F))

def val_main_v165 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v157 (F := F) x0 x2 x3 x4 x6 x7 x8 x9 x10 x11)

def val_main_v166 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v165 (F := F) x0 x2 x3 x4 x6 x7 x8 x9 x10 x11)

def val_main_v167 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  subf (val_main_v154 (F := F) x0 x2 x3 x4 x6 x7 x8 x9 x10 x11) (val_main_v166 (F := F) x0 x2 x3 x4 x6 x7 x8 x9 x10 x11)

def val_main_cst_28 : (⟨S_, .f32⟩ : BufTy).Contents (Elt F) :=
  constant S_ .f32 0x3727C5AC#32

def val_main_v168 : (⟨S128, .f32⟩ : BufTy).Contents (Elt F) :=
  broadcastInDim S128 ![] bcast_S_S128 (val_main_cst_28 (F := F))

def val_main_v169 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  addf (val_main_v164 (F := F) x0 x2 x3 x4 x6 x7 x8 x9 x10 x11) (val_main_v168 (F := F))

def val_main_v170 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.rsqrt (val_main_v169 (F := F) x0 x2 x3 x4 x6 x7 x8 x9 x10 x11)

def val_main_v171 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v170 (F := F) x0 x2 x3 x4 x6 x7 x8 x9 x10 x11)

def val_main_v172 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v171 (F := F) x0 x2 x3 x4 x6 x7 x8 x9 x10 x11)

def val_main_v173 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v167 (F := F) x0 x2 x3 x4 x6 x7 x8 x9 x10 x11) (val_main_v172 (F := F) x0 x2 x3 x4 x6 x7 x8 x9 x10 x11)

def val_main_v174 (x10 : (⟨S4x128, .f32⟩ : BufTy).Contents (Elt F)) : (⟨S1x128, .f32⟩ : BufTy).Contents (Elt F) :=
  extractStridedSlice S1x128 ![2, 0] (x10) slices_S4x128_S1x128_2_0

def val_main_v175 (x10 : (⟨S4x128, .f32⟩ : BufTy).Contents (Elt F)) : (⟨S128, .f32⟩ : BufTy).Contents (Elt F) :=
  shapeCast _ (val_main_v174 (F := F) x10) shapeCasts_S1x128_S128

def val_main_v176 (x10 : (⟨S4x128, .f32⟩ : BufTy).Contents (Elt F)) : (⟨S1x128, .f32⟩ : BufTy).Contents (Elt F) :=
  broadcastInDim S1x128 ![1] bcast_S128_S1x128_1 (val_main_v175 (F := F) x10)

def val_main_v177 (x10 : (⟨S4x128, .f32⟩ : BufTy).Contents (Elt F)) : (⟨S100000x128, .f32⟩ : BufTy).Contents (Elt F) :=
  broadcastInDim S100000x128 ![0, 1] bcast_S1x128_S100000x128_0_1 (val_main_v176 (F := F) x10)

def val_main_v178 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v173 (F := F) x0 x2 x3 x4 x6 x7 x8 x9 x10 x11) (val_main_v177 (F := F) x10)

def val_main_v179 (x11 : (⟨S4x128, .f32⟩ : BufTy).Contents (Elt F)) : (⟨S1x128, .f32⟩ : BufTy).Contents (Elt F) :=
  extractStridedSlice S1x128 ![2, 0] (x11) slices_S4x128_S1x128_2_0

def val_main_v180 (x11 : (⟨S4x128, .f32⟩ : BufTy).Contents (Elt F)) : (⟨S128, .f32⟩ : BufTy).Contents (Elt F) :=
  shapeCast _ (val_main_v179 (F := F) x11) shapeCasts_S1x128_S128

def val_main_v181 (x11 : (⟨S4x128, .f32⟩ : BufTy).Contents (Elt F)) : (⟨S1x128, .f32⟩ : BufTy).Contents (Elt F) :=
  broadcastInDim S1x128 ![1] bcast_S128_S1x128_1 (val_main_v180 (F := F) x11)

def val_main_v182 (x11 : (⟨S4x128, .f32⟩ : BufTy).Contents (Elt F)) : (⟨S100000x128, .f32⟩ : BufTy).Contents (Elt F) :=
  broadcastInDim S100000x128 ![0, 1] bcast_S1x128_S100000x128_0_1 (val_main_v181 (F := F) x11)

def val_main_v183 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v178 (F := F) x0 x2 x3 x4 x6 x7 x8 x9 x10 x11) (val_main_v182 (F := F) x11)

def val_main_call2_cst : (⟨S_, .f32⟩ : BufTy).Contents (Elt F) :=
  constant S_ .f32 0x00000000#32

def val_main_call2_v0 : (⟨S100000x128, .f32⟩ : BufTy).Contents (Elt F) :=
  broadcastInDim S100000x128 ![] bcast_S_S100000x128 (val_main_call2_cst (F := F))

def val_main_v184 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  maximumf (val_main_v183 (F := F) x0 x2 x3 x4 x6 x7 x8 x9 x10 x11) (val_main_call2_v0 (F := F))

def val_main_v185 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v130 (F := F) x0 x2 x3 x4 x6 x7 x8 x9 x10 x11) (val_main_v184 (F := F) x0 x2 x3 x4 x6 x7 x8 x9 x10 x11)

def val_main_v186 (x3 : (⟨S1600000, .i32⟩ : BufTy).Contents (Elt F)) : (⟨S100000x128, .f32⟩ : BufTy).Contents (Elt F) :=
  broadcastInDim S100000x128 ![0, 1] bcast_S100000x1_S100000x128_0_1 (val_main_v13 (F := F) x3)

def val_main_v187 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v185 (F := F) x0 x2 x3 x4 x6 x7 x8 x9 x10 x11) (val_main_v186 (F := F) x3)

def val_main_c_29 : (⟨S_, .i32⟩ : BufTy).Contents (Elt F) :=
  constantI S_ 32 0#32

def val_main_v188 : (⟨S1600000, .i32⟩ : BufTy).Contents (Elt F) :=
  broadcastInDim S1600000 ![] bcast_S_S1600000 (val_main_c_29 (F := F))

def val_main_v189 (x3 : (⟨S1600000, .i32⟩ : BufTy).Contents (Elt F)) : (⟨S1600000, .i1⟩ : BufTy).Contents (Elt F) :=
  cmpi .slt (x3) (val_main_v188 (F := F))

def val_main_c_30 : (⟨S_, .i32⟩ : BufTy).Contents (Elt F) :=
  constantI S_ 32 100000#32

def val_main_v190 : (⟨S1600000, .i32⟩ : BufTy).Contents (Elt F) :=
  broadcastInDim S1600000 ![] bcast_S_S1600000 (val_main_c_30 (F := F))

def val_main_v191 (x3 : (⟨S1600000, .i32⟩ : BufTy).Contents (Elt F)) : (⟨S1600000, .i32⟩ : BufTy).Contents (Elt F) :=
  addi (x3) (val_main_v190 (F := F))

def val_main_v192 (x3 : (⟨S1600000, .i32⟩ : BufTy).Contents (Elt F)) : (⟨S1600000, .i32⟩ : BufTy).Contents (Elt F) :=
  select (val_main_v189 (F := F) x3) (val_main_v191 (F := F) x3) (x3)

def val_main_v193 (x3 : (⟨S1600000, .i32⟩ : BufTy).Contents (Elt F)) : (⟨S1600000x1, .i32⟩ : BufTy).Contents (Elt F) :=
  broadcastInDim S1600000x1 ![0] bcast_S1600000_S1600000x1_0 (val_main_v192 (F := F) x3)

def val_main_v194 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1600000x128, .f32⟩ : BufTy).Contents (Elt F) :=
  Host.gather gather_S100000x128_S1600000x1_S1600000x128_1_0_n_n_0_1_1128 (val_main_v187 (F := F) x0 x2 x3 x4 x6 x7 x8 x9 x10 x11) (val_main_v193 (F := F) x3)

def val_main_cst_31 : (⟨S_, .f32⟩ : BufTy).Contents (Elt F) :=
  constant S_ .f32 0x00000000#32

def val_main_v195 : (⟨S100000x128, .f32⟩ : BufTy).Contents (Elt F) :=
  broadcastInDim S100000x128 ![] bcast_S_S100000x128 (val_main_cst_31 (F := F))

def val_main_v196 (x4 : (⟨S1600000, .i32⟩ : BufTy).Contents (Elt F)) : (⟨S1600000x1, .i32⟩ : BufTy).Contents (Elt F) :=
  broadcastInDim S1600000x1 ![0] bcast_S1600000_S1600000x1_0 (x4)

def val_main_v197 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  Host.scatterAdd scatter_S100000x128_S1600000x1_S1600000x128_1_0_0_1 (val_main_v195 (F := F)) (val_main_v196 (F := F) x4) (val_main_v194 (F := F) x0 x2 x3 x4 x6 x7 x8 x9 x10 x11)

def val_main_v198 (x4 : (⟨S1600000, .i32⟩ : BufTy).Contents (Elt F)) : (⟨S100000x128, .f32⟩ : BufTy).Contents (Elt F) :=
  broadcastInDim S100000x128 ![0, 1] bcast_S100000x1_S100000x128_0_1 (val_main_v16 (F := F) x4)

def val_main_v199 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v197 (F := F) x0 x2 x3 x4 x6 x7 x8 x9 x10 x11) (val_main_v198 (F := F) x4)

def val_main_v200 (x8 : (⟨S4x128x128, .f32⟩ : BufTy).Contents (Elt F)) : (⟨S1x128x128, .f32⟩ : BufTy).Contents (Elt F) :=
  extractStridedSlice S1x128x128 ![3, 0, 0] (x8) slices_S4x128x128_S1x128x128_3_0_0

def val_main_v201 (x8 : (⟨S4x128x128, .f32⟩ : BufTy).Contents (Elt F)) : (⟨S128x128, .f32⟩ : BufTy).Contents (Elt F) :=
  shapeCast _ (val_main_v200 (F := F) x8) shapeCasts_S1x128x128_S128x128

def val_main_v202 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  Host.dotGeneral dot_S100000x128_S128x128_S100000x128_1_0_0_1_n_n none (val_main_v199 (F := F) x0 x2 x3 x4 x6 x7 x8 x9 x10 x11) (val_main_v201 (F := F) x8)

def val_main_v203 (x9 : (⟨S4x128, .f32⟩ : BufTy).Contents (Elt F)) : (⟨S1x128, .f32⟩ : BufTy).Contents (Elt F) :=
  extractStridedSlice S1x128 ![3, 0] (x9) slices_S4x128_S1x128_3_0

def val_main_v204 (x9 : (⟨S4x128, .f32⟩ : BufTy).Contents (Elt F)) : (⟨S128, .f32⟩ : BufTy).Contents (Elt F) :=
  shapeCast _ (val_main_v203 (F := F) x9) shapeCasts_S1x128_S128

def val_main_v205 (x9 : (⟨S4x128, .f32⟩ : BufTy).Contents (Elt F)) : (⟨S1x128, .f32⟩ : BufTy).Contents (Elt F) :=
  broadcastInDim S1x128 ![1] bcast_S128_S1x128_1 (val_main_v204 (F := F) x9)

def val_main_v206 (x9 : (⟨S4x128, .f32⟩ : BufTy).Contents (Elt F)) : (⟨S100000x128, .f32⟩ : BufTy).Contents (Elt F) :=
  broadcastInDim S100000x128 ![0, 1] bcast_S1x128_S100000x128_0_1 (val_main_v205 (F := F) x9)

def val_main_v207 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v202 (F := F) x0 x2 x3 x4 x6 x7 x8 x9 x10 x11) (val_main_v206 (F := F) x9)

def val_main_v208 (x2 : (⟨S100000x1, .f32⟩ : BufTy).Contents (Elt F)) : (⟨S100000x128, .f32⟩ : BufTy).Contents (Elt F) :=
  broadcastInDim S100000x128 ![0, 1] bcast_S100000x1_S100000x128_0_1 (x2)

def val_main_v209 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v207 (F := F) x0 x2 x3 x4 x6 x7 x8 x9 x10 x11) (val_main_v208 (F := F) x2)

def val_main_cst_32 : (⟨S_, .f32⟩ : BufTy).Contents (Elt F) :=
  constant S_ .f32 0x00000000#32

def val_main_v210 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.reduceAdd (val_main_v209 (F := F) x0 x2 x3 x4 x6 x7 x8 x9 x10 x11) (val_main_cst_32 (F := F)) reducesTo_S100000x128_S128_d0 h_S_

def val_main_cst_33 : (⟨S_, .f32⟩ : BufTy).Contents (Elt F) :=
  constant S_ .f32 0x47C35000#32

def val_main_v211 : (⟨S128, .f32⟩ : BufTy).Contents (Elt F) :=
  broadcastInDim S128 ![] bcast_S_S128 (val_main_cst_33 (F := F))

def val_main_v212 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.divf (val_main_v210 (F := F) x0 x2 x3 x4 x6 x7 x8 x9 x10 x11) (val_main_v211 (F := F))

def val_main_v213 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v212 (F := F) x0 x2 x3 x4 x6 x7 x8 x9 x10 x11)

def val_main_v214 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v213 (F := F) x0 x2 x3 x4 x6 x7 x8 x9 x10 x11)

def val_main_v215 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  subf (val_main_v209 (F := F) x0 x2 x3 x4 x6 x7 x8 x9 x10 x11) (val_main_v214 (F := F) x0 x2 x3 x4 x6 x7 x8 x9 x10 x11)

def val_main_v216 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v215 (F := F) x0 x2 x3 x4 x6 x7 x8 x9 x10 x11) (val_main_v215 (F := F) x0 x2 x3 x4 x6 x7 x8 x9 x10 x11)

def val_main_cst_34 : (⟨S_, .f32⟩ : BufTy).Contents (Elt F) :=
  constant S_ .f32 0x00000000#32

def val_main_v217 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.reduceAdd (val_main_v216 (F := F) x0 x2 x3 x4 x6 x7 x8 x9 x10 x11) (val_main_cst_34 (F := F)) reducesTo_S100000x128_S128_d0 h_S_

def val_main_cst_35 : (⟨S_, .f32⟩ : BufTy).Contents (Elt F) :=
  constant S_ .f32 0x47C35000#32

def val_main_v218 : (⟨S128, .f32⟩ : BufTy).Contents (Elt F) :=
  broadcastInDim S128 ![] bcast_S_S128 (val_main_cst_35 (F := F))

def val_main_v219 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.divf (val_main_v217 (F := F) x0 x2 x3 x4 x6 x7 x8 x9 x10 x11) (val_main_v218 (F := F))

def val_main_v220 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v212 (F := F) x0 x2 x3 x4 x6 x7 x8 x9 x10 x11)

def val_main_v221 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v220 (F := F) x0 x2 x3 x4 x6 x7 x8 x9 x10 x11)

def val_main_v222 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  subf (val_main_v209 (F := F) x0 x2 x3 x4 x6 x7 x8 x9 x10 x11) (val_main_v221 (F := F) x0 x2 x3 x4 x6 x7 x8 x9 x10 x11)

def val_main_cst_36 : (⟨S_, .f32⟩ : BufTy).Contents (Elt F) :=
  constant S_ .f32 0x3727C5AC#32

def val_main_v223 : (⟨S128, .f32⟩ : BufTy).Contents (Elt F) :=
  broadcastInDim S128 ![] bcast_S_S128 (val_main_cst_36 (F := F))

def val_main_v224 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  addf (val_main_v219 (F := F) x0 x2 x3 x4 x6 x7 x8 x9 x10 x11) (val_main_v223 (F := F))

def val_main_v225 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S128, .f32⟩ : BufTy).Contents (Elt F) :=
  Host.rsqrt (val_main_v224 (F := F) x0 x2 x3 x4 x6 x7 x8 x9 x10 x11)

def val_main_v226 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S1x128, .f32⟩ : BufTy).Contents (Elt F) :=
  broadcastInDim S1x128 ![1] bcast_S128_S1x128_1 (val_main_v225 (F := F) x0 x2 x3 x4 x6 x7 x8 x9 x10 x11)

def val_main_v227 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  broadcastInDim S100000x128 ![0, 1] bcast_S1x128_S100000x128_0_1 (val_main_v226 (F := F) x0 x2 x3 x4 x6 x7 x8 x9 x10 x11)

def val_main_v228 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v222 (F := F) x0 x2 x3 x4 x6 x7 x8 x9 x10 x11) (val_main_v227 (F := F) x0 x2 x3 x4 x6 x7 x8 x9 x10 x11)

def val_main_v229 (x10 : (⟨S4x128, .f32⟩ : BufTy).Contents (Elt F)) : (⟨S1x128, .f32⟩ : BufTy).Contents (Elt F) :=
  extractStridedSlice S1x128 ![3, 0] (x10) slices_S4x128_S1x128_3_0

def val_main_v230 (x10 : (⟨S4x128, .f32⟩ : BufTy).Contents (Elt F)) : (⟨S128, .f32⟩ : BufTy).Contents (Elt F) :=
  shapeCast _ (val_main_v229 (F := F) x10) shapeCasts_S1x128_S128

def val_main_v231 (x10 : (⟨S4x128, .f32⟩ : BufTy).Contents (Elt F)) : (⟨S1x128, .f32⟩ : BufTy).Contents (Elt F) :=
  broadcastInDim S1x128 ![1] bcast_S128_S1x128_1 (val_main_v230 (F := F) x10)

def val_main_v232 (x10 : (⟨S4x128, .f32⟩ : BufTy).Contents (Elt F)) : (⟨S100000x128, .f32⟩ : BufTy).Contents (Elt F) :=
  broadcastInDim S100000x128 ![0, 1] bcast_S1x128_S100000x128_0_1 (val_main_v231 (F := F) x10)

def val_main_v233 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  mulf (val_main_v228 (F := F) x0 x2 x3 x4 x6 x7 x8 x9 x10 x11) (val_main_v232 (F := F) x10)

def val_main_v234 (x11 : (⟨S4x128, .f32⟩ : BufTy).Contents (Elt F)) : (⟨S1x128, .f32⟩ : BufTy).Contents (Elt F) :=
  extractStridedSlice S1x128 ![3, 0] (x11) slices_S4x128_S1x128_3_0

def val_main_v235 (x11 : (⟨S4x128, .f32⟩ : BufTy).Contents (Elt F)) : (⟨S128, .f32⟩ : BufTy).Contents (Elt F) :=
  shapeCast _ (val_main_v234 (F := F) x11) shapeCasts_S1x128_S128

def val_main_v236 (x11 : (⟨S4x128, .f32⟩ : BufTy).Contents (Elt F)) : (⟨S1x128, .f32⟩ : BufTy).Contents (Elt F) :=
  broadcastInDim S1x128 ![1] bcast_S128_S1x128_1 (val_main_v235 (F := F) x11)

def val_main_v237 (x11 : (⟨S4x128, .f32⟩ : BufTy).Contents (Elt F)) : (⟨S100000x128, .f32⟩ : BufTy).Contents (Elt F) :=
  broadcastInDim S100000x128 ![0, 1] bcast_S1x128_S100000x128_0_1 (val_main_v236 (F := F) x11)

def val_main_v238 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v233 (F := F) x0 x2 x3 x4 x6 x7 x8 x9 x10 x11) (val_main_v237 (F := F) x11)

def val_main_call3_cst : (⟨S_, .f32⟩ : BufTy).Contents (Elt F) :=
  constant S_ .f32 0x00000000#32

def val_main_call3_v0 : (⟨S100000x128, .f32⟩ : BufTy).Contents (Elt F) :=
  broadcastInDim S100000x128 ![] bcast_S_S100000x128 (val_main_call3_cst (F := F))

def val_main_v239 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  maximumf (val_main_v238 (F := F) x0 x2 x3 x4 x6 x7 x8 x9 x10 x11) (val_main_call3_v0 (F := F))

def val_main_v240 (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S100000x128, .f32⟩ : BufTy).Contents (Elt F) :=
  addf (val_main_v185 (F := F) x0 x2 x3 x4 x6 x7 x8 x9 x10 x11) (val_main_v239 (F := F) x0 x2 x3 x4 x6 x7 x8 x9 x10 x11)

def val_main_cst_37 : (⟨S_, .f32⟩ : BufTy).Contents (Elt F) :=
  constant S_ .f32 0x3F800000#32

def val_main_v241 : (⟨S100000, .f32⟩ : BufTy).Contents (Elt F) :=
  broadcastInDim S100000 ![] bcast_S_S100000 (val_main_cst_37 (F := F))

def val_main_cst_38 : (⟨S_, .f32⟩ : BufTy).Contents (Elt F) :=
  constant S_ .f32 0x00000000#32

def val_main_v242 : (⟨S512, .f32⟩ : BufTy).Contents (Elt F) :=
  broadcastInDim S512 ![] bcast_S_S512 (val_main_cst_38 (F := F))

def val_main_v243 (x5 : (⟨S100000, .i32⟩ : BufTy).Contents (Elt F)) : (⟨S100000x1, .i32⟩ : BufTy).Contents (Elt F) :=
  broadcastInDim S100000x1 ![0] bcast_S100000_S100000x1_0 (x5)

def val_main_v244 (x5 : (⟨S100000, .i32⟩ : BufTy).Contents (Elt F)) : (⟨S512, .f32⟩ : BufTy).Contents (Elt F) :=
  Host.scatterAdd scatter_S512_S100000x1_S100000_n_0_0_1 (val_main_v242 (F := F)) (val_main_v243 (F := F) x5) (val_main_v241 (F := F))

def val_main_cst_39 : (⟨S_, .f32⟩ : BufTy).Contents (Elt F) :=
  constant S_ .f32 0x3F800000#32

def val_main_v245 : (⟨S512, .f32⟩ : BufTy).Contents (Elt F) :=
  broadcastInDim S512 ![] bcast_S_S512 (val_main_cst_39 (F := F))

def val_main_v246 (x5 : (⟨S100000, .i32⟩ : BufTy).Contents (Elt F)) : (⟨S512, .f32⟩ : BufTy).Contents (Elt F) :=
  maximumf (val_main_v244 (F := F) x5) (val_main_v245 (F := F))

def val_main_cst_40 : (⟨S_, .f32⟩ : BufTy).Contents (Elt F) :=
  constant S_ .f32 0x00000000#32

def val_main_v247 : (⟨S512x128, .f32⟩ : BufTy).Contents (Elt F) :=
  broadcastInDim S512x128 ![] bcast_S_S512x128 (val_main_cst_40 (F := F))

def val_main_v248 (x5 : (⟨S100000, .i32⟩ : BufTy).Contents (Elt F)) : (⟨S100000x1, .i32⟩ : BufTy).Contents (Elt F) :=
  broadcastInDim S100000x1 ![0] bcast_S100000_S100000x1_0 (x5)

def val_main_v249 (x0 : (⟨S100000x128, .f32⟩ : BufTy).Contents (Elt F)) (x2 : (⟨S100000x1, .f32⟩ : BufTy).Contents (Elt F)) (x3 x4 : (⟨S1600000, .i32⟩ : BufTy).Contents (Elt F)) (x5 : (⟨S100000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S512x128, .f32⟩ : BufTy).Contents (Elt F) :=
  Host.scatterAdd scatter_S512x128_S100000x1_S100000x128_1_0_0_1 (val_main_v247 (F := F)) (val_main_v248 (F := F) x5) (val_main_v240 (F := F) x0 x2 x3 x4 x6 x7 x8 x9 x10 x11)

def val_main_v250 (x5 : (⟨S100000, .i32⟩ : BufTy).Contents (Elt F)) : (⟨S512x1, .f32⟩ : BufTy).Contents (Elt F) :=
  broadcastInDim S512x1 ![0] bcast_S512_S512x1_0 (val_main_v246 (F := F) x5)

def val_main_v251 (x5 : (⟨S100000, .i32⟩ : BufTy).Contents (Elt F)) : (⟨S512x128, .f32⟩ : BufTy).Contents (Elt F) :=
  broadcastInDim S512x128 ![0, 1] bcast_S512x1_S512x128_0_1 (val_main_v250 (F := F) x5)

def val_main_v252 (x0 : (⟨S100000x128, .f32⟩ : BufTy).Contents (Elt F)) (x2 : (⟨S100000x1, .f32⟩ : BufTy).Contents (Elt F)) (x3 x4 : (⟨S1600000, .i32⟩ : BufTy).Contents (Elt F)) (x5 : (⟨S100000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) : (⟨S512x128, .f32⟩ : BufTy).Contents (Elt F) :=
  Host.divf (val_main_v249 (F := F) x0 x2 x3 x4 x5 x6 x7 x8 x9 x10 x11) (val_main_v251 (F := F) x5)

def val_main_v253 (x0 : (⟨S100000x128, .f32⟩ : BufTy).Contents (Elt F)) (x2 : (⟨S100000x1, .f32⟩ : BufTy).Contents (Elt F)) (x3 x4 : (⟨S1600000, .i32⟩ : BufTy).Contents (Elt F)) (x5 : (⟨S100000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) (x12 : (⟨S128x10, .f32⟩ : BufTy).Contents (Elt F)) : (⟨S512x10, .f32⟩ : BufTy).Contents (Elt F) :=
  Host.dotGeneral dot_S512x128_S128x10_S512x10_1_0_0_1_n_n none (val_main_v252 (F := F) x0 x2 x3 x4 x5 x6 x7 x8 x9 x10 x11) (x12)

end Cert.ReferenceIdeal.Read

end
-- ==== Proof.RefVal.lean ====
import proofs.«164939_j7129645711575_2_alg».proof.Proof.ReadP
import proofs.«164939_j7129645711575_2_alg».proof.Proof.Spec
import proofs.«164939_j7129645711575_2_alg».proof.Proof.Fn
import proofs.«164939_j7129645711575_2_alg».proof.Proof.Layer
import proofs.«164939_j7129645711575_2_alg».proof.Proof.Ops
import Idealize.ShloMosaic.Lib.Pipeline.Value
import Idealize.ShloMosaic.Lib.ValueIdx
import Idealize.ShloMosaic.PureOps.Ideal.Laws

set_option maxRecDepth 16384

noncomputable section

namespace Cert.RefVal

open Cert.ReferenceIdeal Cert.ReferenceIdeal.Gen Cert.ReferenceIdeal.Read
open Idealize.ShloMosaic Idealize.ShloMosaic.ValueIdx
open Cert.Spec Cert.Fn Cert.Layer
open scoped BigOperators

theorem bcastRow_apply (b : OD) (i : S100000x128.Idx) :
    broadcastInDim S100000x128 ![0, 1] bcast_S1x128_S100000x128_0_1 b i = b (ix2 0 (i 1)) :=
  broadcastInDim_apply _ bcast_S1x128_S100000x128_0_1 b i (ix2 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

theorem bcastCol_apply (c : NO) (i : S100000x128.Idx) :
    broadcastInDim S100000x128 ![0, 1] bcast_S100000x1_S100000x128_0_1 c i = c (ix2 (i 0) 0) :=
  broadcastInDim_apply _ bcast_S100000x1_S100000x128_0_1 c i (ix2 (i 0) 0) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

theorem bcastVec_apply (v : FVec Ideal S128 .f32) (j : S1x128.Idx) :
    broadcastInDim S1x128 ![1] bcast_S128_S1x128_1 v j = v (ix1 (j 1)) :=
  broadcastInDim_apply _ bcast_S128_S1x128_1 v j (ix1 (j 1)) (fun a => match a with
    | ⟨0, _⟩ => by show (j 1).val = if (128 : Nat) = 1 then 0 else (j 1).val; rw [if_neg (by decide)])

theorem dot_apply (l : ND) (r : DD) (i : S100000x128.Idx) :
    Host.dotGeneral dot_S100000x128_S128x128_S100000x128_1_0_0_1_n_n none l r i
      = ∑ k : Fin 128, l (ix2 (i 0) k) * r (ix2 k (i 1)) := by
  refine (val_main_v17_apply l r i).trans (Finset.sum_congr rfl fun k _ => ?_)
  have el : lidx_main_v17 i k = ix2 (i 0) k :=
    funext fun a => match a with | ⟨0, _⟩ => rfl | ⟨1, _⟩ => rfl
  have er : ridx_main_v17 i k = ix2 k (i 1) :=
    funext fun a => match a with | ⟨0, _⟩ => rfl | ⟨1, _⟩ => rfl
  exact congrArg₂ (· * ·) (congrArg l el) (congrArg r er)

theorem reduce_apply (y : ND) (c : Fin 128) :
    Host.reduceAdd y (constant (F := Ideal) S_ .f32 0x00000000#32) reducesTo_S100000x128_S128_d0 h_S_ (ix1 c)
      = ∑ r : Fin 100000, y (ix2 r c) := by
  simp only [Host.reduceAdd, Ideal.hostReduceAdd_def]
  rw [Ideal.hostReduceAdd_single reducesTo_S100000x128_S128_d0 (by decide)]
  refine (congrArg (· + _) (show constant (F := Ideal) S_ .f32 0x00000000#32 (Shape.Idx.first h_S_) = 0 from
    ofBits_zero)).trans ((zero_add _).trans (Finset.sum_congr rfl fun k _ => ?_))
  exact congrArg y (funext fun a => Fin.ext (by match a with | ⟨0, _⟩ => rfl | ⟨1, _⟩ => rfl))

def embedOps (x : ND) (w : DD) (b : OD) : ND :=
  addf (Host.dotGeneral dot_S100000x128_S128x128_S100000x128_1_0_0_1_n_n none x w)
    (broadcastInDim S100000x128 ![0, 1] bcast_S1x128_S100000x128_0_1 b)

theorem embedOps_eq (x : ND) (w : DD) (b : OD) : embedOps x w b = embedG x w b := by
  funext i
  show Host.dotGeneral dot_S100000x128_S128x128_S100000x128_1_0_0_1_n_n none x w i
    + broadcastInDim S100000x128 ![0, 1] bcast_S1x128_S100000x128_0_1 b i = _
  rw [dot_apply, bcastRow_apply]
  rfl

def linOps (agg : ND) (invin gn : NO) (w : DD) (b : OD) : ND :=
  mulf
    (addf
      (Host.dotGeneral dot_S100000x128_S128x128_S100000x128_1_0_0_1_n_n none
        (mulf agg (broadcastInDim S100000x128 ![0, 1] bcast_S100000x1_S100000x128_0_1 invin)) w)
      (broadcastInDim S100000x128 ![0, 1] bcast_S1x128_S100000x128_0_1 b))
    (broadcastInDim S100000x128 ![0, 1] bcast_S100000x1_S100000x128_0_1 gn)

theorem linOps_eq (agg : ND) (invin gn : NO) (w : DD) (b : OD) :
    linOps agg invin gn w b = linG agg invin gn w b := by
  funext i
  show (Host.dotGeneral dot_S100000x128_S128x128_S100000x128_1_0_0_1_n_n none
        (mulf agg (broadcastInDim S100000x128 ![0, 1] bcast_S100000x1_S100000x128_0_1 invin)) w i
      + broadcastInDim S100000x128 ![0, 1] bcast_S1x128_S100000x128_0_1 b i)
    * broadcastInDim S100000x128 ![0, 1] bcast_S100000x1_S100000x128_0_1 gn i = _
  rw [dot_apply, bcastRow_apply, bcastCol_apply]
  show _ = ((∑ k : Fin 128, (agg (ix2 (i 0) k) * invin (ix2 (i 0) 0)) * w (ix2 k (i 1))) + b (ix2 0 (i 1)))
    * gn (ix2 (i 0) 0)
  refine congrArg (fun s => (s + b (ix2 0 (i 1))) * gn (ix2 (i 0) 0)) (Finset.sum_congr rfl fun k _ => ?_)
  exact congrArg (fun z => agg (ix2 (i 0) k) * z * w (ix2 k (i 1))) (bcastCol_apply invin (ix2 (i 0) k))

def nVec : FVec Ideal S128 .f32 :=
  broadcastInDim S128 ![] bcast_S_S128 (constant (F := Ideal) S_ .f32 0x47C35000#32)

def epsVec : FVec Ideal S128 .f32 :=
  broadcastInDim S128 ![] bcast_S_S128 (constant (F := Ideal) S_ .f32 0x3727C5AC#32)

def meanOps (y : ND) : FVec Ideal S128 .f32 :=
  Host.divf (Host.reduceAdd y (constant (F := Ideal) S_ .f32 0x00000000#32) reducesTo_S100000x128_S128_d0 h_S_) nVec

def cenOps (y : ND) : ND :=
  subf y (broadcastInDim S100000x128 ![0, 1] bcast_S1x128_S100000x128_0_1
    (broadcastInDim S1x128 ![1] bcast_S128_S1x128_1 (meanOps y)))

def varOps (y : ND) : FVec Ideal S128 .f32 :=
  Host.divf (Host.reduceAdd (mulf (cenOps y) (cenOps y)) (constant (F := Ideal) S_ .f32 0x00000000#32)
    reducesTo_S100000x128_S128_d0 h_S_) nVec

def bnOps (y hin : ND) (gamma beta : OD) : ND :=
  addf hin
    (maximumf
      (addf
        (mulf
          (mulf (cenOps y)
            (broadcastInDim S100000x128 ![0, 1] bcast_S1x128_S100000x128_0_1
              (broadcastInDim S1x128 ![1] bcast_S128_S1x128_1 (Host.rsqrt (addf (varOps y) epsVec)))))
          (broadcastInDim S100000x128 ![0, 1] bcast_S1x128_S100000x128_0_1 gamma))
        (broadcastInDim S100000x128 ![0, 1] bcast_S1x128_S100000x128_0_1 beta))
      (broadcastInDim S100000x128 ![] bcast_S_S100000x128 (constant (F := Ideal) S_ .f32 0x00000000#32)))

theorem meanOps_apply (y : ND) (c : Fin 128) : meanOps y (ix1 c) = muR y (ix2 0 c) := by
  show Ideal.div (Host.reduceAdd y (constant (F := Ideal) S_ .f32 0x00000000#32)
    reducesTo_S100000x128_S128_d0 h_S_ (ix1 c)) (Ideal.ofBits .f32 0x47C35000#32) = _
  rw [reduce_apply]
  rfl

theorem cenOps_apply (y : ND) (r : Fin 100000) (c : Fin 128) :
    cenOps y (ix2 r c) = y (ix2 r c) - muR y (ix2 0 c) := by
  show y (ix2 r c) - broadcastInDim S100000x128 ![0, 1] bcast_S1x128_S100000x128_0_1
    (broadcastInDim S1x128 ![1] bcast_S128_S1x128_1 (meanOps y)) (ix2 r c) = _
  rw [bcastRow_apply, bcastVec_apply]
  exact congrArg (y (ix2 r c) - ·) (meanOps_apply y c)

theorem varOps_apply (y : ND) (c : Fin 128) : varOps y (ix1 c) = varR y (ix2 0 c) := by
  show Ideal.div (Host.reduceAdd (mulf (cenOps y) (cenOps y)) (constant (F := Ideal) S_ .f32 0x00000000#32)
    reducesTo_S100000x128_S128_d0 h_S_ (ix1 c)) (Ideal.ofBits .f32 0x47C35000#32) = _
  rw [reduce_apply]
  show Ideal.div (∑ r : Fin 100000, cenOps y (ix2 r c) * cenOps y (ix2 r c)) nW = _
  simp only [cenOps_apply]
  rfl

theorem bnOps_eq (y hin : ND) (gamma beta : OD) :
    bnOps y hin gamma beta = bnG y hin (muR y) (varR y) gamma beta := by
  funext i
  obtain ⟨r, c, rfl⟩ : ∃ r c, i = ix2 r c := ⟨i 0, i 1, eq_ix2 i⟩
  show hin (ix2 r c) + max
      ((cenOps y (ix2 r c)
          * broadcastInDim S100000x128 ![0, 1] bcast_S1x128_S100000x128_0_1
              (broadcastInDim S1x128 ![1] bcast_S128_S1x128_1 (Host.rsqrt (addf (varOps y) epsVec))) (ix2 r c))
        * broadcastInDim S100000x128 ![0, 1] bcast_S1x128_S100000x128_0_1 gamma (ix2 r c)
      + broadcastInDim S100000x128 ![0, 1] bcast_S1x128_S100000x128_0_1 beta (ix2 r c))
      (Ideal.ofBits .f32 0x00000000#32) = _
  rw [bcastRow_apply, bcastRow_apply, bcastRow_apply, bcastVec_apply, cenOps_apply, ofBits_zero]
  show hin (ix2 r c) + max
      (((y (ix2 r c) - muR y (ix2 0 c))
          * Ideal.rsqrt (varOps y (ix1 c) + Ideal.ofBits .f32 0x3727C5AC#32)) * gamma (ix2 0 c) + beta (ix2 0 c)) 0 = _
  rw [varOps_apply]
  rfl

theorem embed_eq (x0 : (⟨S100000x128, .f32⟩ : BufTy).Contents (Elt Ideal)) (x6 : (⟨S128x128, .f32⟩ : BufTy).Contents (Elt Ideal)) (x7 : (⟨S128, .f32⟩ : BufTy).Contents (Elt Ideal)) :
    val_main_v20 (F := Ideal) x0 x6 x7 = embedG x0 x6 (val_main_v18 (F := Ideal) x7) :=
  embedOps_eq _ _ _

theorem lin1_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 : (⟨S4x128, .f32⟩ : BufTy).Contents (Elt Ideal)) :
    val_main_v44 (F := Ideal) x0 x2 x3 x4 x6 x7 x8 x9 = linG (val_main_v32 (F := Ideal) x0 x3 x4 x6 x7) (val_main_v16 (F := Ideal) x4) x2 (val_main_v36 (F := Ideal) x8) (val_main_v40 (F := Ideal) x9) :=
  linOps_eq _ _ _ _ _

theorem bn1_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v75 (F := Ideal) x0 x2 x3 x4 x6 x7 x8 x9 x10 x11 = bnG (val_main_v44 (F := Ideal) x0 x2 x3 x4 x6 x7 x8 x9) (val_main_v20 (F := Ideal) x0 x6 x7) (muR (val_main_v44 (F := Ideal) x0 x2 x3 x4 x6 x7 x8 x9)) (varR (val_main_v44 (F := Ideal) x0 x2 x3 x4 x6 x7 x8 x9)) (val_main_v66 (F := Ideal) x10) (val_main_v71 (F := Ideal) x11) :=
  bnOps_eq _ _ _ _

theorem lin2_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v99 (F := Ideal) x0 x2 x3 x4 x6 x7 x8 x9 x10 x11 = linG (val_main_v87 (F := Ideal) x0 x2 x3 x4 x6 x7 x8 x9 x10 x11) (val_main_v16 (F := Ideal) x4) x2 (val_main_v91 (F := Ideal) x8) (val_main_v95 (F := Ideal) x9) :=
  linOps_eq _ _ _ _ _

theorem bn2_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v130 (F := Ideal) x0 x2 x3 x4 x6 x7 x8 x9 x10 x11 = bnG (val_main_v99 (F := Ideal) x0 x2 x3 x4 x6 x7 x8 x9 x10 x11) (val_main_v75 (F := Ideal) x0 x2 x3 x4 x6 x7 x8 x9 x10 x11) (muR (val_main_v99 (F := Ideal) x0 x2 x3 x4 x6 x7 x8 x9 x10 x11)) (varR (val_main_v99 (F := Ideal) x0 x2 x3 x4 x6 x7 x8 x9 x10 x11)) (val_main_v121 (F := Ideal) x10) (val_main_v126 (F := Ideal) x11) :=
  bnOps_eq _ _ _ _

theorem lin3_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v154 (F := Ideal) x0 x2 x3 x4 x6 x7 x8 x9 x10 x11 = linG (val_main_v142 (F := Ideal) x0 x2 x3 x4 x6 x7 x8 x9 x10 x11) (val_main_v16 (F := Ideal) x4) x2 (val_main_v146 (F := Ideal) x8) (val_main_v150 (F := Ideal) x9) :=
  linOps_eq _ _ _ _ _

theorem bn3_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v185 (F := Ideal) x0 x2 x3 x4 x6 x7 x8 x9 x10 x11 = bnG (val_main_v154 (F := Ideal) x0 x2 x3 x4 x6 x7 x8 x9 x10 x11) (val_main_v130 (F := Ideal) x0 x2 x3 x4 x6 x7 x8 x9 x10 x11) (muR (val_main_v154 (F := Ideal) x0 x2 x3 x4 x6 x7 x8 x9 x10 x11)) (varR (val_main_v154 (F := Ideal) x0 x2 x3 x4 x6 x7 x8 x9 x10 x11)) (val_main_v176 (F := Ideal) x10) (val_main_v181 (F := Ideal) x11) :=
  bnOps_eq _ _ _ _

theorem lin4_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v209 (F := Ideal) x0 x2 x3 x4 x6 x7 x8 x9 x10 x11 = linG (val_main_v197 (F := Ideal) x0 x2 x3 x4 x6 x7 x8 x9 x10 x11) (val_main_v16 (F := Ideal) x4) x2 (val_main_v201 (F := Ideal) x8) (val_main_v205 (F := Ideal) x9) :=
  linOps_eq _ _ _ _ _

theorem bn4_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v240 (F := Ideal) x0 x2 x3 x4 x6 x7 x8 x9 x10 x11 = bnG (val_main_v209 (F := Ideal) x0 x2 x3 x4 x6 x7 x8 x9 x10 x11) (val_main_v185 (F := Ideal) x0 x2 x3 x4 x6 x7 x8 x9 x10 x11) (muR (val_main_v209 (F := Ideal) x0 x2 x3 x4 x6 x7 x8 x9 x10 x11)) (varR (val_main_v209 (F := Ideal) x0 x2 x3 x4 x6 x7 x8 x9 x10 x11)) (val_main_v231 (F := Ideal) x10) (val_main_v236 (F := Ideal) x11) :=
  bnOps_eq _ _ _ _

def layerOps (h : ND) (io ii x2 : NO) (x3 x4 : (⟨S1600000, .i32⟩ : BufTy).Contents (Elt Ideal)) (w : DD) (b g bt : OD) : ND :=
  bnOps (linOps (Cert.Ops.aggOps h io x3 x4) ii x2 w b) h g bt

theorem layerOps_congr {h h' : ND} {io io' ii ii' x2 x2' : NO} {x3 x3' x4 x4' : (⟨S1600000, .i32⟩ : BufTy).Contents (Elt Ideal)} {w w' : DD}
    {b b' g g' bt bt' : OD} (e0 : h = h') (e1 : io = io') (e2 : ii = ii') (e3 : x2 = x2') (e4 : x3 = x3') (e5 : x4 = x4')
    (e6 : w = w') (e7 : b = b') (e8 : g = g') (e9 : bt = bt') :
    layerOps h io ii x2 x3 x4 w b g bt = layerOps h' io' ii' x2' x3' x4' w' b' g' bt' := by
  subst e0 e1 e2 e3 e4 e5 e6 e7 e8 e9; rfl

theorem layer1_ops (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v75 (F := Ideal) x0 x2 x3 x4 x6 x7 x8 x9 x10 x11 = layerOps (val_main_v20 (F := Ideal) x0 x6 x7) (val_main_v13 (F := Ideal) x3) (val_main_v16 (F := Ideal) x4) x2 x3 x4 (val_main_v36 (F := Ideal) x8) (val_main_v40 (F := Ideal) x9) (val_main_v66 (F := Ideal) x10) (val_main_v71 (F := Ideal) x11) := rfl

theorem layer2_ops (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v130 (F := Ideal) x0 x2 x3 x4 x6 x7 x8 x9 x10 x11 = layerOps (val_main_v75 (F := Ideal) x0 x2 x3 x4 x6 x7 x8 x9 x10 x11) (val_main_v13 (F := Ideal) x3) (val_main_v16 (F := Ideal) x4) x2 x3 x4 (val_main_v91 (F := Ideal) x8) (val_main_v95 (F := Ideal) x9) (val_main_v121 (F := Ideal) x10) (val_main_v126 (F := Ideal) x11) := rfl

theorem layer3_ops (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v185 (F := Ideal) x0 x2 x3 x4 x6 x7 x8 x9 x10 x11 = layerOps (val_main_v130 (F := Ideal) x0 x2 x3 x4 x6 x7 x8 x9 x10 x11) (val_main_v13 (F := Ideal) x3) (val_main_v16 (F := Ideal) x4) x2 x3 x4 (val_main_v146 (F := Ideal) x8) (val_main_v150 (F := Ideal) x9) (val_main_v176 (F := Ideal) x10) (val_main_v181 (F := Ideal) x11) := rfl

theorem layer4_ops (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v240 (F := Ideal) x0 x2 x3 x4 x6 x7 x8 x9 x10 x11 = layerOps (val_main_v185 (F := Ideal) x0 x2 x3 x4 x6 x7 x8 x9 x10 x11) (val_main_v13 (F := Ideal) x3) (val_main_v16 (F := Ideal) x4) x2 x3 x4 (val_main_v201 (F := Ideal) x8) (val_main_v205 (F := Ideal) x9) (val_main_v231 (F := Ideal) x10) (val_main_v236 (F := Ideal) x11) := rfl

section Chains
variable {F : FTy → Type} [FloatOps F]
open Cert.Ops

theorem degOut_eq (x3 : (⟨S1600000, .i32⟩ : BufTy).Contents (Elt F)) : val_main_v13 (F := F) x3 = degOps x3 := rfl

theorem degIn_eq (x4 : (⟨S1600000, .i32⟩ : BufTy).Contents (Elt F)) : val_main_v16 (F := F) x4 = degOps x4 := rfl

theorem biasRow_eq (x7 : (⟨S128, .f32⟩ : BufTy).Contents (Elt F)) : val_main_v18 (F := F) x7 = biasRow x7 := rfl

theorem wSlice1_eq (x8 : (⟨S4x128x128, .f32⟩ : BufTy).Contents (Elt F)) : val_main_v36 (F := F) x8 = wSliceAt 0 slices_S4x128x128_S1x128x128_0_0_0 x8 := rfl

theorem bSlice1_eq (x9 : (⟨S4x128, .f32⟩ : BufTy).Contents (Elt F)) : val_main_v40 (F := F) x9 = rowSliceAt 0 slices_S4x128_S1x128_0_0 x9 := rfl

theorem gSlice1_eq (x10 : (⟨S4x128, .f32⟩ : BufTy).Contents (Elt F)) : val_main_v66 (F := F) x10 = rowSliceAt 0 slices_S4x128_S1x128_0_0 x10 := rfl

theorem betaSlice1_eq (x11 : (⟨S4x128, .f32⟩ : BufTy).Contents (Elt F)) : val_main_v71 (F := F) x11 = rowSliceAt 0 slices_S4x128_S1x128_0_0 x11 := rfl

theorem agg1_eq (x0 : (⟨S100000x128, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) :
    val_main_v32 (F := F) x0 x3 x4 x6 x7 = aggOps (val_main_v20 (F := F) x0 x6 x7) (val_main_v13 (F := F) x3) x3 x4 := rfl

theorem wSlice2_eq (x8 : (⟨S4x128x128, .f32⟩ : BufTy).Contents (Elt F)) : val_main_v91 (F := F) x8 = wSliceAt 1 slices_S4x128x128_S1x128x128_1_0_0 x8 := rfl

theorem bSlice2_eq (x9 : (⟨S4x128, .f32⟩ : BufTy).Contents (Elt F)) : val_main_v95 (F := F) x9 = rowSliceAt 1 slices_S4x128_S1x128_1_0 x9 := rfl

theorem gSlice2_eq (x10 : (⟨S4x128, .f32⟩ : BufTy).Contents (Elt F)) : val_main_v121 (F := F) x10 = rowSliceAt 1 slices_S4x128_S1x128_1_0 x10 := rfl

theorem betaSlice2_eq (x11 : (⟨S4x128, .f32⟩ : BufTy).Contents (Elt F)) : val_main_v126 (F := F) x11 = rowSliceAt 1 slices_S4x128_S1x128_1_0 x11 := rfl

theorem agg2_eq (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) :
    val_main_v87 (F := F) x0 x2 x3 x4 x6 x7 x8 x9 x10 x11 = aggOps (val_main_v75 (F := F) x0 x2 x3 x4 x6 x7 x8 x9 x10 x11) (val_main_v13 (F := F) x3) x3 x4 := rfl

theorem wSlice3_eq (x8 : (⟨S4x128x128, .f32⟩ : BufTy).Contents (Elt F)) : val_main_v146 (F := F) x8 = wSliceAt 2 slices_S4x128x128_S1x128x128_2_0_0 x8 := rfl

theorem bSlice3_eq (x9 : (⟨S4x128, .f32⟩ : BufTy).Contents (Elt F)) : val_main_v150 (F := F) x9 = rowSliceAt 2 slices_S4x128_S1x128_2_0 x9 := rfl

theorem gSlice3_eq (x10 : (⟨S4x128, .f32⟩ : BufTy).Contents (Elt F)) : val_main_v176 (F := F) x10 = rowSliceAt 2 slices_S4x128_S1x128_2_0 x10 := rfl

theorem betaSlice3_eq (x11 : (⟨S4x128, .f32⟩ : BufTy).Contents (Elt F)) : val_main_v181 (F := F) x11 = rowSliceAt 2 slices_S4x128_S1x128_2_0 x11 := rfl

theorem agg3_eq (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) :
    val_main_v142 (F := F) x0 x2 x3 x4 x6 x7 x8 x9 x10 x11 = aggOps (val_main_v130 (F := F) x0 x2 x3 x4 x6 x7 x8 x9 x10 x11) (val_main_v13 (F := F) x3) x3 x4 := rfl

theorem wSlice4_eq (x8 : (⟨S4x128x128, .f32⟩ : BufTy).Contents (Elt F)) : val_main_v201 (F := F) x8 = wSliceAt 3 slices_S4x128x128_S1x128x128_3_0_0 x8 := rfl

theorem bSlice4_eq (x9 : (⟨S4x128, .f32⟩ : BufTy).Contents (Elt F)) : val_main_v205 (F := F) x9 = rowSliceAt 3 slices_S4x128_S1x128_3_0 x9 := rfl

theorem gSlice4_eq (x10 : (⟨S4x128, .f32⟩ : BufTy).Contents (Elt F)) : val_main_v231 (F := F) x10 = rowSliceAt 3 slices_S4x128_S1x128_3_0 x10 := rfl

theorem betaSlice4_eq (x11 : (⟨S4x128, .f32⟩ : BufTy).Contents (Elt F)) : val_main_v236 (F := F) x11 = rowSliceAt 3 slices_S4x128_S1x128_3_0 x11 := rfl

theorem agg4_eq (x0 : (⟨S100000x128, .f32⟩ : BufTy).Contents (Elt F)) (x2 : (⟨S100000x1, .f32⟩ : BufTy).Contents (Elt F)) (x3 x4 : (⟨S1600000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) :
    val_main_v197 (F := F) x0 x2 x3 x4 x6 x7 x8 x9 x10 x11 = aggOps (val_main_v185 (F := F) x0 x2 x3 x4 x6 x7 x8 x9 x10 x11) (val_main_v13 (F := F) x3) x3 x4 := rfl

theorem readout_eq (x0 : (⟨S100000x128, .f32⟩ : BufTy).Contents (Elt F)) (x2 : (⟨S100000x1, .f32⟩ : BufTy).Contents (Elt F)) (x3 x4 : (⟨S1600000, .i32⟩ : BufTy).Contents (Elt F)) (x5 : (⟨S100000, .i32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F)) (x9 x10 x11 : (⟨S4x128, .f32⟩ : BufTy).Contents (Elt F)) (x12 : (⟨S128x10, .f32⟩ : BufTy).Contents (Elt F)) :
    val_main_v253 (F := F) x0 x2 x3 x4 x5 x6 x7 x8 x9 x10 x11 x12 = readoutOps (val_main_v240 (F := F) x0 x2 x3 x4 x6 x7 x8 x9 x10 x11) x5 x12 := rfl

end Chains

end Cert.RefVal
-- ==== Proof.Bridge.lean ====
import proofs.«164939_j7129645711575_2_alg».proof.Proof.RefVal
import proofs.«164939_j7129645711575_2_alg».proof.Proof.NetFn

set_option maxRecDepth 16384

noncomputable section

namespace Cert.Bridge

open Cert.ReferenceIdeal Cert.ReferenceIdeal.Gen Cert.ReferenceIdeal.Read
open Idealize.ShloMosaic Idealize.ShloMosaic.ValueIdx
open Cert.Spec Cert.Fn Cert.Layer Cert.Ops Cert.RefVal
open scoped BigOperators

theorem ref_layer1 (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v75 (F := Ideal) x0 x2 x3 x4 x6 x7 x8 x9 x10 x11 = layerR (val_main_v20 (F := Ideal) x0 x6 x7) x2 x3 x4 (val_main_v36 (F := Ideal) x8) (val_main_v40 (F := Ideal) x9) (val_main_v66 (F := Ideal) x10) (val_main_v71 (F := Ideal) x11) := by
  rw [bn1_eq, lin1_eq, agg1_eq, degOut_eq, degIn_eq]
  rfl

theorem layer1_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal))
    {hK hnK : ND} {wV : DD} {bV gV btV : OD}
    (Hh : hK = val_main_v20 (F := Ideal) x0 x6 x7)
    (Hw : wV = val_main_v36 (F := Ideal) x8) (Hb : bV = val_main_v40 (F := Ideal) x9) (Hg : gV = val_main_v66 (F := Ideal) x10) (Hbt : btV = val_main_v71 (F := Ideal) x11)
    (K : hnK = layerK hK x2 x3 x4 wV bV gV btV)
    (fin : AllFin (val_main_v44 (F := Ideal) x0 x2 x3 x4 x6 x7 x8 x9)) :
    hnK = val_main_v75 (F := Ideal) x0 x2 x3 x4 x6 x7 x8 x9 x10 x11 := by
  subst Hh Hw Hb Hg Hbt K
  rw [ref_layer1]
  refine layerK_eq_layerR _ _ _ _ _ _ _ _ ?_
  have e : val_main_v44 (F := Ideal) x0 x2 x3 x4 x6 x7 x8 x9 = linG (aggOps (val_main_v20 (F := Ideal) x0 x6 x7) (degOps x3) x3 x4) (degOps x4) x2 (val_main_v36 (F := Ideal) x8) (val_main_v40 (F := Ideal) x9) := by
    rw [lin1_eq, agg1_eq, degOut_eq, degIn_eq]
  exact e ▸ fin

theorem ref_layer2 (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v130 (F := Ideal) x0 x2 x3 x4 x6 x7 x8 x9 x10 x11 = layerR (val_main_v75 (F := Ideal) x0 x2 x3 x4 x6 x7 x8 x9 x10 x11) x2 x3 x4 (val_main_v91 (F := Ideal) x8) (val_main_v95 (F := Ideal) x9) (val_main_v121 (F := Ideal) x10) (val_main_v126 (F := Ideal) x11) := by
  rw [bn2_eq, lin2_eq, agg2_eq, degOut_eq, degIn_eq]
  rfl

theorem layer2_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal))
    {hK hnK : ND} {wV : DD} {bV gV btV : OD}
    (Hh : hK = val_main_v75 (F := Ideal) x0 x2 x3 x4 x6 x7 x8 x9 x10 x11)
    (Hw : wV = val_main_v91 (F := Ideal) x8) (Hb : bV = val_main_v95 (F := Ideal) x9) (Hg : gV = val_main_v121 (F := Ideal) x10) (Hbt : btV = val_main_v126 (F := Ideal) x11)
    (K : hnK = layerK hK x2 x3 x4 wV bV gV btV)
    (fin : AllFin (val_main_v99 (F := Ideal) x0 x2 x3 x4 x6 x7 x8 x9 x10 x11)) :
    hnK = val_main_v130 (F := Ideal) x0 x2 x3 x4 x6 x7 x8 x9 x10 x11 := by
  subst Hh Hw Hb Hg Hbt K
  rw [ref_layer2]
  refine layerK_eq_layerR _ _ _ _ _ _ _ _ ?_
  have e : val_main_v99 (F := Ideal) x0 x2 x3 x4 x6 x7 x8 x9 x10 x11 = linG (aggOps (val_main_v75 (F := Ideal) x0 x2 x3 x4 x6 x7 x8 x9 x10 x11) (degOps x3) x3 x4) (degOps x4) x2 (val_main_v91 (F := Ideal) x8) (val_main_v95 (F := Ideal) x9) := by
    rw [lin2_eq, agg2_eq, degOut_eq, degIn_eq]
  exact e ▸ fin

theorem ref_layer3 (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v185 (F := Ideal) x0 x2 x3 x4 x6 x7 x8 x9 x10 x11 = layerR (val_main_v130 (F := Ideal) x0 x2 x3 x4 x6 x7 x8 x9 x10 x11) x2 x3 x4 (val_main_v146 (F := Ideal) x8) (val_main_v150 (F := Ideal) x9) (val_main_v176 (F := Ideal) x10) (val_main_v181 (F := Ideal) x11) := by
  rw [bn3_eq, lin3_eq, agg3_eq, degOut_eq, degIn_eq]
  rfl

theorem layer3_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal))
    {hK hnK : ND} {wV : DD} {bV gV btV : OD}
    (Hh : hK = val_main_v130 (F := Ideal) x0 x2 x3 x4 x6 x7 x8 x9 x10 x11)
    (Hw : wV = val_main_v146 (F := Ideal) x8) (Hb : bV = val_main_v150 (F := Ideal) x9) (Hg : gV = val_main_v176 (F := Ideal) x10) (Hbt : btV = val_main_v181 (F := Ideal) x11)
    (K : hnK = layerK hK x2 x3 x4 wV bV gV btV)
    (fin : AllFin (val_main_v154 (F := Ideal) x0 x2 x3 x4 x6 x7 x8 x9 x10 x11)) :
    hnK = val_main_v185 (F := Ideal) x0 x2 x3 x4 x6 x7 x8 x9 x10 x11 := by
  subst Hh Hw Hb Hg Hbt K
  rw [ref_layer3]
  refine layerK_eq_layerR _ _ _ _ _ _ _ _ ?_
  have e : val_main_v154 (F := Ideal) x0 x2 x3 x4 x6 x7 x8 x9 x10 x11 = linG (aggOps (val_main_v130 (F := Ideal) x0 x2 x3 x4 x6 x7 x8 x9 x10 x11) (degOps x3) x3 x4) (degOps x4) x2 (val_main_v146 (F := Ideal) x8) (val_main_v150 (F := Ideal) x9) := by
    rw [lin3_eq, agg3_eq, degOut_eq, degIn_eq]
  exact e ▸ fin

theorem ref_layer4 (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) :
    val_main_v240 (F := Ideal) x0 x2 x3 x4 x6 x7 x8 x9 x10 x11 = layerR (val_main_v185 (F := Ideal) x0 x2 x3 x4 x6 x7 x8 x9 x10 x11) x2 x3 x4 (val_main_v201 (F := Ideal) x8) (val_main_v205 (F := Ideal) x9) (val_main_v231 (F := Ideal) x10) (val_main_v236 (F := Ideal) x11) := by
  rw [bn4_eq, lin4_eq, agg4_eq, degOut_eq, degIn_eq]
  rfl

theorem layer4_eq (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal))
    {hK hnK : ND} {wV : DD} {bV gV btV : OD}
    (Hh : hK = val_main_v185 (F := Ideal) x0 x2 x3 x4 x6 x7 x8 x9 x10 x11)
    (Hw : wV = val_main_v201 (F := Ideal) x8) (Hb : bV = val_main_v205 (F := Ideal) x9) (Hg : gV = val_main_v231 (F := Ideal) x10) (Hbt : btV = val_main_v236 (F := Ideal) x11)
    (K : hnK = layerK hK x2 x3 x4 wV bV gV btV)
    (fin : AllFin (val_main_v209 (F := Ideal) x0 x2 x3 x4 x6 x7 x8 x9 x10 x11)) :
    hnK = val_main_v240 (F := Ideal) x0 x2 x3 x4 x6 x7 x8 x9 x10 x11 := by
  subst Hh Hw Hb Hg Hbt K
  rw [ref_layer4]
  refine layerK_eq_layerR _ _ _ _ _ _ _ _ ?_
  have e : val_main_v209 (F := Ideal) x0 x2 x3 x4 x6 x7 x8 x9 x10 x11 = linG (aggOps (val_main_v185 (F := Ideal) x0 x2 x3 x4 x6 x7 x8 x9 x10 x11) (degOps x3) x3 x4) (degOps x4) x2 (val_main_v201 (F := Ideal) x8) (val_main_v205 (F := Ideal) x9) := by
    rw [lin4_eq, agg4_eq, degOut_eq, degIn_eq]
  exact e ▸ fin

theorem embed_step (x0 : (⟨S100000x128, .f32⟩ : BufTy).Contents (Elt Ideal)) (x6 : (⟨S128x128, .f32⟩ : BufTy).Contents (Elt Ideal)) (x7 : (⟨S128, .f32⟩ : BufTy).Contents (Elt Ideal)) {h0K : ND} {rowK : OD}
    (Hrow : rowK = val_main_v18 (F := Ideal) x7) (K : h0K = embedG x0 x6 rowK) :
    h0K = val_main_v20 (F := Ideal) x0 x6 x7 := by
  subst Hrow K
  exact (embed_eq x0 x6 x7).symm

theorem readout_step (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x5 : (⟨S100000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) (x12 : (⟨S128x10, .f32⟩ : BufTy).Contents (Elt Ideal)) {h4K : ND}
    {outK : (⟨S512x10, .f32⟩ : BufTy).Contents (Elt Ideal)}
    (Hh : h4K = val_main_v240 (F := Ideal) x0 x2 x3 x4 x6 x7 x8 x9 x10 x11) (K : outK = readoutOps h4K x5 x12) :
    outK = val_main_v253 (F := Ideal) x0 x2 x3 x4 x5 x6 x7 x8 x9 x10 x11 x12 := by
  subst Hh K
  exact (readout_eq x0 x2 x3 x4 x5 x6 x7 x8 x9 x10 x11 x12).symm

theorem netK_eq_ref (x0 : (⟨S100000x128, .f32⟩ : BufTy).Contents (Elt Ideal)) (x2 : (⟨S100000x1, .f32⟩ : BufTy).Contents (Elt Ideal)) (x3 x4 : (⟨S1600000, .i32⟩ : BufTy).Contents (Elt Ideal)) (x5 : (⟨S100000, .i32⟩ : BufTy).Contents (Elt Ideal)) (x6 : (⟨S128x128, .f32⟩ : BufTy).Contents (Elt Ideal)) (x7 : (⟨S128, .f32⟩ : BufTy).Contents (Elt Ideal)) (x8 : (⟨S4x128x128, .f32⟩ : BufTy).Contents (Elt Ideal)) (x9 x10 x11 : (⟨S4x128, .f32⟩ : BufTy).Contents (Elt Ideal)) (x12 : (⟨S128x10, .f32⟩ : BufTy).Contents (Elt Ideal))
    (fin1 : AllFin (val_main_v44 (F := Ideal) x0 x2 x3 x4 x6 x7 x8 x9)) (fin2 : AllFin (val_main_v99 (F := Ideal) x0 x2 x3 x4 x6 x7 x8 x9 x10 x11))
    (fin3 : AllFin (val_main_v154 (F := Ideal) x0 x2 x3 x4 x6 x7 x8 x9 x10 x11)) (fin4 : AllFin (val_main_v209 (F := Ideal) x0 x2 x3 x4 x6 x7 x8 x9 x10 x11)) :
    netK x0 x2 x3 x4 x5 x6 x7 x8 x9 x10 x11 x12 = val_main_v253 (F := Ideal) x0 x2 x3 x4 x5 x6 x7 x8 x9 x10 x11 x12 := by
  have h0 : embedG x0 x6 (biasRow x7) = val_main_v20 (F := Ideal) x0 x6 x7 :=
    embed_step x0 x6 x7 (biasRow_eq x7).symm rfl
  have h1 := layer1_eq x0 x2 x3 x4 x6 x7 x8 x9 x10 x11 h0 (wSlice1_eq x8).symm (bSlice1_eq x9).symm
    (gSlice1_eq x10).symm (betaSlice1_eq x11).symm rfl fin1
  have h2 := layer2_eq x0 x2 x3 x4 x6 x7 x8 x9 x10 x11 h1 (wSlice2_eq x8).symm (bSlice2_eq x9).symm
    (gSlice2_eq x10).symm (betaSlice2_eq x11).symm rfl fin2
  have h3 := layer3_eq x0 x2 x3 x4 x6 x7 x8 x9 x10 x11 h2 (wSlice3_eq x8).symm (bSlice3_eq x9).symm
    (gSlice3_eq x10).symm (betaSlice3_eq x11).symm rfl fin3
  have h4 := layer4_eq x0 x2 x3 x4 x6 x7 x8 x9 x10 x11 h3 (wSlice4_eq x8).symm (bSlice4_eq x9).symm
    (gSlice4_eq x10).symm (betaSlice4_eq x11).symm rfl fin4
  exact readout_step x0 x2 x3 x4 x5 x6 x7 x8 x9 x10 x11 x12 h4 rfl

end Cert.Bridge
-- ==== Proof.FinNet.lean ====
import proofs.«164939_j7129645711575_2_alg».proof.Proof.ReadP
import proofs.«164939_j7129645711575_2_alg».proof.Proof.Spec

noncomputable section

namespace Cert.FinNet

open Idealize.ShloMosaic
open Cert.Spec Cert.ReferenceIdeal Cert.ReferenceIdeal.Read
open scoped BigOperators

section Closure
variable {s t : Shape} {φ : FTy}

theorem ofBits_zero_real : Ideal.ofBits .f32 0x00000000#32 = ((0 : ℝ) : EReal) :=
  ofBits_zero.trans EReal.coe_zero.symm

theorem allNonneg_constant (s : Shape) (φ : FTy) (b : BitVec φ.bits) (r : ℝ) (hr : 0 ≤ r)
    (hb : Ideal.ofBits φ b = (r : EReal)) : AllNonneg (constant (F := Ideal) s φ b) := fun _ => ⟨r, hr, hb⟩

theorem allNonneg_mulf_self {x : FVec Ideal s φ} (hx : AllFin x) : AllNonneg (mulf x x) := fun i => by
  obtain ⟨r, hr⟩ := hx i
  refine ⟨r * r, mul_self_nonneg r, ?_⟩
  show x i * x i = _
  rw [hr, EReal.coe_mul]

theorem allNonneg_hostReduceAdd {axes : List (Fin s.rank)} {u : Shape} {x : FVec Ideal s φ} {init : u.Idx → Ideal φ}
    (h : s.ReducesTo axes t) (hu : 0 < u.numel) (hx : AllNonneg x) (hi : AllNonneg init) :
    AllNonneg (Host.reduceAdd x init h hu) := fun j => by
  choose a ha0 ha using hx
  obtain ⟨b, hb0, hb⟩ := hi (Shape.Idx.first hu)
  refine ⟨b + ∑ i ∈ Finset.univ.filter (fun i => h.drop i = j), a i,
    add_nonneg hb0 (Finset.sum_nonneg fun i _ => ha0 i), ?_⟩
  show init (Shape.Idx.first hu) + ∑ i ∈ Finset.univ.filter (fun i => h.drop i = j), x i = _
  rw [hb, Finset.sum_congr rfl fun i _ => ha i, coe_sum, EReal.coe_add]

theorem allNonneg_hostDivf_const {x y : FVec Ideal s φ} (hx : AllNonneg x) (r : ℝ) (hr : 0 < r)
    (hy : ∀ i, y i = (r : EReal)) : AllNonneg (Host.divf x y) := fun i => by
  obtain ⟨a, ha, hxi⟩ := hx i
  refine ⟨a / r, div_nonneg ha hr.le, ?_⟩
  show Ideal.div (x i) (y i) = _
  rw [hxi, hy i]; exact div_coe_coe a hr.ne'

end Closure

variable
  (x0 : (⟨S100000x128, .f32⟩ : BufTy).Contents (Elt Ideal))
  (x2 : (⟨S100000x1, .f32⟩ : BufTy).Contents (Elt Ideal))
  (x3 : (⟨S1600000, .i32⟩ : BufTy).Contents (Elt Ideal))
  (x4 : (⟨S1600000, .i32⟩ : BufTy).Contents (Elt Ideal))
  (x5 : (⟨S100000, .i32⟩ : BufTy).Contents (Elt Ideal))
  (x6 : (⟨S128x128, .f32⟩ : BufTy).Contents (Elt Ideal))
  (x7 : (⟨S128, .f32⟩ : BufTy).Contents (Elt Ideal))
  (x8 : (⟨S4x128x128, .f32⟩ : BufTy).Contents (Elt Ideal))
  (x9 : (⟨S4x128, .f32⟩ : BufTy).Contents (Elt Ideal))
  (x10 : (⟨S4x128, .f32⟩ : BufTy).Contents (Elt Ideal))
  (x11 : (⟨S4x128, .f32⟩ : BufTy).Contents (Elt Ideal))
  (x12 : (⟨S128x10, .f32⟩ : BufTy).Contents (Elt Ideal))

theorem fin_cst :
    AllFin (ι := S_.Idx) (val_main_cst (F := Ideal)) := by
  unfold val_main_cst
  exact allFin_constant _ _ _ isFin_ofBits_one

theorem fin0 :
    AllFin (ι := S1600000.Idx) (val_main_v0 (F := Ideal)) := by
  unfold val_main_v0
  exact allFin_broadcastInDim _ _ _ fin_cst

theorem fin_cst_0 :
    AllFin (ι := S_.Idx) (val_main_cst_0 (F := Ideal)) := by
  unfold val_main_cst_0
  exact allFin_constant _ _ _ isFin_ofBits_zero

theorem fin1 :
    AllFin (ι := S100000.Idx) (val_main_v1 (F := Ideal)) := by
  unfold val_main_v1
  exact allFin_broadcastInDim _ _ _ fin_cst_0

theorem fin3 :
    AllFin (ι := S100000.Idx) (val_main_v3 (F := Ideal) x3) := by
  unfold val_main_v3
  exact allFin_scatterAdd _ _ fin1 fin0

theorem fin_cst_1 :
    AllFin (ι := S_.Idx) (val_main_cst_1 (F := Ideal)) := by
  unfold val_main_cst_1
  exact allFin_constant _ _ _ isFin_ofBits_one

theorem fin4 :
    AllFin (ι := S100000.Idx) (val_main_v4 (F := Ideal)) := by
  unfold val_main_v4
  exact allFin_broadcastInDim _ _ _ fin_cst_1

theorem fin5 :
    AllFin (ι := S100000.Idx) (val_main_v5 (F := Ideal) x3) := by
  unfold val_main_v5
  exact allFin_maximumf (fin3 x3) fin4

theorem fin_cst_2 :
    AllFin (ι := S_.Idx) (val_main_cst_2 (F := Ideal)) := by
  unfold val_main_cst_2
  exact allFin_constant _ _ _ isFin_ofBits_zero

theorem fin6 :
    AllFin (ι := S100000.Idx) (val_main_v6 (F := Ideal)) := by
  unfold val_main_v6
  exact allFin_broadcastInDim _ _ _ fin_cst_2

theorem fin8 :
    AllFin (ι := S100000.Idx) (val_main_v8 (F := Ideal) x4) := by
  unfold val_main_v8
  exact allFin_scatterAdd _ _ fin6 fin0

theorem fin_cst_3 :
    AllFin (ι := S_.Idx) (val_main_cst_3 (F := Ideal)) := by
  unfold val_main_cst_3
  exact allFin_constant _ _ _ isFin_ofBits_one

theorem fin9 :
    AllFin (ι := S100000.Idx) (val_main_v9 (F := Ideal)) := by
  unfold val_main_v9
  exact allFin_broadcastInDim _ _ _ fin_cst_3

theorem fin10 :
    AllFin (ι := S100000.Idx) (val_main_v10 (F := Ideal) x4) := by
  unfold val_main_v10
  exact allFin_maximumf (fin8 x4) fin9

theorem fin_cst_4 :
    AllFin (ι := S_.Idx) (val_main_cst_4 (F := Ideal)) := by
  unfold val_main_cst_4
  exact allFin_constant _ _ _ isFin_ofBits_neg_half

theorem fin11 :
    AllFin (ι := S100000.Idx) (val_main_v11 (F := Ideal)) := by
  unfold val_main_v11
  exact allFin_broadcastInDim _ _ _ fin_cst_4

theorem fin12 :
    AllFin (ι := S100000.Idx) (val_main_v12 (F := Ideal) x3) := by
  unfold val_main_v12
  exact allFin_hostPowf (fin5 x3) fin11

theorem fin13 :
    AllFin (ι := S100000x1.Idx) (val_main_v13 (F := Ideal) x3) := by
  unfold val_main_v13
  exact allFin_broadcastInDim _ _ _ (fin12 x3)

theorem fin_cst_5 :
    AllFin (ι := S_.Idx) (val_main_cst_5 (F := Ideal)) := by
  unfold val_main_cst_5
  exact allFin_constant _ _ _ isFin_ofBits_neg_half

theorem fin14 :
    AllFin (ι := S100000.Idx) (val_main_v14 (F := Ideal)) := by
  unfold val_main_v14
  exact allFin_broadcastInDim _ _ _ fin_cst_5

theorem fin15 :
    AllFin (ι := S100000.Idx) (val_main_v15 (F := Ideal) x4) := by
  unfold val_main_v15
  exact allFin_hostPowf (fin10 x4) fin14

theorem fin16 :
    AllFin (ι := S100000x1.Idx) (val_main_v16 (F := Ideal) x4) := by
  unfold val_main_v16
  exact allFin_broadcastInDim _ _ _ (fin15 x4)

theorem fin17
    (h0 : AllFin (ι := S100000x128.Idx) x0)
    (h6 : AllFin (ι := S128x128.Idx) x6) :
    AllFin (ι := S100000x128.Idx) (val_main_v17 (F := Ideal) x0 x6) := by
  unfold val_main_v17
  exact allFin_dotGeneral _ _ h0 h6

theorem fin18
    (h7 : AllFin (ι := S128.Idx) x7) :
    AllFin (ι := S1x128.Idx) (val_main_v18 (F := Ideal) x7) := by
  unfold val_main_v18
  exact allFin_broadcastInDim _ _ _ h7

theorem fin19
    (h7 : AllFin (ι := S128.Idx) x7) :
    AllFin (ι := S100000x128.Idx) (val_main_v19 (F := Ideal) x7) := by
  unfold val_main_v19
  exact allFin_broadcastInDim _ _ _ (fin18 x7 h7)

theorem fin20
    (h0 : AllFin (ι := S100000x128.Idx) x0)
    (h6 : AllFin (ι := S128x128.Idx) x6)
    (h7 : AllFin (ι := S128.Idx) x7) :
    AllFin (ι := S100000x128.Idx) (val_main_v20 (F := Ideal) x0 x6 x7) := by
  unfold val_main_v20
  exact allFin_addf (fin17 x0 x6 h0 h6) (fin19 x7 h7)

theorem fin21 :
    AllFin (ι := S100000x128.Idx) (val_main_v21 (F := Ideal) x3) := by
  unfold val_main_v21
  exact allFin_broadcastInDim _ _ _ (fin13 x3)

theorem fin22
    (hin : AllFin (ι := S100000x128.Idx) (val_main_v20 (F := Ideal) x0 x6 x7)) :
    AllFin (ι := S100000x128.Idx) (val_main_v22 (F := Ideal) x0 x3 x6 x7) := by
  unfold val_main_v22
  exact allFin_mulf hin (fin21 x3)

theorem fin29
    (hin : AllFin (ι := S100000x128.Idx) (val_main_v20 (F := Ideal) x0 x6 x7)) :
    AllFin (ι := S1600000x128.Idx) (val_main_v29 (F := Ideal) x0 x3 x6 x7) := by
  unfold val_main_v29
  exact allFin_gather _ _ (fin22 x0 x3 x6 x7 hin)

theorem fin_cst_7 :
    AllFin (ι := S_.Idx) (val_main_cst_7 (F := Ideal)) := by
  unfold val_main_cst_7
  exact allFin_constant _ _ _ isFin_ofBits_zero

theorem fin30 :
    AllFin (ι := S100000x128.Idx) (val_main_v30 (F := Ideal)) := by
  unfold val_main_v30
  exact allFin_broadcastInDim _ _ _ fin_cst_7

theorem fin32
    (hin : AllFin (ι := S100000x128.Idx) (val_main_v20 (F := Ideal) x0 x6 x7)) :
    AllFin (ι := S100000x128.Idx) (val_main_v32 (F := Ideal) x0 x3 x4 x6 x7) := by
  unfold val_main_v32
  exact allFin_scatterAdd _ _ fin30 (fin29 x0 x3 x6 x7 hin)

theorem fin33 :
    AllFin (ι := S100000x128.Idx) (val_main_v33 (F := Ideal) x4) := by
  unfold val_main_v33
  exact allFin_broadcastInDim _ _ _ (fin16 x4)

theorem fin34
    (hin : AllFin (ι := S100000x128.Idx) (val_main_v20 (F := Ideal) x0 x6 x7)) :
    AllFin (ι := S100000x128.Idx) (val_main_v34 (F := Ideal) x0 x3 x4 x6 x7) := by
  unfold val_main_v34
  exact allFin_mulf (fin32 x0 x3 x4 x6 x7 hin) (fin33 x4)

theorem fin35
    (h8 : AllFin (ι := S4x128x128.Idx) x8) :
    AllFin (ι := S1x128x128.Idx) (val_main_v35 (F := Ideal) x8) := by
  unfold val_main_v35
  exact allFin_extractStridedSlice _ _ _ h8

theorem fin36
    (h8 : AllFin (ι := S4x128x128.Idx) x8) :
    AllFin (ι := S128x128.Idx) (val_main_v36 (F := Ideal) x8) := by
  unfold val_main_v36
  exact allFin_shapeCast _ _ (fin35 x8 h8)

theorem fin37
    (hin : AllFin (ι := S100000x128.Idx) (val_main_v20 (F := Ideal) x0 x6 x7))
    (h8 : AllFin (ι := S4x128x128.Idx) x8) :
    AllFin (ι := S100000x128.Idx) (val_main_v37 (F := Ideal) x0 x3 x4 x6 x7 x8) := by
  unfold val_main_v37
  exact allFin_dotGeneral _ _ (fin34 x0 x3 x4 x6 x7 hin) (fin36 x8 h8)

theorem fin38
    (h9 : AllFin (ι := S4x128.Idx) x9) :
    AllFin (ι := S1x128.Idx) (val_main_v38 (F := Ideal) x9) := by
  unfold val_main_v38
  exact allFin_extractStridedSlice _ _ _ h9

theorem fin39
    (h9 : AllFin (ι := S4x128.Idx) x9) :
    AllFin (ι := S128.Idx) (val_main_v39 (F := Ideal) x9) := by
  unfold val_main_v39
  exact allFin_shapeCast _ _ (fin38 x9 h9)

theorem fin40
    (h9 : AllFin (ι := S4x128.Idx) x9) :
    AllFin (ι := S1x128.Idx) (val_main_v40 (F := Ideal) x9) := by
  unfold val_main_v40
  exact allFin_broadcastInDim _ _ _ (fin39 x9 h9)

theorem fin41
    (h9 : AllFin (ι := S4x128.Idx) x9) :
    AllFin (ι := S100000x128.Idx) (val_main_v41 (F := Ideal) x9) := by
  unfold val_main_v41
  exact allFin_broadcastInDim _ _ _ (fin40 x9 h9)

theorem fin42
    (hin : AllFin (ι := S100000x128.Idx) (val_main_v20 (F := Ideal) x0 x6 x7))
    (h8 : AllFin (ι := S4x128x128.Idx) x8)
    (h9 : AllFin (ι := S4x128.Idx) x9) :
    AllFin (ι := S100000x128.Idx) (val_main_v42 (F := Ideal) x0 x3 x4 x6 x7 x8 x9) := by
  unfold val_main_v42
  exact allFin_addf (fin37 x0 x3 x4 x6 x7 x8 hin h8) (fin41 x9 h9)

theorem fin43
    (h2 : AllFin (ι := S100000x1.Idx) x2) :
    AllFin (ι := S100000x128.Idx) (val_main_v43 (F := Ideal) x2) := by
  unfold val_main_v43
  exact allFin_broadcastInDim _ _ _ h2

theorem fin44
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S100000x128.Idx) (val_main_v44 (F := Ideal) x0 x2 x3 x4 x6 x7 x8 x9) := by
  unfold val_main_v44
  exact allFin_mulf (fin42 x0 x3 x4 x6 x7 x8 x9 hin h8 h9) (fin43 x2 h2)

theorem fin_cst_8 :
    AllFin (ι := S_.Idx) (val_main_cst_8 (F := Ideal)) := by
  unfold val_main_cst_8
  exact allFin_constant _ _ _ isFin_ofBits_zero

theorem fin45
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S128.Idx) (val_main_v45 (F := Ideal) x0 x2 x3 x4 x6 x7 x8 x9) := by
  unfold val_main_v45
  exact allFin_hostReduceAdd _ _ (fin44 x0 x2 x3 x4 x6 x7 x8 x9 hin h2 h8 h9) fin_cst_8

theorem fin47
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S128.Idx) (val_main_v47 (F := Ideal) x0 x2 x3 x4 x6 x7 x8 x9) := by
  unfold val_main_v47
  exact allFin_hostDivf_const (fin45 x0 x2 x3 x4 x6 x7 x8 x9 hin h2 h8 h9) 100000 (by norm_num) (fun i => ofBits_1e5)

theorem fin48
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S1x128.Idx) (val_main_v48 (F := Ideal) x0 x2 x3 x4 x6 x7 x8 x9) := by
  unfold val_main_v48
  exact allFin_broadcastInDim _ _ _ (fin47 x0 x2 x3 x4 x6 x7 x8 x9 hin h2 h8 h9)

theorem fin49
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S100000x128.Idx) (val_main_v49 (F := Ideal) x0 x2 x3 x4 x6 x7 x8 x9) := by
  unfold val_main_v49
  exact allFin_broadcastInDim _ _ _ (fin48 x0 x2 x3 x4 x6 x7 x8 x9 hin h2 h8 h9)

theorem fin50
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S100000x128.Idx) (val_main_v50 (F := Ideal) x0 x2 x3 x4 x6 x7 x8 x9) := by
  unfold val_main_v50
  exact allFin_subf (fin44 x0 x2 x3 x4 x6 x7 x8 x9 hin h2 h8 h9) (fin49 x0 x2 x3 x4 x6 x7 x8 x9 hin h2 h8 h9)

theorem fin55
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S1x128.Idx) (val_main_v55 (F := Ideal) x0 x2 x3 x4 x6 x7 x8 x9) := by
  unfold val_main_v55
  exact allFin_broadcastInDim _ _ _ (fin47 x0 x2 x3 x4 x6 x7 x8 x9 hin h2 h8 h9)

theorem fin56
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S100000x128.Idx) (val_main_v56 (F := Ideal) x0 x2 x3 x4 x6 x7 x8 x9) := by
  unfold val_main_v56
  exact allFin_broadcastInDim _ _ _ (fin55 x0 x2 x3 x4 x6 x7 x8 x9 hin h2 h8 h9)

theorem fin57
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S100000x128.Idx) (val_main_v57 (F := Ideal) x0 x2 x3 x4 x6 x7 x8 x9) := by
  unfold val_main_v57
  exact allFin_subf (fin44 x0 x2 x3 x4 x6 x7 x8 x9 hin h2 h8 h9) (fin56 x0 x2 x3 x4 x6 x7 x8 x9 hin h2 h8 h9)

theorem nonneg51
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllNonneg (ι := S100000x128.Idx) (val_main_v51 (F := Ideal) x0 x2 x3 x4 x6 x7 x8 x9) := by
  unfold val_main_v51
  exact allNonneg_mulf_self (fin50 x0 x2 x3 x4 x6 x7 x8 x9 hin h2 h8 h9)

theorem nonneg52
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllNonneg (ι := S128.Idx) (val_main_v52 (F := Ideal) x0 x2 x3 x4 x6 x7 x8 x9) := by
  unfold val_main_v52
  exact allNonneg_hostReduceAdd _ _ (nonneg51 x0 x2 x3 x4 x6 x7 x8 x9 hin h2 h8 h9) (allNonneg_constant _ _ _ 0 le_rfl ofBits_zero_real)

theorem nonneg54
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllNonneg (ι := S128.Idx) (val_main_v54 (F := Ideal) x0 x2 x3 x4 x6 x7 x8 x9) := by
  unfold val_main_v54
  exact allNonneg_hostDivf_const (nonneg52 x0 x2 x3 x4 x6 x7 x8 x9 hin h2 h8 h9) 100000 (by norm_num) (fun i => ofBits_1e5)

theorem pos58 :
    AllPos (ι := S128.Idx) (val_main_v58 (F := Ideal)) := by
  unfold val_main_v58
  exact allPos_broadcastInDim _ _ _ (allPos_constant _ _ _ eps eps_pos ofBits_eps)

theorem pos59
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllPos (ι := S128.Idx) (val_main_v59 (F := Ideal) x0 x2 x3 x4 x6 x7 x8 x9) := by
  unfold val_main_v59
  exact allPos_addf (nonneg54 x0 x2 x3 x4 x6 x7 x8 x9 hin h2 h8 h9) pos58

theorem fin60
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S128.Idx) (val_main_v60 (F := Ideal) x0 x2 x3 x4 x6 x7 x8 x9) := by
  unfold val_main_v60
  exact AllPos.allFin (allPos_hostRsqrt (pos59 x0 x2 x3 x4 x6 x7 x8 x9 hin h2 h8 h9))

theorem fin61
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S1x128.Idx) (val_main_v61 (F := Ideal) x0 x2 x3 x4 x6 x7 x8 x9) := by
  unfold val_main_v61
  exact allFin_broadcastInDim _ _ _ (fin60 x0 x2 x3 x4 x6 x7 x8 x9 hin h2 h8 h9)

theorem fin62
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S100000x128.Idx) (val_main_v62 (F := Ideal) x0 x2 x3 x4 x6 x7 x8 x9) := by
  unfold val_main_v62
  exact allFin_broadcastInDim _ _ _ (fin61 x0 x2 x3 x4 x6 x7 x8 x9 hin h2 h8 h9)

theorem fin63
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9) :
    AllFin (ι := S100000x128.Idx) (val_main_v63 (F := Ideal) x0 x2 x3 x4 x6 x7 x8 x9) := by
  unfold val_main_v63
  exact allFin_mulf (fin57 x0 x2 x3 x4 x6 x7 x8 x9 hin h2 h8 h9) (fin62 x0 x2 x3 x4 x6 x7 x8 x9 hin h2 h8 h9)

theorem fin64
    (h10 : AllFin (ι := S4x128.Idx) x10) :
    AllFin (ι := S1x128.Idx) (val_main_v64 (F := Ideal) x10) := by
  unfold val_main_v64
  exact allFin_extractStridedSlice _ _ _ h10

theorem fin65
    (h10 : AllFin (ι := S4x128.Idx) x10) :
    AllFin (ι := S128.Idx) (val_main_v65 (F := Ideal) x10) := by
  unfold val_main_v65
  exact allFin_shapeCast _ _ (fin64 x10 h10)

theorem fin66
    (h10 : AllFin (ι := S4x128.Idx) x10) :
    AllFin (ι := S1x128.Idx) (val_main_v66 (F := Ideal) x10) := by
  unfold val_main_v66
  exact allFin_broadcastInDim _ _ _ (fin65 x10 h10)

theorem fin67
    (h10 : AllFin (ι := S4x128.Idx) x10) :
    AllFin (ι := S100000x128.Idx) (val_main_v67 (F := Ideal) x10) := by
  unfold val_main_v67
  exact allFin_broadcastInDim _ _ _ (fin66 x10 h10)

theorem fin68
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9)
    (h10 : AllFin (ι := S4x128.Idx) x10) :
    AllFin (ι := S100000x128.Idx) (val_main_v68 (F := Ideal) x0 x2 x3 x4 x6 x7 x8 x9 x10) := by
  unfold val_main_v68
  exact allFin_mulf (fin63 x0 x2 x3 x4 x6 x7 x8 x9 hin h2 h8 h9) (fin67 x10 h10)

theorem fin69
    (h11 : AllFin (ι := S4x128.Idx) x11) :
    AllFin (ι := S1x128.Idx) (val_main_v69 (F := Ideal) x11) := by
  unfold val_main_v69
  exact allFin_extractStridedSlice _ _ _ h11

theorem fin70
    (h11 : AllFin (ι := S4x128.Idx) x11) :
    AllFin (ι := S128.Idx) (val_main_v70 (F := Ideal) x11) := by
  unfold val_main_v70
  exact allFin_shapeCast _ _ (fin69 x11 h11)

theorem fin71
    (h11 : AllFin (ι := S4x128.Idx) x11) :
    AllFin (ι := S1x128.Idx) (val_main_v71 (F := Ideal) x11) := by
  unfold val_main_v71
  exact allFin_broadcastInDim _ _ _ (fin70 x11 h11)

theorem fin72
    (h11 : AllFin (ι := S4x128.Idx) x11) :
    AllFin (ι := S100000x128.Idx) (val_main_v72 (F := Ideal) x11) := by
  unfold val_main_v72
  exact allFin_broadcastInDim _ _ _ (fin71 x11 h11)

theorem fin73
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v73 (F := Ideal) x0 x2 x3 x4 x6 x7 x8 x9 x10 x11) := by
  unfold val_main_v73
  exact allFin_addf (fin68 x0 x2 x3 x4 x6 x7 x8 x9 x10 hin h2 h8 h9 h10) (fin72 x11 h11)

theorem fin_call0_cst :
    AllFin (ι := S_.Idx) (val_main_call0_cst (F := Ideal)) := by
  unfold val_main_call0_cst
  exact allFin_constant _ _ _ isFin_ofBits_zero

theorem fin_call0_v0 :
    AllFin (ι := S100000x128.Idx) (val_main_call0_v0 (F := Ideal)) := by
  unfold val_main_call0_v0
  exact allFin_broadcastInDim _ _ _ fin_call0_cst

theorem fin74
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v74 (F := Ideal) x0 x2 x3 x4 x6 x7 x8 x9 x10 x11) := by
  unfold val_main_v74
  exact allFin_maximumf (fin73 x0 x2 x3 x4 x6 x7 x8 x9 x10 x11 hin h2 h8 h9 h10 h11) fin_call0_v0

theorem fin75
    (hin : AllFin (ι := S100000x128.Idx) (val_main_v20 (F := Ideal) x0 x6 x7))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v75 (F := Ideal) x0 x2 x3 x4 x6 x7 x8 x9 x10 x11) := by
  unfold val_main_v75
  exact allFin_addf hin (fin74 x0 x2 x3 x4 x6 x7 x8 x9 x10 x11 hin h2 h8 h9 h10 h11)

theorem fin76 :
    AllFin (ι := S100000x128.Idx) (val_main_v76 (F := Ideal) x3) := by
  unfold val_main_v76
  exact allFin_broadcastInDim _ _ _ (fin13 x3)

theorem fin77
    (hin : AllFin (ι := S100000x128.Idx) (val_main_v75 (F := Ideal) x0 x2 x3 x4 x6 x7 x8 x9 x10 x11)) :
    AllFin (ι := S100000x128.Idx) (val_main_v77 (F := Ideal) x0 x2 x3 x4 x6 x7 x8 x9 x10 x11) := by
  unfold val_main_v77
  exact allFin_mulf hin (fin76 x3)

theorem fin84
    (hin : AllFin (ι := S100000x128.Idx) (val_main_v75 (F := Ideal) x0 x2 x3 x4 x6 x7 x8 x9 x10 x11)) :
    AllFin (ι := S1600000x128.Idx) (val_main_v84 (F := Ideal) x0 x2 x3 x4 x6 x7 x8 x9 x10 x11) := by
  unfold val_main_v84
  exact allFin_gather _ _ (fin77 x0 x2 x3 x4 x6 x7 x8 x9 x10 x11 hin)

theorem fin_cst_15 :
    AllFin (ι := S_.Idx) (val_main_cst_15 (F := Ideal)) := by
  unfold val_main_cst_15
  exact allFin_constant _ _ _ isFin_ofBits_zero

theorem fin85 :
    AllFin (ι := S100000x128.Idx) (val_main_v85 (F := Ideal)) := by
  unfold val_main_v85
  exact allFin_broadcastInDim _ _ _ fin_cst_15

theorem fin87
    (hin : AllFin (ι := S100000x128.Idx) (val_main_v75 (F := Ideal) x0 x2 x3 x4 x6 x7 x8 x9 x10 x11)) :
    AllFin (ι := S100000x128.Idx) (val_main_v87 (F := Ideal) x0 x2 x3 x4 x6 x7 x8 x9 x10 x11) := by
  unfold val_main_v87
  exact allFin_scatterAdd _ _ fin85 (fin84 x0 x2 x3 x4 x6 x7 x8 x9 x10 x11 hin)

theorem fin88 :
    AllFin (ι := S100000x128.Idx) (val_main_v88 (F := Ideal) x4) := by
  unfold val_main_v88
  exact allFin_broadcastInDim _ _ _ (fin16 x4)

theorem fin89
    (hin : AllFin (ι := S100000x128.Idx) (val_main_v75 (F := Ideal) x0 x2 x3 x4 x6 x7 x8 x9 x10 x11)) :
    AllFin (ι := S100000x128.Idx) (val_main_v89 (F := Ideal) x0 x2 x3 x4 x6 x7 x8 x9 x10 x11) := by
  unfold val_main_v89
  exact allFin_mulf (fin87 x0 x2 x3 x4 x6 x7 x8 x9 x10 x11 hin) (fin88 x4)

theorem fin90
    (h8 : AllFin (ι := S4x128x128.Idx) x8) :
    AllFin (ι := S1x128x128.Idx) (val_main_v90 (F := Ideal) x8) := by
  unfold val_main_v90
  exact allFin_extractStridedSlice _ _ _ h8

theorem fin91
    (h8 : AllFin (ι := S4x128x128.Idx) x8) :
    AllFin (ι := S128x128.Idx) (val_main_v91 (F := Ideal) x8) := by
  unfold val_main_v91
  exact allFin_shapeCast _ _ (fin90 x8 h8)

theorem fin92
    (hin : AllFin (ι := S100000x128.Idx) (val_main_v75 (F := Ideal) x0 x2 x3 x4 x6 x7 x8 x9 x10 x11))
    (h8 : AllFin (ι := S4x128x128.Idx) x8) :
    AllFin (ι := S100000x128.Idx) (val_main_v92 (F := Ideal) x0 x2 x3 x4 x6 x7 x8 x9 x10 x11) := by
  unfold val_main_v92
  exact allFin_dotGeneral _ _ (fin89 x0 x2 x3 x4 x6 x7 x8 x9 x10 x11 hin) (fin91 x8 h8)

theorem fin93
    (h9 : AllFin (ι := S4x128.Idx) x9) :
    AllFin (ι := S1x128.Idx) (val_main_v93 (F := Ideal) x9) := by
  unfold val_main_v93
  exact allFin_extractStridedSlice _ _ _ h9

theorem fin94
    (h9 : AllFin (ι := S4x128.Idx) x9) :
    AllFin (ι := S128.Idx) (val_main_v94 (F := Ideal) x9) := by
  unfold val_main_v94
  exact allFin_shapeCast _ _ (fin93 x9 h9)

theorem fin95
    (h9 : AllFin (ι := S4x128.Idx) x9) :
    AllFin (ι := S1x128.Idx) (val_main_v95 (F := Ideal) x9) := by
  unfold val_main_v95
  exact allFin_broadcastInDim _ _ _ (fin94 x9 h9)

theorem fin96
    (h9 : AllFin (ι := S4x128.Idx) x9) :
    AllFin (ι := S100000x128.Idx) (val_main_v96 (F := Ideal) x9) := by
  unfold val_main_v96
  exact allFin_broadcastInDim _ _ _ (fin95 x9 h9)

theorem fin97
    (hin : AllFin (ι := S100000x128.Idx) (val_main_v75 (F := Ideal) x0 x2 x3 x4 x6 x7 x8 x9 x10 x11))
    (h8 : AllFin (ι := S4x128x128.Idx) x8)
    (h9 : AllFin (ι := S4x128.Idx) x9) :
    AllFin (ι := S100000x128.Idx) (val_main_v97 (F := Ideal) x0 x2 x3 x4 x6 x7 x8 x9 x10 x11) := by
  unfold val_main_v97
  exact allFin_addf (fin92 x0 x2 x3 x4 x6 x7 x8 x9 x10 x11 hin h8) (fin96 x9 h9)

theorem fin98
    (h2 : AllFin (ι := S100000x1.Idx) x2) :
    AllFin (ι := S100000x128.Idx) (val_main_v98 (F := Ideal) x2) := by
  unfold val_main_v98
  exact allFin_broadcastInDim _ _ _ h2

theorem fin99
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v99 (F := Ideal) x0 x2 x3 x4 x6 x7 x8 x9 x10 x11) := by
  unfold val_main_v99
  exact allFin_mulf (fin97 x0 x2 x3 x4 x6 x7 x8 x9 x10 x11 hin h8 h9) (fin98 x2 h2)

theorem fin_cst_16 :
    AllFin (ι := S_.Idx) (val_main_cst_16 (F := Ideal)) := by
  unfold val_main_cst_16
  exact allFin_constant _ _ _ isFin_ofBits_zero

theorem fin100
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S128.Idx) (val_main_v100 (F := Ideal) x0 x2 x3 x4 x6 x7 x8 x9 x10 x11) := by
  unfold val_main_v100
  exact allFin_hostReduceAdd _ _ (fin99 x0 x2 x3 x4 x6 x7 x8 x9 x10 x11 hin h2 h8 h9) fin_cst_16

theorem fin102
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S128.Idx) (val_main_v102 (F := Ideal) x0 x2 x3 x4 x6 x7 x8 x9 x10 x11) := by
  unfold val_main_v102
  exact allFin_hostDivf_const (fin100 x0 x2 x3 x4 x6 x7 x8 x9 x10 x11 hin h2 h8 h9) 100000 (by norm_num) (fun i => ofBits_1e5)

theorem fin103
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S1x128.Idx) (val_main_v103 (F := Ideal) x0 x2 x3 x4 x6 x7 x8 x9 x10 x11) := by
  unfold val_main_v103
  exact allFin_broadcastInDim _ _ _ (fin102 x0 x2 x3 x4 x6 x7 x8 x9 x10 x11 hin h2 h8 h9)

theorem fin104
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v104 (F := Ideal) x0 x2 x3 x4 x6 x7 x8 x9 x10 x11) := by
  unfold val_main_v104
  exact allFin_broadcastInDim _ _ _ (fin103 x0 x2 x3 x4 x6 x7 x8 x9 x10 x11 hin h2 h8 h9)

theorem fin105
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v105 (F := Ideal) x0 x2 x3 x4 x6 x7 x8 x9 x10 x11) := by
  unfold val_main_v105
  exact allFin_subf (fin99 x0 x2 x3 x4 x6 x7 x8 x9 x10 x11 hin h2 h8 h9) (fin104 x0 x2 x3 x4 x6 x7 x8 x9 x10 x11 hin h2 h8 h9)

theorem fin110
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S1x128.Idx) (val_main_v110 (F := Ideal) x0 x2 x3 x4 x6 x7 x8 x9 x10 x11) := by
  unfold val_main_v110
  exact allFin_broadcastInDim _ _ _ (fin102 x0 x2 x3 x4 x6 x7 x8 x9 x10 x11 hin h2 h8 h9)

theorem fin111
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v111 (F := Ideal) x0 x2 x3 x4 x6 x7 x8 x9 x10 x11) := by
  unfold val_main_v111
  exact allFin_broadcastInDim _ _ _ (fin110 x0 x2 x3 x4 x6 x7 x8 x9 x10 x11 hin h2 h8 h9)

theorem fin112
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v112 (F := Ideal) x0 x2 x3 x4 x6 x7 x8 x9 x10 x11) := by
  unfold val_main_v112
  exact allFin_subf (fin99 x0 x2 x3 x4 x6 x7 x8 x9 x10 x11 hin h2 h8 h9) (fin111 x0 x2 x3 x4 x6 x7 x8 x9 x10 x11 hin h2 h8 h9)

theorem nonneg106
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllNonneg (ι := S100000x128.Idx) (val_main_v106 (F := Ideal) x0 x2 x3 x4 x6 x7 x8 x9 x10 x11) := by
  unfold val_main_v106
  exact allNonneg_mulf_self (fin105 x0 x2 x3 x4 x6 x7 x8 x9 x10 x11 hin h2 h8 h9)

theorem nonneg107
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllNonneg (ι := S128.Idx) (val_main_v107 (F := Ideal) x0 x2 x3 x4 x6 x7 x8 x9 x10 x11) := by
  unfold val_main_v107
  exact allNonneg_hostReduceAdd _ _ (nonneg106 x0 x2 x3 x4 x6 x7 x8 x9 x10 x11 hin h2 h8 h9) (allNonneg_constant _ _ _ 0 le_rfl ofBits_zero_real)

theorem nonneg109
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllNonneg (ι := S128.Idx) (val_main_v109 (F := Ideal) x0 x2 x3 x4 x6 x7 x8 x9 x10 x11) := by
  unfold val_main_v109
  exact allNonneg_hostDivf_const (nonneg107 x0 x2 x3 x4 x6 x7 x8 x9 x10 x11 hin h2 h8 h9) 100000 (by norm_num) (fun i => ofBits_1e5)

theorem pos113 :
    AllPos (ι := S128.Idx) (val_main_v113 (F := Ideal)) := by
  unfold val_main_v113
  exact allPos_broadcastInDim _ _ _ (allPos_constant _ _ _ eps eps_pos ofBits_eps)

theorem pos114
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllPos (ι := S128.Idx) (val_main_v114 (F := Ideal) x0 x2 x3 x4 x6 x7 x8 x9 x10 x11) := by
  unfold val_main_v114
  exact allPos_addf (nonneg109 x0 x2 x3 x4 x6 x7 x8 x9 x10 x11 hin h2 h8 h9) pos113

theorem fin115
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S128.Idx) (val_main_v115 (F := Ideal) x0 x2 x3 x4 x6 x7 x8 x9 x10 x11) := by
  unfold val_main_v115
  exact AllPos.allFin (allPos_hostRsqrt (pos114 x0 x2 x3 x4 x6 x7 x8 x9 x10 x11 hin h2 h8 h9))

theorem fin116
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S1x128.Idx) (val_main_v116 (F := Ideal) x0 x2 x3 x4 x6 x7 x8 x9 x10 x11) := by
  unfold val_main_v116
  exact allFin_broadcastInDim _ _ _ (fin115 x0 x2 x3 x4 x6 x7 x8 x9 x10 x11 hin h2 h8 h9)

theorem fin117
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v117 (F := Ideal) x0 x2 x3 x4 x6 x7 x8 x9 x10 x11) := by
  unfold val_main_v117
  exact allFin_broadcastInDim _ _ _ (fin116 x0 x2 x3 x4 x6 x7 x8 x9 x10 x11 hin h2 h8 h9)

theorem fin118
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v118 (F := Ideal) x0 x2 x3 x4 x6 x7 x8 x9 x10 x11) := by
  unfold val_main_v118
  exact allFin_mulf (fin112 x0 x2 x3 x4 x6 x7 x8 x9 x10 x11 hin h2 h8 h9) (fin117 x0 x2 x3 x4 x6 x7 x8 x9 x10 x11 hin h2 h8 h9)

theorem fin119
    (h10 : AllFin (ι := S4x128.Idx) x10) :
    AllFin (ι := S1x128.Idx) (val_main_v119 (F := Ideal) x10) := by
  unfold val_main_v119
  exact allFin_extractStridedSlice _ _ _ h10

theorem fin120
    (h10 : AllFin (ι := S4x128.Idx) x10) :
    AllFin (ι := S128.Idx) (val_main_v120 (F := Ideal) x10) := by
  unfold val_main_v120
  exact allFin_shapeCast _ _ (fin119 x10 h10)

theorem fin121
    (h10 : AllFin (ι := S4x128.Idx) x10) :
    AllFin (ι := S1x128.Idx) (val_main_v121 (F := Ideal) x10) := by
  unfold val_main_v121
  exact allFin_broadcastInDim _ _ _ (fin120 x10 h10)

theorem fin122
    (h10 : AllFin (ι := S4x128.Idx) x10) :
    AllFin (ι := S100000x128.Idx) (val_main_v122 (F := Ideal) x10) := by
  unfold val_main_v122
  exact allFin_broadcastInDim _ _ _ (fin121 x10 h10)

theorem fin123
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9)
    (h10 : AllFin (ι := S4x128.Idx) x10) :
    AllFin (ι := S100000x128.Idx) (val_main_v123 (F := Ideal) x0 x2 x3 x4 x6 x7 x8 x9 x10 x11) := by
  unfold val_main_v123
  exact allFin_mulf (fin118 x0 x2 x3 x4 x6 x7 x8 x9 x10 x11 hin h2 h8 h9) (fin122 x10 h10)

theorem fin124
    (h11 : AllFin (ι := S4x128.Idx) x11) :
    AllFin (ι := S1x128.Idx) (val_main_v124 (F := Ideal) x11) := by
  unfold val_main_v124
  exact allFin_extractStridedSlice _ _ _ h11

theorem fin125
    (h11 : AllFin (ι := S4x128.Idx) x11) :
    AllFin (ι := S128.Idx) (val_main_v125 (F := Ideal) x11) := by
  unfold val_main_v125
  exact allFin_shapeCast _ _ (fin124 x11 h11)

theorem fin126
    (h11 : AllFin (ι := S4x128.Idx) x11) :
    AllFin (ι := S1x128.Idx) (val_main_v126 (F := Ideal) x11) := by
  unfold val_main_v126
  exact allFin_broadcastInDim _ _ _ (fin125 x11 h11)

theorem fin127
    (h11 : AllFin (ι := S4x128.Idx) x11) :
    AllFin (ι := S100000x128.Idx) (val_main_v127 (F := Ideal) x11) := by
  unfold val_main_v127
  exact allFin_broadcastInDim _ _ _ (fin126 x11 h11)

theorem fin128
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v128 (F := Ideal) x0 x2 x3 x4 x6 x7 x8 x9 x10 x11) := by
  unfold val_main_v128
  exact allFin_addf (fin123 x0 x2 x3 x4 x6 x7 x8 x9 x10 x11 hin h2 h8 h9 h10) (fin127 x11 h11)

theorem fin_call1_cst :
    AllFin (ι := S_.Idx) (val_main_call1_cst (F := Ideal)) := by
  unfold val_main_call1_cst
  exact allFin_constant _ _ _ isFin_ofBits_zero

theorem fin_call1_v0 :
    AllFin (ι := S100000x128.Idx) (val_main_call1_v0 (F := Ideal)) := by
  unfold val_main_call1_v0
  exact allFin_broadcastInDim _ _ _ fin_call1_cst

theorem fin129
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v129 (F := Ideal) x0 x2 x3 x4 x6 x7 x8 x9 x10 x11) := by
  unfold val_main_v129
  exact allFin_maximumf (fin128 x0 x2 x3 x4 x6 x7 x8 x9 x10 x11 hin h2 h8 h9 h10 h11) fin_call1_v0

theorem fin130
    (hin : AllFin (ι := S100000x128.Idx) (val_main_v75 (F := Ideal) x0 x2 x3 x4 x6 x7 x8 x9 x10 x11))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v130 (F := Ideal) x0 x2 x3 x4 x6 x7 x8 x9 x10 x11) := by
  unfold val_main_v130
  exact allFin_addf hin (fin129 x0 x2 x3 x4 x6 x7 x8 x9 x10 x11 hin h2 h8 h9 h10 h11)

theorem fin131 :
    AllFin (ι := S100000x128.Idx) (val_main_v131 (F := Ideal) x3) := by
  unfold val_main_v131
  exact allFin_broadcastInDim _ _ _ (fin13 x3)

theorem fin132
    (hin : AllFin (ι := S100000x128.Idx) (val_main_v130 (F := Ideal) x0 x2 x3 x4 x6 x7 x8 x9 x10 x11)) :
    AllFin (ι := S100000x128.Idx) (val_main_v132 (F := Ideal) x0 x2 x3 x4 x6 x7 x8 x9 x10 x11) := by
  unfold val_main_v132
  exact allFin_mulf hin (fin131 x3)

theorem fin139
    (hin : AllFin (ι := S100000x128.Idx) (val_main_v130 (F := Ideal) x0 x2 x3 x4 x6 x7 x8 x9 x10 x11)) :
    AllFin (ι := S1600000x128.Idx) (val_main_v139 (F := Ideal) x0 x2 x3 x4 x6 x7 x8 x9 x10 x11) := by
  unfold val_main_v139
  exact allFin_gather _ _ (fin132 x0 x2 x3 x4 x6 x7 x8 x9 x10 x11 hin)

theorem fin_cst_23 :
    AllFin (ι := S_.Idx) (val_main_cst_23 (F := Ideal)) := by
  unfold val_main_cst_23
  exact allFin_constant _ _ _ isFin_ofBits_zero

theorem fin140 :
    AllFin (ι := S100000x128.Idx) (val_main_v140 (F := Ideal)) := by
  unfold val_main_v140
  exact allFin_broadcastInDim _ _ _ fin_cst_23

theorem fin142
    (hin : AllFin (ι := S100000x128.Idx) (val_main_v130 (F := Ideal) x0 x2 x3 x4 x6 x7 x8 x9 x10 x11)) :
    AllFin (ι := S100000x128.Idx) (val_main_v142 (F := Ideal) x0 x2 x3 x4 x6 x7 x8 x9 x10 x11) := by
  unfold val_main_v142
  exact allFin_scatterAdd _ _ fin140 (fin139 x0 x2 x3 x4 x6 x7 x8 x9 x10 x11 hin)

theorem fin143 :
    AllFin (ι := S100000x128.Idx) (val_main_v143 (F := Ideal) x4) := by
  unfold val_main_v143
  exact allFin_broadcastInDim _ _ _ (fin16 x4)

theorem fin144
    (hin : AllFin (ι := S100000x128.Idx) (val_main_v130 (F := Ideal) x0 x2 x3 x4 x6 x7 x8 x9 x10 x11)) :
    AllFin (ι := S100000x128.Idx) (val_main_v144 (F := Ideal) x0 x2 x3 x4 x6 x7 x8 x9 x10 x11) := by
  unfold val_main_v144
  exact allFin_mulf (fin142 x0 x2 x3 x4 x6 x7 x8 x9 x10 x11 hin) (fin143 x4)

theorem fin145
    (h8 : AllFin (ι := S4x128x128.Idx) x8) :
    AllFin (ι := S1x128x128.Idx) (val_main_v145 (F := Ideal) x8) := by
  unfold val_main_v145
  exact allFin_extractStridedSlice _ _ _ h8

theorem fin146
    (h8 : AllFin (ι := S4x128x128.Idx) x8) :
    AllFin (ι := S128x128.Idx) (val_main_v146 (F := Ideal) x8) := by
  unfold val_main_v146
  exact allFin_shapeCast _ _ (fin145 x8 h8)

theorem fin147
    (hin : AllFin (ι := S100000x128.Idx) (val_main_v130 (F := Ideal) x0 x2 x3 x4 x6 x7 x8 x9 x10 x11))
    (h8 : AllFin (ι := S4x128x128.Idx) x8) :
    AllFin (ι := S100000x128.Idx) (val_main_v147 (F := Ideal) x0 x2 x3 x4 x6 x7 x8 x9 x10 x11) := by
  unfold val_main_v147
  exact allFin_dotGeneral _ _ (fin144 x0 x2 x3 x4 x6 x7 x8 x9 x10 x11 hin) (fin146 x8 h8)

theorem fin148
    (h9 : AllFin (ι := S4x128.Idx) x9) :
    AllFin (ι := S1x128.Idx) (val_main_v148 (F := Ideal) x9) := by
  unfold val_main_v148
  exact allFin_extractStridedSlice _ _ _ h9

theorem fin149
    (h9 : AllFin (ι := S4x128.Idx) x9) :
    AllFin (ι := S128.Idx) (val_main_v149 (F := Ideal) x9) := by
  unfold val_main_v149
  exact allFin_shapeCast _ _ (fin148 x9 h9)

theorem fin150
    (h9 : AllFin (ι := S4x128.Idx) x9) :
    AllFin (ι := S1x128.Idx) (val_main_v150 (F := Ideal) x9) := by
  unfold val_main_v150
  exact allFin_broadcastInDim _ _ _ (fin149 x9 h9)

theorem fin151
    (h9 : AllFin (ι := S4x128.Idx) x9) :
    AllFin (ι := S100000x128.Idx) (val_main_v151 (F := Ideal) x9) := by
  unfold val_main_v151
  exact allFin_broadcastInDim _ _ _ (fin150 x9 h9)

theorem fin152
    (hin : AllFin (ι := S100000x128.Idx) (val_main_v130 (F := Ideal) x0 x2 x3 x4 x6 x7 x8 x9 x10 x11))
    (h8 : AllFin (ι := S4x128x128.Idx) x8)
    (h9 : AllFin (ι := S4x128.Idx) x9) :
    AllFin (ι := S100000x128.Idx) (val_main_v152 (F := Ideal) x0 x2 x3 x4 x6 x7 x8 x9 x10 x11) := by
  unfold val_main_v152
  exact allFin_addf (fin147 x0 x2 x3 x4 x6 x7 x8 x9 x10 x11 hin h8) (fin151 x9 h9)

theorem fin153
    (h2 : AllFin (ι := S100000x1.Idx) x2) :
    AllFin (ι := S100000x128.Idx) (val_main_v153 (F := Ideal) x2) := by
  unfold val_main_v153
  exact allFin_broadcastInDim _ _ _ h2

theorem fin154
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v154 (F := Ideal) x0 x2 x3 x4 x6 x7 x8 x9 x10 x11) := by
  unfold val_main_v154
  exact allFin_mulf (fin152 x0 x2 x3 x4 x6 x7 x8 x9 x10 x11 hin h8 h9) (fin153 x2 h2)

theorem fin_cst_24 :
    AllFin (ι := S_.Idx) (val_main_cst_24 (F := Ideal)) := by
  unfold val_main_cst_24
  exact allFin_constant _ _ _ isFin_ofBits_zero

theorem fin155
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S128.Idx) (val_main_v155 (F := Ideal) x0 x2 x3 x4 x6 x7 x8 x9 x10 x11) := by
  unfold val_main_v155
  exact allFin_hostReduceAdd _ _ (fin154 x0 x2 x3 x4 x6 x7 x8 x9 x10 x11 hin h2 h8 h9) fin_cst_24

theorem fin157
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S128.Idx) (val_main_v157 (F := Ideal) x0 x2 x3 x4 x6 x7 x8 x9 x10 x11) := by
  unfold val_main_v157
  exact allFin_hostDivf_const (fin155 x0 x2 x3 x4 x6 x7 x8 x9 x10 x11 hin h2 h8 h9) 100000 (by norm_num) (fun i => ofBits_1e5)

theorem fin158
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S1x128.Idx) (val_main_v158 (F := Ideal) x0 x2 x3 x4 x6 x7 x8 x9 x10 x11) := by
  unfold val_main_v158
  exact allFin_broadcastInDim _ _ _ (fin157 x0 x2 x3 x4 x6 x7 x8 x9 x10 x11 hin h2 h8 h9)

theorem fin159
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v159 (F := Ideal) x0 x2 x3 x4 x6 x7 x8 x9 x10 x11) := by
  unfold val_main_v159
  exact allFin_broadcastInDim _ _ _ (fin158 x0 x2 x3 x4 x6 x7 x8 x9 x10 x11 hin h2 h8 h9)

theorem fin160
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v160 (F := Ideal) x0 x2 x3 x4 x6 x7 x8 x9 x10 x11) := by
  unfold val_main_v160
  exact allFin_subf (fin154 x0 x2 x3 x4 x6 x7 x8 x9 x10 x11 hin h2 h8 h9) (fin159 x0 x2 x3 x4 x6 x7 x8 x9 x10 x11 hin h2 h8 h9)

theorem fin165
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S1x128.Idx) (val_main_v165 (F := Ideal) x0 x2 x3 x4 x6 x7 x8 x9 x10 x11) := by
  unfold val_main_v165
  exact allFin_broadcastInDim _ _ _ (fin157 x0 x2 x3 x4 x6 x7 x8 x9 x10 x11 hin h2 h8 h9)

theorem fin166
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v166 (F := Ideal) x0 x2 x3 x4 x6 x7 x8 x9 x10 x11) := by
  unfold val_main_v166
  exact allFin_broadcastInDim _ _ _ (fin165 x0 x2 x3 x4 x6 x7 x8 x9 x10 x11 hin h2 h8 h9)

theorem fin167
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v167 (F := Ideal) x0 x2 x3 x4 x6 x7 x8 x9 x10 x11) := by
  unfold val_main_v167
  exact allFin_subf (fin154 x0 x2 x3 x4 x6 x7 x8 x9 x10 x11 hin h2 h8 h9) (fin166 x0 x2 x3 x4 x6 x7 x8 x9 x10 x11 hin h2 h8 h9)

theorem nonneg161
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllNonneg (ι := S100000x128.Idx) (val_main_v161 (F := Ideal) x0 x2 x3 x4 x6 x7 x8 x9 x10 x11) := by
  unfold val_main_v161
  exact allNonneg_mulf_self (fin160 x0 x2 x3 x4 x6 x7 x8 x9 x10 x11 hin h2 h8 h9)

theorem nonneg162
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllNonneg (ι := S128.Idx) (val_main_v162 (F := Ideal) x0 x2 x3 x4 x6 x7 x8 x9 x10 x11) := by
  unfold val_main_v162
  exact allNonneg_hostReduceAdd _ _ (nonneg161 x0 x2 x3 x4 x6 x7 x8 x9 x10 x11 hin h2 h8 h9) (allNonneg_constant _ _ _ 0 le_rfl ofBits_zero_real)

theorem nonneg164
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllNonneg (ι := S128.Idx) (val_main_v164 (F := Ideal) x0 x2 x3 x4 x6 x7 x8 x9 x10 x11) := by
  unfold val_main_v164
  exact allNonneg_hostDivf_const (nonneg162 x0 x2 x3 x4 x6 x7 x8 x9 x10 x11 hin h2 h8 h9) 100000 (by norm_num) (fun i => ofBits_1e5)

theorem pos168 :
    AllPos (ι := S128.Idx) (val_main_v168 (F := Ideal)) := by
  unfold val_main_v168
  exact allPos_broadcastInDim _ _ _ (allPos_constant _ _ _ eps eps_pos ofBits_eps)

theorem pos169
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllPos (ι := S128.Idx) (val_main_v169 (F := Ideal) x0 x2 x3 x4 x6 x7 x8 x9 x10 x11) := by
  unfold val_main_v169
  exact allPos_addf (nonneg164 x0 x2 x3 x4 x6 x7 x8 x9 x10 x11 hin h2 h8 h9) pos168

theorem fin170
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S128.Idx) (val_main_v170 (F := Ideal) x0 x2 x3 x4 x6 x7 x8 x9 x10 x11) := by
  unfold val_main_v170
  exact AllPos.allFin (allPos_hostRsqrt (pos169 x0 x2 x3 x4 x6 x7 x8 x9 x10 x11 hin h2 h8 h9))

theorem fin171
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S1x128.Idx) (val_main_v171 (F := Ideal) x0 x2 x3 x4 x6 x7 x8 x9 x10 x11) := by
  unfold val_main_v171
  exact allFin_broadcastInDim _ _ _ (fin170 x0 x2 x3 x4 x6 x7 x8 x9 x10 x11 hin h2 h8 h9)

theorem fin172
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v172 (F := Ideal) x0 x2 x3 x4 x6 x7 x8 x9 x10 x11) := by
  unfold val_main_v172
  exact allFin_broadcastInDim _ _ _ (fin171 x0 x2 x3 x4 x6 x7 x8 x9 x10 x11 hin h2 h8 h9)

theorem fin173
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v173 (F := Ideal) x0 x2 x3 x4 x6 x7 x8 x9 x10 x11) := by
  unfold val_main_v173
  exact allFin_mulf (fin167 x0 x2 x3 x4 x6 x7 x8 x9 x10 x11 hin h2 h8 h9) (fin172 x0 x2 x3 x4 x6 x7 x8 x9 x10 x11 hin h2 h8 h9)

theorem fin174
    (h10 : AllFin (ι := S4x128.Idx) x10) :
    AllFin (ι := S1x128.Idx) (val_main_v174 (F := Ideal) x10) := by
  unfold val_main_v174
  exact allFin_extractStridedSlice _ _ _ h10

theorem fin175
    (h10 : AllFin (ι := S4x128.Idx) x10) :
    AllFin (ι := S128.Idx) (val_main_v175 (F := Ideal) x10) := by
  unfold val_main_v175
  exact allFin_shapeCast _ _ (fin174 x10 h10)

theorem fin176
    (h10 : AllFin (ι := S4x128.Idx) x10) :
    AllFin (ι := S1x128.Idx) (val_main_v176 (F := Ideal) x10) := by
  unfold val_main_v176
  exact allFin_broadcastInDim _ _ _ (fin175 x10 h10)

theorem fin177
    (h10 : AllFin (ι := S4x128.Idx) x10) :
    AllFin (ι := S100000x128.Idx) (val_main_v177 (F := Ideal) x10) := by
  unfold val_main_v177
  exact allFin_broadcastInDim _ _ _ (fin176 x10 h10)

theorem fin178
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9)
    (h10 : AllFin (ι := S4x128.Idx) x10) :
    AllFin (ι := S100000x128.Idx) (val_main_v178 (F := Ideal) x0 x2 x3 x4 x6 x7 x8 x9 x10 x11) := by
  unfold val_main_v178
  exact allFin_mulf (fin173 x0 x2 x3 x4 x6 x7 x8 x9 x10 x11 hin h2 h8 h9) (fin177 x10 h10)

theorem fin179
    (h11 : AllFin (ι := S4x128.Idx) x11) :
    AllFin (ι := S1x128.Idx) (val_main_v179 (F := Ideal) x11) := by
  unfold val_main_v179
  exact allFin_extractStridedSlice _ _ _ h11

theorem fin180
    (h11 : AllFin (ι := S4x128.Idx) x11) :
    AllFin (ι := S128.Idx) (val_main_v180 (F := Ideal) x11) := by
  unfold val_main_v180
  exact allFin_shapeCast _ _ (fin179 x11 h11)

theorem fin181
    (h11 : AllFin (ι := S4x128.Idx) x11) :
    AllFin (ι := S1x128.Idx) (val_main_v181 (F := Ideal) x11) := by
  unfold val_main_v181
  exact allFin_broadcastInDim _ _ _ (fin180 x11 h11)

theorem fin182
    (h11 : AllFin (ι := S4x128.Idx) x11) :
    AllFin (ι := S100000x128.Idx) (val_main_v182 (F := Ideal) x11) := by
  unfold val_main_v182
  exact allFin_broadcastInDim _ _ _ (fin181 x11 h11)

theorem fin183
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v183 (F := Ideal) x0 x2 x3 x4 x6 x7 x8 x9 x10 x11) := by
  unfold val_main_v183
  exact allFin_addf (fin178 x0 x2 x3 x4 x6 x7 x8 x9 x10 x11 hin h2 h8 h9 h10) (fin182 x11 h11)

theorem fin_call2_cst :
    AllFin (ι := S_.Idx) (val_main_call2_cst (F := Ideal)) := by
  unfold val_main_call2_cst
  exact allFin_constant _ _ _ isFin_ofBits_zero

theorem fin_call2_v0 :
    AllFin (ι := S100000x128.Idx) (val_main_call2_v0 (F := Ideal)) := by
  unfold val_main_call2_v0
  exact allFin_broadcastInDim _ _ _ fin_call2_cst

theorem fin184
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v184 (F := Ideal) x0 x2 x3 x4 x6 x7 x8 x9 x10 x11) := by
  unfold val_main_v184
  exact allFin_maximumf (fin183 x0 x2 x3 x4 x6 x7 x8 x9 x10 x11 hin h2 h8 h9 h10 h11) fin_call2_v0

theorem fin185
    (hin : AllFin (ι := S100000x128.Idx) (val_main_v130 (F := Ideal) x0 x2 x3 x4 x6 x7 x8 x9 x10 x11))
    (h2 : AllFin (ι := S100000x1.Idx) x2)
    (h8 : AllFin (ι := S4x128x128.Idx) x8)
    (h9 : AllFin (ι := S4x128.Idx) x9)
    (h10 : AllFin (ι := S4x128.Idx) x10)
    (h11 : AllFin (ι := S4x128.Idx) x11) :
    AllFin (ι := S100000x128.Idx) (val_main_v185 (F := Ideal) x0 x2 x3 x4 x6 x7 x8 x9 x10 x11) := by
  unfold val_main_v185
  exact allFin_addf hin (fin184 x0 x2 x3 x4 x6 x7 x8 x9 x10 x11 hin h2 h8 h9 h10 h11)

theorem fin186 :
    AllFin (ι := S100000x128.Idx) (val_main_v186 (F := Ideal) x3) := by
  unfold val_main_v186
  exact allFin_broadcastInDim _ _ _ (fin13 x3)

theorem fin187
    (hin : AllFin (ι := S100000x128.Idx) (val_main_v185 (F := Ideal) x0 x2 x3 x4 x6 x7 x8 x9 x10 x11)) :
    AllFin (ι := S100000x128.Idx) (val_main_v187 (F := Ideal) x0 x2 x3 x4 x6 x7 x8 x9 x10 x11) := by
  unfold val_main_v187
  exact allFin_mulf hin (fin186 x3)

theorem fin194
    (hin : AllFin (ι := S100000x128.Idx) (val_main_v185 (F := Ideal) x0 x2 x3 x4 x6 x7 x8 x9 x10 x11)) :
    AllFin (ι := S1600000x128.Idx) (val_main_v194 (F := Ideal) x0 x2 x3 x4 x6 x7 x8 x9 x10 x11) := by
  unfold val_main_v194
  exact allFin_gather _ _ (fin187 x0 x2 x3 x4 x6 x7 x8 x9 x10 x11 hin)

theorem fin_cst_31 :
    AllFin (ι := S_.Idx) (val_main_cst_31 (F := Ideal)) := by
  unfold val_main_cst_31
  exact allFin_constant _ _ _ isFin_ofBits_zero

theorem fin195 :
    AllFin (ι := S100000x128.Idx) (val_main_v195 (F := Ideal)) := by
  unfold val_main_v195
  exact allFin_broadcastInDim _ _ _ fin_cst_31

theorem fin197
    (hin : AllFin (ι := S100000x128.Idx) (val_main_v185 (F := Ideal) x0 x2 x3 x4 x6 x7 x8 x9 x10 x11)) :
    AllFin (ι := S100000x128.Idx) (val_main_v197 (F := Ideal) x0 x2 x3 x4 x6 x7 x8 x9 x10 x11) := by
  unfold val_main_v197
  exact allFin_scatterAdd _ _ fin195 (fin194 x0 x2 x3 x4 x6 x7 x8 x9 x10 x11 hin)

theorem fin198 :
    AllFin (ι := S100000x128.Idx) (val_main_v198 (F := Ideal) x4) := by
  unfold val_main_v198
  exact allFin_broadcastInDim _ _ _ (fin16 x4)

theorem fin199
    (hin : AllFin (ι := S100000x128.Idx) (val_main_v185 (F := Ideal) x0 x2 x3 x4 x6 x7 x8 x9 x10 x11)) :
    AllFin (ι := S100000x128.Idx) (val_main_v199 (F := Ideal) x0 x2 x3 x4 x6 x7 x8 x9 x10 x11) := by
  unfold val_main_v199
  exact allFin_mulf (fin197 x0 x2 x3 x4 x6 x7 x8 x9 x10 x11 hin) (fin198 x4)

theorem fin200
    (h8 : AllFin (ι := S4x128x128.Idx) x8) :
    AllFin (ι := S1x128x128.Idx) (val_main_v200 (F := Ideal) x8) := by
  unfold val_main_v200
  exact allFin_extractStridedSlice _ _ _ h8

theorem fin201
    (h8 : AllFin (ι := S4x128x128.Idx) x8) :
    AllFin (ι := S128x128.Idx) (val_main_v201 (F := Ideal) x8) := by
  unfold val_main_v201
  exact allFin_shapeCast _ _ (fin200 x8 h8)

theorem fin202
    (hin : AllFin (ι := S100000x128.Idx) (val_main_v185 (F := Ideal) x0 x2 x3 x4 x6 x7 x8 x9 x10 x11))
    (h8 : AllFin (ι := S4x128x128.Idx) x8) :
    AllFin (ι := S100000x128.Idx) (val_main_v202 (F := Ideal) x0 x2 x3 x4 x6 x7 x8 x9 x10 x11) := by
  unfold val_main_v202
  exact allFin_dotGeneral _ _ (fin199 x0 x2 x3 x4 x6 x7 x8 x9 x10 x11 hin) (fin201 x8 h8)

theorem fin203
    (h9 : AllFin (ι := S4x128.Idx) x9) :
    AllFin (ι := S1x128.Idx) (val_main_v203 (F := Ideal) x9) := by
  unfold val_main_v203
  exact allFin_extractStridedSlice _ _ _ h9

theorem fin204
    (h9 : AllFin (ι := S4x128.Idx) x9) :
    AllFin (ι := S128.Idx) (val_main_v204 (F := Ideal) x9) := by
  unfold val_main_v204
  exact allFin_shapeCast _ _ (fin203 x9 h9)

theorem fin205
    (h9 : AllFin (ι := S4x128.Idx) x9) :
    AllFin (ι := S1x128.Idx) (val_main_v205 (F := Ideal) x9) := by
  unfold val_main_v205
  exact allFin_broadcastInDim _ _ _ (fin204 x9 h9)

theorem fin206
    (h9 : AllFin (ι := S4x128.Idx) x9) :
    AllFin (ι := S100000x128.Idx) (val_main_v206 (F := Ideal) x9) := by
  unfold val_main_v206
  exact allFin_broadcastInDim _ _ _ (fin205 x9 h9)

theorem fin207
    (hin : AllFin (ι := S100000x128.Idx) (val_main_v185 (F := Ideal) x0 x2 x3 x4 x6 x7 x8 x9 x10 x11))
    (h8 : AllFin (ι := S4x128x128.Idx) x8)
    (h9 : AllFin (ι := S4x128.Idx) x9) :
    AllFin (ι := S100000x128.Idx) (val_main_v207 (F := Ideal) x0 x2 x3 x4 x6 x7 x8 x9 x10 x11) := by
  unfold val_main_v207
  exact allFin_addf (fin202 x0 x2 x3 x4 x6 x7 x8 x9 x10 x11 hin h8) (fin206 x9 h9)

theorem fin208
    (h2 : AllFin (ι := S100000x1.Idx) x2) :
    AllFin (ι := S100000x128.Idx) (val_main_v208 (F := Ideal) x2) := by
  unfold val_main_v208
  exact allFin_broadcastInDim _ _ _ h2

theorem fin209
    (hin : AllFin (ι := S100000x128.Idx) (val_main_v185 (F := Ideal) x0 x2 x3 x4 x6 x7 x8 x9 x10 x11))
    (h2 : AllFin (ι := S100000x1.Idx) x2)
    (h8 : AllFin (ι := S4x128x128.Idx) x8)
    (h9 : AllFin (ι := S4x128.Idx) x9) :
    AllFin (ι := S100000x128.Idx) (val_main_v209 (F := Ideal) x0 x2 x3 x4 x6 x7 x8 x9 x10 x11) := by
  unfold val_main_v209
  exact allFin_mulf (fin207 x0 x2 x3 x4 x6 x7 x8 x9 x10 x11 hin h8 h9) (fin208 x2 h2)

section FromArgs
variable (h0 : AllFin (ι := S100000x128.Idx) x0) (h2 : AllFin (ι := S100000x1.Idx) x2) (h6 : AllFin (ι := S128x128.Idx) x6) (h7 : AllFin (ι := S128.Idx) x7) (h8 : AllFin (ι := S4x128x128.Idx) x8) (h9 : AllFin (ι := S4x128.Idx) x9) (h10 : AllFin (ι := S4x128.Idx) x10) (h11 : AllFin (ι := S4x128.Idx) x11)
include h0 h2 h6 h7 h8 h9 h10 h11

theorem fin75_of_args : AllFin (ι := S100000x128.Idx) (val_main_v75 (F := Ideal) x0 x2 x3 x4 x6 x7 x8 x9 x10 x11) :=
  fin75 x0 x2 x3 x4 x6 x7 x8 x9 x10 x11 (fin20 x0 x6 x7 h0 h6 h7) h2 h8 h9 h10 h11

theorem fin130_of_args : AllFin (ι := S100000x128.Idx) (val_main_v130 (F := Ideal) x0 x2 x3 x4 x6 x7 x8 x9 x10 x11) :=
  fin130 x0 x2 x3 x4 x6 x7 x8 x9 x10 x11 (fin75_of_args x0 x2 x3 x4 x6 x7 x8 x9 x10 x11 h0 h2 h6 h7 h8 h9 h10 h11) h2 h8 h9 h10 h11

theorem fin185_of_args : AllFin (ι := S100000x128.Idx) (val_main_v185 (F := Ideal) x0 x2 x3 x4 x6 x7 x8 x9 x10 x11) :=
  fin185 x0 x2 x3 x4 x6 x7 x8 x9 x10 x11 (fin130_of_args x0 x2 x3 x4 x6 x7 x8 x9 x10 x11 h0 h2 h6 h7 h8 h9 h10 h11) h2 h8 h9 h10 h11

end FromArgs

end Cert.FinNet

end
-- ==== Proof.FinArgs.lean ====
import proofs.«164939_j7129645711575_2_alg».proof.Defs
import proofs.«164939_j7129645711575_2_alg».proof.Proof.Gen.Pre_finite_inputs
import proofs.«164939_j7129645711575_2_alg».proof.Proof.Spec
import Idealize.ShloMosaic.Lib.ReduceAll

noncomputable section

namespace Cert.FinArgs

open Idealize.ShloMosaic Idealize.SL.Sem
open Cert.Spec Cert.Pre_finite_inputs

instance : Subsingleton S_.Idx := ⟨fun a b => funext fun d => d.elim0⟩

theorem isFin_of_abs_lt (x : EReal)
    (h : Ideal.cmp .olt (max x (-x)) (Ideal.ofBits .f32 0x7F800000#32) = 1#1) : IsFin x := by
  have hT : Ideal.ofBits .f32 0x7F800000#32 = (⊤ : EReal) := by simp [Ideal.ofBits, Ideal.ieee]
  rw [hT] at h
  induction x using EReal.rec with
  | bot => simp [Ideal.cmp] at h
  | coe r => exact ⟨r, rfl⟩
  | top => simp [Ideal.cmp] at h

theorem allFin_of_reduce {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) : AllFin x := by
  intro i
  exact isFin_of_abs_lt (x i) (Host.reduce_andi_all _ _ hr hu j e i)

theorem allFin_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      AllFin (ι := S100000x128.Idx) (m ((c.tc : Thread Cert.KernelIdeal.nD Cert.KernelIdeal.τ).loc Cert.KernelIdeal.main_arg0))
      ∧ AllFin (ι := S1600000x1.Idx) (m ((c.tc : Thread Cert.KernelIdeal.nD Cert.KernelIdeal.τ).loc Cert.KernelIdeal.main_arg1))
      ∧ AllFin (ι := S100000x1.Idx) (m ((c.tc : Thread Cert.KernelIdeal.nD Cert.KernelIdeal.τ).loc Cert.KernelIdeal.main_arg2))
      ∧ AllFin (ι := S128x128.Idx) (m ((c.tc : Thread Cert.KernelIdeal.nD Cert.KernelIdeal.τ).loc Cert.KernelIdeal.main_arg6))
      ∧ AllFin (ι := S128.Idx) (m ((c.tc : Thread Cert.KernelIdeal.nD Cert.KernelIdeal.τ).loc Cert.KernelIdeal.main_arg7))
      ∧ AllFin (ι := S4x128x128.Idx) (m ((c.tc : Thread Cert.KernelIdeal.nD Cert.KernelIdeal.τ).loc Cert.KernelIdeal.main_arg8))
      ∧ AllFin (ι := S4x128.Idx) (m ((c.tc : Thread Cert.KernelIdeal.nD Cert.KernelIdeal.τ).loc Cert.KernelIdeal.main_arg9))
      ∧ AllFin (ι := S4x128.Idx) (m ((c.tc : Thread Cert.KernelIdeal.nD Cert.KernelIdeal.τ).loc Cert.KernelIdeal.main_arg10))
      ∧ AllFin (ι := S4x128.Idx) (m ((c.tc : Thread Cert.KernelIdeal.nD Cert.KernelIdeal.τ).loc Cert.KernelIdeal.main_arg11))
      ∧ AllFin (ι := S128x10.Idx) (m ((c.tc : Thread Cert.KernelIdeal.nD Cert.KernelIdeal.τ).loc Cert.KernelIdeal.main_arg12)) := by
  have e := congrFun (h c) ValueIdx.ix0
  dsimp only [fn, fn_part1, fn_part2, Idealize.ShloMosaic.andi] at e
  simp only [IntOp.andi_eq_one] at e
  obtain ⟨⟨⟨⟨⟨⟨⟨⟨⟨e0, e1⟩, e2⟩, e6⟩, e7⟩, e8⟩, e9⟩, e10⟩, e11⟩, e12⟩ := e
  exact ⟨allFin_of_reduce _ _ _ _ _ e0,
    allFin_of_reduce _ _ _ _ _ e1,
    allFin_of_reduce _ _ _ _ _ e2,
    allFin_of_reduce _ _ _ _ _ e6,
    allFin_of_reduce _ _ _ _ _ e7,
    allFin_of_reduce _ _ _ _ _ e8,
    allFin_of_reduce _ _ _ _ _ e9,
    allFin_of_reduce _ _ _ _ _ e10,
    allFin_of_reduce _ _ _ _ _ e11,
    allFin_of_reduce _ _ _ _ _ e12⟩

end Cert.FinArgs

end
-- ==== Proof.RefSeg.lean ====
import proofs.«164939_j7129645711575_2_alg».proof.Proof.Gen.ReferenceIdeal
import proofs.«164939_j7129645711575_2_alg».proof.Proof.Ops
import proofs.«164939_j7129645711575_2_alg».proof.Proof.RefVal
import Idealize.ShloMosaic.Lib.StableHlo.Run

set_option maxRecDepth 8192

set_option Elab.async false

noncomputable section

namespace Cert.RefSeg

open Cert.ReferenceIdeal Cert.ReferenceIdeal.Gen Idealize.ShloMosaic Idealize.ShloMosaic.TcCoe Idealize.SL.Sem Idealize.ShloMosaic.StableHlo

section Lists

variable {F : FTy → Type} [FloatOps F]

abbrev seg0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg3 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v6 (broadcastInDim S100000 ![] bcast_S_S100000 : (⟨S_, .f32⟩ : BufTy).Contents (Elt F) → (⟨S100000, .f32⟩ : BufTy).Contents (Elt F)),
    unary main_arg4 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v0 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v9 (broadcastInDim S100000 ![] bcast_S_S100000 : (⟨S_, .f32⟩ : BufTy).Contents (Elt F) → (⟨S100000, .f32⟩ : BufTy).Contents (Elt F)),
    binary main_v8 main_v9 main_v10 (maximumf : (⟨S100000, .f32⟩ : BufTy).Contents (Elt F) → (⟨S100000, .f32⟩ : BufTy).Contents (Elt F) → (⟨S100000, .f32⟩ : BufTy).Contents (Elt F)),
    nullary main_cst_4 (constant S_ .f32 0xBF000000#32),
    unary main_cst_4 main_v11 (broadcastInDim S100000 ![] bcast_S_S100000 : (⟨S_, .f32⟩ : BufTy).Contents (Elt F) → (⟨S100000, .f32⟩ : BufTy).Contents (Elt F)),
    binary main_v5 main_v11 main_v12 (Host.powf : (⟨S100000, .f32⟩ : BufTy).Contents (Elt F) → (⟨S100000, .f32⟩ : BufTy).Contents (Elt F) → (⟨S100000, .f32⟩ : BufTy).Contents (Elt F)),
    unary main_v12 main_v13 (broadcastInDim S100000x1 ![0] bcast_S100000_S100000x1_0 : (⟨S100000, .f32⟩ : BufTy).Contents (Elt F) → (⟨S100000x1, .f32⟩ : BufTy).Contents (Elt F)),
    nullary main_cst_5 (constant S_ .f32 0xBF000000#32),
    unary main_cst_5 main_v14 (broadcastInDim S100000 ![] bcast_S_S100000 : (⟨S_, .f32⟩ : BufTy).Contents (Elt F) → (⟨S100000, .f32⟩ : BufTy).Contents (Elt F)),
    binary main_v10 main_v14 main_v15 (Host.powf : (⟨S100000, .f32⟩ : BufTy).Contents (Elt F) → (⟨S100000, .f32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    binary main_arg0 main_arg6 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v17 main_v19 main_v20 (addf : (⟨S100000x128, .f32⟩ : BufTy).Contents (Elt F) → (⟨S100000x128, .f32⟩ : BufTy).Contents (Elt F) → (⟨S100000x128, .f32⟩ : BufTy).Contents (Elt F)) ]

abbrev seg1 : List (HloOp τ sig (Elt F)) :=
  [ unary main_v13 main_v21 (broadcastInDim S100000x128 ![0, 1] bcast_S100000x1_S100000x128_0_1 : (⟨S100000x1, .f32⟩ : BufTy).Contents (Elt F) → (⟨S100000x128, .f32⟩ : BufTy).Contents (Elt F)),
    binary main_v20 main_v21 main_v22 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v23 (broadcastInDim S1600000 ![] bcast_S_S1600000 : (⟨S_, .i32⟩ : BufTy).Contents (Elt F) → (⟨S1600000, .i32⟩ : BufTy).Contents (Elt F)),
    binary main_arg3 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v25 (broadcastInDim S1600000 ![] bcast_S_S1600000 : (⟨S_, .i32⟩ : BufTy).Contents (Elt F) → (⟨S1600000, .i32⟩ : BufTy).Contents (Elt F)),
    binary main_arg3 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_arg3 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v22 main_v28 main_v29 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v30 (broadcastInDim S100000x128 ![] bcast_S_S100000x128 : (⟨S_, .f32⟩ : BufTy).Contents (Elt F) → (⟨S100000x128, .f32⟩ : BufTy).Contents (Elt F)),
    unary main_arg4 main_v31 (broadcastInDim S1600000x1 ![0] bcast_S1600000_S1600000x1_0 : (⟨S1600000, .i32⟩ : BufTy).Contents (Elt F) → (⟨S1600000x1, .i32⟩ : BufTy).Contents (Elt F)),
    ternary main_v30 main_v31 main_v29 main_v32 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v33 (broadcastInDim S100000x128 ![0, 1] bcast_S100000x1_S100000x128_0_1 : (⟨S100000x1, .f32⟩ : BufTy).Contents (Elt F) → (⟨S100000x128, .f32⟩ : BufTy).Contents (Elt F)),
    binary main_v32 main_v33 main_v34 (mulf : (⟨S100000x128, .f32⟩ : BufTy).Contents (Elt F) → (⟨S100000x128, .f32⟩ : BufTy).Contents (Elt F) → (⟨S100000x128, .f32⟩ : BufTy).Contents (Elt F)),
    unary main_arg8 main_v35 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v35 main_v36 rfl shapeCasts_S1x128x128_S128x128,
    binary main_v34 main_v36 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v38 ((extractStridedSlice S1x128 ![0, 0] · slices_S4x128_S1x128_0_0) : (⟨S4x128, .f32⟩ : BufTy).Contents (Elt F) → (⟨S1x128, .f32⟩ : BufTy).Contents (Elt F)),
    reshape main_v38 main_v39 rfl shapeCasts_S1x128_S128,
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v37 main_v41 main_v42 (addf : (⟨S100000x128, .f32⟩ : BufTy).Contents (Elt F) → (⟨S100000x128, .f32⟩ : BufTy).Contents (Elt F) → (⟨S100000x128, .f32⟩ : BufTy).Contents (Elt F)),
    unary main_arg2 main_v43 (broadcastInDim S100000x128 ![0, 1] bcast_S100000x1_S100000x128_0_1 : (⟨S100000x1, .f32⟩ : BufTy).Contents (Elt F) → (⟨S100000x128, .f32⟩ : BufTy).Contents (Elt F)),
    binary main_v42 main_v43 main_v44 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v44 main_cst_8 main_v45 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v46 (broadcastInDim S128 ![] bcast_S_S128 : (⟨S_, .f32⟩ : BufTy).Contents (Elt F) → (⟨S128, .f32⟩ : BufTy).Contents (Elt F)),
    binary main_v45 main_v46 main_v47 (Host.divf : (⟨S128, .f32⟩ : BufTy).Contents (Elt F) → (⟨S128, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v44 main_v49 main_v50 (subf : (⟨S100000x128, .f32⟩ : BufTy).Contents (Elt F) → (⟨S100000x128, .f32⟩ : BufTy).Contents (Elt F) → (⟨S100000x128, .f32⟩ : BufTy).Contents (Elt F)),
    binary main_v50 main_v50 main_v51 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v51 main_cst_10 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v53 (broadcastInDim S128 ![] bcast_S_S128 : (⟨S_, .f32⟩ : BufTy).Contents (Elt F) → (⟨S128, .f32⟩ : BufTy).Contents (Elt F)),
    binary main_v52 main_v53 main_v54 (Host.divf : (⟨S128, .f32⟩ : BufTy).Contents (Elt F) → (⟨S128, .f32⟩ : BufTy).Contents (Elt F) → (⟨S128, .f32⟩ : BufTy).Contents (Elt F)),
    unary main_v47 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v44 main_v56 main_v57 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v58 (broadcastInDim S128 ![] bcast_S_S128 : (⟨S_, .f32⟩ : BufTy).Contents (Elt F) → (⟨S128, .f32⟩ : BufTy).Contents (Elt F)),
    binary main_v54 main_v58 main_v59 (addf : (⟨S128, .f32⟩ : BufTy).Contents (Elt F) → (⟨S128, .f32⟩ : BufTy).Contents (Elt F) → (⟨S128, .f32⟩ : BufTy).Contents (Elt F)),
    unary main_v59 main_v60 (Host.rsqrt : (⟨S128, .f32⟩ : BufTy).Contents (Elt F) → (⟨S128, .f32⟩ : BufTy).Contents (Elt F)),
    unary main_v60 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v57 main_v62 main_v63 (mulf : (⟨S100000x128, .f32⟩ : BufTy).Contents (Elt F) → (⟨S100000x128, .f32⟩ : BufTy).Contents (Elt F) → (⟨S100000x128, .f32⟩ : BufTy).Contents (Elt F)),
    unary main_arg10 main_v64 ((extractStridedSlice S1x128 ![0, 0] · slices_S4x128_S1x128_0_0) : (⟨S4x128, .f32⟩ : BufTy).Contents (Elt F) → (⟨S1x128, .f32⟩ : BufTy).Contents (Elt F)),
    reshape main_v64 main_v65 rfl shapeCasts_S1x128_S128,
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v63 main_v67 main_v68 (mulf : (⟨S100000x128, .f32⟩ : BufTy).Contents (Elt F) → (⟨S100000x128, .f32⟩ : BufTy).Contents (Elt F) → (⟨S100000x128, .f32⟩ : BufTy).Contents (Elt F)),
    unary main_arg11 main_v69 ((extractStridedSlice S1x128 ![0, 0] · slices_S4x128_S1x128_0_0) : (⟨S4x128, .f32⟩ : BufTy).Contents (Elt F) → (⟨S1x128, .f32⟩ : BufTy).Contents (Elt F)),
    reshape main_v69 main_v70 rfl shapeCasts_S1x128_S128,
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v68 main_v72 main_v73 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v73) (TRef.of (T := ⟨S100000x128, .f32⟩) main_call0_v0) (TRef.of (T := ⟨S100000x128, .f32⟩) main_v74) maximumf,
    binary main_v20 main_v74 main_v75 (addf : (⟨S100000x128, .f32⟩ : BufTy).Contents (Elt F) → (⟨S100000x128, .f32⟩ : BufTy).Contents (Elt F) → (⟨S100000x128, .f32⟩ : BufTy).Contents (Elt F)) ]

abbrev seg2 : List (HloOp τ sig (Elt F)) :=
  [ unary main_v13 main_v76 (broadcastInDim S100000x128 ![0, 1] bcast_S100000x1_S100000x128_0_1 : (⟨S100000x1, .f32⟩ : BufTy).Contents (Elt F) → (⟨S100000x128, .f32⟩ : BufTy).Contents (Elt F)),
    binary main_v75 main_v76 main_v77 (mulf : (⟨S100000x128, .f32⟩ : BufTy).Contents (Elt F) → (⟨S100000x128, .f32⟩ : BufTy).Contents (Elt F) → (⟨S100000x128, .f32⟩ : BufTy).Contents (Elt F)),
    nullary main_c_13 (constantI S_ 32 0#32),
    unary main_c_13 main_v78 (broadcastInDim S1600000 ![] bcast_S_S1600000 : (⟨S_, .i32⟩ : BufTy).Contents (Elt F) → (⟨S1600000, .i32⟩ : BufTy).Contents (Elt F)),
    binary main_arg3 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v80 (broadcastInDim S1600000 ![] bcast_S_S1600000 : (⟨S_, .i32⟩ : BufTy).Contents (Elt F) → (⟨S1600000, .i32⟩ : BufTy).Contents (Elt F)),
    binary main_arg3 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_arg3 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v77 main_v83 main_v84 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_15 (constant S_ .f32 0x00000000#32),
    unary main_cst_15 main_v85 (broadcastInDim S100000x128 ![] bcast_S_S100000x128 : (⟨S_, .f32⟩ : BufTy).Contents (Elt F) → (⟨S100000x128, .f32⟩ : BufTy).Contents (Elt F)),
    unary main_arg4 main_v86 (broadcastInDim S1600000x1 ![0] bcast_S1600000_S1600000x1_0 : (⟨S1600000, .i32⟩ : BufTy).Contents (Elt F) → (⟨S1600000x1, .i32⟩ : BufTy).Contents (Elt F)),
    ternary main_v85 main_v86 main_v84 main_v87 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v88 (broadcastInDim S100000x128 ![0, 1] bcast_S100000x1_S100000x128_0_1 : (⟨S100000x1, .f32⟩ : BufTy).Contents (Elt F) → (⟨S100000x128, .f32⟩ : BufTy).Contents (Elt F)),
    binary main_v87 main_v88 main_v89 (mulf : (⟨S100000x128, .f32⟩ : BufTy).Contents (Elt F) → (⟨S100000x128, .f32⟩ : BufTy).Contents (Elt F) → (⟨S100000x128, .f32⟩ : BufTy).Contents (Elt F)),
    unary main_arg8 main_v90 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v90 main_v91 rfl shapeCasts_S1x128x128_S128x128,
    binary main_v89 main_v91 main_v92 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v93 ((extractStridedSlice S1x128 ![1, 0] · slices_S4x128_S1x128_1_0) : (⟨S4x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v92 main_v96 main_v97 (addf : (⟨S100000x128, .f32⟩ : BufTy).Contents (Elt F) → (⟨S100000x128, .f32⟩ : BufTy).Contents (Elt F) → (⟨S100000x128, .f32⟩ : BufTy).Contents (Elt F)),
    unary main_arg2 main_v98 (broadcastInDim S100000x128 ![0, 1] bcast_S100000x1_S100000x128_0_1 : (⟨S100000x1, .f32⟩ : BufTy).Contents (Elt F) → (⟨S100000x128, .f32⟩ : BufTy).Contents (Elt F)),
    binary main_v97 main_v98 main_v99 (mulf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x00000000#32),
    binary main_v99 main_cst_16 main_v100 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v101 (broadcastInDim S128 ![] bcast_S_S128 : (⟨S_, .f32⟩ : BufTy).Contents (Elt F) → (⟨S128, .f32⟩ : BufTy).Contents (Elt F)),
    binary main_v100 main_v101 main_v102 (Host.divf : (⟨S128, .f32⟩ : BufTy).Contents (Elt F) → (⟨S128, .f32⟩ : BufTy).Contents (Elt F) → (⟨S128, .f32⟩ : BufTy).Contents (Elt F)),
    unary main_v102 main_v103 (broadcastInDim S1x128 ![1] bcast_S128_S1x128_1 : (⟨S128, .f32⟩ : BufTy).Contents (Elt F) → (⟨S1x128, .f32⟩ : BufTy).Contents (Elt F)),
    unary main_v103 main_v104 (broadcastInDim S100000x128 ![0, 1] bcast_S1x128_S100000x128_0_1 : (⟨S1x128, .f32⟩ : BufTy).Contents (Elt F) → (⟨S100000x128, .f32⟩ : BufTy).Contents (Elt F)),
    binary main_v99 main_v104 main_v105 (subf : (⟨S100000x128, .f32⟩ : BufTy).Contents (Elt F) → (⟨S100000x128, .f32⟩ : BufTy).Contents (Elt F) → (⟨S100000x128, .f32⟩ : BufTy).Contents (Elt F)),
    binary main_v105 main_v105 main_v106 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v106 main_cst_18 main_v107 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_19 (constant S_ .f32 0x47C35000#32),
    unary main_cst_19 main_v108 (broadcastInDim S128 ![] bcast_S_S128 : (⟨S_, .f32⟩ : BufTy).Contents (Elt F) → (⟨S128, .f32⟩ : BufTy).Contents (Elt F)),
    binary main_v107 main_v108 main_v109 (Host.divf : (⟨S128, .f32⟩ : BufTy).Contents (Elt F) → (⟨S128, .f32⟩ : BufTy).Contents (Elt F) → (⟨S128, .f32⟩ : BufTy).Contents (Elt F)),
    unary main_v102 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v99 main_v111 main_v112 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v113 (broadcastInDim S128 ![] bcast_S_S128 : (⟨S_, .f32⟩ : BufTy).Contents (Elt F) → (⟨S128, .f32⟩ : BufTy).Contents (Elt F)),
    binary main_v109 main_v113 main_v114 (addf : (⟨S128, .f32⟩ : BufTy).Contents (Elt F) → (⟨S128, .f32⟩ : BufTy).Contents (Elt F) → (⟨S128, .f32⟩ : BufTy).Contents (Elt F)),
    unary main_v114 main_v115 (Host.rsqrt : (⟨S128, .f32⟩ : BufTy).Contents (Elt F) → (⟨S128, .f32⟩ : BufTy).Contents (Elt F)),
    unary main_v115 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v112 main_v117 main_v118 (mulf : (⟨S100000x128, .f32⟩ : BufTy).Contents (Elt F) → (⟨S100000x128, .f32⟩ : BufTy).Contents (Elt F) → (⟨S100000x128, .f32⟩ : BufTy).Contents (Elt F)),
    unary main_arg10 main_v119 ((extractStridedSlice S1x128 ![1, 0] · slices_S4x128_S1x128_1_0) : (⟨S4x128, .f32⟩ : BufTy).Contents (Elt F) → (⟨S1x128, .f32⟩ : BufTy).Contents (Elt F)),
    reshape main_v119 main_v120 rfl shapeCasts_S1x128_S128,
    unary main_v120 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v118 main_v122 main_v123 (mulf : (⟨S100000x128, .f32⟩ : BufTy).Contents (Elt F) → (⟨S100000x128, .f32⟩ : BufTy).Contents (Elt F) → (⟨S100000x128, .f32⟩ : BufTy).Contents (Elt F)),
    unary main_arg11 main_v124 ((extractStridedSlice S1x128 ![1, 0] · slices_S4x128_S1x128_1_0) : (⟨S4x128, .f32⟩ : BufTy).Contents (Elt F) → (⟨S1x128, .f32⟩ : BufTy).Contents (Elt F)),
    reshape main_v124 main_v125 rfl shapeCasts_S1x128_S128,
    unary main_v125 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v123 main_v127 main_v128 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v128) (TRef.of (T := ⟨S100000x128, .f32⟩) main_call1_v0) (TRef.of (T := ⟨S100000x128, .f32⟩) main_v129) maximumf,
    binary main_v75 main_v129 main_v130 (addf : (⟨S100000x128, .f32⟩ : BufTy).Contents (Elt F) → (⟨S100000x128, .f32⟩ : BufTy).Contents (Elt F) → (⟨S100000x128, .f32⟩ : BufTy).Contents (Elt F)) ]

abbrev seg3 : List (HloOp τ sig (Elt F)) :=
  [ unary main_v13 main_v131 (broadcastInDim S100000x128 ![0, 1] bcast_S100000x1_S100000x128_0_1 : (⟨S100000x1, .f32⟩ : BufTy).Contents (Elt F) → (⟨S100000x128, .f32⟩ : BufTy).Contents (Elt F)),
    binary main_v130 main_v131 main_v132 (mulf : (⟨S100000x128, .f32⟩ : BufTy).Contents (Elt F) → (⟨S100000x128, .f32⟩ : BufTy).Contents (Elt F) → (⟨S100000x128, .f32⟩ : BufTy).Contents (Elt F)),
    nullary main_c_21 (constantI S_ 32 0#32),
    unary main_c_21 main_v133 (broadcastInDim S1600000 ![] bcast_S_S1600000 : (⟨S_, .i32⟩ : BufTy).Contents (Elt F) → (⟨S1600000, .i32⟩ : BufTy).Contents (Elt F)),
    binary main_arg3 main_v133 main_v134 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v135 (broadcastInDim S1600000 ![] bcast_S_S1600000 : (⟨S_, .i32⟩ : BufTy).Contents (Elt F) → (⟨S1600000, .i32⟩ : BufTy).Contents (Elt F)),
    binary main_arg3 main_v135 main_v136 (addi : (⟨S1600000, .i32⟩ : BufTy).Contents (Elt F) → (⟨S1600000, .i32⟩ : BufTy).Contents (Elt F) → (⟨S1600000, .i32⟩ : BufTy).Contents (Elt F)),
    ternary main_v134 main_v136 main_arg3 main_v137 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v137 main_v138 (broadcastInDim S1600000x1 ![0] bcast_S1600000_S1600000x1_0 : (⟨S1600000, .i32⟩ : BufTy).Contents (Elt F) → (⟨S1600000x1, .i32⟩ : BufTy).Contents (Elt F)),
    binary main_v132 main_v138 main_v139 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_23 (constant S_ .f32 0x00000000#32),
    unary main_cst_23 main_v140 (broadcastInDim S100000x128 ![] bcast_S_S100000x128 : (⟨S_, .f32⟩ : BufTy).Contents (Elt F) → (⟨S100000x128, .f32⟩ : BufTy).Contents (Elt F)),
    unary main_arg4 main_v141 (broadcastInDim S1600000x1 ![0] bcast_S1600000_S1600000x1_0 : (⟨S1600000, .i32⟩ : BufTy).Contents (Elt F) → (⟨S1600000x1, .i32⟩ : BufTy).Contents (Elt F)),
    ternary main_v140 main_v141 main_v139 main_v142 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v143 (broadcastInDim S100000x128 ![0, 1] bcast_S100000x1_S100000x128_0_1 : (⟨S100000x1, .f32⟩ : BufTy).Contents (Elt F) → (⟨S100000x128, .f32⟩ : BufTy).Contents (Elt F)),
    binary main_v142 main_v143 main_v144 (mulf : (⟨S100000x128, .f32⟩ : BufTy).Contents (Elt F) → (⟨S100000x128, .f32⟩ : BufTy).Contents (Elt F) → (⟨S100000x128, .f32⟩ : BufTy).Contents (Elt F)),
    unary main_arg8 main_v145 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v145 main_v146 rfl shapeCasts_S1x128x128_S128x128,
    binary main_v144 main_v146 main_v147 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v148 ((extractStridedSlice S1x128 ![2, 0] · slices_S4x128_S1x128_2_0) : (⟨S4x128, .f32⟩ : BufTy).Contents (Elt F) → (⟨S1x128, .f32⟩ : BufTy).Contents (Elt F)),
    reshape main_v148 main_v149 rfl shapeCasts_S1x128_S128,
    unary main_v149 main_v150 (broadcastInDim S1x128 ![1] bcast_S128_S1x128_1 : (⟨S128, .f32⟩ : BufTy).Contents (Elt F) → (⟨S1x128, .f32⟩ : BufTy).Contents (Elt F)),
    unary main_v150 main_v151 (broadcastInDim S100000x128 ![0, 1] bcast_S1x128_S100000x128_0_1 : (⟨S1x128, .f32⟩ : BufTy).Contents (Elt F) → (⟨S100000x128, .f32⟩ : BufTy).Contents (Elt F)),
    binary main_v147 main_v151 main_v152 (addf : (⟨S100000x128, .f32⟩ : BufTy).Contents (Elt F) → (⟨S100000x128, .f32⟩ : BufTy).Contents (Elt F) → (⟨S100000x128, .f32⟩ : BufTy).Contents (Elt F)),
    unary main_arg2 main_v153 (broadcastInDim S100000x128 ![0, 1] bcast_S100000x1_S100000x128_0_1 : (⟨S100000x1, .f32⟩ : BufTy).Contents (Elt F) → (⟨S100000x128, .f32⟩ : BufTy).Contents (Elt F)),
    binary main_v152 main_v153 main_v154 (mulf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x00000000#32),
    binary main_v154 main_cst_24 main_v155 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_25 (constant S_ .f32 0x47C35000#32),
    unary main_cst_25 main_v156 (broadcastInDim S128 ![] bcast_S_S128 : (⟨S_, .f32⟩ : BufTy).Contents (Elt F) → (⟨S128, .f32⟩ : BufTy).Contents (Elt F)),
    binary main_v155 main_v156 main_v157 (Host.divf : (⟨S128, .f32⟩ : BufTy).Contents (Elt F) → (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v154 main_v159 main_v160 (subf : (⟨S100000x128, .f32⟩ : BufTy).Contents (Elt F) → (⟨S100000x128, .f32⟩ : BufTy).Contents (Elt F) → (⟨S100000x128, .f32⟩ : BufTy).Contents (Elt F)),
    binary main_v160 main_v160 main_v161 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v161 main_cst_26 main_v162 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_27 (constant S_ .f32 0x47C35000#32),
    unary main_cst_27 main_v163 (broadcastInDim S128 ![] bcast_S_S128 : (⟨S_, .f32⟩ : BufTy).Contents (Elt F) → (⟨S128, .f32⟩ : BufTy).Contents (Elt F)),
    binary main_v162 main_v163 main_v164 (Host.divf : (⟨S128, .f32⟩ : BufTy).Contents (Elt F) → (⟨S128, .f32⟩ : BufTy).Contents (Elt F) → (⟨S128, .f32⟩ : BufTy).Contents (Elt F)),
    unary main_v157 main_v165 (broadcastInDim S1x128 ![1] bcast_S128_S1x128_1 : (⟨S128, .f32⟩ : BufTy).Contents (Elt F) → (⟨S1x128, .f32⟩ : BufTy).Contents (Elt F)),
    unary main_v165 main_v166 (broadcastInDim S100000x128 ![0, 1] bcast_S1x128_S100000x128_0_1 : (⟨S1x128, .f32⟩ : BufTy).Contents (Elt F) → (⟨S100000x128, .f32⟩ : BufTy).Contents (Elt F)),
    binary main_v154 main_v166 main_v167 (subf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x3727C5AC#32),
    unary main_cst_28 main_v168 (broadcastInDim S128 ![] bcast_S_S128 : (⟨S_, .f32⟩ : BufTy).Contents (Elt F) → (⟨S128, .f32⟩ : BufTy).Contents (Elt F)),
    binary main_v164 main_v168 main_v169 (addf : (⟨S128, .f32⟩ : BufTy).Contents (Elt F) → (⟨S128, .f32⟩ : BufTy).Contents (Elt F) → (⟨S128, .f32⟩ : BufTy).Contents (Elt F)),
    unary main_v169 main_v170 (Host.rsqrt : (⟨S128, .f32⟩ : BufTy).Contents (Elt F) → (⟨S128, .f32⟩ : BufTy).Contents (Elt F)),
    unary main_v170 main_v171 (broadcastInDim S1x128 ![1] bcast_S128_S1x128_1 : (⟨S128, .f32⟩ : BufTy).Contents (Elt F) → (⟨S1x128, .f32⟩ : BufTy).Contents (Elt F)),
    unary main_v171 main_v172 (broadcastInDim S100000x128 ![0, 1] bcast_S1x128_S100000x128_0_1 : (⟨S1x128, .f32⟩ : BufTy).Contents (Elt F) → (⟨S100000x128, .f32⟩ : BufTy).Contents (Elt F)),
    binary main_v167 main_v172 main_v173 (mulf : (⟨S100000x128, .f32⟩ : BufTy).Contents (Elt F) → (⟨S100000x128, .f32⟩ : BufTy).Contents (Elt F) → (⟨S100000x128, .f32⟩ : BufTy).Contents (Elt F)),
    unary main_arg10 main_v174 ((extractStridedSlice S1x128 ![2, 0] · slices_S4x128_S1x128_2_0) : (⟨S4x128, .f32⟩ : BufTy).Contents (Elt F) → (⟨S1x128, .f32⟩ : BufTy).Contents (Elt F)),
    reshape main_v174 main_v175 rfl shapeCasts_S1x128_S128,
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v173 main_v177 main_v178 (mulf : (⟨S100000x128, .f32⟩ : BufTy).Contents (Elt F) → (⟨S100000x128, .f32⟩ : BufTy).Contents (Elt F) → (⟨S100000x128, .f32⟩ : BufTy).Contents (Elt F)),
    unary main_arg11 main_v179 ((extractStridedSlice S1x128 ![2, 0] · slices_S4x128_S1x128_2_0) : (⟨S4x128, .f32⟩ : BufTy).Contents (Elt F) → (⟨S1x128, .f32⟩ : BufTy).Contents (Elt F)),
    reshape main_v179 main_v180 rfl shapeCasts_S1x128_S128,
    unary main_v180 main_v181 (broadcastInDim S1x128 ![1] bcast_S128_S1x128_1 : (⟨S128, .f32⟩ : BufTy).Contents (Elt F) → (⟨S1x128, .f32⟩ : BufTy).Contents (Elt F)),
    unary main_v181 main_v182 (broadcastInDim S100000x128 ![0, 1] bcast_S1x128_S100000x128_0_1 : (⟨S1x128, .f32⟩ : BufTy).Contents (Elt F) → (⟨S100000x128, .f32⟩ : BufTy).Contents (Elt F)),
    binary main_v178 main_v182 main_v183 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v183) (TRef.of (T := ⟨S100000x128, .f32⟩) main_call2_v0) (TRef.of (T := ⟨S100000x128, .f32⟩) main_v184) maximumf,
    binary main_v130 main_v184 main_v185 (addf : (⟨S100000x128, .f32⟩ : BufTy).Contents (Elt F) → (⟨S100000x128, .f32⟩ : BufTy).Contents (Elt F) → (⟨S100000x128, .f32⟩ : BufTy).Contents (Elt F)) ]

abbrev seg4 : List (HloOp τ sig (Elt F)) :=
  [ unary main_v13 main_v186 (broadcastInDim S100000x128 ![0, 1] bcast_S100000x1_S100000x128_0_1 : (⟨S100000x1, .f32⟩ : BufTy).Contents (Elt F) → (⟨S100000x128, .f32⟩ : BufTy).Contents (Elt F)),
    binary main_v185 main_v186 main_v187 (mulf : (⟨S100000x128, .f32⟩ : BufTy).Contents (Elt F) → (⟨S100000x128, .f32⟩ : BufTy).Contents (Elt F) → (⟨S100000x128, .f32⟩ : BufTy).Contents (Elt F)),
    nullary main_c_29 (constantI S_ 32 0#32),
    unary main_c_29 main_v188 (broadcastInDim S1600000 ![] bcast_S_S1600000 : (⟨S_, .i32⟩ : BufTy).Contents (Elt F) → (⟨S1600000, .i32⟩ : BufTy).Contents (Elt F)),
    binary main_arg3 main_v188 main_v189 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v190 (broadcastInDim S1600000 ![] bcast_S_S1600000 : (⟨S_, .i32⟩ : BufTy).Contents (Elt F) → (⟨S1600000, .i32⟩ : BufTy).Contents (Elt F)),
    binary main_arg3 main_v190 main_v191 (addi : (⟨S1600000, .i32⟩ : BufTy).Contents (Elt F) → (⟨S1600000, .i32⟩ : BufTy).Contents (Elt F) → (⟨S1600000, .i32⟩ : BufTy).Contents (Elt F)),
    ternary main_v189 main_v191 main_arg3 main_v192 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v192 main_v193 (broadcastInDim S1600000x1 ![0] bcast_S1600000_S1600000x1_0 : (⟨S1600000, .i32⟩ : BufTy).Contents (Elt F) → (⟨S1600000x1, .i32⟩ : BufTy).Contents (Elt F)),
    binary main_v187 main_v193 main_v194 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_31 (constant S_ .f32 0x00000000#32),
    unary main_cst_31 main_v195 (broadcastInDim S100000x128 ![] bcast_S_S100000x128 : (⟨S_, .f32⟩ : BufTy).Contents (Elt F) → (⟨S100000x128, .f32⟩ : BufTy).Contents (Elt F)),
    unary main_arg4 main_v196 (broadcastInDim S1600000x1 ![0] bcast_S1600000_S1600000x1_0 : (⟨S1600000, .i32⟩ : BufTy).Contents (Elt F) → (⟨S1600000x1, .i32⟩ : BufTy).Contents (Elt F)),
    ternary main_v195 main_v196 main_v194 main_v197 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v198 (broadcastInDim S100000x128 ![0, 1] bcast_S100000x1_S100000x128_0_1 : (⟨S100000x1, .f32⟩ : BufTy).Contents (Elt F) → (⟨S100000x128, .f32⟩ : BufTy).Contents (Elt F)),
    binary main_v197 main_v198 main_v199 (mulf : (⟨S100000x128, .f32⟩ : BufTy).Contents (Elt F) → (⟨S100000x128, .f32⟩ : BufTy).Contents (Elt F) → (⟨S100000x128, .f32⟩ : BufTy).Contents (Elt F)),
    unary main_arg8 main_v200 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v200 main_v201 rfl shapeCasts_S1x128x128_S128x128,
    binary main_v199 main_v201 main_v202 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v203 ((extractStridedSlice S1x128 ![3, 0] · slices_S4x128_S1x128_3_0) : (⟨S4x128, .f32⟩ : BufTy).Contents (Elt F) → (⟨S1x128, .f32⟩ : BufTy).Contents (Elt F)),
    reshape main_v203 main_v204 rfl shapeCasts_S1x128_S128,
    unary main_v204 main_v205 (broadcastInDim S1x128 ![1] bcast_S128_S1x128_1 : (⟨S128, .f32⟩ : BufTy).Contents (Elt F) → (⟨S1x128, .f32⟩ : BufTy).Contents (Elt F)),
    unary main_v205 main_v206 (broadcastInDim S100000x128 ![0, 1] bcast_S1x128_S100000x128_0_1 : (⟨S1x128, .f32⟩ : BufTy).Contents (Elt F) → (⟨S100000x128, .f32⟩ : BufTy).Contents (Elt F)),
    binary main_v202 main_v206 main_v207 (addf : (⟨S100000x128, .f32⟩ : BufTy).Contents (Elt F) → (⟨S100000x128, .f32⟩ : BufTy).Contents (Elt F) → (⟨S100000x128, .f32⟩ : BufTy).Contents (Elt F)),
    unary main_arg2 main_v208 (broadcastInDim S100000x128 ![0, 1] bcast_S100000x1_S100000x128_0_1 : (⟨S100000x1, .f32⟩ : BufTy).Contents (Elt F) → (⟨S100000x128, .f32⟩ : BufTy).Contents (Elt F)),
    binary main_v207 main_v208 main_v209 (mulf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x00000000#32),
    binary main_v209 main_cst_32 main_v210 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_33 (constant S_ .f32 0x47C35000#32),
    unary main_cst_33 main_v211 (broadcastInDim S128 ![] bcast_S_S128 : (⟨S_, .f32⟩ : BufTy).Contents (Elt F) → (⟨S128, .f32⟩ : BufTy).Contents (Elt F)),
    binary main_v210 main_v211 main_v212 (Host.divf : (⟨S128, .f32⟩ : BufTy).Contents (Elt F) → (⟨S128, .f32⟩ : BufTy).Contents (Elt F) → (⟨S128, .f32⟩ : BufTy).Contents (Elt F)),
    unary main_v212 main_v213 (broadcastInDim S1x128 ![1] bcast_S128_S1x128_1 : (⟨S128, .f32⟩ : BufTy).Contents (Elt F) → (⟨S1x128, .f32⟩ : BufTy).Contents (Elt F)),
    unary main_v213 main_v214 (broadcastInDim S100000x128 ![0, 1] bcast_S1x128_S100000x128_0_1 : (⟨S1x128, .f32⟩ : BufTy).Contents (Elt F) → (⟨S100000x128, .f32⟩ : BufTy).Contents (Elt F)),
    binary main_v209 main_v214 main_v215 (subf : (⟨S100000x128, .f32⟩ : BufTy).Contents (Elt F) → (⟨S100000x128, .f32⟩ : BufTy).Contents (Elt F) → (⟨S100000x128, .f32⟩ : BufTy).Contents (Elt F)),
    binary main_v215 main_v215 main_v216 (mulf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x00000000#32),
    binary main_v216 main_cst_34 main_v217 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_35 (constant S_ .f32 0x47C35000#32),
    unary main_cst_35 main_v218 (broadcastInDim S128 ![] bcast_S_S128 : (⟨S_, .f32⟩ : BufTy).Contents (Elt F) → (⟨S128, .f32⟩ : BufTy).Contents (Elt F)),
    binary main_v217 main_v218 main_v219 (Host.divf : (⟨S128, .f32⟩ : BufTy).Contents (Elt F) → (⟨S128, .f32⟩ : BufTy).Contents (Elt F) → (⟨S128, .f32⟩ : BufTy).Contents (Elt F)),
    unary main_v212 main_v220 (broadcastInDim S1x128 ![1] bcast_S128_S1x128_1 : (⟨S128, .f32⟩ : BufTy).Contents (Elt F) → (⟨S1x128, .f32⟩ : BufTy).Contents (Elt F)),
    unary main_v220 main_v221 (broadcastInDim S100000x128 ![0, 1] bcast_S1x128_S100000x128_0_1 : (⟨S1x128, .f32⟩ : BufTy).Contents (Elt F) → (⟨S100000x128, .f32⟩ : BufTy).Contents (Elt F)),
    binary main_v209 main_v221 main_v222 (subf : (⟨S100000x128, .f32⟩ : BufTy).Contents (Elt F) → (⟨S100000x128, .f32⟩ : BufTy).Contents (Elt F) → (⟨S100000x128, .f32⟩ : BufTy).Contents (Elt F)),
    nullary main_cst_36 (constant S_ .f32 0x3727C5AC#32),
    unary main_cst_36 main_v223 (broadcastInDim S128 ![] bcast_S_S128 : (⟨S_, .f32⟩ : BufTy).Contents (Elt F) → (⟨S128, .f32⟩ : BufTy).Contents (Elt F)),
    binary main_v219 main_v223 main_v224 (addf : (⟨S128, .f32⟩ : BufTy).Contents (Elt F) → (⟨S128, .f32⟩ : BufTy).Contents (Elt F) → (⟨S128, .f32⟩ : BufTy).Contents (Elt F)),
    unary main_v224 main_v225 (Host.rsqrt : (⟨S128, .f32⟩ : BufTy).Contents (Elt F) → (⟨S128, .f32⟩ : BufTy).Contents (Elt F)),
    unary main_v225 main_v226 (broadcastInDim S1x128 ![1] bcast_S128_S1x128_1 : (⟨S128, .f32⟩ : BufTy).Contents (Elt F) → (⟨S1x128, .f32⟩ : BufTy).Contents (Elt F)),
    unary main_v226 main_v227 (broadcastInDim S100000x128 ![0, 1] bcast_S1x128_S100000x128_0_1 : (⟨S1x128, .f32⟩ : BufTy).Contents (Elt F) → (⟨S100000x128, .f32⟩ : BufTy).Contents (Elt F)),
    binary main_v222 main_v227 main_v228 (mulf : (⟨S100000x128, .f32⟩ : BufTy).Contents (Elt F) → (⟨S100000x128, .f32⟩ : BufTy).Contents (Elt F) → (⟨S100000x128, .f32⟩ : BufTy).Contents (Elt F)),
    unary main_arg10 main_v229 ((extractStridedSlice S1x128 ![3, 0] · slices_S4x128_S1x128_3_0) : (⟨S4x128, .f32⟩ : BufTy).Contents (Elt F) → (⟨S1x128, .f32⟩ : BufTy).Contents (Elt F)),
    reshape main_v229 main_v230 rfl shapeCasts_S1x128_S128,
    unary main_v230 main_v231 (broadcastInDim S1x128 ![1] bcast_S128_S1x128_1 : (⟨S128, .f32⟩ : BufTy).Contents (Elt F) → (⟨S1x128, .f32⟩ : BufTy).Contents (Elt F)),
    unary main_v231 main_v232 (broadcastInDim S100000x128 ![0, 1] bcast_S1x128_S100000x128_0_1 : (⟨S1x128, .f32⟩ : BufTy).Contents (Elt F) → (⟨S100000x128, .f32⟩ : BufTy).Contents (Elt F)),
    binary main_v228 main_v232 main_v233 (mulf : (⟨S100000x128, .f32⟩ : BufTy).Contents (Elt F) → (⟨S100000x128, .f32⟩ : BufTy).Contents (Elt F) → (⟨S100000x128, .f32⟩ : BufTy).Contents (Elt F)),
    unary main_arg11 main_v234 ((extractStridedSlice S1x128 ![3, 0] · slices_S4x128_S1x128_3_0) : (⟨S4x128, .f32⟩ : BufTy).Contents (Elt F) → (⟨S1x128, .f32⟩ : BufTy).Contents (Elt F)),
    reshape main_v234 main_v235 rfl shapeCasts_S1x128_S128,
    unary main_v235 main_v236 (broadcastInDim S1x128 ![1] bcast_S128_S1x128_1 : (⟨S128, .f32⟩ : BufTy).Contents (Elt F) → (⟨S1x128, .f32⟩ : BufTy).Contents (Elt F)),
    unary main_v236 main_v237 (broadcastInDim S100000x128 ![0, 1] bcast_S1x128_S100000x128_0_1 : (⟨S1x128, .f32⟩ : BufTy).Contents (Elt F) → (⟨S100000x128, .f32⟩ : BufTy).Contents (Elt F)),
    binary main_v233 main_v237 main_v238 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v238) (TRef.of (T := ⟨S100000x128, .f32⟩) main_call3_v0) (TRef.of (T := ⟨S100000x128, .f32⟩) main_v239) maximumf,
    binary main_v185 main_v239 main_v240 (addf : (⟨S100000x128, .f32⟩ : BufTy).Contents (Elt F) → (⟨S100000x128, .f32⟩ : BufTy).Contents (Elt F) → (⟨S100000x128, .f32⟩ : BufTy).Contents (Elt F)) ]

abbrev seg5 : List (HloOp τ sig (Elt F)) :=
  [ nullary main_cst_37 (constant S_ .f32 0x3F800000#32),
    unary main_cst_37 main_v241 (broadcastInDim S100000 ![] bcast_S_S100000 : (⟨S_, .f32⟩ : BufTy).Contents (Elt F) → (⟨S100000, .f32⟩ : BufTy).Contents (Elt F)),
    nullary main_cst_38 (constant S_ .f32 0x00000000#32),
    unary main_cst_38 main_v242 (broadcastInDim S512 ![] bcast_S_S512 : (⟨S_, .f32⟩ : BufTy).Contents (Elt F) → (⟨S512, .f32⟩ : BufTy).Contents (Elt F)),
    unary main_arg5 main_v243 (broadcastInDim S100000x1 ![0] bcast_S100000_S100000x1_0 : (⟨S100000, .i32⟩ : BufTy).Contents (Elt F) → (⟨S100000x1, .i32⟩ : BufTy).Contents (Elt F)),
    ternary main_v242 main_v243 main_v241 main_v244 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_39 (constant S_ .f32 0x3F800000#32),
    unary main_cst_39 main_v245 (broadcastInDim S512 ![] bcast_S_S512 : (⟨S_, .f32⟩ : BufTy).Contents (Elt F) → (⟨S512, .f32⟩ : BufTy).Contents (Elt F)),
    binary main_v244 main_v245 main_v246 (maximumf : (⟨S512, .f32⟩ : BufTy).Contents (Elt F) → (⟨S512, .f32⟩ : BufTy).Contents (Elt F) → (⟨S512, .f32⟩ : BufTy).Contents (Elt F)),
    nullary main_cst_40 (constant S_ .f32 0x00000000#32),
    unary main_cst_40 main_v247 (broadcastInDim S512x128 ![] bcast_S_S512x128 : (⟨S_, .f32⟩ : BufTy).Contents (Elt F) → (⟨S512x128, .f32⟩ : BufTy).Contents (Elt F)),
    unary main_arg5 main_v248 (broadcastInDim S100000x1 ![0] bcast_S100000_S100000x1_0 : (⟨S100000, .i32⟩ : BufTy).Contents (Elt F) → (⟨S100000x1, .i32⟩ : BufTy).Contents (Elt F)),
    ternary main_v247 main_v248 main_v240 main_v249 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    unary main_v246 main_v250 (broadcastInDim S512x1 ![0] bcast_S512_S512x1_0 : (⟨S512, .f32⟩ : BufTy).Contents (Elt F) → (⟨S512x1, .f32⟩ : BufTy).Contents (Elt F)),
    unary main_v250 main_v251 (broadcastInDim S512x128 ![0, 1] bcast_S512x1_S512x128_0_1 : (⟨S512x1, .f32⟩ : BufTy).Contents (Elt F) → (⟨S512x128, .f32⟩ : BufTy).Contents (Elt F)),
    binary main_v249 main_v251 main_v252 (Host.divf : (⟨S512x128, .f32⟩ : BufTy).Contents (Elt F) → (⟨S512x128, .f32⟩ : BufTy).Contents (Elt F) → (⟨S512x128, .f32⟩ : BufTy).Contents (Elt F)),
    binary main_v252 main_arg12 main_v253 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)) ]

local macro "wr1" : tactic => `(tactic| (simp only [TRef.nullary, TRef.unary, TRef.binary, nullary_writes, unary_writes, binary_writes, ternary_writes, reshape_writes, Finset.singleton_subset_iff, List.mem_toFinset]; exact List.mem_map_of_mem (by decide)))

abbrev seg0_W : List (Ref sig .tc) :=
  [main_cst, main_v0, main_cst_0, main_v1, main_v2, main_v3, main_cst_1, main_v4, main_v5, main_cst_2, main_v6, main_v7, main_v8, main_cst_3, main_v9, main_v10, main_cst_4, main_v11, main_v12, main_v13, main_cst_5, main_v14, main_v15, main_v16, main_v17, main_v18, main_v19, main_v20]

set_option maxHeartbeats 4000000 in
theorem seg0_writes : (seg0 : List (HloOp τ sig (Elt F))).Forall fun op => op.writes ⊆ (seg0_W.map (Proc.devRef (τ := τ) .tc)).toFinset := by
  simp only [List.Forall]
  exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

theorem seg0_keep (V : Valuation τ sig (Elt F)) (r : Ref sig .tc) (h : r ∉ seg0_W) :
    after seg0 V (Proc.devRef .tc r) = V (Proc.devRef .tc r) :=
  after_of_writes_sub seg0 V seg0_writes h

abbrev seg1_W : List (Ref sig .tc) :=
  [main_v21, main_v22, main_c, main_v23, main_v24, main_c_6, main_v25, main_v26, main_v27, main_v28, main_v29, main_cst_7, main_v30, main_v31, main_v32, main_v33, main_v34, main_v35, main_v36, main_v37, main_v38, main_v39, main_v40, main_v41, main_v42, main_v43, main_v44, main_cst_8, main_v45, main_cst_9, main_v46, main_v47, main_v48, main_v49, main_v50, main_v51, main_cst_10, main_v52, main_cst_11, main_v53, main_v54, main_v55, main_v56, main_v57, main_cst_12, main_v58, main_v59, main_v60, main_v61, main_v62, main_v63, main_v64, main_v65, main_v66, main_v67, main_v68, main_v69, main_v70, main_v71, main_v72, main_v73, main_call0_cst, main_call0_v0, main_v74, main_v75]

set_option maxHeartbeats 4000000 in
theorem seg1_writes : (seg1 : List (HloOp τ sig (Elt F))).Forall fun op => op.writes ⊆ (seg1_W.map (Proc.devRef (τ := τ) .tc)).toFinset := by
  simp only [List.Forall]
  exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

theorem seg1_keep (V : Valuation τ sig (Elt F)) (r : Ref sig .tc) (h : r ∉ seg1_W) :
    after seg1 V (Proc.devRef .tc r) = V (Proc.devRef .tc r) :=
  after_of_writes_sub seg1 V seg1_writes h

abbrev seg2_W : List (Ref sig .tc) :=
  [main_v76, main_v77, main_c_13, main_v78, main_v79, main_c_14, main_v80, main_v81, main_v82, main_v83, main_v84, main_cst_15, main_v85, main_v86, main_v87, main_v88, main_v89, main_v90, main_v91, main_v92, main_v93, main_v94, main_v95, main_v96, main_v97, main_v98, main_v99, main_cst_16, main_v100, main_cst_17, main_v101, main_v102, main_v103, main_v104, main_v105, main_v106, main_cst_18, main_v107, main_cst_19, main_v108, main_v109, main_v110, main_v111, main_v112, main_cst_20, main_v113, main_v114, main_v115, main_v116, main_v117, main_v118, main_v119, main_v120, main_v121, main_v122, main_v123, main_v124, main_v125, main_v126, main_v127, main_v128, main_call1_cst, main_call1_v0, main_v129, main_v130]

set_option maxHeartbeats 4000000 in
theorem seg2_writes : (seg2 : List (HloOp τ sig (Elt F))).Forall fun op => op.writes ⊆ (seg2_W.map (Proc.devRef (τ := τ) .tc)).toFinset := by
  simp only [List.Forall]
  exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

theorem seg2_keep (V : Valuation τ sig (Elt F)) (r : Ref sig .tc) (h : r ∉ seg2_W) :
    after seg2 V (Proc.devRef .tc r) = V (Proc.devRef .tc r) :=
  after_of_writes_sub seg2 V seg2_writes h

abbrev seg3_W : List (Ref sig .tc) :=
  [main_v131, main_v132, main_c_21, main_v133, main_v134, main_c_22, main_v135, main_v136, main_v137, main_v138, main_v139, main_cst_23, main_v140, main_v141, main_v142, main_v143, main_v144, main_v145, main_v146, main_v147, main_v148, main_v149, main_v150, main_v151, main_v152, main_v153, main_v154, main_cst_24, main_v155, main_cst_25, main_v156, main_v157, main_v158, main_v159, main_v160, main_v161, main_cst_26, main_v162, main_cst_27, main_v163, main_v164, main_v165, main_v166, main_v167, main_cst_28, main_v168, main_v169, main_v170, main_v171, main_v172, main_v173, main_v174, main_v175, main_v176, main_v177, main_v178, main_v179, main_v180, main_v181, main_v182, main_v183, main_call2_cst, main_call2_v0, main_v184, main_v185]

set_option maxHeartbeats 4000000 in
theorem seg3_writes : (seg3 : List (HloOp τ sig (Elt F))).Forall fun op => op.writes ⊆ (seg3_W.map (Proc.devRef (τ := τ) .tc)).toFinset := by
  simp only [List.Forall]
  exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

theorem seg3_keep (V : Valuation τ sig (Elt F)) (r : Ref sig .tc) (h : r ∉ seg3_W) :
    after seg3 V (Proc.devRef .tc r) = V (Proc.devRef .tc r) :=
  after_of_writes_sub seg3 V seg3_writes h

abbrev seg4_W : List (Ref sig .tc) :=
  [main_v186, main_v187, main_c_29, main_v188, main_v189, main_c_30, main_v190, main_v191, main_v192, main_v193, main_v194, main_cst_31, main_v195, main_v196, main_v197, main_v198, main_v199, main_v200, main_v201, main_v202, main_v203, main_v204, main_v205, main_v206, main_v207, main_v208, main_v209, main_cst_32, main_v210, main_cst_33, main_v211, main_v212, main_v213, main_v214, main_v215, main_v216, main_cst_34, main_v217, main_cst_35, main_v218, main_v219, main_v220, main_v221, main_v222, main_cst_36, main_v223, main_v224, main_v225, main_v226, main_v227, main_v228, main_v229, main_v230, main_v231, main_v232, main_v233, main_v234, main_v235, main_v236, main_v237, main_v238, main_call3_cst, main_call3_v0, main_v239, main_v240]

set_option maxHeartbeats 4000000 in
theorem seg4_writes : (seg4 : List (HloOp τ sig (Elt F))).Forall fun op => op.writes ⊆ (seg4_W.map (Proc.devRef (τ := τ) .tc)).toFinset := by
  simp only [List.Forall]
  exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

theorem seg4_keep (V : Valuation τ sig (Elt F)) (r : Ref sig .tc) (h : r ∉ seg4_W) :
    after seg4 V (Proc.devRef .tc r) = V (Proc.devRef .tc r) :=
  after_of_writes_sub seg4 V seg4_writes h

end Lists

section OpsF

variable {F : FTy → Type} [FloatOps F]

def embedOpsF (x : (⟨S100000x128, .f32⟩ : BufTy).Contents (Elt F)) (w : (⟨S128x128, .f32⟩ : BufTy).Contents (Elt F)) (b : (⟨S1x128, .f32⟩ : BufTy).Contents (Elt F)) : (⟨S100000x128, .f32⟩ : BufTy).Contents (Elt F) :=
  addf (Host.dotGeneral dot_S100000x128_S128x128_S100000x128_1_0_0_1_n_n none x w)
    (broadcastInDim S100000x128 ![0, 1] bcast_S1x128_S100000x128_0_1 b)

def linOpsF (agg : (⟨S100000x128, .f32⟩ : BufTy).Contents (Elt F)) (invin gn : (⟨S100000x1, .f32⟩ : BufTy).Contents (Elt F)) (w : (⟨S128x128, .f32⟩ : BufTy).Contents (Elt F)) (b : (⟨S1x128, .f32⟩ : BufTy).Contents (Elt F)) : (⟨S100000x128, .f32⟩ : BufTy).Contents (Elt F) :=
  mulf
    (addf
      (Host.dotGeneral dot_S100000x128_S128x128_S100000x128_1_0_0_1_n_n none
        (mulf agg (broadcastInDim S100000x128 ![0, 1] bcast_S100000x1_S100000x128_0_1 invin)) w)
      (broadcastInDim S100000x128 ![0, 1] bcast_S1x128_S100000x128_0_1 b))
    (broadcastInDim S100000x128 ![0, 1] bcast_S100000x1_S100000x128_0_1 gn)

def nVecF : (⟨S128, .f32⟩ : BufTy).Contents (Elt F) :=
  broadcastInDim S128 ![] bcast_S_S128 (constant (F := F) S_ .f32 0x47C35000#32)

def epsVecF : (⟨S128, .f32⟩ : BufTy).Contents (Elt F) :=
  broadcastInDim S128 ![] bcast_S_S128 (constant (F := F) S_ .f32 0x3727C5AC#32)

def meanOpsF (y : (⟨S100000x128, .f32⟩ : BufTy).Contents (Elt F)) : (⟨S128, .f32⟩ : BufTy).Contents (Elt F) :=
  Host.divf (Host.reduceAdd y (constant (F := F) S_ .f32 0x00000000#32) reducesTo_S100000x128_S128_d0 h_S_) (nVecF (F := F))

def cenOpsF (y : (⟨S100000x128, .f32⟩ : BufTy).Contents (Elt F)) : (⟨S100000x128, .f32⟩ : BufTy).Contents (Elt F) :=
  subf y (broadcastInDim S100000x128 ![0, 1] bcast_S1x128_S100000x128_0_1
    (broadcastInDim S1x128 ![1] bcast_S128_S1x128_1 (meanOpsF (F := F) y)))

def varOpsF (y : (⟨S100000x128, .f32⟩ : BufTy).Contents (Elt F)) : (⟨S128, .f32⟩ : BufTy).Contents (Elt F) :=
  Host.divf (Host.reduceAdd (mulf (cenOpsF (F := F) y) (cenOpsF (F := F) y)) (constant (F := F) S_ .f32 0x00000000#32)
    reducesTo_S100000x128_S128_d0 h_S_) (nVecF (F := F))

def bnOpsF (y hin : (⟨S100000x128, .f32⟩ : BufTy).Contents (Elt F)) (gamma beta : (⟨S1x128, .f32⟩ : BufTy).Contents (Elt F)) : (⟨S100000x128, .f32⟩ : BufTy).Contents (Elt F) :=
  addf hin
    (maximumf
      (addf
        (mulf
          (mulf (cenOpsF (F := F) y)
            (broadcastInDim S100000x128 ![0, 1] bcast_S1x128_S100000x128_0_1
              (broadcastInDim S1x128 ![1] bcast_S128_S1x128_1 (Host.rsqrt (addf (varOpsF (F := F) y) (epsVecF (F := F)))))))
          (broadcastInDim S100000x128 ![0, 1] bcast_S1x128_S100000x128_0_1 gamma))
        (broadcastInDim S100000x128 ![0, 1] bcast_S1x128_S100000x128_0_1 beta))
      (broadcastInDim S100000x128 ![] bcast_S_S100000x128 (constant (F := F) S_ .f32 0x00000000#32)))

end OpsF

section ReadingsF

variable {F : FTy → Type} [FloatOps F] (V : Valuation τ sig (Elt F))

theorem seg0F_v13 :
    (after seg0 V (Proc.devRef .tc main_v13) : (⟨S100000x1, .f32⟩ : BufTy).Contents (Elt F)) = Cert.Ops.degOps (V (Proc.devRef .tc main_arg3)) := by
  after_results_simp <;> rfl

theorem seg0F_v16 :
    (after seg0 V (Proc.devRef .tc main_v16) : (⟨S100000x1, .f32⟩ : BufTy).Contents (Elt F)) = Cert.Ops.degOps (V (Proc.devRef .tc main_arg4)) := by
  after_results_simp <;> rfl

theorem seg0F_v20 :
    (after seg0 V (Proc.devRef .tc main_v20) : (⟨S100000x128, .f32⟩ : BufTy).Contents (Elt F))
      = embedOpsF (V (Proc.devRef .tc main_arg0)) (V (Proc.devRef .tc main_arg6)) (Cert.Ops.biasRow (V (Proc.devRef .tc main_arg7))) := by
  after_results_simp <;> rfl

set_option maxHeartbeats 4000000 in
theorem seg1F_v75 :
    (after seg1 V (Proc.devRef .tc main_v75) : (⟨S100000x128, .f32⟩ : BufTy).Contents (Elt F))
      = bnOpsF
          (linOpsF
            (Cert.Ops.aggOps (V (Proc.devRef .tc main_v20)) (V (Proc.devRef .tc main_v13)) (V (Proc.devRef .tc main_arg3)) (V (Proc.devRef .tc main_arg4)))
            (V (Proc.devRef .tc main_v16)) (V (Proc.devRef .tc main_arg2))
            (Cert.Ops.wSliceAt 0 slices_S4x128x128_S1x128x128_0_0_0 (V (Proc.devRef .tc main_arg8)))
            (Cert.Ops.rowSliceAt 0 slices_S4x128_S1x128_0_0 (V (Proc.devRef .tc main_arg9))))
          (V (Proc.devRef .tc main_v20))
          (Cert.Ops.rowSliceAt 0 slices_S4x128_S1x128_0_0 (V (Proc.devRef .tc main_arg10)))
          (Cert.Ops.rowSliceAt 0 slices_S4x128_S1x128_0_0 (V (Proc.devRef .tc main_arg11))) := by
  after_results_simp <;> rfl

set_option maxHeartbeats 4000000 in
theorem seg2F_v130 :
    (after seg2 V (Proc.devRef .tc main_v130) : (⟨S100000x128, .f32⟩ : BufTy).Contents (Elt F))
      = bnOpsF
          (linOpsF
            (Cert.Ops.aggOps (V (Proc.devRef .tc main_v75)) (V (Proc.devRef .tc main_v13)) (V (Proc.devRef .tc main_arg3)) (V (Proc.devRef .tc main_arg4)))
            (V (Proc.devRef .tc main_v16)) (V (Proc.devRef .tc main_arg2))
            (Cert.Ops.wSliceAt 1 slices_S4x128x128_S1x128x128_1_0_0 (V (Proc.devRef .tc main_arg8)))
            (Cert.Ops.rowSliceAt 1 slices_S4x128_S1x128_1_0 (V (Proc.devRef .tc main_arg9))))
          (V (Proc.devRef .tc main_v75))
          (Cert.Ops.rowSliceAt 1 slices_S4x128_S1x128_1_0 (V (Proc.devRef .tc main_arg10)))
          (Cert.Ops.rowSliceAt 1 slices_S4x128_S1x128_1_0 (V (Proc.devRef .tc main_arg11))) := by
  after_results_simp <;> rfl

set_option maxHeartbeats 4000000 in
theorem seg3F_v185 :
    (after seg3 V (Proc.devRef .tc main_v185) : (⟨S100000x128, .f32⟩ : BufTy).Contents (Elt F))
      = bnOpsF
          (linOpsF
            (Cert.Ops.aggOps (V (Proc.devRef .tc main_v130)) (V (Proc.devRef .tc main_v13)) (V (Proc.devRef .tc main_arg3)) (V (Proc.devRef .tc main_arg4)))
            (V (Proc.devRef .tc main_v16)) (V (Proc.devRef .tc main_arg2))
            (Cert.Ops.wSliceAt 2 slices_S4x128x128_S1x128x128_2_0_0 (V (Proc.devRef .tc main_arg8)))
            (Cert.Ops.rowSliceAt 2 slices_S4x128_S1x128_2_0 (V (Proc.devRef .tc main_arg9))))
          (V (Proc.devRef .tc main_v130))
          (Cert.Ops.rowSliceAt 2 slices_S4x128_S1x128_2_0 (V (Proc.devRef .tc main_arg10)))
          (Cert.Ops.rowSliceAt 2 slices_S4x128_S1x128_2_0 (V (Proc.devRef .tc main_arg11))) := by
  after_results_simp <;> rfl

set_option maxHeartbeats 4000000 in
theorem seg4F_v240 :
    (after seg4 V (Proc.devRef .tc main_v240) : (⟨S100000x128, .f32⟩ : BufTy).Contents (Elt F))
      = bnOpsF
          (linOpsF
            (Cert.Ops.aggOps (V (Proc.devRef .tc main_v185)) (V (Proc.devRef .tc main_v13)) (V (Proc.devRef .tc main_arg3)) (V (Proc.devRef .tc main_arg4)))
            (V (Proc.devRef .tc main_v16)) (V (Proc.devRef .tc main_arg2))
            (Cert.Ops.wSliceAt 3 slices_S4x128x128_S1x128x128_3_0_0 (V (Proc.devRef .tc main_arg8)))
            (Cert.Ops.rowSliceAt 3 slices_S4x128_S1x128_3_0 (V (Proc.devRef .tc main_arg9))))
          (V (Proc.devRef .tc main_v185))
          (Cert.Ops.rowSliceAt 3 slices_S4x128_S1x128_3_0 (V (Proc.devRef .tc main_arg10)))
          (Cert.Ops.rowSliceAt 3 slices_S4x128_S1x128_3_0 (V (Proc.devRef .tc main_arg11))) := by
  after_results_simp <;> rfl

theorem seg5F_v253 :
    (after seg5 V (Proc.devRef .tc main_v253) : (⟨S512x10, .f32⟩ : BufTy).Contents (Elt F))
      = Cert.Ops.readoutOps (V (Proc.devRef .tc main_v240)) (V (Proc.devRef .tc main_arg5)) (V (Proc.devRef .tc main_arg12)) := by
  after_results_simp <;> rfl

end ReadingsF

section Readings

theorem embedOpsF_ideal (x : Cert.Fn.ND) (w : Cert.Fn.DD) (b : Cert.Fn.OD) : embedOpsF (F := Ideal) x w b = Cert.RefVal.embedOps x w b := rfl

theorem linOpsF_ideal (agg : Cert.Fn.ND) (invin gn : Cert.Fn.NO) (w : Cert.Fn.DD) (b : Cert.Fn.OD) :
    linOpsF (F := Ideal) agg invin gn w b = Cert.RefVal.linOps agg invin gn w b := rfl

theorem bnOpsF_ideal (y hin : Cert.Fn.ND) (gamma beta : Cert.Fn.OD) : bnOpsF (F := Ideal) y hin gamma beta = Cert.RefVal.bnOps y hin gamma beta := rfl

variable (V : Valuation τ sig (Elt Ideal))

theorem seg0_v13 :
    (after seg0 V (Proc.devRef .tc main_v13) : (⟨S100000x1, .f32⟩ : BufTy).Contents (Elt Ideal)) = Cert.Ops.degOps (V (Proc.devRef .tc main_arg3)) :=
  seg0F_v13 V

theorem seg0_v16 :
    (after seg0 V (Proc.devRef .tc main_v16) : (⟨S100000x1, .f32⟩ : BufTy).Contents (Elt Ideal)) = Cert.Ops.degOps (V (Proc.devRef .tc main_arg4)) :=
  seg0F_v16 V

theorem seg0_v20 :
    (after seg0 V (Proc.devRef .tc main_v20) : Cert.Fn.ND)
      = Cert.RefVal.embedOps (V (Proc.devRef .tc main_arg0)) (V (Proc.devRef .tc main_arg6)) (Cert.Ops.biasRow (V (Proc.devRef .tc main_arg7))) := by
  have h := seg0F_v20 (F := Ideal) V
  rw [embedOpsF_ideal] at h
  exact h

theorem seg1_v75 :
    (after seg1 V (Proc.devRef .tc main_v75) : Cert.Fn.ND)
      = Cert.RefVal.bnOps
          (Cert.RefVal.linOps
            (Cert.Ops.aggOps (V (Proc.devRef .tc main_v20)) (V (Proc.devRef .tc main_v13)) (V (Proc.devRef .tc main_arg3)) (V (Proc.devRef .tc main_arg4)))
            (V (Proc.devRef .tc main_v16)) (V (Proc.devRef .tc main_arg2))
            (Cert.Ops.wSliceAt 0 slices_S4x128x128_S1x128x128_0_0_0 (V (Proc.devRef .tc main_arg8)))
            (Cert.Ops.rowSliceAt 0 slices_S4x128_S1x128_0_0 (V (Proc.devRef .tc main_arg9))))
          (V (Proc.devRef .tc main_v20))
          (Cert.Ops.rowSliceAt 0 slices_S4x128_S1x128_0_0 (V (Proc.devRef .tc main_arg10)))
          (Cert.Ops.rowSliceAt 0 slices_S4x128_S1x128_0_0 (V (Proc.devRef .tc main_arg11))) := by
  have h := seg1F_v75 (F := Ideal) V
  rw [bnOpsF_ideal, linOpsF_ideal] at h
  exact h

theorem seg2_v130 :
    (after seg2 V (Proc.devRef .tc main_v130) : Cert.Fn.ND)
      = Cert.RefVal.bnOps
          (Cert.RefVal.linOps
            (Cert.Ops.aggOps (V (Proc.devRef .tc main_v75)) (V (Proc.devRef .tc main_v13)) (V (Proc.devRef .tc main_arg3)) (V (Proc.devRef .tc main_arg4)))
            (V (Proc.devRef .tc main_v16)) (V (Proc.devRef .tc main_arg2))
            (Cert.Ops.wSliceAt 1 slices_S4x128x128_S1x128x128_1_0_0 (V (Proc.devRef .tc main_arg8)))
            (Cert.Ops.rowSliceAt 1 slices_S4x128_S1x128_1_0 (V (Proc.devRef .tc main_arg9))))
          (V (Proc.devRef .tc main_v75))
          (Cert.Ops.rowSliceAt 1 slices_S4x128_S1x128_1_0 (V (Proc.devRef .tc main_arg10)))
          (Cert.Ops.rowSliceAt 1 slices_S4x128_S1x128_1_0 (V (Proc.devRef .tc main_arg11))) := by
  have h := seg2F_v130 (F := Ideal) V
  rw [bnOpsF_ideal, linOpsF_ideal] at h
  exact h

theorem seg3_v185 :
    (after seg3 V (Proc.devRef .tc main_v185) : Cert.Fn.ND)
      = Cert.RefVal.bnOps
          (Cert.RefVal.linOps
            (Cert.Ops.aggOps (V (Proc.devRef .tc main_v130)) (V (Proc.devRef .tc main_v13)) (V (Proc.devRef .tc main_arg3)) (V (Proc.devRef .tc main_arg4)))
            (V (Proc.devRef .tc main_v16)) (V (Proc.devRef .tc main_arg2))
            (Cert.Ops.wSliceAt 2 slices_S4x128x128_S1x128x128_2_0_0 (V (Proc.devRef .tc main_arg8)))
            (Cert.Ops.rowSliceAt 2 slices_S4x128_S1x128_2_0 (V (Proc.devRef .tc main_arg9))))
          (V (Proc.devRef .tc main_v130))
          (Cert.Ops.rowSliceAt 2 slices_S4x128_S1x128_2_0 (V (Proc.devRef .tc main_arg10)))
          (Cert.Ops.rowSliceAt 2 slices_S4x128_S1x128_2_0 (V (Proc.devRef .tc main_arg11))) := by
  have h := seg3F_v185 (F := Ideal) V
  rw [bnOpsF_ideal, linOpsF_ideal] at h
  exact h

theorem seg4_v240 :
    (after seg4 V (Proc.devRef .tc main_v240) : Cert.Fn.ND)
      = Cert.RefVal.bnOps
          (Cert.RefVal.linOps
            (Cert.Ops.aggOps (V (Proc.devRef .tc main_v185)) (V (Proc.devRef .tc main_v13)) (V (Proc.devRef .tc main_arg3)) (V (Proc.devRef .tc main_arg4)))
            (V (Proc.devRef .tc main_v16)) (V (Proc.devRef .tc main_arg2))
            (Cert.Ops.wSliceAt 3 slices_S4x128x128_S1x128x128_3_0_0 (V (Proc.devRef .tc main_arg8)))
            (Cert.Ops.rowSliceAt 3 slices_S4x128_S1x128_3_0 (V (Proc.devRef .tc main_arg9))))
          (V (Proc.devRef .tc main_v185))
          (Cert.Ops.rowSliceAt 3 slices_S4x128_S1x128_3_0 (V (Proc.devRef .tc main_arg10)))
          (Cert.Ops.rowSliceAt 3 slices_S4x128_S1x128_3_0 (V (Proc.devRef .tc main_arg11))) := by
  have h := seg4F_v240 (F := Ideal) V
  rw [bnOpsF_ideal, linOpsF_ideal] at h
  exact h

theorem seg5_v253 :
    (after seg5 V (Proc.devRef .tc main_v253) : (⟨S512x10, .f32⟩ : BufTy).Contents (Elt Ideal))
      = Cert.Ops.readoutOps (V (Proc.devRef .tc main_v240)) (V (Proc.devRef .tc main_arg5)) (V (Proc.devRef .tc main_arg12)) :=
  seg5F_v253 V

end Readings

end Cert.RefSeg

end
-- ==== Proof.RefEq.lean ====
import proofs.«164939_j7129645711575_2_alg».proof.Proof.RunP
import proofs.«164939_j7129645711575_2_alg».proof.Proof.ReadP
import proofs.«164939_j7129645711575_2_alg».proof.Proof.RefVal
import proofs.«164939_j7129645711575_2_alg».proof.Proof.RefSeg

set_option maxRecDepth 16384

noncomputable section

namespace Cert.RefEq

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo
open Cert.RefVal Cert.RefSeg Cert.Ops Cert.Fn

theorem after_app {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

set_option maxRecDepth 8192 in
set_option maxHeartbeats 4000000 in

theorem ops_eq {F : FTy → Type} [FloatOps F] :
    (ops : List (HloOp τ sig (Elt F))) = seg0 ++ (seg1 ++ (seg2 ++ (seg3 ++ (seg4 ++ seg5)))) := rfl

variable (m : (ℓ : Loc nD τ sig) → Buf (Elt Ideal) ℓ) (c : Dev nD)

abbrev a0 : (⟨S100000x128, .f32⟩ : BufTy).Contents (Elt Ideal) := m ((c.tc : Thread nD τ).loc main_arg0)

abbrev a2 : (⟨S100000x1, .f32⟩ : BufTy).Contents (Elt Ideal) := m ((c.tc : Thread nD τ).loc main_arg2)

abbrev a3 : (⟨S1600000, .i32⟩ : BufTy).Contents (Elt Ideal) := m ((c.tc : Thread nD τ).loc main_arg3)

abbrev a4 : (⟨S1600000, .i32⟩ : BufTy).Contents (Elt Ideal) := m ((c.tc : Thread nD τ).loc main_arg4)

abbrev a5 : (⟨S100000, .i32⟩ : BufTy).Contents (Elt Ideal) := m ((c.tc : Thread nD τ).loc main_arg5)

abbrev a6 : (⟨S128x128, .f32⟩ : BufTy).Contents (Elt Ideal) := m ((c.tc : Thread nD τ).loc main_arg6)

abbrev a7 : (⟨S128, .f32⟩ : BufTy).Contents (Elt Ideal) := m ((c.tc : Thread nD τ).loc main_arg7)

abbrev a8 : (⟨S4x128x128, .f32⟩ : BufTy).Contents (Elt Ideal) := m ((c.tc : Thread nD τ).loc main_arg8)

abbrev a9 : (⟨S4x128, .f32⟩ : BufTy).Contents (Elt Ideal) := m ((c.tc : Thread nD τ).loc main_arg9)

abbrev a10 : (⟨S4x128, .f32⟩ : BufTy).Contents (Elt Ideal) := m ((c.tc : Thread nD τ).loc main_arg10)

abbrev a11 : (⟨S4x128, .f32⟩ : BufTy).Contents (Elt Ideal) := m ((c.tc : Thread nD τ).loc main_arg11)

abbrev a12 : (⟨S128x10, .f32⟩ : BufTy).Contents (Elt Ideal) := m ((c.tc : Thread nD τ).loc main_arg12)

abbrev V0 : Valuation τ sig (Elt Ideal) := launchContents m c

abbrev V1 : Valuation τ sig (Elt Ideal) := after seg0 (V0 m c)

abbrev V2 : Valuation τ sig (Elt Ideal) := after seg1 (V1 m c)

abbrev V3 : Valuation τ sig (Elt Ideal) := after seg2 (V2 m c)

abbrev V4 : Valuation τ sig (Elt Ideal) := after seg3 (V3 m c)

abbrev V5 : Valuation τ sig (Elt Ideal) := after seg4 (V4 m c)

theorem res_eq : res_main_v253 m c = after seg5 (V5 m c) (Proc.devRef .tc main_v253) := by
  show after ops (launchContents m c) (Proc.devRef .tc main_v253) = _
  rw [ops_eq, after_app, after_app, after_app, after_app, after_app]

theorem arg2_at1 : V1 m c (Proc.devRef .tc main_arg2) = a2 m c := (seg0_keep (V0 m c) main_arg2 (by decide))

theorem arg3_at1 : V1 m c (Proc.devRef .tc main_arg3) = a3 m c := (seg0_keep (V0 m c) main_arg3 (by decide))

theorem arg4_at1 : V1 m c (Proc.devRef .tc main_arg4) = a4 m c := (seg0_keep (V0 m c) main_arg4 (by decide))

theorem arg8_at1 : V1 m c (Proc.devRef .tc main_arg8) = a8 m c := (seg0_keep (V0 m c) main_arg8 (by decide))

theorem arg9_at1 : V1 m c (Proc.devRef .tc main_arg9) = a9 m c := (seg0_keep (V0 m c) main_arg9 (by decide))

theorem arg10_at1 : V1 m c (Proc.devRef .tc main_arg10) = a10 m c := (seg0_keep (V0 m c) main_arg10 (by decide))

theorem arg11_at1 : V1 m c (Proc.devRef .tc main_arg11) = a11 m c := (seg0_keep (V0 m c) main_arg11 (by decide))

theorem arg2_at2 : V2 m c (Proc.devRef .tc main_arg2) = a2 m c := ((seg1_keep (V1 m c) main_arg2 (by decide)).trans (seg0_keep (V0 m c) main_arg2 (by decide)))

theorem arg3_at2 : V2 m c (Proc.devRef .tc main_arg3) = a3 m c := ((seg1_keep (V1 m c) main_arg3 (by decide)).trans (seg0_keep (V0 m c) main_arg3 (by decide)))

theorem arg4_at2 : V2 m c (Proc.devRef .tc main_arg4) = a4 m c := ((seg1_keep (V1 m c) main_arg4 (by decide)).trans (seg0_keep (V0 m c) main_arg4 (by decide)))

theorem arg8_at2 : V2 m c (Proc.devRef .tc main_arg8) = a8 m c := ((seg1_keep (V1 m c) main_arg8 (by decide)).trans (seg0_keep (V0 m c) main_arg8 (by decide)))

theorem arg9_at2 : V2 m c (Proc.devRef .tc main_arg9) = a9 m c := ((seg1_keep (V1 m c) main_arg9 (by decide)).trans (seg0_keep (V0 m c) main_arg9 (by decide)))

theorem arg10_at2 : V2 m c (Proc.devRef .tc main_arg10) = a10 m c := ((seg1_keep (V1 m c) main_arg10 (by decide)).trans (seg0_keep (V0 m c) main_arg10 (by decide)))

theorem arg11_at2 : V2 m c (Proc.devRef .tc main_arg11) = a11 m c := ((seg1_keep (V1 m c) main_arg11 (by decide)).trans (seg0_keep (V0 m c) main_arg11 (by decide)))

theorem arg2_at3 : V3 m c (Proc.devRef .tc main_arg2) = a2 m c := ((seg2_keep (V2 m c) main_arg2 (by decide)).trans ((seg1_keep (V1 m c) main_arg2 (by decide)).trans (seg0_keep (V0 m c) main_arg2 (by decide))))

theorem arg3_at3 : V3 m c (Proc.devRef .tc main_arg3) = a3 m c := ((seg2_keep (V2 m c) main_arg3 (by decide)).trans ((seg1_keep (V1 m c) main_arg3 (by decide)).trans (seg0_keep (V0 m c) main_arg3 (by decide))))

theorem arg4_at3 : V3 m c (Proc.devRef .tc main_arg4) = a4 m c := ((seg2_keep (V2 m c) main_arg4 (by decide)).trans ((seg1_keep (V1 m c) main_arg4 (by decide)).trans (seg0_keep (V0 m c) main_arg4 (by decide))))

theorem arg8_at3 : V3 m c (Proc.devRef .tc main_arg8) = a8 m c := ((seg2_keep (V2 m c) main_arg8 (by decide)).trans ((seg1_keep (V1 m c) main_arg8 (by decide)).trans (seg0_keep (V0 m c) main_arg8 (by decide))))

theorem arg9_at3 : V3 m c (Proc.devRef .tc main_arg9) = a9 m c := ((seg2_keep (V2 m c) main_arg9 (by decide)).trans ((seg1_keep (V1 m c) main_arg9 (by decide)).trans (seg0_keep (V0 m c) main_arg9 (by decide))))

theorem arg10_at3 : V3 m c (Proc.devRef .tc main_arg10) = a10 m c := ((seg2_keep (V2 m c) main_arg10 (by decide)).trans ((seg1_keep (V1 m c) main_arg10 (by decide)).trans (seg0_keep (V0 m c) main_arg10 (by decide))))

theorem arg11_at3 : V3 m c (Proc.devRef .tc main_arg11) = a11 m c := ((seg2_keep (V2 m c) main_arg11 (by decide)).trans ((seg1_keep (V1 m c) main_arg11 (by decide)).trans (seg0_keep (V0 m c) main_arg11 (by decide))))

theorem arg2_at4 : V4 m c (Proc.devRef .tc main_arg2) = a2 m c := ((seg3_keep (V3 m c) main_arg2 (by decide)).trans ((seg2_keep (V2 m c) main_arg2 (by decide)).trans ((seg1_keep (V1 m c) main_arg2 (by decide)).trans (seg0_keep (V0 m c) main_arg2 (by decide)))))

theorem arg3_at4 : V4 m c (Proc.devRef .tc main_arg3) = a3 m c := ((seg3_keep (V3 m c) main_arg3 (by decide)).trans ((seg2_keep (V2 m c) main_arg3 (by decide)).trans ((seg1_keep (V1 m c) main_arg3 (by decide)).trans (seg0_keep (V0 m c) main_arg3 (by decide)))))

theorem arg4_at4 : V4 m c (Proc.devRef .tc main_arg4) = a4 m c := ((seg3_keep (V3 m c) main_arg4 (by decide)).trans ((seg2_keep (V2 m c) main_arg4 (by decide)).trans ((seg1_keep (V1 m c) main_arg4 (by decide)).trans (seg0_keep (V0 m c) main_arg4 (by decide)))))

theorem arg8_at4 : V4 m c (Proc.devRef .tc main_arg8) = a8 m c := ((seg3_keep (V3 m c) main_arg8 (by decide)).trans ((seg2_keep (V2 m c) main_arg8 (by decide)).trans ((seg1_keep (V1 m c) main_arg8 (by decide)).trans (seg0_keep (V0 m c) main_arg8 (by decide)))))

theorem arg9_at4 : V4 m c (Proc.devRef .tc main_arg9) = a9 m c := ((seg3_keep (V3 m c) main_arg9 (by decide)).trans ((seg2_keep (V2 m c) main_arg9 (by decide)).trans ((seg1_keep (V1 m c) main_arg9 (by decide)).trans (seg0_keep (V0 m c) main_arg9 (by decide)))))

theorem arg10_at4 : V4 m c (Proc.devRef .tc main_arg10) = a10 m c := ((seg3_keep (V3 m c) main_arg10 (by decide)).trans ((seg2_keep (V2 m c) main_arg10 (by decide)).trans ((seg1_keep (V1 m c) main_arg10 (by decide)).trans (seg0_keep (V0 m c) main_arg10 (by decide)))))

theorem arg11_at4 : V4 m c (Proc.devRef .tc main_arg11) = a11 m c := ((seg3_keep (V3 m c) main_arg11 (by decide)).trans ((seg2_keep (V2 m c) main_arg11 (by decide)).trans ((seg1_keep (V1 m c) main_arg11 (by decide)).trans (seg0_keep (V0 m c) main_arg11 (by decide)))))

theorem arg5_at5 : V5 m c (Proc.devRef .tc main_arg5) = a5 m c := ((seg4_keep (V4 m c) main_arg5 (by decide)).trans ((seg3_keep (V3 m c) main_arg5 (by decide)).trans ((seg2_keep (V2 m c) main_arg5 (by decide)).trans ((seg1_keep (V1 m c) main_arg5 (by decide)).trans (seg0_keep (V0 m c) main_arg5 (by decide))))))

theorem arg12_at5 : V5 m c (Proc.devRef .tc main_arg12) = a12 m c := ((seg4_keep (V4 m c) main_arg12 (by decide)).trans ((seg3_keep (V3 m c) main_arg12 (by decide)).trans ((seg2_keep (V2 m c) main_arg12 (by decide)).trans ((seg1_keep (V1 m c) main_arg12 (by decide)).trans (seg0_keep (V0 m c) main_arg12 (by decide))))))

theorem v13_at1 : V1 m c (Proc.devRef .tc main_v13) = val_main_v13 (F := Ideal) (a3 m c) :=
  (seg0_v13 (V0 m c)).trans (degOut_eq (F := Ideal) (a3 m c)).symm

theorem v16_at1 : V1 m c (Proc.devRef .tc main_v16) = val_main_v16 (F := Ideal) (a4 m c) :=
  (seg0_v16 (V0 m c)).trans (degIn_eq (F := Ideal) (a4 m c)).symm

theorem v13_at2 : V2 m c (Proc.devRef .tc main_v13) = val_main_v13 (F := Ideal) (a3 m c) :=
  (seg1_keep (V1 m c) main_v13 (by decide)).trans (v13_at1 m c)

theorem v16_at2 : V2 m c (Proc.devRef .tc main_v16) = val_main_v16 (F := Ideal) (a4 m c) :=
  (seg1_keep (V1 m c) main_v16 (by decide)).trans (v16_at1 m c)

theorem v13_at3 : V3 m c (Proc.devRef .tc main_v13) = val_main_v13 (F := Ideal) (a3 m c) :=
  (seg2_keep (V2 m c) main_v13 (by decide)).trans (v13_at2 m c)

theorem v16_at3 : V3 m c (Proc.devRef .tc main_v16) = val_main_v16 (F := Ideal) (a4 m c) :=
  (seg2_keep (V2 m c) main_v16 (by decide)).trans (v16_at2 m c)

theorem v13_at4 : V4 m c (Proc.devRef .tc main_v13) = val_main_v13 (F := Ideal) (a3 m c) :=
  (seg3_keep (V3 m c) main_v13 (by decide)).trans (v13_at3 m c)

theorem v16_at4 : V4 m c (Proc.devRef .tc main_v16) = val_main_v16 (F := Ideal) (a4 m c) :=
  (seg3_keep (V3 m c) main_v16 (by decide)).trans (v16_at3 m c)

theorem embed_ops (x0 : (⟨S100000x128, .f32⟩ : BufTy).Contents (Elt Ideal)) (x6 : (⟨S128x128, .f32⟩ : BufTy).Contents (Elt Ideal)) (x7 : (⟨S128, .f32⟩ : BufTy).Contents (Elt Ideal)) :
    val_main_v20 (F := Ideal) x0 x6 x7 = embedOps x0 x6 (Cert.Ops.biasRow x7) := rfl

theorem stage0 : V1 m c (Proc.devRef .tc main_v20) = val_main_v20 (F := Ideal) (a0 m c) (a6 m c) (a7 m c) :=
  (seg0_v20 (V0 m c)).trans (embed_ops (a0 m c) (a6 m c) (a7 m c)).symm

theorem w1_at : Cert.Ops.wSliceAt 0 slices_S4x128x128_S1x128x128_0_0_0 (V1 m c (Proc.devRef .tc main_arg8)) = val_main_v36 (F := Ideal) (a8 m c) :=
  (congrArg (Cert.Ops.wSliceAt 0 slices_S4x128x128_S1x128x128_0_0_0) (arg8_at1 m c)).trans (wSlice1_eq (F := Ideal) (a8 m c)).symm

theorem b1_at : Cert.Ops.rowSliceAt 0 slices_S4x128_S1x128_0_0 (V1 m c (Proc.devRef .tc main_arg9)) = val_main_v40 (F := Ideal) (a9 m c) :=
  (congrArg (Cert.Ops.rowSliceAt 0 slices_S4x128_S1x128_0_0) (arg9_at1 m c)).trans (bSlice1_eq (F := Ideal) (a9 m c)).symm

theorem g1_at : Cert.Ops.rowSliceAt 0 slices_S4x128_S1x128_0_0 (V1 m c (Proc.devRef .tc main_arg10)) = val_main_v66 (F := Ideal) (a10 m c) :=
  (congrArg (Cert.Ops.rowSliceAt 0 slices_S4x128_S1x128_0_0) (arg10_at1 m c)).trans (gSlice1_eq (F := Ideal) (a10 m c)).symm

theorem bt1_at : Cert.Ops.rowSliceAt 0 slices_S4x128_S1x128_0_0 (V1 m c (Proc.devRef .tc main_arg11)) = val_main_v71 (F := Ideal) (a11 m c) :=
  (congrArg (Cert.Ops.rowSliceAt 0 slices_S4x128_S1x128_0_0) (arg11_at1 m c)).trans (betaSlice1_eq (F := Ideal) (a11 m c)).symm

theorem stage1 : V2 m c (Proc.devRef .tc main_v75) = val_main_v75 (F := Ideal) (a0 m c) (a2 m c) (a3 m c) (a4 m c) (a6 m c) (a7 m c) (a8 m c) (a9 m c) (a10 m c) (a11 m c) :=
  (seg1_v75 (V1 m c)).trans
    ((layerOps_congr (stage0 m c) (v13_at1 m c) (v16_at1 m c) (arg2_at1 m c) (arg3_at1 m c) (arg4_at1 m c)
        (w1_at m c) (b1_at m c) (g1_at m c) (bt1_at m c)).trans
      (layer1_ops (a0 m c) (a2 m c) (a3 m c) (a4 m c) (a6 m c) (a7 m c) (a8 m c) (a9 m c) (a10 m c) (a11 m c)).symm)

theorem w2_at : Cert.Ops.wSliceAt 1 slices_S4x128x128_S1x128x128_1_0_0 (V2 m c (Proc.devRef .tc main_arg8)) = val_main_v91 (F := Ideal) (a8 m c) :=
  (congrArg (Cert.Ops.wSliceAt 1 slices_S4x128x128_S1x128x128_1_0_0) (arg8_at2 m c)).trans (wSlice2_eq (F := Ideal) (a8 m c)).symm

theorem b2_at : Cert.Ops.rowSliceAt 1 slices_S4x128_S1x128_1_0 (V2 m c (Proc.devRef .tc main_arg9)) = val_main_v95 (F := Ideal) (a9 m c) :=
  (congrArg (Cert.Ops.rowSliceAt 1 slices_S4x128_S1x128_1_0) (arg9_at2 m c)).trans (bSlice2_eq (F := Ideal) (a9 m c)).symm

theorem g2_at : Cert.Ops.rowSliceAt 1 slices_S4x128_S1x128_1_0 (V2 m c (Proc.devRef .tc main_arg10)) = val_main_v121 (F := Ideal) (a10 m c) :=
  (congrArg (Cert.Ops.rowSliceAt 1 slices_S4x128_S1x128_1_0) (arg10_at2 m c)).trans (gSlice2_eq (F := Ideal) (a10 m c)).symm

theorem bt2_at : Cert.Ops.rowSliceAt 1 slices_S4x128_S1x128_1_0 (V2 m c (Proc.devRef .tc main_arg11)) = val_main_v126 (F := Ideal) (a11 m c) :=
  (congrArg (Cert.Ops.rowSliceAt 1 slices_S4x128_S1x128_1_0) (arg11_at2 m c)).trans (betaSlice2_eq (F := Ideal) (a11 m c)).symm

theorem stage2 : V3 m c (Proc.devRef .tc main_v130) = val_main_v130 (F := Ideal) (a0 m c) (a2 m c) (a3 m c) (a4 m c) (a6 m c) (a7 m c) (a8 m c) (a9 m c) (a10 m c) (a11 m c) :=
  (seg2_v130 (V2 m c)).trans
    ((layerOps_congr (stage1 m c) (v13_at2 m c) (v16_at2 m c) (arg2_at2 m c) (arg3_at2 m c) (arg4_at2 m c)
        (w2_at m c) (b2_at m c) (g2_at m c) (bt2_at m c)).trans
      (layer2_ops (a0 m c) (a2 m c) (a3 m c) (a4 m c) (a6 m c) (a7 m c) (a8 m c) (a9 m c) (a10 m c) (a11 m c)).symm)

theorem w3_at : Cert.Ops.wSliceAt 2 slices_S4x128x128_S1x128x128_2_0_0 (V3 m c (Proc.devRef .tc main_arg8)) = val_main_v146 (F := Ideal) (a8 m c) :=
  (congrArg (Cert.Ops.wSliceAt 2 slices_S4x128x128_S1x128x128_2_0_0) (arg8_at3 m c)).trans (wSlice3_eq (F := Ideal) (a8 m c)).symm

theorem b3_at : Cert.Ops.rowSliceAt 2 slices_S4x128_S1x128_2_0 (V3 m c (Proc.devRef .tc main_arg9)) = val_main_v150 (F := Ideal) (a9 m c) :=
  (congrArg (Cert.Ops.rowSliceAt 2 slices_S4x128_S1x128_2_0) (arg9_at3 m c)).trans (bSlice3_eq (F := Ideal) (a9 m c)).symm

theorem g3_at : Cert.Ops.rowSliceAt 2 slices_S4x128_S1x128_2_0 (V3 m c (Proc.devRef .tc main_arg10)) = val_main_v176 (F := Ideal) (a10 m c) :=
  (congrArg (Cert.Ops.rowSliceAt 2 slices_S4x128_S1x128_2_0) (arg10_at3 m c)).trans (gSlice3_eq (F := Ideal) (a10 m c)).symm

theorem bt3_at : Cert.Ops.rowSliceAt 2 slices_S4x128_S1x128_2_0 (V3 m c (Proc.devRef .tc main_arg11)) = val_main_v181 (F := Ideal) (a11 m c) :=
  (congrArg (Cert.Ops.rowSliceAt 2 slices_S4x128_S1x128_2_0) (arg11_at3 m c)).trans (betaSlice3_eq (F := Ideal) (a11 m c)).symm

theorem stage3 : V4 m c (Proc.devRef .tc main_v185) = val_main_v185 (F := Ideal) (a0 m c) (a2 m c) (a3 m c) (a4 m c) (a6 m c) (a7 m c) (a8 m c) (a9 m c) (a10 m c) (a11 m c) :=
  (seg3_v185 (V3 m c)).trans
    ((layerOps_congr (stage2 m c) (v13_at3 m c) (v16_at3 m c) (arg2_at3 m c) (arg3_at3 m c) (arg4_at3 m c)
        (w3_at m c) (b3_at m c) (g3_at m c) (bt3_at m c)).trans
      (layer3_ops (a0 m c) (a2 m c) (a3 m c) (a4 m c) (a6 m c) (a7 m c) (a8 m c) (a9 m c) (a10 m c) (a11 m c)).symm)

theorem w4_at : Cert.Ops.wSliceAt 3 slices_S4x128x128_S1x128x128_3_0_0 (V4 m c (Proc.devRef .tc main_arg8)) = val_main_v201 (F := Ideal) (a8 m c) :=
  (congrArg (Cert.Ops.wSliceAt 3 slices_S4x128x128_S1x128x128_3_0_0) (arg8_at4 m c)).trans (wSlice4_eq (F := Ideal) (a8 m c)).symm

theorem b4_at : Cert.Ops.rowSliceAt 3 slices_S4x128_S1x128_3_0 (V4 m c (Proc.devRef .tc main_arg9)) = val_main_v205 (F := Ideal) (a9 m c) :=
  (congrArg (Cert.Ops.rowSliceAt 3 slices_S4x128_S1x128_3_0) (arg9_at4 m c)).trans (bSlice4_eq (F := Ideal) (a9 m c)).symm

theorem g4_at : Cert.Ops.rowSliceAt 3 slices_S4x128_S1x128_3_0 (V4 m c (Proc.devRef .tc main_arg10)) = val_main_v231 (F := Ideal) (a10 m c) :=
  (congrArg (Cert.Ops.rowSliceAt 3 slices_S4x128_S1x128_3_0) (arg10_at4 m c)).trans (gSlice4_eq (F := Ideal) (a10 m c)).symm

theorem bt4_at : Cert.Ops.rowSliceAt 3 slices_S4x128_S1x128_3_0 (V4 m c (Proc.devRef .tc main_arg11)) = val_main_v236 (F := Ideal) (a11 m c) :=
  (congrArg (Cert.Ops.rowSliceAt 3 slices_S4x128_S1x128_3_0) (arg11_at4 m c)).trans (betaSlice4_eq (F := Ideal) (a11 m c)).symm

theorem stage4 : V5 m c (Proc.devRef .tc main_v240) = val_main_v240 (F := Ideal) (a0 m c) (a2 m c) (a3 m c) (a4 m c) (a6 m c) (a7 m c) (a8 m c) (a9 m c) (a10 m c) (a11 m c) :=
  (seg4_v240 (V4 m c)).trans
    ((layerOps_congr (stage3 m c) (v13_at4 m c) (v16_at4 m c) (arg2_at4 m c) (arg3_at4 m c) (arg4_at4 m c)
        (w4_at m c) (b4_at m c) (g4_at m c) (bt4_at m c)).trans
      (layer4_ops (a0 m c) (a2 m c) (a3 m c) (a4 m c) (a6 m c) (a7 m c) (a8 m c) (a9 m c) (a10 m c) (a11 m c)).symm)

theorem readout_congr {h h' : (⟨S100000x128, .f32⟩ : BufTy).Contents (Elt Ideal)} {x5 x5' : (⟨S100000, .i32⟩ : BufTy).Contents (Elt Ideal)} {x12 x12' : (⟨S128x10, .f32⟩ : BufTy).Contents (Elt Ideal)}
    (e0 : h = h') (e1 : x5 = x5') (e2 : x12 = x12') :
    Cert.Ops.readoutOps h x5 x12 = Cert.Ops.readoutOps h' x5' x12' := by
  subst e0 e1 e2; rfl

theorem val_main_v253_eq :
    res_main_v253 m c = val_main_v253 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (res_eq m c).trans ((seg5_v253 (V5 m c)).trans
    ((readout_congr (stage4 m c) (arg5_at5 m c) (arg12_at5 m c)).trans (readout_eq (F := Ideal) (a0 m c) (a2 m c) (a3 m c) (a4 m c) (a5 m c) (a6 m c) (a7 m c) (a8 m c) (a9 m c) (a10 m c) (a11 m c) (a12 m c)).symm))

end Cert.RefEq

end
-- ==== Proof.Alg.lean ====
import proofs.«164939_j7129645711575_2_alg».proof.Defs
import proofs.«164939_j7129645711575_2_alg».proof.Proof.Gen.KernelIdeal
import proofs.«164939_j7129645711575_2_alg».proof.Proof.Gen.ReferenceIdeal
import proofs.«164939_j7129645711575_2_alg».proof.Proof.Gen.Pre_finite_inputs
import proofs.«164939_j7129645711575_2_alg».proof.Proof.KI.Run
import proofs.«164939_j7129645711575_2_alg».proof.Proof.KI.Net
import proofs.«164939_j7129645711575_2_alg».proof.Proof.Bridge
import proofs.«164939_j7129645711575_2_alg».proof.Proof.FinNet
import proofs.«164939_j7129645711575_2_alg».proof.Proof.FinArgs
import proofs.«164939_j7129645711575_2_alg».proof.Proof.RunP
import proofs.«164939_j7129645711575_2_alg».proof.Proof.ReadP
import proofs.«164939_j7129645711575_2_alg».proof.Proof.RefEq

set_option maxRecDepth 16384

noncomputable section

namespace Cert.Proof

open Idealize.ShloMosaic Idealize.SL.Sem
open Cert.Spec

-- Both results are one network of the arguments; the two variance formulas agree because every entry of a layer's linear output is finite (a real number, not ±∞).
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  obtain ⟨h0, h1, h2, h6, h7, h8, h9, h10, h11, h12⟩ := Cert.FinArgs.allFin_args m hpre c
  rw [Cert.RefEq.val_main_v253_eq, e0, e2, e3, e4, e5, e6, e7, e8, e9, e10, e11, e12]
  refine Eq.trans ?_ (Cert.KernelIdeal.Hand.net_eq m ρ c).symm
  have f20 := Cert.FinNet.fin20 _ _ _ h0 h6 h7
  have f75 := Cert.FinNet.fin75_of_args _ _ (Cert.KernelIdeal.Hand.A3 m c) (Cert.KernelIdeal.Hand.A4 m c) _ _ _ _ _ _
    h0 h2 h6 h7 h8 h9 h10 h11
  have f130 := Cert.FinNet.fin130_of_args _ _ (Cert.KernelIdeal.Hand.A3 m c) (Cert.KernelIdeal.Hand.A4 m c) _ _ _ _ _ _
    h0 h2 h6 h7 h8 h9 h10 h11
  have f185 := Cert.FinNet.fin185_of_args _ _ (Cert.KernelIdeal.Hand.A3 m c) (Cert.KernelIdeal.Hand.A4 m c) _ _ _ _ _ _
    h0 h2 h6 h7 h8 h9 h10 h11
  exact (Cert.Bridge.netK_eq_ref _ _ _ _ (Cert.KernelIdeal.Hand.A5 m c) _ _ _ _ _ _ (Cert.KernelIdeal.Hand.A12 m c)
    (Cert.FinNet.fin44 _ _ (Cert.KernelIdeal.Hand.A3 m c) (Cert.KernelIdeal.Hand.A4 m c) _ _ _ _ f20 h2 h8 h9)
    (Cert.FinNet.fin99 _ _ _ _ _ _ _ _ _ _ f75 h2 h8 h9)
    (Cert.FinNet.fin154 _ _ _ _ _ _ _ _ _ _ f130 h2 h8 h9)
    (Cert.FinNet.fin209 _ _ _ _ _ _ _ _ _ _ f185 h2 h8 h9)).symm

end Cert.Proof

end
-- ==== Proof.lean ====
import proofs.«164939_j7129645711575_2_alg».proof.Defs
import proofs.«164939_j7129645711575_2_alg».proof.Proof.Gen.Kernel
import proofs.«164939_j7129645711575_2_alg».proof.Proof.Gen.KernelIdeal
import proofs.«164939_j7129645711575_2_alg».proof.Proof.Gen.ReferenceIdeal
import proofs.«164939_j7129645711575_2_alg».proof.Proof.Gen.Pre_finite_inputs
import proofs.«164939_j7129645711575_2_alg».proof.Proof.K.Run
import proofs.«164939_j7129645711575_2_alg».proof.Proof.KI.Run
import proofs.«164939_j7129645711575_2_alg».proof.Proof.RunP
import proofs.«164939_j7129645711575_2_alg».proof.Proof.Alg

noncomputable section

namespace Cert.Proof

open Idealize.ShloMosaic Idealize.SL.Sem

theorem frame_K : Cert.frame_Kernel (hKernel := Cert.Kernel.Gen.facts) (hPre_finite_inputs := Cert.Pre_finite_inputs.Gen.facts) := fun m ρ _ => Cert.Kernel.Hand.frame m ρ

theorem frame_KI : Cert.frame_KernelIdeal (hKernelIdeal := Cert.KernelIdeal.Gen.facts) (hPre_finite_inputs := Cert.Pre_finite_inputs.Gen.facts) := fun m ρ _ => Cert.KernelIdeal.Hand.frame m ρ

-- The reference has no kernel: its frame is its run with the result dropped.
theorem frame_R : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

-- The idealization rewrote no operation, so there is nothing to preserve.
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_K, frame_KI, frame_R, preserves, algebraic⟩

end Cert.Proof

end
